-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v380)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v380) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v436) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x2x800000 : Shape := ⟨3, ![4, 2, 800000]⟩
abbrev S4x800000 : Shape := ⟨2, ![4, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S4x2x800000 32) (main_arg2 : FVec F S4x800000 .f32) (main_arg3 : FVec F S128x128 .f32) (main_arg4 : FVec F S128 .f32) (main_arg5 : FVec F S128x128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x800000 .f32 := Host.absf main_arg2
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S4x2x800000 : Shape := ⟨3, ![4, 2, 800000]⟩
abbrev S4x800000 : Shape := ⟨2, ![4, 800000]⟩
abbrev S128x128 : Shape := ⟨2, ![128, 128]⟩
abbrev S128 : Shape := ⟨1, ![128]⟩
abbrev S1x1x800000 : Shape := ⟨3, ![1, 1, 800000]⟩
abbrev S800000 : Shape := ⟨1, ![800000]⟩
abbrev S1x800000 : Shape := ⟨2, ![1, 800000]⟩
abbrev S5000x128 : Shape := ⟨2, ![5000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S5000x1 : Shape := ⟨2, ![5000, 1]⟩
abbrev S1x128 : Shape := ⟨2, ![1, 128]⟩
abbrev S1x50000x128 : Shape := ⟨3, ![1, 50000, 128]⟩
abbrev S4x50000x128 : Shape := ⟨3, ![4, 50000, 128]⟩

abbrev nBuf : Space → Nat
  | .hbm => 485
  | .vmem => 136
  | .smem => 0
  | _ => 0

abbrev hbmTy0_0 (i : Nat) : BufTy := match i % 128 with
  | 0 => ⟨S50000x128, .f32⟩
  | 1 => ⟨S4x2x800000, .i32⟩
  | 2 => ⟨S4x800000, .f32⟩
  | 3 => ⟨S128x128, .f32⟩
  | 4 => ⟨S128, .f32⟩
  | 5 => ⟨S128x128, .f32⟩
  | 6 => ⟨S128, .f32⟩
  | 7 => ⟨S128, .f32⟩
  | 8 => ⟨S1x1x800000, .i32⟩
  | 9 => ⟨S800000, .i32⟩
  | 10 => ⟨S1x1x800000, .i32⟩
  | 11 => ⟨S800000, .i32⟩
  | 12 => ⟨S1x800000, .f32⟩
  | 13 => ⟨S800000, .f32⟩
  | 14 => ⟨S50000x128, .f32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S1x128, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S50000, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S1x128, .f32⟩
  | 125 => ⟨S50000x128, .f32⟩
  | 126 => ⟨S1x1x800000, .i32⟩
  | 127 => ⟨S800000, .i32⟩
  | _ => ⟨S50000x128, .f32⟩

abbrev hbmTy0_1 (i : Nat) : BufTy := match i % 128 with
  | 0 => ⟨S1x1x800000, .i32⟩
  | 1 => ⟨S800000, .i32⟩
  | 2 => ⟨S1x800000, .f32⟩
  | 3 => ⟨S800000, .f32⟩
  | 4 => ⟨S50000x128, .f32⟩
  | 5 => ⟨S50000, .i32⟩
  | 6 => ⟨S850000, .i32⟩
  | 7 => ⟨S850000, .i32⟩
  | 8 => ⟨S_, .f32⟩
  | 9 => ⟨S50000, .f32⟩
  | 10 => ⟨S850000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S850000x1, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x128, .f32⟩
  | 53 => ⟨S_, .f32⟩
  | 54 => ⟨S50000x128, .f32⟩
  | 55 => ⟨S850000x1, .i32⟩
  | 56 => ⟨S50000x128, .f32⟩
  | 57 => ⟨S1x128, .f32⟩
  | 58 => ⟨S1x128, .f32⟩
  | 59 => ⟨S50000x128, .f32⟩
  | 60 => ⟨S50000x128, .f32⟩
  | 61 => ⟨S50000, .i32⟩
  | 62 => ⟨S850000, .i32⟩
  | 63 => ⟨S850000, .i32⟩
  | 64 => ⟨S_, .f32⟩
  | 65 => ⟨S50000, .f32⟩
  | 66 => ⟨S850000, .f32⟩
  | 67 => ⟨S_, .f32⟩
  | 68 => ⟨S50000, .f32⟩
  | 69 => ⟨S850000x1, .i32⟩
  | 70 => ⟨S50000, .f32⟩
  | 71 => ⟨S_, .f32⟩
  | 72 => ⟨S50000, .f32⟩
  | 73 => ⟨S50000, .i1⟩
  | 74 => ⟨S50000, .f32⟩
  | 75 => ⟨S_, .f32⟩
  | 76 => ⟨S50000, .f32⟩
  | 77 => ⟨S50000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S1x128, .f32⟩
  | 115 => ⟨S50000x128, .f32⟩
  | 116 => ⟨S1x1x800000, .i32⟩
  | 117 => ⟨S800000, .i32⟩
  | 118 => ⟨S1x1x800000, .i32⟩
  | 119 => ⟨S800000, .i32⟩
  | 120 => ⟨S1x800000, .f32⟩
  | 121 => ⟨S800000, .f32⟩
  | 122 => ⟨S50000x128, .f32⟩
  | 123 => ⟨S50000, .i32⟩
  | 124 => ⟨S850000, .i32⟩
  | 125 => ⟨S850000, .i32⟩
  | 126 => ⟨S_, .f32⟩
  | 127 => ⟨S50000, .f32⟩
  | _ => ⟨S50000x128, .f32⟩

abbrev hbmTy0_2 (i : Nat) : BufTy := match i % 128 with
  | 0 => ⟨S850000, .f32⟩
  | 1 => ⟨S_, .f32⟩
  | 2 => ⟨S50000, .f32⟩
  | 3 => ⟨S850000x1, .i32⟩
  | 4 => ⟨S50000, .f32⟩
  | 5 => ⟨S_, .f32⟩
  | 6 => ⟨S50000, .f32⟩
  | 7 => ⟨S50000, .i1⟩
  | 8 => ⟨S50000, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S850000x1, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x128, .f32⟩
  | 43 => ⟨S_, .f32⟩
  | 44 => ⟨S50000x128, .f32⟩
  | 45 => ⟨S850000x1, .i32⟩
  | 46 => ⟨S50000x128, .f32⟩
  | 47 => ⟨S1x128, .f32⟩
  | 48 => ⟨S1x128, .f32⟩
  | 49 => ⟨S50000x128, .f32⟩
  | 50 => ⟨S50000x128, .f32⟩
  | 51 => ⟨S50000, .i32⟩
  | 52 => ⟨S850000, .i32⟩
  | 53 => ⟨S850000, .i32⟩
  | 54 => ⟨S_, .f32⟩
  | 55 => ⟨S50000, .f32⟩
  | 56 => ⟨S850000, .f32⟩
  | 57 => ⟨S_, .f32⟩
  | 58 => ⟨S50000, .f32⟩
  | 59 => ⟨S850000x1, .i32⟩
  | 60 => ⟨S50000, .f32⟩
  | 61 => ⟨S_, .f32⟩
  | 62 => ⟨S50000, .f32⟩
  | 63 => ⟨S50000, .i1⟩
  | 64 => ⟨S50000, .f32⟩
  | 65 => ⟨S_, .f32⟩
  | 66 => ⟨S50000, .f32⟩
  | 67 => ⟨S50000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S850000, .f32⟩
  | 88 => ⟨S850000x1, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S1x128, .f32⟩
  | 105 => ⟨S50000x128, .f32⟩
  | 106 => ⟨S1x1x800000, .i32⟩
  | 107 => ⟨S800000, .i32⟩
  | 108 => ⟨S1x1x800000, .i32⟩
  | 109 => ⟨S800000, .i32⟩
  | 110 => ⟨S1x800000, .f32⟩
  | 111 => ⟨S800000, .f32⟩
  | 112 => ⟨S50000x128, .f32⟩
  | 113 => ⟨S50000, .i32⟩
  | 114 => ⟨S850000, .i32⟩
  | 115 => ⟨S850000, .i32⟩
  | 116 => ⟨S_, .f32⟩
  | 117 => ⟨S50000, .f32⟩
  | 118 => ⟨S850000, .f32⟩
  | 119 => ⟨S_, .f32⟩
  | 120 => ⟨S50000, .f32⟩
  | 121 => ⟨S850000x1, .i32⟩
  | 122 => ⟨S50000, .f32⟩
  | 123 => ⟨S_, .f32⟩
  | 124 => ⟨S50000, .f32⟩
  | 125 => ⟨S50000, .i1⟩
  | 126 => ⟨S50000, .f32⟩
  | 127 => ⟨S_, .f32⟩
  | _ => ⟨S50000x128, .f32⟩

abbrev hbmTy0_3 (i : Nat) : BufTy := match i % 128 with
  | 0 => ⟨S50000, .f32⟩
  | 1 => ⟨S50000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S850000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S850000x1, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x128, .f32⟩
  | 32 => ⟨S850000x128, .f32⟩
  | 33 => ⟨S_, .f32⟩
  | 34 => ⟨S50000x128, .f32⟩
  | 35 => ⟨S850000x1, .i32⟩
  | 36 => ⟨S50000x128, .f32⟩
  | 37 => ⟨S1x128, .f32⟩
  | 38 => ⟨S1x128, .f32⟩
  | 39 => ⟨S50000x128, .f32⟩
  | 40 => ⟨S50000x128, .f32⟩
  | 41 => ⟨S50000, .i32⟩
  | 42 => ⟨S850000, .i32⟩
  | 43 => ⟨S850000, .i32⟩
  | 44 => ⟨S_, .f32⟩
  | 45 => ⟨S50000, .f32⟩
  | 46 => ⟨S850000, .f32⟩
  | 47 => ⟨S_, .f32⟩
  | 48 => ⟨S50000, .f32⟩
  | 49 => ⟨S850000x1, .i32⟩
  | 50 => ⟨S50000, .f32⟩
  | 51 => ⟨S_, .f32⟩
  | 52 => ⟨S50000, .f32⟩
  | 53 => ⟨S50000, .i1⟩
  | 54 => ⟨S50000, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S850000x1, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S1x128, .f32⟩
  | 95 => ⟨S50000x128, .f32⟩
  | 96 => ⟨S1x50000x128, .f32⟩
  | 97 => ⟨S1x50000x128, .f32⟩
  | 98 => ⟨S1x50000x128, .f32⟩
  | 99 => ⟨S1x50000x128, .f32⟩
  | 100 => ⟨S4x50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S5000x128, .f32⟩
  | 1 => ⟨S5000x128, .f32⟩
  | 2 => ⟨S128x128, .f32⟩
  | 3 => ⟨S5000x128, .f32⟩
  | 4 => ⟨S5000x128, .f32⟩
  | 5 => ⟨S5000x128, .f32⟩
  | 6 => ⟨S5000x128, .f32⟩
  | 7 => ⟨S5000x1, .f32⟩
  | 8 => ⟨S5000x1, .f32⟩
  | 9 => ⟨S5000x128, .f32⟩
  | 10 => ⟨S5000x128, .f32⟩
  | 11 => ⟨S5000x128, .f32⟩
  | 12 => ⟨S5000x128, .f32⟩
  | 13 => ⟨S1x128, .f32⟩
  | 14 => ⟨S1x128, .f32⟩
  | 15 => ⟨S5000x128, .f32⟩
  | 16 => ⟨S5000x128, .f32⟩
  | 17 => ⟨S5000x128, .f32⟩
  | 18 => ⟨S5000x128, .f32⟩
  | 19 => ⟨S128x128, .f32⟩
  | 20 => ⟨S5000x128, .f32⟩
  | 21 => ⟨S5000x128, .f32⟩
  | 22 => ⟨S5000x128, .f32⟩
  | 23 => ⟨S5000x128, .f32⟩
  | 24 => ⟨S5000x1, .f32⟩
  | 25 => ⟨S5000x1, .f32⟩
  | 26 => ⟨S5000x128, .f32⟩
  | 27 => ⟨S5000x128, .f32⟩
  | 28 => ⟨S5000x128, .f32⟩
  | 29 => ⟨S5000x128, .f32⟩
  | 30 => ⟨S1x128, .f32⟩
  | 31 => ⟨S1x128, .f32⟩
  | 32 => ⟨S5000x128, .f32⟩
  | 33 => ⟨S5000x128, .f32⟩
  | 34 => ⟨S5000x128, .f32⟩
  | 35 => ⟨S5000x128, .f32⟩
  | 36 => ⟨S128x128, .f32⟩
  | 37 => ⟨S5000x128, .f32⟩
  | 38 => ⟨S5000x128, .f32⟩
  | 39 => ⟨S5000x128, .f32⟩
  | 40 => ⟨S5000x128, .f32⟩
  | 41 => ⟨S5000x1, .f32⟩
  | 42 => ⟨S5000x1, .f32⟩
  | 43 => ⟨S5000x128, .f32⟩
  | 44 => ⟨S5000x128, .f32⟩
  | 45 => ⟨S5000x128, .f32⟩
  | 46 => ⟨S5000x128, .f32⟩
  | 47 => ⟨S1x128, .f32⟩
  | 48 => ⟨S1x128, .f32⟩
  | 49 => ⟨S5000x128, .f32⟩
  | 50 => ⟨S5000x128, .f32⟩
  | 51 => ⟨S5000x128, .f32⟩
  | 52 => ⟨S5000x128, .f32⟩
  | 53 => ⟨S128x128, .f32⟩
  | 54 => ⟨S5000x128, .f32⟩
  | 55 => ⟨S5000x128, .f32⟩
  | 56 => ⟨S5000x128, .f32⟩
  | 57 => ⟨S5000x128, .f32⟩
  | 58 => ⟨S5000x1, .f32⟩
  | 59 => ⟨S5000x1, .f32⟩
  | 60 => ⟨S5000x128, .f32⟩
  | 61 => ⟨S5000x128, .f32⟩
  | 62 => ⟨S5000x128, .f32⟩
  | 63 => ⟨S5000x128, .f32⟩
  | 64 => ⟨S1x128, .f32⟩
  | 65 => ⟨S1x128, .f32⟩
  | 66 => ⟨S5000x128, .f32⟩
  | 67 => ⟨S5000x128, .f32⟩
  | 68 => ⟨S5000x128, .f32⟩
  | 69 => ⟨S5000x128, .f32⟩
  | 70 => ⟨S128x128, .f32⟩
  | 71 => ⟨S5000x128, .f32⟩
  | 72 => ⟨S5000x128, .f32⟩
  | 73 => ⟨S5000x128, .f32⟩
  | 74 => ⟨S5000x128, .f32⟩
  | 75 => ⟨S5000x1, .f32⟩
  | 76 => ⟨S5000x1, .f32⟩
  | 77 => ⟨S5000x128, .f32⟩
  | 78 => ⟨S5000x128, .f32⟩
  | 79 => ⟨S5000x128, .f32⟩
  | 80 => ⟨S5000x128, .f32⟩
  | 81 => ⟨S1x128, .f32⟩
  | 82 => ⟨S1x128, .f32⟩
  | 83 => ⟨S5000x128, .f32⟩
  | 84 => ⟨S5000x128, .f32⟩
  | 85 => ⟨S5000x128, .f32⟩
  | 86 => ⟨S5000x128, .f32⟩
  | 87 => ⟨S128x128, .f32⟩
  | 88 => ⟨S5000x128, .f32⟩
  | 89 => ⟨S5000x128, .f32⟩
  | 90 => ⟨S5000x128, .f32⟩
  | 91 => ⟨S5000x128, .f32⟩
  | 92 => ⟨S5000x1, .f32⟩
  | 93 => ⟨S5000x1, .f32⟩
  | 94 => ⟨S5000x128, .f32⟩
  | 95 => ⟨S5000x128, .f32⟩
  | 96 => ⟨S5000x128, .f32⟩
  | 97 => ⟨S5000x128, .f32⟩
  | 98 => ⟨S1x128, .f32⟩
  | 99 => ⟨S1x128, .f32⟩
  | 100 => ⟨S5000x128, .f32⟩
  | 101 => ⟨S5000x128, .f32⟩
  | 102 => ⟨S5000x128, .f32⟩
  | 103 => ⟨S5000x128, .f32⟩
  | 104 => ⟨S128x128, .f32⟩
  | 105 => ⟨S5000x128, .f32⟩
  | 106 => ⟨S5000x128, .f32⟩
  | 107 => ⟨S5000x128, .f32⟩
  | 108 => ⟨S5000x128, .f32⟩
  | 109 => ⟨S5000x1, .f32⟩
  | 110 => ⟨S5000x1, .f32⟩
  | 111 => ⟨S5000x128, .f32⟩
  | 112 => ⟨S5000x128, .f32⟩
  | 113 => ⟨S5000x128, .f32⟩
  | 114 => ⟨S5000x128, .f32⟩
  | 115 => ⟨S1x128, .f32⟩
  | 116 => ⟨S1x128, .f32⟩
  | 117 => ⟨S5000x128, .f32⟩
  | 118 => ⟨S5000x128, .f32⟩
  | 119 => ⟨S5000x128, .f32⟩
  | 120 => ⟨S5000x128, .f32⟩
  | 121 => ⟨S128x128, .f32⟩
  | 122 => ⟨S5000x128, .f32⟩
  | 123 => ⟨S5000x128, .f32⟩
  | 124 => ⟨S5000x128, .f32⟩
  | 125 => ⟨S5000x128, .f32⟩
  | 126 => ⟨S5000x1, .f32⟩
  | 127 => ⟨S5000x1, .f32⟩
  | _ => ⟨S50000x128, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S1x128, .f32⟩
  | 5 => ⟨S1x128, .f32⟩
  | 6 => ⟨S5000x128, .f32⟩
  | 7 => ⟨S5000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_call1_v0 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_cst_21 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_23 : Ref sig .tc := ⟨.hbm, 147, rfl⟩
abbrev main_call2_v0 : Ref sig .tc := ⟨.hbm, 148, rfl⟩
abbrev main_v112 : Ref sig .tc := ⟨.hbm, 149, rfl⟩
abbrev main_c_24 : Ref sig .tc := ⟨.hbm, 150, rfl⟩
abbrev main_v113 : Ref sig .tc := ⟨.hbm, 151, rfl⟩
abbrev main_v114 : Ref sig .tc := ⟨.hbm, 152, rfl⟩
abbrev main_c_25 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_26 : Ref sig .tc := ⟨.hbm, 160, rfl⟩
abbrev main_v121 : Ref sig .tc := ⟨.hbm, 161, rfl⟩
abbrev main_v122 : Ref sig .tc := ⟨.hbm, 162, rfl⟩
abbrev main_c_27 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_28 : Ref sig .tc := ⟨.hbm, 171, rfl⟩
abbrev main_v130 : Ref sig .tc := ⟨.hbm, 172, rfl⟩
abbrev main_v131 : Ref sig .tc := ⟨.hbm, 173, rfl⟩
abbrev main_c_29 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_30 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_31 : Ref sig .tc := ⟨.hbm, 192, rfl⟩
abbrev main_v148 : Ref sig .tc := ⟨.hbm, 193, rfl⟩
abbrev main_v149 : Ref sig .tc := ⟨.hbm, 194, rfl⟩
abbrev main_cst_32 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_33 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_34 : Ref sig .tc := ⟨.hbm, 203, rfl⟩
abbrev main_call3_v0 : Ref sig .tc := ⟨.hbm, 204, rfl⟩
abbrev main_v156 : Ref sig .tc := ⟨.hbm, 205, rfl⟩
abbrev main_c_35 : Ref sig .tc := ⟨.hbm, 206, rfl⟩
abbrev main_v157 : Ref sig .tc := ⟨.hbm, 207, rfl⟩
abbrev main_v158 : Ref sig .tc := ⟨.hbm, 208, rfl⟩
abbrev main_c_36 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_c_37 : Ref sig .tc := ⟨.hbm, 216, rfl⟩
abbrev main_v165 : Ref sig .tc := ⟨.hbm, 217, rfl⟩
abbrev main_v166 : Ref sig .tc := ⟨.hbm, 218, rfl⟩
abbrev main_c_38 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_c_39 : Ref sig .tc := ⟨.hbm, 227, rfl⟩
abbrev main_v174 : Ref sig .tc := ⟨.hbm, 228, rfl⟩
abbrev main_v175 : Ref sig .tc := ⟨.hbm, 229, rfl⟩
abbrev main_c_40 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_41 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_cst_42 : Ref sig .tc := ⟨.hbm, 254, rfl⟩
abbrev main_v198 : Ref sig .tc := ⟨.hbm, 255, rfl⟩
abbrev main_v199 : Ref sig .tc := ⟨.hbm, 256, rfl⟩
abbrev main_cst_43 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_44 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_cst_45 : Ref sig .tc := ⟨.hbm, 265, rfl⟩
abbrev main_call4_v0 : Ref sig .tc := ⟨.hbm, 266, rfl⟩
abbrev main_v206 : Ref sig .tc := ⟨.hbm, 267, rfl⟩
abbrev main_c_46 : Ref sig .tc := ⟨.hbm, 268, rfl⟩
abbrev main_v207 : Ref sig .tc := ⟨.hbm, 269, rfl⟩
abbrev main_v208 : Ref sig .tc := ⟨.hbm, 270, rfl⟩
abbrev main_c_47 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_c_48 : Ref sig .tc := ⟨.hbm, 278, rfl⟩
abbrev main_v215 : Ref sig .tc := ⟨.hbm, 279, rfl⟩
abbrev main_v216 : Ref sig .tc := ⟨.hbm, 280, rfl⟩
abbrev main_c_49 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_c_50 : Ref sig .tc := ⟨.hbm, 289, rfl⟩
abbrev main_v224 : Ref sig .tc := ⟨.hbm, 290, rfl⟩
abbrev main_v225 : Ref sig .tc := ⟨.hbm, 291, rfl⟩
abbrev main_c_51 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_cst_52 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_cst_53 : Ref sig .tc := ⟨.hbm, 310, rfl⟩
abbrev main_v242 : Ref sig .tc := ⟨.hbm, 311, rfl⟩
abbrev main_v243 : Ref sig .tc := ⟨.hbm, 312, rfl⟩
abbrev main_cst_54 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_cst_55 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_cst_56 : Ref sig .tc := ⟨.hbm, 321, rfl⟩
abbrev main_call5_v0 : Ref sig .tc := ⟨.hbm, 322, rfl⟩
abbrev main_v250 : Ref sig .tc := ⟨.hbm, 323, rfl⟩
abbrev main_c_57 : Ref sig .tc := ⟨.hbm, 324, rfl⟩
abbrev main_v251 : Ref sig .tc := ⟨.hbm, 325, rfl⟩
abbrev main_v252 : Ref sig .tc := ⟨.hbm, 326, rfl⟩
abbrev main_c_58 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_c_59 : Ref sig .tc := ⟨.hbm, 334, rfl⟩
abbrev main_v259 : Ref sig .tc := ⟨.hbm, 335, rfl⟩
abbrev main_v260 : Ref sig .tc := ⟨.hbm, 336, rfl⟩
abbrev main_c_60 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_c_61 : Ref sig .tc := ⟨.hbm, 345, rfl⟩
abbrev main_v268 : Ref sig .tc := ⟨.hbm, 346, rfl⟩
abbrev main_v269 : Ref sig .tc := ⟨.hbm, 347, rfl⟩
abbrev main_c_62 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_cst_63 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_cst_64 : Ref sig .tc := ⟨.hbm, 372, rfl⟩
abbrev main_v292 : Ref sig .tc := ⟨.hbm, 373, rfl⟩
abbrev main_v293 : Ref sig .tc := ⟨.hbm, 374, rfl⟩
abbrev main_cst_65 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_cst_66 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_cst_67 : Ref sig .tc := ⟨.hbm, 383, rfl⟩
abbrev main_call6_v0 : Ref sig .tc := ⟨.hbm, 384, rfl⟩
abbrev main_v300 : Ref sig .tc := ⟨.hbm, 385, rfl⟩
abbrev main_c_68 : Ref sig .tc := ⟨.hbm, 386, rfl⟩
abbrev main_v301 : Ref sig .tc := ⟨.hbm, 387, rfl⟩
abbrev main_v302 : Ref sig .tc := ⟨.hbm, 388, rfl⟩
abbrev main_c_69 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_c_70 : Ref sig .tc := ⟨.hbm, 396, rfl⟩
abbrev main_v309 : Ref sig .tc := ⟨.hbm, 397, rfl⟩
abbrev main_v310 : Ref sig .tc := ⟨.hbm, 398, rfl⟩
abbrev main_c_71 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_c_72 : Ref sig .tc := ⟨.hbm, 407, rfl⟩
abbrev main_v318 : Ref sig .tc := ⟨.hbm, 408, rfl⟩
abbrev main_v319 : Ref sig .tc := ⟨.hbm, 409, rfl⟩
abbrev main_c_73 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_cst_74 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_cst_75 : Ref sig .tc := ⟨.hbm, 428, rfl⟩
abbrev main_v336 : Ref sig .tc := ⟨.hbm, 429, rfl⟩
abbrev main_v337 : Ref sig .tc := ⟨.hbm, 430, rfl⟩
abbrev main_cst_76 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_cst_77 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_cst_78 : Ref sig .tc := ⟨.hbm, 439, rfl⟩
abbrev main_call7_v0 : Ref sig .tc := ⟨.hbm, 440, rfl⟩
abbrev main_v344 : Ref sig .tc := ⟨.hbm, 441, rfl⟩
abbrev main_c_79 : Ref sig .tc := ⟨.hbm, 442, rfl⟩
abbrev main_v345 : Ref sig .tc := ⟨.hbm, 443, rfl⟩
abbrev main_v346 : Ref sig .tc := ⟨.hbm, 444, rfl⟩
abbrev main_c_80 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_c_81 : Ref sig .tc := ⟨.hbm, 452, rfl⟩
abbrev main_v353 : Ref sig .tc := ⟨.hbm, 453, rfl⟩
abbrev main_v354 : Ref sig .tc := ⟨.hbm, 454, rfl⟩
abbrev main_c_82 : Ref sig .tc := ⟨.hbm, 455, rfl⟩
abbrev main_v355 : Ref sig .tc := ⟨.hbm, 456, rfl⟩
abbrev main_v356 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_c_83 : Ref sig .tc := ⟨.hbm, 463, rfl⟩
abbrev main_v362 : Ref sig .tc := ⟨.hbm, 464, rfl⟩
abbrev main_v363 : Ref sig .tc := ⟨.hbm, 465, rfl⟩
abbrev main_c_84 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_cst_85 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_v378 : Ref sig .tc := ⟨.hbm, 482, rfl⟩
abbrev main_v379 : Ref sig .tc := ⟨.hbm, 483, rfl⟩
abbrev main_v380 : Ref sig .tc := ⟨.hbm, 484, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg1_1 : Ref sig .tc := ⟨.vmem, 59, rfl⟩
abbrev cc10_stg2_0 : Ref sig .tc := ⟨.vmem, 60, rfl⟩
abbrev cc10_stg2_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg3_0 : Ref sig .tc := ⟨.vmem, 66, rfl⟩
abbrev cc11_stg3_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg2_1 : Ref sig .tc := ⟨.vmem, 72, rfl⟩
abbrev cc13_stg0_0 : Ref sig .tc := ⟨.vmem, 73, rfl⟩
abbrev cc13_stg0_1 : Ref sig .tc := ⟨.vmem, 74, rfl⟩
abbrev cc13_stg1_0 : Ref sig .tc := ⟨.vmem, 75, rfl⟩
abbrev cc13_stg1_1 : Ref sig .tc := ⟨.vmem, 76, rfl⟩
abbrev cc13_stg2_0 : Ref sig .tc := ⟨.vmem, 77, rfl⟩
abbrev cc13_stg2_1 : Ref sig .tc := ⟨.vmem, 78, rfl⟩
abbrev cc14_stg0_0 : Ref sig .tc := ⟨.vmem, 79, rfl⟩
abbrev cc14_stg0_1 : Ref sig .tc := ⟨.vmem, 80, rfl⟩
abbrev cc14_stg1_0 : Ref sig .tc := ⟨.vmem, 81, rfl⟩
abbrev cc14_stg2_0 : Ref sig .tc := ⟨.vmem, 82, rfl⟩
abbrev cc14_stg3_0 : Ref sig .tc := ⟨.vmem, 83, rfl⟩
abbrev cc14_stg3_1 : Ref sig .tc := ⟨.vmem, 84, rfl⟩
abbrev cc15_stg0_0 : Ref sig .tc := ⟨.vmem, 85, rfl⟩
abbrev cc15_stg0_1 : Ref sig .tc := ⟨.vmem, 86, rfl⟩
abbrev cc15_stg1_0 : Ref sig .tc := ⟨.vmem, 87, rfl⟩
abbrev cc15_stg2_0 : Ref sig .tc := ⟨.vmem, 88, rfl⟩
abbrev cc15_stg2_1 : Ref sig .tc := ⟨.vmem, 89, rfl⟩
abbrev cc16_stg0_0 : Ref sig .tc := ⟨.vmem, 90, rfl⟩
abbrev cc16_stg0_1 : Ref sig .tc := ⟨.vmem, 91, rfl⟩
abbrev cc16_stg1_0 : Ref sig .tc := ⟨.vmem, 92, rfl⟩
abbrev cc16_stg1_1 : Ref sig .tc := ⟨.vmem, 93, rfl⟩
abbrev cc16_stg2_0 : Ref sig .tc := ⟨.vmem, 94, rfl⟩
abbrev cc16_stg2_1 : Ref sig .tc := ⟨.vmem, 95, rfl⟩
abbrev cc17_stg0_0 : Ref sig .tc := ⟨.vmem, 96, rfl⟩
abbrev cc17_stg0_1 : Ref sig .tc := ⟨.vmem, 97, rfl⟩
abbrev cc17_stg1_0 : Ref sig .tc := ⟨.vmem, 98, rfl⟩
abbrev cc17_stg2_0 : Ref sig .tc := ⟨.vmem, 99, rfl⟩
abbrev cc17_stg3_0 : Ref sig .tc := ⟨.vmem, 100, rfl⟩
abbrev cc17_stg3_1 : Ref sig .tc := ⟨.vmem, 101, rfl⟩
abbrev cc18_stg0_0 : Ref sig .tc := ⟨.vmem, 102, rfl⟩
abbrev cc18_stg0_1 : Ref sig .tc := ⟨.vmem, 103, rfl⟩
abbrev cc18_stg1_0 : Ref sig .tc := ⟨.vmem, 104, rfl⟩
abbrev cc18_stg2_0 : Ref sig .tc := ⟨.vmem, 105, rfl⟩
abbrev cc18_stg2_1 : Ref sig .tc := ⟨.vmem, 106, rfl⟩
abbrev cc19_stg0_0 : Ref sig .tc := ⟨.vmem, 107, rfl⟩
abbrev cc19_stg0_1 : Ref sig .tc := ⟨.vmem, 108, rfl⟩
abbrev cc19_stg1_0 : Ref sig .tc := ⟨.vmem, 109, rfl⟩
abbrev cc19_stg1_1 : Ref sig .tc := ⟨.vmem, 110, rfl⟩
abbrev cc19_stg2_0 : Ref sig .tc := ⟨.vmem, 111, rfl⟩
abbrev cc19_stg2_1 : Ref sig .tc := ⟨.vmem, 112, rfl⟩
abbrev cc20_stg0_0 : Ref sig .tc := ⟨.vmem, 113, rfl⟩
abbrev cc20_stg0_1 : Ref sig .tc := ⟨.vmem, 114, rfl⟩
abbrev cc20_stg1_0 : Ref sig .tc := ⟨.vmem, 115, rfl⟩
abbrev cc20_stg2_0 : Ref sig .tc := ⟨.vmem, 116, rfl⟩
abbrev cc20_stg3_0 : Ref sig .tc := ⟨.vmem, 117, rfl⟩
abbrev cc20_stg3_1 : Ref sig .tc := ⟨.vmem, 118, rfl⟩
abbrev cc21_stg0_0 : Ref sig .tc := ⟨.vmem, 119, rfl⟩
abbrev cc21_stg0_1 : Ref sig .tc := ⟨.vmem, 120, rfl⟩
abbrev cc21_stg1_0 : Ref sig .tc := ⟨.vmem, 121, rfl⟩
abbrev cc21_stg2_0 : Ref sig .tc := ⟨.vmem, 122, rfl⟩
abbrev cc21_stg2_1 : Ref sig .tc := ⟨.vmem, 123, rfl⟩
abbrev cc22_stg0_0 : Ref sig .tc := ⟨.vmem, 124, rfl⟩
abbrev cc22_stg0_1 : Ref sig .tc := ⟨.vmem, 125, rfl⟩
abbrev cc22_stg1_0 : Ref sig .tc := ⟨.vmem, 126, rfl⟩
abbrev cc22_stg1_1 : Ref sig .tc := ⟨.vmem, 127, rfl⟩
abbrev cc22_stg2_0 : Ref sig .tc := ⟨.vmem, 128, rfl⟩
abbrev cc22_stg2_1 : Ref sig .tc := ⟨.vmem, 129, rfl⟩
abbrev cc23_stg0_0 : Ref sig .tc := ⟨.vmem, 130, rfl⟩
abbrev cc23_stg0_1 : Ref sig .tc := ⟨.vmem, 131, rfl⟩
abbrev cc23_stg1_0 : Ref sig .tc := ⟨.vmem, 132, rfl⟩
abbrev cc23_stg2_0 : Ref sig .tc := ⟨.vmem, 133, rfl⟩
abbrev cc23_stg3_0 : Ref sig .tc := ⟨.vmem, 134, rfl⟩
abbrev cc23_stg3_1 : Ref sig .tc := ⟨.vmem, 135, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem1_1 : DmaSem sig := 59
abbrev cc10_sem2_0 : DmaSem sig := 60
abbrev cc10_sem2_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem3_0 : DmaSem sig := 66
abbrev cc11_sem3_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem2_1 : DmaSem sig := 72
abbrev cc13_sem0_0 : DmaSem sig := 73
abbrev cc13_sem0_1 : DmaSem sig := 74
abbrev cc13_sem1_0 : DmaSem sig := 75
abbrev cc13_sem1_1 : DmaSem sig := 76
abbrev cc13_sem2_0 : DmaSem sig := 77
abbrev cc13_sem2_1 : DmaSem sig := 78
abbrev cc14_sem0_0 : DmaSem sig := 79
abbrev cc14_sem0_1 : DmaSem sig := 80
abbrev cc14_sem1_0 : DmaSem sig := 81
abbrev cc14_sem2_0 : DmaSem sig := 82
abbrev cc14_sem3_0 : DmaSem sig := 83
abbrev cc14_sem3_1 : DmaSem sig := 84
abbrev cc15_sem0_0 : DmaSem sig := 85
abbrev cc15_sem0_1 : DmaSem sig := 86
abbrev cc15_sem1_0 : DmaSem sig := 87
abbrev cc15_sem2_0 : DmaSem sig := 88
abbrev cc15_sem2_1 : DmaSem sig := 89
abbrev cc16_sem0_0 : DmaSem sig := 90
abbrev cc16_sem0_1 : DmaSem sig := 91
abbrev cc16_sem1_0 : DmaSem sig := 92
abbrev cc16_sem1_1 : DmaSem sig := 93
abbrev cc16_sem2_0 : DmaSem sig := 94
abbrev cc16_sem2_1 : DmaSem sig := 95
abbrev cc17_sem0_0 : DmaSem sig := 96
abbrev cc17_sem0_1 : DmaSem sig := 97
abbrev cc17_sem1_0 : DmaSem sig := 98
abbrev cc17_sem2_0 : DmaSem sig := 99
abbrev cc17_sem3_0 : DmaSem sig := 100
abbrev cc17_sem3_1 : DmaSem sig := 101
abbrev cc18_sem0_0 : DmaSem sig := 102
abbrev cc18_sem0_1 : DmaSem sig := 103
abbrev cc18_sem1_0 : DmaSem sig := 104
abbrev cc18_sem2_0 : DmaSem sig := 105
abbrev cc18_sem2_1 : DmaSem sig := 106
abbrev cc19_sem0_0 : DmaSem sig := 107
abbrev cc19_sem0_1 : DmaSem sig := 108
abbrev cc19_sem1_0 : DmaSem sig := 109
abbrev cc19_sem1_1 : DmaSem sig := 110
abbrev cc19_sem2_0 : DmaSem sig := 111
abbrev cc19_sem2_1 : DmaSem sig := 112
abbrev cc20_sem0_0 : DmaSem sig := 113
abbrev cc20_sem0_1 : DmaSem sig := 114
abbrev cc20_sem1_0 : DmaSem sig := 115
abbrev cc20_sem2_0 : DmaSem sig := 116
abbrev cc20_sem3_0 : DmaSem sig := 117
abbrev cc20_sem3_1 : DmaSem sig := 118
abbrev cc21_sem0_0 : DmaSem sig := 119
abbrev cc21_sem0_1 : DmaSem sig := 120
abbrev cc21_sem1_0 : DmaSem sig := 121
abbrev cc21_sem2_0 : DmaSem sig := 122
abbrev cc21_sem2_1 : DmaSem sig := 123
abbrev cc22_sem0_0 : DmaSem sig := 124
abbrev cc22_sem0_1 : DmaSem sig := 125
abbrev cc22_sem1_0 : DmaSem sig := 126
abbrev cc22_sem1_1 : DmaSem sig := 127
abbrev cc22_sem2_0 : DmaSem sig := 128
abbrev cc22_sem2_1 : DmaSem sig := 129
abbrev cc23_sem0_0 : DmaSem sig := 130
abbrev cc23_sem0_1 : DmaSem sig := 131
abbrev cc23_sem1_0 : DmaSem sig := 132
abbrev cc23_sem2_0 : DmaSem sig := 133
abbrev cc23_sem3_0 : DmaSem sig := 134
abbrev cc23_sem3_1 : DmaSem sig := 135

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![170], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![170], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![170], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S5000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S5000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![170], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S5000x128 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S128x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S5000x128 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![170], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x1 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S5000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![10], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S5000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S5000x128 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

class Facts₀ : Prop where
  slices_S4x2x800000_S1x1x800000_0_0_0 : S4x2x800000.Slices ![0, 0, 0] S1x1x800000
  shapeCasts_S1x1x800000_S800000 : S1x1x800000.ShapeCasts S800000
  slices_S4x2x800000_S1x1x800000_0_1_0 : S4x2x800000.Slices ![0, 1, 0] S1x1x800000
  slices_S4x800000_S1x800000_0_0 : S4x800000.Slices ![0, 0] S1x800000
  shapeCasts_S1x800000_S800000 : S1x800000.ShapeCasts S800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  shapeCasts_S850000_S850000x1 : S850000.ShapeCasts S850000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x2x800000_S1x1x800000_1_0_0 : S4x2x800000.Slices ![1, 0, 0] S1x1x800000
  slices_S4x2x800000_S1x1x800000_1_1_0 : S4x2x800000.Slices ![1, 1, 0] S1x1x800000
  slices_S4x800000_S1x800000_1_0 : S4x800000.Slices ![1, 0] S1x800000
  slices_S4x2x800000_S1x1x800000_2_0_0 : S4x2x800000.Slices ![2, 0, 0] S1x1x800000
  slices_S4x2x800000_S1x1x800000_2_1_0 : S4x2x800000.Slices ![2, 1, 0] S1x1x800000
  slices_S4x800000_S1x800000_2_0 : S4x800000.Slices ![2, 0] S1x800000
  slices_S4x2x800000_S1x1x800000_3_0_0 : S4x2x800000.Slices ![3, 0, 0] S1x1x800000
  slices_S4x2x800000_S1x1x800000_3_1_0 : S4x2x800000.Slices ![3, 1, 0] S1x1x800000
  slices_S4x800000_S1x800000_3_0 : S4x800000.Slices ![3, 0] S1x800000
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S850000x128.size a
  hwx1_0 : ∀ i : grid1.Coords, EltTy.bits .f32 = 32 ∨ (Rect.block (s := S850000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S850000x128.size a
  hwx1_2 : ∀ i : grid1.Coords, EltTy.bits .f32 = 32 ∨ (Rect.block (s := S850000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S850000x128.size a
  hwx4_0 : ∀ i : grid4.Coords, EltTy.bits .f32 = 32 ∨ (Rect.block (s := S850000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S850000x1.size a
  hwx4_1 : ∀ i : grid4.Coords, EltTy.bits .f32 = 32 ∨ (Rect.block (s := S850000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S850000x128.size a
  hwx4_2 : ∀ i : grid4.Coords, EltTy.bits .f32 = 32 ∨ (Rect.block (s := S850000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S850000x128.size a
  hwx7_0 : ∀ i : grid7.Coords, EltTy.bits .f32 = 32 ∨ (Rect.block (s := S850000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S850000x1.size a
  hwx7_1 : ∀ i : grid7.Coords, EltTy.bits .f32 = 32 ∨ (Rect.block (s := S850000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S850000x128.size a
  hwx7_2 : ∀ i : grid7.Coords, EltTy.bits .f32 = 32 ∨ (Rect.block (s := S850000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S850000x128.size a
  hwx10_0 : ∀ i : grid10.Coords, EltTy.bits .f32 = 32 ∨ (Rect.block (s := S850000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S850000x1.size a
  hwx10_1 : ∀ i : grid10.Coords, EltTy.bits .f32 = 32 ∨ (Rect.block (s := S850000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S850000x128.size a
  hwx10_2 : ∀ i : grid10.Coords, EltTy.bits .f32 = 32 ∨ (Rect.block (s := S850000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S50000x128.size a
  hwx12_2 : ∀ i : grid12.Coords, EltTy.bits .f32 = 32 ∨ (Rect.block (s := S50000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S850000x128.size a
  hwx13_0 : ∀ i : grid13.Coords, EltTy.bits .f32 = 32 ∨ (Rect.block (s := S850000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S850000x1.size a
  hwx13_1 : ∀ i : grid13.Coords, EltTy.bits .f32 = 32 ∨ (Rect.block (s := S850000x1) S5000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S850000x128.size a
  hwx13_2 : ∀ i : grid13.Coords, EltTy.bits .f32 = 32 ∨ (Rect.block (s := S850000x128) S5000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S50000x128.size a
  hwx14_3 : ∀ i : grid14.Coords, EltTy.bits .f32 = 32 ∨ (Rect.block (s := S50000x128) S5000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x128.size a ≤ S50000x128.size a
  hwx15_2 : ∀ i : grid15.Coords, EltTy.bits .f32 = 32 ∨ (Rect.block (s := S50000x128) S5000x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S850000x128.size a
  hwx16_0 : ∀ i : grid16.Coords, EltTy.bits .f32 = 32 ∨ (Rect.block (s := S850000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S850000x1.size a
  hwx16_1 : ∀ i : grid16.Coords, EltTy.bits .f32 = 32 ∨ (Rect.block (s := S850000x1) S5000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x128.size a ≤ S850000x128.size a
  hwx16_2 : ∀ i : grid16.Coords, EltTy.bits .f32 = 32 ∨ (Rect.block (s := S850000x128) S5000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x128.size a ≤ S50000x128.size a
  hwx17_3 : ∀ i : grid17.Coords, EltTy.bits .f32 = 32 ∨ (Rect.block (s := S50000x128) S5000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S50000x128.size a
  hwx18_0 : ∀ i : grid18.Coords, EltTy.bits .f32 = 32 ∨ (Rect.block (s := S50000x128) S5000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .f32 = 32 ∨ (Rect.block (s := S128x128) S128x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x128.size a ≤ S50000x128.size a
  hwx18_2 : ∀ i : grid18.Coords, EltTy.bits .f32 = 32 ∨ (Rect.block (s := S50000x128) S5000x128.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S850000x128.size a
  hwx19_0 : ∀ i : grid19.Coords, EltTy.bits .f32 = 32 ∨ (Rect.block (s := S850000x128) S5000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x1.size a ≤ S850000x1.size a
  hwx19_1 : ∀ i : grid19.Coords, EltTy.bits .f32 = 32 ∨ (Rect.block (s := S850000x1) S5000x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x128.size a ≤ S850000x128.size a
  hwx19_2 : ∀ i : grid19.Coords, EltTy.bits .f32 = 32 ∨ (Rect.block (s := S850000x128) S5000x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S50000x128.size a
  hwx20_0 : ∀ i : grid20.Coords, EltTy.bits .f32 = 32 ∨ (Rect.block (s := S50000x128) S5000x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x128.size a ≤ S1x128.size a
  hwx20_1 : ∀ i : grid20.Coords, EltTy.bits .f32 = 32 ∨ (Rect.block (s := S1x128) S1x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S5000x128.size a ≤ S50000x128.size a
  hwx20_3 : ∀ i : grid20.Coords, EltTy.bits .f32 = 32 ∨ (Rect.block (s := S50000x128) S5000x128.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x128.size a ≤ S50000x128.size a
  hwx21_0 : ∀ i : grid21.Coords, EltTy.bits .f32 = 32 ∨ (Rect.block (s := S50000x128) S5000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S128x128.size a ≤ S128x128.size a
  hwx21_1 : ∀ i : grid21.Coords, EltTy.bits .f32 = 32 ∨ (Rect.block (s := S128x128) S128x128.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x128.size a ≤ S50000x128.size a
  hwx21_2 : ∀ i : grid21.Coords, EltTy.bits .f32 = 32 ∨ (Rect.block (s := S50000x128) S5000x128.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x128.size a ≤ S850000x128.size a
  hwx22_0 : ∀ i : grid22.Coords, EltTy.bits .f32 = 32 ∨ (Rect.block (s := S850000x128) S5000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x1.size a ≤ S850000x1.size a
  hwx22_1 : ∀ i : grid22.Coords, EltTy.bits .f32 = 32 ∨ (Rect.block (s := S850000x1) S5000x1.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x128.size a ≤ S850000x128.size a
  hwx22_2 : ∀ i : grid22.Coords, EltTy.bits .f32 = 32 ∨ (Rect.block (s := S850000x128) S5000x128.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S5000x128.size a ≤ S50000x128.size a
  hwx23_0 : ∀ i : grid23.Coords, EltTy.bits .f32 = 32 ∨ (Rect.block (s := S50000x128) S5000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x128.size a ≤ S1x128.size a
  hwx23_1 : ∀ i : grid23.Coords, EltTy.bits .f32 = 32 ∨ (Rect.block (s := S1x128) S1x128.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x128.size a ≤ S1x128.size a
  hwx23_2 : ∀ i : grid23.Coords, EltTy.bits .f32 = 32 ∨ (Rect.block (s := S1x128) S1x128.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S5000x128.size a ≤ S50000x128.size a
  hwx23_3 : ∀ i : grid23.Coords, EltTy.bits .f32 = 32 ∨ (Rect.block (s := S50000x128) S5000x128.size (cc23_transform_3 i) (hinb23_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg3) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v136) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v137) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v140) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v142) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v143) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg5) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v144) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v180) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v173) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v181) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v184) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v185) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v186) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v187) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_arg0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg3) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v194) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v230) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v223) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v231) S5000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v234) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v235) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v236) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v237) S5000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v237) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg5) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v238) S5000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v274) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v267) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v275) S5000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v278) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v279) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v280) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v281) S5000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_arg0) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg3) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v288) S5000x128.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v324) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v317) S5000x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v325) S5000x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v328) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v329) S1x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v330) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v331) S5000x128.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v331) S5000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg5) S128x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v332) S5000x128.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v368) S5000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v361) S5000x1.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v369) S5000x128.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v372) S5000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v373) S1x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v374) S1x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v375) S5000x128.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

class Facts : Prop extends Facts₀ where

variable [Facts]
-- ==== ReferenceIdeal.lean ====
abbrev S50000x128 : Shape := ⟨2, ![50000, 128]⟩
abbrev S4x2x800000 : Shape := ⟨3, ![4, 2, 800000]⟩
abbrev S4x800000 : Shape := ⟨2, ![4, 800000]⟩
abbrev S128x128 : Shape := ⟨2, ![128, 128]⟩
abbrev S128 : Shape := ⟨1, ![128]⟩
abbrev S1x1x800000 : Shape := ⟨3, ![1, 1, 800000]⟩
abbrev S800000 : Shape := ⟨1, ![800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x50000x128 : Shape := ⟨3, ![1, 50000, 128]⟩
abbrev S4x50000x128 : Shape := ⟨3, ![4, 50000, 128]⟩

abbrev nBuf : Space → Nat
  | .hbm => 549
  | .vmem => 0
  | .smem => 0
  | _ => 0

abbrev hbmTy0_0 (i : Nat) : BufTy := match i % 128 with
  | 0 => ⟨S50000x128, .f32⟩
  | 1 => ⟨S4x2x800000, .i32⟩
  | 2 => ⟨S4x800000, .f32⟩
  | 3 => ⟨S128x128, .f32⟩
  | 4 => ⟨S128, .f32⟩
  | 5 => ⟨S128x128, .f32⟩
  | 6 => ⟨S128, .f32⟩
  | 7 => ⟨S128, .f32⟩
  | 8 => ⟨S1x1x800000, .i32⟩
  | 9 => ⟨S800000, .i32⟩
  | 10 => ⟨S1x1x800000, .i32⟩
  | 11 => ⟨S800000, .i32⟩
  | 12 => ⟨S1x800000, .f32⟩
  | 13 => ⟨S800000, .f32⟩
  | 14 => ⟨S50000x128, .f32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S1x128, .f32⟩
  | 75 => ⟨S50000x128, .f32⟩
  | 76 => ⟨S50000x128, .f32⟩
  | 77 => ⟨S50000x128, .f32⟩
  | 78 => ⟨S50000x128, .f32⟩
  | 79 => ⟨S50000, .i32⟩
  | 80 => ⟨S850000, .i32⟩
  | 81 => ⟨S850000, .i32⟩
  | 82 => ⟨S_, .f32⟩
  | 83 => ⟨S50000, .f32⟩
  | 84 => ⟨S850000, .f32⟩
  | 85 => ⟨S_, .f32⟩
  | 86 => ⟨S50000, .f32⟩
  | 87 => ⟨S850000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .i1⟩
  | 10 => ⟨S1x128, .f32⟩
  | 11 => ⟨S50000x128, .f32⟩
  | 12 => ⟨S50000x128, .f32⟩
  | 13 => ⟨S50000x128, .f32⟩
  | 14 => ⟨S1x1x800000, .i32⟩
  | 15 => ⟨S800000, .i32⟩
  | 16 => ⟨S1x1x800000, .i32⟩
  | 17 => ⟨S800000, .i32⟩
  | 18 => ⟨S1x800000, .f32⟩
  | 19 => ⟨S800000, .f32⟩
  | 20 => ⟨S50000x128, .f32⟩
  | 21 => ⟨S50000, .i32⟩
  | 22 => ⟨S850000, .i32⟩
  | 23 => ⟨S850000, .i32⟩
  | 24 => ⟨S_, .f32⟩
  | 25 => ⟨S50000, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .i1⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S50000, .i32⟩
  | 86 => ⟨S850000, .i32⟩
  | 87 => ⟨S850000, .i32⟩
  | 88 => ⟨S_, .f32⟩
  | 89 => ⟨S50000, .f32⟩
  | 90 => ⟨S850000, .f32⟩
  | 91 => ⟨S_, .f32⟩
  | 92 => ⟨S50000, .f32⟩
  | 93 => ⟨S850000x1, .i32⟩
  | 94 => ⟨S50000, .f32⟩
  | 95 => ⟨S_, .f32⟩
  | 96 => ⟨S50000, .f32⟩
  | 97 => ⟨S50000, .i1⟩
  | 98 => ⟨S50000, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S850000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_2 (i : Nat) : BufTy := match i % 128 with
  | 0 => ⟨S850000, .i32⟩
  | 1 => ⟨S850000x1, .i32⟩
  | 2 => ⟨S850000x128, .f32⟩
  | 3 => ⟨S850000x1, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .i1⟩
  | 16 => ⟨S1x128, .f32⟩
  | 17 => ⟨S50000x128, .f32⟩
  | 18 => ⟨S50000x128, .f32⟩
  | 19 => ⟨S50000x128, .f32⟩
  | 20 => ⟨S1x1x800000, .i32⟩
  | 21 => ⟨S800000, .i32⟩
  | 22 => ⟨S1x1x800000, .i32⟩
  | 23 => ⟨S800000, .i32⟩
  | 24 => ⟨S1x800000, .f32⟩
  | 25 => ⟨S800000, .f32⟩
  | 26 => ⟨S50000x128, .f32⟩
  | 27 => ⟨S50000, .i32⟩
  | 28 => ⟨S850000, .i32⟩
  | 29 => ⟨S850000, .i32⟩
  | 30 => ⟨S_, .f32⟩
  | 31 => ⟨S50000, .f32⟩
  | 32 => ⟨S850000, .f32⟩
  | 33 => ⟨S_, .f32⟩
  | 34 => ⟨S50000, .f32⟩
  | 35 => ⟨S850000x1, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x1, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .i1⟩
  | 86 => ⟨S1x128, .f32⟩
  | 87 => ⟨S50000x128, .f32⟩
  | 88 => ⟨S50000x128, .f32⟩
  | 89 => ⟨S50000x128, .f32⟩
  | 90 => ⟨S50000x128, .f32⟩
  | 91 => ⟨S50000, .i32⟩
  | 92 => ⟨S850000, .i32⟩
  | 93 => ⟨S850000, .i32⟩
  | 94 => ⟨S_, .f32⟩
  | 95 => ⟨S50000, .f32⟩
  | 96 => ⟨S850000, .f32⟩
  | 97 => ⟨S_, .f32⟩
  | 98 => ⟨S50000, .f32⟩
  | 99 => ⟨S850000x1, .i32⟩
  | 100 => ⟨S50000, .f32⟩
  | 101 => ⟨S_, .f32⟩
  | 102 => ⟨S50000, .f32⟩
  | 103 => ⟨S50000, .i1⟩
  | 104 => ⟨S50000, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x128, .f32⟩

abbrev hbmTy0_3 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x128, .f32⟩
  | 9 => ⟨S850000x1, .f32⟩
  | 10 => ⟨S850000x128, .f32⟩
  | 11 => ⟨S850000x128, .f32⟩
  | 12 => ⟨S_, .f32⟩
  | 13 => ⟨S50000x128, .f32⟩
  | 14 => ⟨S850000x1, .i32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S1x128, .f32⟩
  | 23 => ⟨S50000x128, .f32⟩
  | 24 => ⟨S50000x128, .f32⟩
  | 25 => ⟨S50000x128, .f32⟩
  | 26 => ⟨S1x1x800000, .i32⟩
  | 27 => ⟨S800000, .i32⟩
  | 28 => ⟨S1x1x800000, .i32⟩
  | 29 => ⟨S800000, .i32⟩
  | 30 => ⟨S1x800000, .f32⟩
  | 31 => ⟨S800000, .f32⟩
  | 32 => ⟨S50000x128, .f32⟩
  | 33 => ⟨S50000, .i32⟩
  | 34 => ⟨S850000, .i32⟩
  | 35 => ⟨S850000, .i32⟩
  | 36 => ⟨S_, .f32⟩
  | 37 => ⟨S50000, .f32⟩
  | 38 => ⟨S850000, .f32⟩
  | 39 => ⟨S_, .f32⟩
  | 40 => ⟨S50000, .f32⟩
  | 41 => ⟨S850000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S50000, .f32⟩
  | 49 => ⟨S50000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S850000, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .i1⟩
  | 92 => ⟨S1x128, .f32⟩
  | 93 => ⟨S50000x128, .f32⟩
  | 94 => ⟨S50000x128, .f32⟩
  | 95 => ⟨S50000x128, .f32⟩
  | 96 => ⟨S50000x128, .f32⟩
  | 97 => ⟨S50000, .i32⟩
  | 98 => ⟨S850000, .i32⟩
  | 99 => ⟨S850000, .i32⟩
  | 100 => ⟨S_, .f32⟩
  | 101 => ⟨S50000, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .i1⟩
  | 110 => ⟨S50000, .f32⟩
  | 111 => ⟨S_, .f32⟩
  | 112 => ⟨S50000, .f32⟩
  | 113 => ⟨S50000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S850000, .f32⟩
  | 124 => ⟨S_, .i32⟩
  | 125 => ⟨S850000, .i32⟩
  | 126 => ⟨S850000, .i1⟩
  | 127 => ⟨S_, .i32⟩
  | _ => ⟨S50000x128, .f32⟩

abbrev hbmTy0_4 (i : Nat) : BufTy := match i % 128 with
  | 0 => ⟨S850000, .i32⟩
  | 1 => ⟨S850000, .i32⟩
  | 2 => ⟨S850000, .i32⟩
  | 3 => ⟨S850000x1, .i32⟩
  | 4 => ⟨S850000, .f32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x1, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .i1⟩
  | 28 => ⟨S1x128, .f32⟩
  | 29 => ⟨S50000x128, .f32⟩
  | 30 => ⟨S50000x128, .f32⟩
  | 31 => ⟨S50000x128, .f32⟩
  | 32 => ⟨S1x50000x128, .f32⟩
  | 33 => ⟨S1x50000x128, .f32⟩
  | 34 => ⟨S1x50000x128, .f32⟩
  | 35 => ⟨S1x50000x128, .f32⟩
  | 36 => ⟨S4x50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_call2_v0 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_cst_23 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_25 : Ref sig .tc := ⟨.hbm, 163, rfl⟩
abbrev main_call4_v0 : Ref sig .tc := ⟨.hbm, 164, rfl⟩
abbrev main_v126 : Ref sig .tc := ⟨.hbm, 165, rfl⟩
abbrev main_c_26 : Ref sig .tc := ⟨.hbm, 166, rfl⟩
abbrev main_v127 : Ref sig .tc := ⟨.hbm, 167, rfl⟩
abbrev main_v128 : Ref sig .tc := ⟨.hbm, 168, rfl⟩
abbrev main_c_27 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_28 : Ref sig .tc := ⟨.hbm, 176, rfl⟩
abbrev main_v135 : Ref sig .tc := ⟨.hbm, 177, rfl⟩
abbrev main_v136 : Ref sig .tc := ⟨.hbm, 178, rfl⟩
abbrev main_c_29 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_30 : Ref sig .tc := ⟨.hbm, 186, rfl⟩
abbrev main_v143 : Ref sig .tc := ⟨.hbm, 187, rfl⟩
abbrev main_v144 : Ref sig .tc := ⟨.hbm, 188, rfl⟩
abbrev main_c_31 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_32 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_33 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_34 : Ref sig .tc := ⟨.hbm, 216, rfl⟩
abbrev main_v169 : Ref sig .tc := ⟨.hbm, 217, rfl⟩
abbrev main_v170 : Ref sig .tc := ⟨.hbm, 218, rfl⟩
abbrev main_cst_35 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_36 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_37 : Ref sig .tc := ⟨.hbm, 227, rfl⟩
abbrev main_call6_v0 : Ref sig .tc := ⟨.hbm, 228, rfl⟩
abbrev main_v177 : Ref sig .tc := ⟨.hbm, 229, rfl⟩
abbrev main_c_38 : Ref sig .tc := ⟨.hbm, 230, rfl⟩
abbrev main_v178 : Ref sig .tc := ⟨.hbm, 231, rfl⟩
abbrev main_v179 : Ref sig .tc := ⟨.hbm, 232, rfl⟩
abbrev main_c_39 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_40 : Ref sig .tc := ⟨.hbm, 240, rfl⟩
abbrev main_v186 : Ref sig .tc := ⟨.hbm, 241, rfl⟩
abbrev main_v187 : Ref sig .tc := ⟨.hbm, 242, rfl⟩
abbrev main_c_41 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_42 : Ref sig .tc := ⟨.hbm, 250, rfl⟩
abbrev main_v194 : Ref sig .tc := ⟨.hbm, 251, rfl⟩
abbrev main_v195 : Ref sig .tc := ⟨.hbm, 252, rfl⟩
abbrev main_c_43 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_44 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_cst_45 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_46 : Ref sig .tc := ⟨.hbm, 286, rfl⟩
abbrev main_v226 : Ref sig .tc := ⟨.hbm, 287, rfl⟩
abbrev main_v227 : Ref sig .tc := ⟨.hbm, 288, rfl⟩
abbrev main_cst_47 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_cst_48 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_cst_49 : Ref sig .tc := ⟨.hbm, 297, rfl⟩
abbrev main_call8_v0 : Ref sig .tc := ⟨.hbm, 298, rfl⟩
abbrev main_v234 : Ref sig .tc := ⟨.hbm, 299, rfl⟩
abbrev main_c_50 : Ref sig .tc := ⟨.hbm, 300, rfl⟩
abbrev main_v235 : Ref sig .tc := ⟨.hbm, 301, rfl⟩
abbrev main_v236 : Ref sig .tc := ⟨.hbm, 302, rfl⟩
abbrev main_c_51 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_c_52 : Ref sig .tc := ⟨.hbm, 310, rfl⟩
abbrev main_v243 : Ref sig .tc := ⟨.hbm, 311, rfl⟩
abbrev main_v244 : Ref sig .tc := ⟨.hbm, 312, rfl⟩
abbrev main_c_53 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_54 : Ref sig .tc := ⟨.hbm, 320, rfl⟩
abbrev main_v251 : Ref sig .tc := ⟨.hbm, 321, rfl⟩
abbrev main_v252 : Ref sig .tc := ⟨.hbm, 322, rfl⟩
abbrev main_c_55 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_cst_56 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_cst_57 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_cst_58 : Ref sig .tc := ⟨.hbm, 350, rfl⟩
abbrev main_v277 : Ref sig .tc := ⟨.hbm, 351, rfl⟩
abbrev main_v278 : Ref sig .tc := ⟨.hbm, 352, rfl⟩
abbrev main_cst_59 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_cst_60 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_cst_61 : Ref sig .tc := ⟨.hbm, 361, rfl⟩
abbrev main_call10_v0 : Ref sig .tc := ⟨.hbm, 362, rfl⟩
abbrev main_v285 : Ref sig .tc := ⟨.hbm, 363, rfl⟩
abbrev main_c_62 : Ref sig .tc := ⟨.hbm, 364, rfl⟩
abbrev main_v286 : Ref sig .tc := ⟨.hbm, 365, rfl⟩
abbrev main_v287 : Ref sig .tc := ⟨.hbm, 366, rfl⟩
abbrev main_c_63 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_c_64 : Ref sig .tc := ⟨.hbm, 374, rfl⟩
abbrev main_v294 : Ref sig .tc := ⟨.hbm, 375, rfl⟩
abbrev main_v295 : Ref sig .tc := ⟨.hbm, 376, rfl⟩
abbrev main_c_65 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_c_66 : Ref sig .tc := ⟨.hbm, 384, rfl⟩
abbrev main_v302 : Ref sig .tc := ⟨.hbm, 385, rfl⟩
abbrev main_v303 : Ref sig .tc := ⟨.hbm, 386, rfl⟩
abbrev main_c_67 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_cst_68 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_cst_69 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_cst_70 : Ref sig .tc := ⟨.hbm, 420, rfl⟩
abbrev main_v334 : Ref sig .tc := ⟨.hbm, 421, rfl⟩
abbrev main_v335 : Ref sig .tc := ⟨.hbm, 422, rfl⟩
abbrev main_cst_71 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_cst_72 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_cst_73 : Ref sig .tc := ⟨.hbm, 431, rfl⟩
abbrev main_call12_v0 : Ref sig .tc := ⟨.hbm, 432, rfl⟩
abbrev main_v342 : Ref sig .tc := ⟨.hbm, 433, rfl⟩
abbrev main_c_74 : Ref sig .tc := ⟨.hbm, 434, rfl⟩
abbrev main_v343 : Ref sig .tc := ⟨.hbm, 435, rfl⟩
abbrev main_v344 : Ref sig .tc := ⟨.hbm, 436, rfl⟩
abbrev main_c_75 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_c_76 : Ref sig .tc := ⟨.hbm, 444, rfl⟩
abbrev main_v351 : Ref sig .tc := ⟨.hbm, 445, rfl⟩
abbrev main_v352 : Ref sig .tc := ⟨.hbm, 446, rfl⟩
abbrev main_c_77 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_c_78 : Ref sig .tc := ⟨.hbm, 454, rfl⟩
abbrev main_v359 : Ref sig .tc := ⟨.hbm, 455, rfl⟩
abbrev main_v360 : Ref sig .tc := ⟨.hbm, 456, rfl⟩
abbrev main_c_79 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_cst_80 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_cst_81 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_cst_82 : Ref sig .tc := ⟨.hbm, 484, rfl⟩
abbrev main_v385 : Ref sig .tc := ⟨.hbm, 485, rfl⟩
abbrev main_v386 : Ref sig .tc := ⟨.hbm, 486, rfl⟩
abbrev main_cst_83 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_cst_84 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_cst_85 : Ref sig .tc := ⟨.hbm, 495, rfl⟩
abbrev main_call14_v0 : Ref sig .tc := ⟨.hbm, 496, rfl⟩
abbrev main_v393 : Ref sig .tc := ⟨.hbm, 497, rfl⟩
abbrev main_c_86 : Ref sig .tc := ⟨.hbm, 498, rfl⟩
abbrev main_v394 : Ref sig .tc := ⟨.hbm, 499, rfl⟩
abbrev main_v395 : Ref sig .tc := ⟨.hbm, 500, rfl⟩
abbrev main_c_87 : Ref sig .tc := ⟨.hbm, 501, rfl⟩
abbrev main_v396 : Ref sig .tc := ⟨.hbm, 502, rfl⟩
abbrev main_v397 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_c_88 : Ref sig .tc := ⟨.hbm, 508, rfl⟩
abbrev main_v402 : Ref sig .tc := ⟨.hbm, 509, rfl⟩
abbrev main_v403 : Ref sig .tc := ⟨.hbm, 510, rfl⟩
abbrev main_c_89 : Ref sig .tc := ⟨.hbm, 511, rfl⟩
abbrev main_v404 : Ref sig .tc := ⟨.hbm, 512, rfl⟩
abbrev main_v405 : Ref sig .tc := ⟨.hbm, 513, rfl⟩
abbrev main_v406 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_c_90 : Ref sig .tc := ⟨.hbm, 518, rfl⟩
abbrev main_v410 : Ref sig .tc := ⟨.hbm, 519, rfl⟩
abbrev main_v411 : Ref sig .tc := ⟨.hbm, 520, rfl⟩
abbrev main_c_91 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_v415 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_cst_92 : Ref sig .tc := ⟨.hbm, 530, rfl⟩
abbrev main_v420 : Ref sig .tc := ⟨.hbm, 531, rfl⟩
abbrev main_v421 : Ref sig .tc := ⟨.hbm, 532, rfl⟩
abbrev main_v422 : Ref sig .tc := ⟨.hbm, 533, rfl⟩
abbrev main_v423 : Ref sig .tc := ⟨.hbm, 534, rfl⟩
abbrev main_v424 : Ref sig .tc := ⟨.hbm, 535, rfl⟩
abbrev main_v425 : Ref sig .tc := ⟨.hbm, 536, rfl⟩
abbrev main_cst_93 : Ref sig .tc := ⟨.hbm, 537, rfl⟩
abbrev main_v426 : Ref sig .tc := ⟨.hbm, 538, rfl⟩
abbrev main_v427 : Ref sig .tc := ⟨.hbm, 539, rfl⟩
abbrev main_v428 : Ref sig .tc := ⟨.hbm, 540, rfl⟩
abbrev main_v429 : Ref sig .tc := ⟨.hbm, 541, rfl⟩
abbrev main_v430 : Ref sig .tc := ⟨.hbm, 542, rfl⟩
abbrev main_v431 : Ref sig .tc := ⟨.hbm, 543, rfl⟩
abbrev main_v432 : Ref sig .tc := ⟨.hbm, 544, rfl⟩
abbrev main_v433 : Ref sig .tc := ⟨.hbm, 545, rfl⟩
abbrev main_v434 : Ref sig .tc := ⟨.hbm, 546, rfl⟩
abbrev main_v435 : Ref sig .tc := ⟨.hbm, 547, rfl⟩
abbrev main_v436 : Ref sig .tc := ⟨.hbm, 548, rfl⟩

abbrev nD : Nat := 1
abbrev τ : Topo := Topo.v7x

variable {F : FTy → Type} [FloatOps F]

class Facts₀ : Prop where
  slices_S4x2x800000_S1x1x800000_0_0_0 : S4x2x800000.Slices ![0, 0, 0] S1x1x800000
  shapeCasts_S1x1x800000_S800000 : S1x1x800000.ShapeCasts S800000
  slices_S4x2x800000_S1x1x800000_0_1_0 : S4x2x800000.Slices ![0, 1, 0] S1x1x800000
  slices_S4x800000_S1x800000_0_0 : S4x800000.Slices ![0, 0] S1x800000
  shapeCasts_S1x800000_S800000 : S1x800000.ShapeCasts S800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x2x800000_S1x1x800000_1_0_0 : S4x2x800000.Slices ![1, 0, 0] S1x1x800000
  slices_S4x2x800000_S1x1x800000_1_1_0 : S4x2x800000.Slices ![1, 1, 0] S1x1x800000
  slices_S4x800000_S1x800000_1_0 : S4x800000.Slices ![1, 0] S1x800000
  slices_S4x2x800000_S1x1x800000_2_0_0 : S4x2x800000.Slices ![2, 0, 0] S1x1x800000
  slices_S4x2x800000_S1x1x800000_2_1_0 : S4x2x800000.Slices ![2, 1, 0] S1x1x800000
  slices_S4x800000_S1x800000_2_0 : S4x800000.Slices ![2, 0] S1x800000
  slices_S4x2x800000_S1x1x800000_3_0_0 : S4x2x800000.Slices ![3, 0, 0] S1x1x800000
  slices_S4x2x800000_S1x1x800000_3_1_0 : S4x2x800000.Slices ![3, 1, 0] S1x1x800000
  slices_S4x800000_S1x800000_3_0 : S4x800000.Slices ![3, 0] S1x800000
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.RegBlock.lean ====
/- Every region writes a whole 5000 x 128 block: its rectangle, and that the one piece on it covers the block. -/
import proofs.«160853_j19842748908317_1_alg».proof.Proof.Gen.Kernel.Launch
import Idealize.ShloMosaic.Lib.Pipeline.FrameBody

noncomputable section

namespace Cert.Kernel.Rg

open Cert.Kernel Cert.Kernel.Gen
open Idealize.ShloMosaic Idealize.ShloMosaic.TcCoe

variable {F : FTy → Type} [FloatOps F]

abbrev rBlock : Rect S5000x128 := Rect.unit (s := S5000x128) ![0, 0] S5000x128.size inb_S5000x128_S5000x128_0_0

theorem cover_block (p0 : Vec F S5000x128 .f32) (y : S5000x128.Idx) :
    ∃ pc ∈ ([⟨rBlock, p0⟩] : List (View.Piece (Elt F) S5000x128 .f32)), y ∈ pc.1.set :=
  View.cover_of_tiled [⟨rBlock, p0⟩] S5000x128.size (by rfl) y

end Cert.Kernel.Rg

end
-- ==== Proof.K.Reg0.lean ====
/- Region 0: a 5000-row block times the 128 x 128 matrix at each of ten points; the body leaves the product of its two input blocks. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S128x128 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨rBlock, k0_pay1 (View.ld x0 rBlock) (View.ld x1 r0_S128x128)⟩]

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.Reg1.lean ====
/- Region 1: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x1 : Rect S5000x1 := Rect.unit (s := S5000x1) ![0, 0] S5000x1.size inb_S5000x1_S5000x1_0_0

def out1_2 (x0 : Vec F S5000x128 .f32) (x1 : Vec F S5000x1 .f32) : Vec F S5000x128 .f32 :=
  View.canon [⟨rBlock, k1_pay1 (View.ld x0 rBlock) (View.ld x1 r1_S5000x1)⟩]

set_option maxHeartbeats 1000000 in

theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.K.Reg2.lean ====
/- Region 2: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_S1x128 : Rect S1x128 := Rect.unit (s := S1x128) ![0, 0] S1x128.size inb_S1x128_S1x128_0_0

def out2_3 (x0 : Vec F S5000x128 .f32) (x1 : Vec F S1x128 .f32) (x2 : Vec F S1x128 .f32) : Vec F S5000x128 .f32 :=
  View.canon [⟨rBlock, k2_pay1 (View.ld x0 rBlock) (View.ld x1 r2_S1x128) (View.ld x2 r2_S1x128)⟩]

set_option maxHeartbeats 1000000 in

theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_prelu_kernel i arg1 harg1 arg2 harg2 arg3 harg3 arg4 harg4) K := by
  simp only [cc2__bias_prelu_kernel_eq_skeleton]; unfold cc2__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.Reg3.lean ====
/- Region 3: a 5000-row block of activations times the 128 x 128 matrix at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_S128x128 : Rect S128x128 := Rect.unit (s := S128x128) ![0, 0] S128x128.size inb_S128x128_S128x128_0_0

def out3_2 (x0 : Vec F S5000x128 .f32) (x1 : Vec F S128x128 .f32) : Vec F S5000x128 .f32 :=
  View.canon [⟨rBlock, k3_pay1 (View.ld x0 rBlock) (View.ld x1 r3_S128x128)⟩]

set_option maxHeartbeats 1000000 in

theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.K.Reg4.lean ====
/- Region 4: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_S5000x1 : Rect S5000x1 := Rect.unit (s := S5000x1) ![0, 0] S5000x1.size inb_S5000x1_S5000x1_0_0

def out4_2 (x0 : Vec F S5000x128 .f32) (x1 : Vec F S5000x1 .f32) : Vec F S5000x128 .f32 :=
  View.canon [⟨rBlock, k4_pay1 (View.ld x0 rBlock) (View.ld x1 r4_S5000x1)⟩]

set_option maxHeartbeats 1000000 in

theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.K.Reg5.lean ====
/- Region 5: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_S1x128 : Rect S1x128 := Rect.unit (s := S1x128) ![0, 0] S1x128.size inb_S1x128_S1x128_0_0

def out5_3 (x0 : Vec F S5000x128 .f32) (x1 : Vec F S1x128 .f32) (x2 : Vec F S1x128 .f32) : Vec F S5000x128 .f32 :=
  View.canon [⟨rBlock, k5_pay1 (View.ld x0 rBlock) (View.ld x1 r5_S1x128) (View.ld x2 r5_S1x128)⟩]

set_option maxHeartbeats 1000000 in

theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_prelu_kernel i arg1 harg1 arg2 harg2 arg3 harg3 arg4 harg4) K := by
  simp only [cc5__bias_prelu_kernel_eq_skeleton]; unfold cc5__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.K.Reg6.lean ====
/- Region 6: a 5000-row block times the 128 x 128 matrix at each of ten points; the body leaves the product of its two input blocks. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_S128x128 : Rect S128x128 := Rect.unit (s := S128x128) ![0, 0] S128x128.size inb_S128x128_S128x128_0_0

def out6_2 (x0 : Vec F S5000x128 .f32) (x1 : Vec F S128x128 .f32) : Vec F S5000x128 .f32 :=
  View.canon [⟨rBlock, k6_pay1 (View.ld x0 rBlock) (View.ld x1 r6_S128x128)⟩]

set_option maxHeartbeats 1000000 in

theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.K.Reg7.lean ====
/- Region 7: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_S5000x1 : Rect S5000x1 := Rect.unit (s := S5000x1) ![0, 0] S5000x1.size inb_S5000x1_S5000x1_0_0

def out7_2 (x0 : Vec F S5000x128 .f32) (x1 : Vec F S5000x1 .f32) : Vec F S5000x128 .f32 :=
  View.canon [⟨rBlock, k7_pay1 (View.ld x0 rBlock) (View.ld x1 r7_S5000x1)⟩]

set_option maxHeartbeats 1000000 in

theorem sound_kernel7 (c : Dev nD) (E : Set ℕ) (i : grid7.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.K.Reg8.lean ====
/- Region 8: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_S1x128 : Rect S1x128 := Rect.unit (s := S1x128) ![0, 0] S1x128.size inb_S1x128_S1x128_0_0

def out8_3 (x0 : Vec F S5000x128 .f32) (x1 : Vec F S1x128 .f32) (x2 : Vec F S1x128 .f32) : Vec F S5000x128 .f32 :=
  View.canon [⟨rBlock, k8_pay1 (View.ld x0 rBlock) (View.ld x1 r8_S1x128) (View.ld x2 r8_S1x128)⟩]

set_option maxHeartbeats 1000000 in

theorem sound_kernel8 (c : Dev nD) (E : Set ℕ) (i : grid8.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__bias_prelu_kernel i arg1 harg1 arg2 harg2 arg3 harg3 arg4 harg4) K := by
  simp only [cc8__bias_prelu_kernel_eq_skeleton]; unfold cc8__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Rg

end
-- ==== Proof.K.Reg9.lean ====
/- Region 9: a 5000-row block of activations times the 128 x 128 matrix at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_S128x128 : Rect S128x128 := Rect.unit (s := S128x128) ![0, 0] S128x128.size inb_S128x128_S128x128_0_0

def out9_2 (x0 : Vec F S5000x128 .f32) (x1 : Vec F S128x128 .f32) : Vec F S5000x128 .f32 :=
  View.canon [⟨rBlock, k9_pay1 (View.ld x0 rBlock) (View.ld x1 r9_S128x128)⟩]

set_option maxHeartbeats 1000000 in

theorem sound_kernel9 (c : Dev nD) (E : Set ℕ) (i : grid9.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Rg

end
-- ==== Proof.K.Reg10.lean ====
/- Region 10: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_S5000x1 : Rect S5000x1 := Rect.unit (s := S5000x1) ![0, 0] S5000x1.size inb_S5000x1_S5000x1_0_0

def out10_2 (x0 : Vec F S5000x128 .f32) (x1 : Vec F S5000x1 .f32) : Vec F S5000x128 .f32 :=
  View.canon [⟨rBlock, k10_pay1 (View.ld x0 rBlock) (View.ld x1 r10_S5000x1)⟩]

set_option maxHeartbeats 1000000 in

theorem sound_kernel10 (c : Dev nD) (E : Set ℕ) (i : grid10.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.Kernel.Rg

end
-- ==== Proof.K.Reg11.lean ====
/- Region 11: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

abbrev r11_S1x128 : Rect S1x128 := Rect.unit (s := S1x128) ![0, 0] S1x128.size inb_S1x128_S1x128_0_0

def out11_3 (x0 : Vec F S5000x128 .f32) (x1 : Vec F S1x128 .f32) (x2 : Vec F S1x128 .f32) : Vec F S5000x128 .f32 :=
  View.canon [⟨rBlock, k11_pay1 (View.ld x0 rBlock) (View.ld x1 r11_S1x128) (View.ld x2 r11_S1x128)⟩]

set_option maxHeartbeats 1000000 in

theorem sound_kernel11 (c : Dev nD) (E : Set ℕ) (i : grid11.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__bias_prelu_kernel i arg1 harg1 arg2 harg2 arg3 harg3 arg4 harg4) K := by
  simp only [cc11__bias_prelu_kernel_eq_skeleton]; unfold cc11__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.Kernel.Rg

end
-- ==== Proof.K.Reg12.lean ====
/- Region 12: a 5000-row block times the 128 x 128 matrix at each of ten points; the body leaves the product of its two input blocks. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_S128x128 : Rect S128x128 := Rect.unit (s := S128x128) ![0, 0] S128x128.size inb_S128x128_S128x128_0_0

def out12_2 (x0 : Vec F S5000x128 .f32) (x1 : Vec F S128x128 .f32) : Vec F S5000x128 .f32 :=
  View.canon [⟨rBlock, k12_pay1 (View.ld x0 rBlock) (View.ld x1 r12_S128x128)⟩]

set_option maxHeartbeats 1000000 in

theorem sound_kernel12 (c : Dev nD) (E : Set ℕ) (i : grid12.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.Kernel.Rg

end
-- ==== Proof.K.Reg13.lean ====
/- Region 13: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_S5000x1 : Rect S5000x1 := Rect.unit (s := S5000x1) ![0, 0] S5000x1.size inb_S5000x1_S5000x1_0_0

def out13_2 (x0 : Vec F S5000x128 .f32) (x1 : Vec F S5000x1 .f32) : Vec F S5000x128 .f32 :=
  View.canon [⟨rBlock, k13_pay1 (View.ld x0 rBlock) (View.ld x1 r13_S5000x1)⟩]

set_option maxHeartbeats 1000000 in

theorem sound_kernel13 (c : Dev nD) (E : Set ℕ) (i : grid13.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__scale_kernel i arg1 harg1 arg2 harg2 arg3 harg3) K := by
  simp only [cc13__scale_kernel_eq_skeleton]; unfold cc13__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.Kernel.Rg

end
-- ==== Proof.K.Reg14.lean ====
/- Region 14: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_S1x128 : Rect S1x128 := Rect.unit (s := S1x128) ![0, 0] S1x128.size inb_S1x128_S1x128_0_0

def out14_3 (x0 : Vec F S5000x128 .f32) (x1 : Vec F S1x128 .f32) (x2 : Vec F S1x128 .f32) : Vec F S5000x128 .f32 :=
  View.canon [⟨rBlock, k14_pay1 (View.ld x0 rBlock) (View.ld x1 r14_S1x128) (View.ld x2 r14_S1x128)⟩]

set_option maxHeartbeats 1000000 in

theorem sound_kernel14 (c : Dev nD) (E : Set ℕ) (i : grid14.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14__bias_prelu_kernel i arg1 harg1 arg2 harg2 arg3 harg3 arg4 harg4) K := by
  simp only [cc14__bias_prelu_kernel_eq_skeleton]; unfold cc14__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.Kernel.Rg

end
-- ==== Proof.K.Reg15.lean ====
/- Region 15: a 5000-row block of activations times the 128 x 128 matrix at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_S128x128 : Rect S128x128 := Rect.unit (s := S128x128) ![0, 0] S128x128.size inb_S128x128_S128x128_0_0

def out15_2 (x0 : Vec F S5000x128 .f32) (x1 : Vec F S128x128 .f32) : Vec F S5000x128 .f32 :=
  View.canon [⟨rBlock, k15_pay1 (View.ld x0 rBlock) (View.ld x1 r15_S128x128)⟩]

set_option maxHeartbeats 1000000 in

theorem sound_kernel15 (c : Dev nD) (E : Set ℕ) (i : grid15.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.Kernel.Rg

end
-- ==== Proof.K.Reg16.lean ====
/- Region 16: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

abbrev r16_S5000x1 : Rect S5000x1 := Rect.unit (s := S5000x1) ![0, 0] S5000x1.size inb_S5000x1_S5000x1_0_0

def out16_2 (x0 : Vec F S5000x128 .f32) (x1 : Vec F S5000x1 .f32) : Vec F S5000x128 .f32 :=
  View.canon [⟨rBlock, k16_pay1 (View.ld x0 rBlock) (View.ld x1 r16_S5000x1)⟩]

set_option maxHeartbeats 1000000 in

theorem sound_kernel16 (c : Dev nD) (E : Set ℕ) (i : grid16.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out16_2 x0 x1)) -∗ K ⟨⟩))
      ⊢ wp frame (wpE (defs₀ (F := F)) Variants.none c none) E (cc16__scale_kernel i arg1 harg1 arg2 harg2 arg3 harg3) K := by
  simp only [cc16__scale_kernel_eq_skeleton]; unfold cc16__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation16 (c : Dev nD) : BodyObligation (dat16 (F := F) V c) (defs₀ (F := F)) Variants.none () Set.univ := fun t => by
  rw [bigSep_W16, bigSep_W16]
  exact sound_body16 V c t

end Cert.Kernel.Rg

end
-- ==== Proof.K.Reg17.lean ====
/- Region 17: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

abbrev r17_S1x128 : Rect S1x128 := Rect.unit (s := S1x128) ![0, 0] S1x128.size inb_S1x128_S1x128_0_0

def out17_3 (x0 : Vec F S5000x128 .f32) (x1 : Vec F S1x128 .f32) (x2 : Vec F S1x128 .f32) : Vec F S5000x128 .f32 :=
  View.canon [⟨rBlock, k17_pay1 (View.ld x0 rBlock) (View.ld x1 r17_S1x128) (View.ld x2 r17_S1x128)⟩]

set_option maxHeartbeats 1000000 in

theorem sound_kernel17 (c : Dev nD) (E : Set ℕ) (i : grid17.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17__bias_prelu_kernel i arg1 harg1 arg2 harg2 arg3 harg3 arg4 harg4) K := by
  simp only [cc17__bias_prelu_kernel_eq_skeleton]; unfold cc17__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation17 (c : Dev nD) : BodyObligation (dat17 (F := F) V c) (defs₀ (F := F)) Variants.none () Set.univ := fun t => by
  rw [bigSep_W17, bigSep_W17]
  exact sound_body17 V c t

end Cert.Kernel.Rg

end
-- ==== Proof.K.Reg18.lean ====
/- Region 18: a 5000-row block times the 128 x 128 matrix at each of ten points; the body leaves the product of its two input blocks. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

abbrev r18_S128x128 : Rect S128x128 := Rect.unit (s := S128x128) ![0, 0] S128x128.size inb_S128x128_S128x128_0_0

def out18_2 (x0 : Vec F S5000x128 .f32) (x1 : Vec F S128x128 .f32) : Vec F S5000x128 .f32 :=
  View.canon [⟨rBlock, k18_pay1 (View.ld x0 rBlock) (View.ld x1 r18_S128x128)⟩]

set_option maxHeartbeats 1000000 in

theorem sound_kernel18 (c : Dev nD) (E : Set ℕ) (i : grid18.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out18_2 x0 x1)) -∗ K ⟨⟩))
      ⊢ wp frame (wpE (defs₀ (F := F)) Variants.none c none) E (cc18__matmul_kernel i arg1 harg1 arg2 harg2 arg3 harg3) K := by
  simp only [cc18__matmul_kernel_eq_skeleton]; unfold cc18__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation18 (c : Dev nD) : BodyObligation (dat18 (F := F) V c) (defs₀ (F := F)) Variants.none () Set.univ := fun t => by
  rw [bigSep_W18, bigSep_W18]
  exact sound_body18 V c t

end Cert.Kernel.Rg

end
-- ==== Proof.K.Reg19.lean ====
/- Region 19: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

abbrev r19_S5000x1 : Rect S5000x1 := Rect.unit (s := S5000x1) ![0, 0] S5000x1.size inb_S5000x1_S5000x1_0_0

def out19_2 (x0 : Vec F S5000x128 .f32) (x1 : Vec F S5000x1 .f32) : Vec F S5000x128 .f32 :=
  View.canon [⟨rBlock, k19_pay1 (View.ld x0 rBlock) (View.ld x1 r19_S5000x1)⟩]

set_option maxHeartbeats 1000000 in

theorem sound_kernel19 (c : Dev nD) (E : Set ℕ) (i : grid19.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__scale_kernel i arg1 harg1 arg2 harg2 arg3 harg3) K := by
  simp only [cc19__scale_kernel_eq_skeleton]; unfold cc19__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation19 (c : Dev nD) : BodyObligation (dat19 (F := F) V c) (defs₀ (F := F)) Variants.none () Set.univ := fun t => by
  rw [bigSep_W19, bigSep_W19]
  exact sound_body19 V c t

end Cert.Kernel.Rg

end
-- ==== Proof.K.Reg20.lean ====
/- Region 20: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

abbrev r20_S1x128 : Rect S1x128 := Rect.unit (s := S1x128) ![0, 0] S1x128.size inb_S1x128_S1x128_0_0

def out20_3 (x0 : Vec F S5000x128 .f32) (x1 : Vec F S1x128 .f32) (x2 : Vec F S1x128 .f32) : Vec F S5000x128 .f32 :=
  View.canon [⟨rBlock, k20_pay1 (View.ld x0 rBlock) (View.ld x1 r20_S1x128) (View.ld x2 r20_S1x128)⟩]

set_option maxHeartbeats 1000000 in

theorem sound_kernel20 (c : Dev nD) (E : Set ℕ) (i : grid20.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out20_3 x0 x1 x2)) -∗ K ⟨⟩))
      ⊢ wp frame (wpE (defs₀ (F := F)) Variants.none c none) E (cc20__bias_prelu_kernel i arg1 harg1 arg2 harg2 arg3 harg3 arg4 harg4) K := by
  simp only [cc20__bias_prelu_kernel_eq_skeleton]; unfold cc20__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => out20_3 (iblk20 V c 0 t) (iblk20 V c 1 t) (iblk20 V c 2 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = out20_3 (iblk20 V c 0 t) (iblk20 V c 1 t) (iblk20 V c 2 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d)))

def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2]
  rw [show (dat20 V c).Φ t.succ = (dat20 V c).Φ t.castSucc from rfl,
    show (dat20 V c).owesAt () t.succ = (dat20 V c).owesAt () t.castSucc from rfl,
    after20_0, after20_1, after20_2, after20_3]
  iintro ⟨HΦ, Ho, ⟨%d0, H0⟩, ⟨%d1, H1⟩, ⟨%d2, H2⟩, ⟨%d3, H3⟩⟩
  iapply (sound_kernel20 c Set.univ _ _ _ _ _ _ _ _ _ (iblk20 V c 0 t) (iblk20 V c 1 t) (iblk20 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation20 (c : Dev nD) : BodyObligation (dat20 (F := F) V c) (defs₀ (F := F)) Variants.none () Set.univ := fun t => by
  rw [bigSep_W20, bigSep_W20]
  exact sound_body20 V c t

end Cert.Kernel.Rg

end
-- ==== Proof.K.Reg21.lean ====
/- Region 21: a 5000-row block of activations times the 128 x 128 matrix at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

abbrev r21_S128x128 : Rect S128x128 := Rect.unit (s := S128x128) ![0, 0] S128x128.size inb_S128x128_S128x128_0_0

def out21_2 (x0 : Vec F S5000x128 .f32) (x1 : Vec F S128x128 .f32) : Vec F S5000x128 .f32 :=
  View.canon [⟨rBlock, k21_pay1 (View.ld x0 rBlock) (View.ld x1 r21_S128x128)⟩]

set_option maxHeartbeats 1000000 in

theorem sound_kernel21 (c : Dev nD) (E : Set ℕ) (i : grid21.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__matmul_kernel i arg1 harg1 arg2 harg2 arg3 harg3) K := by
  simp only [cc21__matmul_kernel_eq_skeleton]; unfold cc21__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ _ _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation21 (c : Dev nD) : BodyObligation (dat21 (F := F) V c) (defs₀ (F := F)) Variants.none () Set.univ := fun t => by
  rw [bigSep_W21, bigSep_W21]
  exact sound_body21 V c t

end Cert.Kernel.Rg

end
-- ==== Proof.K.Reg22.lean ====
/- Region 22: each row of a 5000-row block times that row's coefficient, at each of 170 points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

abbrev r22_S5000x1 : Rect S5000x1 := Rect.unit (s := S5000x1) ![0, 0] S5000x1.size inb_S5000x1_S5000x1_0_0

def out22_2 (x0 : Vec F S5000x128 .f32) (x1 : Vec F S5000x1 .f32) : Vec F S5000x128 .f32 :=
  View.canon [⟨rBlock, k22_pay1 (View.ld x0 rBlock) (View.ld x1 r22_S5000x1)⟩]

set_option maxHeartbeats 1000000 in

theorem sound_kernel22 (c : Dev nD) (E : Set ℕ) (i : grid22.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__scale_kernel i arg1 harg1 arg2 harg2 arg3 harg3) K := by
  simp only [cc22__scale_kernel_eq_skeleton]; unfold cc22__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation22 (c : Dev nD) : BodyObligation (dat22 (F := F) V c) (defs₀ (F := F)) Variants.none () Set.univ := fun t => by
  rw [bigSep_W22, bigSep_W22]
  exact sound_body22 V c t

end Cert.Kernel.Rg

end
-- ==== Proof.K.Reg23.lean ====
/- Region 23: t where t is positive and slope · t elsewhere, t a 5000-row block plus the bias row, at each of ten points. -/
import proofs.«160853_j19842748908317_1_alg».proof.Proof.Gen.Kernel.Launch
import proofs.«160853_j19842748908317_1_alg».proof.Proof.Gen.Kernel.Skeleton
import proofs.«160853_j19842748908317_1_alg».proof.Proof.Gen.Kernel.Points
import proofs.«160853_j19842748908317_1_alg».proof.Proof.K.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

abbrev r23_S1x128 : Rect S1x128 := Rect.unit (s := S1x128) ![0, 0] S1x128.size inb_S1x128_S1x128_0_0

def out23_3 (x0 : Vec F S5000x128 .f32) (x1 : Vec F S1x128 .f32) (x2 : Vec F S1x128 .f32) : Vec F S5000x128 .f32 :=
  View.canon [⟨rBlock, k23_pay1 (View.ld x0 rBlock) (View.ld x1 r23_S1x128) (View.ld x2 r23_S1x128)⟩]

set_option maxHeartbeats 1000000 in

theorem sound_kernel23 (c : Dev nD) (E : Set ℕ) (i : grid23.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23__bias_prelu_kernel i arg1 harg1 arg2 harg2 arg3 harg3 arg4 harg4) K := by
  simp only [cc23__bias_prelu_kernel_eq_skeleton]; unfold cc23__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ _ _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation23 (c : Dev nD) : BodyObligation (dat23 (F := F) V c) (defs₀ (F := F)) Variants.none () Set.univ := fun t => by
  rw [bigSep_W23, bigSep_W23]
  exact sound_body23 V c t

end Cert.Kernel.Rg

end
-- ==== Proof.K.PFam.lean ====
/- The regions' proof data as one family, each at the contents the buffers hold when its region is entered. -/
import proofs.«160853_j19842748908317_1_alg».proof.Proof.K.RegionsP
import proofs.«160853_j19842748908317_1_alg».proof.Proof.K.Reg0
import proofs.«160853_j19842748908317_1_alg».proof.Proof.K.Reg1
import proofs.«160853_j19842748908317_1_alg».proof.Proof.K.Reg2
import proofs.«160853_j19842748908317_1_alg».proof.Proof.K.Reg3
import proofs.«160853_j19842748908317_1_alg».proof.Proof.K.Reg4
import proofs.«160853_j19842748908317_1_alg».proof.Proof.K.Reg5
import proofs.«160853_j19842748908317_1_alg».proof.Proof.K.Reg6
import proofs.«160853_j19842748908317_1_alg».proof.Proof.K.Reg7
import proofs.«160853_j19842748908317_1_alg».proof.Proof.K.Reg8
import proofs.«160853_j19842748908317_1_alg».proof.Proof.K.Reg9
import proofs.«160853_j19842748908317_1_alg».proof.Proof.K.Reg10
import proofs.«160853_j19842748908317_1_alg».proof.Proof.K.Reg11
import proofs.«160853_j19842748908317_1_alg».proof.Proof.K.Reg12
import proofs.«160853_j19842748908317_1_alg».proof.Proof.K.Reg13
import proofs.«160853_j19842748908317_1_alg».proof.Proof.K.Reg14
import proofs.«160853_j19842748908317_1_alg».proof.Proof.K.Reg15
import proofs.«160853_j19842748908317_1_alg».proof.Proof.K.Reg16
import proofs.«160853_j19842748908317_1_alg».proof.Proof.K.Reg17
import proofs.«160853_j19842748908317_1_alg».proof.Proof.K.Reg18
import proofs.«160853_j19842748908317_1_alg».proof.Proof.K.Reg19
import proofs.«160853_j19842748908317_1_alg».proof.Proof.K.Reg20
import proofs.«160853_j19842748908317_1_alg».proof.Proof.K.Reg21
import proofs.«160853_j19842748908317_1_alg».proof.Proof.K.Reg22
import proofs.«160853_j19842748908317_1_alg».proof.Proof.K.Reg23

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev vt (W : Dev nD → Valuation τ sig (Elt F)) : (c : Dev nD) → (b : Ref sig .tc) → Buf (Elt F) ((c : Thread nD τ).loc b) := fun c b => W c b

def pdats : (p : Fin 24) → (c : Dev nD) → Dat τ (Elt F) Unit ℕ (UR sig nD τ) ℕ (cfgs p) c
  | ⟨0, _⟩ => fun c => dat0 (vt (V1 m)) c
  | ⟨1, _⟩ => fun c => dat1 (vt (V5 m outs)) c
  | ⟨2, _⟩ => fun c => dat2 (vt (V7 m outs)) c
  | ⟨3, _⟩ => fun c => dat3 (vt (V8 m outs)) c
  | ⟨4, _⟩ => fun c => dat4 (vt (V12 m outs)) c
  | ⟨5, _⟩ => fun c => dat5 (vt (V14 m outs)) c
  | ⟨6, _⟩ => fun c => dat6 (vt (V16 m outs)) c
  | ⟨7, _⟩ => fun c => dat7 (vt (V20 m outs)) c
  | ⟨8, _⟩ => fun c => dat8 (vt (V22 m outs)) c
  | ⟨9, _⟩ => fun c => dat9 (vt (V23 m outs)) c
  | ⟨10, _⟩ => fun c => dat10 (vt (V27 m outs)) c
  | ⟨11, _⟩ => fun c => dat11 (vt (V29 m outs)) c
  | ⟨12, _⟩ => fun c => dat12 (vt (V31 m outs)) c
  | ⟨13, _⟩ => fun c => dat13 (vt (V35 m outs)) c
  | ⟨14, _⟩ => fun c => dat14 (vt (V37 m outs)) c
  | ⟨15, _⟩ => fun c => dat15 (vt (V38 m outs)) c
  | ⟨16, _⟩ => fun c => dat16 (vt (V42 m outs)) c
  | ⟨17, _⟩ => fun c => dat17 (vt (V44 m outs)) c
  | ⟨18, _⟩ => fun c => dat18 (vt (V46 m outs)) c
  | ⟨19, _⟩ => fun c => dat19 (vt (V50 m outs)) c
  | ⟨20, _⟩ => fun c => dat20 (vt (V52 m outs)) c
  | ⟨21, _⟩ => fun c => dat21 (vt (V53 m outs)) c
  | ⟨22, _⟩ => fun c => dat22 (vt (V57 m outs)) c
  | ⟨23, _⟩ => fun c => dat23 (vt (V59 m outs)) c
  | ⟨_ + 24, h⟩ => absurd h (Nat.not_lt.2 (Nat.le_add_left _ _))

abbrev 𝒱₀ : Variants := Variants.none

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.Kernel.Rg

end
-- ==== Proof.K.PData.lean ====
/-
  The contents of the core's buffers at every boundary between two items of @main, with each region's output array at
  what its pipeline leaves there: X1 is the launch contents after the first host stretch; after a host stretch the
  stretch's operations applied; after region K the entry contents with the region's output array replaced by the
  write-backs of the region's proof data taken at the entry contents. From them: the contents the regions leave as one
  function of the item and the reference (outsX), that the boundary contents stated over an arbitrary such function
  are these when it is outsX (VX_J), and that outsX at a region's output is what that region's pipeline leaves (houtK).
-/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- After the first host stretch. -/
def X1 (c : Dev nD) : Valuation τ sig (Elt F) := V1 m c
/-- What region 0 leaves in its output array, from its entry contents. -/
def o0 (c : Dev nD) : Buf (Elt F) ((c : Thread nD τ).loc main_v6) := (dat0 (vt (X1 m)) c).arrAt 2 cfg0.N
/-- After region 0. -/
def X2 (c : Dev nD) : Valuation τ sig (Elt F) := Function.update (X1 m c) main_v6 (o0 m c)
/-- After the host stretch hostOps1. -/
def X3 (c : Dev nD) : Valuation τ sig (Elt F) := StableHlo.after hostOps1 (X2 m c)
/-- After the host stretch hostOps1_1. -/
def X4 (c : Dev nD) : Valuation τ sig (Elt F) := StableHlo.after hostOps1_1 (X3 m c)
/-- After the host stretch hostOps1_2. -/
def X5 (c : Dev nD) : Valuation τ sig (Elt F) := StableHlo.after hostOps1_2 (X4 m c)
/-- What region 1 leaves in its output array, from its entry contents. -/
def o1 (c : Dev nD) : Buf (Elt F) ((c : Thread nD τ).loc main_v43) := (dat1 (vt (X5 m)) c).arrAt 2 cfg1.N
/-- After region 1. -/
def X6 (c : Dev nD) : Valuation τ sig (Elt F) := Function.update (X5 m c) main_v43 (o1 m c)
/-- After the host stretch hostOps2. -/
def X7 (c : Dev nD) : Valuation τ sig (Elt F) := StableHlo.after hostOps2 (X6 m c)
/-- What region 2 leaves in its output array, from its entry contents. -/
def o2 (c : Dev nD) : Buf (Elt F) ((c : Thread nD τ).loc main_v49) := (dat2 (vt (X7 m)) c).arrAt 3 cfg2.N
/-- After region 2. -/
def X8 (c : Dev nD) : Valuation τ sig (Elt F) := Function.update (X7 m c) main_v49 (o2 m c)
/-- What region 3 leaves in its output array, from its entry contents. -/
def o3 (c : Dev nD) : Buf (Elt F) ((c : Thread nD τ).loc main_v50) := (dat3 (vt (X8 m)) c).arrAt 2 cfg3.N
/-- After region 3. -/
def X9 (c : Dev nD) : Valuation τ sig (Elt F) := Function.update (X8 m c) main_v50 (o3 m c)
/-- After the host stretch hostOps4. -/
def X10 (c : Dev nD) : Valuation τ sig (Elt F) := StableHlo.after hostOps4 (X9 m c)
/-- After the host stretch hostOps4_1. -/
def X11 (c : Dev nD) : Valuation τ sig (Elt F) := StableHlo.after hostOps4_1 (X10 m c)
/-- After the host stretch hostOps4_2. -/
def X12 (c : Dev nD) : Valuation τ sig (Elt F) := StableHlo.after hostOps4_2 (X11 m c)
/-- What region 4 leaves in its output array, from its entry contents. -/
def o4 (c : Dev nD) : Buf (Elt F) ((c : Thread nD τ).loc main_v87) := (dat4 (vt (X12 m)) c).arrAt 2 cfg4.N
/-- After region 4. -/
def X13 (c : Dev nD) : Valuation τ sig (Elt F) := Function.update (X12 m c) main_v87 (o4 m c)
/-- After the host stretch hostOps5. -/
def X14 (c : Dev nD) : Valuation τ sig (Elt F) := StableHlo.after hostOps5 (X13 m c)
/-- What region 5 leaves in its output array, from its entry contents. -/
def o5 (c : Dev nD) : Buf (Elt F) ((c : Thread nD τ).loc main_v93) := (dat5 (vt (X14 m)) c).arrAt 3 cfg5.N
/-- After region 5. -/
def X15 (c : Dev nD) : Valuation τ sig (Elt F) := Function.update (X14 m c) main_v93 (o5 m c)
/-- After the host stretch hostOps6. -/
def X16 (c : Dev nD) : Valuation τ sig (Elt F) := StableHlo.after hostOps6 (X15 m c)
/-- What region 6 leaves in its output array, from its entry contents. -/
def o6 (c : Dev nD) : Buf (Elt F) ((c : Thread nD τ).loc main_v100) := (dat6 (vt (X16 m)) c).arrAt 2 cfg6.N
/-- After region 6. -/
def X17 (c : Dev nD) : Valuation τ sig (Elt F) := Function.update (X16 m c) main_v100 (o6 m c)
/-- After the host stretch hostOps7. -/
def X18 (c : Dev nD) : Valuation τ sig (Elt F) := StableHlo.after hostOps7 (X17 m c)
/-- After the host stretch hostOps7_1. -/
def X19 (c : Dev nD) : Valuation τ sig (Elt F) := StableHlo.after hostOps7_1 (X18 m c)
/-- After the host stretch hostOps7_2. -/
def X20 (c : Dev nD) : Valuation τ sig (Elt F) := StableHlo.after hostOps7_2 (X19 m c)
/-- What region 7 leaves in its output array, from its entry contents. -/
def o7 (c : Dev nD) : Buf (Elt F) ((c : Thread nD τ).loc main_v137) := (dat7 (vt (X20 m)) c).arrAt 2 cfg7.N
/-- After region 7. -/
def X21 (c : Dev nD) : Valuation τ sig (Elt F) := Function.update (X20 m c) main_v137 (o7 m c)
/-- After the host stretch hostOps8. -/
def X22 (c : Dev nD) : Valuation τ sig (Elt F) := StableHlo.after hostOps8 (X21 m c)
/-- What region 8 leaves in its output array, from its entry contents. -/
def o8 (c : Dev nD) : Buf (Elt F) ((c : Thread nD τ).loc main_v143) := (dat8 (vt (X22 m)) c).arrAt 3 cfg8.N
/-- After region 8. -/
def X23 (c : Dev nD) : Valuation τ sig (Elt F) := Function.update (X22 m c) main_v143 (o8 m c)
/-- What region 9 leaves in its output array, from its entry contents. -/
def o9 (c : Dev nD) : Buf (Elt F) ((c : Thread nD τ).loc main_v144) := (dat9 (vt (X23 m)) c).arrAt 2 cfg9.N
/-- After region 9. -/
def X24 (c : Dev nD) : Valuation τ sig (Elt F) := Function.update (X23 m c) main_v144 (o9 m c)
/-- After the host stretch hostOps10. -/
def X25 (c : Dev nD) : Valuation τ sig (Elt F) := StableHlo.after hostOps10 (X24 m c)
/-- After the host stretch hostOps10_1. -/
def X26 (c : Dev nD) : Valuation τ sig (Elt F) := StableHlo.after hostOps10_1 (X25 m c)
/-- After the host stretch hostOps10_2. -/
def X27 (c : Dev nD) : Valuation τ sig (Elt F) := StableHlo.after hostOps10_2 (X26 m c)
/-- What region 10 leaves in its output array, from its entry contents. -/
def o10 (c : Dev nD) : Buf (Elt F) ((c : Thread nD τ).loc main_v181) := (dat10 (vt (X27 m)) c).arrAt 2 cfg10.N
/-- After region 10. -/
def X28 (c : Dev nD) : Valuation τ sig (Elt F) := Function.update (X27 m c) main_v181 (o10 m c)
/-- After the host stretch hostOps11. -/
def X29 (c : Dev nD) : Valuation τ sig (Elt F) := StableHlo.after hostOps11 (X28 m c)
/-- What region 11 leaves in its output array, from its entry contents. -/
def o11 (c : Dev nD) : Buf (Elt F) ((c : Thread nD τ).loc main_v187) := (dat11 (vt (X29 m)) c).arrAt 3 cfg11.N
/-- After region 11. -/
def X30 (c : Dev nD) : Valuation τ sig (Elt F) := Function.update (X29 m c) main_v187 (o11 m c)
/-- After the host stretch hostOps12. -/
def X31 (c : Dev nD) : Valuation τ sig (Elt F) := StableHlo.after hostOps12 (X30 m c)
/-- What region 12 leaves in its output array, from its entry contents. -/
def o12 (c : Dev nD) : Buf (Elt F) ((c : Thread nD τ).loc main_v194) := (dat12 (vt (X31 m)) c).arrAt 2 cfg12.N
/-- After region 12. -/
def X32 (c : Dev nD) : Valuation τ sig (Elt F) := Function.update (X31 m c) main_v194 (o12 m c)
/-- After the host stretch hostOps13. -/
def X33 (c : Dev nD) : Valuation τ sig (Elt F) := StableHlo.after hostOps13 (X32 m c)
/-- After the host stretch hostOps13_1. -/
def X34 (c : Dev nD) : Valuation τ sig (Elt F) := StableHlo.after hostOps13_1 (X33 m c)
/-- After the host stretch hostOps13_2. -/
def X35 (c : Dev nD) : Valuation τ sig (Elt F) := StableHlo.after hostOps13_2 (X34 m c)
/-- What region 13 leaves in its output array, from its entry contents. -/
def o13 (c : Dev nD) : Buf (Elt F) ((c : Thread nD τ).loc main_v231) := (dat13 (vt (X35 m)) c).arrAt 2 cfg13.N
/-- After region 13. -/
def X36 (c : Dev nD) : Valuation τ sig (Elt F) := Function.update (X35 m c) main_v231 (o13 m c)
/-- After the host stretch hostOps14. -/
def X37 (c : Dev nD) : Valuation τ sig (Elt F) := StableHlo.after hostOps14 (X36 m c)
/-- What region 14 leaves in its output array, from its entry contents. -/
def o14 (c : Dev nD) : Buf (Elt F) ((c : Thread nD τ).loc main_v237) := (dat14 (vt (X37 m)) c).arrAt 3 cfg14.N
/-- After region 14. -/
def X38 (c : Dev nD) : Valuation τ sig (Elt F) := Function.update (X37 m c) main_v237 (o14 m c)
/-- What region 15 leaves in its output array, from its entry contents. -/
def o15 (c : Dev nD) : Buf (Elt F) ((c : Thread nD τ).loc main_v238) := (dat15 (vt (X38 m)) c).arrAt 2 cfg15.N
/-- After region 15. -/
def X39 (c : Dev nD) : Valuation τ sig (Elt F) := Function.update (X38 m c) main_v238 (o15 m c)
/-- After the host stretch hostOps16. -/
def X40 (c : Dev nD) : Valuation τ sig (Elt F) := StableHlo.after hostOps16 (X39 m c)
/-- After the host stretch hostOps16_1. -/
def X41 (c : Dev nD) : Valuation τ sig (Elt F) := StableHlo.after hostOps16_1 (X40 m c)
/-- After the host stretch hostOps16_2. -/
def X42 (c : Dev nD) : Valuation τ sig (Elt F) := StableHlo.after hostOps16_2 (X41 m c)
/-- What region 16 leaves in its output array, from its entry contents. -/
def o16 (c : Dev nD) : Buf (Elt F) ((c : Thread nD τ).loc main_v275) := (dat16 (vt (X42 m)) c).arrAt 2 cfg16.N
/-- After region 16. -/
def X43 (c : Dev nD) : Valuation τ sig (Elt F) := Function.update (X42 m c) main_v275 (o16 m c)
/-- After the host stretch hostOps17. -/
def X44 (c : Dev nD) : Valuation τ sig (Elt F) := StableHlo.after hostOps17 (X43 m c)
/-- What region 17 leaves in its output array, from its entry contents. -/
def o17 (c : Dev nD) : Buf (Elt F) ((c : Thread nD τ).loc main_v281) := (dat17 (vt (X44 m)) c).arrAt 3 cfg17.N
/-- After region 17. -/
def X45 (c : Dev nD) : Valuation τ sig (Elt F) := Function.update (X44 m c) main_v281 (o17 m c)
/-- After the host stretch hostOps18. -/
def X46 (c : Dev nD) : Valuation τ sig (Elt F) := StableHlo.after hostOps18 (X45 m c)
/-- What region 18 leaves in its output array, from its entry contents. -/
def o18 (c : Dev nD) : Buf (Elt F) ((c : Thread nD τ).loc main_v288) := (dat18 (vt (X46 m)) c).arrAt 2 cfg18.N
/-- After region 18. -/
def X47 (c : Dev nD) : Valuation τ sig (Elt F) := Function.update (X46 m c) main_v288 (o18 m c)
/-- After the host stretch hostOps19. -/
def X48 (c : Dev nD) : Valuation τ sig (Elt F) := StableHlo.after hostOps19 (X47 m c)
/-- After the host stretch hostOps19_1. -/
def X49 (c : Dev nD) : Valuation τ sig (Elt F) := StableHlo.after hostOps19_1 (X48 m c)
/-- After the host stretch hostOps19_2. -/
def X50 (c : Dev nD) : Valuation τ sig (Elt F) := StableHlo.after hostOps19_2 (X49 m c)
/-- What region 19 leaves in its output array, from its entry contents. -/
def o19 (c : Dev nD) : Buf (Elt F) ((c : Thread nD τ).loc main_v325) := (dat19 (vt (X50 m)) c).arrAt 2 cfg19.N
/-- After region 19. -/
def X51 (c : Dev nD) : Valuation τ sig (Elt F) := Function.update (X50 m c) main_v325 (o19 m c)
/-- After the host stretch hostOps20. -/
def X52 (c : Dev nD) : Valuation τ sig (Elt F) := StableHlo.after hostOps20 (X51 m c)
/-- What region 20 leaves in its output array, from its entry contents. -/
def o20 (c : Dev nD) : Buf (Elt F) ((c : Thread nD τ).loc main_v331) := (dat20 (vt (X52 m)) c).arrAt 3 cfg20.N
/-- After region 20. -/
def X53 (c : Dev nD) : Valuation τ sig (Elt F) := Function.update (X52 m c) main_v331 (o20 m c)
/-- What region 21 leaves in its output array, from its entry contents. -/
def o21 (c : Dev nD) : Buf (Elt F) ((c : Thread nD τ).loc main_v332) := (dat21 (vt (X53 m)) c).arrAt 2 cfg21.N
/-- After region 21. -/
def X54 (c : Dev nD) : Valuation τ sig (Elt F) := Function.update (X53 m c) main_v332 (o21 m c)
/-- After the host stretch hostOps22. -/
def X55 (c : Dev nD) : Valuation τ sig (Elt F) := StableHlo.after hostOps22 (X54 m c)
/-- After the host stretch hostOps22_1. -/
def X56 (c : Dev nD) : Valuation τ sig (Elt F) := StableHlo.after hostOps22_1 (X55 m c)
/-- After the host stretch hostOps22_2. -/
def X57 (c : Dev nD) : Valuation τ sig (Elt F) := StableHlo.after hostOps22_2 (X56 m c)
/-- What region 22 leaves in its output array, from its entry contents. -/
def o22 (c : Dev nD) : Buf (Elt F) ((c : Thread nD τ).loc main_v369) := (dat22 (vt (X57 m)) c).arrAt 2 cfg22.N
/-- After region 22. -/
def X58 (c : Dev nD) : Valuation τ sig (Elt F) := Function.update (X57 m c) main_v369 (o22 m c)
/-- After the host stretch hostOps23. -/
def X59 (c : Dev nD) : Valuation τ sig (Elt F) := StableHlo.after hostOps23 (X58 m c)
/-- What region 23 leaves in its output array, from its entry contents. -/
def o23 (c : Dev nD) : Buf (Elt F) ((c : Thread nD τ).loc main_v375) := (dat23 (vt (X59 m)) c).arrAt 3 cfg23.N
/-- After region 23. -/
def X60 (c : Dev nD) : Valuation τ sig (Elt F) := Function.update (X59 m c) main_v375 (o23 m c)
/-- After the host stretch hostOps24. -/
def X61 (c : Dev nD) : Valuation τ sig (Elt F) := StableHlo.after hostOps24 (X60 m c)

/-- The contents the regions leave, as one function of the item and the reference. -/
def outsX : Outs (F := F) := fun J r c => match J with
  | 2 => X2 m c r
  | 6 => X6 m c r
  | 8 => X8 m c r
  | 9 => X9 m c r
  | 13 => X13 m c r
  | 15 => X15 m c r
  | 17 => X17 m c r
  | 21 => X21 m c r
  | 23 => X23 m c r
  | 24 => X24 m c r
  | 28 => X28 m c r
  | 30 => X30 m c r
  | 32 => X32 m c r
  | 36 => X36 m c r
  | 38 => X38 m c r
  | 39 => X39 m c r
  | 43 => X43 m c r
  | 45 => X45 m c r
  | 47 => X47 m c r
  | 51 => X51 m c r
  | 53 => X53 m c r
  | 54 => X54 m c r
  | 58 => X58 m c r
  | 60 => X60 m c r
  | _ => X1 m c r

theorem VX_1 (c : Dev nD) : V1 m c = X1 m c := rfl
theorem VX_2 (c : Dev nD) : V2 m (outsX m) c = X2 m c := by
  show Function.update (V1 m c) main_v6 (X2 m c main_v6) = X2 m c
  rw [VX_1]; unfold X2; rw [Function.update_self]
theorem VX_3 (c : Dev nD) : V3 m (outsX m) c = X3 m c := by
  show StableHlo.after hostOps1 (V2 m (outsX m) c) = X3 m c
  rw [VX_2]; rfl
theorem VX_4 (c : Dev nD) : V4 m (outsX m) c = X4 m c := by
  show StableHlo.after hostOps1_1 (V3 m (outsX m) c) = X4 m c
  rw [VX_3]; rfl
theorem VX_5 (c : Dev nD) : V5 m (outsX m) c = X5 m c := by
  show StableHlo.after hostOps1_2 (V4 m (outsX m) c) = X5 m c
  rw [VX_4]; rfl
theorem VX_6 (c : Dev nD) : V6 m (outsX m) c = X6 m c := by
  show Function.update (V5 m (outsX m) c) main_v43 (X6 m c main_v43) = X6 m c
  rw [VX_5]; unfold X6; rw [Function.update_self]
theorem VX_7 (c : Dev nD) : V7 m (outsX m) c = X7 m c := by
  show StableHlo.after hostOps2 (V6 m (outsX m) c) = X7 m c
  rw [VX_6]; rfl
theorem VX_8 (c : Dev nD) : V8 m (outsX m) c = X8 m c := by
  show Function.update (V7 m (outsX m) c) main_v49 (X8 m c main_v49) = X8 m c
  rw [VX_7]; unfold X8; rw [Function.update_self]
theorem VX_9 (c : Dev nD) : V9 m (outsX m) c = X9 m c := by
  show Function.update (V8 m (outsX m) c) main_v50 (X9 m c main_v50) = X9 m c
  rw [VX_8]; unfold X9; rw [Function.update_self]
theorem VX_10 (c : Dev nD) : V10 m (outsX m) c = X10 m c := by
  show StableHlo.after hostOps4 (V9 m (outsX m) c) = X10 m c
  rw [VX_9]; rfl
theorem VX_11 (c : Dev nD) : V11 m (outsX m) c = X11 m c := by
  show StableHlo.after hostOps4_1 (V10 m (outsX m) c) = X11 m c
  rw [VX_10]; rfl
theorem VX_12 (c : Dev nD) : V12 m (outsX m) c = X12 m c := by
  show StableHlo.after hostOps4_2 (V11 m (outsX m) c) = X12 m c
  rw [VX_11]; rfl
theorem VX_13 (c : Dev nD) : V13 m (outsX m) c = X13 m c := by
  show Function.update (V12 m (outsX m) c) main_v87 (X13 m c main_v87) = X13 m c
  rw [VX_12]; unfold X13; rw [Function.update_self]
theorem VX_14 (c : Dev nD) : V14 m (outsX m) c = X14 m c := by
  show StableHlo.after hostOps5 (V13 m (outsX m) c) = X14 m c
  rw [VX_13]; rfl
theorem VX_15 (c : Dev nD) : V15 m (outsX m) c = X15 m c := by
  show Function.update (V14 m (outsX m) c) main_v93 (X15 m c main_v93) = X15 m c
  rw [VX_14]; unfold X15; rw [Function.update_self]
theorem VX_16 (c : Dev nD) : V16 m (outsX m) c = X16 m c := by
  show StableHlo.after hostOps6 (V15 m (outsX m) c) = X16 m c
  rw [VX_15]; rfl
theorem VX_17 (c : Dev nD) : V17 m (outsX m) c = X17 m c := by
  show Function.update (V16 m (outsX m) c) main_v100 (X17 m c main_v100) = X17 m c
  rw [VX_16]; unfold X17; rw [Function.update_self]
theorem VX_18 (c : Dev nD) : V18 m (outsX m) c = X18 m c := by
  show StableHlo.after hostOps7 (V17 m (outsX m) c) = X18 m c
  rw [VX_17]; rfl
theorem VX_19 (c : Dev nD) : V19 m (outsX m) c = X19 m c := by
  show StableHlo.after hostOps7_1 (V18 m (outsX m) c) = X19 m c
  rw [VX_18]; rfl
theorem VX_20 (c : Dev nD) : V20 m (outsX m) c = X20 m c := by
  show StableHlo.after hostOps7_2 (V19 m (outsX m) c) = X20 m c
  rw [VX_19]; rfl
theorem VX_21 (c : Dev nD) : V21 m (outsX m) c = X21 m c := by
  show Function.update (V20 m (outsX m) c) main_v137 (X21 m c main_v137) = X21 m c
  rw [VX_20]; unfold X21; rw [Function.update_self]
theorem VX_22 (c : Dev nD) : V22 m (outsX m) c = X22 m c := by
  show StableHlo.after hostOps8 (V21 m (outsX m) c) = X22 m c
  rw [VX_21]; rfl
theorem VX_23 (c : Dev nD) : V23 m (outsX m) c = X23 m c := by
  show Function.update (V22 m (outsX m) c) main_v143 (X23 m c main_v143) = X23 m c
  rw [VX_22]; unfold X23; rw [Function.update_self]
theorem VX_24 (c : Dev nD) : V24 m (outsX m) c = X24 m c := by
  show Function.update (V23 m (outsX m) c) main_v144 (X24 m c main_v144) = X24 m c
  rw [VX_23]; unfold X24; rw [Function.update_self]
theorem VX_25 (c : Dev nD) : V25 m (outsX m) c = X25 m c := by
  show StableHlo.after hostOps10 (V24 m (outsX m) c) = X25 m c
  rw [VX_24]; rfl
theorem VX_26 (c : Dev nD) : V26 m (outsX m) c = X26 m c := by
  show StableHlo.after hostOps10_1 (V25 m (outsX m) c) = X26 m c
  rw [VX_25]; rfl
theorem VX_27 (c : Dev nD) : V27 m (outsX m) c = X27 m c := by
  show StableHlo.after hostOps10_2 (V26 m (outsX m) c) = X27 m c
  rw [VX_26]; rfl
theorem VX_28 (c : Dev nD) : V28 m (outsX m) c = X28 m c := by
  show Function.update (V27 m (outsX m) c) main_v181 (X28 m c main_v181) = X28 m c
  rw [VX_27]; unfold X28; rw [Function.update_self]
theorem VX_29 (c : Dev nD) : V29 m (outsX m) c = X29 m c := by
  show StableHlo.after hostOps11 (V28 m (outsX m) c) = X29 m c
  rw [VX_28]; rfl
theorem VX_30 (c : Dev nD) : V30 m (outsX m) c = X30 m c := by
  show Function.update (V29 m (outsX m) c) main_v187 (X30 m c main_v187) = X30 m c
  rw [VX_29]; unfold X30; rw [Function.update_self]
theorem VX_31 (c : Dev nD) : V31 m (outsX m) c = X31 m c := by
  show StableHlo.after hostOps12 (V30 m (outsX m) c) = X31 m c
  rw [VX_30]; rfl
theorem VX_32 (c : Dev nD) : V32 m (outsX m) c = X32 m c := by
  show Function.update (V31 m (outsX m) c) main_v194 (X32 m c main_v194) = X32 m c
  rw [VX_31]; unfold X32; rw [Function.update_self]
theorem VX_33 (c : Dev nD) : V33 m (outsX m) c = X33 m c := by
  show StableHlo.after hostOps13 (V32 m (outsX m) c) = X33 m c
  rw [VX_32]; rfl
theorem VX_34 (c : Dev nD) : V34 m (outsX m) c = X34 m c := by
  show StableHlo.after hostOps13_1 (V33 m (outsX m) c) = X34 m c
  rw [VX_33]; rfl
theorem VX_35 (c : Dev nD) : V35 m (outsX m) c = X35 m c := by
  show StableHlo.after hostOps13_2 (V34 m (outsX m) c) = X35 m c
  rw [VX_34]; rfl
theorem VX_36 (c : Dev nD) : V36 m (outsX m) c = X36 m c := by
  show Function.update (V35 m (outsX m) c) main_v231 (X36 m c main_v231) = X36 m c
  rw [VX_35]; unfold X36; rw [Function.update_self]
theorem VX_37 (c : Dev nD) : V37 m (outsX m) c = X37 m c := by
  show StableHlo.after hostOps14 (V36 m (outsX m) c) = X37 m c
  rw [VX_36]; rfl
theorem VX_38 (c : Dev nD) : V38 m (outsX m) c = X38 m c := by
  show Function.update (V37 m (outsX m) c) main_v237 (X38 m c main_v237) = X38 m c
  rw [VX_37]; unfold X38; rw [Function.update_self]
theorem VX_39 (c : Dev nD) : V39 m (outsX m) c = X39 m c := by
  show Function.update (V38 m (outsX m) c) main_v238 (X39 m c main_v238) = X39 m c
  rw [VX_38]; unfold X39; rw [Function.update_self]
theorem VX_40 (c : Dev nD) : V40 m (outsX m) c = X40 m c := by
  show StableHlo.after hostOps16 (V39 m (outsX m) c) = X40 m c
  rw [VX_39]; rfl
theorem VX_41 (c : Dev nD) : V41 m (outsX m) c = X41 m c := by
  show StableHlo.after hostOps16_1 (V40 m (outsX m) c) = X41 m c
  rw [VX_40]; rfl
theorem VX_42 (c : Dev nD) : V42 m (outsX m) c = X42 m c := by
  show StableHlo.after hostOps16_2 (V41 m (outsX m) c) = X42 m c
  rw [VX_41]; rfl
theorem VX_43 (c : Dev nD) : V43 m (outsX m) c = X43 m c := by
  show Function.update (V42 m (outsX m) c) main_v275 (X43 m c main_v275) = X43 m c
  rw [VX_42]; unfold X43; rw [Function.update_self]
theorem VX_44 (c : Dev nD) : V44 m (outsX m) c = X44 m c := by
  show StableHlo.after hostOps17 (V43 m (outsX m) c) = X44 m c
  rw [VX_43]; rfl
theorem VX_45 (c : Dev nD) : V45 m (outsX m) c = X45 m c := by
  show Function.update (V44 m (outsX m) c) main_v281 (X45 m c main_v281) = X45 m c
  rw [VX_44]; unfold X45; rw [Function.update_self]
theorem VX_46 (c : Dev nD) : V46 m (outsX m) c = X46 m c := by
  show StableHlo.after hostOps18 (V45 m (outsX m) c) = X46 m c
  rw [VX_45]; rfl
theorem VX_47 (c : Dev nD) : V47 m (outsX m) c = X47 m c := by
  show Function.update (V46 m (outsX m) c) main_v288 (X47 m c main_v288) = X47 m c
  rw [VX_46]; unfold X47; rw [Function.update_self]
theorem VX_48 (c : Dev nD) : V48 m (outsX m) c = X48 m c := by
  show StableHlo.after hostOps19 (V47 m (outsX m) c) = X48 m c
  rw [VX_47]; rfl
theorem VX_49 (c : Dev nD) : V49 m (outsX m) c = X49 m c := by
  show StableHlo.after hostOps19_1 (V48 m (outsX m) c) = X49 m c
  rw [VX_48]; rfl
theorem VX_50 (c : Dev nD) : V50 m (outsX m) c = X50 m c := by
  show StableHlo.after hostOps19_2 (V49 m (outsX m) c) = X50 m c
  rw [VX_49]; rfl
theorem VX_51 (c : Dev nD) : V51 m (outsX m) c = X51 m c := by
  show Function.update (V50 m (outsX m) c) main_v325 (X51 m c main_v325) = X51 m c
  rw [VX_50]; unfold X51; rw [Function.update_self]
theorem VX_52 (c : Dev nD) : V52 m (outsX m) c = X52 m c := by
  show StableHlo.after hostOps20 (V51 m (outsX m) c) = X52 m c
  rw [VX_51]; rfl
theorem VX_53 (c : Dev nD) : V53 m (outsX m) c = X53 m c := by
  show Function.update (V52 m (outsX m) c) main_v331 (X53 m c main_v331) = X53 m c
  rw [VX_52]; unfold X53; rw [Function.update_self]
theorem VX_54 (c : Dev nD) : V54 m (outsX m) c = X54 m c := by
  show Function.update (V53 m (outsX m) c) main_v332 (X54 m c main_v332) = X54 m c
  rw [VX_53]; unfold X54; rw [Function.update_self]
theorem VX_55 (c : Dev nD) : V55 m (outsX m) c = X55 m c := by
  show StableHlo.after hostOps22 (V54 m (outsX m) c) = X55 m c
  rw [VX_54]; rfl
theorem VX_56 (c : Dev nD) : V56 m (outsX m) c = X56 m c := by
  show StableHlo.after hostOps22_1 (V55 m (outsX m) c) = X56 m c
  rw [VX_55]; rfl
theorem VX_57 (c : Dev nD) : V57 m (outsX m) c = X57 m c := by
  show StableHlo.after hostOps22_2 (V56 m (outsX m) c) = X57 m c
  rw [VX_56]; rfl
theorem VX_58 (c : Dev nD) : V58 m (outsX m) c = X58 m c := by
  show Function.update (V57 m (outsX m) c) main_v369 (X58 m c main_v369) = X58 m c
  rw [VX_57]; unfold X58; rw [Function.update_self]
theorem VX_59 (c : Dev nD) : V59 m (outsX m) c = X59 m c := by
  show StableHlo.after hostOps23 (V58 m (outsX m) c) = X59 m c
  rw [VX_58]; rfl
theorem VX_60 (c : Dev nD) : V60 m (outsX m) c = X60 m c := by
  show Function.update (V59 m (outsX m) c) main_v375 (X60 m c main_v375) = X60 m c
  rw [VX_59]; unfold X60; rw [Function.update_self]
theorem VX_61 (c : Dev nD) : V61 m (outsX m) c = X61 m c := by
  show StableHlo.after hostOps24 (V60 m (outsX m) c) = X61 m c
  rw [VX_60]; rfl

/-- What region K's output array holds in outsX is what its pipeline leaves from the region's entry contents. -/
theorem hout0 (c : Dev nD) : outsX m 2 main_v6 c = (dat0 (vt (V1 m)) c).arrAt 2 cfg0.N := by
  show X2 m c main_v6 = _
  unfold X2; rw [Function.update_self]; unfold o0
  rw [show (vt (V1 m) : (c : Dev nD) → (b : Ref sig .tc) → Buf (Elt F) ((c : Thread nD τ).loc b)) = vt (X1 m) from funext fun c => funext fun b => by show V1 m c b = X1 m c b; rw [VX_1]]
theorem hout1 (c : Dev nD) : outsX m 6 main_v43 c = (dat1 (vt (V5 m (outsX m))) c).arrAt 2 cfg1.N := by
  show X6 m c main_v43 = _
  unfold X6; rw [Function.update_self]; unfold o1
  rw [show (vt (V5 m (outsX m)) : (c : Dev nD) → (b : Ref sig .tc) → Buf (Elt F) ((c : Thread nD τ).loc b)) = vt (X5 m) from funext fun c => funext fun b => by show V5 m (outsX m) c b = X5 m c b; rw [VX_5]]
theorem hout2 (c : Dev nD) : outsX m 8 main_v49 c = (dat2 (vt (V7 m (outsX m))) c).arrAt 3 cfg2.N := by
  show X8 m c main_v49 = _
  unfold X8; rw [Function.update_self]; unfold o2
  rw [show (vt (V7 m (outsX m)) : (c : Dev nD) → (b : Ref sig .tc) → Buf (Elt F) ((c : Thread nD τ).loc b)) = vt (X7 m) from funext fun c => funext fun b => by show V7 m (outsX m) c b = X7 m c b; rw [VX_7]]
theorem hout3 (c : Dev nD) : outsX m 9 main_v50 c = (dat3 (vt (V8 m (outsX m))) c).arrAt 2 cfg3.N := by
  show X9 m c main_v50 = _
  unfold X9; rw [Function.update_self]; unfold o3
  rw [show (vt (V8 m (outsX m)) : (c : Dev nD) → (b : Ref sig .tc) → Buf (Elt F) ((c : Thread nD τ).loc b)) = vt (X8 m) from funext fun c => funext fun b => by show V8 m (outsX m) c b = X8 m c b; rw [VX_8]]
theorem hout4 (c : Dev nD) : outsX m 13 main_v87 c = (dat4 (vt (V12 m (outsX m))) c).arrAt 2 cfg4.N := by
  show X13 m c main_v87 = _
  unfold X13; rw [Function.update_self]; unfold o4
  rw [show (vt (V12 m (outsX m)) : (c : Dev nD) → (b : Ref sig .tc) → Buf (Elt F) ((c : Thread nD τ).loc b)) = vt (X12 m) from funext fun c => funext fun b => by show V12 m (outsX m) c b = X12 m c b; rw [VX_12]]
theorem hout5 (c : Dev nD) : outsX m 15 main_v93 c = (dat5 (vt (V14 m (outsX m))) c).arrAt 3 cfg5.N := by
  show X15 m c main_v93 = _
  unfold X15; rw [Function.update_self]; unfold o5
  rw [show (vt (V14 m (outsX m)) : (c : Dev nD) → (b : Ref sig .tc) → Buf (Elt F) ((c : Thread nD τ).loc b)) = vt (X14 m) from funext fun c => funext fun b => by show V14 m (outsX m) c b = X14 m c b; rw [VX_14]]
theorem hout6 (c : Dev nD) : outsX m 17 main_v100 c = (dat6 (vt (V16 m (outsX m))) c).arrAt 2 cfg6.N := by
  show X17 m c main_v100 = _
  unfold X17; rw [Function.update_self]; unfold o6
  rw [show (vt (V16 m (outsX m)) : (c : Dev nD) → (b : Ref sig .tc) → Buf (Elt F) ((c : Thread nD τ).loc b)) = vt (X16 m) from funext fun c => funext fun b => by show V16 m (outsX m) c b = X16 m c b; rw [VX_16]]
theorem hout7 (c : Dev nD) : outsX m 21 main_v137 c = (dat7 (vt (V20 m (outsX m))) c).arrAt 2 cfg7.N := by
  show X21 m c main_v137 = _
  unfold X21; rw [Function.update_self]; unfold o7
  rw [show (vt (V20 m (outsX m)) : (c : Dev nD) → (b : Ref sig .tc) → Buf (Elt F) ((c : Thread nD τ).loc b)) = vt (X20 m) from funext fun c => funext fun b => by show V20 m (outsX m) c b = X20 m c b; rw [VX_20]]
theorem hout8 (c : Dev nD) : outsX m 23 main_v143 c = (dat8 (vt (V22 m (outsX m))) c).arrAt 3 cfg8.N := by
  show X23 m c main_v143 = _
  unfold X23; rw [Function.update_self]; unfold o8
  rw [show (vt (V22 m (outsX m)) : (c : Dev nD) → (b : Ref sig .tc) → Buf (Elt F) ((c : Thread nD τ).loc b)) = vt (X22 m) from funext fun c => funext fun b => by show V22 m (outsX m) c b = X22 m c b; rw [VX_22]]
theorem hout9 (c : Dev nD) : outsX m 24 main_v144 c = (dat9 (vt (V23 m (outsX m))) c).arrAt 2 cfg9.N := by
  show X24 m c main_v144 = _
  unfold X24; rw [Function.update_self]; unfold o9
  rw [show (vt (V23 m (outsX m)) : (c : Dev nD) → (b : Ref sig .tc) → Buf (Elt F) ((c : Thread nD τ).loc b)) = vt (X23 m) from funext fun c => funext fun b => by show V23 m (outsX m) c b = X23 m c b; rw [VX_23]]
theorem hout10 (c : Dev nD) : outsX m 28 main_v181 c = (dat10 (vt (V27 m (outsX m))) c).arrAt 2 cfg10.N := by
  show X28 m c main_v181 = _
  unfold X28; rw [Function.update_self]; unfold o10
  rw [show (vt (V27 m (outsX m)) : (c : Dev nD) → (b : Ref sig .tc) → Buf (Elt F) ((c : Thread nD τ).loc b)) = vt (X27 m) from funext fun c => funext fun b => by show V27 m (outsX m) c b = X27 m c b; rw [VX_27]]
theorem hout11 (c : Dev nD) : outsX m 30 main_v187 c = (dat11 (vt (V29 m (outsX m))) c).arrAt 3 cfg11.N := by
  show X30 m c main_v187 = _
  unfold X30; rw [Function.update_self]; unfold o11
  rw [show (vt (V29 m (outsX m)) : (c : Dev nD) → (b : Ref sig .tc) → Buf (Elt F) ((c : Thread nD τ).loc b)) = vt (X29 m) from funext fun c => funext fun b => by show V29 m (outsX m) c b = X29 m c b; rw [VX_29]]
theorem hout12 (c : Dev nD) : outsX m 32 main_v194 c = (dat12 (vt (V31 m (outsX m))) c).arrAt 2 cfg12.N := by
  show X32 m c main_v194 = _
  unfold X32; rw [Function.update_self]; unfold o12
  rw [show (vt (V31 m (outsX m)) : (c : Dev nD) → (b : Ref sig .tc) → Buf (Elt F) ((c : Thread nD τ).loc b)) = vt (X31 m) from funext fun c => funext fun b => by show V31 m (outsX m) c b = X31 m c b; rw [VX_31]]
theorem hout13 (c : Dev nD) : outsX m 36 main_v231 c = (dat13 (vt (V35 m (outsX m))) c).arrAt 2 cfg13.N := by
  show X36 m c main_v231 = _
  unfold X36; rw [Function.update_self]; unfold o13
  rw [show (vt (V35 m (outsX m)) : (c : Dev nD) → (b : Ref sig .tc) → Buf (Elt F) ((c : Thread nD τ).loc b)) = vt (X35 m) from funext fun c => funext fun b => by show V35 m (outsX m) c b = X35 m c b; rw [VX_35]]
theorem hout14 (c : Dev nD) : outsX m 38 main_v237 c = (dat14 (vt (V37 m (outsX m))) c).arrAt 3 cfg14.N := by
  show X38 m c main_v237 = _
  unfold X38; rw [Function.update_self]; unfold o14
  rw [show (vt (V37 m (outsX m)) : (c : Dev nD) → (b : Ref sig .tc) → Buf (Elt F) ((c : Thread nD τ).loc b)) = vt (X37 m) from funext fun c => funext fun b => by show V37 m (outsX m) c b = X37 m c b; rw [VX_37]]
theorem hout15 (c : Dev nD) : outsX m 39 main_v238 c = (dat15 (vt (V38 m (outsX m))) c).arrAt 2 cfg15.N := by
  show X39 m c main_v238 = _
  unfold X39; rw [Function.update_self]; unfold o15
  rw [show (vt (V38 m (outsX m)) : (c : Dev nD) → (b : Ref sig .tc) → Buf (Elt F) ((c : Thread nD τ).loc b)) = vt (X38 m) from funext fun c => funext fun b => by show V38 m (outsX m) c b = X38 m c b; rw [VX_38]]
theorem hout16 (c : Dev nD) : outsX m 43 main_v275 c = (dat16 (vt (V42 m (outsX m))) c).arrAt 2 cfg16.N := by
  show X43 m c main_v275 = _
  unfold X43; rw [Function.update_self]; unfold o16
  rw [show (vt (V42 m (outsX m)) : (c : Dev nD) → (b : Ref sig .tc) → Buf (Elt F) ((c : Thread nD τ).loc b)) = vt (X42 m) from funext fun c => funext fun b => by show V42 m (outsX m) c b = X42 m c b; rw [VX_42]]
theorem hout17 (c : Dev nD) : outsX m 45 main_v281 c = (dat17 (vt (V44 m (outsX m))) c).arrAt 3 cfg17.N := by
  show X45 m c main_v281 = _
  unfold X45; rw [Function.update_self]; unfold o17
  rw [show (vt (V44 m (outsX m)) : (c : Dev nD) → (b : Ref sig .tc) → Buf (Elt F) ((c : Thread nD τ).loc b)) = vt (X44 m) from funext fun c => funext fun b => by show V44 m (outsX m) c b = X44 m c b; rw [VX_44]]
theorem hout18 (c : Dev nD) : outsX m 47 main_v288 c = (dat18 (vt (V46 m (outsX m))) c).arrAt 2 cfg18.N := by
  show X47 m c main_v288 = _
  unfold X47; rw [Function.update_self]; unfold o18
  rw [show (vt (V46 m (outsX m)) : (c : Dev nD) → (b : Ref sig .tc) → Buf (Elt F) ((c : Thread nD τ).loc b)) = vt (X46 m) from funext fun c => funext fun b => by show V46 m (outsX m) c b = X46 m c b; rw [VX_46]]
theorem hout19 (c : Dev nD) : outsX m 51 main_v325 c = (dat19 (vt (V50 m (outsX m))) c).arrAt 2 cfg19.N := by
  show X51 m c main_v325 = _
  unfold X51; rw [Function.update_self]; unfold o19
  rw [show (vt (V50 m (outsX m)) : (c : Dev nD) → (b : Ref sig .tc) → Buf (Elt F) ((c : Thread nD τ).loc b)) = vt (X50 m) from funext fun c => funext fun b => by show V50 m (outsX m) c b = X50 m c b; rw [VX_50]]
theorem hout20 (c : Dev nD) : outsX m 53 main_v331 c = (dat20 (vt (V52 m (outsX m))) c).arrAt 3 cfg20.N := by
  show X53 m c main_v331 = _
  unfold X53; rw [Function.update_self]; unfold o20
  rw [show (vt (V52 m (outsX m)) : (c : Dev nD) → (b : Ref sig .tc) → Buf (Elt F) ((c : Thread nD τ).loc b)) = vt (X52 m) from funext fun c => funext fun b => by show V52 m (outsX m) c b = X52 m c b; rw [VX_52]]
theorem hout21 (c : Dev nD) : outsX m 54 main_v332 c = (dat21 (vt (V53 m (outsX m))) c).arrAt 2 cfg21.N := by
  show X54 m c main_v332 = _
  unfold X54; rw [Function.update_self]; unfold o21
  rw [show (vt (V53 m (outsX m)) : (c : Dev nD) → (b : Ref sig .tc) → Buf (Elt F) ((c : Thread nD τ).loc b)) = vt (X53 m) from funext fun c => funext fun b => by show V53 m (outsX m) c b = X53 m c b; rw [VX_53]]
theorem hout22 (c : Dev nD) : outsX m 58 main_v369 c = (dat22 (vt (V57 m (outsX m))) c).arrAt 2 cfg22.N := by
  show X58 m c main_v369 = _
  unfold X58; rw [Function.update_self]; unfold o22
  rw [show (vt (V57 m (outsX m)) : (c : Dev nD) → (b : Ref sig .tc) → Buf (Elt F) ((c : Thread nD τ).loc b)) = vt (X57 m) from funext fun c => funext fun b => by show V57 m (outsX m) c b = X57 m c b; rw [VX_57]]
theorem hout23 (c : Dev nD) : outsX m 60 main_v375 c = (dat23 (vt (V59 m (outsX m))) c).arrAt 3 cfg23.N := by
  show X60 m c main_v375 = _
  unfold X60; rw [Function.update_self]; unfold o23
  rw [show (vt (V59 m (outsX m)) : (c : Dev nD) → (b : Ref sig .tc) → Buf (Elt F) ((c : Thread nD τ).loc b)) = vt (X59 m) from funext fun c => funext fun b => by show V59 m (outsX m) c b = X59 m c b; rw [VX_59]]

end Cert.Kernel.Rg

end
-- ==== Proof.K.Rest.lean ====
/- The two facts the run of @main starts from, said once for the frame and for the run with its result named. -/
import proofs.«160853_j19842748908317_1_alg».proof.Proof.K.PData

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

end Cert.Kernel.Rg

end
-- ==== Proof.K.Seg0.lean ====
/- Region 0 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg0 (hout : ∀ c, outs 2 main_v6 c = (dat0 (vt (V1 m)) c).arrAt 2 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (vt (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c (vt (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (vt (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hF : ∀ w : Fin cfg0.W, (pdats m outs 0 c).arrAt w cfg0.N = vt (V2 m outs) c (Pipeline.arrRef spec0 w) := fun w => match w with
      | ⟨0, _⟩ => by
          show (pdats m outs 0 c).arrAt 0 cfg0.N = V2 m outs c (Pipeline.arrRef spec0 0)
          rw [V2_of m outs c (Pipeline.arrRef spec0 0) (by decide)]
          exact (pdats m outs 0 c).arrAt_in 0 rfl _
      | ⟨1, _⟩ => by
          show (pdats m outs 0 c).arrAt 1 cfg0.N = V2 m outs c (Pipeline.arrRef spec0 1)
          rw [V2_of m outs c (Pipeline.arrRef spec0 1) (by decide)]
          exact (pdats m outs 0 c).arrAt_in 1 rfl _
      | ⟨2, _⟩ => (hout c).symm.trans (by
          show outs 2 main_v6 c = Function.update (V1 m c) main_v6 (outs 2 main_v6 c) main_v6
          rw [Function.update_self])
    have hrest : ∀ b, b ∉ Finset.univ.image (Pipeline.arrRef spec0) → vt (V2 m outs) c b = vt (V1 m) c b := fun b hb =>
      V2_of m outs c b fun h => hb (by
        rw [List.mem_singleton.mp h]; exact Finset.mem_image.mpr ⟨2, Finset.mem_univ _, rfl⟩)
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (vt (V1 m) c) (vt (V2 m outs) c) ((pdats m outs 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg1.lean ====
/- Region 1 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg1 (hout : ∀ c, outs 6 main_v43 c = (dat1 (vt (V5 m outs)) c).arrAt 2 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (vt (V5 m outs)) c).loose
  hwaits := Pipeline.hwaits_of_owed_zero _ _ _ _ L lv 1 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec1 c (vt (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (vt (V5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hF : ∀ w : Fin cfg1.W, (pdats m outs 1 c).arrAt w cfg1.N = vt (V6 m outs) c (Pipeline.arrRef spec1 w) := fun w => match w with
      | ⟨0, _⟩ => by
          show (pdats m outs 1 c).arrAt 0 cfg1.N = V6 m outs c (Pipeline.arrRef spec1 0)
          rw [V6_of m outs c (Pipeline.arrRef spec1 0) (by decide)]
          exact (pdats m outs 1 c).arrAt_in 0 rfl _
      | ⟨1, _⟩ => by
          show (pdats m outs 1 c).arrAt 1 cfg1.N = V6 m outs c (Pipeline.arrRef spec1 1)
          rw [V6_of m outs c (Pipeline.arrRef spec1 1) (by decide)]
          exact (pdats m outs 1 c).arrAt_in 1 rfl _
      | ⟨2, _⟩ => (hout c).symm.trans (by
          show outs 6 main_v43 c = Function.update (V5 m outs c) main_v43 (outs 6 main_v43 c) main_v43
          rw [Function.update_self])
    have hrest : ∀ b, b ∉ Finset.univ.image (Pipeline.arrRef spec1) → vt (V6 m outs) c b = vt (V5 m outs) c b := fun b hb =>
      V6_of m outs c b fun h => hb (by
        rw [List.mem_singleton.mp h]; exact Finset.mem_image.mpr ⟨2, Finset.mem_univ _, rfl⟩)
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (vt (V5 m outs) c) (vt (V6 m outs) c) ((pdats m outs 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg2.lean ====
/- Region 2 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg2 (hout : ∀ c, outs 8 main_v49 c = (dat2 (vt (V7 m outs)) c).arrAt 3 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (vt (V7 m outs)) c).loose
  hwaits := Pipeline.hwaits_of_owed_zero _ _ _ _ L lv 2 fun _ _ => rfl
  pre c := iprop(StableHlo.held (c : Thread nD τ) (Pipeline.ucRefs τ sig) (V7 m outs c) ∗ Rr c)
  post c := iprop(StableHlo.held (c : Thread nD τ) (Pipeline.ucRefs τ sig) (V8 m outs c) ∗ Rr c)
  X c := iprop(∃ r, prngReg c r)
  Y c := iprop(∃ r, prngReg c r)
  Z c := Pipeline.unscopedRest (Ix := Unit) (Name := ℕ) (U := UR sig nD τ) (Lvl := ℕ) spec2 c (vt (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (vt (V7 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w : Fin cfg2.W, (pdats m outs 2 c).arrAt w cfg2.N = vt (V8 m outs) c (Pipeline.arrRef spec2 w) := fun w => match w with
      | ⟨0, _⟩ => by
          show (pdats m outs 2 c).arrAt 0 cfg2.N = V8 m outs c (Pipeline.arrRef spec2 0)
          rw [V8_of m outs c (Pipeline.arrRef spec2 0) (by decide)]
          exact (pdats m outs 2 c).arrAt_in 0 rfl _
      | ⟨1, _⟩ => by
          show (pdats m outs 2 c).arrAt 1 cfg2.N = V8 m outs c (Pipeline.arrRef spec2 1)
          rw [V8_of m outs c (Pipeline.arrRef spec2 1) (by decide)]
          exact (pdats m outs 2 c).arrAt_in 1 rfl _
      | ⟨2, _⟩ => by
          show (pdats m outs 2 c).arrAt 2 cfg2.N = V8 m outs c (Pipeline.arrRef spec2 2)
          rw [V8_of m outs c (Pipeline.arrRef spec2 2) (by decide)]
          exact (pdats m outs 2 c).arrAt_in 2 rfl _
      | ⟨3, _⟩ => (hout c).symm.trans (by
          show outs 8 main_v49 c = Function.update (V7 m outs c) main_v49 (outs 8 main_v49 c) main_v49
          rw [Function.update_self])
    have hrest : ∀ b, b ∉ Finset.univ.image (Pipeline.arrRef spec2) → vt (V8 m outs) c b = vt (V7 m outs) c b := fun b hb =>
      V8_of m outs c b fun h => hb (by
        rw [List.mem_singleton.mp h]; exact Finset.mem_image.mpr ⟨3, Finset.mem_univ _, rfl⟩)
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (vt (V7 m outs) c) (vt (V8 m outs) c) ((pdats m outs 2 c).arrAt · cfg2.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg3.lean ====
/- Region 3 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg3 (hout : ∀ c, outs 9 main_v50 c = (dat3 (vt (V8 m outs)) c).arrAt 2 cfg3.N) :
    Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (vt (V8 m outs)) c).loose
  hwaits := Pipeline.hwaits_of_owed_zero _ _ _ _ L lv 3 fun _ _ => rfl
  pre c := iprop(StableHlo.held (c : Thread nD τ) (Pipeline.ucRefs τ sig) (V8 m outs c) ∗ Rr c)
  post c := iprop(StableHlo.held (c : Thread nD τ) (Pipeline.ucRefs τ sig) (V9 m outs c) ∗ Rr c)
  X c := iprop(∃ r, prngReg c r)
  Y c := iprop(∃ r, prngReg c r)
  Z c := Pipeline.unscopedRest (Ix := Unit) (Name := ℕ) (U := UR sig nD τ) (Lvl := ℕ) spec3 c (vt (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (vt (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hF : ∀ w : Fin cfg3.W, (pdats m outs 3 c).arrAt w cfg3.N = vt (V9 m outs) c (Pipeline.arrRef spec3 w) := fun w => match w with
      | ⟨0, _⟩ => by
          show (pdats m outs 3 c).arrAt 0 cfg3.N = V9 m outs c (Pipeline.arrRef spec3 0)
          rw [V9_of m outs c (Pipeline.arrRef spec3 0) (by decide)]
          exact (pdats m outs 3 c).arrAt_in 0 rfl _
      | ⟨1, _⟩ => by
          show (pdats m outs 3 c).arrAt 1 cfg3.N = V9 m outs c (Pipeline.arrRef spec3 1)
          rw [V9_of m outs c (Pipeline.arrRef spec3 1) (by decide)]
          exact (pdats m outs 3 c).arrAt_in 1 rfl _
      | ⟨2, _⟩ => (hout c).symm.trans (by
          show outs 9 main_v50 c = Function.update (V8 m outs c) main_v50 (outs 9 main_v50 c) main_v50
          rw [Function.update_self])
    have hrest : ∀ b, b ∉ Finset.univ.image (Pipeline.arrRef spec3) → vt (V9 m outs) c b = vt (V8 m outs) c b := fun b hb =>
      V9_of m outs c b fun h => hb (by
        rw [List.mem_singleton.mp h]; exact Finset.mem_image.mpr ⟨2, Finset.mem_univ _, rfl⟩)
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (vt (V8 m outs) c) (vt (V9 m outs) c) ((pdats m outs 3 c).arrAt · cfg3.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg4.lean ====
/- Region 4 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg4 (hout : ∀ c, outs 13 main_v87 c = (dat4 (vt (V12 m outs)) c).arrAt 2 cfg4.N) :
    Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (vt (V12 m outs)) c).loose
  hwaits := Pipeline.hwaits_of_owed_zero _ _ _ _ L lv 4 fun _ _ => rfl
  pre c := iprop(StableHlo.held (c : Thread nD τ) (Pipeline.ucRefs τ sig) (V12 m outs c) ∗ Rr c)
  post c := iprop(StableHlo.held (c : Thread nD τ) (Pipeline.ucRefs τ sig) (V13 m outs c) ∗ Rr c)
  X c := iprop(∃ r, prngReg c r)
  Y c := iprop(∃ r, prngReg c r)
  Z c := Pipeline.unscopedRest (Ix := Unit) (Name := ℕ) (U := UR sig nD τ) (Lvl := ℕ) spec4 c (vt (V12 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (vt (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hF : ∀ w : Fin cfg4.W, (pdats m outs 4 c).arrAt w cfg4.N = vt (V13 m outs) c (Pipeline.arrRef spec4 w) := fun w => match w with
      | ⟨0, _⟩ => by
          show (pdats m outs 4 c).arrAt 0 cfg4.N = V13 m outs c (Pipeline.arrRef spec4 0)
          rw [V13_of m outs c (Pipeline.arrRef spec4 0) (by decide)]
          exact (pdats m outs 4 c).arrAt_in 0 rfl _
      | ⟨1, _⟩ => by
          show (pdats m outs 4 c).arrAt 1 cfg4.N = V13 m outs c (Pipeline.arrRef spec4 1)
          rw [V13_of m outs c (Pipeline.arrRef spec4 1) (by decide)]
          exact (pdats m outs 4 c).arrAt_in 1 rfl _
      | ⟨2, _⟩ => (hout c).symm.trans (by
          show outs 13 main_v87 c = Function.update (V12 m outs c) main_v87 (outs 13 main_v87 c) main_v87
          rw [Function.update_self])
    have hrest : ∀ b, b ∉ Finset.univ.image (Pipeline.arrRef spec4) → vt (V13 m outs) c b = vt (V12 m outs) c b := fun b hb =>
      V13_of m outs c b fun h => hb (by
        rw [List.mem_singleton.mp h]; exact Finset.mem_image.mpr ⟨2, Finset.mem_univ _, rfl⟩)
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (vt (V12 m outs) c) (vt (V13 m outs) c) ((pdats m outs 4 c).arrAt · cfg4.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg5.lean ====
/- Region 5 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg5 (hout : ∀ c, outs 15 main_v93 c = (dat5 (vt (V14 m outs)) c).arrAt 3 cfg5.N) :
    Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (vt (V14 m outs)) c).loose
  hwaits := Pipeline.hwaits_of_owed_zero _ _ _ _ L lv 5 fun _ _ => rfl
  pre c := iprop(StableHlo.held (c : Thread nD τ) (Pipeline.ucRefs τ sig) (V14 m outs c) ∗ Rr c)
  post c := iprop(StableHlo.held (c : Thread nD τ) (Pipeline.ucRefs τ sig) (V15 m outs c) ∗ Rr c)
  X c := iprop(∃ r, prngReg c r)
  Y c := iprop(∃ r, prngReg c r)
  Z c := Pipeline.unscopedRest (Ix := Unit) (Name := ℕ) (U := UR sig nD τ) (Lvl := ℕ) spec5 c (vt (V14 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (vt (V14 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hF : ∀ w : Fin cfg5.W, (pdats m outs 5 c).arrAt w cfg5.N = vt (V15 m outs) c (Pipeline.arrRef spec5 w) := fun w => match w with
      | ⟨0, _⟩ => by
          show (pdats m outs 5 c).arrAt 0 cfg5.N = V15 m outs c (Pipeline.arrRef spec5 0)
          rw [V15_of m outs c (Pipeline.arrRef spec5 0) (by decide)]
          exact (pdats m outs 5 c).arrAt_in 0 rfl _
      | ⟨1, _⟩ => by
          show (pdats m outs 5 c).arrAt 1 cfg5.N = V15 m outs c (Pipeline.arrRef spec5 1)
          rw [V15_of m outs c (Pipeline.arrRef spec5 1) (by decide)]
          exact (pdats m outs 5 c).arrAt_in 1 rfl _
      | ⟨2, _⟩ => by
          show (pdats m outs 5 c).arrAt 2 cfg5.N = V15 m outs c (Pipeline.arrRef spec5 2)
          rw [V15_of m outs c (Pipeline.arrRef spec5 2) (by decide)]
          exact (pdats m outs 5 c).arrAt_in 2 rfl _
      | ⟨3, _⟩ => (hout c).symm.trans (by
          show outs 15 main_v93 c = Function.update (V14 m outs c) main_v93 (outs 15 main_v93 c) main_v93
          rw [Function.update_self])
    have hrest : ∀ b, b ∉ Finset.univ.image (Pipeline.arrRef spec5) → vt (V15 m outs) c b = vt (V14 m outs) c b := fun b hb =>
      V15_of m outs c b fun h => hb (by
        rw [List.mem_singleton.mp h]; exact Finset.mem_image.mpr ⟨3, Finset.mem_univ _, rfl⟩)
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (vt (V14 m outs) c) (vt (V15 m outs) c) ((pdats m outs 5 c).arrAt · cfg5.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg6.lean ====
/- Region 6 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg6 (hout : ∀ c, outs 17 main_v100 c = (dat6 (vt (V16 m outs)) c).arrAt 2 cfg6.N) :
    Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (vt (V16 m outs)) c).loose
  hwaits := Pipeline.hwaits_of_owed_zero _ _ _ _ L lv 6 fun _ _ => rfl
  pre c := iprop(StableHlo.held (c : Thread nD τ) (Pipeline.ucRefs τ sig) (V16 m outs c) ∗ Rr c)
  post c := iprop(StableHlo.held (c : Thread nD τ) (Pipeline.ucRefs τ sig) (V17 m outs c) ∗ Rr c)
  X c := iprop(∃ r, prngReg c r)
  Y c := iprop(∃ r, prngReg c r)
  Z c := Pipeline.unscopedRest (Ix := Unit) (Name := ℕ) (U := UR sig nD τ) (Lvl := ℕ) spec6 c (vt (V16 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (vt (V16 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hF : ∀ w : Fin cfg6.W, (pdats m outs 6 c).arrAt w cfg6.N = vt (V17 m outs) c (Pipeline.arrRef spec6 w) := fun w => match w with
      | ⟨0, _⟩ => by
          show (pdats m outs 6 c).arrAt 0 cfg6.N = V17 m outs c (Pipeline.arrRef spec6 0)
          rw [V17_of m outs c (Pipeline.arrRef spec6 0) (by decide)]
          exact (pdats m outs 6 c).arrAt_in 0 rfl _
      | ⟨1, _⟩ => by
          show (pdats m outs 6 c).arrAt 1 cfg6.N = V17 m outs c (Pipeline.arrRef spec6 1)
          rw [V17_of m outs c (Pipeline.arrRef spec6 1) (by decide)]
          exact (pdats m outs 6 c).arrAt_in 1 rfl _
      | ⟨2, _⟩ => (hout c).symm.trans (by
          show outs 17 main_v100 c = Function.update (V16 m outs c) main_v100 (outs 17 main_v100 c) main_v100
          rw [Function.update_self])
    have hrest : ∀ b, b ∉ Finset.univ.image (Pipeline.arrRef spec6) → vt (V17 m outs) c b = vt (V16 m outs) c b := fun b hb =>
      V17_of m outs c b fun h => hb (by
        rw [List.mem_singleton.mp h]; exact Finset.mem_image.mpr ⟨2, Finset.mem_univ _, rfl⟩)
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (vt (V16 m outs) c) (vt (V17 m outs) c) ((pdats m outs 6 c).arrAt · cfg6.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg7.lean ====
/- Region 7 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg7 (hout : ∀ c, outs 21 main_v137 c = (dat7 (vt (V20 m outs)) c).arrAt 2 cfg7.N) :
    Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (vt (V20 m outs)) c).loose
  hwaits := Pipeline.hwaits_of_owed_zero _ _ _ _ L lv 7 fun _ _ => rfl
  pre c := iprop(StableHlo.held (c : Thread nD τ) (Pipeline.ucRefs τ sig) (V20 m outs c) ∗ Rr c)
  post c := iprop(StableHlo.held (c : Thread nD τ) (Pipeline.ucRefs τ sig) (V21 m outs c) ∗ Rr c)
  X c := iprop(∃ r, prngReg c r)
  Y c := iprop(∃ r, prngReg c r)
  Z c := Pipeline.unscopedRest (Ix := Unit) (Name := ℕ) (U := UR sig nD τ) (Lvl := ℕ) spec7 c (vt (V20 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (vt (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hF : ∀ w : Fin cfg7.W, (pdats m outs 7 c).arrAt w cfg7.N = vt (V21 m outs) c (Pipeline.arrRef spec7 w) := fun w => match w with
      | ⟨0, _⟩ => by
          show (pdats m outs 7 c).arrAt 0 cfg7.N = V21 m outs c (Pipeline.arrRef spec7 0)
          rw [V21_of m outs c (Pipeline.arrRef spec7 0) (by decide)]
          exact (pdats m outs 7 c).arrAt_in 0 rfl _
      | ⟨1, _⟩ => by
          show (pdats m outs 7 c).arrAt 1 cfg7.N = V21 m outs c (Pipeline.arrRef spec7 1)
          rw [V21_of m outs c (Pipeline.arrRef spec7 1) (by decide)]
          exact (pdats m outs 7 c).arrAt_in 1 rfl _
      | ⟨2, _⟩ => (hout c).symm.trans (by
          show outs 21 main_v137 c = Function.update (V20 m outs c) main_v137 (outs 21 main_v137 c) main_v137
          rw [Function.update_self])
    have hrest : ∀ b, b ∉ Finset.univ.image (Pipeline.arrRef spec7) → vt (V21 m outs) c b = vt (V20 m outs) c b := fun b hb =>
      V21_of m outs c b fun h => hb (by
        rw [List.mem_singleton.mp h]; exact Finset.mem_image.mpr ⟨2, Finset.mem_univ _, rfl⟩)
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (vt (V20 m outs) c) (vt (V21 m outs) c) ((pdats m outs 7 c).arrAt · cfg7.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg8.lean ====
/- Region 8 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg8 (hout : ∀ c, outs 23 main_v143 c = (dat8 (vt (V22 m outs)) c).arrAt 3 cfg8.N) :
    Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (vt (V22 m outs)) c).loose
  hwaits := Pipeline.hwaits_of_owed_zero _ _ _ _ L lv 8 fun _ _ => rfl
  pre c := iprop(StableHlo.held (c : Thread nD τ) (Pipeline.ucRefs τ sig) (V22 m outs c) ∗ Rr c)
  post c := iprop(StableHlo.held (c : Thread nD τ) (Pipeline.ucRefs τ sig) (V23 m outs c) ∗ Rr c)
  X c := iprop(∃ r, prngReg c r)
  Y c := iprop(∃ r, prngReg c r)
  Z c := Pipeline.unscopedRest (Ix := Unit) (Name := ℕ) (U := UR sig nD τ) (Lvl := ℕ) spec8 c (vt (V22 m outs) c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (vt (V22 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hF : ∀ w : Fin cfg8.W, (pdats m outs 8 c).arrAt w cfg8.N = vt (V23 m outs) c (Pipeline.arrRef spec8 w) := fun w => match w with
      | ⟨0, _⟩ => by
          show (pdats m outs 8 c).arrAt 0 cfg8.N = V23 m outs c (Pipeline.arrRef spec8 0)
          rw [V23_of m outs c (Pipeline.arrRef spec8 0) (by decide)]
          exact (pdats m outs 8 c).arrAt_in 0 rfl _
      | ⟨1, _⟩ => by
          show (pdats m outs 8 c).arrAt 1 cfg8.N = V23 m outs c (Pipeline.arrRef spec8 1)
          rw [V23_of m outs c (Pipeline.arrRef spec8 1) (by decide)]
          exact (pdats m outs 8 c).arrAt_in 1 rfl _
      | ⟨2, _⟩ => by
          show (pdats m outs 8 c).arrAt 2 cfg8.N = V23 m outs c (Pipeline.arrRef spec8 2)
          rw [V23_of m outs c (Pipeline.arrRef spec8 2) (by decide)]
          exact (pdats m outs 8 c).arrAt_in 2 rfl _
      | ⟨3, _⟩ => (hout c).symm.trans (by
          show outs 23 main_v143 c = Function.update (V22 m outs c) main_v143 (outs 23 main_v143 c) main_v143
          rw [Function.update_self])
    have hrest : ∀ b, b ∉ Finset.univ.image (Pipeline.arrRef spec8) → vt (V23 m outs) c b = vt (V22 m outs) c b := fun b hb =>
      V23_of m outs c b fun h => hb (by
        rw [List.mem_singleton.mp h]; exact Finset.mem_image.mpr ⟨3, Finset.mem_univ _, rfl⟩)
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (vt (V22 m outs) c) (vt (V23 m outs) c) ((pdats m outs 8 c).arrAt · cfg8.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg9.lean ====
/- Region 9 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg9 (hout : ∀ c, outs 24 main_v144 c = (dat9 (vt (V23 m outs)) c).arrAt 2 cfg9.N) :
    Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (vt (V23 m outs)) c).loose
  hwaits := Pipeline.hwaits_of_owed_zero _ _ _ _ L lv 9 fun _ _ => rfl
  pre c := iprop(StableHlo.held (c : Thread nD τ) (Pipeline.ucRefs τ sig) (V23 m outs c) ∗ Rr c)
  post c := iprop(StableHlo.held (c : Thread nD τ) (Pipeline.ucRefs τ sig) (V24 m outs c) ∗ Rr c)
  X c := iprop(∃ r, prngReg c r)
  Y c := iprop(∃ r, prngReg c r)
  Z c := Pipeline.unscopedRest (Ix := Unit) (Name := ℕ) (U := UR sig nD τ) (Lvl := ℕ) spec9 c (vt (V23 m outs) c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (vt (V23 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hF : ∀ w : Fin cfg9.W, (pdats m outs 9 c).arrAt w cfg9.N = vt (V24 m outs) c (Pipeline.arrRef spec9 w) := fun w => match w with
      | ⟨0, _⟩ => by
          show (pdats m outs 9 c).arrAt 0 cfg9.N = V24 m outs c (Pipeline.arrRef spec9 0)
          rw [V24_of m outs c (Pipeline.arrRef spec9 0) (by decide)]
          exact (pdats m outs 9 c).arrAt_in 0 rfl _
      | ⟨1, _⟩ => by
          show (pdats m outs 9 c).arrAt 1 cfg9.N = V24 m outs c (Pipeline.arrRef spec9 1)
          rw [V24_of m outs c (Pipeline.arrRef spec9 1) (by decide)]
          exact (pdats m outs 9 c).arrAt_in 1 rfl _
      | ⟨2, _⟩ => (hout c).symm.trans (by
          show outs 24 main_v144 c = Function.update (V23 m outs c) main_v144 (outs 24 main_v144 c) main_v144
          rw [Function.update_self])
    have hrest : ∀ b, b ∉ Finset.univ.image (Pipeline.arrRef spec9) → vt (V24 m outs) c b = vt (V23 m outs) c b := fun b hb =>
      V24_of m outs c b fun h => hb (by
        rw [List.mem_singleton.mp h]; exact Finset.mem_image.mpr ⟨2, Finset.mem_univ _, rfl⟩)
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (vt (V23 m outs) c) (vt (V24 m outs) c) ((pdats m outs 9 c).arrAt · cfg9.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg10.lean ====
/- Region 10 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg10 (hout : ∀ c, outs 28 main_v181 c = (dat10 (vt (V27 m outs)) c).arrAt 2 cfg10.N) :
    Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (vt (V27 m outs)) c).loose
  hwaits := Pipeline.hwaits_of_owed_zero _ _ _ _ L lv 10 fun _ _ => rfl
  pre c := iprop(StableHlo.held (c : Thread nD τ) (Pipeline.ucRefs τ sig) (V27 m outs c) ∗ Rr c)
  post c := iprop(StableHlo.held (c : Thread nD τ) (Pipeline.ucRefs τ sig) (V28 m outs c) ∗ Rr c)
  X c := iprop(∃ r, prngReg c r)
  Y c := iprop(∃ r, prngReg c r)
  Z c := Pipeline.unscopedRest (Ix := Unit) (Name := ℕ) (U := UR sig nD τ) (Lvl := ℕ) spec10 c (vt (V27 m outs) c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (vt (V27 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hF : ∀ w : Fin cfg10.W, (pdats m outs 10 c).arrAt w cfg10.N = vt (V28 m outs) c (Pipeline.arrRef spec10 w) := fun w => match w with
      | ⟨0, _⟩ => by
          show (pdats m outs 10 c).arrAt 0 cfg10.N = V28 m outs c (Pipeline.arrRef spec10 0)
          rw [V28_of m outs c (Pipeline.arrRef spec10 0) (by decide)]
          exact (pdats m outs 10 c).arrAt_in 0 rfl _
      | ⟨1, _⟩ => by
          show (pdats m outs 10 c).arrAt 1 cfg10.N = V28 m outs c (Pipeline.arrRef spec10 1)
          rw [V28_of m outs c (Pipeline.arrRef spec10 1) (by decide)]
          exact (pdats m outs 10 c).arrAt_in 1 rfl _
      | ⟨2, _⟩ => (hout c).symm.trans (by
          show outs 28 main_v181 c = Function.update (V27 m outs c) main_v181 (outs 28 main_v181 c) main_v181
          rw [Function.update_self])
    have hrest : ∀ b, b ∉ Finset.univ.image (Pipeline.arrRef spec10) → vt (V28 m outs) c b = vt (V27 m outs) c b := fun b hb =>
      V28_of m outs c b fun h => hb (by
        rw [List.mem_singleton.mp h]; exact Finset.mem_image.mpr ⟨2, Finset.mem_univ _, rfl⟩)
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (vt (V27 m outs) c) (vt (V28 m outs) c) ((pdats m outs 10 c).arrAt · cfg10.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg11.lean ====
/- Region 11 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg11 (hout : ∀ c, outs 30 main_v187 c = (dat11 (vt (V29 m outs)) c).arrAt 3 cfg11.N) :
    Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (vt (V29 m outs)) c).loose
  hwaits := Pipeline.hwaits_of_owed_zero _ _ _ _ L lv 11 fun _ _ => rfl
  pre c := iprop(StableHlo.held (c : Thread nD τ) (Pipeline.ucRefs τ sig) (V29 m outs c) ∗ Rr c)
  post c := iprop(StableHlo.held (c : Thread nD τ) (Pipeline.ucRefs τ sig) (V30 m outs c) ∗ Rr c)
  X c := iprop(∃ r, prngReg c r)
  Y c := iprop(∃ r, prngReg c r)
  Z c := Pipeline.unscopedRest (Ix := Unit) (Name := ℕ) (U := UR sig nD τ) (Lvl := ℕ) spec11 c (vt (V29 m outs) c)
  hentry c := by
    rw [Pipeline.ownSems0_none]
    have hsplit := Pipeline.arrays_of_unscopedBufs (p := 11) (pcfgs (F := F)) adm (pdats m outs) launch11.win launch11.arr_whole c
      ((pdats m outs 11 c).share_full fun _ => rfl) (vt (V29 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m outs 11 c).Φ (Fin.last _) = Pipeline.ΦA spec11 c from rfl]; unfold Pipeline.ΦA
    iintro ⟨Hr, Hp⟩
    isplitl [Hp]; · iexact Hp
    isplitr; · iempintro
    iexact Hr
  hexit c := by
    have hF : ∀ w : Fin cfg11.W, (pdats m outs 11 c).arrAt w cfg11.N = vt (V30 m outs) c (Pipeline.arrRef spec11 w) := fun w => match w with
      | ⟨0, _⟩ => by
          show (pdats m outs 11 c).arrAt 0 cfg11.N = V30 m outs c (Pipeline.arrRef spec11 0)
          rw [V30_of m outs c (Pipeline.arrRef spec11 0) (by decide)]
          exact (pdats m outs 11 c).arrAt_in 0 rfl _
      | ⟨1, _⟩ => by
          show (pdats m outs 11 c).arrAt 1 cfg11.N = V30 m outs c (Pipeline.arrRef spec11 1)
          rw [V30_of m outs c (Pipeline.arrRef spec11 1) (by decide)]
          exact (pdats m outs 11 c).arrAt_in 1 rfl _
      | ⟨2, _⟩ => by
          show (pdats m outs 11 c).arrAt 2 cfg11.N = V30 m outs c (Pipeline.arrRef spec11 2)
          rw [V30_of m outs c (Pipeline.arrRef spec11 2) (by decide)]
          exact (pdats m outs 11 c).arrAt_in 2 rfl _
      | ⟨3, _⟩ => (hout c).symm.trans (by
          show outs 30 main_v187 c = Function.update (V29 m outs c) main_v187 (outs 30 main_v187 c) main_v187
          rw [Function.update_self])
    have hrest : ∀ b, b ∉ Finset.univ.image (Pipeline.arrRef spec11) → vt (V30 m outs) c b = vt (V29 m outs) c b := fun b hb =>
      V30_of m outs c b fun h => hb (by
        rw [List.mem_singleton.mp h]; exact Finset.mem_image.mpr ⟨3, Finset.mem_univ _, rfl⟩)
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun _ => rfl)
      (vt (V29 m outs) c) (vt (V30 m outs) c) ((pdats m outs 11 c).arrAt · cfg11.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg12.lean ====
/- Region 12 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg12 (hout : ∀ c, outs 32 main_v194 c = (dat12 (vt (V31 m outs)) c).arrAt 2 cfg12.N) :
    Pipeline.RegionSeg (pcfgs (F := F)) adm (pdats m outs) () defs₀ 𝒱₀ L lv 12 where
  win := launch12.win.to₀
  block_pos := launch12.block_pos
  stage_whole := launch12.stage_whole
  K := PEmpty
  osem k := k.elim
  ho := Pipeline.OwnSemFacts.none _
  hbody c := (body_obligation12 (vt (V31 m outs)) c).loose
  hwaits := Pipeline.hwaits_of_owed_zero _ _ _ _ L lv 12 fun _ _ => rfl
  pre c := iprop(StableHlo.held (c : Thread nD τ) (Pipeline.ucRefs τ sig) (V31 m outs c) ∗ Rr c)
  post c := iprop(StableHlo.held (c : Thread nD τ) (Pipeline.ucRefs τ sig) (V32 m outs c) ∗ Rr c)
  X c := iprop(∃ r, prngReg c r)
  Y c := iprop(∃ r, prngReg c r)
  Z c := Pipeline.unscopedRest (Ix := Unit) (Name := ℕ) (U := UR sig nD τ) (Lvl := ℕ) spec12 c (vt (V31 m outs) c)
  hentry c := by
    rw [Pipeline.ownSems0_none]
    have hsplit := Pipeline.arrays_of_unscopedBufs (p := 12) (pcfgs (F := F)) adm (pdats m outs) launch12.win launch12.arr_whole c
      ((pdats m outs 12 c).share_full fun _ => rfl) (vt (V31 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m outs 12 c).Φ (Fin.last _) = Pipeline.ΦA spec12 c from rfl]; unfold Pipeline.ΦA
    iintro ⟨Hr, Hp⟩
    isplitl [Hp]; · iexact Hp
    isplitr; · iempintro
    iexact Hr
  hexit c := by
    have hF : ∀ w : Fin cfg12.W, (pdats m outs 12 c).arrAt w cfg12.N = vt (V32 m outs) c (Pipeline.arrRef spec12 w) := fun w => match w with
      | ⟨0, _⟩ => by
          show (pdats m outs 12 c).arrAt 0 cfg12.N = V32 m outs c (Pipeline.arrRef spec12 0)
          rw [V32_of m outs c (Pipeline.arrRef spec12 0) (by decide)]
          exact (pdats m outs 12 c).arrAt_in 0 rfl _
      | ⟨1, _⟩ => by
          show (pdats m outs 12 c).arrAt 1 cfg12.N = V32 m outs c (Pipeline.arrRef spec12 1)
          rw [V32_of m outs c (Pipeline.arrRef spec12 1) (by decide)]
          exact (pdats m outs 12 c).arrAt_in 1 rfl _
      | ⟨2, _⟩ => (hout c).symm.trans (by
          show outs 32 main_v194 c = Function.update (V31 m outs c) main_v194 (outs 32 main_v194 c) main_v194
          rw [Function.update_self])
    have hrest : ∀ b, b ∉ Finset.univ.image (Pipeline.arrRef spec12) → vt (V32 m outs) c b = vt (V31 m outs) c b := fun b hb =>
      V32_of m outs c b fun h => hb (by
        rw [List.mem_singleton.mp h]; exact Finset.mem_image.mpr ⟨2, Finset.mem_univ _, rfl⟩)
    have hjoin := Pipeline.unscopedBufs_of_arrays (p := 12) (pcfgs (F := F)) adm (Ix := Unit) (Name := ℕ) (U := UR sig nD τ) (Lvl := ℕ)
      launch12.win launch12.arr_whole c (pdats m outs) ((pdats m outs 12 c).share_full fun _ => rfl)
      (vt (V31 m outs) c) (vt (V32 m outs) c) ((pdats m outs 12 c).arrAt · cfg12.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg13.lean ====
/- Region 13 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg13 (hout : ∀ c, outs 36 main_v231 c = (dat13 (vt (V35 m outs)) c).arrAt 2 cfg13.N) :
    Pipeline.RegionSeg (pcfgs (F := F)) adm (pdats m outs) () defs₀ 𝒱₀ L lv 13 where
  win := launch13.win.to₀
  block_pos := launch13.block_pos
  stage_whole := launch13.stage_whole
  K := PEmpty
  osem k := k.elim
  ho := Pipeline.OwnSemFacts.none _
  hbody c := (body_obligation13 (vt (V35 m outs)) c).loose
  hwaits := Pipeline.hwaits_of_owed_zero _ _ _ _ L lv 13 fun _ _ => rfl
  pre c := iprop(StableHlo.held (c : Thread nD τ) (Pipeline.ucRefs τ sig) (V35 m outs c) ∗ Rr c)
  post c := iprop(StableHlo.held (c : Thread nD τ) (Pipeline.ucRefs τ sig) (V36 m outs c) ∗ Rr c)
  X c := iprop(∃ r, prngReg c r)
  Y c := iprop(∃ r, prngReg c r)
  Z c := Pipeline.unscopedRest (Ix := Unit) (Name := ℕ) (U := UR sig nD τ) (Lvl := ℕ) spec13 c (vt (V35 m outs) c)
  hentry c := by
    rw [Pipeline.ownSems0_none]
    have hsplit := Pipeline.arrays_of_unscopedBufs (p := 13) (pcfgs (F := F)) adm (pdats m outs) launch13.win launch13.arr_whole c
      ((pdats m outs 13 c).share_full fun _ => rfl) (vt (V35 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m outs 13 c).Φ (Fin.last _) = Pipeline.ΦA spec13 c from rfl]; unfold Pipeline.ΦA
    iintro ⟨Hr, Hp⟩
    isplitl [Hp]; · iexact Hp
    isplitr; · iempintro
    iexact Hr
  hexit c := by
    have hF : ∀ w : Fin cfg13.W, (pdats m outs 13 c).arrAt w cfg13.N = vt (V36 m outs) c (Pipeline.arrRef spec13 w) := fun w => match w with
      | ⟨0, _⟩ => by
          show (pdats m outs 13 c).arrAt 0 cfg13.N = V36 m outs c (Pipeline.arrRef spec13 0)
          rw [V36_of m outs c (Pipeline.arrRef spec13 0) (by decide)]
          exact (pdats m outs 13 c).arrAt_in 0 rfl _
      | ⟨1, _⟩ => by
          show (pdats m outs 13 c).arrAt 1 cfg13.N = V36 m outs c (Pipeline.arrRef spec13 1)
          rw [V36_of m outs c (Pipeline.arrRef spec13 1) (by decide)]
          exact (pdats m outs 13 c).arrAt_in 1 rfl _
      | ⟨2, _⟩ => (hout c).symm.trans (by
          show outs 36 main_v231 c = Function.update (V35 m outs c) main_v231 (outs 36 main_v231 c) main_v231
          rw [Function.update_self])
    have hrest : ∀ b, b ∉ Finset.univ.image (Pipeline.arrRef spec13) → vt (V36 m outs) c b = vt (V35 m outs) c b := fun b hb =>
      V36_of m outs c b fun h => hb (by
        rw [List.mem_singleton.mp h]; exact Finset.mem_image.mpr ⟨2, Finset.mem_univ _, rfl⟩)
    have hjoin := Pipeline.unscopedBufs_of_arrays (p := 13) (pcfgs (F := F)) adm (Ix := Unit) (Name := ℕ) (U := UR sig nD τ) (Lvl := ℕ)
      launch13.win launch13.arr_whole c (pdats m outs) ((pdats m outs 13 c).share_full fun _ => rfl)
      (vt (V35 m outs) c) (vt (V36 m outs) c) ((pdats m outs 13 c).arrAt · cfg13.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg14.lean ====
/- Region 14 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg14 (hout : ∀ c, outs 38 main_v237 c = (dat14 (vt (V37 m outs)) c).arrAt 3 cfg14.N) :
    Pipeline.RegionSeg (pcfgs (F := F)) adm (pdats m outs) () defs₀ 𝒱₀ L lv 14 where
  win := launch14.win.to₀
  block_pos := launch14.block_pos
  stage_whole := launch14.stage_whole
  K := PEmpty
  osem k := k.elim
  ho := Pipeline.OwnSemFacts.none _
  hbody c := (body_obligation14 (vt (V37 m outs)) c).loose
  hwaits := Pipeline.hwaits_of_owed_zero _ _ _ _ L lv 14 fun _ _ => rfl
  pre c := iprop(StableHlo.held (c : Thread nD τ) (Pipeline.ucRefs τ sig) (V37 m outs c) ∗ Rr c)
  post c := iprop(StableHlo.held (c : Thread nD τ) (Pipeline.ucRefs τ sig) (V38 m outs c) ∗ Rr c)
  X c := iprop(∃ r, prngReg c r)
  Y c := iprop(∃ r, prngReg c r)
  Z c := Pipeline.unscopedRest (Ix := Unit) (Name := ℕ) (U := UR sig nD τ) (Lvl := ℕ) spec14 c (vt (V37 m outs) c)
  hentry c := by
    rw [Pipeline.ownSems0_none]
    have hsplit := Pipeline.arrays_of_unscopedBufs (p := 14) (pcfgs (F := F)) adm (pdats m outs) launch14.win launch14.arr_whole c
      ((pdats m outs 14 c).share_full fun _ => rfl) (vt (V37 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m outs 14 c).Φ (Fin.last _) = Pipeline.ΦA spec14 c from rfl]; unfold Pipeline.ΦA
    iintro ⟨Hr, Hp⟩
    isplitl [Hp]; · iexact Hp
    isplitr; · iempintro
    iexact Hr
  hexit c := by
    have hF : ∀ w : Fin cfg14.W, (pdats m outs 14 c).arrAt w cfg14.N = vt (V38 m outs) c (Pipeline.arrRef spec14 w) := fun w => match w with
      | ⟨0, _⟩ => by
          show (pdats m outs 14 c).arrAt 0 cfg14.N = V38 m outs c (Pipeline.arrRef spec14 0)
          rw [V38_of m outs c (Pipeline.arrRef spec14 0) (by decide)]
          exact (pdats m outs 14 c).arrAt_in 0 rfl _
      | ⟨1, _⟩ => by
          show (pdats m outs 14 c).arrAt 1 cfg14.N = V38 m outs c (Pipeline.arrRef spec14 1)
          rw [V38_of m outs c (Pipeline.arrRef spec14 1) (by decide)]
          exact (pdats m outs 14 c).arrAt_in 1 rfl _
      | ⟨2, _⟩ => by
          show (pdats m outs 14 c).arrAt 2 cfg14.N = V38 m outs c (Pipeline.arrRef spec14 2)
          rw [V38_of m outs c (Pipeline.arrRef spec14 2) (by decide)]
          exact (pdats m outs 14 c).arrAt_in 2 rfl _
      | ⟨3, _⟩ => (hout c).symm.trans (by
          show outs 38 main_v237 c = Function.update (V37 m outs c) main_v237 (outs 38 main_v237 c) main_v237
          rw [Function.update_self])
    have hrest : ∀ b, b ∉ Finset.univ.image (Pipeline.arrRef spec14) → vt (V38 m outs) c b = vt (V37 m outs) c b := fun b hb =>
      V38_of m outs c b fun h => hb (by
        rw [List.mem_singleton.mp h]; exact Finset.mem_image.mpr ⟨3, Finset.mem_univ _, rfl⟩)
    have hjoin := Pipeline.unscopedBufs_of_arrays (p := 14) (pcfgs (F := F)) adm (Ix := Unit) (Name := ℕ) (U := UR sig nD τ) (Lvl := ℕ)
      launch14.win launch14.arr_whole c (pdats m outs) ((pdats m outs 14 c).share_full fun _ => rfl)
      (vt (V37 m outs) c) (vt (V38 m outs) c) ((pdats m outs 14 c).arrAt · cfg14.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg15.lean ====
/- Region 15 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg15 (hout : ∀ c, outs 39 main_v238 c = (dat15 (vt (V38 m outs)) c).arrAt 2 cfg15.N) :
    Pipeline.RegionSeg (pcfgs (F := F)) adm (pdats m outs) () defs₀ 𝒱₀ L lv 15 where
  win := launch15.win.to₀
  block_pos := launch15.block_pos
  stage_whole := launch15.stage_whole
  K := PEmpty
  osem k := k.elim
  ho := Pipeline.OwnSemFacts.none _
  hbody c := (body_obligation15 (vt (V38 m outs)) c).loose
  hwaits := Pipeline.hwaits_of_owed_zero _ _ _ _ L lv 15 fun _ _ => rfl
  pre c := iprop(StableHlo.held (c : Thread nD τ) (Pipeline.ucRefs τ sig) (V38 m outs c) ∗ Rr c)
  post c := iprop(StableHlo.held (c : Thread nD τ) (Pipeline.ucRefs τ sig) (V39 m outs c) ∗ Rr c)
  X c := iprop(∃ r, prngReg c r)
  Y c := iprop(∃ r, prngReg c r)
  Z c := Pipeline.unscopedRest (Ix := Unit) (Name := ℕ) (U := UR sig nD τ) (Lvl := ℕ) spec15 c (vt (V38 m outs) c)
  hentry c := by
    rw [Pipeline.ownSems0_none]
    have hsplit := Pipeline.arrays_of_unscopedBufs (p := 15) (pcfgs (F := F)) adm (pdats m outs) launch15.win launch15.arr_whole c
      ((pdats m outs 15 c).share_full fun _ => rfl) (vt (V38 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m outs 15 c).Φ (Fin.last _) = Pipeline.ΦA spec15 c from rfl]; unfold Pipeline.ΦA
    iintro ⟨Hr, Hp⟩
    isplitl [Hp]; · iexact Hp
    isplitr; · iempintro
    iexact Hr
  hexit c := by
    have hF : ∀ w : Fin cfg15.W, (pdats m outs 15 c).arrAt w cfg15.N = vt (V39 m outs) c (Pipeline.arrRef spec15 w) := fun w => match w with
      | ⟨0, _⟩ => by
          show (pdats m outs 15 c).arrAt 0 cfg15.N = V39 m outs c (Pipeline.arrRef spec15 0)
          rw [V39_of m outs c (Pipeline.arrRef spec15 0) (by decide)]
          exact (pdats m outs 15 c).arrAt_in 0 rfl _
      | ⟨1, _⟩ => by
          show (pdats m outs 15 c).arrAt 1 cfg15.N = V39 m outs c (Pipeline.arrRef spec15 1)
          rw [V39_of m outs c (Pipeline.arrRef spec15 1) (by decide)]
          exact (pdats m outs 15 c).arrAt_in 1 rfl _
      | ⟨2, _⟩ => (hout c).symm.trans (by
          show outs 39 main_v238 c = Function.update (V38 m outs c) main_v238 (outs 39 main_v238 c) main_v238
          rw [Function.update_self])
    have hrest : ∀ b, b ∉ Finset.univ.image (Pipeline.arrRef spec15) → vt (V39 m outs) c b = vt (V38 m outs) c b := fun b hb =>
      V39_of m outs c b fun h => hb (by
        rw [List.mem_singleton.mp h]; exact Finset.mem_image.mpr ⟨2, Finset.mem_univ _, rfl⟩)
    have hjoin := Pipeline.unscopedBufs_of_arrays (p := 15) (pcfgs (F := F)) adm (Ix := Unit) (Name := ℕ) (U := UR sig nD τ) (Lvl := ℕ)
      launch15.win launch15.arr_whole c (pdats m outs) ((pdats m outs 15 c).share_full fun _ => rfl)
      (vt (V38 m outs) c) (vt (V39 m outs) c) ((pdats m outs 15 c).arrAt · cfg15.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg16.lean ====
/- Region 16 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg16 (hout : ∀ c, outs 43 main_v275 c = (dat16 (vt (V42 m outs)) c).arrAt 2 cfg16.N) :
    Pipeline.RegionSeg (pcfgs (F := F)) adm (pdats m outs) () defs₀ 𝒱₀ L lv 16 where
  win := launch16.win.to₀
  block_pos := launch16.block_pos
  stage_whole := launch16.stage_whole
  K := PEmpty
  osem k := k.elim
  ho := Pipeline.OwnSemFacts.none _
  hbody c := (body_obligation16 (vt (V42 m outs)) c).loose
  hwaits := Pipeline.hwaits_of_owed_zero _ _ _ _ L lv 16 fun _ _ => rfl
  pre c := iprop(StableHlo.held (c : Thread nD τ) (Pipeline.ucRefs τ sig) (V42 m outs c) ∗ Rr c)
  post c := iprop(StableHlo.held (c : Thread nD τ) (Pipeline.ucRefs τ sig) (V43 m outs c) ∗ Rr c)
  X c := iprop(∃ r, prngReg c r)
  Y c := iprop(∃ r, prngReg c r)
  Z c := Pipeline.unscopedRest (Ix := Unit) (Name := ℕ) (U := UR sig nD τ) (Lvl := ℕ) spec16 c (vt (V42 m outs) c)
  hentry c := by
    rw [Pipeline.ownSems0_none]
    have hsplit := Pipeline.arrays_of_unscopedBufs (p := 16) (pcfgs (F := F)) adm (pdats m outs) launch16.win launch16.arr_whole c
      ((pdats m outs 16 c).share_full fun _ => rfl) (vt (V42 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m outs 16 c).Φ (Fin.last _) = Pipeline.ΦA spec16 c from rfl]; unfold Pipeline.ΦA
    iintro ⟨Hr, Hp⟩
    isplitl [Hp]; · iexact Hp
    isplitr; · iempintro
    iexact Hr
  hexit c := by
    have hF : ∀ w : Fin cfg16.W, (pdats m outs 16 c).arrAt w cfg16.N = vt (V43 m outs) c (Pipeline.arrRef spec16 w) := fun w => match w with
      | ⟨0, _⟩ => by
          show (pdats m outs 16 c).arrAt 0 cfg16.N = V43 m outs c (Pipeline.arrRef spec16 0)
          rw [V43_of m outs c (Pipeline.arrRef spec16 0) (by decide)]
          exact (pdats m outs 16 c).arrAt_in 0 rfl _
      | ⟨1, _⟩ => by
          show (pdats m outs 16 c).arrAt 1 cfg16.N = V43 m outs c (Pipeline.arrRef spec16 1)
          rw [V43_of m outs c (Pipeline.arrRef spec16 1) (by decide)]
          exact (pdats m outs 16 c).arrAt_in 1 rfl _
      | ⟨2, _⟩ => (hout c).symm.trans (by
          show outs 43 main_v275 c = Function.update (V42 m outs c) main_v275 (outs 43 main_v275 c) main_v275
          rw [Function.update_self])
    have hrest : ∀ b, b ∉ Finset.univ.image (Pipeline.arrRef spec16) → vt (V43 m outs) c b = vt (V42 m outs) c b := fun b hb =>
      V43_of m outs c b fun h => hb (by
        rw [List.mem_singleton.mp h]; exact Finset.mem_image.mpr ⟨2, Finset.mem_univ _, rfl⟩)
    have hjoin := Pipeline.unscopedBufs_of_arrays (p := 16) (pcfgs (F := F)) adm (Ix := Unit) (Name := ℕ) (U := UR sig nD τ) (Lvl := ℕ)
      launch16.win launch16.arr_whole c (pdats m outs) ((pdats m outs 16 c).share_full fun _ => rfl)
      (vt (V42 m outs) c) (vt (V43 m outs) c) ((pdats m outs 16 c).arrAt · cfg16.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg17.lean ====
/- Region 17 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg17 (hout : ∀ c, outs 45 main_v281 c = (dat17 (vt (V44 m outs)) c).arrAt 3 cfg17.N) :
    Pipeline.RegionSeg (pcfgs (F := F)) adm (pdats m outs) () defs₀ 𝒱₀ L lv 17 where
  win := launch17.win.to₀
  block_pos := launch17.block_pos
  stage_whole := launch17.stage_whole
  K := PEmpty
  osem k := k.elim
  ho := Pipeline.OwnSemFacts.none _
  hbody c := (body_obligation17 (vt (V44 m outs)) c).loose
  hwaits := Pipeline.hwaits_of_owed_zero _ _ _ _ L lv 17 fun _ _ => rfl
  pre c := iprop(StableHlo.held (c : Thread nD τ) (Pipeline.ucRefs τ sig) (V44 m outs c) ∗ Rr c)
  post c := iprop(StableHlo.held (c : Thread nD τ) (Pipeline.ucRefs τ sig) (V45 m outs c) ∗ Rr c)
  X c := iprop(∃ r, prngReg c r)
  Y c := iprop(∃ r, prngReg c r)
  Z c := Pipeline.unscopedRest (Ix := Unit) (Name := ℕ) (U := UR sig nD τ) (Lvl := ℕ) spec17 c (vt (V44 m outs) c)
  hentry c := by
    rw [Pipeline.ownSems0_none]
    have hsplit := Pipeline.arrays_of_unscopedBufs (p := 17) (pcfgs (F := F)) adm (pdats m outs) launch17.win launch17.arr_whole c
      ((pdats m outs 17 c).share_full fun _ => rfl) (vt (V44 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m outs 17 c).Φ (Fin.last _) = Pipeline.ΦA spec17 c from rfl]; unfold Pipeline.ΦA
    iintro ⟨Hr, Hp⟩
    isplitl [Hp]; · iexact Hp
    isplitr; · iempintro
    iexact Hr
  hexit c := by
    have hF : ∀ w : Fin cfg17.W, (pdats m outs 17 c).arrAt w cfg17.N = vt (V45 m outs) c (Pipeline.arrRef spec17 w) := fun w => match w with
      | ⟨0, _⟩ => by
          show (pdats m outs 17 c).arrAt 0 cfg17.N = V45 m outs c (Pipeline.arrRef spec17 0)
          rw [V45_of m outs c (Pipeline.arrRef spec17 0) (by decide)]
          exact (pdats m outs 17 c).arrAt_in 0 rfl _
      | ⟨1, _⟩ => by
          show (pdats m outs 17 c).arrAt 1 cfg17.N = V45 m outs c (Pipeline.arrRef spec17 1)
          rw [V45_of m outs c (Pipeline.arrRef spec17 1) (by decide)]
          exact (pdats m outs 17 c).arrAt_in 1 rfl _
      | ⟨2, _⟩ => by
          show (pdats m outs 17 c).arrAt 2 cfg17.N = V45 m outs c (Pipeline.arrRef spec17 2)
          rw [V45_of m outs c (Pipeline.arrRef spec17 2) (by decide)]
          exact (pdats m outs 17 c).arrAt_in 2 rfl _
      | ⟨3, _⟩ => (hout c).symm.trans (by
          show outs 45 main_v281 c = Function.update (V44 m outs c) main_v281 (outs 45 main_v281 c) main_v281
          rw [Function.update_self])
    have hrest : ∀ b, b ∉ Finset.univ.image (Pipeline.arrRef spec17) → vt (V45 m outs) c b = vt (V44 m outs) c b := fun b hb =>
      V45_of m outs c b fun h => hb (by
        rw [List.mem_singleton.mp h]; exact Finset.mem_image.mpr ⟨3, Finset.mem_univ _, rfl⟩)
    have hjoin := Pipeline.unscopedBufs_of_arrays (p := 17) (pcfgs (F := F)) adm (Ix := Unit) (Name := ℕ) (U := UR sig nD τ) (Lvl := ℕ)
      launch17.win launch17.arr_whole c (pdats m outs) ((pdats m outs 17 c).share_full fun _ => rfl)
      (vt (V44 m outs) c) (vt (V45 m outs) c) ((pdats m outs 17 c).arrAt · cfg17.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg18.lean ====
/- Region 18 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg18 (hout : ∀ c, outs 47 main_v288 c = (dat18 (vt (V46 m outs)) c).arrAt 2 cfg18.N) :
    Pipeline.RegionSeg (pcfgs (F := F)) adm (pdats m outs) () defs₀ 𝒱₀ L lv 18 where
  win := launch18.win.to₀
  block_pos := launch18.block_pos
  stage_whole := launch18.stage_whole
  K := PEmpty
  osem k := k.elim
  ho := Pipeline.OwnSemFacts.none _
  hbody c := (body_obligation18 (vt (V46 m outs)) c).loose
  hwaits := Pipeline.hwaits_of_owed_zero _ _ _ _ L lv 18 fun _ _ => rfl
  pre c := iprop(StableHlo.held (c : Thread nD τ) (Pipeline.ucRefs τ sig) (V46 m outs c) ∗ Rr c)
  post c := iprop(StableHlo.held (c : Thread nD τ) (Pipeline.ucRefs τ sig) (V47 m outs c) ∗ Rr c)
  X c := iprop(∃ r, prngReg c r)
  Y c := iprop(∃ r, prngReg c r)
  Z c := Pipeline.unscopedRest (Ix := Unit) (Name := ℕ) (U := UR sig nD τ) (Lvl := ℕ) spec18 c (vt (V46 m outs) c)
  hentry c := by
    rw [Pipeline.ownSems0_none]
    have hsplit := Pipeline.arrays_of_unscopedBufs (p := 18) (pcfgs (F := F)) adm (pdats m outs) launch18.win launch18.arr_whole c
      ((pdats m outs 18 c).share_full fun _ => rfl) (vt (V46 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m outs 18 c).Φ (Fin.last _) = Pipeline.ΦA spec18 c from rfl]; unfold Pipeline.ΦA
    iintro ⟨Hr, Hp⟩
    isplitl [Hp]; · iexact Hp
    isplitr; · iempintro
    iexact Hr
  hexit c := by
    have hF : ∀ w : Fin cfg18.W, (pdats m outs 18 c).arrAt w cfg18.N = vt (V47 m outs) c (Pipeline.arrRef spec18 w) := fun w => match w with
      | ⟨0, _⟩ => by
          show (pdats m outs 18 c).arrAt 0 cfg18.N = V47 m outs c (Pipeline.arrRef spec18 0)
          rw [V47_of m outs c (Pipeline.arrRef spec18 0) (by decide)]
          exact (pdats m outs 18 c).arrAt_in 0 rfl _
      | ⟨1, _⟩ => by
          show (pdats m outs 18 c).arrAt 1 cfg18.N = V47 m outs c (Pipeline.arrRef spec18 1)
          rw [V47_of m outs c (Pipeline.arrRef spec18 1) (by decide)]
          exact (pdats m outs 18 c).arrAt_in 1 rfl _
      | ⟨2, _⟩ => (hout c).symm.trans (by
          show outs 47 main_v288 c = Function.update (V46 m outs c) main_v288 (outs 47 main_v288 c) main_v288
          rw [Function.update_self])
    have hrest : ∀ b, b ∉ Finset.univ.image (Pipeline.arrRef spec18) → vt (V47 m outs) c b = vt (V46 m outs) c b := fun b hb =>
      V47_of m outs c b fun h => hb (by
        rw [List.mem_singleton.mp h]; exact Finset.mem_image.mpr ⟨2, Finset.mem_univ _, rfl⟩)
    have hjoin := Pipeline.unscopedBufs_of_arrays (p := 18) (pcfgs (F := F)) adm (Ix := Unit) (Name := ℕ) (U := UR sig nD τ) (Lvl := ℕ)
      launch18.win launch18.arr_whole c (pdats m outs) ((pdats m outs 18 c).share_full fun _ => rfl)
      (vt (V46 m outs) c) (vt (V47 m outs) c) ((pdats m outs 18 c).arrAt · cfg18.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg19.lean ====
/- Region 19 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg19 (hout : ∀ c, outs 51 main_v325 c = (dat19 (vt (V50 m outs)) c).arrAt 2 cfg19.N) :
    Pipeline.RegionSeg (pcfgs (F := F)) adm (pdats m outs) () defs₀ 𝒱₀ L lv 19 where
  win := launch19.win.to₀
  block_pos := launch19.block_pos
  stage_whole := launch19.stage_whole
  K := PEmpty
  osem k := k.elim
  ho := Pipeline.OwnSemFacts.none _
  hbody c := (body_obligation19 (vt (V50 m outs)) c).loose
  hwaits := Pipeline.hwaits_of_owed_zero _ _ _ _ L lv 19 fun _ _ => rfl
  pre c := iprop(StableHlo.held (c : Thread nD τ) (Pipeline.ucRefs τ sig) (V50 m outs c) ∗ Rr c)
  post c := iprop(StableHlo.held (c : Thread nD τ) (Pipeline.ucRefs τ sig) (V51 m outs c) ∗ Rr c)
  X c := iprop(∃ r, prngReg c r)
  Y c := iprop(∃ r, prngReg c r)
  Z c := Pipeline.unscopedRest (Ix := Unit) (Name := ℕ) (U := UR sig nD τ) (Lvl := ℕ) spec19 c (vt (V50 m outs) c)
  hentry c := by
    rw [Pipeline.ownSems0_none]
    have hsplit := Pipeline.arrays_of_unscopedBufs (p := 19) (pcfgs (F := F)) adm (pdats m outs) launch19.win launch19.arr_whole c
      ((pdats m outs 19 c).share_full fun _ => rfl) (vt (V50 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m outs 19 c).Φ (Fin.last _) = Pipeline.ΦA spec19 c from rfl]; unfold Pipeline.ΦA
    iintro ⟨Hr, Hp⟩
    isplitl [Hp]; · iexact Hp
    isplitr; · iempintro
    iexact Hr
  hexit c := by
    have hF : ∀ w : Fin cfg19.W, (pdats m outs 19 c).arrAt w cfg19.N = vt (V51 m outs) c (Pipeline.arrRef spec19 w) := fun w => match w with
      | ⟨0, _⟩ => by
          show (pdats m outs 19 c).arrAt 0 cfg19.N = V51 m outs c (Pipeline.arrRef spec19 0)
          rw [V51_of m outs c (Pipeline.arrRef spec19 0) (by decide)]
          exact (pdats m outs 19 c).arrAt_in 0 rfl _
      | ⟨1, _⟩ => by
          show (pdats m outs 19 c).arrAt 1 cfg19.N = V51 m outs c (Pipeline.arrRef spec19 1)
          rw [V51_of m outs c (Pipeline.arrRef spec19 1) (by decide)]
          exact (pdats m outs 19 c).arrAt_in 1 rfl _
      | ⟨2, _⟩ => (hout c).symm.trans (by
          show outs 51 main_v325 c = Function.update (V50 m outs c) main_v325 (outs 51 main_v325 c) main_v325
          rw [Function.update_self])
    have hrest : ∀ b, b ∉ Finset.univ.image (Pipeline.arrRef spec19) → vt (V51 m outs) c b = vt (V50 m outs) c b := fun b hb =>
      V51_of m outs c b fun h => hb (by
        rw [List.mem_singleton.mp h]; exact Finset.mem_image.mpr ⟨2, Finset.mem_univ _, rfl⟩)
    have hjoin := Pipeline.unscopedBufs_of_arrays (p := 19) (pcfgs (F := F)) adm (Ix := Unit) (Name := ℕ) (U := UR sig nD τ) (Lvl := ℕ)
      launch19.win launch19.arr_whole c (pdats m outs) ((pdats m outs 19 c).share_full fun _ => rfl)
      (vt (V50 m outs) c) (vt (V51 m outs) c) ((pdats m outs 19 c).arrAt · cfg19.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg20.lean ====
/- Region 20 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg20 (hout : ∀ c, outs 53 main_v331 c = (dat20 (vt (V52 m outs)) c).arrAt 3 cfg20.N) :
    Pipeline.RegionSeg (pcfgs (F := F)) adm (pdats m outs) () defs₀ 𝒱₀ L lv 20 where
  win := launch20.win.to₀
  block_pos := launch20.block_pos
  stage_whole := launch20.stage_whole
  K := PEmpty
  osem k := k.elim
  ho := Pipeline.OwnSemFacts.none _
  hbody c := (body_obligation20 (vt (V52 m outs)) c).loose
  hwaits := Pipeline.hwaits_of_owed_zero _ _ _ _ L lv 20 fun _ _ => rfl
  pre c := iprop(StableHlo.held (c : Thread nD τ) (Pipeline.ucRefs τ sig) (V52 m outs c) ∗ Rr c)
  post c := iprop(StableHlo.held (c : Thread nD τ) (Pipeline.ucRefs τ sig) (V53 m outs c) ∗ Rr c)
  X c := iprop(∃ r, prngReg c r)
  Y c := iprop(∃ r, prngReg c r)
  Z c := Pipeline.unscopedRest (Ix := Unit) (Name := ℕ) (U := UR sig nD τ) (Lvl := ℕ) spec20 c (vt (V52 m outs) c)
  hentry c := by
    rw [Pipeline.ownSems0_none]
    have hsplit := Pipeline.arrays_of_unscopedBufs (p := 20) (pcfgs (F := F)) adm (pdats m outs) launch20.win launch20.arr_whole c
      ((pdats m outs 20 c).share_full fun _ => rfl) (vt (V52 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m outs 20 c).Φ (Fin.last _) = Pipeline.ΦA spec20 c from rfl]; unfold Pipeline.ΦA
    iintro ⟨Hr, Hp⟩
    isplitl [Hp]; · iexact Hp
    isplitr; · iempintro
    iexact Hr
  hexit c := by
    have hF : ∀ w : Fin cfg20.W, (pdats m outs 20 c).arrAt w cfg20.N = vt (V53 m outs) c (Pipeline.arrRef spec20 w) := fun w => match w with
      | ⟨0, _⟩ => by
          show (pdats m outs 20 c).arrAt 0 cfg20.N = V53 m outs c (Pipeline.arrRef spec20 0)
          rw [V53_of m outs c (Pipeline.arrRef spec20 0) (by decide)]
          exact (pdats m outs 20 c).arrAt_in 0 rfl _
      | ⟨1, _⟩ => by
          show (pdats m outs 20 c).arrAt 1 cfg20.N = V53 m outs c (Pipeline.arrRef spec20 1)
          rw [V53_of m outs c (Pipeline.arrRef spec20 1) (by decide)]
          exact (pdats m outs 20 c).arrAt_in 1 rfl _
      | ⟨2, _⟩ => by
          show (pdats m outs 20 c).arrAt 2 cfg20.N = V53 m outs c (Pipeline.arrRef spec20 2)
          rw [V53_of m outs c (Pipeline.arrRef spec20 2) (by decide)]
          exact (pdats m outs 20 c).arrAt_in 2 rfl _
      | ⟨3, _⟩ => (hout c).symm.trans (by
          show outs 53 main_v331 c = Function.update (V52 m outs c) main_v331 (outs 53 main_v331 c) main_v331
          rw [Function.update_self])
    have hrest : ∀ b, b ∉ Finset.univ.image (Pipeline.arrRef spec20) → vt (V53 m outs) c b = vt (V52 m outs) c b := fun b hb =>
      V53_of m outs c b fun h => hb (by
        rw [List.mem_singleton.mp h]; exact Finset.mem_image.mpr ⟨3, Finset.mem_univ _, rfl⟩)
    have hjoin := Pipeline.unscopedBufs_of_arrays (p := 20) (pcfgs (F := F)) adm (Ix := Unit) (Name := ℕ) (U := UR sig nD τ) (Lvl := ℕ)
      launch20.win launch20.arr_whole c (pdats m outs) ((pdats m outs 20 c).share_full fun _ => rfl)
      (vt (V52 m outs) c) (vt (V53 m outs) c) ((pdats m outs 20 c).arrAt · cfg20.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg21.lean ====
/- Region 21 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg21 (hout : ∀ c, outs 54 main_v332 c = (dat21 (vt (V53 m outs)) c).arrAt 2 cfg21.N) :
    Pipeline.RegionSeg (pcfgs (F := F)) adm (pdats m outs) () defs₀ 𝒱₀ L lv 21 where
  win := launch21.win.to₀
  block_pos := launch21.block_pos
  stage_whole := launch21.stage_whole
  K := PEmpty
  osem k := k.elim
  ho := Pipeline.OwnSemFacts.none _
  hbody c := (body_obligation21 (vt (V53 m outs)) c).loose
  hwaits := Pipeline.hwaits_of_owed_zero _ _ _ _ L lv 21 fun _ _ => rfl
  pre c := iprop(StableHlo.held (c : Thread nD τ) (Pipeline.ucRefs τ sig) (V53 m outs c) ∗ Rr c)
  post c := iprop(StableHlo.held (c : Thread nD τ) (Pipeline.ucRefs τ sig) (V54 m outs c) ∗ Rr c)
  X c := iprop(∃ r, prngReg c r)
  Y c := iprop(∃ r, prngReg c r)
  Z c := Pipeline.unscopedRest (Ix := Unit) (Name := ℕ) (U := UR sig nD τ) (Lvl := ℕ) spec21 c (vt (V53 m outs) c)
  hentry c := by
    rw [Pipeline.ownSems0_none]
    have hsplit := Pipeline.arrays_of_unscopedBufs (p := 21) (pcfgs (F := F)) adm (pdats m outs) launch21.win launch21.arr_whole c
      ((pdats m outs 21 c).share_full fun _ => rfl) (vt (V53 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m outs 21 c).Φ (Fin.last _) = Pipeline.ΦA spec21 c from rfl]; unfold Pipeline.ΦA
    iintro ⟨Hr, Hp⟩
    isplitl [Hp]; · iexact Hp
    isplitr; · iempintro
    iexact Hr
  hexit c := by
    have hF : ∀ w : Fin cfg21.W, (pdats m outs 21 c).arrAt w cfg21.N = vt (V54 m outs) c (Pipeline.arrRef spec21 w) := fun w => match w with
      | ⟨0, _⟩ => by
          show (pdats m outs 21 c).arrAt 0 cfg21.N = V54 m outs c (Pipeline.arrRef spec21 0)
          rw [V54_of m outs c (Pipeline.arrRef spec21 0) (by decide)]
          exact (pdats m outs 21 c).arrAt_in 0 rfl _
      | ⟨1, _⟩ => by
          show (pdats m outs 21 c).arrAt 1 cfg21.N = V54 m outs c (Pipeline.arrRef spec21 1)
          rw [V54_of m outs c (Pipeline.arrRef spec21 1) (by decide)]
          exact (pdats m outs 21 c).arrAt_in 1 rfl _
      | ⟨2, _⟩ => (hout c).symm.trans (by
          show outs 54 main_v332 c = Function.update (V53 m outs c) main_v332 (outs 54 main_v332 c) main_v332
          rw [Function.update_self])
    have hrest : ∀ b, b ∉ Finset.univ.image (Pipeline.arrRef spec21) → vt (V54 m outs) c b = vt (V53 m outs) c b := fun b hb =>
      V54_of m outs c b fun h => hb (by
        rw [List.mem_singleton.mp h]; exact Finset.mem_image.mpr ⟨2, Finset.mem_univ _, rfl⟩)
    have hjoin := Pipeline.unscopedBufs_of_arrays (p := 21) (pcfgs (F := F)) adm (Ix := Unit) (Name := ℕ) (U := UR sig nD τ) (Lvl := ℕ)
      launch21.win launch21.arr_whole c (pdats m outs) ((pdats m outs 21 c).share_full fun _ => rfl)
      (vt (V53 m outs) c) (vt (V54 m outs) c) ((pdats m outs 21 c).arrAt · cfg21.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg22.lean ====
/- Region 22 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg22 (hout : ∀ c, outs 58 main_v369 c = (dat22 (vt (V57 m outs)) c).arrAt 2 cfg22.N) :
    Pipeline.RegionSeg (pcfgs (F := F)) adm (pdats m outs) () defs₀ 𝒱₀ L lv 22 where
  win := launch22.win.to₀
  block_pos := launch22.block_pos
  stage_whole := launch22.stage_whole
  K := PEmpty
  osem k := k.elim
  ho := Pipeline.OwnSemFacts.none _
  hbody c := (body_obligation22 (vt (V57 m outs)) c).loose
  hwaits := Pipeline.hwaits_of_owed_zero _ _ _ _ L lv 22 fun _ _ => rfl
  pre c := iprop(StableHlo.held (c : Thread nD τ) (Pipeline.ucRefs τ sig) (V57 m outs c) ∗ Rr c)
  post c := iprop(StableHlo.held (c : Thread nD τ) (Pipeline.ucRefs τ sig) (V58 m outs c) ∗ Rr c)
  X c := iprop(∃ r, prngReg c r)
  Y c := iprop(∃ r, prngReg c r)
  Z c := Pipeline.unscopedRest (Ix := Unit) (Name := ℕ) (U := UR sig nD τ) (Lvl := ℕ) spec22 c (vt (V57 m outs) c)
  hentry c := by
    rw [Pipeline.ownSems0_none]
    have hsplit := Pipeline.arrays_of_unscopedBufs (p := 22) (pcfgs (F := F)) adm (pdats m outs) launch22.win launch22.arr_whole c
      ((pdats m outs 22 c).share_full fun _ => rfl) (vt (V57 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m outs 22 c).Φ (Fin.last _) = Pipeline.ΦA spec22 c from rfl]; unfold Pipeline.ΦA
    iintro ⟨Hr, Hp⟩
    isplitl [Hp]; · iexact Hp
    isplitr; · iempintro
    iexact Hr
  hexit c := by
    have hF : ∀ w : Fin cfg22.W, (pdats m outs 22 c).arrAt w cfg22.N = vt (V58 m outs) c (Pipeline.arrRef spec22 w) := fun w => match w with
      | ⟨0, _⟩ => by
          show (pdats m outs 22 c).arrAt 0 cfg22.N = V58 m outs c (Pipeline.arrRef spec22 0)
          rw [V58_of m outs c (Pipeline.arrRef spec22 0) (by decide)]
          exact (pdats m outs 22 c).arrAt_in 0 rfl _
      | ⟨1, _⟩ => by
          show (pdats m outs 22 c).arrAt 1 cfg22.N = V58 m outs c (Pipeline.arrRef spec22 1)
          rw [V58_of m outs c (Pipeline.arrRef spec22 1) (by decide)]
          exact (pdats m outs 22 c).arrAt_in 1 rfl _
      | ⟨2, _⟩ => (hout c).symm.trans (by
          show outs 58 main_v369 c = Function.update (V57 m outs c) main_v369 (outs 58 main_v369 c) main_v369
          rw [Function.update_self])
    have hrest : ∀ b, b ∉ Finset.univ.image (Pipeline.arrRef spec22) → vt (V58 m outs) c b = vt (V57 m outs) c b := fun b hb =>
      V58_of m outs c b fun h => hb (by
        rw [List.mem_singleton.mp h]; exact Finset.mem_image.mpr ⟨2, Finset.mem_univ _, rfl⟩)
    have hjoin := Pipeline.unscopedBufs_of_arrays (p := 22) (pcfgs (F := F)) adm (Ix := Unit) (Name := ℕ) (U := UR sig nD τ) (Lvl := ℕ)
      launch22.win launch22.arr_whole c (pdats m outs) ((pdats m outs 22 c).share_full fun _ => rfl)
      (vt (V57 m outs) c) (vt (V58 m outs) c) ((pdats m outs 22 c).arrAt · cfg22.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Seg23.lean ====
/- Region 23 as one item of @main: entered at the contents before it, left with its result array at what its points wrote. -/
import proofs.«160853_j19842748908317_1_alg».proof.Proof.K.PFam

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg23 (hout : ∀ c, outs 60 main_v375 c = (dat23 (vt (V59 m outs)) c).arrAt 3 cfg23.N) :
    Pipeline.RegionSeg (pcfgs (F := F)) adm (pdats m outs) () defs₀ 𝒱₀ L lv 23 where
  win := launch23.win.to₀
  block_pos := launch23.block_pos
  stage_whole := launch23.stage_whole
  K := PEmpty
  osem k := k.elim
  ho := Pipeline.OwnSemFacts.none _
  hbody c := (body_obligation23 (vt (V59 m outs)) c).loose
  hwaits := Pipeline.hwaits_of_owed_zero _ _ _ _ L lv 23 fun _ _ => rfl
  pre c := iprop(StableHlo.held (c : Thread nD τ) (Pipeline.ucRefs τ sig) (V59 m outs c) ∗ Rr c)
  post c := iprop(StableHlo.held (c : Thread nD τ) (Pipeline.ucRefs τ sig) (V60 m outs c) ∗ Rr c)
  X c := iprop(∃ r, prngReg c r)
  Y c := iprop(∃ r, prngReg c r)
  Z c := Pipeline.unscopedRest (Ix := Unit) (Name := ℕ) (U := UR sig nD τ) (Lvl := ℕ) spec23 c (vt (V59 m outs) c)
  hentry c := by
    rw [Pipeline.ownSems0_none]
    have hsplit := Pipeline.arrays_of_unscopedBufs (p := 23) (pcfgs (F := F)) adm (pdats m outs) launch23.win launch23.arr_whole c
      ((pdats m outs 23 c).share_full fun _ => rfl) (vt (V59 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m outs 23 c).Φ (Fin.last _) = Pipeline.ΦA spec23 c from rfl]; unfold Pipeline.ΦA
    iintro ⟨Hr, Hp⟩
    isplitl [Hp]; · iexact Hp
    isplitr; · iempintro
    iexact Hr
  hexit c := by
    have hF : ∀ w : Fin cfg23.W, (pdats m outs 23 c).arrAt w cfg23.N = vt (V60 m outs) c (Pipeline.arrRef spec23 w) := fun w => match w with
      | ⟨0, _⟩ => by
          show (pdats m outs 23 c).arrAt 0 cfg23.N = V60 m outs c (Pipeline.arrRef spec23 0)
          rw [V60_of m outs c (Pipeline.arrRef spec23 0) (by decide)]
          exact (pdats m outs 23 c).arrAt_in 0 rfl _
      | ⟨1, _⟩ => by
          show (pdats m outs 23 c).arrAt 1 cfg23.N = V60 m outs c (Pipeline.arrRef spec23 1)
          rw [V60_of m outs c (Pipeline.arrRef spec23 1) (by decide)]
          exact (pdats m outs 23 c).arrAt_in 1 rfl _
      | ⟨2, _⟩ => by
          show (pdats m outs 23 c).arrAt 2 cfg23.N = V60 m outs c (Pipeline.arrRef spec23 2)
          rw [V60_of m outs c (Pipeline.arrRef spec23 2) (by decide)]
          exact (pdats m outs 23 c).arrAt_in 2 rfl _
      | ⟨3, _⟩ => (hout c).symm.trans (by
          show outs 60 main_v375 c = Function.update (V59 m outs c) main_v375 (outs 60 main_v375 c) main_v375
          rw [Function.update_self])
    have hrest : ∀ b, b ∉ Finset.univ.image (Pipeline.arrRef spec23) → vt (V60 m outs) c b = vt (V59 m outs) c b := fun b hb =>
      V60_of m outs c b fun h => hb (by
        rw [List.mem_singleton.mp h]; exact Finset.mem_image.mpr ⟨3, Finset.mem_univ _, rfl⟩)
    have hjoin := Pipeline.unscopedBufs_of_arrays (p := 23) (pcfgs (F := F)) adm (Ix := Unit) (Name := ℕ) (U := UR sig nD τ) (Lvl := ℕ)
      launch23.win launch23.arr_whole c (pdats m outs) ((pdats m outs 23 c).share_full fun _ => rfl)
      (vt (V59 m outs) c) (vt (V60 m outs) c) ((pdats m outs 23 c).arrAt · cfg23.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Rg

end
-- ==== Proof.K.Frame.lean ====
/- The frame of @main: every weakly fair execution ends, nothing faults, and the eight arguments end as launched. -/
import proofs.«160853_j19842748908317_1_alg».proof.Proof.K.Rest
import proofs.«160853_j19842748908317_1_alg».proof.Proof.K.Seg0
import proofs.«160853_j19842748908317_1_alg».proof.Proof.K.Seg1
import proofs.«160853_j19842748908317_1_alg».proof.Proof.K.Seg2
import proofs.«160853_j19842748908317_1_alg».proof.Proof.K.Seg3
import proofs.«160853_j19842748908317_1_alg».proof.Proof.K.Seg4
import proofs.«160853_j19842748908317_1_alg».proof.Proof.K.Seg5
import proofs.«160853_j19842748908317_1_alg».proof.Proof.K.Seg6
import proofs.«160853_j19842748908317_1_alg».proof.Proof.K.Seg7
import proofs.«160853_j19842748908317_1_alg».proof.Proof.K.Seg8
import proofs.«160853_j19842748908317_1_alg».proof.Proof.K.Seg9
import proofs.«160853_j19842748908317_1_alg».proof.Proof.K.Seg10
import proofs.«160853_j19842748908317_1_alg».proof.Proof.K.Seg11
import proofs.«160853_j19842748908317_1_alg».proof.Proof.K.Seg12
import proofs.«160853_j19842748908317_1_alg».proof.Proof.K.Seg13
import proofs.«160853_j19842748908317_1_alg».proof.Proof.K.Seg14
import proofs.«160853_j19842748908317_1_alg».proof.Proof.K.Seg15
import proofs.«160853_j19842748908317_1_alg».proof.Proof.K.Seg16
import proofs.«160853_j19842748908317_1_alg».proof.Proof.K.Seg17
import proofs.«160853_j19842748908317_1_alg».proof.Proof.K.Seg18
import proofs.«160853_j19842748908317_1_alg».proof.Proof.K.Seg19
import proofs.«160853_j19842748908317_1_alg».proof.Proof.K.Seg20
import proofs.«160853_j19842748908317_1_alg».proof.Proof.K.Seg21
import proofs.«160853_j19842748908317_1_alg».proof.Proof.K.Seg22
import proofs.«160853_j19842748908317_1_alg».proof.Proof.K.Seg23

set_option maxRecDepth 16384

noncomputable section

namespace Cert.Kernel.Rg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond (F := F) m emb₁ () 𝒱₀ L lv (fun _ _ => rfl) ρ (outsX m) (pdats m (outsX m)) 0 (fun _ => (BI.emp : sProp 𝕄))
    (initOf (Pipeline.cells cfgs cellOf_inj) (Pipeline.launchToks cfgs cellOf_inj)) launch_ghost
    (fun _ c => Rr c) (rest_init ρ) (fun c => by iintro ⟨-, HO⟩; iexact HO)
    (reg0 m (outsX m) (hout0 m)) (fun _ => .rfl) (fun _ => .rfl)
    (reg1 m (outsX m) (hout1 m)) (fun _ => .rfl) (fun _ => .rfl)
    (reg2 m (outsX m) (hout2 m)) (fun _ => .rfl) (fun _ => .rfl)
    (reg3 m (outsX m) (hout3 m)) (fun _ => .rfl) (fun _ => .rfl)
    (reg4 m (outsX m) (hout4 m)) (fun _ => .rfl) (fun _ => .rfl)
    (reg5 m (outsX m) (hout5 m)) (fun _ => .rfl) (fun _ => .rfl)
    (reg6 m (outsX m) (hout6 m)) (fun _ => .rfl) (fun _ => .rfl)
    (reg7 m (outsX m) (hout7 m)) (fun _ => .rfl) (fun _ => .rfl)
    (reg8 m (outsX m) (hout8 m)) (fun _ => .rfl) (fun _ => .rfl)
    (reg9 m (outsX m) (hout9 m)) (fun _ => .rfl) (fun _ => .rfl)
    (reg10 m (outsX m) (hout10 m)) (fun _ => .rfl) (fun _ => .rfl)
    (reg11 m (outsX m) (hout11 m)) (fun _ => .rfl) (fun _ => .rfl)
    (reg12 m (outsX m) (hout12 m)) (fun _ => .rfl) (fun _ => .rfl)
    (reg13 m (outsX m) (hout13 m)) (fun _ => .rfl) (fun _ => .rfl)
    (reg14 m (outsX m) (hout14 m)) (fun _ => .rfl) (fun _ => .rfl)
    (reg15 m (outsX m) (hout15 m)) (fun _ => .rfl) (fun _ => .rfl)
    (reg16 m (outsX m) (hout16 m)) (fun _ => .rfl) (fun _ => .rfl)
    (reg17 m (outsX m) (hout17 m)) (fun _ => .rfl) (fun _ => .rfl)
    (reg18 m (outsX m) (hout18 m)) (fun _ => .rfl) (fun _ => .rfl)
    (reg19 m (outsX m) (hout19 m)) (fun _ => .rfl) (fun _ => .rfl)
    (reg20 m (outsX m) (hout20 m)) (fun _ => .rfl) (fun _ => .rfl)
    (reg21 m (outsX m) (hout21 m)) (fun _ => .rfl) (fun _ => .rfl)
    (reg22 m (outsX m) (hout22 m)) (fun _ => .rfl) (fun _ => .rfl)
    (reg23 m (outsX m) (hout23 m)) (fun _ => .rfl) (fun _ => .rfl)

end Cert.Kernel.Rg

end
-- ==== Proof.KI.RegBlock.lean ====
/- Every region writes a whole 5000 x 128 block: its rectangle, and that the one piece on it covers the block. -/
import proofs.«160853_j19842748908317_1_alg».proof.Proof.Gen.KernelIdeal.Launch
import Idealize.ShloMosaic.Lib.Pipeline.FrameBody

noncomputable section

namespace Cert.KernelIdeal.Rg

open Cert.KernelIdeal Cert.KernelIdeal.Gen
open Idealize.ShloMosaic Idealize.ShloMosaic.TcCoe

variable {F : FTy → Type} [FloatOps F]

abbrev rBlock : Rect S5000x128 := Rect.unit (s := S5000x128) ![0, 0] S5000x128.size inb_S5000x128_S5000x128_0_0

theorem cover_block (p0 : Vec F S5000x128 .f32) (y : S5000x128.Idx) :
    ∃ pc ∈ ([⟨rBlock, p0⟩] : List (View.Piece (Elt F) S5000x128 .f32)), y ∈ pc.1.set :=
  View.cover_of_tiled [⟨rBlock, p0⟩] S5000x128.size (by rfl) y

end Cert.KernelIdeal.Rg

end
-- ==== Proof.KI.Reg0.lean ====
/- Region 0: a 5000-row block times the 128 x 128 matrix at each of ten points; the body leaves the product of its two input blocks. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S128x128 : Rect S128x128 := Rect.unit (s := S128x128) ![0, 0] S128x128.size inb_S128x128_S128x128_0_0

def out0_2 (x0 : Vec F S5000x128 .f32) (x1 : Vec F S128x128 .f32) : Vec F S5000x128 .f32 :=
  View.canon [⟨rBlock, k0_pay1 (View.ld x0 rBlock) (View.ld x1 r0_S128x128)⟩]

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Reg1.lean ====
/- Region 1: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x1 : Rect S5000x1 := Rect.unit (s := S5000x1) ![0, 0] S5000x1.size inb_S5000x1_S5000x1_0_0

def out1_2 (x0 : Vec F S5000x128 .f32) (x1 : Vec F S5000x1 .f32) : Vec F S5000x128 .f32 :=
  View.canon [⟨rBlock, k1_pay1 (View.ld x0 rBlock) (View.ld x1 r1_S5000x1)⟩]

set_option maxHeartbeats 1000000 in

theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.Reg2.lean ====
/- Region 2: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_S1x128 : Rect S1x128 := Rect.unit (s := S1x128) ![0, 0] S1x128.size inb_S1x128_S1x128_0_0

def out2_3 (x0 : Vec F S5000x128 .f32) (x1 : Vec F S1x128 .f32) (x2 : Vec F S1x128 .f32) : Vec F S5000x128 .f32 :=
  View.canon [⟨rBlock, k2_pay1 (View.ld x0 rBlock) (View.ld x1 r2_S1x128) (View.ld x2 r2_S1x128)⟩]

set_option maxHeartbeats 1000000 in

theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__bias_prelu_kernel i arg1 harg1 arg2 harg2 arg3 harg3 arg4 harg4) K := by
  simp only [cc2__bias_prelu_kernel_eq_skeleton]; unfold cc2__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Reg3.lean ====
/- Region 3: a 5000-row block of activations times the 128 x 128 matrix at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_S128x128 : Rect S128x128 := Rect.unit (s := S128x128) ![0, 0] S128x128.size inb_S128x128_S128x128_0_0

def out3_2 (x0 : Vec F S5000x128 .f32) (x1 : Vec F S128x128 .f32) : Vec F S5000x128 .f32 :=
  View.canon [⟨rBlock, k3_pay1 (View.ld x0 rBlock) (View.ld x1 r3_S128x128)⟩]

set_option maxHeartbeats 1000000 in

theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KI.Reg4.lean ====
/- Region 4: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_S5000x1 : Rect S5000x1 := Rect.unit (s := S5000x1) ![0, 0] S5000x1.size inb_S5000x1_S5000x1_0_0

def out4_2 (x0 : Vec F S5000x128 .f32) (x1 : Vec F S5000x1 .f32) : Vec F S5000x128 .f32 :=
  View.canon [⟨rBlock, k4_pay1 (View.ld x0 rBlock) (View.ld x1 r4_S5000x1)⟩]

set_option maxHeartbeats 1000000 in

theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.Reg5.lean ====
/- Region 5: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_S1x128 : Rect S1x128 := Rect.unit (s := S1x128) ![0, 0] S1x128.size inb_S1x128_S1x128_0_0

def out5_3 (x0 : Vec F S5000x128 .f32) (x1 : Vec F S1x128 .f32) (x2 : Vec F S1x128 .f32) : Vec F S5000x128 .f32 :=
  View.canon [⟨rBlock, k5_pay1 (View.ld x0 rBlock) (View.ld x1 r5_S1x128) (View.ld x2 r5_S1x128)⟩]

set_option maxHeartbeats 1000000 in

theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bias_prelu_kernel i arg1 harg1 arg2 harg2 arg3 harg3 arg4 harg4) K := by
  simp only [cc5__bias_prelu_kernel_eq_skeleton]; unfold cc5__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KI.Reg6.lean ====
/- Region 6: a 5000-row block times the 128 x 128 matrix at each of ten points; the body leaves the product of its two input blocks. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_S128x128 : Rect S128x128 := Rect.unit (s := S128x128) ![0, 0] S128x128.size inb_S128x128_S128x128_0_0

def out6_2 (x0 : Vec F S5000x128 .f32) (x1 : Vec F S128x128 .f32) : Vec F S5000x128 .f32 :=
  View.canon [⟨rBlock, k6_pay1 (View.ld x0 rBlock) (View.ld x1 r6_S128x128)⟩]

set_option maxHeartbeats 1000000 in

theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KI.Reg7.lean ====
/- Region 7: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_S5000x1 : Rect S5000x1 := Rect.unit (s := S5000x1) ![0, 0] S5000x1.size inb_S5000x1_S5000x1_0_0

def out7_2 (x0 : Vec F S5000x128 .f32) (x1 : Vec F S5000x1 .f32) : Vec F S5000x128 .f32 :=
  View.canon [⟨rBlock, k7_pay1 (View.ld x0 rBlock) (View.ld x1 r7_S5000x1)⟩]

set_option maxHeartbeats 1000000 in

theorem sound_kernel7 (c : Dev nD) (E : Set ℕ) (i : grid7.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KI.Reg8.lean ====
/- Region 8: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_S1x128 : Rect S1x128 := Rect.unit (s := S1x128) ![0, 0] S1x128.size inb_S1x128_S1x128_0_0

def out8_3 (x0 : Vec F S5000x128 .f32) (x1 : Vec F S1x128 .f32) (x2 : Vec F S1x128 .f32) : Vec F S5000x128 .f32 :=
  View.canon [⟨rBlock, k8_pay1 (View.ld x0 rBlock) (View.ld x1 r8_S1x128) (View.ld x2 r8_S1x128)⟩]

set_option maxHeartbeats 1000000 in

theorem sound_kernel8 (c : Dev nD) (E : Set ℕ) (i : grid8.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__bias_prelu_kernel i arg1 harg1 arg2 harg2 arg3 harg3 arg4 harg4) K := by
  simp only [cc8__bias_prelu_kernel_eq_skeleton]; unfold cc8__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Rg

end
-- ==== Proof.KI.Reg9.lean ====
/- Region 9: a 5000-row block of activations times the 128 x 128 matrix at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_S128x128 : Rect S128x128 := Rect.unit (s := S128x128) ![0, 0] S128x128.size inb_S128x128_S128x128_0_0

def out9_2 (x0 : Vec F S5000x128 .f32) (x1 : Vec F S128x128 .f32) : Vec F S5000x128 .f32 :=
  View.canon [⟨rBlock, k9_pay1 (View.ld x0 rBlock) (View.ld x1 r9_S128x128)⟩]

set_option maxHeartbeats 1000000 in

theorem sound_kernel9 (c : Dev nD) (E : Set ℕ) (i : grid9.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Rg

end
-- ==== Proof.KI.Reg10.lean ====
/- Region 10: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_S5000x1 : Rect S5000x1 := Rect.unit (s := S5000x1) ![0, 0] S5000x1.size inb_S5000x1_S5000x1_0_0

def out10_2 (x0 : Vec F S5000x128 .f32) (x1 : Vec F S5000x1 .f32) : Vec F S5000x128 .f32 :=
  View.canon [⟨rBlock, k10_pay1 (View.ld x0 rBlock) (View.ld x1 r10_S5000x1)⟩]

set_option maxHeartbeats 1000000 in

theorem sound_kernel10 (c : Dev nD) (E : Set ℕ) (i : grid10.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.KernelIdeal.Rg

end
-- ==== Proof.KI.Reg11.lean ====
/- Region 11: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

abbrev r11_S1x128 : Rect S1x128 := Rect.unit (s := S1x128) ![0, 0] S1x128.size inb_S1x128_S1x128_0_0

def out11_3 (x0 : Vec F S5000x128 .f32) (x1 : Vec F S1x128 .f32) (x2 : Vec F S1x128 .f32) : Vec F S5000x128 .f32 :=
  View.canon [⟨rBlock, k11_pay1 (View.ld x0 rBlock) (View.ld x1 r11_S1x128) (View.ld x2 r11_S1x128)⟩]

set_option maxHeartbeats 1000000 in

theorem sound_kernel11 (c : Dev nD) (E : Set ℕ) (i : grid11.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__bias_prelu_kernel i arg1 harg1 arg2 harg2 arg3 harg3 arg4 harg4) K := by
  simp only [cc11__bias_prelu_kernel_eq_skeleton]; unfold cc11__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.KernelIdeal.Rg

end
-- ==== Proof.KI.Reg12.lean ====
/- Region 12: a 5000-row block times the 128 x 128 matrix at each of ten points; the body leaves the product of its two input blocks. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_S128x128 : Rect S128x128 := Rect.unit (s := S128x128) ![0, 0] S128x128.size inb_S128x128_S128x128_0_0

def out12_2 (x0 : Vec F S5000x128 .f32) (x1 : Vec F S128x128 .f32) : Vec F S5000x128 .f32 :=
  View.canon [⟨rBlock, k12_pay1 (View.ld x0 rBlock) (View.ld x1 r12_S128x128)⟩]

set_option maxHeartbeats 1000000 in

theorem sound_kernel12 (c : Dev nD) (E : Set ℕ) (i : grid12.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.KernelIdeal.Rg

end
-- ==== Proof.KI.Reg13.lean ====
/- Region 13: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_S5000x1 : Rect S5000x1 := Rect.unit (s := S5000x1) ![0, 0] S5000x1.size inb_S5000x1_S5000x1_0_0

def out13_2 (x0 : Vec F S5000x128 .f32) (x1 : Vec F S5000x1 .f32) : Vec F S5000x128 .f32 :=
  View.canon [⟨rBlock, k13_pay1 (View.ld x0 rBlock) (View.ld x1 r13_S5000x1)⟩]

set_option maxHeartbeats 1000000 in

theorem sound_kernel13 (c : Dev nD) (E : Set ℕ) (i : grid13.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__scale_kernel i arg1 harg1 arg2 harg2 arg3 harg3) K := by
  simp only [cc13__scale_kernel_eq_skeleton]; unfold cc13__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

end Cert.KernelIdeal.Rg

end
-- ==== Proof.KI.Reg14.lean ====
/- Region 14: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_S1x128 : Rect S1x128 := Rect.unit (s := S1x128) ![0, 0] S1x128.size inb_S1x128_S1x128_0_0

def out14_3 (x0 : Vec F S5000x128 .f32) (x1 : Vec F S1x128 .f32) (x2 : Vec F S1x128 .f32) : Vec F S5000x128 .f32 :=
  View.canon [⟨rBlock, k14_pay1 (View.ld x0 rBlock) (View.ld x1 r14_S1x128) (View.ld x2 r14_S1x128)⟩]

set_option maxHeartbeats 1000000 in

theorem sound_kernel14 (c : Dev nD) (E : Set ℕ) (i : grid14.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14_3 x0 x1 x2)) -∗ K ⟨⟩))
      ⊢ wp frame (wpE (defs₀ (F := F)) Variants.none c none) E (cc14__bias_prelu_kernel i arg1 harg1 arg2 harg2 arg3 harg3 arg4 harg4) K := by
  simp only [cc14__bias_prelu_kernel_eq_skeleton]; unfold cc14__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.KernelIdeal.Rg

end
-- ==== Proof.KI.Reg15.lean ====
/- Region 15: a 5000-row block of activations times the 128 x 128 matrix at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_S128x128 : Rect S128x128 := Rect.unit (s := S128x128) ![0, 0] S128x128.size inb_S128x128_S128x128_0_0

def out15_2 (x0 : Vec F S5000x128 .f32) (x1 : Vec F S128x128 .f32) : Vec F S5000x128 .f32 :=
  View.canon [⟨rBlock, k15_pay1 (View.ld x0 rBlock) (View.ld x1 r15_S128x128)⟩]

set_option maxHeartbeats 1000000 in

theorem sound_kernel15 (c : Dev nD) (E : Set ℕ) (i : grid15.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

end Cert.KernelIdeal.Rg

end
-- ==== Proof.KI.Reg16.lean ====
/- Region 16: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

abbrev r16_S5000x1 : Rect S5000x1 := Rect.unit (s := S5000x1) ![0, 0] S5000x1.size inb_S5000x1_S5000x1_0_0

def out16_2 (x0 : Vec F S5000x128 .f32) (x1 : Vec F S5000x1 .f32) : Vec F S5000x128 .f32 :=
  View.canon [⟨rBlock, k16_pay1 (View.ld x0 rBlock) (View.ld x1 r16_S5000x1)⟩]

set_option maxHeartbeats 1000000 in

theorem sound_kernel16 (c : Dev nD) (E : Set ℕ) (i : grid16.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out16_2 x0 x1)) -∗ K ⟨⟩))
      ⊢ wp frame (wpE (defs₀ (F := F)) Variants.none c none) E (cc16__scale_kernel i arg1 harg1 arg2 harg2 arg3 harg3) K := by
  simp only [cc16__scale_kernel_eq_skeleton]; unfold cc16__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation16 (c : Dev nD) : BodyObligation (dat16 (F := F) V c) (defs₀ (F := F)) Variants.none () Set.univ := fun t => by
  rw [bigSep_W16, bigSep_W16]
  exact sound_body16 V c t

end Cert.KernelIdeal.Rg

end
-- ==== Proof.KI.Reg17.lean ====
/- Region 17: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

abbrev r17_S1x128 : Rect S1x128 := Rect.unit (s := S1x128) ![0, 0] S1x128.size inb_S1x128_S1x128_0_0

def out17_3 (x0 : Vec F S5000x128 .f32) (x1 : Vec F S1x128 .f32) (x2 : Vec F S1x128 .f32) : Vec F S5000x128 .f32 :=
  View.canon [⟨rBlock, k17_pay1 (View.ld x0 rBlock) (View.ld x1 r17_S1x128) (View.ld x2 r17_S1x128)⟩]

set_option maxHeartbeats 1000000 in

theorem sound_kernel17 (c : Dev nD) (E : Set ℕ) (i : grid17.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17__bias_prelu_kernel i arg1 harg1 arg2 harg2 arg3 harg3 arg4 harg4) K := by
  simp only [cc17__bias_prelu_kernel_eq_skeleton]; unfold cc17__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation17 (c : Dev nD) : BodyObligation (dat17 (F := F) V c) (defs₀ (F := F)) Variants.none () Set.univ := fun t => by
  rw [bigSep_W17, bigSep_W17]
  exact sound_body17 V c t

end Cert.KernelIdeal.Rg

end
-- ==== Proof.KI.Reg18.lean ====
/- Region 18: a 5000-row block times the 128 x 128 matrix at each of ten points; the body leaves the product of its two input blocks. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

abbrev r18_S128x128 : Rect S128x128 := Rect.unit (s := S128x128) ![0, 0] S128x128.size inb_S128x128_S128x128_0_0

def out18_2 (x0 : Vec F S5000x128 .f32) (x1 : Vec F S128x128 .f32) : Vec F S5000x128 .f32 :=
  View.canon [⟨rBlock, k18_pay1 (View.ld x0 rBlock) (View.ld x1 r18_S128x128)⟩]

set_option maxHeartbeats 1000000 in

theorem sound_kernel18 (c : Dev nD) (E : Set ℕ) (i : grid18.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out18_2 x0 x1)) -∗ K ⟨⟩))
      ⊢ wp frame (wpE (defs₀ (F := F)) Variants.none c none) E (cc18__matmul_kernel i arg1 harg1 arg2 harg2 arg3 harg3) K := by
  simp only [cc18__matmul_kernel_eq_skeleton]; unfold cc18__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation18 (c : Dev nD) : BodyObligation (dat18 (F := F) V c) (defs₀ (F := F)) Variants.none () Set.univ := fun t => by
  rw [bigSep_W18, bigSep_W18]
  exact sound_body18 V c t

end Cert.KernelIdeal.Rg

end
-- ==== Proof.KI.Reg19.lean ====
/- Region 19: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

abbrev r19_S5000x1 : Rect S5000x1 := Rect.unit (s := S5000x1) ![0, 0] S5000x1.size inb_S5000x1_S5000x1_0_0

def out19_2 (x0 : Vec F S5000x128 .f32) (x1 : Vec F S5000x1 .f32) : Vec F S5000x128 .f32 :=
  View.canon [⟨rBlock, k19_pay1 (View.ld x0 rBlock) (View.ld x1 r19_S5000x1)⟩]

set_option maxHeartbeats 1000000 in

theorem sound_kernel19 (c : Dev nD) (E : Set ℕ) (i : grid19.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__scale_kernel i arg1 harg1 arg2 harg2 arg3 harg3) K := by
  simp only [cc19__scale_kernel_eq_skeleton]; unfold cc19__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ _ _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation19 (c : Dev nD) : BodyObligation (dat19 (F := F) V c) (defs₀ (F := F)) Variants.none () Set.univ := fun t => by
  rw [bigSep_W19, bigSep_W19]
  exact sound_body19 V c t

end Cert.KernelIdeal.Rg

end
-- ==== Proof.KI.Reg20.lean ====
/- Region 20: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

abbrev r20_S1x128 : Rect S1x128 := Rect.unit (s := S1x128) ![0, 0] S1x128.size inb_S1x128_S1x128_0_0

def out20_3 (x0 : Vec F S5000x128 .f32) (x1 : Vec F S1x128 .f32) (x2 : Vec F S1x128 .f32) : Vec F S5000x128 .f32 :=
  View.canon [⟨rBlock, k20_pay1 (View.ld x0 rBlock) (View.ld x1 r20_S1x128) (View.ld x2 r20_S1x128)⟩]

set_option maxHeartbeats 1000000 in

theorem sound_kernel20 (c : Dev nD) (E : Set ℕ) (i : grid20.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out20_3 x0 x1 x2)) -∗ K ⟨⟩))
      ⊢ wp frame (wpE (defs₀ (F := F)) Variants.none c none) E (cc20__bias_prelu_kernel i arg1 harg1 arg2 harg2 arg3 harg3 arg4 harg4) K := by
  simp only [cc20__bias_prelu_kernel_eq_skeleton]; unfold cc20__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => out20_3 (iblk20 V c 0 t) (iblk20 V c 1 t) (iblk20 V c 2 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = out20_3 (iblk20 V c 0 t) (iblk20 V c 1 t) (iblk20 V c 2 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d)))

def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2]
  rw [show (dat20 V c).Φ t.succ = (dat20 V c).Φ t.castSucc from rfl,
    show (dat20 V c).owesAt () t.succ = (dat20 V c).owesAt () t.castSucc from rfl,
    after20_0, after20_1, after20_2, after20_3]
  iintro ⟨HΦ, Ho, ⟨%d0, H0⟩, ⟨%d1, H1⟩, ⟨%d2, H2⟩, ⟨%d3, H3⟩⟩
  iapply (sound_kernel20 c Set.univ _ _ _ _ _ _ _ _ _ (iblk20 V c 0 t) (iblk20 V c 1 t) (iblk20 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation20 (c : Dev nD) : BodyObligation (dat20 (F := F) V c) (defs₀ (F := F)) Variants.none () Set.univ := fun t => by
  rw [bigSep_W20, bigSep_W20]
  exact sound_body20 V c t

end Cert.KernelIdeal.Rg

end
-- ==== Proof.KI.Reg21.lean ====
/- Region 21: a 5000-row block of activations times the 128 x 128 matrix at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

abbrev r21_S128x128 : Rect S128x128 := Rect.unit (s := S128x128) ![0, 0] S128x128.size inb_S128x128_S128x128_0_0

def out21_2 (x0 : Vec F S5000x128 .f32) (x1 : Vec F S128x128 .f32) : Vec F S5000x128 .f32 :=
  View.canon [⟨rBlock, k21_pay1 (View.ld x0 rBlock) (View.ld x1 r21_S128x128)⟩]

set_option maxHeartbeats 1000000 in

theorem sound_kernel21 (c : Dev nD) (E : Set ℕ) (i : grid21.Coords)
    (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__matmul_kernel i arg1 harg1 arg2 harg2 arg3 harg3) K := by
  simp only [cc21__matmul_kernel_eq_skeleton]; unfold cc21__matmul_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ _ _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation21 (c : Dev nD) : BodyObligation (dat21 (F := F) V c) (defs₀ (F := F)) Variants.none () Set.univ := fun t => by
  rw [bigSep_W21, bigSep_W21]
  exact sound_body21 V c t

end Cert.KernelIdeal.Rg

end
-- ==== Proof.KI.Reg22.lean ====
/- Region 22: each row of a 5000-row block times that row's coefficient, at each of 170 points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

abbrev r22_S5000x1 : Rect S5000x1 := Rect.unit (s := S5000x1) ![0, 0] S5000x1.size inb_S5000x1_S5000x1_0_0

def out22_2 (x0 : Vec F S5000x128 .f32) (x1 : Vec F S5000x1 .f32) : Vec F S5000x128 .f32 :=
  View.canon [⟨rBlock, k22_pay1 (View.ld x0 rBlock) (View.ld x1 r22_S5000x1)⟩]

set_option maxHeartbeats 1000000 in

theorem sound_kernel22 (c : Dev nD) (E : Set ℕ) (i : grid22.Coords)
    (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__scale_kernel i arg1 harg1 arg2 harg2 arg3 harg3) K := by
  simp only [cc22__scale_kernel_eq_skeleton]; unfold cc22__scale_kernel_skel
  unfold owns
  iintro ⟨⟨%f0, %hf0, H0⟩, ⟨%f1, %hf1, H1⟩, ⟨%dd, %fo, -, Ho⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact Ho
  ipureintro
  exact View.read_writes_eq_canon _ _ _ (cover_block _)

def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ _ _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation22 (c : Dev nD) : BodyObligation (dat22 (F := F) V c) (defs₀ (F := F)) Variants.none () Set.univ := fun t => by
  rw [bigSep_W22, bigSep_W22]
  exact sound_body22 V c t

end Cert.KernelIdeal.Rg

end
-- ==== Proof.KI.Reg23.lean ====
/- Region 23: t where t is positive and slope · t elsewhere, t a 5000-row block plus the bias row, at each of ten points. -/
import proofs.«160853_j19842748908317_1_alg».proof.Proof.Gen.KernelIdeal.Launch
import proofs.«160853_j19842748908317_1_alg».proof.Proof.Gen.KernelIdeal.Skeleton
import proofs.«160853_j19842748908317_1_alg».proof.Proof.Gen.KernelIdeal.Points
import proofs.«160853_j19842748908317_1_alg».proof.Proof.KI.RegBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

theorem before23_2_of {c : Dev nD} (dat : Dat τ (Elt F) Unit ℕ (UR sig nD τ) ℕ cfg23 c) (hA : dat.A 2 = V c (Pipeline.arrRef spec23 2))
    (hafter : ∀ t, dat.after 2 t = iblk23 V c 2 t) (t : Fin cfg23.N) (d) : dat.before 2 t d = iblk23 V c 2 t :=
  (dat.before_in_eq_fetched 2 rfl (fun _ => rfl) (fun _ _ _ => rfl) (fun t => by rw [hafter]; unfold Dat.blockOf iblk23; rw [hA]; try rfl) t d).trans
    (by unfold Dat.fetched Dat.blockOf iblk23; rw [hA]; try rfl)

abbrev r23_S1x128 : Rect S1x128 := Rect.unit (s := S1x128) ![0, 0] S1x128.size inb_S1x128_S1x128_0_0

def out23_3 (x0 : Vec F S5000x128 .f32) (x1 : Vec F S1x128 .f32) (x2 : Vec F S1x128 .f32) : Vec F S5000x128 .f32 :=
  View.canon [⟨rBlock, k23_pay1 (View.ld x0 rBlock) (View.ld x1 r23_S1x128) (View.ld x2 r23_S1x128)⟩]

set_option maxHeartbeats 1000000 in

theorem sound_kernel23 (c : Dev nD) (E : Set ℕ) (i : grid23.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out23_3 x0 x1 x2)) -∗ K ⟨⟩))
      ⊢ wp frame (wpE (defs₀ (F := F)) Variants.none c none) E (cc23__bias_prelu_kernel i arg1 harg1 arg2 harg2 arg3 harg3 arg4 harg4) K := by
  simp only [cc23__bias_prelu_kernel_eq_skeleton]; unfold cc23__bias_prelu_kernel_skel
  unfold owns
  iintro ⟨⟨%f0, %hf0, H0⟩, ⟨%f1, %hf1, H1⟩, ⟨%f2, %hf2, H2⟩, ⟨%dd, %fo, -, Ho⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact Ho
  ipureintro
  exact View.read_writes_eq_canon _ _ _ (cover_block _)

def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => iblk23 V c 2 t
    | ⟨3, _⟩ => out23_3 (iblk23 V c 0 t) (iblk23 V c 1 t) (iblk23 V c 2 t)
  Φ _ := Pipeline.ΦA spec23 c
  q _ := fullShare
  owed _ := 0

theorem A_eq23 (c : Dev nD) (w : Fin cfg23.W) : (dat23 V c).A w = V c (Pipeline.arrRef spec23 w) := by
  dsimp only [dat23]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = iblk23 V c 2 t := by dsimp only [dat23]
theorem after23_3 (c : Dev nD) (t : Fin cfg23.N) : (dat23 V c).after 3 t = out23_3 (iblk23 V c 0 t) (iblk23 V c 1 t) (iblk23 V c 2 t) := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d
theorem before23_2 (c : Dev nD) (t : Fin cfg23.N) (d) : (dat23 V c).before 2 t d = iblk23 V c 2 t :=
  before23_2_of V (dat23 V c) (A_eq23 V c 2) (after23_2 V c) t d

def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d))
    ∗ (∃ d, owns (c : Thread nD τ) (st23_3 t) fullShare ((dat23 V c).before 3 t d)))

def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t)
    ∗ owns (c : Thread nD τ) (st23_3 t) fullShare ((dat23 V c).after 3 t))

theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1, before23_2]
  rw [show (dat23 V c).Φ t.succ = (dat23 V c).Φ t.castSucc from rfl,
    show (dat23 V c).owesAt () t.succ = (dat23 V c).owesAt () t.castSucc from rfl,
    after23_0, after23_1, after23_2, after23_3]
  iintro ⟨HΦ, Ho, ⟨%d0, H0⟩, ⟨%d1, H1⟩, ⟨%d2, H2⟩, ⟨%d3, H3⟩⟩
  iapply (sound_kernel23 c Set.univ _ _ _ _ _ _ _ _ _ (iblk23 V c 0 t) (iblk23 V c 1 t) (iblk23 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation23 (c : Dev nD) : BodyObligation (dat23 (F := F) V c) (defs₀ (F := F)) Variants.none () Set.univ := fun t => by
  rw [bigSep_W23, bigSep_W23]
  exact sound_body23 V c t

end Cert.KernelIdeal.Rg

end
-- ==== Proof.KI.PFam.lean ====
/- The regions' proof data as one family, each at the contents the buffers hold when its region is entered. -/
import proofs.«160853_j19842748908317_1_alg».proof.Proof.KI.RegionsP
import proofs.«160853_j19842748908317_1_alg».proof.Proof.KI.Reg0
import proofs.«160853_j19842748908317_1_alg».proof.Proof.KI.Reg1
import proofs.«160853_j19842748908317_1_alg».proof.Proof.KI.Reg2
import proofs.«160853_j19842748908317_1_alg».proof.Proof.KI.Reg3
import proofs.«160853_j19842748908317_1_alg».proof.Proof.KI.Reg4
import proofs.«160853_j19842748908317_1_alg».proof.Proof.KI.Reg5
import proofs.«160853_j19842748908317_1_alg».proof.Proof.KI.Reg6
import proofs.«160853_j19842748908317_1_alg».proof.Proof.KI.Reg7
import proofs.«160853_j19842748908317_1_alg».proof.Proof.KI.Reg8
import proofs.«160853_j19842748908317_1_alg».proof.Proof.KI.Reg9
import proofs.«160853_j19842748908317_1_alg».proof.Proof.KI.Reg10
import proofs.«160853_j19842748908317_1_alg».proof.Proof.KI.Reg11
import proofs.«160853_j19842748908317_1_alg».proof.Proof.KI.Reg12
import proofs.«160853_j19842748908317_1_alg».proof.Proof.KI.Reg13
import proofs.«160853_j19842748908317_1_alg».proof.Proof.KI.Reg14
import proofs.«160853_j19842748908317_1_alg».proof.Proof.KI.Reg15
import proofs.«160853_j19842748908317_1_alg».proof.Proof.KI.Reg16
import proofs.«160853_j19842748908317_1_alg».proof.Proof.KI.Reg17
import proofs.«160853_j19842748908317_1_alg».proof.Proof.KI.Reg18
import proofs.«160853_j19842748908317_1_alg».proof.Proof.KI.Reg19
import proofs.«160853_j19842748908317_1_alg».proof.Proof.KI.Reg20
import proofs.«160853_j19842748908317_1_alg».proof.Proof.KI.Reg21
import proofs.«160853_j19842748908317_1_alg».proof.Proof.KI.Reg22
import proofs.«160853_j19842748908317_1_alg».proof.Proof.KI.Reg23

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev vt (W : Dev nD → Valuation τ sig (Elt F)) : (c : Dev nD) → (b : Ref sig .tc) → Buf (Elt F) ((c : Thread nD τ).loc b) := fun c b => W c b

def pdats : (p : Fin 24) → (c : Dev nD) → Dat τ (Elt F) Unit ℕ (UR sig nD τ) ℕ (cfgs p) c
  | ⟨0, _⟩ => fun c => dat0 (vt (V1 m)) c
  | ⟨1, _⟩ => fun c => dat1 (vt (V5 m outs)) c
  | ⟨2, _⟩ => fun c => dat2 (vt (V7 m outs)) c
  | ⟨3, _⟩ => fun c => dat3 (vt (V8 m outs)) c
  | ⟨4, _⟩ => fun c => dat4 (vt (V12 m outs)) c
  | ⟨5, _⟩ => fun c => dat5 (vt (V14 m outs)) c
  | ⟨6, _⟩ => fun c => dat6 (vt (V16 m outs)) c
  | ⟨7, _⟩ => fun c => dat7 (vt (V20 m outs)) c
  | ⟨8, _⟩ => fun c => dat8 (vt (V22 m outs)) c
  | ⟨9, _⟩ => fun c => dat9 (vt (V23 m outs)) c
  | ⟨10, _⟩ => fun c => dat10 (vt (V27 m outs)) c
  | ⟨11, _⟩ => fun c => dat11 (vt (V29 m outs)) c
  | ⟨12, _⟩ => fun c => dat12 (vt (V31 m outs)) c
  | ⟨13, _⟩ => fun c => dat13 (vt (V35 m outs)) c
  | ⟨14, _⟩ => fun c => dat14 (vt (V37 m outs)) c
  | ⟨15, _⟩ => fun c => dat15 (vt (V38 m outs)) c
  | ⟨16, _⟩ => fun c => dat16 (vt (V42 m outs)) c
  | ⟨17, _⟩ => fun c => dat17 (vt (V44 m outs)) c
  | ⟨18, _⟩ => fun c => dat18 (vt (V46 m outs)) c
  | ⟨19, _⟩ => fun c => dat19 (vt (V50 m outs)) c
  | ⟨20, _⟩ => fun c => dat20 (vt (V52 m outs)) c
  | ⟨21, _⟩ => fun c => dat21 (vt (V53 m outs)) c
  | ⟨22, _⟩ => fun c => dat22 (vt (V57 m outs)) c
  | ⟨23, _⟩ => fun c => dat23 (vt (V59 m outs)) c
  | ⟨_ + 24, h⟩ => absurd h (Nat.not_lt.2 (Nat.le_add_left _ _))

abbrev 𝒱₀ : Variants := Variants.none

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.KernelIdeal.Rg

end
-- ==== Proof.KI.PData.lean ====
/-
  The contents of the core's buffers at every boundary between two items of @main, with each region's output array at
  what its pipeline leaves there: X1 is the launch contents after the first host stretch; after a host stretch the
  stretch's operations applied; after region K the entry contents with the region's output array replaced by the
  write-backs of the region's proof data taken at the entry contents. From them: the contents the regions leave as one
  function of the item and the reference (outsX), that the boundary contents stated over an arbitrary such function
  are these when it is outsX (VX_J), and that outsX at a region's output is what that region's pipeline leaves (houtK).
-/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- After the first host stretch. -/
def X1 (c : Dev nD) : Valuation τ sig (Elt F) := V1 m c
/-- What region 0 leaves in its output array, from its entry contents. -/
def o0 (c : Dev nD) : Buf (Elt F) ((c : Thread nD τ).loc main_v6) := (dat0 (vt (X1 m)) c).arrAt 2 cfg0.N
/-- After region 0. -/
def X2 (c : Dev nD) : Valuation τ sig (Elt F) := Function.update (X1 m c) main_v6 (o0 m c)
/-- After the host stretch hostOps1. -/
def X3 (c : Dev nD) : Valuation τ sig (Elt F) := StableHlo.after hostOps1 (X2 m c)
/-- After the host stretch hostOps1_1. -/
def X4 (c : Dev nD) : Valuation τ sig (Elt F) := StableHlo.after hostOps1_1 (X3 m c)
/-- After the host stretch hostOps1_2. -/
def X5 (c : Dev nD) : Valuation τ sig (Elt F) := StableHlo.after hostOps1_2 (X4 m c)
/-- What region 1 leaves in its output array, from its entry contents. -/
def o1 (c : Dev nD) : Buf (Elt F) ((c : Thread nD τ).loc main_v43) := (dat1 (vt (X5 m)) c).arrAt 2 cfg1.N
/-- After region 1. -/
def X6 (c : Dev nD) : Valuation τ sig (Elt F) := Function.update (X5 m c) main_v43 (o1 m c)
/-- After the host stretch hostOps2. -/
def X7 (c : Dev nD) : Valuation τ sig (Elt F) := StableHlo.after hostOps2 (X6 m c)
/-- What region 2 leaves in its output array, from its entry contents. -/
def o2 (c : Dev nD) : Buf (Elt F) ((c : Thread nD τ).loc main_v49) := (dat2 (vt (X7 m)) c).arrAt 3 cfg2.N
/-- After region 2. -/
def X8 (c : Dev nD) : Valuation τ sig (Elt F) := Function.update (X7 m c) main_v49 (o2 m c)
/-- What region 3 leaves in its output array, from its entry contents. -/
def o3 (c : Dev nD) : Buf (Elt F) ((c : Thread nD τ).loc main_v50) := (dat3 (vt (X8 m)) c).arrAt 2 cfg3.N
/-- After region 3. -/
def X9 (c : Dev nD) : Valuation τ sig (Elt F) := Function.update (X8 m c) main_v50 (o3 m c)
/-- After the host stretch hostOps4. -/
def X10 (c : Dev nD) : Valuation τ sig (Elt F) := StableHlo.after hostOps4 (X9 m c)
/-- After the host stretch hostOps4_1. -/
def X11 (c : Dev nD) : Valuation τ sig (Elt F) := StableHlo.after hostOps4_1 (X10 m c)
/-- After the host stretch hostOps4_2. -/
def X12 (c : Dev nD) : Valuation τ sig (Elt F) := StableHlo.after hostOps4_2 (X11 m c)
/-- What region 4 leaves in its output array, from its entry contents. -/
def o4 (c : Dev nD) : Buf (Elt F) ((c : Thread nD τ).loc main_v87) := (dat4 (vt (X12 m)) c).arrAt 2 cfg4.N
/-- After region 4. -/
def X13 (c : Dev nD) : Valuation τ sig (Elt F) := Function.update (X12 m c) main_v87 (o4 m c)
/-- After the host stretch hostOps5. -/
def X14 (c : Dev nD) : Valuation τ sig (Elt F) := StableHlo.after hostOps5 (X13 m c)
/-- What region 5 leaves in its output array, from its entry contents. -/
def o5 (c : Dev nD) : Buf (Elt F) ((c : Thread nD τ).loc main_v93) := (dat5 (vt (X14 m)) c).arrAt 3 cfg5.N
/-- After region 5. -/
def X15 (c : Dev nD) : Valuation τ sig (Elt F) := Function.update (X14 m c) main_v93 (o5 m c)
/-- After the host stretch hostOps6. -/
def X16 (c : Dev nD) : Valuation τ sig (Elt F) := StableHlo.after hostOps6 (X15 m c)
/-- What region 6 leaves in its output array, from its entry contents. -/
def o6 (c : Dev nD) : Buf (Elt F) ((c : Thread nD τ).loc main_v100) := (dat6 (vt (X16 m)) c).arrAt 2 cfg6.N
/-- After region 6. -/
def X17 (c : Dev nD) : Valuation τ sig (Elt F) := Function.update (X16 m c) main_v100 (o6 m c)
/-- After the host stretch hostOps7. -/
def X18 (c : Dev nD) : Valuation τ sig (Elt F) := StableHlo.after hostOps7 (X17 m c)
/-- After the host stretch hostOps7_1. -/
def X19 (c : Dev nD) : Valuation τ sig (Elt F) := StableHlo.after hostOps7_1 (X18 m c)
/-- After the host stretch hostOps7_2. -/
def X20 (c : Dev nD) : Valuation τ sig (Elt F) := StableHlo.after hostOps7_2 (X19 m c)
/-- What region 7 leaves in its output array, from its entry contents. -/
def o7 (c : Dev nD) : Buf (Elt F) ((c : Thread nD τ).loc main_v137) := (dat7 (vt (X20 m)) c).arrAt 2 cfg7.N
/-- After region 7. -/
def X21 (c : Dev nD) : Valuation τ sig (Elt F) := Function.update (X20 m c) main_v137 (o7 m c)
/-- After the host stretch hostOps8. -/
def X22 (c : Dev nD) : Valuation τ sig (Elt F) := StableHlo.after hostOps8 (X21 m c)
/-- What region 8 leaves in its output array, from its entry contents. -/
def o8 (c : Dev nD) : Buf (Elt F) ((c : Thread nD τ).loc main_v143) := (dat8 (vt (X22 m)) c).arrAt 3 cfg8.N
/-- After region 8. -/
def X23 (c : Dev nD) : Valuation τ sig (Elt F) := Function.update (X22 m c) main_v143 (o8 m c)
/-- What region 9 leaves in its output array, from its entry contents. -/
def o9 (c : Dev nD) : Buf (Elt F) ((c : Thread nD τ).loc main_v144) := (dat9 (vt (X23 m)) c).arrAt 2 cfg9.N
/-- After region 9. -/
def X24 (c : Dev nD) : Valuation τ sig (Elt F) := Function.update (X23 m c) main_v144 (o9 m c)
/-- After the host stretch hostOps10. -/
def X25 (c : Dev nD) : Valuation τ sig (Elt F) := StableHlo.after hostOps10 (X24 m c)
/-- After the host stretch hostOps10_1. -/
def X26 (c : Dev nD) : Valuation τ sig (Elt F) := StableHlo.after hostOps10_1 (X25 m c)
/-- After the host stretch hostOps10_2. -/
def X27 (c : Dev nD) : Valuation τ sig (Elt F) := StableHlo.after hostOps10_2 (X26 m c)
/-- What region 10 leaves in its output array, from its entry contents. -/
def o10 (c : Dev nD) : Buf (Elt F) ((c : Thread nD τ).loc main_v181) := (dat10 (vt (X27 m)) c).arrAt 2 cfg10.N
/-- After region 10. -/
def X28 (c : Dev nD) : Valuation τ sig (Elt F) := Function.update (X27 m c) main_v181 (o10 m c)
/-- After the host stretch hostOps11. -/
def X29 (c : Dev nD) : Valuation τ sig (Elt F) := StableHlo.after hostOps11 (X28 m c)
/-- What region 11 leaves in its output array, from its entry contents. -/
def o11 (c : Dev nD) : Buf (Elt F) ((c : Thread nD τ).loc main_v187) := (dat11 (vt (X29 m)) c).arrAt 3 cfg11.N
/-- After region 11. -/
def X30 (c : Dev nD) : Valuation τ sig (Elt F) := Function.update (X29 m c) main_v187 (o11 m c)
/-- After the host stretch hostOps12. -/
def X31 (c : Dev nD) : Valuation τ sig (Elt F) := StableHlo.after hostOps12 (X30 m c)
/-- What region 12 leaves in its output array, from its entry contents. -/
def o12 (c : Dev nD) : Buf (Elt F) ((c : Thread nD τ).loc main_v194) := (dat12 (vt (X31 m)) c).arrAt 2 cfg12.N
/-- After region 12. -/
def X32 (c : Dev nD) : Valuation τ sig (Elt F) := Function.update (X31 m c) main_v194 (o12 m c)
/-- After the host stretch hostOps13. -/
def X33 (c : Dev nD) : Valuation τ sig (Elt F) := StableHlo.after hostOps13 (X32 m c)
/-- After the host stretch hostOps13_1. -/
def X34 (c : Dev nD) : Valuation τ sig (Elt F) := StableHlo.after hostOps13_1 (X33 m c)
/-- After the host stretch hostOps13_2. -/
def X35 (c : Dev nD) : Valuation τ sig (Elt F) := StableHlo.after hostOps13_2 (X34 m c)
/-- What region 13 leaves in its output array, from its entry contents. -/
def o13 (c : Dev nD) : Buf (Elt F) ((c : Thread nD τ).loc main_v231) := (dat13 (vt (X35 m)) c).arrAt 2 cfg13.N
/-- After region 13. -/
def X36 (c : Dev nD) : Valuation τ sig (Elt F) := Function.update (X35 m c) main_v231 (o13 m c)
/-- After the host stretch hostOps14. -/
def X37 (c : Dev nD) : Valuation τ sig (Elt F) := StableHlo.after hostOps14 (X36 m c)
/-- What region 14 leaves in its output array, from its entry contents. -/
def o14 (c : Dev nD) : Buf (Elt F) ((c : Thread nD τ).loc main_v237) := (dat14 (vt (X37 m)) c).arrAt 3 cfg14.N
/-- After region 14. -/
def X38 (c : Dev nD) : Valuation τ sig (Elt F) := Function.update (X37 m c) main_v237 (o14 m c)
/-- What region 15 leaves in its output array, from its entry contents. -/
def o15 (c : Dev nD) : Buf (Elt F) ((c : Thread nD τ).loc main_v238) := (dat15 (vt (X38 m)) c).arrAt 2 cfg15.N
/-- After region 15. -/
def X39 (c : Dev nD) : Valuation τ sig (Elt F) := Function.update (X38 m c) main_v238 (o15 m c)
/-- After the host stretch hostOps16. -/
def X40 (c : Dev nD) : Valuation τ sig (Elt F) := StableHlo.after hostOps16 (X39 m c)
/-- After the host stretch hostOps16_1. -/
def X41 (c : Dev nD) : Valuation τ sig (Elt F) := StableHlo.after hostOps16_1 (X40 m c)
/-- After the host stretch hostOps16_2. -/
def X42 (c : Dev nD) : Valuation τ sig (Elt F) := StableHlo.after hostOps16_2 (X41 m c)
/-- What region 16 leaves in its output array, from its entry contents. -/
def o16 (c : Dev nD) : Buf (Elt F) ((c : Thread nD τ).loc main_v275) := (dat16 (vt (X42 m)) c).arrAt 2 cfg16.N
/-- After region 16. -/
def X43 (c : Dev nD) : Valuation τ sig (Elt F) := Function.update (X42 m c) main_v275 (o16 m c)
/-- After the host stretch hostOps17. -/
def X44 (c : Dev nD) : Valuation τ sig (Elt F) := StableHlo.after hostOps17 (X43 m c)
/-- What region 17 leaves in its output array, from its entry contents. -/
def o17 (c : Dev nD) : Buf (Elt F) ((c : Thread nD τ).loc main_v281) := (dat17 (vt (X44 m)) c).arrAt 3 cfg17.N
/-- After region 17. -/
def X45 (c : Dev nD) : Valuation τ sig (Elt F) := Function.update (X44 m c) main_v281 (o17 m c)
/-- After the host stretch hostOps18. -/
def X46 (c : Dev nD) : Valuation τ sig (Elt F) := StableHlo.after hostOps18 (X45 m c)
/-- What region 18 leaves in its output array, from its entry contents. -/
def o18 (c : Dev nD) : Buf (Elt F) ((c : Thread nD τ).loc main_v288) := (dat18 (vt (X46 m)) c).arrAt 2 cfg18.N
/-- After region 18. -/
def X47 (c : Dev nD) : Valuation τ sig (Elt F) := Function.update (X46 m c) main_v288 (o18 m c)
/-- After the host stretch hostOps19. -/
def X48 (c : Dev nD) : Valuation τ sig (Elt F) := StableHlo.after hostOps19 (X47 m c)
/-- After the host stretch hostOps19_1. -/
def X49 (c : Dev nD) : Valuation τ sig (Elt F) := StableHlo.after hostOps19_1 (X48 m c)
/-- After the host stretch hostOps19_2. -/
def X50 (c : Dev nD) : Valuation τ sig (Elt F) := StableHlo.after hostOps19_2 (X49 m c)
/-- What region 19 leaves in its output array, from its entry contents. -/
def o19 (c : Dev nD) : Buf (Elt F) ((c : Thread nD τ).loc main_v325) := (dat19 (vt (X50 m)) c).arrAt 2 cfg19.N
/-- After region 19. -/
def X51 (c : Dev nD) : Valuation τ sig (Elt F) := Function.update (X50 m c) main_v325 (o19 m c)
/-- After the host stretch hostOps20. -/
def X52 (c : Dev nD) : Valuation τ sig (Elt F) := StableHlo.after hostOps20 (X51 m c)
/-- What region 20 leaves in its output array, from its entry contents. -/
def o20 (c : Dev nD) : Buf (Elt F) ((c : Thread nD τ).loc main_v331) := (dat20 (vt (X52 m)) c).arrAt 3 cfg20.N
/-- After region 20. -/
def X53 (c : Dev nD) : Valuation τ sig (Elt F) := Function.update (X52 m c) main_v331 (o20 m c)
/-- What region 21 leaves in its output array, from its entry contents. -/
def o21 (c : Dev nD) : Buf (Elt F) ((c : Thread nD τ).loc main_v332) := (dat21 (vt (X53 m)) c).arrAt 2 cfg21.N
/-- After region 21. -/
def X54 (c : Dev nD) : Valuation τ sig (Elt F) := Function.update (X53 m c) main_v332 (o21 m c)
/-- After the host stretch hostOps22. -/
def X55 (c : Dev nD) : Valuation τ sig (Elt F) := StableHlo.after hostOps22 (X54 m c)
/-- After the host stretch hostOps22_1. -/
def X56 (c : Dev nD) : Valuation τ sig (Elt F) := StableHlo.after hostOps22_1 (X55 m c)
/-- After the host stretch hostOps22_2. -/
def X57 (c : Dev nD) : Valuation τ sig (Elt F) := StableHlo.after hostOps22_2 (X56 m c)
/-- What region 22 leaves in its output array, from its entry contents. -/
def o22 (c : Dev nD) : Buf (Elt F) ((c : Thread nD τ).loc main_v369) := (dat22 (vt (X57 m)) c).arrAt 2 cfg22.N
/-- After region 22. -/
def X58 (c : Dev nD) : Valuation τ sig (Elt F) := Function.update (X57 m c) main_v369 (o22 m c)
/-- After the host stretch hostOps23. -/
def X59 (c : Dev nD) : Valuation τ sig (Elt F) := StableHlo.after hostOps23 (X58 m c)
/-- What region 23 leaves in its output array, from its entry contents. -/
def o23 (c : Dev nD) : Buf (Elt F) ((c : Thread nD τ).loc main_v375) := (dat23 (vt (X59 m)) c).arrAt 3 cfg23.N
/-- After region 23. -/
def X60 (c : Dev nD) : Valuation τ sig (Elt F) := Function.update (X59 m c) main_v375 (o23 m c)
/-- After the host stretch hostOps24. -/
def X61 (c : Dev nD) : Valuation τ sig (Elt F) := StableHlo.after hostOps24 (X60 m c)

/-- The contents the regions leave, as one function of the item and the reference. -/
def outsX : Outs (F := F) := fun J r c => match J with
  | 2 => X2 m c r
  | 6 => X6 m c r
  | 8 => X8 m c r
  | 9 => X9 m c r
  | 13 => X13 m c r
  | 15 => X15 m c r
  | 17 => X17 m c r
  | 21 => X21 m c r
  | 23 => X23 m c r
  | 24 => X24 m c r
  | 28 => X28 m c r
  | 30 => X30 m c r
  | 32 => X32 m c r
  | 36 => X36 m c r
  | 38 => X38 m c r
  | 39 => X39 m c r
  | 43 => X43 m c r
  | 45 => X45 m c r
  | 47 => X47 m c r
  | 51 => X51 m c r
  | 53 => X53 m c r
  | 54 => X54 m c r
  | 58 => X58 m c r
  | 60 => X60 m c r
  | _ => X1 m c r

theorem VX_1 (c : Dev nD) : V1 m c = X1 m c := rfl
theorem VX_2 (c : Dev nD) : V2 m (outsX m) c = X2 m c := by
  show Function.update (V1 m c) main_v6 (X2 m c main_v6) = X2 m c
  rw [VX_1]; unfold X2; rw [Function.update_self]
theorem VX_3 (c : Dev nD) : V3 m (outsX m) c = X3 m c := by
  show StableHlo.after hostOps1 (V2 m (outsX m) c) = X3 m c
  rw [VX_2]; rfl
theorem VX_4 (c : Dev nD) : V4 m (outsX m) c = X4 m c := by
  show StableHlo.after hostOps1_1 (V3 m (outsX m) c) = X4 m c
  rw [VX_3]; rfl
theorem VX_5 (c : Dev nD) : V5 m (outsX m) c = X5 m c := by
  show StableHlo.after hostOps1_2 (V4 m (outsX m) c) = X5 m c
  rw [VX_4]; rfl
theorem VX_6 (c : Dev nD) : V6 m (outsX m) c = X6 m c := by
  show Function.update (V5 m (outsX m) c) main_v43 (X6 m c main_v43) = X6 m c
  rw [VX_5]; unfold X6; rw [Function.update_self]
theorem VX_7 (c : Dev nD) : V7 m (outsX m) c = X7 m c := by
  show StableHlo.after hostOps2 (V6 m (outsX m) c) = X7 m c
  rw [VX_6]; rfl
theorem VX_8 (c : Dev nD) : V8 m (outsX m) c = X8 m c := by
  show Function.update (V7 m (outsX m) c) main_v49 (X8 m c main_v49) = X8 m c
  rw [VX_7]; unfold X8; rw [Function.update_self]
theorem VX_9 (c : Dev nD) : V9 m (outsX m) c = X9 m c := by
  show Function.update (V8 m (outsX m) c) main_v50 (X9 m c main_v50) = X9 m c
  rw [VX_8]; unfold X9; rw [Function.update_self]
theorem VX_10 (c : Dev nD) : V10 m (outsX m) c = X10 m c := by
  show StableHlo.after hostOps4 (V9 m (outsX m) c) = X10 m c
  rw [VX_9]; rfl
theorem VX_11 (c : Dev nD) : V11 m (outsX m) c = X11 m c := by
  show StableHlo.after hostOps4_1 (V10 m (outsX m) c) = X11 m c
  rw [VX_10]; rfl
theorem VX_12 (c : Dev nD) : V12 m (outsX m) c = X12 m c := by
  show StableHlo.after hostOps4_2 (V11 m (outsX m) c) = X12 m c
  rw [VX_11]; rfl
theorem VX_13 (c : Dev nD) : V13 m (outsX m) c = X13 m c := by
  show Function.update (V12 m (outsX m) c) main_v87 (X13 m c main_v87) = X13 m c
  rw [VX_12]; unfold X13; rw [Function.update_self]
theorem VX_14 (c : Dev nD) : V14 m (outsX m) c = X14 m c := by
  show StableHlo.after hostOps5 (V13 m (outsX m) c) = X14 m c
  rw [VX_13]; rfl
theorem VX_15 (c : Dev nD) : V15 m (outsX m) c = X15 m c := by
  show Function.update (V14 m (outsX m) c) main_v93 (X15 m c main_v93) = X15 m c
  rw [VX_14]; unfold X15; rw [Function.update_self]
theorem VX_16 (c : Dev nD) : V16 m (outsX m) c = X16 m c := by
  show StableHlo.after hostOps6 (V15 m (outsX m) c) = X16 m c
  rw [VX_15]; rfl
theorem VX_17 (c : Dev nD) : V17 m (outsX m) c = X17 m c := by
  show Function.update (V16 m (outsX m) c) main_v100 (X17 m c main_v100) = X17 m c
  rw [VX_16]; unfold X17; rw [Function.update_self]
theorem VX_18 (c : Dev nD) : V18 m (outsX m) c = X18 m c := by
  show StableHlo.after hostOps7 (V17 m (outsX m) c) = X18 m c
  rw [VX_17]; rfl
theorem VX_19 (c : Dev nD) : V19 m (outsX m) c = X19 m c := by
  show StableHlo.after hostOps7_1 (V18 m (outsX m) c) = X19 m c
  rw [VX_18]; rfl
theorem VX_20 (c : Dev nD) : V20 m (outsX m) c = X20 m c := by
  show StableHlo.after hostOps7_2 (V19 m (outsX m) c) = X20 m c
  rw [VX_19]; rfl
theorem VX_21 (c : Dev nD) : V21 m (outsX m) c = X21 m c := by
  show Function.update (V20 m (outsX m) c) main_v137 (X21 m c main_v137) = X21 m c
  rw [VX_20]; unfold X21; rw [Function.update_self]
theorem VX_22 (c : Dev nD) : V22 m (outsX m) c = X22 m c := by
  show StableHlo.after hostOps8 (V21 m (outsX m) c) = X22 m c
  rw [VX_21]; rfl
theorem VX_23 (c : Dev nD) : V23 m (outsX m) c = X23 m c := by
  show Function.update (V22 m (outsX m) c) main_v143 (X23 m c main_v143) = X23 m c
  rw [VX_22]; unfold X23; rw [Function.update_self]
theorem VX_24 (c : Dev nD) : V24 m (outsX m) c = X24 m c := by
  show Function.update (V23 m (outsX m) c) main_v144 (X24 m c main_v144) = X24 m c
  rw [VX_23]; unfold X24; rw [Function.update_self]
theorem VX_25 (c : Dev nD) : V25 m (outsX m) c = X25 m c := by
  show StableHlo.after hostOps10 (V24 m (outsX m) c) = X25 m c
  rw [VX_24]; rfl
theorem VX_26 (c : Dev nD) : V26 m (outsX m) c = X26 m c := by
  show StableHlo.after hostOps10_1 (V25 m (outsX m) c) = X26 m c
  rw [VX_25]; rfl
theorem VX_27 (c : Dev nD) : V27 m (outsX m) c = X27 m c := by
  show StableHlo.after hostOps10_2 (V26 m (outsX m) c) = X27 m c
  rw [VX_26]; rfl
theorem VX_28 (c : Dev nD) : V28 m (outsX m) c = X28 m c := by
  show Function.update (V27 m (outsX m) c) main_v181 (X28 m c main_v181) = X28 m c
  rw [VX_27]; unfold X28; rw [Function.update_self]
theorem VX_29 (c : Dev nD) : V29 m (outsX m) c = X29 m c := by
  show StableHlo.after hostOps11 (V28 m (outsX m) c) = X29 m c
  rw [VX_28]; rfl
theorem VX_30 (c : Dev nD) : V30 m (outsX m) c = X30 m c := by
  show Function.update (V29 m (outsX m) c) main_v187 (X30 m c main_v187) = X30 m c
  rw [VX_29]; unfold X30; rw [Function.update_self]
theorem VX_31 (c : Dev nD) : V31 m (outsX m) c = X31 m c := by
  show StableHlo.after hostOps12 (V30 m (outsX m) c) = X31 m c
  rw [VX_30]; rfl
theorem VX_32 (c : Dev nD) : V32 m (outsX m) c = X32 m c := by
  show Function.update (V31 m (outsX m) c) main_v194 (X32 m c main_v194) = X32 m c
  rw [VX_31]; unfold X32; rw [Function.update_self]
theorem VX_33 (c : Dev nD) : V33 m (outsX m) c = X33 m c := by
  show StableHlo.after hostOps13 (V32 m (outsX m) c) = X33 m c
  rw [VX_32]; rfl
theorem VX_34 (c : Dev nD) : V34 m (outsX m) c = X34 m c := by
  show StableHlo.after hostOps13_1 (V33 m (outsX m) c) = X34 m c
  rw [VX_33]; rfl
theorem VX_35 (c : Dev nD) : V35 m (outsX m) c = X35 m c := by
  show StableHlo.after hostOps13_2 (V34 m (outsX m) c) = X35 m c
  rw [VX_34]; rfl
theorem VX_36 (c : Dev nD) : V36 m (outsX m) c = X36 m c := by
  show Function.update (V35 m (outsX m) c) main_v231 (X36 m c main_v231) = X36 m c
  rw [VX_35]; unfold X36; rw [Function.update_self]
theorem VX_37 (c : Dev nD) : V37 m (outsX m) c = X37 m c := by
  show StableHlo.after hostOps14 (V36 m (outsX m) c) = X37 m c
  rw [VX_36]; rfl
theorem VX_38 (c : Dev nD) : V38 m (outsX m) c = X38 m c := by
  show Function.update (V37 m (outsX m) c) main_v237 (X38 m c main_v237) = X38 m c
  rw [VX_37]; unfold X38; rw [Function.update_self]
theorem VX_39 (c : Dev nD) : V39 m (outsX m) c = X39 m c := by
  show Function.update (V38 m (outsX m) c) main_v238 (X39 m c main_v238) = X39 m c
  rw [VX_38]; unfold X39; rw [Function.update_self]
theorem VX_40 (c : Dev nD) : V40 m (outsX m) c = X40 m c := by
  show StableHlo.after hostOps16 (V39 m (outsX m) c) = X40 m c
  rw [VX_39]; rfl
theorem VX_41 (c : Dev nD) : V41 m (outsX m) c = X41 m c := by
  show StableHlo.after hostOps16_1 (V40 m (outsX m) c) = X41 m c
  rw [VX_40]; rfl
theorem VX_42 (c : Dev nD) : V42 m (outsX m) c = X42 m c := by
  show StableHlo.after hostOps16_2 (V41 m (outsX m) c) = X42 m c
  rw [VX_41]; rfl
theorem VX_43 (c : Dev nD) : V43 m (outsX m) c = X43 m c := by
  show Function.update (V42 m (outsX m) c) main_v275 (X43 m c main_v275) = X43 m c
  rw [VX_42]; unfold X43; rw [Function.update_self]
theorem VX_44 (c : Dev nD) : V44 m (outsX m) c = X44 m c := by
  show StableHlo.after hostOps17 (V43 m (outsX m) c) = X44 m c
  rw [VX_43]; rfl
theorem VX_45 (c : Dev nD) : V45 m (outsX m) c = X45 m c := by
  show Function.update (V44 m (outsX m) c) main_v281 (X45 m c main_v281) = X45 m c
  rw [VX_44]; unfold X45; rw [Function.update_self]
theorem VX_46 (c : Dev nD) : V46 m (outsX m) c = X46 m c := by
  show StableHlo.after hostOps18 (V45 m (outsX m) c) = X46 m c
  rw [VX_45]; rfl
theorem VX_47 (c : Dev nD) : V47 m (outsX m) c = X47 m c := by
  show Function.update (V46 m (outsX m) c) main_v288 (X47 m c main_v288) = X47 m c
  rw [VX_46]; unfold X47; rw [Function.update_self]
theorem VX_48 (c : Dev nD) : V48 m (outsX m) c = X48 m c := by
  show StableHlo.after hostOps19 (V47 m (outsX m) c) = X48 m c
  rw [VX_47]; rfl
theorem VX_49 (c : Dev nD) : V49 m (outsX m) c = X49 m c := by
  show StableHlo.after hostOps19_1 (V48 m (outsX m) c) = X49 m c
  rw [VX_48]; rfl
theorem VX_50 (c : Dev nD) : V50 m (outsX m) c = X50 m c := by
  show StableHlo.after hostOps19_2 (V49 m (outsX m) c) = X50 m c
  rw [VX_49]; rfl
theorem VX_51 (c : Dev nD) : V51 m (outsX m) c = X51 m c := by
  show Function.update (V50 m (outsX m) c) main_v325 (X51 m c main_v325) = X51 m c
  rw [VX_50]; unfold X51; rw [Function.update_self]
theorem VX_52 (c : Dev nD) : V52 m (outsX m) c = X52 m c := by
  show StableHlo.after hostOps20 (V51 m (outsX m) c) = X52 m c
  rw [VX_51]; rfl
theorem VX_53 (c : Dev nD) : V53 m (outsX m) c = X53 m c := by
  show Function.update (V52 m (outsX m) c) main_v331 (X53 m c main_v331) = X53 m c
  rw [VX_52]; unfold X53; rw [Function.update_self]
theorem VX_54 (c : Dev nD) : V54 m (outsX m) c = X54 m c := by
  show Function.update (V53 m (outsX m) c) main_v332 (X54 m c main_v332) = X54 m c
  rw [VX_53]; unfold X54; rw [Function.update_self]
theorem VX_55 (c : Dev nD) : V55 m (outsX m) c = X55 m c := by
  show StableHlo.after hostOps22 (V54 m (outsX m) c) = X55 m c
  rw [VX_54]; rfl
theorem VX_56 (c : Dev nD) : V56 m (outsX m) c = X56 m c := by
  show StableHlo.after hostOps22_1 (V55 m (outsX m) c) = X56 m c
  rw [VX_55]; rfl
theorem VX_57 (c : Dev nD) : V57 m (outsX m) c = X57 m c := by
  show StableHlo.after hostOps22_2 (V56 m (outsX m) c) = X57 m c
  rw [VX_56]; rfl
theorem VX_58 (c : Dev nD) : V58 m (outsX m) c = X58 m c := by
  show Function.update (V57 m (outsX m) c) main_v369 (X58 m c main_v369) = X58 m c
  rw [VX_57]; unfold X58; rw [Function.update_self]
theorem VX_59 (c : Dev nD) : V59 m (outsX m) c = X59 m c := by
  show StableHlo.after hostOps23 (V58 m (outsX m) c) = X59 m c
  rw [VX_58]; rfl
theorem VX_60 (c : Dev nD) : V60 m (outsX m) c = X60 m c := by
  show Function.update (V59 m (outsX m) c) main_v375 (X60 m c main_v375) = X60 m c
  rw [VX_59]; unfold X60; rw [Function.update_self]
theorem VX_61 (c : Dev nD) : V61 m (outsX m) c = X61 m c := by
  show StableHlo.after hostOps24 (V60 m (outsX m) c) = X61 m c
  rw [VX_60]; rfl

/-- What region K's output array holds in outsX is what its pipeline leaves from the region's entry contents. -/
theorem hout0 (c : Dev nD) : outsX m 2 main_v6 c = (dat0 (vt (V1 m)) c).arrAt 2 cfg0.N := by
  show X2 m c main_v6 = _
  unfold X2; rw [Function.update_self]; unfold o0
  rw [show (vt (V1 m) : (c : Dev nD) → (b : Ref sig .tc) → Buf (Elt F) ((c : Thread nD τ).loc b)) = vt (X1 m) from funext fun c => funext fun b => by show V1 m c b = X1 m c b; rw [VX_1]]
theorem hout1 (c : Dev nD) : outsX m 6 main_v43 c = (dat1 (vt (V5 m (outsX m))) c).arrAt 2 cfg1.N := by
  show X6 m c main_v43 = _
  unfold X6; rw [Function.update_self]; unfold o1
  rw [show (vt (V5 m (outsX m)) : (c : Dev nD) → (b : Ref sig .tc) → Buf (Elt F) ((c : Thread nD τ).loc b)) = vt (X5 m) from funext fun c => funext fun b => by show V5 m (outsX m) c b = X5 m c b; rw [VX_5]]
theorem hout2 (c : Dev nD) : outsX m 8 main_v49 c = (dat2 (vt (V7 m (outsX m))) c).arrAt 3 cfg2.N := by
  show X8 m c main_v49 = _
  unfold X8; rw [Function.update_self]; unfold o2
  rw [show (vt (V7 m (outsX m)) : (c : Dev nD) → (b : Ref sig .tc) → Buf (Elt F) ((c : Thread nD τ).loc b)) = vt (X7 m) from funext fun c => funext fun b => by show V7 m (outsX m) c b = X7 m c b; rw [VX_7]]
theorem hout3 (c : Dev nD) : outsX m 9 main_v50 c = (dat3 (vt (V8 m (outsX m))) c).arrAt 2 cfg3.N := by
  show X9 m c main_v50 = _
  unfold X9; rw [Function.update_self]; unfold o3
  rw [show (vt (V8 m (outsX m)) : (c : Dev nD) → (b : Ref sig .tc) → Buf (Elt F) ((c : Thread nD τ).loc b)) = vt (X8 m) from funext fun c => funext fun b => by show V8 m (outsX m) c b = X8 m c b; rw [VX_8]]
theorem hout4 (c : Dev nD) : outsX m 13 main_v87 c = (dat4 (vt (V12 m (outsX m))) c).arrAt 2 cfg4.N := by
  show X13 m c main_v87 = _
  unfold X13; rw [Function.update_self]; unfold o4
  rw [show (vt (V12 m (outsX m)) : (c : Dev nD) → (b : Ref sig .tc) → Buf (Elt F) ((c : Thread nD τ).loc b)) = vt (X12 m) from funext fun c => funext fun b => by show V12 m (outsX m) c b = X12 m c b; rw [VX_12]]
theorem hout5 (c : Dev nD) : outsX m 15 main_v93 c = (dat5 (vt (V14 m (outsX m))) c).arrAt 3 cfg5.N := by
  show X15 m c main_v93 = _
  unfold X15; rw [Function.update_self]; unfold o5
  rw [show (vt (V14 m (outsX m)) : (c : Dev nD) → (b : Ref sig .tc) → Buf (Elt F) ((c : Thread nD τ).loc b)) = vt (X14 m) from funext fun c => funext fun b => by show V14 m (outsX m) c b = X14 m c b; rw [VX_14]]
theorem hout6 (c : Dev nD) : outsX m 17 main_v100 c = (dat6 (vt (V16 m (outsX m))) c).arrAt 2 cfg6.N := by
  show X17 m c main_v100 = _
  unfold X17; rw [Function.update_self]; unfold o6
  rw [show (vt (V16 m (outsX m)) : (c : Dev nD) → (b : Ref sig .tc) → Buf (Elt F) ((c : Thread nD τ).loc b)) = vt (X16 m) from funext fun c => funext fun b => by show V16 m (outsX m) c b = X16 m c b; rw [VX_16]]
theorem hout7 (c : Dev nD) : outsX m 21 main_v137 c = (dat7 (vt (V20 m (outsX m))) c).arrAt 2 cfg7.N := by
  show X21 m c main_v137 = _
  unfold X21; rw [Function.update_self]; unfold o7
  rw [show (vt (V20 m (outsX m)) : (c : Dev nD) → (b : Ref sig .tc) → Buf (Elt F) ((c : Thread nD τ).loc b)) = vt (X20 m) from funext fun c => funext fun b => by show V20 m (outsX m) c b = X20 m c b; rw [VX_20]]
theorem hout8 (c : Dev nD) : outsX m 23 main_v143 c = (dat8 (vt (V22 m (outsX m))) c).arrAt 3 cfg8.N := by
  show X23 m c main_v143 = _
  unfold X23; rw [Function.update_self]; unfold o8
  rw [show (vt (V22 m (outsX m)) : (c : Dev nD) → (b : Ref sig .tc) → Buf (Elt F) ((c : Thread nD τ).loc b)) = vt (X22 m) from funext fun c => funext fun b => by show V22 m (outsX m) c b = X22 m c b; rw [VX_22]]
theorem hout9 (c : Dev nD) : outsX m 24 main_v144 c = (dat9 (vt (V23 m (outsX m))) c).arrAt 2 cfg9.N := by
  show X24 m c main_v144 = _
  unfold X24; rw [Function.update_self]; unfold o9
  rw [show (vt (V23 m (outsX m)) : (c : Dev nD) → (b : Ref sig .tc) → Buf (Elt F) ((c : Thread nD τ).loc b)) = vt (X23 m) from funext fun c => funext fun b => by show V23 m (outsX m) c b = X23 m c b; rw [VX_23]]
theorem hout10 (c : Dev nD) : outsX m 28 main_v181 c = (dat10 (vt (V27 m (outsX m))) c).arrAt 2 cfg10.N := by
  show X28 m c main_v181 = _
  unfold X28; rw [Function.update_self]; unfold o10
  rw [show (vt (V27 m (outsX m)) : (c : Dev nD) → (b : Ref sig .tc) → Buf (Elt F) ((c : Thread nD τ).loc b)) = vt (X27 m) from funext fun c => funext fun b => by show V27 m (outsX m) c b = X27 m c b; rw [VX_27]]
theorem hout11 (c : Dev nD) : outsX m 30 main_v187 c = (dat11 (vt (V29 m (outsX m))) c).arrAt 3 cfg11.N := by
  show X30 m c main_v187 = _
  unfold X30; rw [Function.update_self]; unfold o11
  rw [show (vt (V29 m (outsX m)) : (c : Dev nD) → (b : Ref sig .tc) → Buf (Elt F) ((c : Thread nD τ).loc b)) = vt (X29 m) from funext fun c => funext fun b => by show V29 m (outsX m) c b = X29 m c b; rw [VX_29]]
theorem hout12 (c : Dev nD) : outsX m 32 main_v194 c = (dat12 (vt (V31 m (outsX m))) c).arrAt 2 cfg12.N := by
  show X32 m c main_v194 = _
  unfold X32; rw [Function.update_self]; unfold o12
  rw [show (vt (V31 m (outsX m)) : (c : Dev nD) → (b : Ref sig .tc) → Buf (Elt F) ((c : Thread nD τ).loc b)) = vt (X31 m) from funext fun c => funext fun b => by show V31 m (outsX m) c b = X31 m c b; rw [VX_31]]
theorem hout13 (c : Dev nD) : outsX m 36 main_v231 c = (dat13 (vt (V35 m (outsX m))) c).arrAt 2 cfg13.N := by
  show X36 m c main_v231 = _
  unfold X36; rw [Function.update_self]; unfold o13
  rw [show (vt (V35 m (outsX m)) : (c : Dev nD) → (b : Ref sig .tc) → Buf (Elt F) ((c : Thread nD τ).loc b)) = vt (X35 m) from funext fun c => funext fun b => by show V35 m (outsX m) c b = X35 m c b; rw [VX_35]]
theorem hout14 (c : Dev nD) : outsX m 38 main_v237 c = (dat14 (vt (V37 m (outsX m))) c).arrAt 3 cfg14.N := by
  show X38 m c main_v237 = _
  unfold X38; rw [Function.update_self]; unfold o14
  rw [show (vt (V37 m (outsX m)) : (c : Dev nD) → (b : Ref sig .tc) → Buf (Elt F) ((c : Thread nD τ).loc b)) = vt (X37 m) from funext fun c => funext fun b => by show V37 m (outsX m) c b = X37 m c b; rw [VX_37]]
theorem hout15 (c : Dev nD) : outsX m 39 main_v238 c = (dat15 (vt (V38 m (outsX m))) c).arrAt 2 cfg15.N := by
  show X39 m c main_v238 = _
  unfold X39; rw [Function.update_self]; unfold o15
  rw [show (vt (V38 m (outsX m)) : (c : Dev nD) → (b : Ref sig .tc) → Buf (Elt F) ((c : Thread nD τ).loc b)) = vt (X38 m) from funext fun c => funext fun b => by show V38 m (outsX m) c b = X38 m c b; rw [VX_38]]
theorem hout16 (c : Dev nD) : outsX m 43 main_v275 c = (dat16 (vt (V42 m (outsX m))) c).arrAt 2 cfg16.N := by
  show X43 m c main_v275 = _
  unfold X43; rw [Function.update_self]; unfold o16
  rw [show (vt (V42 m (outsX m)) : (c : Dev nD) → (b : Ref sig .tc) → Buf (Elt F) ((c : Thread nD τ).loc b)) = vt (X42 m) from funext fun c => funext fun b => by show V42 m (outsX m) c b = X42 m c b; rw [VX_42]]
theorem hout17 (c : Dev nD) : outsX m 45 main_v281 c = (dat17 (vt (V44 m (outsX m))) c).arrAt 3 cfg17.N := by
  show X45 m c main_v281 = _
  unfold X45; rw [Function.update_self]; unfold o17
  rw [show (vt (V44 m (outsX m)) : (c : Dev nD) → (b : Ref sig .tc) → Buf (Elt F) ((c : Thread nD τ).loc b)) = vt (X44 m) from funext fun c => funext fun b => by show V44 m (outsX m) c b = X44 m c b; rw [VX_44]]
theorem hout18 (c : Dev nD) : outsX m 47 main_v288 c = (dat18 (vt (V46 m (outsX m))) c).arrAt 2 cfg18.N := by
  show X47 m c main_v288 = _
  unfold X47; rw [Function.update_self]; unfold o18
  rw [show (vt (V46 m (outsX m)) : (c : Dev nD) → (b : Ref sig .tc) → Buf (Elt F) ((c : Thread nD τ).loc b)) = vt (X46 m) from funext fun c => funext fun b => by show V46 m (outsX m) c b = X46 m c b; rw [VX_46]]
theorem hout19 (c : Dev nD) : outsX m 51 main_v325 c = (dat19 (vt (V50 m (outsX m))) c).arrAt 2 cfg19.N := by
  show X51 m c main_v325 = _
  unfold X51; rw [Function.update_self]; unfold o19
  rw [show (vt (V50 m (outsX m)) : (c : Dev nD) → (b : Ref sig .tc) → Buf (Elt F) ((c : Thread nD τ).loc b)) = vt (X50 m) from funext fun c => funext fun b => by show V50 m (outsX m) c b = X50 m c b; rw [VX_50]]
theorem hout20 (c : Dev nD) : outsX m 53 main_v331 c = (dat20 (vt (V52 m (outsX m))) c).arrAt 3 cfg20.N := by
  show X53 m c main_v331 = _
  unfold X53; rw [Function.update_self]; unfold o20
  rw [show (vt (V52 m (outsX m)) : (c : Dev nD) → (b : Ref sig .tc) → Buf (Elt F) ((c : Thread nD τ).loc b)) = vt (X52 m) from funext fun c => funext fun b => by show V52 m (outsX m) c b = X52 m c b; rw [VX_52]]
theorem hout21 (c : Dev nD) : outsX m 54 main_v332 c = (dat21 (vt (V53 m (outsX m))) c).arrAt 2 cfg21.N := by
  show X54 m c main_v332 = _
  unfold X54; rw [Function.update_self]; unfold o21
  rw [show (vt (V53 m (outsX m)) : (c : Dev nD) → (b : Ref sig .tc) → Buf (Elt F) ((c : Thread nD τ).loc b)) = vt (X53 m) from funext fun c => funext fun b => by show V53 m (outsX m) c b = X53 m c b; rw [VX_53]]
theorem hout22 (c : Dev nD) : outsX m 58 main_v369 c = (dat22 (vt (V57 m (outsX m))) c).arrAt 2 cfg22.N := by
  show X58 m c main_v369 = _
  unfold X58; rw [Function.update_self]; unfold o22
  rw [show (vt (V57 m (outsX m)) : (c : Dev nD) → (b : Ref sig .tc) → Buf (Elt F) ((c : Thread nD τ).loc b)) = vt (X57 m) from funext fun c => funext fun b => by show V57 m (outsX m) c b = X57 m c b; rw [VX_57]]
theorem hout23 (c : Dev nD) : outsX m 60 main_v375 c = (dat23 (vt (V59 m (outsX m))) c).arrAt 3 cfg23.N := by
  show X60 m c main_v375 = _
  unfold X60; rw [Function.update_self]; unfold o23
  rw [show (vt (V59 m (outsX m)) : (c : Dev nD) → (b : Ref sig .tc) → Buf (Elt F) ((c : Thread nD τ).loc b)) = vt (X59 m) from funext fun c => funext fun b => by show V59 m (outsX m) c b = X59 m c b; rw [VX_59]]

end Cert.KernelIdeal.Rg

end
-- ==== Proof.KI.Rest.lean ====
/- The two facts the run of @main starts from, said once for the frame and for the run with its result named. -/
import proofs.«160853_j19842748908317_1_alg».proof.Proof.KI.PData

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

end Cert.KernelIdeal.Rg

end
-- ==== Proof.KI.Seg0.lean ====
/- Region 0 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg0 (hout : ∀ c, outs 2 main_v6 c = (dat0 (vt (V1 m)) c).arrAt 2 cfg0.N) :
    Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (vt (V1 m)) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c (vt (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (vt (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hF : ∀ w : Fin cfg0.W, (pdats m outs 0 c).arrAt w cfg0.N = vt (V2 m outs) c (Pipeline.arrRef spec0 w) := fun w => match w with
      | ⟨0, _⟩ => by
          show (pdats m outs 0 c).arrAt 0 cfg0.N = V2 m outs c (Pipeline.arrRef spec0 0)
          rw [V2_of m outs c (Pipeline.arrRef spec0 0) (by decide)]
          exact (pdats m outs 0 c).arrAt_in 0 rfl _
      | ⟨1, _⟩ => by
          show (pdats m outs 0 c).arrAt 1 cfg0.N = V2 m outs c (Pipeline.arrRef spec0 1)
          rw [V2_of m outs c (Pipeline.arrRef spec0 1) (by decide)]
          exact (pdats m outs 0 c).arrAt_in 1 rfl _
      | ⟨2, _⟩ => (hout c).symm.trans (by
          show outs 2 main_v6 c = Function.update (V1 m c) main_v6 (outs 2 main_v6 c) main_v6
          rw [Function.update_self])
    have hrest : ∀ b, b ∉ Finset.univ.image (Pipeline.arrRef spec0) → vt (V2 m outs) c b = vt (V1 m) c b := fun b hb =>
      V2_of m outs c b fun h => hb (by
        rw [List.mem_singleton.mp h]; exact Finset.mem_image.mpr ⟨2, Finset.mem_univ _, rfl⟩)
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (vt (V1 m) c) (vt (V2 m outs) c) ((pdats m outs 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg1.lean ====
/- Region 1 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg1 (hout : ∀ c, outs 6 main_v43 c = (dat1 (vt (V5 m outs)) c).arrAt 2 cfg1.N) :
    Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (vt (V5 m outs)) c).loose
  hwaits := Pipeline.hwaits_of_owed_zero _ _ _ _ L lv 1 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec1 c (vt (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (vt (V5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hF : ∀ w : Fin cfg1.W, (pdats m outs 1 c).arrAt w cfg1.N = vt (V6 m outs) c (Pipeline.arrRef spec1 w) := fun w => match w with
      | ⟨0, _⟩ => by
          show (pdats m outs 1 c).arrAt 0 cfg1.N = V6 m outs c (Pipeline.arrRef spec1 0)
          rw [V6_of m outs c (Pipeline.arrRef spec1 0) (by decide)]
          exact (pdats m outs 1 c).arrAt_in 0 rfl _
      | ⟨1, _⟩ => by
          show (pdats m outs 1 c).arrAt 1 cfg1.N = V6 m outs c (Pipeline.arrRef spec1 1)
          rw [V6_of m outs c (Pipeline.arrRef spec1 1) (by decide)]
          exact (pdats m outs 1 c).arrAt_in 1 rfl _
      | ⟨2, _⟩ => (hout c).symm.trans (by
          show outs 6 main_v43 c = Function.update (V5 m outs c) main_v43 (outs 6 main_v43 c) main_v43
          rw [Function.update_self])
    have hrest : ∀ b, b ∉ Finset.univ.image (Pipeline.arrRef spec1) → vt (V6 m outs) c b = vt (V5 m outs) c b := fun b hb =>
      V6_of m outs c b fun h => hb (by
        rw [List.mem_singleton.mp h]; exact Finset.mem_image.mpr ⟨2, Finset.mem_univ _, rfl⟩)
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (vt (V5 m outs) c) (vt (V6 m outs) c) ((pdats m outs 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg2.lean ====
/- Region 2 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg2 (hout : ∀ c, outs 8 main_v49 c = (dat2 (vt (V7 m outs)) c).arrAt 3 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (vt (V7 m outs)) c).loose
  hwaits := Pipeline.hwaits_of_owed_zero _ _ _ _ L lv 2 fun _ _ => rfl
  pre c := iprop(StableHlo.held (c : Thread nD τ) (Pipeline.ucRefs τ sig) (V7 m outs c) ∗ Rr c)
  post c := iprop(StableHlo.held (c : Thread nD τ) (Pipeline.ucRefs τ sig) (V8 m outs c) ∗ Rr c)
  X c := iprop(∃ r, prngReg c r)
  Y c := iprop(∃ r, prngReg c r)
  Z c := Pipeline.unscopedRest (Ix := Unit) (Name := ℕ) (U := UR sig nD τ) (Lvl := ℕ) spec2 c (vt (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (vt (V7 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hF : ∀ w : Fin cfg2.W, (pdats m outs 2 c).arrAt w cfg2.N = vt (V8 m outs) c (Pipeline.arrRef spec2 w) := fun w => match w with
      | ⟨0, _⟩ => by
          show (pdats m outs 2 c).arrAt 0 cfg2.N = V8 m outs c (Pipeline.arrRef spec2 0)
          rw [V8_of m outs c (Pipeline.arrRef spec2 0) (by decide)]
          exact (pdats m outs 2 c).arrAt_in 0 rfl _
      | ⟨1, _⟩ => by
          show (pdats m outs 2 c).arrAt 1 cfg2.N = V8 m outs c (Pipeline.arrRef spec2 1)
          rw [V8_of m outs c (Pipeline.arrRef spec2 1) (by decide)]
          exact (pdats m outs 2 c).arrAt_in 1 rfl _
      | ⟨2, _⟩ => by
          show (pdats m outs 2 c).arrAt 2 cfg2.N = V8 m outs c (Pipeline.arrRef spec2 2)
          rw [V8_of m outs c (Pipeline.arrRef spec2 2) (by decide)]
          exact (pdats m outs 2 c).arrAt_in 2 rfl _
      | ⟨3, _⟩ => (hout c).symm.trans (by
          show outs 8 main_v49 c = Function.update (V7 m outs c) main_v49 (outs 8 main_v49 c) main_v49
          rw [Function.update_self])
    have hrest : ∀ b, b ∉ Finset.univ.image (Pipeline.arrRef spec2) → vt (V8 m outs) c b = vt (V7 m outs) c b := fun b hb =>
      V8_of m outs c b fun h => hb (by
        rw [List.mem_singleton.mp h]; exact Finset.mem_image.mpr ⟨3, Finset.mem_univ _, rfl⟩)
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (vt (V7 m outs) c) (vt (V8 m outs) c) ((pdats m outs 2 c).arrAt · cfg2.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg3.lean ====
/- Region 3 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg3 (hout : ∀ c, outs 9 main_v50 c = (dat3 (vt (V8 m outs)) c).arrAt 2 cfg3.N) :
    Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (vt (V8 m outs)) c).loose
  hwaits := Pipeline.hwaits_of_owed_zero _ _ _ _ L lv 3 fun _ _ => rfl
  pre c := iprop(StableHlo.held (c : Thread nD τ) (Pipeline.ucRefs τ sig) (V8 m outs c) ∗ Rr c)
  post c := iprop(StableHlo.held (c : Thread nD τ) (Pipeline.ucRefs τ sig) (V9 m outs c) ∗ Rr c)
  X c := iprop(∃ r, prngReg c r)
  Y c := iprop(∃ r, prngReg c r)
  Z c := Pipeline.unscopedRest (Ix := Unit) (Name := ℕ) (U := UR sig nD τ) (Lvl := ℕ) spec3 c (vt (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (vt (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hF : ∀ w : Fin cfg3.W, (pdats m outs 3 c).arrAt w cfg3.N = vt (V9 m outs) c (Pipeline.arrRef spec3 w) := fun w => match w with
      | ⟨0, _⟩ => by
          show (pdats m outs 3 c).arrAt 0 cfg3.N = V9 m outs c (Pipeline.arrRef spec3 0)
          rw [V9_of m outs c (Pipeline.arrRef spec3 0) (by decide)]
          exact (pdats m outs 3 c).arrAt_in 0 rfl _
      | ⟨1, _⟩ => by
          show (pdats m outs 3 c).arrAt 1 cfg3.N = V9 m outs c (Pipeline.arrRef spec3 1)
          rw [V9_of m outs c (Pipeline.arrRef spec3 1) (by decide)]
          exact (pdats m outs 3 c).arrAt_in 1 rfl _
      | ⟨2, _⟩ => (hout c).symm.trans (by
          show outs 9 main_v50 c = Function.update (V8 m outs c) main_v50 (outs 9 main_v50 c) main_v50
          rw [Function.update_self])
    have hrest : ∀ b, b ∉ Finset.univ.image (Pipeline.arrRef spec3) → vt (V9 m outs) c b = vt (V8 m outs) c b := fun b hb =>
      V9_of m outs c b fun h => hb (by
        rw [List.mem_singleton.mp h]; exact Finset.mem_image.mpr ⟨2, Finset.mem_univ _, rfl⟩)
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (vt (V8 m outs) c) (vt (V9 m outs) c) ((pdats m outs 3 c).arrAt · cfg3.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg4.lean ====
/- Region 4 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg4 (hout : ∀ c, outs 13 main_v87 c = (dat4 (vt (V12 m outs)) c).arrAt 2 cfg4.N) :
    Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (vt (V12 m outs)) c).loose
  hwaits := Pipeline.hwaits_of_owed_zero _ _ _ _ L lv 4 fun _ _ => rfl
  pre c := iprop(StableHlo.held (c : Thread nD τ) (Pipeline.ucRefs τ sig) (V12 m outs c) ∗ Rr c)
  post c := iprop(StableHlo.held (c : Thread nD τ) (Pipeline.ucRefs τ sig) (V13 m outs c) ∗ Rr c)
  X c := iprop(∃ r, prngReg c r)
  Y c := iprop(∃ r, prngReg c r)
  Z c := Pipeline.unscopedRest (Ix := Unit) (Name := ℕ) (U := UR sig nD τ) (Lvl := ℕ) spec4 c (vt (V12 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (vt (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hF : ∀ w : Fin cfg4.W, (pdats m outs 4 c).arrAt w cfg4.N = vt (V13 m outs) c (Pipeline.arrRef spec4 w) := fun w => match w with
      | ⟨0, _⟩ => by
          show (pdats m outs 4 c).arrAt 0 cfg4.N = V13 m outs c (Pipeline.arrRef spec4 0)
          rw [V13_of m outs c (Pipeline.arrRef spec4 0) (by decide)]
          exact (pdats m outs 4 c).arrAt_in 0 rfl _
      | ⟨1, _⟩ => by
          show (pdats m outs 4 c).arrAt 1 cfg4.N = V13 m outs c (Pipeline.arrRef spec4 1)
          rw [V13_of m outs c (Pipeline.arrRef spec4 1) (by decide)]
          exact (pdats m outs 4 c).arrAt_in 1 rfl _
      | ⟨2, _⟩ => (hout c).symm.trans (by
          show outs 13 main_v87 c = Function.update (V12 m outs c) main_v87 (outs 13 main_v87 c) main_v87
          rw [Function.update_self])
    have hrest : ∀ b, b ∉ Finset.univ.image (Pipeline.arrRef spec4) → vt (V13 m outs) c b = vt (V12 m outs) c b := fun b hb =>
      V13_of m outs c b fun h => hb (by
        rw [List.mem_singleton.mp h]; exact Finset.mem_image.mpr ⟨2, Finset.mem_univ _, rfl⟩)
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (vt (V12 m outs) c) (vt (V13 m outs) c) ((pdats m outs 4 c).arrAt · cfg4.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg5.lean ====
/- Region 5 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg5 (hout : ∀ c, outs 15 main_v93 c = (dat5 (vt (V14 m outs)) c).arrAt 3 cfg5.N) :
    Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (vt (V14 m outs)) c).loose
  hwaits := Pipeline.hwaits_of_owed_zero _ _ _ _ L lv 5 fun _ _ => rfl
  pre c := iprop(StableHlo.held (c : Thread nD τ) (Pipeline.ucRefs τ sig) (V14 m outs c) ∗ Rr c)
  post c := iprop(StableHlo.held (c : Thread nD τ) (Pipeline.ucRefs τ sig) (V15 m outs c) ∗ Rr c)
  X c := iprop(∃ r, prngReg c r)
  Y c := iprop(∃ r, prngReg c r)
  Z c := Pipeline.unscopedRest (Ix := Unit) (Name := ℕ) (U := UR sig nD τ) (Lvl := ℕ) spec5 c (vt (V14 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (vt (V14 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hF : ∀ w : Fin cfg5.W, (pdats m outs 5 c).arrAt w cfg5.N = vt (V15 m outs) c (Pipeline.arrRef spec5 w) := fun w => match w with
      | ⟨0, _⟩ => by
          show (pdats m outs 5 c).arrAt 0 cfg5.N = V15 m outs c (Pipeline.arrRef spec5 0)
          rw [V15_of m outs c (Pipeline.arrRef spec5 0) (by decide)]
          exact (pdats m outs 5 c).arrAt_in 0 rfl _
      | ⟨1, _⟩ => by
          show (pdats m outs 5 c).arrAt 1 cfg5.N = V15 m outs c (Pipeline.arrRef spec5 1)
          rw [V15_of m outs c (Pipeline.arrRef spec5 1) (by decide)]
          exact (pdats m outs 5 c).arrAt_in 1 rfl _
      | ⟨2, _⟩ => by
          show (pdats m outs 5 c).arrAt 2 cfg5.N = V15 m outs c (Pipeline.arrRef spec5 2)
          rw [V15_of m outs c (Pipeline.arrRef spec5 2) (by decide)]
          exact (pdats m outs 5 c).arrAt_in 2 rfl _
      | ⟨3, _⟩ => (hout c).symm.trans (by
          show outs 15 main_v93 c = Function.update (V14 m outs c) main_v93 (outs 15 main_v93 c) main_v93
          rw [Function.update_self])
    have hrest : ∀ b, b ∉ Finset.univ.image (Pipeline.arrRef spec5) → vt (V15 m outs) c b = vt (V14 m outs) c b := fun b hb =>
      V15_of m outs c b fun h => hb (by
        rw [List.mem_singleton.mp h]; exact Finset.mem_image.mpr ⟨3, Finset.mem_univ _, rfl⟩)
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (vt (V14 m outs) c) (vt (V15 m outs) c) ((pdats m outs 5 c).arrAt · cfg5.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg6.lean ====
/- Region 6 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg6 (hout : ∀ c, outs 17 main_v100 c = (dat6 (vt (V16 m outs)) c).arrAt 2 cfg6.N) :
    Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (vt (V16 m outs)) c).loose
  hwaits := Pipeline.hwaits_of_owed_zero _ _ _ _ L lv 6 fun _ _ => rfl
  pre c := iprop(StableHlo.held (c : Thread nD τ) (Pipeline.ucRefs τ sig) (V16 m outs c) ∗ Rr c)
  post c := iprop(StableHlo.held (c : Thread nD τ) (Pipeline.ucRefs τ sig) (V17 m outs c) ∗ Rr c)
  X c := iprop(∃ r, prngReg c r)
  Y c := iprop(∃ r, prngReg c r)
  Z c := Pipeline.unscopedRest (Ix := Unit) (Name := ℕ) (U := UR sig nD τ) (Lvl := ℕ) spec6 c (vt (V16 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (vt (V16 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hF : ∀ w : Fin cfg6.W, (pdats m outs 6 c).arrAt w cfg6.N = vt (V17 m outs) c (Pipeline.arrRef spec6 w) := fun w => match w with
      | ⟨0, _⟩ => by
          show (pdats m outs 6 c).arrAt 0 cfg6.N = V17 m outs c (Pipeline.arrRef spec6 0)
          rw [V17_of m outs c (Pipeline.arrRef spec6 0) (by decide)]
          exact (pdats m outs 6 c).arrAt_in 0 rfl _
      | ⟨1, _⟩ => by
          show (pdats m outs 6 c).arrAt 1 cfg6.N = V17 m outs c (Pipeline.arrRef spec6 1)
          rw [V17_of m outs c (Pipeline.arrRef spec6 1) (by decide)]
          exact (pdats m outs 6 c).arrAt_in 1 rfl _
      | ⟨2, _⟩ => (hout c).symm.trans (by
          show outs 17 main_v100 c = Function.update (V16 m outs c) main_v100 (outs 17 main_v100 c) main_v100
          rw [Function.update_self])
    have hrest : ∀ b, b ∉ Finset.univ.image (Pipeline.arrRef spec6) → vt (V17 m outs) c b = vt (V16 m outs) c b := fun b hb =>
      V17_of m outs c b fun h => hb (by
        rw [List.mem_singleton.mp h]; exact Finset.mem_image.mpr ⟨2, Finset.mem_univ _, rfl⟩)
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (vt (V16 m outs) c) (vt (V17 m outs) c) ((pdats m outs 6 c).arrAt · cfg6.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg7.lean ====
/- Region 7 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg7 (hout : ∀ c, outs 21 main_v137 c = (dat7 (vt (V20 m outs)) c).arrAt 2 cfg7.N) :
    Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (vt (V20 m outs)) c).loose
  hwaits := Pipeline.hwaits_of_owed_zero _ _ _ _ L lv 7 fun _ _ => rfl
  pre c := iprop(StableHlo.held (c : Thread nD τ) (Pipeline.ucRefs τ sig) (V20 m outs c) ∗ Rr c)
  post c := iprop(StableHlo.held (c : Thread nD τ) (Pipeline.ucRefs τ sig) (V21 m outs c) ∗ Rr c)
  X c := iprop(∃ r, prngReg c r)
  Y c := iprop(∃ r, prngReg c r)
  Z c := Pipeline.unscopedRest (Ix := Unit) (Name := ℕ) (U := UR sig nD τ) (Lvl := ℕ) spec7 c (vt (V20 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (vt (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hF : ∀ w : Fin cfg7.W, (pdats m outs 7 c).arrAt w cfg7.N = vt (V21 m outs) c (Pipeline.arrRef spec7 w) := fun w => match w with
      | ⟨0, _⟩ => by
          show (pdats m outs 7 c).arrAt 0 cfg7.N = V21 m outs c (Pipeline.arrRef spec7 0)
          rw [V21_of m outs c (Pipeline.arrRef spec7 0) (by decide)]
          exact (pdats m outs 7 c).arrAt_in 0 rfl _
      | ⟨1, _⟩ => by
          show (pdats m outs 7 c).arrAt 1 cfg7.N = V21 m outs c (Pipeline.arrRef spec7 1)
          rw [V21_of m outs c (Pipeline.arrRef spec7 1) (by decide)]
          exact (pdats m outs 7 c).arrAt_in 1 rfl _
      | ⟨2, _⟩ => (hout c).symm.trans (by
          show outs 21 main_v137 c = Function.update (V20 m outs c) main_v137 (outs 21 main_v137 c) main_v137
          rw [Function.update_self])
    have hrest : ∀ b, b ∉ Finset.univ.image (Pipeline.arrRef spec7) → vt (V21 m outs) c b = vt (V20 m outs) c b := fun b hb =>
      V21_of m outs c b fun h => hb (by
        rw [List.mem_singleton.mp h]; exact Finset.mem_image.mpr ⟨2, Finset.mem_univ _, rfl⟩)
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (vt (V20 m outs) c) (vt (V21 m outs) c) ((pdats m outs 7 c).arrAt · cfg7.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg8.lean ====
/- Region 8 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg8 (hout : ∀ c, outs 23 main_v143 c = (dat8 (vt (V22 m outs)) c).arrAt 3 cfg8.N) :
    Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (vt (V22 m outs)) c).loose
  hwaits := Pipeline.hwaits_of_owed_zero _ _ _ _ L lv 8 fun _ _ => rfl
  pre c := iprop(StableHlo.held (c : Thread nD τ) (Pipeline.ucRefs τ sig) (V22 m outs c) ∗ Rr c)
  post c := iprop(StableHlo.held (c : Thread nD τ) (Pipeline.ucRefs τ sig) (V23 m outs c) ∗ Rr c)
  X c := iprop(∃ r, prngReg c r)
  Y c := iprop(∃ r, prngReg c r)
  Z c := Pipeline.unscopedRest (Ix := Unit) (Name := ℕ) (U := UR sig nD τ) (Lvl := ℕ) spec8 c (vt (V22 m outs) c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (vt (V22 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hF : ∀ w : Fin cfg8.W, (pdats m outs 8 c).arrAt w cfg8.N = vt (V23 m outs) c (Pipeline.arrRef spec8 w) := fun w => match w with
      | ⟨0, _⟩ => by
          show (pdats m outs 8 c).arrAt 0 cfg8.N = V23 m outs c (Pipeline.arrRef spec8 0)
          rw [V23_of m outs c (Pipeline.arrRef spec8 0) (by decide)]
          exact (pdats m outs 8 c).arrAt_in 0 rfl _
      | ⟨1, _⟩ => by
          show (pdats m outs 8 c).arrAt 1 cfg8.N = V23 m outs c (Pipeline.arrRef spec8 1)
          rw [V23_of m outs c (Pipeline.arrRef spec8 1) (by decide)]
          exact (pdats m outs 8 c).arrAt_in 1 rfl _
      | ⟨2, _⟩ => by
          show (pdats m outs 8 c).arrAt 2 cfg8.N = V23 m outs c (Pipeline.arrRef spec8 2)
          rw [V23_of m outs c (Pipeline.arrRef spec8 2) (by decide)]
          exact (pdats m outs 8 c).arrAt_in 2 rfl _
      | ⟨3, _⟩ => (hout c).symm.trans (by
          show outs 23 main_v143 c = Function.update (V22 m outs c) main_v143 (outs 23 main_v143 c) main_v143
          rw [Function.update_self])
    have hrest : ∀ b, b ∉ Finset.univ.image (Pipeline.arrRef spec8) → vt (V23 m outs) c b = vt (V22 m outs) c b := fun b hb =>
      V23_of m outs c b fun h => hb (by
        rw [List.mem_singleton.mp h]; exact Finset.mem_image.mpr ⟨3, Finset.mem_univ _, rfl⟩)
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (vt (V22 m outs) c) (vt (V23 m outs) c) ((pdats m outs 8 c).arrAt · cfg8.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg9.lean ====
/- Region 9 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg9 (hout : ∀ c, outs 24 main_v144 c = (dat9 (vt (V23 m outs)) c).arrAt 2 cfg9.N) :
    Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (vt (V23 m outs)) c).loose
  hwaits := Pipeline.hwaits_of_owed_zero _ _ _ _ L lv 9 fun _ _ => rfl
  pre c := iprop(StableHlo.held (c : Thread nD τ) (Pipeline.ucRefs τ sig) (V23 m outs c) ∗ Rr c)
  post c := iprop(StableHlo.held (c : Thread nD τ) (Pipeline.ucRefs τ sig) (V24 m outs c) ∗ Rr c)
  X c := iprop(∃ r, prngReg c r)
  Y c := iprop(∃ r, prngReg c r)
  Z c := Pipeline.unscopedRest (Ix := Unit) (Name := ℕ) (U := UR sig nD τ) (Lvl := ℕ) spec9 c (vt (V23 m outs) c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (vt (V23 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hF : ∀ w : Fin cfg9.W, (pdats m outs 9 c).arrAt w cfg9.N = vt (V24 m outs) c (Pipeline.arrRef spec9 w) := fun w => match w with
      | ⟨0, _⟩ => by
          show (pdats m outs 9 c).arrAt 0 cfg9.N = V24 m outs c (Pipeline.arrRef spec9 0)
          rw [V24_of m outs c (Pipeline.arrRef spec9 0) (by decide)]
          exact (pdats m outs 9 c).arrAt_in 0 rfl _
      | ⟨1, _⟩ => by
          show (pdats m outs 9 c).arrAt 1 cfg9.N = V24 m outs c (Pipeline.arrRef spec9 1)
          rw [V24_of m outs c (Pipeline.arrRef spec9 1) (by decide)]
          exact (pdats m outs 9 c).arrAt_in 1 rfl _
      | ⟨2, _⟩ => (hout c).symm.trans (by
          show outs 24 main_v144 c = Function.update (V23 m outs c) main_v144 (outs 24 main_v144 c) main_v144
          rw [Function.update_self])
    have hrest : ∀ b, b ∉ Finset.univ.image (Pipeline.arrRef spec9) → vt (V24 m outs) c b = vt (V23 m outs) c b := fun b hb =>
      V24_of m outs c b fun h => hb (by
        rw [List.mem_singleton.mp h]; exact Finset.mem_image.mpr ⟨2, Finset.mem_univ _, rfl⟩)
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (vt (V23 m outs) c) (vt (V24 m outs) c) ((pdats m outs 9 c).arrAt · cfg9.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg10.lean ====
/- Region 10 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg10 (hout : ∀ c, outs 28 main_v181 c = (dat10 (vt (V27 m outs)) c).arrAt 2 cfg10.N) :
    Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (vt (V27 m outs)) c).loose
  hwaits := Pipeline.hwaits_of_owed_zero _ _ _ _ L lv 10 fun _ _ => rfl
  pre c := iprop(StableHlo.held (c : Thread nD τ) (Pipeline.ucRefs τ sig) (V27 m outs c) ∗ Rr c)
  post c := iprop(StableHlo.held (c : Thread nD τ) (Pipeline.ucRefs τ sig) (V28 m outs c) ∗ Rr c)
  X c := iprop(∃ r, prngReg c r)
  Y c := iprop(∃ r, prngReg c r)
  Z c := Pipeline.unscopedRest (Ix := Unit) (Name := ℕ) (U := UR sig nD τ) (Lvl := ℕ) spec10 c (vt (V27 m outs) c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (vt (V27 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hF : ∀ w : Fin cfg10.W, (pdats m outs 10 c).arrAt w cfg10.N = vt (V28 m outs) c (Pipeline.arrRef spec10 w) := fun w => match w with
      | ⟨0, _⟩ => by
          show (pdats m outs 10 c).arrAt 0 cfg10.N = V28 m outs c (Pipeline.arrRef spec10 0)
          rw [V28_of m outs c (Pipeline.arrRef spec10 0) (by decide)]
          exact (pdats m outs 10 c).arrAt_in 0 rfl _
      | ⟨1, _⟩ => by
          show (pdats m outs 10 c).arrAt 1 cfg10.N = V28 m outs c (Pipeline.arrRef spec10 1)
          rw [V28_of m outs c (Pipeline.arrRef spec10 1) (by decide)]
          exact (pdats m outs 10 c).arrAt_in 1 rfl _
      | ⟨2, _⟩ => (hout c).symm.trans (by
          show outs 28 main_v181 c = Function.update (V27 m outs c) main_v181 (outs 28 main_v181 c) main_v181
          rw [Function.update_self])
    have hrest : ∀ b, b ∉ Finset.univ.image (Pipeline.arrRef spec10) → vt (V28 m outs) c b = vt (V27 m outs) c b := fun b hb =>
      V28_of m outs c b fun h => hb (by
        rw [List.mem_singleton.mp h]; exact Finset.mem_image.mpr ⟨2, Finset.mem_univ _, rfl⟩)
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (vt (V27 m outs) c) (vt (V28 m outs) c) ((pdats m outs 10 c).arrAt · cfg10.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg11.lean ====
/- Region 11 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg11 (hout : ∀ c, outs 30 main_v187 c = (dat11 (vt (V29 m outs)) c).arrAt 3 cfg11.N) :
    Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (vt (V29 m outs)) c).loose
  hwaits := Pipeline.hwaits_of_owed_zero _ _ _ _ L lv 11 fun _ _ => rfl
  pre c := iprop(StableHlo.held (c : Thread nD τ) (Pipeline.ucRefs τ sig) (V29 m outs c) ∗ Rr c)
  post c := iprop(StableHlo.held (c : Thread nD τ) (Pipeline.ucRefs τ sig) (V30 m outs c) ∗ Rr c)
  X c := iprop(∃ r, prngReg c r)
  Y c := iprop(∃ r, prngReg c r)
  Z c := Pipeline.unscopedRest (Ix := Unit) (Name := ℕ) (U := UR sig nD τ) (Lvl := ℕ) spec11 c (vt (V29 m outs) c)
  hentry c := by
    rw [Pipeline.ownSems0_none]
    have hsplit := Pipeline.arrays_of_unscopedBufs (p := 11) (pcfgs (F := F)) adm (pdats m outs) launch11.win launch11.arr_whole c
      ((pdats m outs 11 c).share_full fun _ => rfl) (vt (V29 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m outs 11 c).Φ (Fin.last _) = Pipeline.ΦA spec11 c from rfl]; unfold Pipeline.ΦA
    iintro ⟨Hr, Hp⟩
    isplitl [Hp]; · iexact Hp
    isplitr; · iempintro
    iexact Hr
  hexit c := by
    have hF : ∀ w : Fin cfg11.W, (pdats m outs 11 c).arrAt w cfg11.N = vt (V30 m outs) c (Pipeline.arrRef spec11 w) := fun w => match w with
      | ⟨0, _⟩ => by
          show (pdats m outs 11 c).arrAt 0 cfg11.N = V30 m outs c (Pipeline.arrRef spec11 0)
          rw [V30_of m outs c (Pipeline.arrRef spec11 0) (by decide)]
          exact (pdats m outs 11 c).arrAt_in 0 rfl _
      | ⟨1, _⟩ => by
          show (pdats m outs 11 c).arrAt 1 cfg11.N = V30 m outs c (Pipeline.arrRef spec11 1)
          rw [V30_of m outs c (Pipeline.arrRef spec11 1) (by decide)]
          exact (pdats m outs 11 c).arrAt_in 1 rfl _
      | ⟨2, _⟩ => by
          show (pdats m outs 11 c).arrAt 2 cfg11.N = V30 m outs c (Pipeline.arrRef spec11 2)
          rw [V30_of m outs c (Pipeline.arrRef spec11 2) (by decide)]
          exact (pdats m outs 11 c).arrAt_in 2 rfl _
      | ⟨3, _⟩ => (hout c).symm.trans (by
          show outs 30 main_v187 c = Function.update (V29 m outs c) main_v187 (outs 30 main_v187 c) main_v187
          rw [Function.update_self])
    have hrest : ∀ b, b ∉ Finset.univ.image (Pipeline.arrRef spec11) → vt (V30 m outs) c b = vt (V29 m outs) c b := fun b hb =>
      V30_of m outs c b fun h => hb (by
        rw [List.mem_singleton.mp h]; exact Finset.mem_image.mpr ⟨3, Finset.mem_univ _, rfl⟩)
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun _ => rfl)
      (vt (V29 m outs) c) (vt (V30 m outs) c) ((pdats m outs 11 c).arrAt · cfg11.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg12.lean ====
/- Region 12 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg12 (hout : ∀ c, outs 32 main_v194 c = (dat12 (vt (V31 m outs)) c).arrAt 2 cfg12.N) :
    Pipeline.RegionSeg (pcfgs (F := F)) adm (pdats m outs) () defs₀ 𝒱₀ L lv 12 where
  win := launch12.win.to₀
  block_pos := launch12.block_pos
  stage_whole := launch12.stage_whole
  K := PEmpty
  osem k := k.elim
  ho := Pipeline.OwnSemFacts.none _
  hbody c := (body_obligation12 (vt (V31 m outs)) c).loose
  hwaits := Pipeline.hwaits_of_owed_zero _ _ _ _ L lv 12 fun _ _ => rfl
  pre c := iprop(StableHlo.held (c : Thread nD τ) (Pipeline.ucRefs τ sig) (V31 m outs c) ∗ Rr c)
  post c := iprop(StableHlo.held (c : Thread nD τ) (Pipeline.ucRefs τ sig) (V32 m outs c) ∗ Rr c)
  X c := iprop(∃ r, prngReg c r)
  Y c := iprop(∃ r, prngReg c r)
  Z c := Pipeline.unscopedRest (Ix := Unit) (Name := ℕ) (U := UR sig nD τ) (Lvl := ℕ) spec12 c (vt (V31 m outs) c)
  hentry c := by
    rw [Pipeline.ownSems0_none]
    have hsplit := Pipeline.arrays_of_unscopedBufs (p := 12) (pcfgs (F := F)) adm (pdats m outs) launch12.win launch12.arr_whole c
      ((pdats m outs 12 c).share_full fun _ => rfl) (vt (V31 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m outs 12 c).Φ (Fin.last _) = Pipeline.ΦA spec12 c from rfl]; unfold Pipeline.ΦA
    iintro ⟨Hr, Hp⟩
    isplitl [Hp]; · iexact Hp
    isplitr; · iempintro
    iexact Hr
  hexit c := by
    have hF : ∀ w : Fin cfg12.W, (pdats m outs 12 c).arrAt w cfg12.N = vt (V32 m outs) c (Pipeline.arrRef spec12 w) := fun w => match w with
      | ⟨0, _⟩ => by
          show (pdats m outs 12 c).arrAt 0 cfg12.N = V32 m outs c (Pipeline.arrRef spec12 0)
          rw [V32_of m outs c (Pipeline.arrRef spec12 0) (by decide)]
          exact (pdats m outs 12 c).arrAt_in 0 rfl _
      | ⟨1, _⟩ => by
          show (pdats m outs 12 c).arrAt 1 cfg12.N = V32 m outs c (Pipeline.arrRef spec12 1)
          rw [V32_of m outs c (Pipeline.arrRef spec12 1) (by decide)]
          exact (pdats m outs 12 c).arrAt_in 1 rfl _
      | ⟨2, _⟩ => (hout c).symm.trans (by
          show outs 32 main_v194 c = Function.update (V31 m outs c) main_v194 (outs 32 main_v194 c) main_v194
          rw [Function.update_self])
    have hrest : ∀ b, b ∉ Finset.univ.image (Pipeline.arrRef spec12) → vt (V32 m outs) c b = vt (V31 m outs) c b := fun b hb =>
      V32_of m outs c b fun h => hb (by
        rw [List.mem_singleton.mp h]; exact Finset.mem_image.mpr ⟨2, Finset.mem_univ _, rfl⟩)
    have hjoin := Pipeline.unscopedBufs_of_arrays (p := 12) (pcfgs (F := F)) adm (Ix := Unit) (Name := ℕ) (U := UR sig nD τ) (Lvl := ℕ)
      launch12.win launch12.arr_whole c (pdats m outs) ((pdats m outs 12 c).share_full fun _ => rfl)
      (vt (V31 m outs) c) (vt (V32 m outs) c) ((pdats m outs 12 c).arrAt · cfg12.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg13.lean ====
/- Region 13 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg13 (hout : ∀ c, outs 36 main_v231 c = (dat13 (vt (V35 m outs)) c).arrAt 2 cfg13.N) :
    Pipeline.RegionSeg (pcfgs (F := F)) adm (pdats m outs) () defs₀ 𝒱₀ L lv 13 where
  win := launch13.win.to₀
  block_pos := launch13.block_pos
  stage_whole := launch13.stage_whole
  K := PEmpty
  osem k := k.elim
  ho := Pipeline.OwnSemFacts.none _
  hbody c := (body_obligation13 (vt (V35 m outs)) c).loose
  hwaits := Pipeline.hwaits_of_owed_zero _ _ _ _ L lv 13 fun _ _ => rfl
  pre c := iprop(StableHlo.held (c : Thread nD τ) (Pipeline.ucRefs τ sig) (V35 m outs c) ∗ Rr c)
  post c := iprop(StableHlo.held (c : Thread nD τ) (Pipeline.ucRefs τ sig) (V36 m outs c) ∗ Rr c)
  X c := iprop(∃ r, prngReg c r)
  Y c := iprop(∃ r, prngReg c r)
  Z c := Pipeline.unscopedRest (Ix := Unit) (Name := ℕ) (U := UR sig nD τ) (Lvl := ℕ) spec13 c (vt (V35 m outs) c)
  hentry c := by
    rw [Pipeline.ownSems0_none]
    have hsplit := Pipeline.arrays_of_unscopedBufs (p := 13) (pcfgs (F := F)) adm (pdats m outs) launch13.win launch13.arr_whole c
      ((pdats m outs 13 c).share_full fun _ => rfl) (vt (V35 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m outs 13 c).Φ (Fin.last _) = Pipeline.ΦA spec13 c from rfl]; unfold Pipeline.ΦA
    iintro ⟨Hr, Hp⟩
    isplitl [Hp]; · iexact Hp
    isplitr; · iempintro
    iexact Hr
  hexit c := by
    have hF : ∀ w : Fin cfg13.W, (pdats m outs 13 c).arrAt w cfg13.N = vt (V36 m outs) c (Pipeline.arrRef spec13 w) := fun w => match w with
      | ⟨0, _⟩ => by
          show (pdats m outs 13 c).arrAt 0 cfg13.N = V36 m outs c (Pipeline.arrRef spec13 0)
          rw [V36_of m outs c (Pipeline.arrRef spec13 0) (by decide)]
          exact (pdats m outs 13 c).arrAt_in 0 rfl _
      | ⟨1, _⟩ => by
          show (pdats m outs 13 c).arrAt 1 cfg13.N = V36 m outs c (Pipeline.arrRef spec13 1)
          rw [V36_of m outs c (Pipeline.arrRef spec13 1) (by decide)]
          exact (pdats m outs 13 c).arrAt_in 1 rfl _
      | ⟨2, _⟩ => (hout c).symm.trans (by
          show outs 36 main_v231 c = Function.update (V35 m outs c) main_v231 (outs 36 main_v231 c) main_v231
          rw [Function.update_self])
    have hrest : ∀ b, b ∉ Finset.univ.image (Pipeline.arrRef spec13) → vt (V36 m outs) c b = vt (V35 m outs) c b := fun b hb =>
      V36_of m outs c b fun h => hb (by
        rw [List.mem_singleton.mp h]; exact Finset.mem_image.mpr ⟨2, Finset.mem_univ _, rfl⟩)
    have hjoin := Pipeline.unscopedBufs_of_arrays (p := 13) (pcfgs (F := F)) adm (Ix := Unit) (Name := ℕ) (U := UR sig nD τ) (Lvl := ℕ)
      launch13.win launch13.arr_whole c (pdats m outs) ((pdats m outs 13 c).share_full fun _ => rfl)
      (vt (V35 m outs) c) (vt (V36 m outs) c) ((pdats m outs 13 c).arrAt · cfg13.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg14.lean ====
/- Region 14 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg14 (hout : ∀ c, outs 38 main_v237 c = (dat14 (vt (V37 m outs)) c).arrAt 3 cfg14.N) :
    Pipeline.RegionSeg (pcfgs (F := F)) adm (pdats m outs) () defs₀ 𝒱₀ L lv 14 where
  win := launch14.win.to₀
  block_pos := launch14.block_pos
  stage_whole := launch14.stage_whole
  K := PEmpty
  osem k := k.elim
  ho := Pipeline.OwnSemFacts.none _
  hbody c := (body_obligation14 (vt (V37 m outs)) c).loose
  hwaits := Pipeline.hwaits_of_owed_zero _ _ _ _ L lv 14 fun _ _ => rfl
  pre c := iprop(StableHlo.held (c : Thread nD τ) (Pipeline.ucRefs τ sig) (V37 m outs c) ∗ Rr c)
  post c := iprop(StableHlo.held (c : Thread nD τ) (Pipeline.ucRefs τ sig) (V38 m outs c) ∗ Rr c)
  X c := iprop(∃ r, prngReg c r)
  Y c := iprop(∃ r, prngReg c r)
  Z c := Pipeline.unscopedRest (Ix := Unit) (Name := ℕ) (U := UR sig nD τ) (Lvl := ℕ) spec14 c (vt (V37 m outs) c)
  hentry c := by
    rw [Pipeline.ownSems0_none]
    have hsplit := Pipeline.arrays_of_unscopedBufs (p := 14) (pcfgs (F := F)) adm (pdats m outs) launch14.win launch14.arr_whole c
      ((pdats m outs 14 c).share_full fun _ => rfl) (vt (V37 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m outs 14 c).Φ (Fin.last _) = Pipeline.ΦA spec14 c from rfl]; unfold Pipeline.ΦA
    iintro ⟨Hr, Hp⟩
    isplitl [Hp]; · iexact Hp
    isplitr; · iempintro
    iexact Hr
  hexit c := by
    have hF : ∀ w : Fin cfg14.W, (pdats m outs 14 c).arrAt w cfg14.N = vt (V38 m outs) c (Pipeline.arrRef spec14 w) := fun w => match w with
      | ⟨0, _⟩ => by
          show (pdats m outs 14 c).arrAt 0 cfg14.N = V38 m outs c (Pipeline.arrRef spec14 0)
          rw [V38_of m outs c (Pipeline.arrRef spec14 0) (by decide)]
          exact (pdats m outs 14 c).arrAt_in 0 rfl _
      | ⟨1, _⟩ => by
          show (pdats m outs 14 c).arrAt 1 cfg14.N = V38 m outs c (Pipeline.arrRef spec14 1)
          rw [V38_of m outs c (Pipeline.arrRef spec14 1) (by decide)]
          exact (pdats m outs 14 c).arrAt_in 1 rfl _
      | ⟨2, _⟩ => by
          show (pdats m outs 14 c).arrAt 2 cfg14.N = V38 m outs c (Pipeline.arrRef spec14 2)
          rw [V38_of m outs c (Pipeline.arrRef spec14 2) (by decide)]
          exact (pdats m outs 14 c).arrAt_in 2 rfl _
      | ⟨3, _⟩ => (hout c).symm.trans (by
          show outs 38 main_v237 c = Function.update (V37 m outs c) main_v237 (outs 38 main_v237 c) main_v237
          rw [Function.update_self])
    have hrest : ∀ b, b ∉ Finset.univ.image (Pipeline.arrRef spec14) → vt (V38 m outs) c b = vt (V37 m outs) c b := fun b hb =>
      V38_of m outs c b fun h => hb (by
        rw [List.mem_singleton.mp h]; exact Finset.mem_image.mpr ⟨3, Finset.mem_univ _, rfl⟩)
    have hjoin := Pipeline.unscopedBufs_of_arrays (p := 14) (pcfgs (F := F)) adm (Ix := Unit) (Name := ℕ) (U := UR sig nD τ) (Lvl := ℕ)
      launch14.win launch14.arr_whole c (pdats m outs) ((pdats m outs 14 c).share_full fun _ => rfl)
      (vt (V37 m outs) c) (vt (V38 m outs) c) ((pdats m outs 14 c).arrAt · cfg14.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg15.lean ====
/- Region 15 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg15 (hout : ∀ c, outs 39 main_v238 c = (dat15 (vt (V38 m outs)) c).arrAt 2 cfg15.N) :
    Pipeline.RegionSeg (pcfgs (F := F)) adm (pdats m outs) () defs₀ 𝒱₀ L lv 15 where
  win := launch15.win.to₀
  block_pos := launch15.block_pos
  stage_whole := launch15.stage_whole
  K := PEmpty
  osem k := k.elim
  ho := Pipeline.OwnSemFacts.none _
  hbody c := (body_obligation15 (vt (V38 m outs)) c).loose
  hwaits := Pipeline.hwaits_of_owed_zero _ _ _ _ L lv 15 fun _ _ => rfl
  pre c := iprop(StableHlo.held (c : Thread nD τ) (Pipeline.ucRefs τ sig) (V38 m outs c) ∗ Rr c)
  post c := iprop(StableHlo.held (c : Thread nD τ) (Pipeline.ucRefs τ sig) (V39 m outs c) ∗ Rr c)
  X c := iprop(∃ r, prngReg c r)
  Y c := iprop(∃ r, prngReg c r)
  Z c := Pipeline.unscopedRest (Ix := Unit) (Name := ℕ) (U := UR sig nD τ) (Lvl := ℕ) spec15 c (vt (V38 m outs) c)
  hentry c := by
    rw [Pipeline.ownSems0_none]
    have hsplit := Pipeline.arrays_of_unscopedBufs (p := 15) (pcfgs (F := F)) adm (pdats m outs) launch15.win launch15.arr_whole c
      ((pdats m outs 15 c).share_full fun _ => rfl) (vt (V38 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m outs 15 c).Φ (Fin.last _) = Pipeline.ΦA spec15 c from rfl]; unfold Pipeline.ΦA
    iintro ⟨Hr, Hp⟩
    isplitl [Hp]; · iexact Hp
    isplitr; · iempintro
    iexact Hr
  hexit c := by
    have hF : ∀ w : Fin cfg15.W, (pdats m outs 15 c).arrAt w cfg15.N = vt (V39 m outs) c (Pipeline.arrRef spec15 w) := fun w => match w with
      | ⟨0, _⟩ => by
          show (pdats m outs 15 c).arrAt 0 cfg15.N = V39 m outs c (Pipeline.arrRef spec15 0)
          rw [V39_of m outs c (Pipeline.arrRef spec15 0) (by decide)]
          exact (pdats m outs 15 c).arrAt_in 0 rfl _
      | ⟨1, _⟩ => by
          show (pdats m outs 15 c).arrAt 1 cfg15.N = V39 m outs c (Pipeline.arrRef spec15 1)
          rw [V39_of m outs c (Pipeline.arrRef spec15 1) (by decide)]
          exact (pdats m outs 15 c).arrAt_in 1 rfl _
      | ⟨2, _⟩ => (hout c).symm.trans (by
          show outs 39 main_v238 c = Function.update (V38 m outs c) main_v238 (outs 39 main_v238 c) main_v238
          rw [Function.update_self])
    have hrest : ∀ b, b ∉ Finset.univ.image (Pipeline.arrRef spec15) → vt (V39 m outs) c b = vt (V38 m outs) c b := fun b hb =>
      V39_of m outs c b fun h => hb (by
        rw [List.mem_singleton.mp h]; exact Finset.mem_image.mpr ⟨2, Finset.mem_univ _, rfl⟩)
    have hjoin := Pipeline.unscopedBufs_of_arrays (p := 15) (pcfgs (F := F)) adm (Ix := Unit) (Name := ℕ) (U := UR sig nD τ) (Lvl := ℕ)
      launch15.win launch15.arr_whole c (pdats m outs) ((pdats m outs 15 c).share_full fun _ => rfl)
      (vt (V38 m outs) c) (vt (V39 m outs) c) ((pdats m outs 15 c).arrAt · cfg15.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg16.lean ====
/- Region 16 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg16 (hout : ∀ c, outs 43 main_v275 c = (dat16 (vt (V42 m outs)) c).arrAt 2 cfg16.N) :
    Pipeline.RegionSeg (pcfgs (F := F)) adm (pdats m outs) () defs₀ 𝒱₀ L lv 16 where
  win := launch16.win.to₀
  block_pos := launch16.block_pos
  stage_whole := launch16.stage_whole
  K := PEmpty
  osem k := k.elim
  ho := Pipeline.OwnSemFacts.none _
  hbody c := (body_obligation16 (vt (V42 m outs)) c).loose
  hwaits := Pipeline.hwaits_of_owed_zero _ _ _ _ L lv 16 fun _ _ => rfl
  pre c := iprop(StableHlo.held (c : Thread nD τ) (Pipeline.ucRefs τ sig) (V42 m outs c) ∗ Rr c)
  post c := iprop(StableHlo.held (c : Thread nD τ) (Pipeline.ucRefs τ sig) (V43 m outs c) ∗ Rr c)
  X c := iprop(∃ r, prngReg c r)
  Y c := iprop(∃ r, prngReg c r)
  Z c := Pipeline.unscopedRest (Ix := Unit) (Name := ℕ) (U := UR sig nD τ) (Lvl := ℕ) spec16 c (vt (V42 m outs) c)
  hentry c := by
    rw [Pipeline.ownSems0_none]
    have hsplit := Pipeline.arrays_of_unscopedBufs (p := 16) (pcfgs (F := F)) adm (pdats m outs) launch16.win launch16.arr_whole c
      ((pdats m outs 16 c).share_full fun _ => rfl) (vt (V42 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m outs 16 c).Φ (Fin.last _) = Pipeline.ΦA spec16 c from rfl]; unfold Pipeline.ΦA
    iintro ⟨Hr, Hp⟩
    isplitl [Hp]; · iexact Hp
    isplitr; · iempintro
    iexact Hr
  hexit c := by
    have hF : ∀ w : Fin cfg16.W, (pdats m outs 16 c).arrAt w cfg16.N = vt (V43 m outs) c (Pipeline.arrRef spec16 w) := fun w => match w with
      | ⟨0, _⟩ => by
          show (pdats m outs 16 c).arrAt 0 cfg16.N = V43 m outs c (Pipeline.arrRef spec16 0)
          rw [V43_of m outs c (Pipeline.arrRef spec16 0) (by decide)]
          exact (pdats m outs 16 c).arrAt_in 0 rfl _
      | ⟨1, _⟩ => by
          show (pdats m outs 16 c).arrAt 1 cfg16.N = V43 m outs c (Pipeline.arrRef spec16 1)
          rw [V43_of m outs c (Pipeline.arrRef spec16 1) (by decide)]
          exact (pdats m outs 16 c).arrAt_in 1 rfl _
      | ⟨2, _⟩ => (hout c).symm.trans (by
          show outs 43 main_v275 c = Function.update (V42 m outs c) main_v275 (outs 43 main_v275 c) main_v275
          rw [Function.update_self])
    have hrest : ∀ b, b ∉ Finset.univ.image (Pipeline.arrRef spec16) → vt (V43 m outs) c b = vt (V42 m outs) c b := fun b hb =>
      V43_of m outs c b fun h => hb (by
        rw [List.mem_singleton.mp h]; exact Finset.mem_image.mpr ⟨2, Finset.mem_univ _, rfl⟩)
    have hjoin := Pipeline.unscopedBufs_of_arrays (p := 16) (pcfgs (F := F)) adm (Ix := Unit) (Name := ℕ) (U := UR sig nD τ) (Lvl := ℕ)
      launch16.win launch16.arr_whole c (pdats m outs) ((pdats m outs 16 c).share_full fun _ => rfl)
      (vt (V42 m outs) c) (vt (V43 m outs) c) ((pdats m outs 16 c).arrAt · cfg16.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg17.lean ====
/- Region 17 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg17 (hout : ∀ c, outs 45 main_v281 c = (dat17 (vt (V44 m outs)) c).arrAt 3 cfg17.N) :
    Pipeline.RegionSeg (pcfgs (F := F)) adm (pdats m outs) () defs₀ 𝒱₀ L lv 17 where
  win := launch17.win.to₀
  block_pos := launch17.block_pos
  stage_whole := launch17.stage_whole
  K := PEmpty
  osem k := k.elim
  ho := Pipeline.OwnSemFacts.none _
  hbody c := (body_obligation17 (vt (V44 m outs)) c).loose
  hwaits := Pipeline.hwaits_of_owed_zero _ _ _ _ L lv 17 fun _ _ => rfl
  pre c := iprop(StableHlo.held (c : Thread nD τ) (Pipeline.ucRefs τ sig) (V44 m outs c) ∗ Rr c)
  post c := iprop(StableHlo.held (c : Thread nD τ) (Pipeline.ucRefs τ sig) (V45 m outs c) ∗ Rr c)
  X c := iprop(∃ r, prngReg c r)
  Y c := iprop(∃ r, prngReg c r)
  Z c := Pipeline.unscopedRest (Ix := Unit) (Name := ℕ) (U := UR sig nD τ) (Lvl := ℕ) spec17 c (vt (V44 m outs) c)
  hentry c := by
    rw [Pipeline.ownSems0_none]
    have hsplit := Pipeline.arrays_of_unscopedBufs (p := 17) (pcfgs (F := F)) adm (pdats m outs) launch17.win launch17.arr_whole c
      ((pdats m outs 17 c).share_full fun _ => rfl) (vt (V44 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m outs 17 c).Φ (Fin.last _) = Pipeline.ΦA spec17 c from rfl]; unfold Pipeline.ΦA
    iintro ⟨Hr, Hp⟩
    isplitl [Hp]; · iexact Hp
    isplitr; · iempintro
    iexact Hr
  hexit c := by
    have hF : ∀ w : Fin cfg17.W, (pdats m outs 17 c).arrAt w cfg17.N = vt (V45 m outs) c (Pipeline.arrRef spec17 w) := fun w => match w with
      | ⟨0, _⟩ => by
          show (pdats m outs 17 c).arrAt 0 cfg17.N = V45 m outs c (Pipeline.arrRef spec17 0)
          rw [V45_of m outs c (Pipeline.arrRef spec17 0) (by decide)]
          exact (pdats m outs 17 c).arrAt_in 0 rfl _
      | ⟨1, _⟩ => by
          show (pdats m outs 17 c).arrAt 1 cfg17.N = V45 m outs c (Pipeline.arrRef spec17 1)
          rw [V45_of m outs c (Pipeline.arrRef spec17 1) (by decide)]
          exact (pdats m outs 17 c).arrAt_in 1 rfl _
      | ⟨2, _⟩ => by
          show (pdats m outs 17 c).arrAt 2 cfg17.N = V45 m outs c (Pipeline.arrRef spec17 2)
          rw [V45_of m outs c (Pipeline.arrRef spec17 2) (by decide)]
          exact (pdats m outs 17 c).arrAt_in 2 rfl _
      | ⟨3, _⟩ => (hout c).symm.trans (by
          show outs 45 main_v281 c = Function.update (V44 m outs c) main_v281 (outs 45 main_v281 c) main_v281
          rw [Function.update_self])
    have hrest : ∀ b, b ∉ Finset.univ.image (Pipeline.arrRef spec17) → vt (V45 m outs) c b = vt (V44 m outs) c b := fun b hb =>
      V45_of m outs c b fun h => hb (by
        rw [List.mem_singleton.mp h]; exact Finset.mem_image.mpr ⟨3, Finset.mem_univ _, rfl⟩)
    have hjoin := Pipeline.unscopedBufs_of_arrays (p := 17) (pcfgs (F := F)) adm (Ix := Unit) (Name := ℕ) (U := UR sig nD τ) (Lvl := ℕ)
      launch17.win launch17.arr_whole c (pdats m outs) ((pdats m outs 17 c).share_full fun _ => rfl)
      (vt (V44 m outs) c) (vt (V45 m outs) c) ((pdats m outs 17 c).arrAt · cfg17.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg18.lean ====
/- Region 18 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg18 (hout : ∀ c, outs 47 main_v288 c = (dat18 (vt (V46 m outs)) c).arrAt 2 cfg18.N) :
    Pipeline.RegionSeg (pcfgs (F := F)) adm (pdats m outs) () defs₀ 𝒱₀ L lv 18 where
  win := launch18.win.to₀
  block_pos := launch18.block_pos
  stage_whole := launch18.stage_whole
  K := PEmpty
  osem k := k.elim
  ho := Pipeline.OwnSemFacts.none _
  hbody c := (body_obligation18 (vt (V46 m outs)) c).loose
  hwaits := Pipeline.hwaits_of_owed_zero _ _ _ _ L lv 18 fun _ _ => rfl
  pre c := iprop(StableHlo.held (c : Thread nD τ) (Pipeline.ucRefs τ sig) (V46 m outs c) ∗ Rr c)
  post c := iprop(StableHlo.held (c : Thread nD τ) (Pipeline.ucRefs τ sig) (V47 m outs c) ∗ Rr c)
  X c := iprop(∃ r, prngReg c r)
  Y c := iprop(∃ r, prngReg c r)
  Z c := Pipeline.unscopedRest (Ix := Unit) (Name := ℕ) (U := UR sig nD τ) (Lvl := ℕ) spec18 c (vt (V46 m outs) c)
  hentry c := by
    rw [Pipeline.ownSems0_none]
    have hsplit := Pipeline.arrays_of_unscopedBufs (p := 18) (pcfgs (F := F)) adm (pdats m outs) launch18.win launch18.arr_whole c
      ((pdats m outs 18 c).share_full fun _ => rfl) (vt (V46 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m outs 18 c).Φ (Fin.last _) = Pipeline.ΦA spec18 c from rfl]; unfold Pipeline.ΦA
    iintro ⟨Hr, Hp⟩
    isplitl [Hp]; · iexact Hp
    isplitr; · iempintro
    iexact Hr
  hexit c := by
    have hF : ∀ w : Fin cfg18.W, (pdats m outs 18 c).arrAt w cfg18.N = vt (V47 m outs) c (Pipeline.arrRef spec18 w) := fun w => match w with
      | ⟨0, _⟩ => by
          show (pdats m outs 18 c).arrAt 0 cfg18.N = V47 m outs c (Pipeline.arrRef spec18 0)
          rw [V47_of m outs c (Pipeline.arrRef spec18 0) (by decide)]
          exact (pdats m outs 18 c).arrAt_in 0 rfl _
      | ⟨1, _⟩ => by
          show (pdats m outs 18 c).arrAt 1 cfg18.N = V47 m outs c (Pipeline.arrRef spec18 1)
          rw [V47_of m outs c (Pipeline.arrRef spec18 1) (by decide)]
          exact (pdats m outs 18 c).arrAt_in 1 rfl _
      | ⟨2, _⟩ => (hout c).symm.trans (by
          show outs 47 main_v288 c = Function.update (V46 m outs c) main_v288 (outs 47 main_v288 c) main_v288
          rw [Function.update_self])
    have hrest : ∀ b, b ∉ Finset.univ.image (Pipeline.arrRef spec18) → vt (V47 m outs) c b = vt (V46 m outs) c b := fun b hb =>
      V47_of m outs c b fun h => hb (by
        rw [List.mem_singleton.mp h]; exact Finset.mem_image.mpr ⟨2, Finset.mem_univ _, rfl⟩)
    have hjoin := Pipeline.unscopedBufs_of_arrays (p := 18) (pcfgs (F := F)) adm (Ix := Unit) (Name := ℕ) (U := UR sig nD τ) (Lvl := ℕ)
      launch18.win launch18.arr_whole c (pdats m outs) ((pdats m outs 18 c).share_full fun _ => rfl)
      (vt (V46 m outs) c) (vt (V47 m outs) c) ((pdats m outs 18 c).arrAt · cfg18.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg19.lean ====
/- Region 19 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg19 (hout : ∀ c, outs 51 main_v325 c = (dat19 (vt (V50 m outs)) c).arrAt 2 cfg19.N) :
    Pipeline.RegionSeg (pcfgs (F := F)) adm (pdats m outs) () defs₀ 𝒱₀ L lv 19 where
  win := launch19.win.to₀
  block_pos := launch19.block_pos
  stage_whole := launch19.stage_whole
  K := PEmpty
  osem k := k.elim
  ho := Pipeline.OwnSemFacts.none _
  hbody c := (body_obligation19 (vt (V50 m outs)) c).loose
  hwaits := Pipeline.hwaits_of_owed_zero _ _ _ _ L lv 19 fun _ _ => rfl
  pre c := iprop(StableHlo.held (c : Thread nD τ) (Pipeline.ucRefs τ sig) (V50 m outs c) ∗ Rr c)
  post c := iprop(StableHlo.held (c : Thread nD τ) (Pipeline.ucRefs τ sig) (V51 m outs c) ∗ Rr c)
  X c := iprop(∃ r, prngReg c r)
  Y c := iprop(∃ r, prngReg c r)
  Z c := Pipeline.unscopedRest (Ix := Unit) (Name := ℕ) (U := UR sig nD τ) (Lvl := ℕ) spec19 c (vt (V50 m outs) c)
  hentry c := by
    rw [Pipeline.ownSems0_none]
    have hsplit := Pipeline.arrays_of_unscopedBufs (p := 19) (pcfgs (F := F)) adm (pdats m outs) launch19.win launch19.arr_whole c
      ((pdats m outs 19 c).share_full fun _ => rfl) (vt (V50 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m outs 19 c).Φ (Fin.last _) = Pipeline.ΦA spec19 c from rfl]; unfold Pipeline.ΦA
    iintro ⟨Hr, Hp⟩
    isplitl [Hp]; · iexact Hp
    isplitr; · iempintro
    iexact Hr
  hexit c := by
    have hF : ∀ w : Fin cfg19.W, (pdats m outs 19 c).arrAt w cfg19.N = vt (V51 m outs) c (Pipeline.arrRef spec19 w) := fun w => match w with
      | ⟨0, _⟩ => by
          show (pdats m outs 19 c).arrAt 0 cfg19.N = V51 m outs c (Pipeline.arrRef spec19 0)
          rw [V51_of m outs c (Pipeline.arrRef spec19 0) (by decide)]
          exact (pdats m outs 19 c).arrAt_in 0 rfl _
      | ⟨1, _⟩ => by
          show (pdats m outs 19 c).arrAt 1 cfg19.N = V51 m outs c (Pipeline.arrRef spec19 1)
          rw [V51_of m outs c (Pipeline.arrRef spec19 1) (by decide)]
          exact (pdats m outs 19 c).arrAt_in 1 rfl _
      | ⟨2, _⟩ => (hout c).symm.trans (by
          show outs 51 main_v325 c = Function.update (V50 m outs c) main_v325 (outs 51 main_v325 c) main_v325
          rw [Function.update_self])
    have hrest : ∀ b, b ∉ Finset.univ.image (Pipeline.arrRef spec19) → vt (V51 m outs) c b = vt (V50 m outs) c b := fun b hb =>
      V51_of m outs c b fun h => hb (by
        rw [List.mem_singleton.mp h]; exact Finset.mem_image.mpr ⟨2, Finset.mem_univ _, rfl⟩)
    have hjoin := Pipeline.unscopedBufs_of_arrays (p := 19) (pcfgs (F := F)) adm (Ix := Unit) (Name := ℕ) (U := UR sig nD τ) (Lvl := ℕ)
      launch19.win launch19.arr_whole c (pdats m outs) ((pdats m outs 19 c).share_full fun _ => rfl)
      (vt (V50 m outs) c) (vt (V51 m outs) c) ((pdats m outs 19 c).arrAt · cfg19.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg20.lean ====
/- Region 20 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg20 (hout : ∀ c, outs 53 main_v331 c = (dat20 (vt (V52 m outs)) c).arrAt 3 cfg20.N) :
    Pipeline.RegionSeg (pcfgs (F := F)) adm (pdats m outs) () defs₀ 𝒱₀ L lv 20 where
  win := launch20.win.to₀
  block_pos := launch20.block_pos
  stage_whole := launch20.stage_whole
  K := PEmpty
  osem k := k.elim
  ho := Pipeline.OwnSemFacts.none _
  hbody c := (body_obligation20 (vt (V52 m outs)) c).loose
  hwaits := Pipeline.hwaits_of_owed_zero _ _ _ _ L lv 20 fun _ _ => rfl
  pre c := iprop(StableHlo.held (c : Thread nD τ) (Pipeline.ucRefs τ sig) (V52 m outs c) ∗ Rr c)
  post c := iprop(StableHlo.held (c : Thread nD τ) (Pipeline.ucRefs τ sig) (V53 m outs c) ∗ Rr c)
  X c := iprop(∃ r, prngReg c r)
  Y c := iprop(∃ r, prngReg c r)
  Z c := Pipeline.unscopedRest (Ix := Unit) (Name := ℕ) (U := UR sig nD τ) (Lvl := ℕ) spec20 c (vt (V52 m outs) c)
  hentry c := by
    rw [Pipeline.ownSems0_none]
    have hsplit := Pipeline.arrays_of_unscopedBufs (p := 20) (pcfgs (F := F)) adm (pdats m outs) launch20.win launch20.arr_whole c
      ((pdats m outs 20 c).share_full fun _ => rfl) (vt (V52 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m outs 20 c).Φ (Fin.last _) = Pipeline.ΦA spec20 c from rfl]; unfold Pipeline.ΦA
    iintro ⟨Hr, Hp⟩
    isplitl [Hp]; · iexact Hp
    isplitr; · iempintro
    iexact Hr
  hexit c := by
    have hF : ∀ w : Fin cfg20.W, (pdats m outs 20 c).arrAt w cfg20.N = vt (V53 m outs) c (Pipeline.arrRef spec20 w) := fun w => match w with
      | ⟨0, _⟩ => by
          show (pdats m outs 20 c).arrAt 0 cfg20.N = V53 m outs c (Pipeline.arrRef spec20 0)
          rw [V53_of m outs c (Pipeline.arrRef spec20 0) (by decide)]
          exact (pdats m outs 20 c).arrAt_in 0 rfl _
      | ⟨1, _⟩ => by
          show (pdats m outs 20 c).arrAt 1 cfg20.N = V53 m outs c (Pipeline.arrRef spec20 1)
          rw [V53_of m outs c (Pipeline.arrRef spec20 1) (by decide)]
          exact (pdats m outs 20 c).arrAt_in 1 rfl _
      | ⟨2, _⟩ => by
          show (pdats m outs 20 c).arrAt 2 cfg20.N = V53 m outs c (Pipeline.arrRef spec20 2)
          rw [V53_of m outs c (Pipeline.arrRef spec20 2) (by decide)]
          exact (pdats m outs 20 c).arrAt_in 2 rfl _
      | ⟨3, _⟩ => (hout c).symm.trans (by
          show outs 53 main_v331 c = Function.update (V52 m outs c) main_v331 (outs 53 main_v331 c) main_v331
          rw [Function.update_self])
    have hrest : ∀ b, b ∉ Finset.univ.image (Pipeline.arrRef spec20) → vt (V53 m outs) c b = vt (V52 m outs) c b := fun b hb =>
      V53_of m outs c b fun h => hb (by
        rw [List.mem_singleton.mp h]; exact Finset.mem_image.mpr ⟨3, Finset.mem_univ _, rfl⟩)
    have hjoin := Pipeline.unscopedBufs_of_arrays (p := 20) (pcfgs (F := F)) adm (Ix := Unit) (Name := ℕ) (U := UR sig nD τ) (Lvl := ℕ)
      launch20.win launch20.arr_whole c (pdats m outs) ((pdats m outs 20 c).share_full fun _ => rfl)
      (vt (V52 m outs) c) (vt (V53 m outs) c) ((pdats m outs 20 c).arrAt · cfg20.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg21.lean ====
/- Region 21 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg21 (hout : ∀ c, outs 54 main_v332 c = (dat21 (vt (V53 m outs)) c).arrAt 2 cfg21.N) :
    Pipeline.RegionSeg (pcfgs (F := F)) adm (pdats m outs) () defs₀ 𝒱₀ L lv 21 where
  win := launch21.win.to₀
  block_pos := launch21.block_pos
  stage_whole := launch21.stage_whole
  K := PEmpty
  osem k := k.elim
  ho := Pipeline.OwnSemFacts.none _
  hbody c := (body_obligation21 (vt (V53 m outs)) c).loose
  hwaits := Pipeline.hwaits_of_owed_zero _ _ _ _ L lv 21 fun _ _ => rfl
  pre c := iprop(StableHlo.held (c : Thread nD τ) (Pipeline.ucRefs τ sig) (V53 m outs c) ∗ Rr c)
  post c := iprop(StableHlo.held (c : Thread nD τ) (Pipeline.ucRefs τ sig) (V54 m outs c) ∗ Rr c)
  X c := iprop(∃ r, prngReg c r)
  Y c := iprop(∃ r, prngReg c r)
  Z c := Pipeline.unscopedRest (Ix := Unit) (Name := ℕ) (U := UR sig nD τ) (Lvl := ℕ) spec21 c (vt (V53 m outs) c)
  hentry c := by
    rw [Pipeline.ownSems0_none]
    have hsplit := Pipeline.arrays_of_unscopedBufs (p := 21) (pcfgs (F := F)) adm (pdats m outs) launch21.win launch21.arr_whole c
      ((pdats m outs 21 c).share_full fun _ => rfl) (vt (V53 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m outs 21 c).Φ (Fin.last _) = Pipeline.ΦA spec21 c from rfl]; unfold Pipeline.ΦA
    iintro ⟨Hr, Hp⟩
    isplitl [Hp]; · iexact Hp
    isplitr; · iempintro
    iexact Hr
  hexit c := by
    have hF : ∀ w : Fin cfg21.W, (pdats m outs 21 c).arrAt w cfg21.N = vt (V54 m outs) c (Pipeline.arrRef spec21 w) := fun w => match w with
      | ⟨0, _⟩ => by
          show (pdats m outs 21 c).arrAt 0 cfg21.N = V54 m outs c (Pipeline.arrRef spec21 0)
          rw [V54_of m outs c (Pipeline.arrRef spec21 0) (by decide)]
          exact (pdats m outs 21 c).arrAt_in 0 rfl _
      | ⟨1, _⟩ => by
          show (pdats m outs 21 c).arrAt 1 cfg21.N = V54 m outs c (Pipeline.arrRef spec21 1)
          rw [V54_of m outs c (Pipeline.arrRef spec21 1) (by decide)]
          exact (pdats m outs 21 c).arrAt_in 1 rfl _
      | ⟨2, _⟩ => (hout c).symm.trans (by
          show outs 54 main_v332 c = Function.update (V53 m outs c) main_v332 (outs 54 main_v332 c) main_v332
          rw [Function.update_self])
    have hrest : ∀ b, b ∉ Finset.univ.image (Pipeline.arrRef spec21) → vt (V54 m outs) c b = vt (V53 m outs) c b := fun b hb =>
      V54_of m outs c b fun h => hb (by
        rw [List.mem_singleton.mp h]; exact Finset.mem_image.mpr ⟨2, Finset.mem_univ _, rfl⟩)
    have hjoin := Pipeline.unscopedBufs_of_arrays (p := 21) (pcfgs (F := F)) adm (Ix := Unit) (Name := ℕ) (U := UR sig nD τ) (Lvl := ℕ)
      launch21.win launch21.arr_whole c (pdats m outs) ((pdats m outs 21 c).share_full fun _ => rfl)
      (vt (V53 m outs) c) (vt (V54 m outs) c) ((pdats m outs 21 c).arrAt · cfg21.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg22.lean ====
/- Region 22 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg22 (hout : ∀ c, outs 58 main_v369 c = (dat22 (vt (V57 m outs)) c).arrAt 2 cfg22.N) :
    Pipeline.RegionSeg (pcfgs (F := F)) adm (pdats m outs) () defs₀ 𝒱₀ L lv 22 where
  win := launch22.win.to₀
  block_pos := launch22.block_pos
  stage_whole := launch22.stage_whole
  K := PEmpty
  osem k := k.elim
  ho := Pipeline.OwnSemFacts.none _
  hbody c := (body_obligation22 (vt (V57 m outs)) c).loose
  hwaits := Pipeline.hwaits_of_owed_zero _ _ _ _ L lv 22 fun _ _ => rfl
  pre c := iprop(StableHlo.held (c : Thread nD τ) (Pipeline.ucRefs τ sig) (V57 m outs c) ∗ Rr c)
  post c := iprop(StableHlo.held (c : Thread nD τ) (Pipeline.ucRefs τ sig) (V58 m outs c) ∗ Rr c)
  X c := iprop(∃ r, prngReg c r)
  Y c := iprop(∃ r, prngReg c r)
  Z c := Pipeline.unscopedRest (Ix := Unit) (Name := ℕ) (U := UR sig nD τ) (Lvl := ℕ) spec22 c (vt (V57 m outs) c)
  hentry c := by
    rw [Pipeline.ownSems0_none]
    have hsplit := Pipeline.arrays_of_unscopedBufs (p := 22) (pcfgs (F := F)) adm (pdats m outs) launch22.win launch22.arr_whole c
      ((pdats m outs 22 c).share_full fun _ => rfl) (vt (V57 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m outs 22 c).Φ (Fin.last _) = Pipeline.ΦA spec22 c from rfl]; unfold Pipeline.ΦA
    iintro ⟨Hr, Hp⟩
    isplitl [Hp]; · iexact Hp
    isplitr; · iempintro
    iexact Hr
  hexit c := by
    have hF : ∀ w : Fin cfg22.W, (pdats m outs 22 c).arrAt w cfg22.N = vt (V58 m outs) c (Pipeline.arrRef spec22 w) := fun w => match w with
      | ⟨0, _⟩ => by
          show (pdats m outs 22 c).arrAt 0 cfg22.N = V58 m outs c (Pipeline.arrRef spec22 0)
          rw [V58_of m outs c (Pipeline.arrRef spec22 0) (by decide)]
          exact (pdats m outs 22 c).arrAt_in 0 rfl _
      | ⟨1, _⟩ => by
          show (pdats m outs 22 c).arrAt 1 cfg22.N = V58 m outs c (Pipeline.arrRef spec22 1)
          rw [V58_of m outs c (Pipeline.arrRef spec22 1) (by decide)]
          exact (pdats m outs 22 c).arrAt_in 1 rfl _
      | ⟨2, _⟩ => (hout c).symm.trans (by
          show outs 58 main_v369 c = Function.update (V57 m outs c) main_v369 (outs 58 main_v369 c) main_v369
          rw [Function.update_self])
    have hrest : ∀ b, b ∉ Finset.univ.image (Pipeline.arrRef spec22) → vt (V58 m outs) c b = vt (V57 m outs) c b := fun b hb =>
      V58_of m outs c b fun h => hb (by
        rw [List.mem_singleton.mp h]; exact Finset.mem_image.mpr ⟨2, Finset.mem_univ _, rfl⟩)
    have hjoin := Pipeline.unscopedBufs_of_arrays (p := 22) (pcfgs (F := F)) adm (Ix := Unit) (Name := ℕ) (U := UR sig nD τ) (Lvl := ℕ)
      launch22.win launch22.arr_whole c (pdats m outs) ((pdats m outs 22 c).share_full fun _ => rfl)
      (vt (V57 m outs) c) (vt (V58 m outs) c) ((pdats m outs 22 c).arrAt · cfg22.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.Seg23.lean ====
/- Region 23 as one item of @main: entered at the contents before it, left with its result array at what its points wrote. -/
import proofs.«160853_j19842748908317_1_alg».proof.Proof.KI.PFam

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
set_option backward.isDefEq.respectTransparency.types false in
def reg23 (hout : ∀ c, outs 60 main_v375 c = (dat23 (vt (V59 m outs)) c).arrAt 3 cfg23.N) :
    Pipeline.RegionSeg (pcfgs (F := F)) adm (pdats m outs) () defs₀ 𝒱₀ L lv 23 where
  win := launch23.win.to₀
  block_pos := launch23.block_pos
  stage_whole := launch23.stage_whole
  K := PEmpty
  osem k := k.elim
  ho := Pipeline.OwnSemFacts.none _
  hbody c := (body_obligation23 (vt (V59 m outs)) c).loose
  hwaits := Pipeline.hwaits_of_owed_zero _ _ _ _ L lv 23 fun _ _ => rfl
  pre c := iprop(StableHlo.held (c : Thread nD τ) (Pipeline.ucRefs τ sig) (V59 m outs c) ∗ Rr c)
  post c := iprop(StableHlo.held (c : Thread nD τ) (Pipeline.ucRefs τ sig) (V60 m outs c) ∗ Rr c)
  X c := iprop(∃ r, prngReg c r)
  Y c := iprop(∃ r, prngReg c r)
  Z c := Pipeline.unscopedRest (Ix := Unit) (Name := ℕ) (U := UR sig nD τ) (Lvl := ℕ) spec23 c (vt (V59 m outs) c)
  hentry c := by
    rw [Pipeline.ownSems0_none]
    have hsplit := Pipeline.arrays_of_unscopedBufs (p := 23) (pcfgs (F := F)) adm (pdats m outs) launch23.win launch23.arr_whole c
      ((pdats m outs 23 c).share_full fun _ => rfl) (vt (V59 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m outs 23 c).Φ (Fin.last _) = Pipeline.ΦA spec23 c from rfl]; unfold Pipeline.ΦA
    iintro ⟨Hr, Hp⟩
    isplitl [Hp]; · iexact Hp
    isplitr; · iempintro
    iexact Hr
  hexit c := by
    have hF : ∀ w : Fin cfg23.W, (pdats m outs 23 c).arrAt w cfg23.N = vt (V60 m outs) c (Pipeline.arrRef spec23 w) := fun w => match w with
      | ⟨0, _⟩ => by
          show (pdats m outs 23 c).arrAt 0 cfg23.N = V60 m outs c (Pipeline.arrRef spec23 0)
          rw [V60_of m outs c (Pipeline.arrRef spec23 0) (by decide)]
          exact (pdats m outs 23 c).arrAt_in 0 rfl _
      | ⟨1, _⟩ => by
          show (pdats m outs 23 c).arrAt 1 cfg23.N = V60 m outs c (Pipeline.arrRef spec23 1)
          rw [V60_of m outs c (Pipeline.arrRef spec23 1) (by decide)]
          exact (pdats m outs 23 c).arrAt_in 1 rfl _
      | ⟨2, _⟩ => by
          show (pdats m outs 23 c).arrAt 2 cfg23.N = V60 m outs c (Pipeline.arrRef spec23 2)
          rw [V60_of m outs c (Pipeline.arrRef spec23 2) (by decide)]
          exact (pdats m outs 23 c).arrAt_in 2 rfl _
      | ⟨3, _⟩ => (hout c).symm.trans (by
          show outs 60 main_v375 c = Function.update (V59 m outs c) main_v375 (outs 60 main_v375 c) main_v375
          rw [Function.update_self])
    have hrest : ∀ b, b ∉ Finset.univ.image (Pipeline.arrRef spec23) → vt (V60 m outs) c b = vt (V59 m outs) c b := fun b hb =>
      V60_of m outs c b fun h => hb (by
        rw [List.mem_singleton.mp h]; exact Finset.mem_image.mpr ⟨3, Finset.mem_univ _, rfl⟩)
    have hjoin := Pipeline.unscopedBufs_of_arrays (p := 23) (pcfgs (F := F)) adm (Ix := Unit) (Name := ℕ) (U := UR sig nD τ) (Lvl := ℕ)
      launch23.win launch23.arr_whole c (pdats m outs) ((pdats m outs 23 c).share_full fun _ => rfl)
      (vt (V59 m outs) c) (vt (V60 m outs) c) ((pdats m outs 23 c).arrAt · cfg23.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Rg

end
-- ==== Proof.KI.RunCond.lean ====
/- The run of @main with the result array read off the last state, beside the eight arguments. -/
import proofs.«160853_j19842748908317_1_alg».proof.Proof.KI.RegionsP

set_option maxRecDepth 2996

noncomputable section

namespace Cert.KernelIdeal.Rg

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option maxHeartbeats 8000000 in

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 24) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 25 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE24 : ∀ c : Dev nD, E 24 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V14 m outs c) ∗ E 5 c) ⊢ R5.pre c)
    (hpost5 : ∀ c : Dev nD, R5.post c ⊢ iprop(StableHlo.held (c : Thread nD τ) (Pipeline.ucRefs τ sig) (V15 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V16 m outs c) ∗ E 6 c) ⊢ R6.pre c)
    (hpost6 : ∀ c : Dev nD, R6.post c ⊢ iprop(StableHlo.held (c : Thread nD τ) (Pipeline.ucRefs τ sig) (V17 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V20 m outs c) ∗ E 7 c) ⊢ R7.pre c)
    (hpost7 : ∀ c : Dev nD, R7.post c ⊢ iprop(StableHlo.held (c : Thread nD τ) (Pipeline.ucRefs τ sig) (V21 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V22 m outs c) ∗ E 8 c) ⊢ R8.pre c)
    (hpost8 : ∀ c : Dev nD, R8.post c ⊢ iprop(StableHlo.held (c : Thread nD τ) (Pipeline.ucRefs τ sig) (V23 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V27 m outs c) ∗ E 10 c) ⊢ R10.pre c)
    (hpost10 : ∀ c : Dev nD, R10.post c ⊢ iprop(StableHlo.held (c : Thread nD τ) (Pipeline.ucRefs τ sig) (V28 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V29 m outs c) ∗ E 11 c) ⊢ R11.pre c)
    (hpost11 : ∀ c : Dev nD, R11.post c ⊢ iprop(StableHlo.held (c : Thread nD τ) (Pipeline.ucRefs τ sig) (V30 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V31 m outs c) ∗ E 12 c) ⊢ R12.pre c)
    (hpost12 : ∀ c : Dev nD, R12.post c ⊢ iprop(StableHlo.held (c : Thread nD τ) (Pipeline.ucRefs τ sig) (V32 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V35 m outs c) ∗ E 13 c) ⊢ R13.pre c)
    (hpost13 : ∀ c : Dev nD, R13.post c ⊢ iprop(StableHlo.held (c : Thread nD τ) (Pipeline.ucRefs τ sig) (V36 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V37 m outs c) ∗ E 14 c) ⊢ R14.pre c)
    (hpost14 : ∀ c : Dev nD, R14.post c ⊢ iprop(StableHlo.held (c : Thread nD τ) (Pipeline.ucRefs τ sig) (V38 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V38 m outs c) ∗ E 15 c) ⊢ R15.pre c)
    (hpost15 : ∀ c : Dev nD, R15.post c ⊢ iprop(StableHlo.held (c : Thread nD τ) (Pipeline.ucRefs τ sig) (V39 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V42 m outs c) ∗ E 16 c) ⊢ R16.pre c)
    (hpost16 : ∀ c : Dev nD, R16.post c ⊢ iprop(StableHlo.held (c : Thread nD τ) (Pipeline.ucRefs τ sig) (V43 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V44 m outs c) ∗ E 17 c) ⊢ R17.pre c)
    (hpost17 : ∀ c : Dev nD, R17.post c ⊢ iprop(StableHlo.held (c : Thread nD τ) (Pipeline.ucRefs τ sig) (V45 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V46 m outs c) ∗ E 18 c) ⊢ R18.pre c)
    (hpost18 : ∀ c : Dev nD, R18.post c ⊢ iprop(StableHlo.held (c : Thread nD τ) (Pipeline.ucRefs τ sig) (V47 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V50 m outs c) ∗ E 19 c) ⊢ R19.pre c)
    (hpost19 : ∀ c : Dev nD, R19.post c ⊢ iprop(StableHlo.held (c : Thread nD τ) (Pipeline.ucRefs τ sig) (V51 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V52 m outs c) ∗ E 20 c) ⊢ R20.pre c)
    (hpost20 : ∀ c : Dev nD, R20.post c ⊢ iprop(StableHlo.held (c : Thread nD τ) (Pipeline.ucRefs τ sig) (V53 m outs c) ∗ E 21 c))
    (R21 : RegionSeg (pcfgs (F := F)) adm pdats ι defs₀ 𝒱₀ L lv 21)
    (hpre21 : ∀ c : Dev nD, iprop(StableHlo.held (c : Thread nD τ) (Pipeline.ucRefs τ sig) (V53 m outs c) ∗ E 21 c) ⊢ R21.pre c)
    (hpost21 : ∀ c : Dev nD, R21.post c ⊢ iprop(StableHlo.held (c : Thread nD τ) (Pipeline.ucRefs τ sig) (V54 m outs c) ∗ E 22 c))
    (R22 : RegionSeg (pcfgs (F := F)) adm pdats ι defs₀ 𝒱₀ L lv 22)
    (hpre22 : ∀ c : Dev nD, iprop(StableHlo.held (c : Thread nD τ) (Pipeline.ucRefs τ sig) (V57 m outs c) ∗ E 22 c) ⊢ R22.pre c)
    (hpost22 : ∀ c : Dev nD, R22.post c ⊢ iprop(StableHlo.held (c : Thread nD τ) (Pipeline.ucRefs τ sig) (V58 m outs c) ∗ E 23 c))
    (R23 : RegionSeg (pcfgs (F := F)) adm pdats ι defs₀ 𝒱₀ L lv 23)
    (hpre23 : ∀ c : Dev nD, iprop(StableHlo.held (c : Thread nD τ) (Pipeline.ucRefs τ sig) (V59 m outs c) ∗ E 23 c) ⊢ R23.pre c)
    (hpost23 : ∀ c : Dev nD, R23.post c ⊢ iprop(StableHlo.held (c : Thread nD τ) (Pipeline.ucRefs τ sig) (V60 m outs c) ∗ E 24 c)) :
    θ_run defs (onTc (τ := τ) (main (F := F))) ⟨m, fun _ => 0, ρ⟩ (fun r => ∀ c : Dev nD,
      r.2.mem ((c.tc : Thread nD τ).loc main_v380) = V61 m outs c main_v380
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20 R21 R22 R23)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 R21 R22 R23 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          StableHlo.seq hostOps13_1,
          StableHlo.seq hostOps13_2,
          Prog.lift (.customCall (Pipeline.entry 13) ()),
          StableHlo.seq hostOps14,
          Prog.lift (.customCall (Pipeline.entry 14) ()),
          Prog.lift (.customCall (Pipeline.entry 15) ()),
          StableHlo.seq hostOps16,
          StableHlo.seq hostOps16_1,
          StableHlo.seq hostOps16_2,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          StableHlo.seq hostOps19_1,
          StableHlo.seq hostOps19_2,
          Prog.lift (.customCall (Pipeline.entry 19) ()),
          StableHlo.seq hostOps20,
          Prog.lift (.customCall (Pipeline.entry 20) ()),
          Prog.lift (.customCall (Pipeline.entry 21) ()),
          StableHlo.seq hostOps22,
          StableHlo.seq hostOps22_1,
          StableHlo.seq hostOps22_2,
          Prog.lift (.customCall (Pipeline.entry 22) ()),
          StableHlo.seq hostOps23,
          Prog.lift (.customCall (Pipeline.entry 23) ()),
          StableHlo.seq hostOps24 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V61 m outs c))
    (hch := fun c => ⟨.rfl, hpre0 c, hpost0 c, .rfl, .rfl, hpre1 c, hpost1 c, hpre2 c, (hpost2 c).trans (hpre3 c), hpost3 c, .rfl, .rfl, hpre4 c, hpost4 c, hpre5 c, hpost5 c, hpre6 c, hpost6 c, .rfl, .rfl, hpre7 c, hpost7 c, hpre8 c, (hpost8 c).trans (hpre9 c), hpost9 c, .rfl, .rfl, hpre10 c, hpost10 c, hpre11 c, hpost11 c, hpre12 c, hpost12 c, .rfl, .rfl, hpre13 c, hpost13 c, hpre14 c, (hpost14 c).trans (hpre15 c), hpost15 c, .rfl, .rfl, hpre16 c, hpost16 c, hpre17 c, hpost17 c, hpre18 c, hpost18 c, .rfl, .rfl, hpre19 c, hpost19 c, hpre20 c, (hpost20 c).trans (hpre21 c), hpost21 c, .rfl, .rfl, hpre22 c, hpost22 c, hpre23 c, hpost23 c, sep_mono .rfl (hE24 c)⟩)
    (hinit := ?_) (QY := fun c s => s.mem ((c.tc : Thread nD τ).loc main_v380) = V61 m outs c main_v380 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V61 m outs c) s') $$ [Hh HSI]
    · isplitl [Hh] <;> iassumption
    icases Hr with ⟨%h, HSI⟩
    imodintro
    isplitr
    · ipureintro
      exact ⟨h (Proc.devRef .tc main_v380) (Finset.mem_filter.mpr ⟨StableHlo.devRef_mem_tcRefs main_v380, by decide⟩),
        (h (Proc.devRef .tc main_arg0) (Finset.mem_filter.mpr ⟨StableHlo.devRef_mem_tcRefs main_arg0, by decide⟩)).trans (V61_main_arg0 m outs c),
        (h (Proc.devRef .tc main_arg1) (Finset.mem_filter.mpr ⟨StableHlo.devRef_mem_tcRefs main_arg1, by decide⟩)).trans (V61_main_arg1 m outs c),
        (h (Proc.devRef .tc main_arg2) (Finset.mem_filter.mpr ⟨StableHlo.devRef_mem_tcRefs main_arg2, by decide⟩)).trans (V61_main_arg2 m outs c),
        (h (Proc.devRef .tc main_arg3) (Finset.mem_filter.mpr ⟨StableHlo.devRef_mem_tcRefs main_arg3, by decide⟩)).trans (V61_main_arg3 m outs c),
        (h (Proc.devRef .tc main_arg4) (Finset.mem_filter.mpr ⟨StableHlo.devRef_mem_tcRefs main_arg4, by decide⟩)).trans (V61_main_arg4 m outs c),
        (h (Proc.devRef .tc main_arg5) (Finset.mem_filter.mpr ⟨StableHlo.devRef_mem_tcRefs main_arg5, by decide⟩)).trans (V61_main_arg5 m outs c),
        (h (Proc.devRef .tc main_arg6) (Finset.mem_filter.mpr ⟨StableHlo.devRef_mem_tcRefs main_arg6, by decide⟩)).trans (V61_main_arg6 m outs c),
        (h (Proc.devRef .tc main_arg7) (Finset.mem_filter.mpr ⟨StableHlo.devRef_mem_tcRefs main_arg7, by decide⟩)).trans (V61_main_arg7 m outs c)⟩
    · iexact HSI

end Cert.KernelIdeal.Rg

end
-- ==== Proof.KI.RunV.lean ====
/- The idealized program's run with its result named: the result array ends at the last boundary's contents, the arguments as launched. -/
import proofs.«160853_j19842748908317_1_alg».proof.Proof.KI.Rest
import proofs.«160853_j19842748908317_1_alg».proof.Proof.KI.Seg0
import proofs.«160853_j19842748908317_1_alg».proof.Proof.KI.Seg1
import proofs.«160853_j19842748908317_1_alg».proof.Proof.KI.Seg2
import proofs.«160853_j19842748908317_1_alg».proof.Proof.KI.Seg3
import proofs.«160853_j19842748908317_1_alg».proof.Proof.KI.Seg4
import proofs.«160853_j19842748908317_1_alg».proof.Proof.KI.Seg5
import proofs.«160853_j19842748908317_1_alg».proof.Proof.KI.Seg6
import proofs.«160853_j19842748908317_1_alg».proof.Proof.KI.Seg7
import proofs.«160853_j19842748908317_1_alg».proof.Proof.KI.Seg8
import proofs.«160853_j19842748908317_1_alg».proof.Proof.KI.Seg9
import proofs.«160853_j19842748908317_1_alg».proof.Proof.KI.Seg10
import proofs.«160853_j19842748908317_1_alg».proof.Proof.KI.Seg11
import proofs.«160853_j19842748908317_1_alg».proof.Proof.KI.Seg12
import proofs.«160853_j19842748908317_1_alg».proof.Proof.KI.Seg13
import proofs.«160853_j19842748908317_1_alg».proof.Proof.KI.Seg14
import proofs.«160853_j19842748908317_1_alg».proof.Proof.KI.Seg15
import proofs.«160853_j19842748908317_1_alg».proof.Proof.KI.Seg16
import proofs.«160853_j19842748908317_1_alg».proof.Proof.KI.Seg17
import proofs.«160853_j19842748908317_1_alg».proof.Proof.KI.Seg18
import proofs.«160853_j19842748908317_1_alg».proof.Proof.KI.Seg19
import proofs.«160853_j19842748908317_1_alg».proof.Proof.KI.Seg20
import proofs.«160853_j19842748908317_1_alg».proof.Proof.KI.Seg21
import proofs.«160853_j19842748908317_1_alg».proof.Proof.KI.Seg22
import proofs.«160853_j19842748908317_1_alg».proof.Proof.KI.Seg23
import proofs.«160853_j19842748908317_1_alg».proof.Proof.KI.RunCond

set_option maxRecDepth 16384

noncomputable section

namespace Cert.KernelIdeal.Rg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem runV : θ_run defs (onTc (τ := τ) (main (F := F))) ⟨m, fun _ => 0, ρ⟩ (fun r => ∀ c : Dev nD,
      r.2.mem ((c.tc : Thread nD τ).loc main_v380) = V61 m (outsX m) c main_v380
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond (F := F) m emb₁ () 𝒱₀ L lv (fun _ _ => rfl) ρ (outsX m) (pdats m (outsX m)) 0 (fun _ => (BI.emp : sProp 𝕄))
    (initOf (Pipeline.cells cfgs cellOf_inj) (Pipeline.launchToks cfgs cellOf_inj)) launch_ghost
    (fun _ c => Rr c) (rest_init ρ) (fun c => by iintro ⟨-, HO⟩; iexact HO)
    (reg0 m (outsX m) (hout0 m)) (fun _ => .rfl) (fun _ => .rfl)
    (reg1 m (outsX m) (hout1 m)) (fun _ => .rfl) (fun _ => .rfl)
    (reg2 m (outsX m) (hout2 m)) (fun _ => .rfl) (fun _ => .rfl)
    (reg3 m (outsX m) (hout3 m)) (fun _ => .rfl) (fun _ => .rfl)
    (reg4 m (outsX m) (hout4 m)) (fun _ => .rfl) (fun _ => .rfl)
    (reg5 m (outsX m) (hout5 m)) (fun _ => .rfl) (fun _ => .rfl)
    (reg6 m (outsX m) (hout6 m)) (fun _ => .rfl) (fun _ => .rfl)
    (reg7 m (outsX m) (hout7 m)) (fun _ => .rfl) (fun _ => .rfl)
    (reg8 m (outsX m) (hout8 m)) (fun _ => .rfl) (fun _ => .rfl)
    (reg9 m (outsX m) (hout9 m)) (fun _ => .rfl) (fun _ => .rfl)
    (reg10 m (outsX m) (hout10 m)) (fun _ => .rfl) (fun _ => .rfl)
    (reg11 m (outsX m) (hout11 m)) (fun _ => .rfl) (fun _ => .rfl)
    (reg12 m (outsX m) (hout12 m)) (fun _ => .rfl) (fun _ => .rfl)
    (reg13 m (outsX m) (hout13 m)) (fun _ => .rfl) (fun _ => .rfl)
    (reg14 m (outsX m) (hout14 m)) (fun _ => .rfl) (fun _ => .rfl)
    (reg15 m (outsX m) (hout15 m)) (fun _ => .rfl) (fun _ => .rfl)
    (reg16 m (outsX m) (hout16 m)) (fun _ => .rfl) (fun _ => .rfl)
    (reg17 m (outsX m) (hout17 m)) (fun _ => .rfl) (fun _ => .rfl)
    (reg18 m (outsX m) (hout18 m)) (fun _ => .rfl) (fun _ => .rfl)
    (reg19 m (outsX m) (hout19 m)) (fun _ => .rfl) (fun _ => .rfl)
    (reg20 m (outsX m) (hout20 m)) (fun _ => .rfl) (fun _ => .rfl)
    (reg21 m (outsX m) (hout21 m)) (fun _ => .rfl) (fun _ => .rfl)
    (reg22 m (outsX m) (hout22 m)) (fun _ => .rfl) (fun _ => .rfl)
    (reg23 m (outsX m) (hout23 m)) (fun _ => .rfl) (fun _ => .rfl)

end Cert.KernelIdeal.Rg

end
-- ==== Proof.KI.ValDot.lean ====
/- The product of a 5000-row block with the 128 x 128 weight matrix, entry by entry, is the whole-array product at that row: both are the sum over k of (row, k) times (k, column). Said once for all eight product regions. -/
import proofs.«160853_j19842748908317_1_alg».proof.Proof.Gen.KernelIdeal.Skeleton
import proofs.«160853_j19842748908317_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe
open Idealize.ShloMosaic.ValueIdx

theorem hz : (![0, 0] : Fin 2 → Nat) = fun _ => 0 := funext fun a => by fin_cases a <;> rfl

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none
    (truncf .bf16 x0 bitsLt_bf16_f32) (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  show x0 (dot_S5000x128_S128x128_S5000x128_1_0_0_1_n_n.lhsIdx (ix2 p q) ((contrEquiv1 dot_S5000x128_S128x128_S5000x128_1_0_0_1_n_n 128 rfl rfl).symm k)) * x1 (dot_S5000x128_S128x128_S5000x128_1_0_0_1_n_n.rhsIdx (ix2 p q) ((contrEquiv1 dot_S5000x128_S128x128_S5000x128_1_0_0_1_n_n 128 rfl rfl).symm k)) = _
  rw [el, er]

theorem lhsH_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl

theorem lhsH_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q

theorem rhsH_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q

theorem rhsH_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

theorem hostDot_apply (X : FVec Ideal Cert.ReferenceIdeal.S50000x128 .f32) (W : FVec Ideal Cert.ReferenceIdeal.S128x128 .f32) (r : Fin 50000) (q : Fin 128) :
    Host.dotGeneral (F := Ideal) Cert.ReferenceIdeal.dot_S50000x128_S128x128_S50000x128_1_0_0_1_n_n none X W (ix2 r q) = ∑ k : Fin 128, X (ix2 r k) * W (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact lhsH_0 _ _
    | ⟨1, _⟩ => exact (lhsH_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-- The same sum when the block first passes through a shape cast to its own shape. -/
theorem payS_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  have hs : shapeCast S5000x128 x0 shapeCasts_S5000x128_S5000x128 = x0 := shapeCast_self x0 _
  unfold k3_pay1
  refine (Ideal.matmul_constant_zero_apply dot_S5000x128_S128x128_S5000x128_1_0_0_1_n_n none
    (truncf .bf16 (shapeCast S5000x128 x0 shapeCasts_S5000x128_S5000x128) bitsLt_bf16_f32) (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  show shapeCast S5000x128 x0 shapeCasts_S5000x128_S5000x128 (dot_S5000x128_S128x128_S5000x128_1_0_0_1_n_n.lhsIdx (ix2 p q) ((contrEquiv1 dot_S5000x128_S128x128_S5000x128_1_0_0_1_n_n 128 rfl rfl).symm k)) * x1 (dot_S5000x128_S128x128_S5000x128_1_0_0_1_n_n.rhsIdx (ix2 p q) ((contrEquiv1 dot_S5000x128_S128x128_S5000x128_1_0_0_1_n_n 128 rfl rfl).symm k)) = _
  rw [hs, el, er]

/-- A payload that is this sum, on a block holding rows 5000·n … of X beside the whole of W, is the whole-array product at row 5000·n + p. -/
theorem block_eq (pay : Vec Ideal S5000x128 .f32 → Vec Ideal S128x128 .f32 → FVec Ideal S5000x128 .f32)
    (hpay : ∀ x0 x1 (p : Fin 5000) (q : Fin 128), pay x0 x1 (ix2 p q) = ∑ k : Fin 128, x0 (ix2 p k) * x1 (ix2 k q))
    (X : FVec Ideal Cert.ReferenceIdeal.S50000x128 .f32) (W : FVec Ideal Cert.ReferenceIdeal.S128x128 .f32)
    (x0 : Vec Ideal S5000x128 .f32) (x1 : Vec Ideal S128x128 .f32) (n : Nat)
    (p : Fin 5000) (q : Fin 128) (hr : 5000 * n + p.val < 50000)
    (h0 : ∀ k : Fin 128, x0 (ix2 p k) = X (ix2 ⟨5000 * n + p.val, hr⟩ k))
    (h1 : ∀ k : Fin 128, x1 (ix2 k q) = W (ix2 k q)) :
    pay x0 x1 (ix2 p q) = Host.dotGeneral (F := Ideal) Cert.ReferenceIdeal.dot_S50000x128_S128x128_S50000x128_1_0_0_1_n_n none X W (ix2 ⟨5000 * n + p.val, hr⟩ q) := by
  rw [hpay, hostDot_apply]
  exact Finset.sum_congr rfl fun k _ => by rw [h0 k, h1 k]

end Cert.KernelIdeal.Rg

end
-- ==== Proof.KI.Val0.lean ====
/- Region 0 leaves the product of its two input arrays in its result array: point t writes rows 5000·t … 5000·t + 4999 of that product, and the ten blocks cover the 50000 rows. -/
import proofs.«160853_j19842748908317_1_alg».proof.Proof.KI.Reg0
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem iblk0_0_apply (c : Dev nD) (t : Fin cfg0.N) (p : Fin 5000) (k : Fin 128) (hr : 5000 * t.val + p.val < 50000) :
    (iblk0 V c 0 t : Vec Ideal S5000x128 .f32) (ix2 p k)
      = (V c (Pipeline.arrRef spec0 0) : FVec Ideal Cert.ReferenceIdeal.S50000x128 .f32) (ix2 ⟨5000 * t.val + p.val, hr⟩ k) := by
  obtain ⟨hxa, hxb, -, -, -, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = 5000 * t.val + p.val; rw [hxa]; omega
  | ⟨1, _⟩ => show win0_0.index t (1 : Fin 2) * 128 + 1 * k.val = k.val; rw [hxb]; omega

theorem iblk0_1_apply (c : Dev nD) (t : Fin cfg0.N) (k q : Fin 128) :
    (iblk0 V c 1 t : Vec Ideal S128x128 .f32) (ix2 k q)
      = (V c (Pipeline.arrRef spec0 1) : FVec Ideal Cert.ReferenceIdeal.S128x128 .f32) (ix2 k q) := by
  obtain ⟨-, -, hwa, hwb, -, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [hwa]; omega
  | ⟨1, _⟩ => show win0_1.index t (1 : Fin 2) * 128 + 1 * q.val = q.val; rw [hwb]; omega

abbrev prod0 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec0 0)) (V c (Pipeline.arrRef spec0 1))

theorem flushed0_2_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid0.N = 10 := N_0
  have ht : t.val < grid0.N := t.isLt
  obtain ⟨-, -, -, -, hya, hyb⟩ := idx_facts0 t
  have hr : 5000 * t.val + (j 0).val < 50000 := by omega
  have ex : (cfg0.win 2).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg0.win 2).blk t).view.emb j = ix2 (⟨5000 * t.val + (j 0).val, hr⟩ : Fin 50000) (⟨(j 1).val, hj1⟩ : Fin 128) := by
    funext a
    apply Fin.ext
    match a with
    | ⟨0, _⟩ => show win0_2.index t (0 : Fin 2) * 5000 + 1 * (j 0).val = 5000 * t.val + (j 0).val; rw [hya]; omega
    | ⟨1, _⟩ => show win0_2.index t (1 : Fin 2) * 128 + 1 * (j 1).val = (j 1).val; rw [hyb]; omega
  refine (congrArg (k0_pay1 (F := Ideal) (iblk0 V c 0 t) (iblk0 V c 1 t)) ex).trans ?_
  refine Eq.trans ?_ (congrArg (prod0 V c) ee).symm
  exact block_eq (k0_pay1 (F := Ideal)) pay_apply (V c (Pipeline.arrRef spec0 0)) (V c (Pipeline.arrRef spec0 1)) (iblk0 V c 0 t) (iblk0 V c 1 t) t.val
    ⟨(j 0).val, hj0⟩ ⟨(j 1).val, hj1⟩ hr (fun k => iblk0_0_apply V c t ⟨(j 0).val, hj0⟩ k hr)
    (fun k => iblk0_1_apply V c t k ⟨(j 1).val, hj1⟩)

theorem rows_cover0_2 (i : Cert.ReferenceIdeal.S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, hya, hyb⟩ := idx_facts0 t
  refine ⟨t, flush0_2 t, ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [hya, ht]; omega
  | ⟨1, _⟩ =>
    show win0_2.index t (1 : Fin 2) * 128 ≤ (i 1).val ∧ (i 1).val < win0_2.index t (1 : Fin 2) * 128 + 128
    rw [hyb]; omega

theorem val0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none
          (V c (Pipeline.arrRef spec0 0)) (V c (Pipeline.arrRef spec0 1)) :=
  (dat0 (F := Ideal) V c).arrAt_eq_of_cover 2 (prod0 V c) (fun t _ => flushed0_2_eq V c t) rows_cover0_2
end Cert.KernelIdeal.Rg

end
-- ==== Proof.KI.Lay.lean ====
/- A vector reshaped to a column is that vector broadcast along the rows, and reshaped to a row, broadcast along the lanes. -/
import proofs.«160853_j19842748908317_1_alg».proof.Proof.Gen.KernelIdeal.Skeleton
import proofs.«160853_j19842748908317_1_alg».proof.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.Sem
open Idealize.ShloMosaic.ValueIdx

section Row
variable {F : FTy → Type} [FloatOps F]
variable [Cert.ReferenceIdeal.Facts₀]

theorem row_reshape_eq_bcast (v : (⟨S128, .f32⟩ : BufTy).Contents (Elt F)) :
    (shapeCast S1x128 v shapeCasts_S128_S1x128 : (⟨S1x128, .f32⟩ : BufTy).Contents (Elt F))
      = broadcastInDim Cert.ReferenceIdeal.S1x128 ![1] Cert.ReferenceIdeal.Facts₀.bcast_S128_S1x128_1 v := by
  funext j
  obtain ⟨u, q, rfl⟩ : ∃ (u : Fin 1) (q : Fin 128), j = ix2 u q := ⟨j 0, j 1, eq_ix2 j⟩
  refine (shapeCast_a_1a_apply v shapeCasts_S128_S1x128 u q).trans ?_
  refine (broadcastInDim_apply _ _ v (ix2 u q) (ix1 q) fun a => ?_).symm
  match a with
  | ⟨0, _⟩ => exact (if_neg (show ¬(128 : ℕ) = 1 by decide)).symm

end Row

theorem col_reshape_eq_bcast [Cert.ReferenceIdeal.Facts₀] {F : FTy → Type} [FloatOps F] (v : (⟨S850000, .f32⟩ : BufTy).Contents (Elt F)) :
    (shapeCast S850000x1 v shapeCasts_S850000_S850000x1 : (⟨S850000x1, .f32⟩ : BufTy).Contents (Elt F))
      = broadcastInDim Cert.ReferenceIdeal.S850000x1 ![0] Cert.ReferenceIdeal.Facts₀.bcast_S850000_S850000x1_0 v := by
  funext j
  obtain ⟨r, u, rfl⟩ : ∃ (r : Fin 850000) (u : Fin 1), j = ix2 r u := ⟨j 0, j 1, eq_ix2 j⟩
  have hu : u.val = 0 := by omega
  refine (shapeCast_apply (s := S850000) (t := S850000x1) v shapeCasts_S850000_S850000x1 (ix2 r u) (ix1 r) ?_).trans
    (broadcastInDim_apply (s := Cert.ReferenceIdeal.S850000) (t := Cert.ReferenceIdeal.S850000x1) ![0]
      Cert.ReferenceIdeal.Facts₀.bcast_S850000_S850000x1_0 v (ix2 r u) (ix1 r) fun a => ?_).symm
  · rw [Shape.rowMajor_val_two, Shape.rowMajor_val_one]
    show r.val = r.val * 1 + u.val
    omega
  · match a with
    | ⟨0, _⟩ => rfl

end Cert.KernelIdeal.Rg

end
-- ==== Proof.KI.ValScale.lean ====
/- A row block scaled by its coefficient column, entry by entry, is the whole array times the column broadcast along the lanes, at that row. Said once for the eight scaling regions. -/
import proofs.«160853_j19842748908317_1_alg».proof.Proof.KI.Reg1
import proofs.«160853_j19842748908317_1_alg».proof.Proof.KI.ValDot
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe
open Idealize.ShloMosaic.ValueIdx (ix1 ix2 eq_ix1 eq_ix2)

variable {F : FTy → Type} [FloatOps F]

theorem payScale_at (x0 : Vec F S5000x128 .f32) (x1 : Vec F S5000x1 .f32) (p : Fin 5000) (q : Fin 128) :
    k1_pay1 x0 x1 (ix2 p q) = FloatOps.mulf (x0 (ix2 p q)) (x1 (ix2 p (0 : Fin 1))) := by
  unfold k1_pay1
  show FloatOps.mulf (shapeCast S5000x128 x0 shapeCasts_S5000x128_S5000x128 (ix2 p q))
      (broadcastTo S5000x128 (shapeCast S5000x1 x1 shapeCasts_S5000x1_S5000x1) broadcasts_S5000x1_S5000x128 (ix2 p q)) = _
  rw [shapeCast_self, shapeCast_self]
  refine congrArg _ (broadcastTo_apply x1 broadcasts_S5000x1_S5000x128 (ix2 p q) (ix2 p (0 : Fin 1)) fun a => ?_)
  match a with
  | ⟨0, _⟩ => rfl
  | ⟨1, _⟩ => rfl

theorem outScale_at (x0 : Vec F S5000x128 .f32) (x1 : Vec F S5000x1 .f32) (p : Fin 5000) (q : Fin 128) (y : S5000x128.Idx)
    (hrow : (y 0).val = p.val) (hlane : (y 1).val = q.val) :
    out1_2 x0 x1 y = FloatOps.mulf (x0 (ix2 p q)) (x1 (ix2 p (0 : Fin 1))) := by
  obtain rfl : y = ix2 p q := funext fun a => Fin.ext (by match a with | ⟨0, _⟩ => exact hrow | ⟨1, _⟩ => exact hlane)
  unfold out1_2
  rw [View.canon_unit_zero hz]
  simp only [View.ld_unit_zero (S := S5000x128) hz, View.ld_unit_zero (S := S5000x1) hz]
  exact payScale_at x0 x1 p q

theorem lanes_at [Cert.ReferenceIdeal.Facts₀] {α : Type} (n : Cert.ReferenceIdeal.S850000x1.Idx → α) (r : Fin 850000) (q : Fin 128) :
    broadcastInDim Cert.ReferenceIdeal.S850000x128 ![0, 1] Cert.ReferenceIdeal.Facts₀.bcast_S850000x1_S850000x128_0_1 n (ix2 r q)
      = n (ix2 r (0 : Fin 1)) :=
  broadcastInDim_apply _ _ n (ix2 r q) (ix2 r (0 : Fin 1)) fun a => by
    match a with
    | ⟨0, _⟩ => rfl
    | ⟨1, _⟩ => rfl

theorem scaled_at [Cert.ReferenceIdeal.Facts₀] (h : S850000x128.Idx → F .f32) (n : S850000x1.Idx → F .f32) (r : Fin 850000) (q : Fin 128)
    (k : S850000x128.Idx) (hrow : (k 0).val = r.val) (hlane : (k 1).val = q.val) :
    mulf (φ := .f32) h (broadcastInDim Cert.ReferenceIdeal.S850000x128 ![0, 1] Cert.ReferenceIdeal.Facts₀.bcast_S850000x1_S850000x128_0_1 n) k
      = FloatOps.mulf (h k) (n (ix2 r (0 : Fin 1))) := by
  obtain rfl : k = ix2 r q := funext fun a => Fin.ext (by match a with | ⟨0, _⟩ => exact hrow | ⟨1, _⟩ => exact hlane)
  exact congrArg (FloatOps.mulf (h (ix2 r q))) (lanes_at n r q)

end Cert.KernelIdeal.Rg

end
-- ==== Proof.KI.Val1.lean ====
/- Region 1 leaves in its result array its first input array scaled, row by row, by its coefficient column: point t writes rows 5000·t … of that product, and the blocks cover every row. -/
import proofs.«160853_j19842748908317_1_alg».proof.Proof.KI.Reg1
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem iblk1_0_at (c : Dev nD) (t : Fin cfg1.N) (p : Fin 5000) (q : Fin 128) (k : S850000x128.Idx)
    (hrow : (k 0).val = 5000 * t.val + p.val) (hlane : (k 1).val = q.val) :
    (iblk1 V c 0 t : Vec F S5000x128 .f32) (ix2 p q) = (V c (Pipeline.arrRef spec1 0) : S850000x128.Idx → Elt F .f32) k := by
  obtain ⟨er, el, -⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * p.val = (k 0).val; rw [er, hrow]; omega
  | ⟨1, _⟩ => show win1_0.index t (1 : Fin 2) * 128 + 1 * q.val = (k 1).val; rw [el, hlane]; omega

theorem iblk1_1_at (c : Dev nD) (t : Fin cfg1.N) (p : Fin 5000) (k : S850000x1.Idx)
    (hrow : (k 0).val = 5000 * t.val + p.val) :
    (iblk1 V c 1 t : Vec F S5000x1 .f32) (ix2 p (0 : Fin 1)) = (V c (Pipeline.arrRef spec1 1) : S850000x1.Idx → Elt F .f32) k := by
  obtain ⟨-, -, er, el, -⟩ := idx_facts1 t
  have hcol : (k 1).val < 1 := (k 1).isLt
  unfold iblk1
  rw [View.read_apply]
  refine congrArg (V c (Pipeline.arrRef spec1 1)) (funext fun a => Fin.ext ?_)
  match a with
  | ⟨0, _⟩ => show win1_1.index t (0 : Fin 2) * 5000 + 1 * p.val = (k 0).val; rw [er, hrow]; omega
  | ⟨1, _⟩ => show win1_1.index t (1 : Fin 2) * 1 + 1 * 0 = (k 1).val; rw [el]; omega

theorem flushed1_2_eq [Cert.ReferenceIdeal.Facts₀] (c : Dev nD) (t : Fin cfg1.N) :
    (dat1 V c).flushed 2 t = ((cfg1.win 2).blk t).view.read (Elt F)
      (mulf (φ := .f32) (V c (Pipeline.arrRef spec1 0))
        (broadcastInDim Cert.ReferenceIdeal.S850000x128 ![0, 1] Cert.ReferenceIdeal.Facts₀.bcast_S850000x1_S850000x128_0_1 (V c (Pipeline.arrRef spec1 1)))) := by
  show (cfg1.win 2).cut (grid1.coords t) ((dat1 V c).after 2 t) = _
  rw [after1_2]
  funext j
  obtain ⟨p, q, rfl⟩ : ∃ (p : Fin 5000) (q : Fin 128), j = ix2 p q := ⟨j 0, j 1, eq_ix2 j⟩
  obtain ⟨-, -, -, -, er, el⟩ := idx_facts1 t
  have hp : p.val < 5000 := p.isLt
  have ht : t.val < 170 := by have h := t.isLt; have hN : cfg1.N = 170 := N_1; omega
  have hr : 5000 * t.val + p.val < 850000 := by omega
  have hrow : ((((cfg1.win 2).blk t).view.emb (ix2 p q) : S850000x128.Idx) 0).val = 5000 * t.val + p.val := by
    show win1_2.index t (0 : Fin 2) * 5000 + 1 * p.val = _
    rw [er]; omega
  have hlane : ((((cfg1.win 2).blk t).view.emb (ix2 p q) : S850000x128.Idx) 1).val = q.val := by
    show win1_2.index t (1 : Fin 2) * 128 + 1 * q.val = _
    rw [el]; omega
  rw [View.read_apply]
  refine (outScale_at (iblk1 V c 0 t) (iblk1 V c 1 t) p q _ rfl rfl).trans ?_
  exact (congrArg₂ FloatOps.mulf (iblk1_0_at V c t p q _ hrow hlane)
      (iblk1_1_at V c t p (ix2 (⟨5000 * t.val + p.val, hr⟩ : Fin 850000) (0 : Fin 1)) rfl)).trans
    (scaled_at _ _ ⟨5000 * t.val + p.val, hr⟩ q _ hrow hlane).symm

theorem mem_blk1_2 (t : Fin cfg1.N) (i : S850000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

theorem rows_cover1_2 (i : S850000x128.Idx) :
    ∃ t : Fin cfg1.N, (cfg1.win 2).flush t = true ∧ i ∈ ((cfg1.win 2).blk t).view.set := by
  have hrow : (i 0).val < 850000 := (i 0).isLt
  have hlane : (i 1).val < 128 := (i 1).isLt
  have hN : cfg1.N = 170 := N_1
  have ht : (i 0).val / 5000 < cfg1.N := by omega
  obtain ⟨-, -, -, -, er, el⟩ := idx_facts1 ⟨(i 0).val / 5000, ht⟩
  refine ⟨⟨(i 0).val / 5000, ht⟩, flush1_2 _, ?_⟩
  rw [mem_blk1_2]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [el]; omega

theorem arr1_2_eq [Cert.ReferenceIdeal.Facts₀] (c : Dev nD) :
    (dat1 V c).arrAt 2 cfg1.N
      = mulf (φ := .f32) (V c (Pipeline.arrRef spec1 0))
          (broadcastInDim Cert.ReferenceIdeal.S850000x128 ![0, 1] Cert.ReferenceIdeal.Facts₀.bcast_S850000x1_S850000x128_0_1 (V c (Pipeline.arrRef spec1 1))) :=
  (dat1 V c).arrAt_eq_of_cover 2 _ (fun t _ => flushed1_2_eq V c t) rows_cover1_2

end Cert.KernelIdeal.Rg

end
-- ==== Proof.KI.ValAct.lean ====
/- The rectifier with its bias: on a row block beside the bias and slope rows it is, entry by entry, the whole-array select of t and slope · t at that row, t the sum with the bias. Said once for the eight regions that apply it. -/
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.Reg2
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

abbrev act (A : Vec F S50000x128 .f32) (B C : Vec F S1x128 .f32) : Vec F S50000x128 .f32 :=
  select (cmpf .ogt (addf A (broadcastInDim Cert.ReferenceIdeal.S50000x128 ![0, 1] Cert.ReferenceIdeal.Facts₀.bcast_S1x128_S50000x128_0_1 B))
      (broadcastInDim Cert.ReferenceIdeal.S50000x128 ![] Cert.ReferenceIdeal.Facts₀.bcast_S_S50000x128 (constant (F := F) Cert.ReferenceIdeal.S_ .f32 0x00000000#32)))
    (addf A (broadcastInDim Cert.ReferenceIdeal.S50000x128 ![0, 1] Cert.ReferenceIdeal.Facts₀.bcast_S1x128_S50000x128_0_1 B))
    (mulf (broadcastInDim Cert.ReferenceIdeal.S50000x128 ![0, 1] Cert.ReferenceIdeal.Facts₀.bcast_S1x128_S50000x128_0_1 C)
      (addf A (broadcastInDim Cert.ReferenceIdeal.S50000x128 ![0, 1] Cert.ReferenceIdeal.Facts₀.bcast_S1x128_S50000x128_0_1 B)))

def acts (x b a : F .f32) : F .f32 :=
  Scalar.select (FloatOps.cmpf .ogt (FloatOps.addf x b) (FloatOps.ofBits .f32 0x00000000#32)) (FloatOps.addf x b) (FloatOps.mulf a (FloatOps.addf x b))

theorem bcast_row_at (B : Vec F S1x128 .f32) (r : Fin 50000) (q : Fin 128) :
    broadcastInDim Cert.ReferenceIdeal.S50000x128 ![0, 1] Cert.ReferenceIdeal.Facts₀.bcast_S1x128_S50000x128_0_1 B (ix2 r q) = B (ix2 (0 : Fin 1) q) :=
  broadcastInDim_apply _ _ B (ix2 r q) (ix2 (0 : Fin 1) q) fun a => by
    match a with
    | ⟨0, _⟩ => exact (if_pos rfl).symm
    | ⟨1, _⟩ => exact (if_neg (show ¬(128 : ℕ) = 1 by decide)).symm

theorem act_at (A : Vec F S50000x128 .f32) (B C : Vec F S1x128 .f32) (r : Fin 50000) (q : Fin 128) :
    act A B C (ix2 r q) = acts (A (ix2 r q)) (B (ix2 (0 : Fin 1) q)) (C (ix2 (0 : Fin 1) q)) := by
  show acts (A (ix2 r q)) (broadcastInDim Cert.ReferenceIdeal.S50000x128 ![0, 1] Cert.ReferenceIdeal.Facts₀.bcast_S1x128_S50000x128_0_1 B (ix2 r q))
      (broadcastInDim Cert.ReferenceIdeal.S50000x128 ![0, 1] Cert.ReferenceIdeal.Facts₀.bcast_S1x128_S50000x128_0_1 C (ix2 r q)) = _
  rw [bcast_row_at B r q, bcast_row_at C r q]

theorem payAct_at (x0 : Vec F S5000x128 .f32) (x1 x2 : Vec F S1x128 .f32) (p : Fin 5000) (q : Fin 128) :
    k2_pay1 x0 x1 x2 (ix2 p q) = acts (x0 (ix2 p q)) (x1 (ix2 (0 : Fin 1) q)) (x2 (ix2 (0 : Fin 1) q)) := by
  unfold k2_pay1
  simp only [shapeCast_self]
  show acts (x0 (ix2 p q)) (broadcastTo S5000x128 x1 broadcasts_S1x128_S5000x128 (ix2 p q))
      (broadcastTo S5000x128 x2 broadcasts_S1x128_S5000x128 (ix2 p q)) = _
  rw [broadcastTo_1b_ab_apply x1 broadcasts_S1x128_S5000x128 p q, broadcastTo_1b_ab_apply x2 broadcasts_S1x128_S5000x128 p q]

theorem payAct_eq_act_at (x0 : Vec F S5000x128 .f32) (x1 x2 : Vec F S1x128 .f32)
    (A : Vec F S50000x128 .f32) (B C : Vec F S1x128 .f32) (p : Fin 5000) (q : Fin 128) (r : Fin 50000)
    (h0 : x0 (ix2 p q) = A (ix2 r q)) (h1 : x1 (ix2 (0 : Fin 1) q) = B (ix2 (0 : Fin 1) q))
    (h2 : x2 (ix2 (0 : Fin 1) q) = C (ix2 (0 : Fin 1) q)) :
    k2_pay1 x0 x1 x2 (ix2 p q) = act A B C (ix2 r q) := by
  rw [payAct_at x0 x1 x2 p q, act_at A B C r q, h0, h1, h2]

end Cert.KernelIdeal.Rg

end
-- ==== Proof.KI.Val2.lean ====
/- Region 2 leaves in its result array the rectifier, with bias and slope rows, of its first input array: point t writes rows 5000·t … of it, and the ten blocks cover the rows. -/
import proofs.«160853_j19842748908317_1_alg».proof.Proof.KI.Reg2
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 2000000 in
theorem flushed2_3_eq (c : Dev nD) (t : Fin cfg2.N) :
    (dat2 V c).flushed 3 t = ((cfg2.win 3).blk t).view.read (Elt F)
      (act (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  obtain ⟨e00, e01, e10, e11, e20, e21, e30, e31⟩ := idx_facts2 t
  have hN : grid2.N = 10 := N_2
  have htN : t.val < grid2.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k2_pay1 (iblk2 V c 0 t) (iblk2 V c 1 t) (iblk2 V c 2 t) (ix2 p q)
    = act (V c (Pipeline.arrRef spec2 0)) (V c (Pipeline.arrRef spec2 1)) (V c (Pipeline.arrRef spec2 2))
        (((cfg2.win 3).blk t).view.emb (ix2 p q))
  have hemb : ((cfg2.win 3).blk t).view.emb (ix2 p q) = ix2 (⟨t.val * 5000 + p.val, hr⟩ : Fin 50000) q := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 128 + 1 * q.val = q.val; rw [e31]; omega
  rw [hemb]
  refine payAct_eq_act_at (iblk2 V c 0 t) (iblk2 V c 1 t) (iblk2 V c 2 t)
    (V c (Pipeline.arrRef spec2 0)) (V c (Pipeline.arrRef spec2 1)) (V c (Pipeline.arrRef spec2 2)) p q ⟨t.val * 5000 + p.val, hr⟩ ?_ ?_ ?_
  · show V c (Pipeline.arrRef spec2 0) (((cfg2.win 0).blk t).view.emb (ix2 p q)) = _
    refine congrArg _ (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 128 + 1 * q.val = q.val; rw [e01]; omega
  · show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; rw [e10]
    | ⟨1, _⟩ => show win2_1.index t (1 : Fin 2) * 128 + 1 * q.val = q.val; rw [e11]; omega
  · show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * 0 = 0; rw [e20]
    | ⟨1, _⟩ => show win2_2.index t (1 : Fin 2) * 128 + 1 * q.val = q.val; rw [e21]; omega

theorem mem_blk2_3 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

theorem covered2_3 (i : S50000x128.Idx) :
    ∃ t : Fin cfg2.N, (cfg2.win 3).flush t = true ∧ i ∈ ((cfg2.win 3).blk t).view.set := by
  have hi0 : (i 0).val < 50000 := idx2_lt0 i
  have hi1 : (i 1).val < 128 := idx2_lt1 i
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, -, -, e30, e31⟩ := idx_facts2 t
  refine ⟨t, flush2_3 t, ?_⟩
  rw [mem_blk2_3]
  intro a
  match a with
  | ⟨0, _⟩ =>
    show win2_3.index t (0 : Fin 2) * 5000 ≤ (i 0).val ∧ (i 0).val < win2_3.index t (0 : Fin 2) * 5000 + 5000
    rw [e30, ht]; omega
  | ⟨1, _⟩ =>
    show win2_3.index t (1 : Fin 2) * 128 ≤ (i 1).val ∧ (i 1).val < win2_3.index t (1 : Fin 2) * 128 + 128
    rw [e31]; omega

theorem val2 (c : Dev nD) :
    (dat2 V c).arrAt 3 cfg2.N
      = select (cmpf .ogt (addf (V c (Pipeline.arrRef spec2 0))
              (broadcastInDim Cert.ReferenceIdeal.S50000x128 ![0, 1] Cert.ReferenceIdeal.Facts₀.bcast_S1x128_S50000x128_0_1 (V c (Pipeline.arrRef spec2 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec2 0))
            (broadcastInDim Cert.ReferenceIdeal.S50000x128 ![0, 1] Cert.ReferenceIdeal.Facts₀.bcast_S1x128_S50000x128_0_1 (V c (Pipeline.arrRef spec2 1))))
          (mulf (broadcastInDim Cert.ReferenceIdeal.S50000x128 ![0, 1] Cert.ReferenceIdeal.Facts₀.bcast_S1x128_S50000x128_0_1 (V c (Pipeline.arrRef spec2 2)))
            (addf (V c (Pipeline.arrRef spec2 0))
              (broadcastInDim Cert.ReferenceIdeal.S50000x128 ![0, 1] Cert.ReferenceIdeal.Facts₀.bcast_S1x128_S50000x128_0_1 (V c (Pipeline.arrRef spec2 1))))) :=
  (dat2 V c).arrAt_eq_of_cover 3
    (act (V c (Pipeline.arrRef spec2 0)) (V c (Pipeline.arrRef spec2 1)) (V c (Pipeline.arrRef spec2 2)))
    (fun t _ => flushed2_3_eq V c t) (fun i => covered2_3 i)

end Cert.KernelIdeal.Rg

end
-- ==== Proof.KI.ChainA.lean ====
/- Scale 0, first layer: after each item of @main, each buffer holds the reference's stage of the same arguments. -/
import proofs.«160853_j19842748908317_1_alg».proof.Proof.KI.PData
import proofs.«160853_j19842748908317_1_alg».proof.Proof.KI.Val0
import proofs.«160853_j19842748908317_1_alg».proof.Proof.KI.Val1
import proofs.«160853_j19842748908317_1_alg».proof.Proof.KI.Val2
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k0_v1 : V1 m c main_v1 = val_main_v1 (F := F) (m ((c : Thread nD τ).loc main_arg1)) := by
  show StableHlo.after hostOps0 (V0 m c) main_v1 = _
  after_results
  rfl

theorem k0_v3 : V1 m c main_v3 = val_main_v3 (F := F) (m ((c : Thread nD τ).loc main_arg1)) := by
  show StableHlo.after hostOps0 (V0 m c) main_v3 = _
  after_results
  rfl

theorem k0_v5 : V1 m c main_v5 = val_main_v5 (F := F) (m ((c : Thread nD τ).loc main_arg2)) := by
  show StableHlo.after hostOps0 (V0 m c) main_v5 = _
  after_results
  rfl

theorem k0_arg0_V1 : V1 m c main_arg0 = (m ((c : Thread nD τ).loc main_arg0)) := V1_of m c main_arg0 (by decide)
theorem k0_arg3_V1 : V1 m c main_arg3 = (m ((c : Thread nD τ).loc main_arg3)) := V1_of m c main_arg3 (by decide)

theorem k0_v1_V2 : V2 m outs c main_v1 = val_main_v1 (F := F) (m ((c : Thread nD τ).loc main_arg1)) := (V2_of m outs c main_v1 (by decide)).trans (k0_v1 m c)
theorem k0_v3_V2 : V2 m outs c main_v3 = val_main_v3 (F := F) (m ((c : Thread nD τ).loc main_arg1)) := (V2_of m outs c main_v3 (by decide)).trans (k0_v3 m c)
theorem k0_v5_V2 : V2 m outs c main_v5 = val_main_v5 (F := F) (m ((c : Thread nD τ).loc main_arg2)) := (V2_of m outs c main_v5 (by decide)).trans (k0_v5 m c)

theorem k0_v8 : V3 m outs c main_v8 = val_main_v8 (F := F) (m ((c : Thread nD τ).loc main_arg1)) := by
  have h1 := k0_v1_V2 m outs c
  show StableHlo.after hostOps1 (V2 m outs c) main_v8 = _
  generalize V2 m outs c = W at h1 ⊢
  after_results
  rw [h1]
  rfl

theorem k0_v9 : V3 m outs c main_v9 = val_main_v9 (F := F) (m ((c : Thread nD τ).loc main_arg1)) := by
  have h3 := k0_v3_V2 m outs c
  show StableHlo.after hostOps1 (V2 m outs c) main_v9 = _
  generalize V2 m outs c = W at h3 ⊢
  after_results
  rw [h3]
  rfl

theorem k0_v11 : V3 m outs c main_v11 = val_main_v11 (F := F) (m ((c : Thread nD τ).loc main_arg2)) := by
  have h5 := k0_v5_V2 m outs c
  show StableHlo.after hostOps1 (V2 m outs c) main_v11 = _
  generalize V2 m outs c = W at h5 ⊢
  after_results
  rw [h5]
  rfl

theorem k0_v16 : V3 m outs c main_v16 = val_main_v16 (F := F) (m ((c : Thread nD τ).loc main_arg1)) (m ((c : Thread nD τ).loc main_arg2)) := by
  have h3 := k0_v3_V2 m outs c
  have h5 := k0_v5_V2 m outs c
  show StableHlo.after hostOps1 (V2 m outs c) main_v16 = _
  generalize V2 m outs c = W at h3 h5 ⊢
  after_results
  rw [h3, h5]
  rfl

theorem k0_v17 : V3 m outs c main_v17 = val_main_v17 (F := F) (m ((c : Thread nD τ).loc main_arg1)) (m ((c : Thread nD τ).loc main_arg2)) := by
  have h3 := k0_v3_V2 m outs c
  have h5 := k0_v5_V2 m outs c
  show StableHlo.after hostOps1 (V2 m outs c) main_v17 = _
  generalize V2 m outs c = W at h3 h5 ⊢
  after_results
  rw [h3, h5]
  rfl

theorem k0_cst_2 : V3 m outs c main_cst_2 = val_main_cst_2 (F := F) := by
  show StableHlo.after hostOps1 (V2 m outs c) main_cst_2 = _
  generalize V2 m outs c = W
  after_results
  rfl

theorem k0_v18 : V4 m outs c main_v18 = val_main_v18 (F := F) (m ((c : Thread nD τ).loc main_arg1)) (m ((c : Thread nD τ).loc main_arg2)) := by
  have h16 := k0_v16 m outs c
  have h17 := k0_v17 m outs c
  have hc2 := k0_cst_2 m outs c
  show StableHlo.after hostOps1_1 (V3 m outs c) main_v18 = _
  generalize V3 m outs c = W at h16 h17 hc2 ⊢
  after_results
  rw [h16, h17, hc2]
  simp only [TRef.ofBuf, TRef.toBuf, cast_eq]
  rfl

theorem k0_v8_V4 : V4 m outs c main_v8 = val_main_v8 (F := F) (m ((c : Thread nD τ).loc main_arg1)) := (V4_of m outs c main_v8 (by decide)).trans (k0_v8 m outs c)
theorem k0_v9_V4 : V4 m outs c main_v9 = val_main_v9 (F := F) (m ((c : Thread nD τ).loc main_arg1)) := (V4_of m outs c main_v9 (by decide)).trans (k0_v9 m outs c)
theorem k0_v11_V4 : V4 m outs c main_v11 = val_main_v11 (F := F) (m ((c : Thread nD τ).loc main_arg2)) := (V4_of m outs c main_v11 (by decide)).trans (k0_v11 m outs c)

theorem k0_v34 : V5 m outs c main_v34 = val_main_v34 (F := F) (m ((c : Thread nD τ).loc main_arg1)) (m ((c : Thread nD τ).loc main_arg2)) := by
  have h8 := k0_v8_V4 m outs c
  have h9 := k0_v9_V4 m outs c
  have h11 := k0_v11_V4 m outs c
  have h18 := k0_v18 m outs c
  show StableHlo.after hostOps1_2 (V4 m outs c) main_v34 = _
  generalize V4 m outs c = W at h8 h9 h11 h18 ⊢
  after_results_simp
  rw [h8, h9, h11, h18]
  rfl

theorem k0_v35 : V5 m outs c main_v35 = val_main_v42 (F := F) (m ((c : Thread nD τ).loc main_arg1)) (m ((c : Thread nD τ).loc main_arg2)) := by
  have h8 := k0_v8_V4 m outs c
  have h9 := k0_v9_V4 m outs c
  have h11 := k0_v11_V4 m outs c
  have h18 := k0_v18 m outs c
  have e : shapeCast S850000x1 (val_main_v34 (F := F) (m ((c : Thread nD τ).loc main_arg1)) (m ((c : Thread nD τ).loc main_arg2))) shapeCasts_S850000_S850000x1 = val_main_v42 (F := F) (m ((c : Thread nD τ).loc main_arg1)) (m ((c : Thread nD τ).loc main_arg2)) :=
    (col_reshape_eq_bcast (F := F) (val_main_v34 (F := F) (m ((c : Thread nD τ).loc main_arg1)) (m ((c : Thread nD τ).loc main_arg2)))).trans rfl
  show StableHlo.after hostOps1_2 (V4 m outs c) main_v35 = _
  generalize V4 m outs c = W at h8 h9 h11 h18 ⊢
  after_results_simp
  rw [h8, h9, h11, h18]
  exact Eq.trans rfl e

theorem k0_v42 (h6 : V2 m outs c main_v6 = val_main_v6 (F := F) (m ((c : Thread nD τ).loc main_arg0)) (m ((c : Thread nD τ).loc main_arg3))) :
    V5 m outs c main_v42 = val_main_v41 (F := F) (m ((c : Thread nD τ).loc main_arg0)) (m ((c : Thread nD τ).loc main_arg1)) (m ((c : Thread nD τ).loc main_arg3)) := by
  have h6' : V4 m outs c main_v6 = val_main_v6 (F := F) (m ((c : Thread nD τ).loc main_arg0)) (m ((c : Thread nD τ).loc main_arg3)) :=
    (V4_of m outs c main_v6 (by decide)).trans ((V3_of m outs c main_v6 (by decide)).trans h6)
  have h8 := k0_v8_V4 m outs c
  show StableHlo.after hostOps1_2 (V4 m outs c) main_v42 = _
  generalize V4 m outs c = W at h6' h8 ⊢
  after_results_simp
  rw [h6', h8]
  rfl

theorem k0_v43 (ho1 : outs 6 main_v43 c = (dat1 (vt (V5 m outs)) c).arrAt 2 cfg1.N)
    (h6 : V2 m outs c main_v6 = val_main_v6 (F := F) (m ((c : Thread nD τ).loc main_arg0)) (m ((c : Thread nD τ).loc main_arg3))) :
    V6 m outs c main_v43 = val_main_v44 (F := F) (m ((c : Thread nD τ).loc main_arg0)) (m ((c : Thread nD τ).loc main_arg1)) (m ((c : Thread nD τ).loc main_arg2)) (m ((c : Thread nD τ).loc main_arg3)) := by
  have h42 : vt (V5 m outs) c (Pipeline.arrRef spec1 0) = val_main_v41 (F := F) (m ((c : Thread nD τ).loc main_arg0)) (m ((c : Thread nD τ).loc main_arg1)) (m ((c : Thread nD τ).loc main_arg3)) := k0_v42 m outs c h6
  have h35 : vt (V5 m outs) c (Pipeline.arrRef spec1 1) = val_main_v42 (F := F) (m ((c : Thread nD τ).loc main_arg1)) (m ((c : Thread nD τ).loc main_arg2)) := k0_v35 m outs c
  show Function.update (V5 m outs c) main_v43 (outs 6 main_v43 c) main_v43 = _
  rw [Function.update_self, ho1, arr1_2_eq, h42, h35]
  rfl

theorem k0_v9_V6 : V6 m outs c main_v9 = val_main_v9 (F := F) (m ((c : Thread nD τ).loc main_arg1)) :=
  (V6_of m outs c main_v9 (by decide)).trans ((V5_of m outs c main_v9 (by decide)).trans (k0_v9_V4 m outs c))
theorem k0_arg4_V6 : V6 m outs c main_arg4 = (m ((c : Thread nD τ).loc main_arg4)) :=
  (V6_of m outs c main_arg4 (by decide)).trans ((V5_of m outs c main_arg4 (by decide)).trans ((V4_of m outs c main_arg4 (by decide)).trans
    ((V3_of m outs c main_arg4 (by decide)).trans ((V2_of m outs c main_arg4 (by decide)).trans (V1_of m c main_arg4 (by decide))))))
theorem k0_arg7_V6 : V6 m outs c main_arg7 = (m ((c : Thread nD τ).loc main_arg7)) :=
  (V6_of m outs c main_arg7 (by decide)).trans ((V5_of m outs c main_arg7 (by decide)).trans ((V4_of m outs c main_arg7 (by decide)).trans
    ((V3_of m outs c main_arg7 (by decide)).trans ((V2_of m outs c main_arg7 (by decide)).trans (V1_of m c main_arg7 (by decide))))))

theorem k0_v47 : V7 m outs c main_v47 = val_main_v48 (F := F) (m ((c : Thread nD τ).loc main_arg4)) := by
  have h4 := k0_arg4_V6 m outs c
  have e : shapeCast S1x128 (m ((c : Thread nD τ).loc main_arg4)) shapeCasts_S128_S1x128 = val_main_v48 (F := F) (m ((c : Thread nD τ).loc main_arg4)) :=
    (row_reshape_eq_bcast (F := F) (m ((c : Thread nD τ).loc main_arg4))).trans rfl
  show StableHlo.after hostOps2 (V6 m outs c) main_v47 = _
  generalize V6 m outs c = W at h4 ⊢
  after_results
  rw [h4]
  exact Eq.trans rfl e

theorem k0_v48 : V7 m outs c main_v48 = val_main_v53 (F := F) (m ((c : Thread nD τ).loc main_arg7)) := by
  have h7 := k0_arg7_V6 m outs c
  have e : shapeCast S1x128 (m ((c : Thread nD τ).loc main_arg7)) shapeCasts_S128_S1x128 = val_main_v53 (F := F) (m ((c : Thread nD τ).loc main_arg7)) :=
    (row_reshape_eq_bcast (F := F) (m ((c : Thread nD τ).loc main_arg7))).trans rfl
  show StableHlo.after hostOps2 (V6 m outs c) main_v48 = _
  generalize V6 m outs c = W at h7 ⊢
  after_results
  rw [h7]
  exact Eq.trans rfl e

theorem k0_v46 (ho1 : outs 6 main_v43 c = (dat1 (vt (V5 m outs)) c).arrAt 2 cfg1.N)
    (h6 : V2 m outs c main_v6 = val_main_v6 (F := F) (m ((c : Thread nD τ).loc main_arg0)) (m ((c : Thread nD τ).loc main_arg3))) :
    V7 m outs c main_v46 = val_main_v47 (F := F) (m ((c : Thread nD τ).loc main_arg0)) (m ((c : Thread nD τ).loc main_arg1)) (m ((c : Thread nD τ).loc main_arg2)) (m ((c : Thread nD τ).loc main_arg3)) := by
  have h9 := k0_v9_V6 m outs c
  have h43 := k0_v43 m outs c ho1 h6
  show StableHlo.after hostOps2 (V6 m outs c) main_v46 = _
  generalize V6 m outs c = W at h9 h43 ⊢
  after_results
  rw [h9, h43]
  rfl

theorem k0_v49 (ho1 : outs 6 main_v43 c = (dat1 (vt (V5 m outs)) c).arrAt 2 cfg1.N)
    (ho2 : outs 8 main_v49 c = (dat2 (vt (V7 m outs)) c).arrAt 3 cfg2.N)
    (h6 : V2 m outs c main_v6 = val_main_v6 (F := F) (m ((c : Thread nD τ).loc main_arg0)) (m ((c : Thread nD τ).loc main_arg3))) :
    V8 m outs c main_v49 = val_main_v56 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  have h46 : vt (V7 m outs) c (Pipeline.arrRef spec2 0) = val_main_v47 (F := F) (m ((c : Thread nD τ).loc main_arg0)) (m ((c : Thread nD τ).loc main_arg1)) (m ((c : Thread nD τ).loc main_arg2)) (m ((c : Thread nD τ).loc main_arg3)) := k0_v46 m outs c ho1 h6
  have h47 : vt (V7 m outs) c (Pipeline.arrRef spec2 1) = val_main_v48 (F := F) (m ((c : Thread nD τ).loc main_arg4)) := k0_v47 m outs c
  have h48 : vt (V7 m outs) c (Pipeline.arrRef spec2 2) = val_main_v53 (F := F) (m ((c : Thread nD τ).loc main_arg7)) := k0_v48 m outs c
  show Function.update (V7 m outs c) main_v49 (outs 8 main_v49 c) main_v49 = _
  rw [Function.update_self, ho2, val2, h46, h47, h48]
  rfl

end Host

section AtIdeal
variable (m : (ℓ : Loc nD τ sig) → Buf (Elt Ideal) ℓ) (c : Dev nD)

theorem k0_v6 : V2 m (outsX m) c main_v6
    = val_main_v6 (F := Ideal) (m ((c : Thread nD τ).loc main_arg0)) (m ((c : Thread nD τ).loc main_arg3)) := by
  have e0 : vt (V1 m) c (Pipeline.arrRef spec0 0) = m ((c : Thread nD τ).loc main_arg0) := k0_arg0_V1 m c
  have e3 : vt (V1 m) c (Pipeline.arrRef spec0 1) = m ((c : Thread nD τ).loc main_arg3) := k0_arg3_V1 m c
  show Function.update (V1 m c) main_v6 (outsX m 2 main_v6 c) main_v6 = _
  rw [Function.update_self, hout0, val0, e0, e3]
  rfl

theorem pro0_v1 : V1 m c main_v1 = val_main_v1 (F := Ideal) (m ((c : Thread nD τ).loc main_arg1)) := k0_v1 m c
theorem pro0_v3 : V1 m c main_v3 = val_main_v3 (F := Ideal) (m ((c : Thread nD τ).loc main_arg1)) := k0_v3 m c
theorem pro0_v5 : V1 m c main_v5 = val_main_v5 (F := Ideal) (m ((c : Thread nD τ).loc main_arg2)) := k0_v5 m c

theorem layer0_out : V8 m (outsX m) c main_v49
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  k0_v49 m (outsX m) c (hout1 m c) (hout2 m c) (k0_v6 m c)

end AtIdeal

end Cert.KernelIdeal.Ch

end
-- ==== Proof.KI.CarryArgs.lean ====
/- A buffer that no item between two boundaries writes is the same at both: the hops compose, a later boundary extending an earlier one. -/
import proofs.«160853_j19842748908317_1_alg».proof.Proof.KI.RegionsP

set_option maxRecDepth 16384

noncomputable section

namespace Cert.KernelIdeal.Ch

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

theorem carry_main_arg0_0_16 : V16 m outs c main_arg0 = V0 m c main_arg0 :=
  (V16_of m outs c main_arg0 (by decide)).trans ((V15_of m outs c main_arg0 (by decide)).trans ((V14_of m outs c main_arg0 (by decide)).trans ((V13_of m outs c main_arg0 (by decide)).trans ((V12_of m outs c main_arg0 (by decide)).trans ((V11_of m outs c main_arg0 (by decide)).trans ((V10_of m outs c main_arg0 (by decide)).trans ((V9_of m outs c main_arg0 (by decide)).trans ((V8_of m outs c main_arg0 (by decide)).trans ((V7_of m outs c main_arg0 (by decide)).trans ((V6_of m outs c main_arg0 (by decide)).trans ((V5_of m outs c main_arg0 (by decide)).trans ((V4_of m outs c main_arg0 (by decide)).trans ((V3_of m outs c main_arg0 (by decide)).trans ((V2_of m outs c main_arg0 (by decide)).trans (V1_of m c main_arg0 (by decide))))))))))))))))

theorem carry_main_arg0_0_31 : V31 m outs c main_arg0 = V0 m c main_arg0 :=
  (V31_of m outs c main_arg0 (by decide)).trans ((V30_of m outs c main_arg0 (by decide)).trans ((V29_of m outs c main_arg0 (by decide)).trans ((V28_of m outs c main_arg0 (by decide)).trans ((V27_of m outs c main_arg0 (by decide)).trans ((V26_of m outs c main_arg0 (by decide)).trans ((V25_of m outs c main_arg0 (by decide)).trans ((V24_of m outs c main_arg0 (by decide)).trans ((V23_of m outs c main_arg0 (by decide)).trans ((V22_of m outs c main_arg0 (by decide)).trans ((V21_of m outs c main_arg0 (by decide)).trans ((V20_of m outs c main_arg0 (by decide)).trans ((V19_of m outs c main_arg0 (by decide)).trans ((V18_of m outs c main_arg0 (by decide)).trans ((V17_of m outs c main_arg0 (by decide)).trans (carry_main_arg0_0_16 m outs c)))))))))))))))

theorem carry_main_arg0_0_46 : V46 m outs c main_arg0 = V0 m c main_arg0 :=
  (V46_of m outs c main_arg0 (by decide)).trans ((V45_of m outs c main_arg0 (by decide)).trans ((V44_of m outs c main_arg0 (by decide)).trans ((V43_of m outs c main_arg0 (by decide)).trans ((V42_of m outs c main_arg0 (by decide)).trans ((V41_of m outs c main_arg0 (by decide)).trans ((V40_of m outs c main_arg0 (by decide)).trans ((V39_of m outs c main_arg0 (by decide)).trans ((V38_of m outs c main_arg0 (by decide)).trans ((V37_of m outs c main_arg0 (by decide)).trans ((V36_of m outs c main_arg0 (by decide)).trans ((V35_of m outs c main_arg0 (by decide)).trans ((V34_of m outs c main_arg0 (by decide)).trans ((V33_of m outs c main_arg0 (by decide)).trans ((V32_of m outs c main_arg0 (by decide)).trans (carry_main_arg0_0_31 m outs c)))))))))))))))

theorem carry_main_arg1_0_15 : V15 m outs c main_arg1 = V0 m c main_arg1 :=
  (V15_of m outs c main_arg1 (by decide)).trans ((V14_of m outs c main_arg1 (by decide)).trans ((V13_of m outs c main_arg1 (by decide)).trans ((V12_of m outs c main_arg1 (by decide)).trans ((V11_of m outs c main_arg1 (by decide)).trans ((V10_of m outs c main_arg1 (by decide)).trans ((V9_of m outs c main_arg1 (by decide)).trans ((V8_of m outs c main_arg1 (by decide)).trans ((V7_of m outs c main_arg1 (by decide)).trans ((V6_of m outs c main_arg1 (by decide)).trans ((V5_of m outs c main_arg1 (by decide)).trans ((V4_of m outs c main_arg1 (by decide)).trans ((V3_of m outs c main_arg1 (by decide)).trans ((V2_of m outs c main_arg1 (by decide)).trans (V1_of m c main_arg1 (by decide)))))))))))))))

theorem carry_main_arg1_0_30 : V30 m outs c main_arg1 = V0 m c main_arg1 :=
  (V30_of m outs c main_arg1 (by decide)).trans ((V29_of m outs c main_arg1 (by decide)).trans ((V28_of m outs c main_arg1 (by decide)).trans ((V27_of m outs c main_arg1 (by decide)).trans ((V26_of m outs c main_arg1 (by decide)).trans ((V25_of m outs c main_arg1 (by decide)).trans ((V24_of m outs c main_arg1 (by decide)).trans ((V23_of m outs c main_arg1 (by decide)).trans ((V22_of m outs c main_arg1 (by decide)).trans ((V21_of m outs c main_arg1 (by decide)).trans ((V20_of m outs c main_arg1 (by decide)).trans ((V19_of m outs c main_arg1 (by decide)).trans ((V18_of m outs c main_arg1 (by decide)).trans ((V17_of m outs c main_arg1 (by decide)).trans ((V16_of m outs c main_arg1 (by decide)).trans (carry_main_arg1_0_15 m outs c)))))))))))))))

theorem carry_main_arg1_0_45 : V45 m outs c main_arg1 = V0 m c main_arg1 :=
  (V45_of m outs c main_arg1 (by decide)).trans ((V44_of m outs c main_arg1 (by decide)).trans ((V43_of m outs c main_arg1 (by decide)).trans ((V42_of m outs c main_arg1 (by decide)).trans ((V41_of m outs c main_arg1 (by decide)).trans ((V40_of m outs c main_arg1 (by decide)).trans ((V39_of m outs c main_arg1 (by decide)).trans ((V38_of m outs c main_arg1 (by decide)).trans ((V37_of m outs c main_arg1 (by decide)).trans ((V36_of m outs c main_arg1 (by decide)).trans ((V35_of m outs c main_arg1 (by decide)).trans ((V34_of m outs c main_arg1 (by decide)).trans ((V33_of m outs c main_arg1 (by decide)).trans ((V32_of m outs c main_arg1 (by decide)).trans ((V31_of m outs c main_arg1 (by decide)).trans (carry_main_arg1_0_30 m outs c)))))))))))))))

theorem carry_main_arg2_0_15 : V15 m outs c main_arg2 = V0 m c main_arg2 :=
  (V15_of m outs c main_arg2 (by decide)).trans ((V14_of m outs c main_arg2 (by decide)).trans ((V13_of m outs c main_arg2 (by decide)).trans ((V12_of m outs c main_arg2 (by decide)).trans ((V11_of m outs c main_arg2 (by decide)).trans ((V10_of m outs c main_arg2 (by decide)).trans ((V9_of m outs c main_arg2 (by decide)).trans ((V8_of m outs c main_arg2 (by decide)).trans ((V7_of m outs c main_arg2 (by decide)).trans ((V6_of m outs c main_arg2 (by decide)).trans ((V5_of m outs c main_arg2 (by decide)).trans ((V4_of m outs c main_arg2 (by decide)).trans ((V3_of m outs c main_arg2 (by decide)).trans ((V2_of m outs c main_arg2 (by decide)).trans (V1_of m c main_arg2 (by decide)))))))))))))))

theorem carry_main_arg2_0_30 : V30 m outs c main_arg2 = V0 m c main_arg2 :=
  (V30_of m outs c main_arg2 (by decide)).trans ((V29_of m outs c main_arg2 (by decide)).trans ((V28_of m outs c main_arg2 (by decide)).trans ((V27_of m outs c main_arg2 (by decide)).trans ((V26_of m outs c main_arg2 (by decide)).trans ((V25_of m outs c main_arg2 (by decide)).trans ((V24_of m outs c main_arg2 (by decide)).trans ((V23_of m outs c main_arg2 (by decide)).trans ((V22_of m outs c main_arg2 (by decide)).trans ((V21_of m outs c main_arg2 (by decide)).trans ((V20_of m outs c main_arg2 (by decide)).trans ((V19_of m outs c main_arg2 (by decide)).trans ((V18_of m outs c main_arg2 (by decide)).trans ((V17_of m outs c main_arg2 (by decide)).trans ((V16_of m outs c main_arg2 (by decide)).trans (carry_main_arg2_0_15 m outs c)))))))))))))))

theorem carry_main_arg2_0_45 : V45 m outs c main_arg2 = V0 m c main_arg2 :=
  (V45_of m outs c main_arg2 (by decide)).trans ((V44_of m outs c main_arg2 (by decide)).trans ((V43_of m outs c main_arg2 (by decide)).trans ((V42_of m outs c main_arg2 (by decide)).trans ((V41_of m outs c main_arg2 (by decide)).trans ((V40_of m outs c main_arg2 (by decide)).trans ((V39_of m outs c main_arg2 (by decide)).trans ((V38_of m outs c main_arg2 (by decide)).trans ((V37_of m outs c main_arg2 (by decide)).trans ((V36_of m outs c main_arg2 (by decide)).trans ((V35_of m outs c main_arg2 (by decide)).trans ((V34_of m outs c main_arg2 (by decide)).trans ((V33_of m outs c main_arg2 (by decide)).trans ((V32_of m outs c main_arg2 (by decide)).trans ((V31_of m outs c main_arg2 (by decide)).trans (carry_main_arg2_0_30 m outs c)))))))))))))))

theorem carry_main_arg3_0_16 : V16 m outs c main_arg3 = V0 m c main_arg3 :=
  (V16_of m outs c main_arg3 (by decide)).trans ((V15_of m outs c main_arg3 (by decide)).trans ((V14_of m outs c main_arg3 (by decide)).trans ((V13_of m outs c main_arg3 (by decide)).trans ((V12_of m outs c main_arg3 (by decide)).trans ((V11_of m outs c main_arg3 (by decide)).trans ((V10_of m outs c main_arg3 (by decide)).trans ((V9_of m outs c main_arg3 (by decide)).trans ((V8_of m outs c main_arg3 (by decide)).trans ((V7_of m outs c main_arg3 (by decide)).trans ((V6_of m outs c main_arg3 (by decide)).trans ((V5_of m outs c main_arg3 (by decide)).trans ((V4_of m outs c main_arg3 (by decide)).trans ((V3_of m outs c main_arg3 (by decide)).trans ((V2_of m outs c main_arg3 (by decide)).trans (V1_of m c main_arg3 (by decide))))))))))))))))

theorem carry_main_arg3_0_31 : V31 m outs c main_arg3 = V0 m c main_arg3 :=
  (V31_of m outs c main_arg3 (by decide)).trans ((V30_of m outs c main_arg3 (by decide)).trans ((V29_of m outs c main_arg3 (by decide)).trans ((V28_of m outs c main_arg3 (by decide)).trans ((V27_of m outs c main_arg3 (by decide)).trans ((V26_of m outs c main_arg3 (by decide)).trans ((V25_of m outs c main_arg3 (by decide)).trans ((V24_of m outs c main_arg3 (by decide)).trans ((V23_of m outs c main_arg3 (by decide)).trans ((V22_of m outs c main_arg3 (by decide)).trans ((V21_of m outs c main_arg3 (by decide)).trans ((V20_of m outs c main_arg3 (by decide)).trans ((V19_of m outs c main_arg3 (by decide)).trans ((V18_of m outs c main_arg3 (by decide)).trans ((V17_of m outs c main_arg3 (by decide)).trans (carry_main_arg3_0_16 m outs c)))))))))))))))

theorem carry_main_arg3_0_46 : V46 m outs c main_arg3 = V0 m c main_arg3 :=
  (V46_of m outs c main_arg3 (by decide)).trans ((V45_of m outs c main_arg3 (by decide)).trans ((V44_of m outs c main_arg3 (by decide)).trans ((V43_of m outs c main_arg3 (by decide)).trans ((V42_of m outs c main_arg3 (by decide)).trans ((V41_of m outs c main_arg3 (by decide)).trans ((V40_of m outs c main_arg3 (by decide)).trans ((V39_of m outs c main_arg3 (by decide)).trans ((V38_of m outs c main_arg3 (by decide)).trans ((V37_of m outs c main_arg3 (by decide)).trans ((V36_of m outs c main_arg3 (by decide)).trans ((V35_of m outs c main_arg3 (by decide)).trans ((V34_of m outs c main_arg3 (by decide)).trans ((V33_of m outs c main_arg3 (by decide)).trans ((V32_of m outs c main_arg3 (by decide)).trans (carry_main_arg3_0_31 m outs c)))))))))))))))

theorem carry_main_arg4_0_16 : V16 m outs c main_arg4 = V0 m c main_arg4 :=
  (V16_of m outs c main_arg4 (by decide)).trans ((V15_of m outs c main_arg4 (by decide)).trans ((V14_of m outs c main_arg4 (by decide)).trans ((V13_of m outs c main_arg4 (by decide)).trans ((V12_of m outs c main_arg4 (by decide)).trans ((V11_of m outs c main_arg4 (by decide)).trans ((V10_of m outs c main_arg4 (by decide)).trans ((V9_of m outs c main_arg4 (by decide)).trans ((V8_of m outs c main_arg4 (by decide)).trans ((V7_of m outs c main_arg4 (by decide)).trans ((V6_of m outs c main_arg4 (by decide)).trans ((V5_of m outs c main_arg4 (by decide)).trans ((V4_of m outs c main_arg4 (by decide)).trans ((V3_of m outs c main_arg4 (by decide)).trans ((V2_of m outs c main_arg4 (by decide)).trans (V1_of m c main_arg4 (by decide))))))))))))))))

theorem carry_main_arg4_0_31 : V31 m outs c main_arg4 = V0 m c main_arg4 :=
  (V31_of m outs c main_arg4 (by decide)).trans ((V30_of m outs c main_arg4 (by decide)).trans ((V29_of m outs c main_arg4 (by decide)).trans ((V28_of m outs c main_arg4 (by decide)).trans ((V27_of m outs c main_arg4 (by decide)).trans ((V26_of m outs c main_arg4 (by decide)).trans ((V25_of m outs c main_arg4 (by decide)).trans ((V24_of m outs c main_arg4 (by decide)).trans ((V23_of m outs c main_arg4 (by decide)).trans ((V22_of m outs c main_arg4 (by decide)).trans ((V21_of m outs c main_arg4 (by decide)).trans ((V20_of m outs c main_arg4 (by decide)).trans ((V19_of m outs c main_arg4 (by decide)).trans ((V18_of m outs c main_arg4 (by decide)).trans ((V17_of m outs c main_arg4 (by decide)).trans (carry_main_arg4_0_16 m outs c)))))))))))))))

theorem carry_main_arg4_0_46 : V46 m outs c main_arg4 = V0 m c main_arg4 :=
  (V46_of m outs c main_arg4 (by decide)).trans ((V45_of m outs c main_arg4 (by decide)).trans ((V44_of m outs c main_arg4 (by decide)).trans ((V43_of m outs c main_arg4 (by decide)).trans ((V42_of m outs c main_arg4 (by decide)).trans ((V41_of m outs c main_arg4 (by decide)).trans ((V40_of m outs c main_arg4 (by decide)).trans ((V39_of m outs c main_arg4 (by decide)).trans ((V38_of m outs c main_arg4 (by decide)).trans ((V37_of m outs c main_arg4 (by decide)).trans ((V36_of m outs c main_arg4 (by decide)).trans ((V35_of m outs c main_arg4 (by decide)).trans ((V34_of m outs c main_arg4 (by decide)).trans ((V33_of m outs c main_arg4 (by decide)).trans ((V32_of m outs c main_arg4 (by decide)).trans (carry_main_arg4_0_31 m outs c)))))))))))))))

theorem carry_main_arg7_0_16 : V16 m outs c main_arg7 = V0 m c main_arg7 :=
  (V16_of m outs c main_arg7 (by decide)).trans ((V15_of m outs c main_arg7 (by decide)).trans ((V14_of m outs c main_arg7 (by decide)).trans ((V13_of m outs c main_arg7 (by decide)).trans ((V12_of m outs c main_arg7 (by decide)).trans ((V11_of m outs c main_arg7 (by decide)).trans ((V10_of m outs c main_arg7 (by decide)).trans ((V9_of m outs c main_arg7 (by decide)).trans ((V8_of m outs c main_arg7 (by decide)).trans ((V7_of m outs c main_arg7 (by decide)).trans ((V6_of m outs c main_arg7 (by decide)).trans ((V5_of m outs c main_arg7 (by decide)).trans ((V4_of m outs c main_arg7 (by decide)).trans ((V3_of m outs c main_arg7 (by decide)).trans ((V2_of m outs c main_arg7 (by decide)).trans (V1_of m c main_arg7 (by decide))))))))))))))))

theorem carry_main_arg7_0_31 : V31 m outs c main_arg7 = V0 m c main_arg7 :=
  (V31_of m outs c main_arg7 (by decide)).trans ((V30_of m outs c main_arg7 (by decide)).trans ((V29_of m outs c main_arg7 (by decide)).trans ((V28_of m outs c main_arg7 (by decide)).trans ((V27_of m outs c main_arg7 (by decide)).trans ((V26_of m outs c main_arg7 (by decide)).trans ((V25_of m outs c main_arg7 (by decide)).trans ((V24_of m outs c main_arg7 (by decide)).trans ((V23_of m outs c main_arg7 (by decide)).trans ((V22_of m outs c main_arg7 (by decide)).trans ((V21_of m outs c main_arg7 (by decide)).trans ((V20_of m outs c main_arg7 (by decide)).trans ((V19_of m outs c main_arg7 (by decide)).trans ((V18_of m outs c main_arg7 (by decide)).trans ((V17_of m outs c main_arg7 (by decide)).trans (carry_main_arg7_0_16 m outs c)))))))))))))))

theorem carry_main_arg7_0_46 : V46 m outs c main_arg7 = V0 m c main_arg7 :=
  (V46_of m outs c main_arg7 (by decide)).trans ((V45_of m outs c main_arg7 (by decide)).trans ((V44_of m outs c main_arg7 (by decide)).trans ((V43_of m outs c main_arg7 (by decide)).trans ((V42_of m outs c main_arg7 (by decide)).trans ((V41_of m outs c main_arg7 (by decide)).trans ((V40_of m outs c main_arg7 (by decide)).trans ((V39_of m outs c main_arg7 (by decide)).trans ((V38_of m outs c main_arg7 (by decide)).trans ((V37_of m outs c main_arg7 (by decide)).trans ((V36_of m outs c main_arg7 (by decide)).trans ((V35_of m outs c main_arg7 (by decide)).trans ((V34_of m outs c main_arg7 (by decide)).trans ((V33_of m outs c main_arg7 (by decide)).trans ((V32_of m outs c main_arg7 (by decide)).trans (carry_main_arg7_0_31 m outs c)))))))))))))))
end Cert.KernelIdeal.Ch

end
-- ==== Proof.KI.Val6.lean ====
/- Region 6 leaves the product of its two input arrays in its result array: point t writes rows 5000·t … 5000·t + 4999 of that product, and the ten blocks cover the 50000 rows. -/
import proofs.«160853_j19842748908317_1_alg».proof.Proof.KI.Reg6
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

theorem iblk6_0_apply (c : Dev nD) (t : Fin cfg6.N) (p : Fin 5000) (k : Fin 128) (hr : 5000 * t.val + p.val < 50000) :
    (iblk6 V c 0 t : Vec Ideal S5000x128 .f32) (ix2 p k)
      = (V c (Pipeline.arrRef spec6 0) : FVec Ideal Cert.ReferenceIdeal.S50000x128 .f32) (ix2 ⟨5000 * t.val + p.val, hr⟩ k) := by
  obtain ⟨hxa, hxb, -, -, -, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * p.val = 5000 * t.val + p.val; rw [hxa]; omega
  | ⟨1, _⟩ => show win6_0.index t (1 : Fin 2) * 128 + 1 * k.val = k.val; rw [hxb]; omega

theorem iblk6_1_apply (c : Dev nD) (t : Fin cfg6.N) (k q : Fin 128) :
    (iblk6 V c 1 t : Vec Ideal S128x128 .f32) (ix2 k q)
      = (V c (Pipeline.arrRef spec6 1) : FVec Ideal Cert.ReferenceIdeal.S128x128 .f32) (ix2 k q) := by
  obtain ⟨-, -, hwa, hwb, -, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 128 + 1 * k.val = k.val; rw [hwa]; omega
  | ⟨1, _⟩ => show win6_1.index t (1 : Fin 2) * 128 + 1 * q.val = q.val; rw [hwb]; omega

abbrev prod6 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec6 0)) (V c (Pipeline.arrRef spec6 1))

theorem flushed6_2_eq (c : Dev nD) (t : Fin cfg6.N) :
    (dat6 (F := Ideal) V c).flushed 2 t = ((cfg6.win 2).blk t).view.read (Elt Ideal) (prod6 V c) := by
  show (cfg6.win 2).cut (grid6.coords t) ((dat6 (F := Ideal) V c).after 2 t) = _
  rw [after6_2]
  unfold out6_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid6.N = 10 := N_6
  have ht : t.val < grid6.N := t.isLt
  obtain ⟨-, -, -, -, hya, hyb⟩ := idx_facts6 t
  have hr : 5000 * t.val + (j 0).val < 50000 := by omega
  have ex : (cfg6.win 2).xinj (grid6.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg6.win 2).blk t).view.emb j = ix2 (⟨5000 * t.val + (j 0).val, hr⟩ : Fin 50000) (⟨(j 1).val, hj1⟩ : Fin 128) := by
    funext a
    apply Fin.ext
    match a with
    | ⟨0, _⟩ => show win6_2.index t (0 : Fin 2) * 5000 + 1 * (j 0).val = 5000 * t.val + (j 0).val; rw [hya]; omega
    | ⟨1, _⟩ => show win6_2.index t (1 : Fin 2) * 128 + 1 * (j 1).val = (j 1).val; rw [hyb]; omega
  refine (congrArg (k6_pay1 (F := Ideal) (iblk6 V c 0 t) (iblk6 V c 1 t)) ex).trans ?_
  refine Eq.trans ?_ (congrArg (prod6 V c) ee).symm
  exact block_eq (k6_pay1 (F := Ideal)) pay_apply (V c (Pipeline.arrRef spec6 0)) (V c (Pipeline.arrRef spec6 1)) (iblk6 V c 0 t) (iblk6 V c 1 t) t.val
    ⟨(j 0).val, hj0⟩ ⟨(j 1).val, hj1⟩ hr (fun k => iblk6_0_apply V c t ⟨(j 0).val, hj0⟩ k hr)
    (fun k => iblk6_1_apply V c t k ⟨(j 1).val, hj1⟩)

theorem rows_cover6_2 (i : Cert.ReferenceIdeal.S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : grid6.N = 10 := N_6
  obtain ⟨t, ht⟩ : ∃ t : Fin cfg6.N, t.val = (i 0).val / 5000 :=
    ⟨⟨(i 0).val / 5000, by show (i 0).val / 5000 < grid6.N; omega⟩, rfl⟩
  obtain ⟨-, -, -, -, hya, hyb⟩ := idx_facts6 t
  refine ⟨t, flush6_2 t, ?_⟩
  show i ∈ ((View.whole (Pipeline.arrRef spec6 2)).slice (win6_2.rect t)).set
  rw [View.set_slice_whole, Rect.mem_set_unit]
  intro a
  match a with
  | ⟨0, _⟩ =>
    show win6_2.index t (0 : Fin 2) * 5000 ≤ (i 0).val ∧ (i 0).val < win6_2.index t (0 : Fin 2) * 5000 + 5000
    rw [hya, ht]; omega
  | ⟨1, _⟩ =>
    show win6_2.index t (1 : Fin 2) * 128 ≤ (i 1).val ∧ (i 1).val < win6_2.index t (1 : Fin 2) * 128 + 128
    rw [hyb]; omega

theorem val6 (V : (c : Dev nD) → (b : Ref sig .tc) → Buf (Elt Ideal) ((c : Thread nD τ).loc b)) (c : Dev nD) :
    (dat6 (F := Ideal) V c).arrAt 2 cfg6.N
      = Host.dotGeneral (F := Ideal) (φ₁ := .f32) (φ₂ := .f32) Cert.ReferenceIdeal.dot_S50000x128_S128x128_S50000x128_1_0_0_1_n_n none
          (V c (Pipeline.arrRef spec6 0)) (V c (Pipeline.arrRef spec6 1)) :=
  (dat6 (F := Ideal) V c).arrAt_eq_of_cover 2 (prod6 V c) (fun t _ => flushed6_2_eq V c t) rows_cover6_2
end Cert.KernelIdeal.Rg

end
-- ==== Proof.KI.Val7.lean ====
/- Region 7 leaves in its result array its first input array scaled, row by row, by its coefficient column: point t writes rows 5000·t … of that product, and the blocks cover every row. -/
import proofs.«160853_j19842748908317_1_alg».proof.Proof.KI.Reg7
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem iblk7_0_at (c : Dev nD) (t : Fin cfg7.N) (p : Fin 5000) (q : Fin 128) (k : S850000x128.Idx)
    (hrow : (k 0).val = 5000 * t.val + p.val) (hlane : (k 1).val = q.val) :
    (iblk7 V c 0 t : Vec F S5000x128 .f32) (ix2 p q) = (V c (Pipeline.arrRef spec7 0) : S850000x128.Idx → Elt F .f32) k := by
  obtain ⟨er, el, -⟩ := idx_facts7 t
  unfold iblk7
  rw [View.read_apply]
  refine congrArg (V c (Pipeline.arrRef spec7 0)) (funext fun a => Fin.ext ?_)
  match a with
  | ⟨0, _⟩ => show win7_0.index t (0 : Fin 2) * 5000 + 1 * p.val = (k 0).val; rw [er, hrow]; omega
  | ⟨1, _⟩ => show win7_0.index t (1 : Fin 2) * 128 + 1 * q.val = (k 1).val; rw [el, hlane]; omega

theorem iblk7_1_at (c : Dev nD) (t : Fin cfg7.N) (p : Fin 5000) (k : S850000x1.Idx)
    (hrow : (k 0).val = 5000 * t.val + p.val) :
    (iblk7 V c 1 t : Vec F S5000x1 .f32) (ix2 p (0 : Fin 1)) = (V c (Pipeline.arrRef spec7 1) : S850000x1.Idx → Elt F .f32) k := by
  obtain ⟨-, -, er, el, -⟩ := idx_facts7 t
  have hcol : (k 1).val < 1 := (k 1).isLt
  unfold iblk7
  rw [View.read_apply]
  refine congrArg (V c (Pipeline.arrRef spec7 1)) (funext fun a => Fin.ext ?_)
  match a with
  | ⟨0, _⟩ => show win7_1.index t (0 : Fin 2) * 5000 + 1 * p.val = (k 0).val; rw [er, hrow]; omega
  | ⟨1, _⟩ => show win7_1.index t (1 : Fin 2) * 1 + 1 * 0 = (k 1).val; rw [el]; omega

theorem flushed7_2_eq [Cert.ReferenceIdeal.Facts₀] (c : Dev nD) (t : Fin cfg7.N) :
    (dat7 V c).flushed 2 t = ((cfg7.win 2).blk t).view.read (Elt F)
      (mulf (φ := .f32) (V c (Pipeline.arrRef spec7 0))
        (broadcastInDim Cert.ReferenceIdeal.S850000x128 ![0, 1] Cert.ReferenceIdeal.Facts₀.bcast_S850000x1_S850000x128_0_1 (V c (Pipeline.arrRef spec7 1)))) := by
  show (cfg7.win 2).cut (grid7.coords t) ((dat7 V c).after 2 t) = _
  rw [after7_2]
  funext j
  obtain ⟨p, q, rfl⟩ : ∃ (p : Fin 5000) (q : Fin 128), j = ix2 p q := ⟨j 0, j 1, eq_ix2 j⟩
  obtain ⟨-, -, -, -, er, el⟩ := idx_facts7 t
  have hp : p.val < 5000 := p.isLt
  have ht : t.val < 170 := by have h := t.isLt; have hN : cfg7.N = 170 := N_7; omega
  have hr : 5000 * t.val + p.val < 850000 := by omega
  have hrow : ((((cfg7.win 2).blk t).view.emb (ix2 p q) : S850000x128.Idx) 0).val = 5000 * t.val + p.val := by
    show win7_2.index t (0 : Fin 2) * 5000 + 1 * p.val = _
    rw [er]; omega
  have hlane : ((((cfg7.win 2).blk t).view.emb (ix2 p q) : S850000x128.Idx) 1).val = q.val := by
    show win7_2.index t (1 : Fin 2) * 128 + 1 * q.val = _
    rw [el]; omega
  rw [View.read_apply]
  refine (outScale_at (iblk7 V c 0 t) (iblk7 V c 1 t) p q _ rfl rfl).trans ?_
  exact (congrArg₂ FloatOps.mulf (iblk7_0_at V c t p q _ hrow hlane)
      (iblk7_1_at V c t p (ix2 (⟨5000 * t.val + p.val, hr⟩ : Fin 850000) (0 : Fin 1)) rfl)).trans
    (scaled_at _ _ ⟨5000 * t.val + p.val, hr⟩ q _ hrow hlane).symm

theorem mem_blk7_2 (t : Fin cfg7.N) (i : S850000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole (Pipeline.arrRef spec7 2)).slice (win7_2.rect t)).set ↔ _
  rw [View.set_slice_whole, Rect.mem_set_unit]
  exact Iff.rfl

theorem rows_cover7_2 (i : S850000x128.Idx) :
    ∃ t : Fin cfg7.N, (cfg7.win 2).flush t = true ∧ i ∈ ((cfg7.win 2).blk t).view.set := by
  have hrow : (i 0).val < 850000 := (i 0).isLt
  have hlane : (i 1).val < 128 := (i 1).isLt
  have hN : cfg7.N = 170 := N_7
  have ht : (i 0).val / 5000 < cfg7.N := by omega
  obtain ⟨-, -, -, -, er, el⟩ := idx_facts7 ⟨(i 0).val / 5000, ht⟩
  refine ⟨⟨(i 0).val / 5000, ht⟩, flush7_2 _, ?_⟩
  rw [mem_blk7_2]
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win7_2.index ⟨(i 0).val / 5000, ht⟩ (1 : Fin 2) * 128 ≤ (i 1).val ∧ (i 1).val < win7_2.index ⟨(i 0).val / 5000, ht⟩ (1 : Fin 2) * 128 + 128
    rw [el]; omega

theorem arr7_2_eq [Cert.ReferenceIdeal.Facts₀] (c : Dev nD) :
    (dat7 V c).arrAt 2 cfg7.N
      = mulf (φ := .f32) (V c (Pipeline.arrRef spec7 0))
          (broadcastInDim Cert.ReferenceIdeal.S850000x128 ![0, 1] Cert.ReferenceIdeal.Facts₀.bcast_S850000x1_S850000x128_0_1 (V c (Pipeline.arrRef spec7 1))) :=
  (dat7 V c).arrAt_eq_of_cover 2 _ (fun t _ => flushed7_2_eq V c t) rows_cover7_2

end Cert.KernelIdeal.Rg

end
-- ==== Proof.KI.Val8.lean ====
/- Region 8 leaves in its result array the rectifier, with bias and slope rows, of its first input array: point t writes rows 5000·t … of it, and the ten blocks cover the rows. -/
import proofs.«160853_j19842748908317_1_alg».proof.Proof.KI.Reg8
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

set_option maxHeartbeats 2000000 in
theorem flushed8_3_eq (c : Dev nD) (t : Fin cfg8.N) :
    (dat8 V c).flushed 3 t = ((cfg8.win 3).blk t).view.read (Elt F)
      (act (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz]
  simp only [View.ld_unit_zero (S := S5000x128) hz, View.ld_unit_zero (S := S1x128) hz]
  obtain ⟨e00, e01, e10, e11, e20, e21, e30, e31⟩ := idx_facts8 t
  have hN : grid8.N = 10 := N_8
  have htN : t.val < grid8.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k8_pay1 (iblk8 V c 0 t) (iblk8 V c 1 t) (iblk8 V c 2 t) (ix2 p q)
    = act (V c (Pipeline.arrRef spec8 0)) (V c (Pipeline.arrRef spec8 1)) (V c (Pipeline.arrRef spec8 2))
        (((cfg8.win 3).blk t).view.emb (ix2 p q))
  have hemb : ((cfg8.win 3).blk t).view.emb (ix2 p q) = ix2 (⟨t.val * 5000 + p.val, hr⟩ : Fin 50000) q := by
    funext a; apply Fin.ext
    match a with
    | ⟨0, _⟩ => show win8_3.index t (0 : Fin 2) * 5000 + 1 * p.val = t.val * 5000 + p.val; rw [e30]; omega
    | ⟨1, _⟩ => show win8_3.index t (1 : Fin 2) * 128 + 1 * q.val = q.val; rw [e31]; omega
  rw [hemb]
  refine payAct_eq_act_at (iblk8 V c 0 t) (iblk8 V c 1 t) (iblk8 V c 2 t)
    (V c (Pipeline.arrRef spec8 0)) (V c (Pipeline.arrRef spec8 1)) (V c (Pipeline.arrRef spec8 2)) p q ⟨t.val * 5000 + p.val, hr⟩ ?_ ?_ ?_
  · show V c (Pipeline.arrRef spec8 0) (((cfg8.win 0).blk t).view.emb (ix2 p q)) = _
    refine congrArg _ (funext fun a => Fin.ext ?_)
    match a with
    | ⟨0, _⟩ => show win8_0.index t (0 : Fin 2) * 5000 + 1 * p.val = t.val * 5000 + p.val; rw [e00]; omega
    | ⟨1, _⟩ => show win8_0.index t (1 : Fin 2) * 128 + 1 * q.val = q.val; rw [e01]; omega
  · show V c (Pipeline.arrRef spec8 1) (((cfg8.win 1).blk t).view.emb (ix2 (0 : Fin 1) q)) = _
    refine congrArg _ (funext fun a => Fin.ext ?_)
    match a with
    | ⟨0, _⟩ => show win8_1.index t (0 : Fin 2) * 1 + 1 * 0 = 0; rw [e10]
    | ⟨1, _⟩ => show win8_1.index t (1 : Fin 2) * 128 + 1 * q.val = q.val; rw [e11]; omega
  · show V c (Pipeline.arrRef spec8 2) (((cfg8.win 2).blk t).view.emb (ix2 (0 : Fin 1) q)) = _
    refine congrArg _ (funext fun a => Fin.ext ?_)
    match a with
    | ⟨0, _⟩ => show win8_2.index t (0 : Fin 2) * 1 + 1 * 0 = 0; rw [e20]
    | ⟨1, _⟩ => show win8_2.index t (1 : Fin 2) * 128 + 1 * q.val = q.val; rw [e21]; omega

theorem mem_blk8_3 (t : Fin cfg8.N) (i : S50000x128.Idx) :
    i ∈ ((cfg8.win 3).blk t).view.set ↔ ∀ a : Fin 2, win8_3.index t a * S5000x128.size a ≤ (i a).val
      ∧ (i a).val < win8_3.index t a * S5000x128.size a + S5000x128.size a := by
  show i ∈ ((View.whole (Pipeline.arrRef spec8 3)).slice (win8_3.rect t)).set ↔ _
  rw [View.set_slice_whole, Rect.mem_set_unit]
  exact Iff.rfl

theorem covered8_3 (i : S50000x128.Idx) :
    ∃ t : Fin cfg8.N, (cfg8.win 3).flush t = true ∧ i ∈ ((cfg8.win 3).blk t).view.set := by
  have hi0 : (i 0).val < 50000 := idx2_lt0 i
  have hi1 : (i 1).val < 128 := idx2_lt1 i
  have hN : grid8.N = 10 := N_8
  obtain ⟨t, ht⟩ : ∃ t : Fin cfg8.N, t.val = (i 0).val / 5000 :=
    ⟨⟨(i 0).val / 5000, by show (i 0).val / 5000 < grid8.N; omega⟩, rfl⟩
  obtain ⟨-, -, -, -, -, -, e30, e31⟩ := idx_facts8 t
  refine ⟨t, flush8_3 t, ?_⟩
  rw [mem_blk8_3]
  intro a
  match a with
  | ⟨0, _⟩ =>
    show win8_3.index t (0 : Fin 2) * 5000 ≤ (i 0).val ∧ (i 0).val < win8_3.index t (0 : Fin 2) * 5000 + 5000
    rw [e30, ht]; omega
  | ⟨1, _⟩ =>
    show win8_3.index t (1 : Fin 2) * 128 ≤ (i 1).val ∧ (i 1).val < win8_3.index t (1 : Fin 2) * 128 + 128
    rw [e31]; omega

theorem val8 (c : Dev nD) :
    (dat8 V c).arrAt 3 cfg8.N
      = select (cmpf .ogt (addf (V c (Pipeline.arrRef spec8 0))
              (broadcastInDim Cert.ReferenceIdeal.S50000x128 ![0, 1] Cert.ReferenceIdeal.Facts₀.bcast_S1x128_S50000x128_0_1 (V c (Pipeline.arrRef spec8 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec8 0))
            (broadcastInDim Cert.ReferenceIdeal.S50000x128 ![0, 1] Cert.ReferenceIdeal.Facts₀.bcast_S1x128_S50000x128_0_1 (V c (Pipeline.arrRef spec8 1))))
          (mulf (broadcastInDim Cert.ReferenceIdeal.S50000x128 ![0, 1] Cert.ReferenceIdeal.Facts₀.bcast_S1x128_S50000x128_0_1 (V c (Pipeline.arrRef spec8 2)))
            (addf (V c (Pipeline.arrRef spec8 0))
              (broadcastInDim Cert.ReferenceIdeal.S50000x128 ![0, 1] Cert.ReferenceIdeal.Facts₀.bcast_S1x128_S50000x128_0_1 (V c (Pipeline.arrRef spec8 1))))) :=
  (dat8 V c).arrAt_eq_of_cover 3
    (act (V c (Pipeline.arrRef spec8 0)) (V c (Pipeline.arrRef spec8 1)) (V c (Pipeline.arrRef spec8 2)))
    (fun t _ => flushed8_3_eq V c t) (fun i => covered8_3 i)

end Cert.KernelIdeal.Rg

end
-- ==== Proof.KI.ChainA1.lean ====
/- A later scale's first layer: after each item of @main, each buffer holds the reference's stage of the same arguments. -/
import proofs.«160853_j19842748908317_1_alg».proof.Proof.KI.PData
import proofs.«160853_j19842748908317_1_alg».proof.Proof.KI.CarryArgs
import proofs.«160853_j19842748908317_1_alg».proof.Proof.KI.Val6
import proofs.«160853_j19842748908317_1_alg».proof.Proof.KI.Val7
import proofs.«160853_j19842748908317_1_alg».proof.Proof.KI.Val8
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k6_arg1_V15 : V15 m outs c main_arg1 = (m ((c : Thread nD τ).loc main_arg1)) := carry_main_arg1_0_15 m outs c
theorem k6_arg2_V15 : V15 m outs c main_arg2 = (m ((c : Thread nD τ).loc main_arg2)) := carry_main_arg2_0_15 m outs c
theorem k6_arg0_V16 : V16 m outs c main_arg0 = (m ((c : Thread nD τ).loc main_arg0)) := carry_main_arg0_0_16 m outs c
theorem k6_arg3_V16 : V16 m outs c main_arg3 = (m ((c : Thread nD τ).loc main_arg3)) := carry_main_arg3_0_16 m outs c
theorem k6_arg4_V16 : V16 m outs c main_arg4 = (m ((c : Thread nD τ).loc main_arg4)) := carry_main_arg4_0_16 m outs c
theorem k6_arg7_V16 : V16 m outs c main_arg7 = (m ((c : Thread nD τ).loc main_arg7)) := carry_main_arg7_0_16 m outs c

theorem k6_v95 : V16 m outs c main_v95 = val_main_v109 (F := F) (m ((c : Thread nD τ).loc main_arg1)) := by
  have h1 := k6_arg1_V15 m outs c
  show StableHlo.after hostOps6 (V15 m outs c) main_v95 = _
  generalize V15 m outs c = W at h1 ⊢
  after_results
  rw [h1]
  rfl

theorem k6_v97 : V16 m outs c main_v97 = val_main_v111 (F := F) (m ((c : Thread nD τ).loc main_arg1)) := by
  have h1 := k6_arg1_V15 m outs c
  show StableHlo.after hostOps6 (V15 m outs c) main_v97 = _
  generalize V15 m outs c = W at h1 ⊢
  after_results
  rw [h1]
  rfl

theorem k6_v99 : V16 m outs c main_v99 = val_main_v113 (F := F) (m ((c : Thread nD τ).loc main_arg2)) := by
  have h2 := k6_arg2_V15 m outs c
  show StableHlo.after hostOps6 (V15 m outs c) main_v99 = _
  generalize V15 m outs c = W at h2 ⊢
  after_results
  rw [h2]
  rfl

theorem k6_v95_V17 : V17 m outs c main_v95 = val_main_v109 (F := F) (m ((c : Thread nD τ).loc main_arg1)) := (V17_of m outs c main_v95 (by decide)).trans (k6_v95 m outs c)
theorem k6_v97_V17 : V17 m outs c main_v97 = val_main_v111 (F := F) (m ((c : Thread nD τ).loc main_arg1)) := (V17_of m outs c main_v97 (by decide)).trans (k6_v97 m outs c)
theorem k6_v99_V17 : V17 m outs c main_v99 = val_main_v113 (F := F) (m ((c : Thread nD τ).loc main_arg2)) := (V17_of m outs c main_v99 (by decide)).trans (k6_v99 m outs c)

theorem k6_v102 : V18 m outs c main_v102 = val_main_v116 (F := F) (m ((c : Thread nD τ).loc main_arg1)) := by
  have h1 := k6_v95_V17 m outs c
  show StableHlo.after hostOps7 (V17 m outs c) main_v102 = _
  generalize V17 m outs c = W at h1 ⊢
  after_results
  rw [h1]
  rfl

theorem k6_v103 : V18 m outs c main_v103 = val_main_v117 (F := F) (m ((c : Thread nD τ).loc main_arg1)) := by
  have h3 := k6_v97_V17 m outs c
  show StableHlo.after hostOps7 (V17 m outs c) main_v103 = _
  generalize V17 m outs c = W at h3 ⊢
  after_results
  rw [h3]
  rfl

theorem k6_v105 : V18 m outs c main_v105 = val_main_v119 (F := F) (m ((c : Thread nD τ).loc main_arg2)) := by
  have h5 := k6_v99_V17 m outs c
  show StableHlo.after hostOps7 (V17 m outs c) main_v105 = _
  generalize V17 m outs c = W at h5 ⊢
  after_results
  rw [h5]
  rfl

theorem k6_v110 : V18 m outs c main_v110 = val_main_v124 (F := F) (m ((c : Thread nD τ).loc main_arg1)) (m ((c : Thread nD τ).loc main_arg2)) := by
  have h3 := k6_v97_V17 m outs c
  have h5 := k6_v99_V17 m outs c
  show StableHlo.after hostOps7 (V17 m outs c) main_v110 = _
  generalize V17 m outs c = W at h3 h5 ⊢
  after_results
  rw [h3, h5]
  rfl

theorem k6_v111 : V18 m outs c main_v111 = val_main_v125 (F := F) (m ((c : Thread nD τ).loc main_arg1)) (m ((c : Thread nD τ).loc main_arg2)) := by
  have h3 := k6_v97_V17 m outs c
  have h5 := k6_v99_V17 m outs c
  show StableHlo.after hostOps7 (V17 m outs c) main_v111 = _
  generalize V17 m outs c = W at h3 h5 ⊢
  after_results
  rw [h3, h5]
  rfl

theorem k6_cst_23 : V18 m outs c main_cst_23 = val_main_cst_25 (F := F) := by
  show StableHlo.after hostOps7 (V17 m outs c) main_cst_23 = _
  generalize V17 m outs c = W
  after_results
  rfl

theorem k6_v112 : V19 m outs c main_v112 = val_main_v126 (F := F) (m ((c : Thread nD τ).loc main_arg1)) (m ((c : Thread nD τ).loc main_arg2)) := by
  have h16 := k6_v110 m outs c
  have h17 := k6_v111 m outs c
  have hc2 := k6_cst_23 m outs c
  show StableHlo.after hostOps7_1 (V18 m outs c) main_v112 = _
  generalize V18 m outs c = W at h16 h17 hc2 ⊢
  after_results
  rw [h16, h17, hc2]
  simp only [TRef.ofBuf, TRef.toBuf, cast_eq]
  rfl

theorem k6_v102_V19 : V19 m outs c main_v102 = val_main_v116 (F := F) (m ((c : Thread nD τ).loc main_arg1)) := (V19_of m outs c main_v102 (by decide)).trans (k6_v102 m outs c)
theorem k6_v103_V19 : V19 m outs c main_v103 = val_main_v117 (F := F) (m ((c : Thread nD τ).loc main_arg1)) := (V19_of m outs c main_v103 (by decide)).trans (k6_v103 m outs c)
theorem k6_v105_V19 : V19 m outs c main_v105 = val_main_v119 (F := F) (m ((c : Thread nD τ).loc main_arg2)) := (V19_of m outs c main_v105 (by decide)).trans (k6_v105 m outs c)

theorem k6_v128 : V20 m outs c main_v128 = val_main_v142 (F := F) (m ((c : Thread nD τ).loc main_arg1)) (m ((c : Thread nD τ).loc main_arg2)) := by
  have h8 := k6_v102_V19 m outs c
  have h9 := k6_v103_V19 m outs c
  have h11 := k6_v105_V19 m outs c
  have h18 := k6_v112 m outs c
  show StableHlo.after hostOps7_2 (V19 m outs c) main_v128 = _
  generalize V19 m outs c = W at h8 h9 h11 h18 ⊢
  after_results_simp
  rw [h8, h9, h11, h18]
  rfl

theorem k6_v129 : V20 m outs c main_v129 = val_main_v150 (F := F) (m ((c : Thread nD τ).loc main_arg1)) (m ((c : Thread nD τ).loc main_arg2)) := by
  have h8 := k6_v102_V19 m outs c
  have h9 := k6_v103_V19 m outs c
  have h11 := k6_v105_V19 m outs c
  have h18 := k6_v112 m outs c
  have e : shapeCast S850000x1 (val_main_v142 (F := F) (m ((c : Thread nD τ).loc main_arg1)) (m ((c : Thread nD τ).loc main_arg2))) shapeCasts_S850000_S850000x1 = val_main_v150 (F := F) (m ((c : Thread nD τ).loc main_arg1)) (m ((c : Thread nD τ).loc main_arg2)) :=
    (col_reshape_eq_bcast (F := F) (val_main_v142 (F := F) (m ((c : Thread nD τ).loc main_arg1)) (m ((c : Thread nD τ).loc main_arg2)))).trans rfl
  show StableHlo.after hostOps7_2 (V19 m outs c) main_v129 = _
  generalize V19 m outs c = W at h8 h9 h11 h18 ⊢
  after_results_simp
  rw [h8, h9, h11, h18]
  exact Eq.trans rfl e

theorem k6_v136 (h6 : V17 m outs c main_v100 = val_main_v114 (F := F) (m ((c : Thread nD τ).loc main_arg0)) (m ((c : Thread nD τ).loc main_arg3))) :
    V20 m outs c main_v136 = val_main_v149 (F := F) (m ((c : Thread nD τ).loc main_arg0)) (m ((c : Thread nD τ).loc main_arg1)) (m ((c : Thread nD τ).loc main_arg3)) := by
  have h6' : V19 m outs c main_v100 = val_main_v114 (F := F) (m ((c : Thread nD τ).loc main_arg0)) (m ((c : Thread nD τ).loc main_arg3)) :=
    (V19_of m outs c main_v100 (by decide)).trans ((V18_of m outs c main_v100 (by decide)).trans h6)
  have h8 := k6_v102_V19 m outs c
  show StableHlo.after hostOps7_2 (V19 m outs c) main_v136 = _
  generalize V19 m outs c = W at h6' h8 ⊢
  after_results_simp
  rw [h6', h8]
  rfl

theorem k6_v137 (ho1 : outs 21 main_v137 c = (dat7 (vt (V20 m outs)) c).arrAt 2 cfg7.N)
    (h6 : V17 m outs c main_v100 = val_main_v114 (F := F) (m ((c : Thread nD τ).loc main_arg0)) (m ((c : Thread nD τ).loc main_arg3))) :
    V21 m outs c main_v137 = val_main_v152 (F := F) (m ((c : Thread nD τ).loc main_arg0)) (m ((c : Thread nD τ).loc main_arg1)) (m ((c : Thread nD τ).loc main_arg2)) (m ((c : Thread nD τ).loc main_arg3)) := by
  have h42 : vt (V20 m outs) c (Pipeline.arrRef spec7 0) = val_main_v149 (F := F) (m ((c : Thread nD τ).loc main_arg0)) (m ((c : Thread nD τ).loc main_arg1)) (m ((c : Thread nD τ).loc main_arg3)) := k6_v136 m outs c h6
  have h35 : vt (V20 m outs) c (Pipeline.arrRef spec7 1) = val_main_v150 (F := F) (m ((c : Thread nD τ).loc main_arg1)) (m ((c : Thread nD τ).loc main_arg2)) := k6_v129 m outs c
  show Function.update (V20 m outs c) main_v137 (outs 21 main_v137 c) main_v137 = _
  rw [Function.update_self, ho1, arr7_2_eq, h42, h35]
  rfl

theorem k6_v103_V21 : V21 m outs c main_v103 = val_main_v117 (F := F) (m ((c : Thread nD τ).loc main_arg1)) :=
  (V21_of m outs c main_v103 (by decide)).trans ((V20_of m outs c main_v103 (by decide)).trans (k6_v103_V19 m outs c))
theorem k6_arg4_V21 : V21 m outs c main_arg4 = (m ((c : Thread nD τ).loc main_arg4)) :=
  (V21_of m outs c main_arg4 (by decide)).trans ((V20_of m outs c main_arg4 (by decide)).trans ((V19_of m outs c main_arg4 (by decide)).trans
    ((V18_of m outs c main_arg4 (by decide)).trans ((V17_of m outs c main_arg4 (by decide)).trans (k6_arg4_V16 m outs c)))))
theorem k6_arg7_V21 : V21 m outs c main_arg7 = (m ((c : Thread nD τ).loc main_arg7)) :=
  (V21_of m outs c main_arg7 (by decide)).trans ((V20_of m outs c main_arg7 (by decide)).trans ((V19_of m outs c main_arg7 (by decide)).trans
    ((V18_of m outs c main_arg7 (by decide)).trans ((V17_of m outs c main_arg7 (by decide)).trans (k6_arg7_V16 m outs c)))))

theorem k6_v141 : V22 m outs c main_v141 = val_main_v156 (F := F) (m ((c : Thread nD τ).loc main_arg4)) := by
  have h4 := k6_arg4_V21 m outs c
  have e : shapeCast S1x128 (m ((c : Thread nD τ).loc main_arg4)) shapeCasts_S128_S1x128 = val_main_v156 (F := F) (m ((c : Thread nD τ).loc main_arg4)) :=
    (row_reshape_eq_bcast (F := F) (m ((c : Thread nD τ).loc main_arg4))).trans rfl
  show StableHlo.after hostOps8 (V21 m outs c) main_v141 = _
  generalize V21 m outs c = W at h4 ⊢
  after_results
  rw [h4]
  exact Eq.trans rfl e

theorem k6_v142 : V22 m outs c main_v142 = val_main_v161 (F := F) (m ((c : Thread nD τ).loc main_arg7)) := by
  have h7 := k6_arg7_V21 m outs c
  have e : shapeCast S1x128 (m ((c : Thread nD τ).loc main_arg7)) shapeCasts_S128_S1x128 = val_main_v161 (F := F) (m ((c : Thread nD τ).loc main_arg7)) :=
    (row_reshape_eq_bcast (F := F) (m ((c : Thread nD τ).loc main_arg7))).trans rfl
  show StableHlo.after hostOps8 (V21 m outs c) main_v142 = _
  generalize V21 m outs c = W at h7 ⊢
  after_results
  rw [h7]
  exact Eq.trans rfl e

theorem k6_v140 (ho1 : outs 21 main_v137 c = (dat7 (vt (V20 m outs)) c).arrAt 2 cfg7.N)
    (h6 : V17 m outs c main_v100 = val_main_v114 (F := F) (m ((c : Thread nD τ).loc main_arg0)) (m ((c : Thread nD τ).loc main_arg3))) :
    V22 m outs c main_v140 = val_main_v155 (F := F) (m ((c : Thread nD τ).loc main_arg0)) (m ((c : Thread nD τ).loc main_arg1)) (m ((c : Thread nD τ).loc main_arg2)) (m ((c : Thread nD τ).loc main_arg3)) := by
  have h9 := k6_v103_V21 m outs c
  have h43 := k6_v137 m outs c ho1 h6
  show StableHlo.after hostOps8 (V21 m outs c) main_v140 = _
  generalize V21 m outs c = W at h9 h43 ⊢
  after_results
  rw [h9, h43]
  rfl

theorem k6_v143 (ho1 : outs 21 main_v137 c = (dat7 (vt (V20 m outs)) c).arrAt 2 cfg7.N)
    (ho2 : outs 23 main_v143 c = (dat8 (vt (V22 m outs)) c).arrAt 3 cfg8.N)
    (h6 : V17 m outs c main_v100 = val_main_v114 (F := F) (m ((c : Thread nD τ).loc main_arg0)) (m ((c : Thread nD τ).loc main_arg3))) :
    V23 m outs c main_v143 = val_main_v164 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  have h46 : vt (V22 m outs) c (Pipeline.arrRef spec8 0) = val_main_v155 (F := F) (m ((c : Thread nD τ).loc main_arg0)) (m ((c : Thread nD τ).loc main_arg1)) (m ((c : Thread nD τ).loc main_arg2)) (m ((c : Thread nD τ).loc main_arg3)) := k6_v140 m outs c ho1 h6
  have h47 : vt (V22 m outs) c (Pipeline.arrRef spec8 1) = val_main_v156 (F := F) (m ((c : Thread nD τ).loc main_arg4)) := k6_v141 m outs c
  have h48 : vt (V22 m outs) c (Pipeline.arrRef spec8 2) = val_main_v161 (F := F) (m ((c : Thread nD τ).loc main_arg7)) := k6_v142 m outs c
  show Function.update (V22 m outs c) main_v143 (outs 23 main_v143 c) main_v143 = _
  rw [Function.update_self, ho2, val8, h46, h47, h48]
  rfl

end Host

section AtIdeal
variable (m : (ℓ : Loc nD τ sig) → Buf (Elt Ideal) ℓ) (c : Dev nD)

theorem k6_v100 : V17 m (outsX m) c main_v100
    = val_main_v114 (F := Ideal) (m ((c : Thread nD τ).loc main_arg0)) (m ((c : Thread nD τ).loc main_arg3)) := by
  have e0 : vt (V16 m (outsX m)) c (Pipeline.arrRef spec6 0) = (m ((c : Thread nD τ).loc main_arg0)) := k6_arg0_V16 m (outsX m) c
  have e3 : vt (V16 m (outsX m)) c (Pipeline.arrRef spec6 1) = (m ((c : Thread nD τ).loc main_arg3)) := k6_arg3_V16 m (outsX m) c
  show Function.update (V16 m (outsX m) c) main_v100 (outsX m 17 main_v100 c) main_v100 = _
  rw [Function.update_self, hout6, val6, e0, e3]
  rfl

theorem pro1_v95 : V16 m (outsX m) c main_v95 = val_main_v109 (F := Ideal) (m ((c : Thread nD τ).loc main_arg1)) := k6_v95 m (outsX m) c
theorem pro1_v97 : V16 m (outsX m) c main_v97 = val_main_v111 (F := Ideal) (m ((c : Thread nD τ).loc main_arg1)) := k6_v97 m (outsX m) c
theorem pro1_v99 : V16 m (outsX m) c main_v99 = val_main_v113 (F := Ideal) (m ((c : Thread nD τ).loc main_arg2)) := k6_v99 m (outsX m) c

theorem layer0s1_out : V23 m (outsX m) c main_v143
    = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  k6_v143 m (outsX m) c (hout7 m c) (hout8 m c) (k6_v100 m c)

end AtIdeal

end Cert.KernelIdeal.Ch

end
-- ==== Proof.KI.Val12.lean ====
/- Region 12 leaves the product of its two input arrays in its result array: point t writes rows 5000·t … 5000·t + 4999 of that product, and the ten blocks cover the 50000 rows. -/
import proofs.«160853_j19842748908317_1_alg».proof.Proof.KI.Reg12
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

variable (V : (c : Dev nD) → (b : Ref sig .tc) → Buf (Elt Ideal) ((c : Thread nD τ).loc b))

theorem iblk12_0_apply (c : Dev nD) (t : Fin cfg12.N) (p : Fin 5000) (k : Fin 128) (hr : 5000 * t.val + p.val < 50000) :
    (iblk12 V c 0 t : Vec Ideal S5000x128 .f32) (ix2 p k)
      = (V c (Pipeline.arrRef spec12 0) : FVec Ideal Cert.ReferenceIdeal.S50000x128 .f32) (ix2 ⟨5000 * t.val + p.val, hr⟩ k) := by
  obtain ⟨hxa, hxb, -, -, -, -⟩ := idx_facts12 t
  unfold iblk12
  rw [View.read_apply]
  show V c (Pipeline.arrRef spec12 0) _ = V c (Pipeline.arrRef spec12 0) _
  congr 1
  funext a
  apply Fin.ext
  match a with
  | ⟨0, _⟩ => show win12_0.index t (0 : Fin 2) * 5000 + 1 * p.val = 5000 * t.val + p.val; rw [hxa]; omega
  | ⟨1, _⟩ => show win12_0.index t (1 : Fin 2) * 128 + 1 * k.val = k.val; rw [hxb]; omega

theorem iblk12_1_apply (c : Dev nD) (t : Fin cfg12.N) (k q : Fin 128) :
    (iblk12 V c 1 t : Vec Ideal S128x128 .f32) (ix2 k q)
      = (V c (Pipeline.arrRef spec12 1) : FVec Ideal Cert.ReferenceIdeal.S128x128 .f32) (ix2 k q) := by
  obtain ⟨-, -, hwa, hwb, -, -⟩ := idx_facts12 t
  unfold iblk12
  rw [View.read_apply]
  show V c (Pipeline.arrRef spec12 1) _ = V c (Pipeline.arrRef spec12 1) _
  congr 1
  funext a
  apply Fin.ext
  match a with
  | ⟨0, _⟩ => show win12_1.index t (0 : Fin 2) * 128 + 1 * k.val = k.val; rw [hwa]; omega
  | ⟨1, _⟩ => show win12_1.index t (1 : Fin 2) * 128 + 1 * q.val = q.val; rw [hwb]; omega

abbrev prod12 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec12 0)) (V c (Pipeline.arrRef spec12 1))

theorem flushed12_2_eq (c : Dev nD) (t : Fin cfg12.N) :
    (dat12 (F := Ideal) V c).flushed 2 t = ((cfg12.win 2).blk t).view.read (Elt Ideal) (prod12 V c) := by
  show (cfg12.win 2).cut (grid12.coords t) ((dat12 (F := Ideal) V c).after 2 t) = _
  rw [after12_2]
  unfold out12_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid12.N = 10 := N_12
  have ht : t.val < grid12.N := t.isLt
  obtain ⟨-, -, -, -, hya, hyb⟩ := idx_facts12 t
  have hr : 5000 * t.val + (j 0).val < 50000 := by omega
  have ex : (cfg12.win 2).xinj (grid12.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg12.win 2).blk t).view.emb j = ix2 (⟨5000 * t.val + (j 0).val, hr⟩ : Fin 50000) (⟨(j 1).val, hj1⟩ : Fin 128) := by
    funext a
    apply Fin.ext
    match a with
    | ⟨0, _⟩ => show win12_2.index t (0 : Fin 2) * 5000 + 1 * (j 0).val = 5000 * t.val + (j 0).val; rw [hya]; omega
    | ⟨1, _⟩ => show win12_2.index t (1 : Fin 2) * 128 + 1 * (j 1).val = (j 1).val; rw [hyb]; omega
  refine (congrArg (k12_pay1 (F := Ideal) (iblk12 V c 0 t) (iblk12 V c 1 t)) ex).trans ?_
  refine Eq.trans ?_ (congrArg (prod12 V c) ee).symm
  exact block_eq (k12_pay1 (F := Ideal)) pay_apply (V c (Pipeline.arrRef spec12 0)) (V c (Pipeline.arrRef spec12 1)) (iblk12 V c 0 t) (iblk12 V c 1 t) t.val
    ⟨(j 0).val, hj0⟩ ⟨(j 1).val, hj1⟩ hr (fun k => iblk12_0_apply V c t ⟨(j 0).val, hj0⟩ k hr)
    (fun k => iblk12_1_apply V c t k ⟨(j 1).val, hj1⟩)

theorem rows_cover12_2 (i : Cert.ReferenceIdeal.S50000x128.Idx) :
    ∃ t : Fin cfg12.N, (cfg12.win 2).flush t = true ∧ i ∈ ((cfg12.win 2).blk t).view.set := by
  have hi0 : (i 0).val < 50000 := (i 0).isLt
  have hi1 : (i 1).val < 128 := (i 1).isLt
  have hN : grid12.N = 10 := N_12
  obtain ⟨t, ht⟩ : ∃ t : Fin cfg12.N, t.val = (i 0).val / 5000 :=
    ⟨⟨(i 0).val / 5000, by show (i 0).val / 5000 < grid12.N; omega⟩, rfl⟩
  obtain ⟨-, -, -, -, hya, hyb⟩ := idx_facts12 t
  refine ⟨t, flush12_2 t, ?_⟩
  show i ∈ ((View.whole (Pipeline.arrRef spec12 2)).slice (win12_2.rect t)).set
  rw [View.set_slice_whole, Rect.mem_set_unit]
  intro a
  match a with
  | ⟨0, _⟩ =>
    show win12_2.index t (0 : Fin 2) * 5000 ≤ (i 0).val ∧ (i 0).val < win12_2.index t (0 : Fin 2) * 5000 + 5000
    rw [hya, ht]; omega
  | ⟨1, _⟩ =>
    show win12_2.index t (1 : Fin 2) * 128 ≤ (i 1).val ∧ (i 1).val < win12_2.index t (1 : Fin 2) * 128 + 128
    rw [hyb]; omega

theorem val12 (V : (c : Dev nD) → (b : Ref sig .tc) → Buf (Elt Ideal) ((c : Thread nD τ).loc b)) (c : Dev nD) :
    (dat12 (F := Ideal) V c).arrAt 2 cfg12.N
      = Host.dotGeneral (F := Ideal) (φ₁ := .f32) (φ₂ := .f32) Cert.ReferenceIdeal.dot_S50000x128_S128x128_S50000x128_1_0_0_1_n_n none
          (V c (Pipeline.arrRef spec12 0)) (V c (Pipeline.arrRef spec12 1)) :=
  (dat12 (F := Ideal) V c).arrAt_eq_of_cover 2 (prod12 V c) (fun t _ => flushed12_2_eq V c t) rows_cover12_2
end Cert.KernelIdeal.Rg

end
-- ==== Proof.KI.Val13.lean ====
/- Region 13 leaves in its result array its first input array scaled, row by row, by its coefficient column: point t writes rows 5000·t … of that product, and the blocks cover every row. -/
import proofs.«160853_j19842748908317_1_alg».proof.Proof.KI.Reg13
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0 :=
  (by decide +kernel : ∀ t : Fin grid13.N, _)

theorem iblk13_0_at (c : Dev nD) (t : Fin cfg13.N) (p : Fin 5000) (q : Fin 128) (k : S850000x128.Idx)
    (hrow : (k 0).val = 5000 * t.val + p.val) (hlane : (k 1).val = q.val) :
    (iblk13 V c 0 t : Vec F S5000x128 .f32) (ix2 p q) = (V c (Pipeline.arrRef spec13 0) : S850000x128.Idx → Elt F .f32) k := by
  obtain ⟨er, el, -⟩ := idx_facts13 t
  unfold iblk13
  rw [View.read_apply]
  refine congrArg (V c (Pipeline.arrRef spec13 0)) (funext fun a => Fin.ext ?_)
  match a with
  | ⟨0, _⟩ => show win13_0.index t (0 : Fin 2) * 5000 + 1 * p.val = (k 0).val; rw [er, hrow]; omega
  | ⟨1, _⟩ => show win13_0.index t (1 : Fin 2) * 128 + 1 * q.val = (k 1).val; rw [el, hlane]; omega

theorem iblk13_1_at (c : Dev nD) (t : Fin cfg13.N) (p : Fin 5000) (k : S850000x1.Idx)
    (hrow : (k 0).val = 5000 * t.val + p.val) :
    (iblk13 V c 1 t : Vec F S5000x1 .f32) (ix2 p (0 : Fin 1)) = (V c (Pipeline.arrRef spec13 1) : S850000x1.Idx → Elt F .f32) k := by
  obtain ⟨-, -, er, el, -⟩ := idx_facts13 t
  have hcol : (k 1).val < 1 := (k 1).isLt
  unfold iblk13
  rw [View.read_apply]
  refine congrArg (V c (Pipeline.arrRef spec13 1)) (funext fun a => Fin.ext ?_)
  match a with
  | ⟨0, _⟩ => show win13_1.index t (0 : Fin 2) * 5000 + 1 * p.val = (k 0).val; rw [er, hrow]; omega
  | ⟨1, _⟩ => show win13_1.index t (1 : Fin 2) * 1 + 1 * 0 = (k 1).val; rw [el]; omega

theorem flushed13_2_eq [Cert.ReferenceIdeal.Facts₀] (c : Dev nD) (t : Fin cfg13.N) :
    (dat13 V c).flushed 2 t = ((cfg13.win 2).blk t).view.read (Elt F)
      (mulf (φ := .f32) (V c (Pipeline.arrRef spec13 0))
        (broadcastInDim Cert.ReferenceIdeal.S850000x128 ![0, 1] Cert.ReferenceIdeal.Facts₀.bcast_S850000x1_S850000x128_0_1 (V c (Pipeline.arrRef spec13 1)))) := by
  show (cfg13.win 2).cut (grid13.coords t) ((dat13 V c).after 2 t) = _
  rw [after13_2]
  funext j
  obtain ⟨p, q, rfl⟩ : ∃ (p : Fin 5000) (q : Fin 128), j = ix2 p q := ⟨j 0, j 1, eq_ix2 j⟩
  obtain ⟨-, -, -, -, er, el⟩ := idx_facts13 t
  have hp : p.val < 5000 := p.isLt
  have ht : t.val < 170 := by have h := t.isLt; have hN : cfg13.N = 170 := N_13; omega
  have hr : 5000 * t.val + p.val < 850000 := by omega
  have hrow : ((((cfg13.win 2).blk t).view.emb (ix2 p q) : S850000x128.Idx) 0).val = 5000 * t.val + p.val := by
    show win13_2.index t (0 : Fin 2) * 5000 + 1 * p.val = _
    rw [er]; omega
  have hlane : ((((cfg13.win 2).blk t).view.emb (ix2 p q) : S850000x128.Idx) 1).val = q.val := by
    show win13_2.index t (1 : Fin 2) * 128 + 1 * q.val = _
    rw [el]; omega
  rw [View.read_apply]
  refine (outScale_at (iblk13 V c 0 t) (iblk13 V c 1 t) p q _ rfl rfl).trans ?_
  exact (congrArg₂ FloatOps.mulf (iblk13_0_at V c t p q _ hrow hlane)
      (iblk13_1_at V c t p (ix2 (⟨5000 * t.val + p.val, hr⟩ : Fin 850000) (0 : Fin 1)) rfl)).trans
    (scaled_at _ _ ⟨5000 * t.val + p.val, hr⟩ q _ hrow hlane).symm

theorem mem_blk13_2 (t : Fin cfg13.N) (i : S850000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole (Pipeline.arrRef spec13 2)).slice (win13_2.rect t)).set ↔ _
  rw [View.set_slice_whole, Rect.mem_set_unit]
  exact Iff.rfl

theorem rows_cover13_2 (i : S850000x128.Idx) :
    ∃ t : Fin cfg13.N, (cfg13.win 2).flush t = true ∧ i ∈ ((cfg13.win 2).blk t).view.set := by
  have hrow : (i 0).val < 850000 := (i 0).isLt
  have hlane : (i 1).val < 128 := (i 1).isLt
  have hN : cfg13.N = 170 := N_13
  have ht : (i 0).val / 5000 < cfg13.N := by omega
  obtain ⟨-, -, -, -, er, el⟩ := idx_facts13 ⟨(i 0).val / 5000, ht⟩
  refine ⟨⟨(i 0).val / 5000, ht⟩, flush13_2 _, ?_⟩
  rw [mem_blk13_2]
  intro a
  match a with
  | ⟨0, _⟩ =>
    show win13_2.index ⟨(i 0).val / 5000, ht⟩ (0 : Fin 2) * 5000 ≤ (i 0).val ∧ (i 0).val < win13_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win13_2.index ⟨(i 0).val / 5000, ht⟩ (1 : Fin 2) * 128 ≤ (i 1).val ∧ (i 1).val < win13_2.index ⟨(i 0).val / 5000, ht⟩ (1 : Fin 2) * 128 + 128
    rw [el]; omega

theorem arr13_2_eq [Cert.ReferenceIdeal.Facts₀] (c : Dev nD) :
    (dat13 V c).arrAt 2 cfg13.N
      = mulf (φ := .f32) (V c (Pipeline.arrRef spec13 0))
          (broadcastInDim Cert.ReferenceIdeal.S850000x128 ![0, 1] Cert.ReferenceIdeal.Facts₀.bcast_S850000x1_S850000x128_0_1 (V c (Pipeline.arrRef spec13 1))) :=
  (dat13 V c).arrAt_eq_of_cover 2 _ (fun t _ => flushed13_2_eq V c t) rows_cover13_2

end Cert.KernelIdeal.Rg

end
-- ==== Proof.KI.Val14.lean ====
/- Region 14 leaves in its result array the rectifier, with bias and slope rows, of its first input array: point t writes rows 5000·t … of it, and the ten blocks cover the rows. -/
import proofs.«160853_j19842748908317_1_alg».proof.Proof.KI.Reg14
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

set_option maxHeartbeats 2000000 in
theorem flushed14_3_eq (c : Dev nD) (t : Fin cfg14.N) :
    (dat14 V c).flushed 3 t = ((cfg14.win 3).blk t).view.read (Elt F)
      (act (V c (Pipeline.arrRef spec14 0)) (V c (Pipeline.arrRef spec14 1)) (V c (Pipeline.arrRef spec14 2))) := by
  show (cfg14.win 3).cut (grid14.coords t) ((dat14 V c).after 3 t) = _
  rw [after14_3]
  unfold out14_3
  rw [View.canon_unit_zero hz]
  simp only [View.ld_unit_zero (S := S5000x128) hz, View.ld_unit_zero (S := S1x128) hz]
  obtain ⟨e00, e01, e10, e11, e20, e21, e30, e31⟩ := idx_facts14 t
  have hN : grid14.N = 10 := N_14
  have htN : t.val < grid14.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k14_pay1 (iblk14 V c 0 t) (iblk14 V c 1 t) (iblk14 V c 2 t) (ix2 p q)
    = act (V c (Pipeline.arrRef spec14 0)) (V c (Pipeline.arrRef spec14 1)) (V c (Pipeline.arrRef spec14 2))
        (((cfg14.win 3).blk t).view.emb (ix2 p q))
  have hemb : ((cfg14.win 3).blk t).view.emb (ix2 p q) = ix2 (⟨t.val * 5000 + p.val, hr⟩ : Fin 50000) q := by
    funext a; apply Fin.ext
    match a with
    | ⟨0, _⟩ => show win14_3.index t (0 : Fin 2) * 5000 + 1 * p.val = t.val * 5000 + p.val; rw [e30]; omega
    | ⟨1, _⟩ => show win14_3.index t (1 : Fin 2) * 128 + 1 * q.val = q.val; rw [e31]; omega
  rw [hemb]
  refine payAct_eq_act_at (iblk14 V c 0 t) (iblk14 V c 1 t) (iblk14 V c 2 t)
    (V c (Pipeline.arrRef spec14 0)) (V c (Pipeline.arrRef spec14 1)) (V c (Pipeline.arrRef spec14 2)) p q ⟨t.val * 5000 + p.val, hr⟩ ?_ ?_ ?_
  · show V c (Pipeline.arrRef spec14 0) (((cfg14.win 0).blk t).view.emb (ix2 p q)) = _
    refine congrArg _ (funext fun a => Fin.ext ?_)
    match a with
    | ⟨0, _⟩ => show win14_0.index t (0 : Fin 2) * 5000 + 1 * p.val = t.val * 5000 + p.val; rw [e00]; omega
    | ⟨1, _⟩ => show win14_0.index t (1 : Fin 2) * 128 + 1 * q.val = q.val; rw [e01]; omega
  · show V c (Pipeline.arrRef spec14 1) (((cfg14.win 1).blk t).view.emb (ix2 (0 : Fin 1) q)) = _
    refine congrArg _ (funext fun a => Fin.ext ?_)
    match a with
    | ⟨0, _⟩ => show win14_1.index t (0 : Fin 2) * 1 + 1 * 0 = 0; rw [e10]
    | ⟨1, _⟩ => show win14_1.index t (1 : Fin 2) * 128 + 1 * q.val = q.val; rw [e11]; omega
  · show V c (Pipeline.arrRef spec14 2) (((cfg14.win 2).blk t).view.emb (ix2 (0 : Fin 1) q)) = _
    refine congrArg _ (funext fun a => Fin.ext ?_)
    match a with
    | ⟨0, _⟩ => show win14_2.index t (0 : Fin 2) * 1 + 1 * 0 = 0; rw [e20]
    | ⟨1, _⟩ => show win14_2.index t (1 : Fin 2) * 128 + 1 * q.val = q.val; rw [e21]; omega

theorem mem_blk14_3 (t : Fin cfg14.N) (i : S50000x128.Idx) :
    i ∈ ((cfg14.win 3).blk t).view.set ↔ ∀ a : Fin 2, win14_3.index t a * S5000x128.size a ≤ (i a).val
      ∧ (i a).val < win14_3.index t a * S5000x128.size a + S5000x128.size a := by
  show i ∈ ((View.whole (Pipeline.arrRef spec14 3)).slice (win14_3.rect t)).set ↔ _
  rw [View.set_slice_whole, Rect.mem_set_unit]
  exact Iff.rfl

theorem covered14_3 (i : S50000x128.Idx) :
    ∃ t : Fin cfg14.N, (cfg14.win 3).flush t = true ∧ i ∈ ((cfg14.win 3).blk t).view.set := by
  have hi0 : (i 0).val < 50000 := idx2_lt0 i
  have hi1 : (i 1).val < 128 := idx2_lt1 i
  have hN : grid14.N = 10 := N_14
  obtain ⟨t, ht⟩ : ∃ t : Fin cfg14.N, t.val = (i 0).val / 5000 :=
    ⟨⟨(i 0).val / 5000, by show (i 0).val / 5000 < grid14.N; omega⟩, rfl⟩
  obtain ⟨-, -, -, -, -, -, e30, e31⟩ := idx_facts14 t
  refine ⟨t, flush14_3 t, ?_⟩
  rw [mem_blk14_3]
  intro a
  match a with
  | ⟨0, _⟩ =>
    show win14_3.index t (0 : Fin 2) * 5000 ≤ (i 0).val ∧ (i 0).val < win14_3.index t (0 : Fin 2) * 5000 + 5000
    rw [e30, ht]; omega
  | ⟨1, _⟩ =>
    show win14_3.index t (1 : Fin 2) * 128 ≤ (i 1).val ∧ (i 1).val < win14_3.index t (1 : Fin 2) * 128 + 128
    rw [e31]; omega

theorem val14 (c : Dev nD) :
    (dat14 V c).arrAt 3 cfg14.N
      = select (cmpf .ogt (addf (V c (Pipeline.arrRef spec14 0))
              (broadcastInDim Cert.ReferenceIdeal.S50000x128 ![0, 1] Cert.ReferenceIdeal.Facts₀.bcast_S1x128_S50000x128_0_1 (V c (Pipeline.arrRef spec14 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec14 0))
            (broadcastInDim Cert.ReferenceIdeal.S50000x128 ![0, 1] Cert.ReferenceIdeal.Facts₀.bcast_S1x128_S50000x128_0_1 (V c (Pipeline.arrRef spec14 1))))
          (mulf (broadcastInDim Cert.ReferenceIdeal.S50000x128 ![0, 1] Cert.ReferenceIdeal.Facts₀.bcast_S1x128_S50000x128_0_1 (V c (Pipeline.arrRef spec14 2)))
            (addf (V c (Pipeline.arrRef spec14 0))
              (broadcastInDim Cert.ReferenceIdeal.S50000x128 ![0, 1] Cert.ReferenceIdeal.Facts₀.bcast_S1x128_S50000x128_0_1 (V c (Pipeline.arrRef spec14 1))))) :=
  (dat14 V c).arrAt_eq_of_cover 3
    (act (V c (Pipeline.arrRef spec14 0)) (V c (Pipeline.arrRef spec14 1)) (V c (Pipeline.arrRef spec14 2)))
    (fun t _ => flushed14_3_eq V c t) (fun i => covered14_3 i)

end Cert.KernelIdeal.Rg

end
-- ==== Proof.KI.ChainA2.lean ====
/- A later scale's first layer: after each item of @main, each buffer holds the reference's stage of the same arguments. -/
import proofs.«160853_j19842748908317_1_alg».proof.Proof.KI.PData
import proofs.«160853_j19842748908317_1_alg».proof.Proof.KI.CarryArgs
import proofs.«160853_j19842748908317_1_alg».proof.Proof.KI.Val12
import proofs.«160853_j19842748908317_1_alg».proof.Proof.KI.Val13
import proofs.«160853_j19842748908317_1_alg».proof.Proof.KI.Val14
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k12_arg1_V15 : V30 m outs c main_arg1 = (m ((c : Thread nD τ).loc main_arg1)) := carry_main_arg1_0_30 m outs c
theorem k12_arg2_V15 : V30 m outs c main_arg2 = (m ((c : Thread nD τ).loc main_arg2)) := carry_main_arg2_0_30 m outs c
theorem k12_arg0_V16 : V31 m outs c main_arg0 = (m ((c : Thread nD τ).loc main_arg0)) := carry_main_arg0_0_31 m outs c
theorem k12_arg3_V16 : V31 m outs c main_arg3 = (m ((c : Thread nD τ).loc main_arg3)) := carry_main_arg3_0_31 m outs c
theorem k12_arg4_V16 : V31 m outs c main_arg4 = (m ((c : Thread nD τ).loc main_arg4)) := carry_main_arg4_0_31 m outs c
theorem k12_arg7_V16 : V31 m outs c main_arg7 = (m ((c : Thread nD τ).loc main_arg7)) := carry_main_arg7_0_31 m outs c

theorem k12_v95 : V31 m outs c main_v189 = val_main_v217 (F := F) (m ((c : Thread nD τ).loc main_arg1)) := by
  have h1 := k12_arg1_V15 m outs c
  show StableHlo.after hostOps12 (V30 m outs c) main_v189 = _
  generalize V30 m outs c = W at h1 ⊢
  after_results
  rw [h1]
  rfl

theorem k12_v97 : V31 m outs c main_v191 = val_main_v219 (F := F) (m ((c : Thread nD τ).loc main_arg1)) := by
  have h1 := k12_arg1_V15 m outs c
  show StableHlo.after hostOps12 (V30 m outs c) main_v191 = _
  generalize V30 m outs c = W at h1 ⊢
  after_results
  rw [h1]
  rfl

theorem k12_v99 : V31 m outs c main_v193 = val_main_v221 (F := F) (m ((c : Thread nD τ).loc main_arg2)) := by
  have h2 := k12_arg2_V15 m outs c
  show StableHlo.after hostOps12 (V30 m outs c) main_v193 = _
  generalize V30 m outs c = W at h2 ⊢
  after_results
  rw [h2]
  rfl

theorem k12_v95_V17 : V32 m outs c main_v189 = val_main_v217 (F := F) (m ((c : Thread nD τ).loc main_arg1)) := (V32_of m outs c main_v189 (by decide)).trans (k12_v95 m outs c)
theorem k12_v97_V17 : V32 m outs c main_v191 = val_main_v219 (F := F) (m ((c : Thread nD τ).loc main_arg1)) := (V32_of m outs c main_v191 (by decide)).trans (k12_v97 m outs c)
theorem k12_v99_V17 : V32 m outs c main_v193 = val_main_v221 (F := F) (m ((c : Thread nD τ).loc main_arg2)) := (V32_of m outs c main_v193 (by decide)).trans (k12_v99 m outs c)

theorem k12_v102 : V33 m outs c main_v196 = val_main_v224 (F := F) (m ((c : Thread nD τ).loc main_arg1)) := by
  have h1 := k12_v95_V17 m outs c
  show StableHlo.after hostOps13 (V32 m outs c) main_v196 = _
  generalize V32 m outs c = W at h1 ⊢
  after_results
  rw [h1]
  rfl

theorem k12_v103 : V33 m outs c main_v197 = val_main_v225 (F := F) (m ((c : Thread nD τ).loc main_arg1)) := by
  have h3 := k12_v97_V17 m outs c
  show StableHlo.after hostOps13 (V32 m outs c) main_v197 = _
  generalize V32 m outs c = W at h3 ⊢
  after_results
  rw [h3]
  rfl

theorem k12_v105 : V33 m outs c main_v199 = val_main_v227 (F := F) (m ((c : Thread nD τ).loc main_arg2)) := by
  have h5 := k12_v99_V17 m outs c
  show StableHlo.after hostOps13 (V32 m outs c) main_v199 = _
  generalize V32 m outs c = W at h5 ⊢
  after_results
  rw [h5]
  rfl

theorem k12_v110 : V33 m outs c main_v204 = val_main_v232 (F := F) (m ((c : Thread nD τ).loc main_arg1)) (m ((c : Thread nD τ).loc main_arg2)) := by
  have h3 := k12_v97_V17 m outs c
  have h5 := k12_v99_V17 m outs c
  show StableHlo.after hostOps13 (V32 m outs c) main_v204 = _
  generalize V32 m outs c = W at h3 h5 ⊢
  after_results
  rw [h3, h5]
  rfl

theorem k12_v111 : V33 m outs c main_v205 = val_main_v233 (F := F) (m ((c : Thread nD τ).loc main_arg1)) (m ((c : Thread nD τ).loc main_arg2)) := by
  have h3 := k12_v97_V17 m outs c
  have h5 := k12_v99_V17 m outs c
  show StableHlo.after hostOps13 (V32 m outs c) main_v205 = _
  generalize V32 m outs c = W at h3 h5 ⊢
  after_results
  rw [h3, h5]
  rfl

theorem k12_cst_23 : V33 m outs c main_cst_45 = val_main_cst_49 (F := F) := by
  show StableHlo.after hostOps13 (V32 m outs c) main_cst_45 = _
  generalize V32 m outs c = W
  after_results
  rfl

theorem k12_v112 : V34 m outs c main_v206 = val_main_v234 (F := F) (m ((c : Thread nD τ).loc main_arg1)) (m ((c : Thread nD τ).loc main_arg2)) := by
  have h16 := k12_v110 m outs c
  have h17 := k12_v111 m outs c
  have hc2 := k12_cst_23 m outs c
  show StableHlo.after hostOps13_1 (V33 m outs c) main_v206 = _
  generalize V33 m outs c = W at h16 h17 hc2 ⊢
  after_results
  rw [h16, h17, hc2]
  simp only [TRef.ofBuf, TRef.toBuf, cast_eq]
  rfl

theorem k12_v102_V19 : V34 m outs c main_v196 = val_main_v224 (F := F) (m ((c : Thread nD τ).loc main_arg1)) := (V34_of m outs c main_v196 (by decide)).trans (k12_v102 m outs c)
theorem k12_v103_V19 : V34 m outs c main_v197 = val_main_v225 (F := F) (m ((c : Thread nD τ).loc main_arg1)) := (V34_of m outs c main_v197 (by decide)).trans (k12_v103 m outs c)
theorem k12_v105_V19 : V34 m outs c main_v199 = val_main_v227 (F := F) (m ((c : Thread nD τ).loc main_arg2)) := (V34_of m outs c main_v199 (by decide)).trans (k12_v105 m outs c)

theorem k12_v128 : V35 m outs c main_v222 = val_main_v250 (F := F) (m ((c : Thread nD τ).loc main_arg1)) (m ((c : Thread nD τ).loc main_arg2)) := by
  have h8 := k12_v102_V19 m outs c
  have h9 := k12_v103_V19 m outs c
  have h11 := k12_v105_V19 m outs c
  have h18 := k12_v112 m outs c
  show StableHlo.after hostOps13_2 (V34 m outs c) main_v222 = _
  generalize V34 m outs c = W at h8 h9 h11 h18 ⊢
  after_results_simp
  rw [h8, h9, h11, h18]
  rfl

theorem k12_v129 : V35 m outs c main_v223 = val_main_v258 (F := F) (m ((c : Thread nD τ).loc main_arg1)) (m ((c : Thread nD τ).loc main_arg2)) := by
  have h8 := k12_v102_V19 m outs c
  have h9 := k12_v103_V19 m outs c
  have h11 := k12_v105_V19 m outs c
  have h18 := k12_v112 m outs c
  have e : shapeCast S850000x1 (val_main_v250 (F := F) (m ((c : Thread nD τ).loc main_arg1)) (m ((c : Thread nD τ).loc main_arg2))) shapeCasts_S850000_S850000x1 = val_main_v258 (F := F) (m ((c : Thread nD τ).loc main_arg1)) (m ((c : Thread nD τ).loc main_arg2)) :=
    (col_reshape_eq_bcast (F := F) (val_main_v250 (F := F) (m ((c : Thread nD τ).loc main_arg1)) (m ((c : Thread nD τ).loc main_arg2)))).trans rfl
  show StableHlo.after hostOps13_2 (V34 m outs c) main_v223 = _
  generalize V34 m outs c = W at h8 h9 h11 h18 ⊢
  after_results_simp
  rw [h8, h9, h11, h18]
  exact Eq.trans rfl e

theorem k12_v136 (h6 : V32 m outs c main_v194 = val_main_v222 (F := F) (m ((c : Thread nD τ).loc main_arg0)) (m ((c : Thread nD τ).loc main_arg3))) :
    V35 m outs c main_v230 = val_main_v257 (F := F) (m ((c : Thread nD τ).loc main_arg0)) (m ((c : Thread nD τ).loc main_arg1)) (m ((c : Thread nD τ).loc main_arg3)) := by
  have h6' : V34 m outs c main_v194 = val_main_v222 (F := F) (m ((c : Thread nD τ).loc main_arg0)) (m ((c : Thread nD τ).loc main_arg3)) :=
    (V34_of m outs c main_v194 (by decide)).trans ((V33_of m outs c main_v194 (by decide)).trans h6)
  have h8 := k12_v102_V19 m outs c
  show StableHlo.after hostOps13_2 (V34 m outs c) main_v230 = _
  generalize V34 m outs c = W at h6' h8 ⊢
  after_results_simp
  rw [h6', h8]
  rfl

theorem k12_v137 (ho1 : outs 36 main_v231 c = (dat13 (vt (V35 m outs)) c).arrAt 2 cfg13.N)
    (h6 : V32 m outs c main_v194 = val_main_v222 (F := F) (m ((c : Thread nD τ).loc main_arg0)) (m ((c : Thread nD τ).loc main_arg3))) :
    V36 m outs c main_v231 = val_main_v260 (F := F) (m ((c : Thread nD τ).loc main_arg0)) (m ((c : Thread nD τ).loc main_arg1)) (m ((c : Thread nD τ).loc main_arg2)) (m ((c : Thread nD τ).loc main_arg3)) := by
  have h42 : vt (V35 m outs) c (Pipeline.arrRef spec13 0) = val_main_v257 (F := F) (m ((c : Thread nD τ).loc main_arg0)) (m ((c : Thread nD τ).loc main_arg1)) (m ((c : Thread nD τ).loc main_arg3)) := k12_v136 m outs c h6
  have h35 : vt (V35 m outs) c (Pipeline.arrRef spec13 1) = val_main_v258 (F := F) (m ((c : Thread nD τ).loc main_arg1)) (m ((c : Thread nD τ).loc main_arg2)) := k12_v129 m outs c
  show Function.update (V35 m outs c) main_v231 (outs 36 main_v231 c) main_v231 = _
  rw [Function.update_self, ho1, arr13_2_eq, h42, h35]
  rfl

theorem k12_v103_V21 : V36 m outs c main_v197 = val_main_v225 (F := F) (m ((c : Thread nD τ).loc main_arg1)) :=
  (V36_of m outs c main_v197 (by decide)).trans ((V35_of m outs c main_v197 (by decide)).trans (k12_v103_V19 m outs c))
theorem k12_arg4_V21 : V36 m outs c main_arg4 = (m ((c : Thread nD τ).loc main_arg4)) :=
  (V36_of m outs c main_arg4 (by decide)).trans ((V35_of m outs c main_arg4 (by decide)).trans ((V34_of m outs c main_arg4 (by decide)).trans
    ((V33_of m outs c main_arg4 (by decide)).trans ((V32_of m outs c main_arg4 (by decide)).trans (k12_arg4_V16 m outs c)))))
theorem k12_arg7_V21 : V36 m outs c main_arg7 = (m ((c : Thread nD τ).loc main_arg7)) :=
  (V36_of m outs c main_arg7 (by decide)).trans ((V35_of m outs c main_arg7 (by decide)).trans ((V34_of m outs c main_arg7 (by decide)).trans
    ((V33_of m outs c main_arg7 (by decide)).trans ((V32_of m outs c main_arg7 (by decide)).trans (k12_arg7_V16 m outs c)))))

theorem k12_v141 : V37 m outs c main_v235 = val_main_v264 (F := F) (m ((c : Thread nD τ).loc main_arg4)) := by
  have h4 := k12_arg4_V21 m outs c
  have e : shapeCast S1x128 (m ((c : Thread nD τ).loc main_arg4)) shapeCasts_S128_S1x128 = val_main_v264 (F := F) (m ((c : Thread nD τ).loc main_arg4)) :=
    (row_reshape_eq_bcast (F := F) (m ((c : Thread nD τ).loc main_arg4))).trans rfl
  show StableHlo.after hostOps14 (V36 m outs c) main_v235 = _
  generalize V36 m outs c = W at h4 ⊢
  after_results
  rw [h4]
  exact Eq.trans rfl e

theorem k12_v142 : V37 m outs c main_v236 = val_main_v269 (F := F) (m ((c : Thread nD τ).loc main_arg7)) := by
  have h7 := k12_arg7_V21 m outs c
  have e : shapeCast S1x128 (m ((c : Thread nD τ).loc main_arg7)) shapeCasts_S128_S1x128 = val_main_v269 (F := F) (m ((c : Thread nD τ).loc main_arg7)) :=
    (row_reshape_eq_bcast (F := F) (m ((c : Thread nD τ).loc main_arg7))).trans rfl
  show StableHlo.after hostOps14 (V36 m outs c) main_v236 = _
  generalize V36 m outs c = W at h7 ⊢
  after_results
  rw [h7]
  exact Eq.trans rfl e

theorem k12_v140 (ho1 : outs 36 main_v231 c = (dat13 (vt (V35 m outs)) c).arrAt 2 cfg13.N)
    (h6 : V32 m outs c main_v194 = val_main_v222 (F := F) (m ((c : Thread nD τ).loc main_arg0)) (m ((c : Thread nD τ).loc main_arg3))) :
    V37 m outs c main_v234 = val_main_v263 (F := F) (m ((c : Thread nD τ).loc main_arg0)) (m ((c : Thread nD τ).loc main_arg1)) (m ((c : Thread nD τ).loc main_arg2)) (m ((c : Thread nD τ).loc main_arg3)) := by
  have h9 := k12_v103_V21 m outs c
  have h43 := k12_v137 m outs c ho1 h6
  show StableHlo.after hostOps14 (V36 m outs c) main_v234 = _
  generalize V36 m outs c = W at h9 h43 ⊢
  after_results
  rw [h9, h43]
  rfl

theorem k12_v143 (ho1 : outs 36 main_v231 c = (dat13 (vt (V35 m outs)) c).arrAt 2 cfg13.N)
    (ho2 : outs 38 main_v237 c = (dat14 (vt (V37 m outs)) c).arrAt 3 cfg14.N)
    (h6 : V32 m outs c main_v194 = val_main_v222 (F := F) (m ((c : Thread nD τ).loc main_arg0)) (m ((c : Thread nD τ).loc main_arg3))) :
    V38 m outs c main_v237 = val_main_v272 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  have h46 : vt (V37 m outs) c (Pipeline.arrRef spec14 0) = val_main_v263 (F := F) (m ((c : Thread nD τ).loc main_arg0)) (m ((c : Thread nD τ).loc main_arg1)) (m ((c : Thread nD τ).loc main_arg2)) (m ((c : Thread nD τ).loc main_arg3)) := k12_v140 m outs c ho1 h6
  have h47 : vt (V37 m outs) c (Pipeline.arrRef spec14 1) = val_main_v264 (F := F) (m ((c : Thread nD τ).loc main_arg4)) := k12_v141 m outs c
  have h48 : vt (V37 m outs) c (Pipeline.arrRef spec14 2) = val_main_v269 (F := F) (m ((c : Thread nD τ).loc main_arg7)) := k12_v142 m outs c
  show Function.update (V37 m outs c) main_v237 (outs 38 main_v237 c) main_v237 = _
  rw [Function.update_self, ho2, val14, h46, h47, h48]
  rfl

end Host

section AtIdeal
variable (m : (ℓ : Loc nD τ sig) → Buf (Elt Ideal) ℓ) (c : Dev nD)

theorem k12_v100 : V32 m (outsX m) c main_v194
    = val_main_v222 (F := Ideal) (m ((c : Thread nD τ).loc main_arg0)) (m ((c : Thread nD τ).loc main_arg3)) := by
  have e0 : vt (V31 m (outsX m)) c (Pipeline.arrRef spec12 0) = (m ((c : Thread nD τ).loc main_arg0)) := k12_arg0_V16 m (outsX m) c
  have e3 : vt (V31 m (outsX m)) c (Pipeline.arrRef spec12 1) = (m ((c : Thread nD τ).loc main_arg3)) := k12_arg3_V16 m (outsX m) c
  show Function.update (V31 m (outsX m) c) main_v194 (outsX m 32 main_v194 c) main_v194 = _
  rw [Function.update_self, hout12, val12, e0, e3]
  rfl

theorem pro2_v189 : V31 m (outsX m) c main_v189 = val_main_v217 (F := Ideal) (m ((c : Thread nD τ).loc main_arg1)) := k12_v95 m (outsX m) c
theorem pro2_v191 : V31 m (outsX m) c main_v191 = val_main_v219 (F := Ideal) (m ((c : Thread nD τ).loc main_arg1)) := k12_v97 m (outsX m) c
theorem pro2_v193 : V31 m (outsX m) c main_v193 = val_main_v221 (F := Ideal) (m ((c : Thread nD τ).loc main_arg2)) := k12_v99 m (outsX m) c

theorem layer0s2_out : V38 m (outsX m) c main_v237
    = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  k12_v143 m (outsX m) c (hout13 m c) (hout14 m c) (k12_v100 m c)

end AtIdeal

end Cert.KernelIdeal.Ch

end
-- ==== Proof.KI.Val18.lean ====
/- Region 18 leaves the product of its two input arrays in its result array: point t writes rows 5000·t … 5000·t + 4999 of that product, and the ten blocks cover the 50000 rows. -/
import proofs.«160853_j19842748908317_1_alg».proof.Proof.KI.Reg18
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

variable (V : (c : Dev nD) → (b : Ref sig .tc) → Buf (Elt Ideal) ((c : Thread nD τ).loc b))

theorem iblk18_0_apply (c : Dev nD) (t : Fin cfg18.N) (p : Fin 5000) (k : Fin 128) (hr : 5000 * t.val + p.val < 50000) :
    (iblk18 V c 0 t : Vec Ideal S5000x128 .f32) (ix2 p k)
      = (V c (Pipeline.arrRef spec18 0) : FVec Ideal Cert.ReferenceIdeal.S50000x128 .f32) (ix2 ⟨5000 * t.val + p.val, hr⟩ k) := by
  obtain ⟨hxa, hxb, -, -, -, -⟩ := idx_facts18 t
  unfold iblk18
  rw [View.read_apply]
  show V c (Pipeline.arrRef spec18 0) _ = V c (Pipeline.arrRef spec18 0) _
  congr 1
  funext a
  apply Fin.ext
  match a with
  | ⟨0, _⟩ => show win18_0.index t (0 : Fin 2) * 5000 + 1 * p.val = 5000 * t.val + p.val; rw [hxa]; omega
  | ⟨1, _⟩ => show win18_0.index t (1 : Fin 2) * 128 + 1 * k.val = k.val; rw [hxb]; omega

theorem iblk18_1_apply (c : Dev nD) (t : Fin cfg18.N) (k q : Fin 128) :
    (iblk18 V c 1 t : Vec Ideal S128x128 .f32) (ix2 k q)
      = (V c (Pipeline.arrRef spec18 1) : FVec Ideal Cert.ReferenceIdeal.S128x128 .f32) (ix2 k q) := by
  obtain ⟨-, -, hwa, hwb, -, -⟩ := idx_facts18 t
  unfold iblk18
  rw [View.read_apply]
  show V c (Pipeline.arrRef spec18 1) _ = V c (Pipeline.arrRef spec18 1) _
  congr 1
  funext a
  apply Fin.ext
  match a with
  | ⟨0, _⟩ => show win18_1.index t (0 : Fin 2) * 128 + 1 * k.val = k.val; rw [hwa]; omega
  | ⟨1, _⟩ => show win18_1.index t (1 : Fin 2) * 128 + 1 * q.val = q.val; rw [hwb]; omega

abbrev prod18 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec18 0)) (V c (Pipeline.arrRef spec18 1))

theorem flushed18_2_eq (c : Dev nD) (t : Fin cfg18.N) :
    (dat18 (F := Ideal) V c).flushed 2 t = ((cfg18.win 2).blk t).view.read (Elt Ideal) (prod18 V c) := by
  show (cfg18.win 2).cut (grid18.coords t) ((dat18 (F := Ideal) V c).after 2 t) = _
  rw [after18_2]
  unfold out18_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid18.N = 10 := N_18
  have ht : t.val < grid18.N := t.isLt
  obtain ⟨-, -, -, -, hya, hyb⟩ := idx_facts18 t
  have hr : 5000 * t.val + (j 0).val < 50000 := by omega
  have ex : (cfg18.win 2).xinj (grid18.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg18.win 2).blk t).view.emb j = ix2 (⟨5000 * t.val + (j 0).val, hr⟩ : Fin 50000) (⟨(j 1).val, hj1⟩ : Fin 128) := by
    funext a
    apply Fin.ext
    match a with
    | ⟨0, _⟩ => show win18_2.index t (0 : Fin 2) * 5000 + 1 * (j 0).val = 5000 * t.val + (j 0).val; rw [hya]; omega
    | ⟨1, _⟩ => show win18_2.index t (1 : Fin 2) * 128 + 1 * (j 1).val = (j 1).val; rw [hyb]; omega
  refine (congrArg (k18_pay1 (F := Ideal) (iblk18 V c 0 t) (iblk18 V c 1 t)) ex).trans ?_
  refine Eq.trans ?_ (congrArg (prod18 V c) ee).symm
  exact block_eq (k18_pay1 (F := Ideal)) pay_apply (V c (Pipeline.arrRef spec18 0)) (V c (Pipeline.arrRef spec18 1)) (iblk18 V c 0 t) (iblk18 V c 1 t) t.val
    ⟨(j 0).val, hj0⟩ ⟨(j 1).val, hj1⟩ hr (fun k => iblk18_0_apply V c t ⟨(j 0).val, hj0⟩ k hr)
    (fun k => iblk18_1_apply V c t k ⟨(j 1).val, hj1⟩)

theorem rows_cover18_2 (i : Cert.ReferenceIdeal.S50000x128.Idx) :
    ∃ t : Fin cfg18.N, (cfg18.win 2).flush t = true ∧ i ∈ ((cfg18.win 2).blk t).view.set := by
  have hi0 : (i 0).val < 50000 := (i 0).isLt
  have hi1 : (i 1).val < 128 := (i 1).isLt
  have hN : grid18.N = 10 := N_18
  obtain ⟨t, ht⟩ : ∃ t : Fin cfg18.N, t.val = (i 0).val / 5000 :=
    ⟨⟨(i 0).val / 5000, by show (i 0).val / 5000 < grid18.N; omega⟩, rfl⟩
  obtain ⟨-, -, -, -, hya, hyb⟩ := idx_facts18 t
  refine ⟨t, flush18_2 t, ?_⟩
  show i ∈ ((View.whole (Pipeline.arrRef spec18 2)).slice (win18_2.rect t)).set
  rw [View.set_slice_whole, Rect.mem_set_unit]
  intro a
  match a with
  | ⟨0, _⟩ =>
    show win18_2.index t (0 : Fin 2) * 5000 ≤ (i 0).val ∧ (i 0).val < win18_2.index t (0 : Fin 2) * 5000 + 5000
    rw [hya, ht]; omega
  | ⟨1, _⟩ =>
    show win18_2.index t (1 : Fin 2) * 128 ≤ (i 1).val ∧ (i 1).val < win18_2.index t (1 : Fin 2) * 128 + 128
    rw [hyb]; omega

theorem val18 (V : (c : Dev nD) → (b : Ref sig .tc) → Buf (Elt Ideal) ((c : Thread nD τ).loc b)) (c : Dev nD) :
    (dat18 (F := Ideal) V c).arrAt 2 cfg18.N
      = Host.dotGeneral (F := Ideal) (φ₁ := .f32) (φ₂ := .f32) Cert.ReferenceIdeal.dot_S50000x128_S128x128_S50000x128_1_0_0_1_n_n none
          (V c (Pipeline.arrRef spec18 0)) (V c (Pipeline.arrRef spec18 1)) :=
  (dat18 (F := Ideal) V c).arrAt_eq_of_cover 2 (prod18 V c) (fun t _ => flushed18_2_eq V c t) rows_cover18_2
end Cert.KernelIdeal.Rg

end
-- ==== Proof.KI.Val19.lean ====
/- Region 19 leaves in its result array its first input array scaled, row by row, by its coefficient column: point t writes rows 5000·t … of that product, and the blocks cover every row. -/
import proofs.«160853_j19842748908317_1_alg».proof.Proof.KI.Reg19
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0 :=
  (by decide +kernel : ∀ t : Fin grid19.N, _)

theorem iblk19_0_at (c : Dev nD) (t : Fin cfg19.N) (p : Fin 5000) (q : Fin 128) (k : S850000x128.Idx)
    (hrow : (k 0).val = 5000 * t.val + p.val) (hlane : (k 1).val = q.val) :
    (iblk19 V c 0 t : Vec F S5000x128 .f32) (ix2 p q) = (V c (Pipeline.arrRef spec19 0) : S850000x128.Idx → Elt F .f32) k := by
  obtain ⟨er, el, -⟩ := idx_facts19 t
  unfold iblk19
  rw [View.read_apply]
  refine congrArg (V c (Pipeline.arrRef spec19 0)) (funext fun a => Fin.ext ?_)
  match a with
  | ⟨0, _⟩ => show win19_0.index t (0 : Fin 2) * 5000 + 1 * p.val = (k 0).val; rw [er, hrow]; omega
  | ⟨1, _⟩ => show win19_0.index t (1 : Fin 2) * 128 + 1 * q.val = (k 1).val; rw [el, hlane]; omega

theorem iblk19_1_at (c : Dev nD) (t : Fin cfg19.N) (p : Fin 5000) (k : S850000x1.Idx)
    (hrow : (k 0).val = 5000 * t.val + p.val) :
    (iblk19 V c 1 t : Vec F S5000x1 .f32) (ix2 p (0 : Fin 1)) = (V c (Pipeline.arrRef spec19 1) : S850000x1.Idx → Elt F .f32) k := by
  obtain ⟨-, -, er, el, -⟩ := idx_facts19 t
  have hcol : (k 1).val < 1 := (k 1).isLt
  unfold iblk19
  rw [View.read_apply]
  refine congrArg (V c (Pipeline.arrRef spec19 1)) (funext fun a => Fin.ext ?_)
  match a with
  | ⟨0, _⟩ => show win19_1.index t (0 : Fin 2) * 5000 + 1 * p.val = (k 0).val; rw [er, hrow]; omega
  | ⟨1, _⟩ => show win19_1.index t (1 : Fin 2) * 1 + 1 * 0 = (k 1).val; rw [el]; omega

theorem flushed19_2_eq [Cert.ReferenceIdeal.Facts₀] (c : Dev nD) (t : Fin cfg19.N) :
    (dat19 V c).flushed 2 t = ((cfg19.win 2).blk t).view.read (Elt F)
      (mulf (φ := .f32) (V c (Pipeline.arrRef spec19 0))
        (broadcastInDim Cert.ReferenceIdeal.S850000x128 ![0, 1] Cert.ReferenceIdeal.Facts₀.bcast_S850000x1_S850000x128_0_1 (V c (Pipeline.arrRef spec19 1)))) := by
  show (cfg19.win 2).cut (grid19.coords t) ((dat19 V c).after 2 t) = _
  rw [after19_2]
  funext j
  obtain ⟨p, q, rfl⟩ : ∃ (p : Fin 5000) (q : Fin 128), j = ix2 p q := ⟨j 0, j 1, eq_ix2 j⟩
  obtain ⟨-, -, -, -, er, el⟩ := idx_facts19 t
  have hp : p.val < 5000 := p.isLt
  have ht : t.val < 170 := by have h := t.isLt; have hN : cfg19.N = 170 := N_19; omega
  have hr : 5000 * t.val + p.val < 850000 := by omega
  have hrow : ((((cfg19.win 2).blk t).view.emb (ix2 p q) : S850000x128.Idx) 0).val = 5000 * t.val + p.val := by
    show win19_2.index t (0 : Fin 2) * 5000 + 1 * p.val = _
    rw [er]; omega
  have hlane : ((((cfg19.win 2).blk t).view.emb (ix2 p q) : S850000x128.Idx) 1).val = q.val := by
    show win19_2.index t (1 : Fin 2) * 128 + 1 * q.val = _
    rw [el]; omega
  rw [View.read_apply]
  refine (outScale_at (iblk19 V c 0 t) (iblk19 V c 1 t) p q _ rfl rfl).trans ?_
  exact (congrArg₂ FloatOps.mulf (iblk19_0_at V c t p q _ hrow hlane)
      (iblk19_1_at V c t p (ix2 (⟨5000 * t.val + p.val, hr⟩ : Fin 850000) (0 : Fin 1)) rfl)).trans
    (scaled_at _ _ ⟨5000 * t.val + p.val, hr⟩ q _ hrow hlane).symm

theorem mem_blk19_2 (t : Fin cfg19.N) (i : S850000x128.Idx) :
    i ∈ ((cfg19.win 2).blk t).view.set ↔ ∀ a : Fin 2, win19_2.index t a * S5000x128.size a ≤ (i a).val ∧ (i a).val < win19_2.index t a * S5000x128.size a + S5000x128.size a := by
  show i ∈ ((View.whole (Pipeline.arrRef spec19 2)).slice (win19_2.rect t)).set ↔ _
  rw [View.set_slice_whole, Rect.mem_set_unit]
  exact Iff.rfl

theorem rows_cover19_2 (i : S850000x128.Idx) :
    ∃ t : Fin cfg19.N, (cfg19.win 2).flush t = true ∧ i ∈ ((cfg19.win 2).blk t).view.set := by
  have hrow : (i 0).val < 850000 := (i 0).isLt
  have hlane : (i 1).val < 128 := (i 1).isLt
  have hN : cfg19.N = 170 := N_19
  have ht : (i 0).val / 5000 < cfg19.N := by omega
  obtain ⟨-, -, -, -, er, el⟩ := idx_facts19 ⟨(i 0).val / 5000, ht⟩
  refine ⟨⟨(i 0).val / 5000, ht⟩, flush19_2 _, ?_⟩
  rw [mem_blk19_2]
  intro a
  match a with
  | ⟨0, _⟩ =>
    show win19_2.index ⟨(i 0).val / 5000, ht⟩ (0 : Fin 2) * 5000 ≤ (i 0).val ∧ (i 0).val < win19_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win19_2.index ⟨(i 0).val / 5000, ht⟩ (1 : Fin 2) * 128 ≤ (i 1).val ∧ (i 1).val < win19_2.index ⟨(i 0).val / 5000, ht⟩ (1 : Fin 2) * 128 + 128
    rw [el]; omega

theorem arr19_2_eq [Cert.ReferenceIdeal.Facts₀] (c : Dev nD) :
    (dat19 V c).arrAt 2 cfg19.N
      = mulf (φ := .f32) (V c (Pipeline.arrRef spec19 0))
          (broadcastInDim Cert.ReferenceIdeal.S850000x128 ![0, 1] Cert.ReferenceIdeal.Facts₀.bcast_S850000x1_S850000x128_0_1 (V c (Pipeline.arrRef spec19 1))) :=
  (dat19 V c).arrAt_eq_of_cover 2 _ (fun t _ => flushed19_2_eq V c t) rows_cover19_2

end Cert.KernelIdeal.Rg

end
-- ==== Proof.KI.Val20.lean ====
/- Region 20 leaves in its result array the rectifier, with bias and slope rows, of its first input array: point t writes rows 5000·t … of it, and the ten blocks cover the rows. -/
import proofs.«160853_j19842748908317_1_alg».proof.Proof.KI.Reg20
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts20 : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = t.val ∧ win20_3.index t (1 : Fin 2) = 0 :=
  (by decide +kernel : ∀ t : Fin grid20.N, _)

set_option maxHeartbeats 2000000 in
theorem flushed20_3_eq (c : Dev nD) (t : Fin cfg20.N) :
    (dat20 V c).flushed 3 t = ((cfg20.win 3).blk t).view.read (Elt F)
      (act (V c (Pipeline.arrRef spec20 0)) (V c (Pipeline.arrRef spec20 1)) (V c (Pipeline.arrRef spec20 2))) := by
  show (cfg20.win 3).cut (grid20.coords t) ((dat20 V c).after 3 t) = _
  rw [after20_3]
  unfold out20_3
  rw [View.canon_unit_zero hz]
  simp only [View.ld_unit_zero (S := S5000x128) hz, View.ld_unit_zero (S := S1x128) hz]
  obtain ⟨e00, e01, e10, e11, e20, e21, e30, e31⟩ := idx_facts20 t
  have hN : grid20.N = 10 := N_20
  have htN : t.val < grid20.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k20_pay1 (iblk20 V c 0 t) (iblk20 V c 1 t) (iblk20 V c 2 t) (ix2 p q)
    = act (V c (Pipeline.arrRef spec20 0)) (V c (Pipeline.arrRef spec20 1)) (V c (Pipeline.arrRef spec20 2))
        (((cfg20.win 3).blk t).view.emb (ix2 p q))
  have hemb : ((cfg20.win 3).blk t).view.emb (ix2 p q) = ix2 (⟨t.val * 5000 + p.val, hr⟩ : Fin 50000) q := by
    funext a; apply Fin.ext
    match a with
    | ⟨0, _⟩ => show win20_3.index t (0 : Fin 2) * 5000 + 1 * p.val = t.val * 5000 + p.val; rw [e30]; omega
    | ⟨1, _⟩ => show win20_3.index t (1 : Fin 2) * 128 + 1 * q.val = q.val; rw [e31]; omega
  rw [hemb]
  refine payAct_eq_act_at (iblk20 V c 0 t) (iblk20 V c 1 t) (iblk20 V c 2 t)
    (V c (Pipeline.arrRef spec20 0)) (V c (Pipeline.arrRef spec20 1)) (V c (Pipeline.arrRef spec20 2)) p q ⟨t.val * 5000 + p.val, hr⟩ ?_ ?_ ?_
  · show V c (Pipeline.arrRef spec20 0) (((cfg20.win 0).blk t).view.emb (ix2 p q)) = _
    refine congrArg _ (funext fun a => Fin.ext ?_)
    match a with
    | ⟨0, _⟩ => show win20_0.index t (0 : Fin 2) * 5000 + 1 * p.val = t.val * 5000 + p.val; rw [e00]; omega
    | ⟨1, _⟩ => show win20_0.index t (1 : Fin 2) * 128 + 1 * q.val = q.val; rw [e01]; omega
  · show V c (Pipeline.arrRef spec20 1) (((cfg20.win 1).blk t).view.emb (ix2 (0 : Fin 1) q)) = _
    refine congrArg _ (funext fun a => Fin.ext ?_)
    match a with
    | ⟨0, _⟩ => show win20_1.index t (0 : Fin 2) * 1 + 1 * 0 = 0; rw [e10]
    | ⟨1, _⟩ => show win20_1.index t (1 : Fin 2) * 128 + 1 * q.val = q.val; rw [e11]; omega
  · show V c (Pipeline.arrRef spec20 2) (((cfg20.win 2).blk t).view.emb (ix2 (0 : Fin 1) q)) = _
    refine congrArg _ (funext fun a => Fin.ext ?_)
    match a with
    | ⟨0, _⟩ => show win20_2.index t (0 : Fin 2) * 1 + 1 * 0 = 0; rw [e20]
    | ⟨1, _⟩ => show win20_2.index t (1 : Fin 2) * 128 + 1 * q.val = q.val; rw [e21]; omega

theorem mem_blk20_3 (t : Fin cfg20.N) (i : S50000x128.Idx) :
    i ∈ ((cfg20.win 3).blk t).view.set ↔ ∀ a : Fin 2, win20_3.index t a * S5000x128.size a ≤ (i a).val
      ∧ (i a).val < win20_3.index t a * S5000x128.size a + S5000x128.size a := by
  show i ∈ ((View.whole (Pipeline.arrRef spec20 3)).slice (win20_3.rect t)).set ↔ _
  rw [View.set_slice_whole, Rect.mem_set_unit]
  exact Iff.rfl

theorem covered20_3 (i : S50000x128.Idx) :
    ∃ t : Fin cfg20.N, (cfg20.win 3).flush t = true ∧ i ∈ ((cfg20.win 3).blk t).view.set := by
  have hi0 : (i 0).val < 50000 := idx2_lt0 i
  have hi1 : (i 1).val < 128 := idx2_lt1 i
  have hN : grid20.N = 10 := N_20
  obtain ⟨t, ht⟩ : ∃ t : Fin cfg20.N, t.val = (i 0).val / 5000 :=
    ⟨⟨(i 0).val / 5000, by show (i 0).val / 5000 < grid20.N; omega⟩, rfl⟩
  obtain ⟨-, -, -, -, -, -, e30, e31⟩ := idx_facts20 t
  refine ⟨t, flush20_3 t, ?_⟩
  rw [mem_blk20_3]
  intro a
  match a with
  | ⟨0, _⟩ =>
    show win20_3.index t (0 : Fin 2) * 5000 ≤ (i 0).val ∧ (i 0).val < win20_3.index t (0 : Fin 2) * 5000 + 5000
    rw [e30, ht]; omega
  | ⟨1, _⟩ =>
    show win20_3.index t (1 : Fin 2) * 128 ≤ (i 1).val ∧ (i 1).val < win20_3.index t (1 : Fin 2) * 128 + 128
    rw [e31]; omega

theorem val20 (c : Dev nD) :
    (dat20 V c).arrAt 3 cfg20.N
      = select (cmpf .ogt (addf (V c (Pipeline.arrRef spec20 0))
              (broadcastInDim Cert.ReferenceIdeal.S50000x128 ![0, 1] Cert.ReferenceIdeal.Facts₀.bcast_S1x128_S50000x128_0_1 (V c (Pipeline.arrRef spec20 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec20 0))
            (broadcastInDim Cert.ReferenceIdeal.S50000x128 ![0, 1] Cert.ReferenceIdeal.Facts₀.bcast_S1x128_S50000x128_0_1 (V c (Pipeline.arrRef spec20 1))))
          (mulf (broadcastInDim Cert.ReferenceIdeal.S50000x128 ![0, 1] Cert.ReferenceIdeal.Facts₀.bcast_S1x128_S50000x128_0_1 (V c (Pipeline.arrRef spec20 2)))
            (addf (V c (Pipeline.arrRef spec20 0))
              (broadcastInDim Cert.ReferenceIdeal.S50000x128 ![0, 1] Cert.ReferenceIdeal.Facts₀.bcast_S1x128_S50000x128_0_1 (V c (Pipeline.arrRef spec20 1))))) :=
  (dat20 V c).arrAt_eq_of_cover 3
    (act (V c (Pipeline.arrRef spec20 0)) (V c (Pipeline.arrRef spec20 1)) (V c (Pipeline.arrRef spec20 2)))
    (fun t _ => flushed20_3_eq V c t) (fun i => covered20_3 i)

end Cert.KernelIdeal.Rg

end
-- ==== Proof.KI.ChainA3.lean ====
/- A later scale's first layer: after each item of @main, each buffer holds the reference's stage of the same arguments. -/
import proofs.«160853_j19842748908317_1_alg».proof.Proof.KI.PData
import proofs.«160853_j19842748908317_1_alg».proof.Proof.KI.CarryArgs
import proofs.«160853_j19842748908317_1_alg».proof.Proof.KI.Val18
import proofs.«160853_j19842748908317_1_alg».proof.Proof.KI.Val19
import proofs.«160853_j19842748908317_1_alg».proof.Proof.KI.Val20
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k18_arg1_V15 : V45 m outs c main_arg1 = (m ((c : Thread nD τ).loc main_arg1)) := carry_main_arg1_0_45 m outs c
theorem k18_arg2_V15 : V45 m outs c main_arg2 = (m ((c : Thread nD τ).loc main_arg2)) := carry_main_arg2_0_45 m outs c
theorem k18_arg0_V16 : V46 m outs c main_arg0 = (m ((c : Thread nD τ).loc main_arg0)) := carry_main_arg0_0_46 m outs c
theorem k18_arg3_V16 : V46 m outs c main_arg3 = (m ((c : Thread nD τ).loc main_arg3)) := carry_main_arg3_0_46 m outs c
theorem k18_arg4_V16 : V46 m outs c main_arg4 = (m ((c : Thread nD τ).loc main_arg4)) := carry_main_arg4_0_46 m outs c
theorem k18_arg7_V16 : V46 m outs c main_arg7 = (m ((c : Thread nD τ).loc main_arg7)) := carry_main_arg7_0_46 m outs c

theorem k18_v95 : V46 m outs c main_v283 = val_main_v325 (F := F) (m ((c : Thread nD τ).loc main_arg1)) := by
  have h1 := k18_arg1_V15 m outs c
  show StableHlo.after hostOps18 (V45 m outs c) main_v283 = _
  generalize V45 m outs c = W at h1 ⊢
  after_results
  rw [h1]
  rfl

theorem k18_v97 : V46 m outs c main_v285 = val_main_v327 (F := F) (m ((c : Thread nD τ).loc main_arg1)) := by
  have h1 := k18_arg1_V15 m outs c
  show StableHlo.after hostOps18 (V45 m outs c) main_v285 = _
  generalize V45 m outs c = W at h1 ⊢
  after_results
  rw [h1]
  rfl

theorem k18_v99 : V46 m outs c main_v287 = val_main_v329 (F := F) (m ((c : Thread nD τ).loc main_arg2)) := by
  have h2 := k18_arg2_V15 m outs c
  show StableHlo.after hostOps18 (V45 m outs c) main_v287 = _
  generalize V45 m outs c = W at h2 ⊢
  after_results
  rw [h2]
  rfl

theorem k18_v95_V17 : V47 m outs c main_v283 = val_main_v325 (F := F) (m ((c : Thread nD τ).loc main_arg1)) := (V47_of m outs c main_v283 (by decide)).trans (k18_v95 m outs c)
theorem k18_v97_V17 : V47 m outs c main_v285 = val_main_v327 (F := F) (m ((c : Thread nD τ).loc main_arg1)) := (V47_of m outs c main_v285 (by decide)).trans (k18_v97 m outs c)
theorem k18_v99_V17 : V47 m outs c main_v287 = val_main_v329 (F := F) (m ((c : Thread nD τ).loc main_arg2)) := (V47_of m outs c main_v287 (by decide)).trans (k18_v99 m outs c)

theorem k18_v102 : V48 m outs c main_v290 = val_main_v332 (F := F) (m ((c : Thread nD τ).loc main_arg1)) := by
  have h1 := k18_v95_V17 m outs c
  show StableHlo.after hostOps19 (V47 m outs c) main_v290 = _
  generalize V47 m outs c = W at h1 ⊢
  after_results
  rw [h1]
  rfl

theorem k18_v103 : V48 m outs c main_v291 = val_main_v333 (F := F) (m ((c : Thread nD τ).loc main_arg1)) := by
  have h3 := k18_v97_V17 m outs c
  show StableHlo.after hostOps19 (V47 m outs c) main_v291 = _
  generalize V47 m outs c = W at h3 ⊢
  after_results
  rw [h3]
  rfl

theorem k18_v105 : V48 m outs c main_v293 = val_main_v335 (F := F) (m ((c : Thread nD τ).loc main_arg2)) := by
  have h5 := k18_v99_V17 m outs c
  show StableHlo.after hostOps19 (V47 m outs c) main_v293 = _
  generalize V47 m outs c = W at h5 ⊢
  after_results
  rw [h5]
  rfl

theorem k18_v110 : V48 m outs c main_v298 = val_main_v340 (F := F) (m ((c : Thread nD τ).loc main_arg1)) (m ((c : Thread nD τ).loc main_arg2)) := by
  have h3 := k18_v97_V17 m outs c
  have h5 := k18_v99_V17 m outs c
  show StableHlo.after hostOps19 (V47 m outs c) main_v298 = _
  generalize V47 m outs c = W at h3 h5 ⊢
  after_results
  rw [h3, h5]
  rfl

theorem k18_v111 : V48 m outs c main_v299 = val_main_v341 (F := F) (m ((c : Thread nD τ).loc main_arg1)) (m ((c : Thread nD τ).loc main_arg2)) := by
  have h3 := k18_v97_V17 m outs c
  have h5 := k18_v99_V17 m outs c
  show StableHlo.after hostOps19 (V47 m outs c) main_v299 = _
  generalize V47 m outs c = W at h3 h5 ⊢
  after_results
  rw [h3, h5]
  rfl

theorem k18_cst_23 : V48 m outs c main_cst_67 = val_main_cst_73 (F := F) := by
  show StableHlo.after hostOps19 (V47 m outs c) main_cst_67 = _
  generalize V47 m outs c = W
  after_results
  rfl

theorem k18_v112 : V49 m outs c main_v300 = val_main_v342 (F := F) (m ((c : Thread nD τ).loc main_arg1)) (m ((c : Thread nD τ).loc main_arg2)) := by
  have h16 := k18_v110 m outs c
  have h17 := k18_v111 m outs c
  have hc2 := k18_cst_23 m outs c
  show StableHlo.after hostOps19_1 (V48 m outs c) main_v300 = _
  generalize V48 m outs c = W at h16 h17 hc2 ⊢
  after_results
  rw [h16, h17, hc2]
  simp only [TRef.ofBuf, TRef.toBuf, cast_eq]
  rfl

theorem k18_v102_V19 : V49 m outs c main_v290 = val_main_v332 (F := F) (m ((c : Thread nD τ).loc main_arg1)) := (V49_of m outs c main_v290 (by decide)).trans (k18_v102 m outs c)
theorem k18_v103_V19 : V49 m outs c main_v291 = val_main_v333 (F := F) (m ((c : Thread nD τ).loc main_arg1)) := (V49_of m outs c main_v291 (by decide)).trans (k18_v103 m outs c)
theorem k18_v105_V19 : V49 m outs c main_v293 = val_main_v335 (F := F) (m ((c : Thread nD τ).loc main_arg2)) := (V49_of m outs c main_v293 (by decide)).trans (k18_v105 m outs c)

theorem k18_v128 : V50 m outs c main_v316 = val_main_v358 (F := F) (m ((c : Thread nD τ).loc main_arg1)) (m ((c : Thread nD τ).loc main_arg2)) := by
  have h8 := k18_v102_V19 m outs c
  have h9 := k18_v103_V19 m outs c
  have h11 := k18_v105_V19 m outs c
  have h18 := k18_v112 m outs c
  show StableHlo.after hostOps19_2 (V49 m outs c) main_v316 = _
  generalize V49 m outs c = W at h8 h9 h11 h18 ⊢
  after_results_simp
  rw [h8, h9, h11, h18]
  rfl

theorem k18_v129 : V50 m outs c main_v317 = val_main_v366 (F := F) (m ((c : Thread nD τ).loc main_arg1)) (m ((c : Thread nD τ).loc main_arg2)) := by
  have h8 := k18_v102_V19 m outs c
  have h9 := k18_v103_V19 m outs c
  have h11 := k18_v105_V19 m outs c
  have h18 := k18_v112 m outs c
  have e : shapeCast S850000x1 (val_main_v358 (F := F) (m ((c : Thread nD τ).loc main_arg1)) (m ((c : Thread nD τ).loc main_arg2))) shapeCasts_S850000_S850000x1 = val_main_v366 (F := F) (m ((c : Thread nD τ).loc main_arg1)) (m ((c : Thread nD τ).loc main_arg2)) :=
    (col_reshape_eq_bcast (F := F) (val_main_v358 (F := F) (m ((c : Thread nD τ).loc main_arg1)) (m ((c : Thread nD τ).loc main_arg2)))).trans rfl
  show StableHlo.after hostOps19_2 (V49 m outs c) main_v317 = _
  generalize V49 m outs c = W at h8 h9 h11 h18 ⊢
  after_results_simp
  rw [h8, h9, h11, h18]
  exact Eq.trans rfl e

theorem k18_v136 (h6 : V47 m outs c main_v288 = val_main_v330 (F := F) (m ((c : Thread nD τ).loc main_arg0)) (m ((c : Thread nD τ).loc main_arg3))) :
    V50 m outs c main_v324 = val_main_v365 (F := F) (m ((c : Thread nD τ).loc main_arg0)) (m ((c : Thread nD τ).loc main_arg1)) (m ((c : Thread nD τ).loc main_arg3)) := by
  have h6' : V49 m outs c main_v288 = val_main_v330 (F := F) (m ((c : Thread nD τ).loc main_arg0)) (m ((c : Thread nD τ).loc main_arg3)) :=
    (V49_of m outs c main_v288 (by decide)).trans ((V48_of m outs c main_v288 (by decide)).trans h6)
  have h8 := k18_v102_V19 m outs c
  show StableHlo.after hostOps19_2 (V49 m outs c) main_v324 = _
  generalize V49 m outs c = W at h6' h8 ⊢
  after_results_simp
  rw [h6', h8]
  rfl

theorem k18_v137 (ho1 : outs 51 main_v325 c = (dat19 (vt (V50 m outs)) c).arrAt 2 cfg19.N)
    (h6 : V47 m outs c main_v288 = val_main_v330 (F := F) (m ((c : Thread nD τ).loc main_arg0)) (m ((c : Thread nD τ).loc main_arg3))) :
    V51 m outs c main_v325 = val_main_v368 (F := F) (m ((c : Thread nD τ).loc main_arg0)) (m ((c : Thread nD τ).loc main_arg1)) (m ((c : Thread nD τ).loc main_arg2)) (m ((c : Thread nD τ).loc main_arg3)) := by
  have h42 : vt (V50 m outs) c (Pipeline.arrRef spec19 0) = val_main_v365 (F := F) (m ((c : Thread nD τ).loc main_arg0)) (m ((c : Thread nD τ).loc main_arg1)) (m ((c : Thread nD τ).loc main_arg3)) := k18_v136 m outs c h6
  have h35 : vt (V50 m outs) c (Pipeline.arrRef spec19 1) = val_main_v366 (F := F) (m ((c : Thread nD τ).loc main_arg1)) (m ((c : Thread nD τ).loc main_arg2)) := k18_v129 m outs c
  show Function.update (V50 m outs c) main_v325 (outs 51 main_v325 c) main_v325 = _
  rw [Function.update_self, ho1, arr19_2_eq, h42, h35]
  rfl

theorem k18_v103_V21 : V51 m outs c main_v291 = val_main_v333 (F := F) (m ((c : Thread nD τ).loc main_arg1)) :=
  (V51_of m outs c main_v291 (by decide)).trans ((V50_of m outs c main_v291 (by decide)).trans (k18_v103_V19 m outs c))
theorem k18_arg4_V21 : V51 m outs c main_arg4 = (m ((c : Thread nD τ).loc main_arg4)) :=
  (V51_of m outs c main_arg4 (by decide)).trans ((V50_of m outs c main_arg4 (by decide)).trans ((V49_of m outs c main_arg4 (by decide)).trans
    ((V48_of m outs c main_arg4 (by decide)).trans ((V47_of m outs c main_arg4 (by decide)).trans (k18_arg4_V16 m outs c)))))
theorem k18_arg7_V21 : V51 m outs c main_arg7 = (m ((c : Thread nD τ).loc main_arg7)) :=
  (V51_of m outs c main_arg7 (by decide)).trans ((V50_of m outs c main_arg7 (by decide)).trans ((V49_of m outs c main_arg7 (by decide)).trans
    ((V48_of m outs c main_arg7 (by decide)).trans ((V47_of m outs c main_arg7 (by decide)).trans (k18_arg7_V16 m outs c)))))

theorem k18_v141 : V52 m outs c main_v329 = val_main_v372 (F := F) (m ((c : Thread nD τ).loc main_arg4)) := by
  have h4 := k18_arg4_V21 m outs c
  have e : shapeCast S1x128 (m ((c : Thread nD τ).loc main_arg4)) shapeCasts_S128_S1x128 = val_main_v372 (F := F) (m ((c : Thread nD τ).loc main_arg4)) :=
    (row_reshape_eq_bcast (F := F) (m ((c : Thread nD τ).loc main_arg4))).trans rfl
  show StableHlo.after hostOps20 (V51 m outs c) main_v329 = _
  generalize V51 m outs c = W at h4 ⊢
  after_results
  rw [h4]
  exact Eq.trans rfl e

theorem k18_v142 : V52 m outs c main_v330 = val_main_v377 (F := F) (m ((c : Thread nD τ).loc main_arg7)) := by
  have h7 := k18_arg7_V21 m outs c
  have e : shapeCast S1x128 (m ((c : Thread nD τ).loc main_arg7)) shapeCasts_S128_S1x128 = val_main_v377 (F := F) (m ((c : Thread nD τ).loc main_arg7)) :=
    (row_reshape_eq_bcast (F := F) (m ((c : Thread nD τ).loc main_arg7))).trans rfl
  show StableHlo.after hostOps20 (V51 m outs c) main_v330 = _
  generalize V51 m outs c = W at h7 ⊢
  after_results
  rw [h7]
  exact Eq.trans rfl e

theorem k18_v140 (ho1 : outs 51 main_v325 c = (dat19 (vt (V50 m outs)) c).arrAt 2 cfg19.N)
    (h6 : V47 m outs c main_v288 = val_main_v330 (F := F) (m ((c : Thread nD τ).loc main_arg0)) (m ((c : Thread nD τ).loc main_arg3))) :
    V52 m outs c main_v328 = val_main_v371 (F := F) (m ((c : Thread nD τ).loc main_arg0)) (m ((c : Thread nD τ).loc main_arg1)) (m ((c : Thread nD τ).loc main_arg2)) (m ((c : Thread nD τ).loc main_arg3)) := by
  have h9 := k18_v103_V21 m outs c
  have h43 := k18_v137 m outs c ho1 h6
  show StableHlo.after hostOps20 (V51 m outs c) main_v328 = _
  generalize V51 m outs c = W at h9 h43 ⊢
  after_results
  rw [h9, h43]
  rfl

theorem k18_v143 (ho1 : outs 51 main_v325 c = (dat19 (vt (V50 m outs)) c).arrAt 2 cfg19.N)
    (ho2 : outs 53 main_v331 c = (dat20 (vt (V52 m outs)) c).arrAt 3 cfg20.N)
    (h6 : V47 m outs c main_v288 = val_main_v330 (F := F) (m ((c : Thread nD τ).loc main_arg0)) (m ((c : Thread nD τ).loc main_arg3))) :
    V53 m outs c main_v331 = val_main_v380 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  have h46 : vt (V52 m outs) c (Pipeline.arrRef spec20 0) = val_main_v371 (F := F) (m ((c : Thread nD τ).loc main_arg0)) (m ((c : Thread nD τ).loc main_arg1)) (m ((c : Thread nD τ).loc main_arg2)) (m ((c : Thread nD τ).loc main_arg3)) := k18_v140 m outs c ho1 h6
  have h47 : vt (V52 m outs) c (Pipeline.arrRef spec20 1) = val_main_v372 (F := F) (m ((c : Thread nD τ).loc main_arg4)) := k18_v141 m outs c
  have h48 : vt (V52 m outs) c (Pipeline.arrRef spec20 2) = val_main_v377 (F := F) (m ((c : Thread nD τ).loc main_arg7)) := k18_v142 m outs c
  show Function.update (V52 m outs c) main_v331 (outs 53 main_v331 c) main_v331 = _
  rw [Function.update_self, ho2, val20, h46, h47, h48]
  rfl

end Host

section AtIdeal
variable (m : (ℓ : Loc nD τ sig) → Buf (Elt Ideal) ℓ) (c : Dev nD)

theorem k18_v100 : V47 m (outsX m) c main_v288
    = val_main_v330 (F := Ideal) (m ((c : Thread nD τ).loc main_arg0)) (m ((c : Thread nD τ).loc main_arg3)) := by
  have e0 : vt (V46 m (outsX m)) c (Pipeline.arrRef spec18 0) = (m ((c : Thread nD τ).loc main_arg0)) := k18_arg0_V16 m (outsX m) c
  have e3 : vt (V46 m (outsX m)) c (Pipeline.arrRef spec18 1) = (m ((c : Thread nD τ).loc main_arg3)) := k18_arg3_V16 m (outsX m) c
  show Function.update (V46 m (outsX m) c) main_v288 (outsX m 47 main_v288 c) main_v288 = _
  rw [Function.update_self, hout18, val18, e0, e3]
  rfl

theorem pro3_v283 : V46 m (outsX m) c main_v283 = val_main_v325 (F := Ideal) (m ((c : Thread nD τ).loc main_arg1)) := k18_v95 m (outsX m) c
theorem pro3_v285 : V46 m (outsX m) c main_v285 = val_main_v327 (F := Ideal) (m ((c : Thread nD τ).loc main_arg1)) := k18_v97 m (outsX m) c
theorem pro3_v287 : V46 m (outsX m) c main_v287 = val_main_v329 (F := Ideal) (m ((c : Thread nD τ).loc main_arg2)) := k18_v99 m (outsX m) c

theorem layer0s3_out : V53 m (outsX m) c main_v331
    = val_main_v380 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  k18_v143 m (outsX m) c (hout19 m c) (hout20 m c) (k18_v100 m c)

end AtIdeal

end Cert.KernelIdeal.Ch

end
-- ==== Proof.KI.Val3.lean ====
/- Region 3 leaves the product of its two input arrays in its result array: point t writes rows 5000·t … 5000·t + 4999 of that product, and the ten blocks cover the 50000 rows. -/
import proofs.«160853_j19842748908317_1_alg».proof.Proof.KI.Reg3
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

theorem iblk3_0_apply (c : Dev nD) (t : Fin cfg3.N) (p : Fin 5000) (k : Fin 128) (hr : 5000 * t.val + p.val < 50000) :
    (iblk3 V c 0 t : Vec Ideal S5000x128 .f32) (ix2 p k)
      = (V c (Pipeline.arrRef spec3 0) : FVec Ideal Cert.ReferenceIdeal.S50000x128 .f32) (ix2 ⟨5000 * t.val + p.val, hr⟩ k) := by
  obtain ⟨hxa, hxb, -, -, -, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = 5000 * t.val + p.val; rw [hxa]; omega
  | ⟨1, _⟩ => show win3_0.index t (1 : Fin 2) * 128 + 1 * k.val = k.val; rw [hxb]; omega

theorem iblk3_1_apply (c : Dev nD) (t : Fin cfg3.N) (k q : Fin 128) :
    (iblk3 V c 1 t : Vec Ideal S128x128 .f32) (ix2 k q)
      = (V c (Pipeline.arrRef spec3 1) : FVec Ideal Cert.ReferenceIdeal.S128x128 .f32) (ix2 k q) := by
  obtain ⟨-, -, hwa, hwb, -, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * k.val = k.val; rw [hwa]; omega
  | ⟨1, _⟩ => show win3_1.index t (1 : Fin 2) * 128 + 1 * q.val = q.val; rw [hwb]; omega

abbrev prod3 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec3 0)) (V c (Pipeline.arrRef spec3 1))

theorem flushed3_2_eq (c : Dev nD) (t : Fin cfg3.N) :
    (dat3 (F := Ideal) V c).flushed 2 t = ((cfg3.win 2).blk t).view.read (Elt Ideal) (prod3 V c) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid3.N = 10 := N_3
  have ht : t.val < grid3.N := t.isLt
  obtain ⟨-, -, -, -, hya, hyb⟩ := idx_facts3 t
  have hr : 5000 * t.val + (j 0).val < 50000 := by omega
  have ex : (cfg3.win 2).xinj (grid3.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg3.win 2).blk t).view.emb j = ix2 (⟨5000 * t.val + (j 0).val, hr⟩ : Fin 50000) (⟨(j 1).val, hj1⟩ : Fin 128) := by
    funext a
    apply Fin.ext
    match a with
    | ⟨0, _⟩ => show win3_2.index t (0 : Fin 2) * 5000 + 1 * (j 0).val = 5000 * t.val + (j 0).val; rw [hya]; omega
    | ⟨1, _⟩ => show win3_2.index t (1 : Fin 2) * 128 + 1 * (j 1).val = (j 1).val; rw [hyb]; omega
  refine (congrArg (k3_pay1 (F := Ideal) (iblk3 V c 0 t) (iblk3 V c 1 t)) ex).trans ?_
  refine Eq.trans ?_ (congrArg (prod3 V c) ee).symm
  exact block_eq (k3_pay1 (F := Ideal)) payS_apply (V c (Pipeline.arrRef spec3 0)) (V c (Pipeline.arrRef spec3 1)) (iblk3 V c 0 t) (iblk3 V c 1 t) t.val
    ⟨(j 0).val, hj0⟩ ⟨(j 1).val, hj1⟩ hr (fun k => iblk3_0_apply V c t ⟨(j 0).val, hj0⟩ k hr)
    (fun k => iblk3_1_apply V c t k ⟨(j 1).val, hj1⟩)

theorem rows_cover3_2 (i : Cert.ReferenceIdeal.S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, hya, hyb⟩ := idx_facts3 t
  refine ⟨t, flush3_2 t, ?_⟩
  show i ∈ ((View.whole (Pipeline.arrRef spec3 2)).slice (win3_2.rect t)).set
  rw [View.set_slice_whole, Rect.mem_set_unit]
  intro a
  match a with
  | ⟨0, _⟩ =>
    show win3_2.index t (0 : Fin 2) * 5000 ≤ (i 0).val ∧ (i 0).val < win3_2.index t (0 : Fin 2) * 5000 + 5000
    rw [hya, ht]; omega
  | ⟨1, _⟩ =>
    show win3_2.index t (1 : Fin 2) * 128 ≤ (i 1).val ∧ (i 1).val < win3_2.index t (1 : Fin 2) * 128 + 128
    rw [hyb]; omega

theorem val3 (V : (c : Dev nD) → (b : Ref sig .tc) → Buf (Elt Ideal) ((c : Thread nD τ).loc b)) (c : Dev nD) :
    (dat3 (F := Ideal) V c).arrAt 2 cfg3.N
      = Host.dotGeneral (F := Ideal) (φ₁ := .f32) (φ₂ := .f32) Cert.ReferenceIdeal.dot_S50000x128_S128x128_S50000x128_1_0_0_1_n_n none
          (V c (Pipeline.arrRef spec3 0)) (V c (Pipeline.arrRef spec3 1)) :=
  (dat3 (F := Ideal) V c).arrAt_eq_of_cover 2 (prod3 V c) (fun t _ => flushed3_2_eq V c t) rows_cover3_2
end Cert.KernelIdeal.Rg

end
-- ==== Proof.KI.Val4.lean ====
/- Region 4 leaves in its result array its first input array scaled, row by row, by its coefficient column: point t writes rows 5000·t … of that product, and the blocks cover every row. -/
import proofs.«160853_j19842748908317_1_alg».proof.Proof.KI.Reg4
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem iblk4_0_at (c : Dev nD) (t : Fin cfg4.N) (p : Fin 5000) (q : Fin 128) (k : S850000x128.Idx)
    (hrow : (k 0).val = 5000 * t.val + p.val) (hlane : (k 1).val = q.val) :
    (iblk4 V c 0 t : Vec F S5000x128 .f32) (ix2 p q) = (V c (Pipeline.arrRef spec4 0) : S850000x128.Idx → Elt F .f32) k := by
  obtain ⟨er, el, -⟩ := idx_facts4 t
  unfold iblk4
  rw [View.read_apply]
  refine congrArg (V c (Pipeline.arrRef spec4 0)) (funext fun a => Fin.ext ?_)
  match a with
  | ⟨0, _⟩ => show win4_0.index t (0 : Fin 2) * 5000 + 1 * p.val = (k 0).val; rw [er, hrow]; omega
  | ⟨1, _⟩ => show win4_0.index t (1 : Fin 2) * 128 + 1 * q.val = (k 1).val; rw [el, hlane]; omega

theorem iblk4_1_at (c : Dev nD) (t : Fin cfg4.N) (p : Fin 5000) (k : S850000x1.Idx)
    (hrow : (k 0).val = 5000 * t.val + p.val) :
    (iblk4 V c 1 t : Vec F S5000x1 .f32) (ix2 p (0 : Fin 1)) = (V c (Pipeline.arrRef spec4 1) : S850000x1.Idx → Elt F .f32) k := by
  obtain ⟨-, -, er, el, -⟩ := idx_facts4 t
  have hcol : (k 1).val < 1 := (k 1).isLt
  unfold iblk4
  rw [View.read_apply]
  refine congrArg (V c (Pipeline.arrRef spec4 1)) (funext fun a => Fin.ext ?_)
  match a with
  | ⟨0, _⟩ => show win4_1.index t (0 : Fin 2) * 5000 + 1 * p.val = (k 0).val; rw [er, hrow]; omega
  | ⟨1, _⟩ => show win4_1.index t (1 : Fin 2) * 1 + 1 * 0 = (k 1).val; rw [el]; omega

theorem flushed4_2_eq [Cert.ReferenceIdeal.Facts₀] (c : Dev nD) (t : Fin cfg4.N) :
    (dat4 V c).flushed 2 t = ((cfg4.win 2).blk t).view.read (Elt F)
      (mulf (φ := .f32) (V c (Pipeline.arrRef spec4 0))
        (broadcastInDim Cert.ReferenceIdeal.S850000x128 ![0, 1] Cert.ReferenceIdeal.Facts₀.bcast_S850000x1_S850000x128_0_1 (V c (Pipeline.arrRef spec4 1)))) := by
  show (cfg4.win 2).cut (grid4.coords t) ((dat4 V c).after 2 t) = _
  rw [after4_2]
  funext j
  obtain ⟨p, q, rfl⟩ : ∃ (p : Fin 5000) (q : Fin 128), j = ix2 p q := ⟨j 0, j 1, eq_ix2 j⟩
  obtain ⟨-, -, -, -, er, el⟩ := idx_facts4 t
  have hp : p.val < 5000 := p.isLt
  have ht : t.val < 170 := by have h := t.isLt; have hN : cfg4.N = 170 := N_4; omega
  have hr : 5000 * t.val + p.val < 850000 := by omega
  have hrow : ((((cfg4.win 2).blk t).view.emb (ix2 p q) : S850000x128.Idx) 0).val = 5000 * t.val + p.val := by
    show win4_2.index t (0 : Fin 2) * 5000 + 1 * p.val = _
    rw [er]; omega
  have hlane : ((((cfg4.win 2).blk t).view.emb (ix2 p q) : S850000x128.Idx) 1).val = q.val := by
    show win4_2.index t (1 : Fin 2) * 128 + 1 * q.val = _
    rw [el]; omega
  rw [View.read_apply]
  refine (outScale_at (iblk4 V c 0 t) (iblk4 V c 1 t) p q _ rfl rfl).trans ?_
  exact (congrArg₂ FloatOps.mulf (iblk4_0_at V c t p q _ hrow hlane)
      (iblk4_1_at V c t p (ix2 (⟨5000 * t.val + p.val, hr⟩ : Fin 850000) (0 : Fin 1)) rfl)).trans
    (scaled_at _ _ ⟨5000 * t.val + p.val, hr⟩ q _ hrow hlane).symm

theorem mem_blk4_2 (t : Fin cfg4.N) (i : S850000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

theorem rows_cover4_2 (i : S850000x128.Idx) :
    ∃ t : Fin cfg4.N, (cfg4.win 2).flush t = true ∧ i ∈ ((cfg4.win 2).blk t).view.set := by
  have hrow : (i 0).val < 850000 := (i 0).isLt
  have hlane : (i 1).val < 128 := (i 1).isLt
  have hN : cfg4.N = 170 := N_4
  have ht : (i 0).val / 5000 < cfg4.N := by omega
  obtain ⟨-, -, -, -, er, el⟩ := idx_facts4 ⟨(i 0).val / 5000, ht⟩
  refine ⟨⟨(i 0).val / 5000, ht⟩, flush4_2 _, ?_⟩
  rw [mem_blk4_2]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [el]; omega

theorem arr4_2_eq [Cert.ReferenceIdeal.Facts₀] (c : Dev nD) :
    (dat4 V c).arrAt 2 cfg4.N
      = mulf (φ := .f32) (V c (Pipeline.arrRef spec4 0))
          (broadcastInDim Cert.ReferenceIdeal.S850000x128 ![0, 1] Cert.ReferenceIdeal.Facts₀.bcast_S850000x1_S850000x128_0_1 (V c (Pipeline.arrRef spec4 1))) :=
  (dat4 V c).arrAt_eq_of_cover 2 _ (fun t _ => flushed4_2_eq V c t) rows_cover4_2

end Cert.KernelIdeal.Rg

end
-- ==== Proof.KI.Val5.lean ====
/- Region 5 leaves in its result array the rectifier, with bias and slope rows, of its first input array: point t writes rows 5000·t … of it, and the ten blocks cover the rows. -/
import proofs.«160853_j19842748908317_1_alg».proof.Proof.KI.Reg5
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 2000000 in
theorem flushed5_3_eq (c : Dev nD) (t : Fin cfg5.N) :
    (dat5 V c).flushed 3 t = ((cfg5.win 3).blk t).view.read (Elt F)
      (act (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨e00, e01, e10, e11, e20, e21, e30, e31⟩ := idx_facts5 t
  have hN : grid5.N = 10 := N_5
  have htN : t.val < grid5.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k5_pay1 (iblk5 V c 0 t) (iblk5 V c 1 t) (iblk5 V c 2 t) (ix2 p q)
    = act (V c (Pipeline.arrRef spec5 0)) (V c (Pipeline.arrRef spec5 1)) (V c (Pipeline.arrRef spec5 2))
        (((cfg5.win 3).blk t).view.emb (ix2 p q))
  have hemb : ((cfg5.win 3).blk t).view.emb (ix2 p q) = ix2 (⟨t.val * 5000 + p.val, hr⟩ : Fin 50000) q := by
    funext a; apply Fin.ext
    match a with
    | ⟨0, _⟩ => show win5_3.index t (0 : Fin 2) * 5000 + 1 * p.val = t.val * 5000 + p.val; rw [e30]; omega
    | ⟨1, _⟩ => show win5_3.index t (1 : Fin 2) * 128 + 1 * q.val = q.val; rw [e31]; omega
  rw [hemb]
  refine payAct_eq_act_at (iblk5 V c 0 t) (iblk5 V c 1 t) (iblk5 V c 2 t)
    (V c (Pipeline.arrRef spec5 0)) (V c (Pipeline.arrRef spec5 1)) (V c (Pipeline.arrRef spec5 2)) p q ⟨t.val * 5000 + p.val, hr⟩ ?_ ?_ ?_
  · show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; rw [e00]; omega
    | ⟨1, _⟩ => show win5_0.index t (1 : Fin 2) * 128 + 1 * q.val = q.val; rw [e01]; omega
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; rw [e10]
    | ⟨1, _⟩ => show win5_1.index t (1 : Fin 2) * 128 + 1 * q.val = q.val; rw [e11]; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; rw [e20]
    | ⟨1, _⟩ => show win5_2.index t (1 : Fin 2) * 128 + 1 * q.val = q.val; rw [e21]; omega

theorem mem_blk5_3 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

theorem covered5_3 (i : S50000x128.Idx) :
    ∃ t : Fin cfg5.N, (cfg5.win 3).flush t = true ∧ i ∈ ((cfg5.win 3).blk t).view.set := by
  have hi0 : (i 0).val < 50000 := idx2_lt0 i
  have hi1 : (i 1).val < 128 := idx2_lt1 i
  have hN : grid5.N = 10 := N_5
  obtain ⟨t, ht⟩ : ∃ t : Fin cfg5.N, t.val = (i 0).val / 5000 :=
    ⟨⟨(i 0).val / 5000, by show (i 0).val / 5000 < grid5.N; omega⟩, rfl⟩
  obtain ⟨-, -, -, -, -, -, e30, e31⟩ := idx_facts5 t
  refine ⟨t, flush5_3 t, ?_⟩
  rw [mem_blk5_3]
  intro a
  match a with
  | ⟨0, _⟩ =>
    show win5_3.index t (0 : Fin 2) * 5000 ≤ (i 0).val ∧ (i 0).val < win5_3.index t (0 : Fin 2) * 5000 + 5000
    rw [e30, ht]; omega
  | ⟨1, _⟩ =>
    show win5_3.index t (1 : Fin 2) * 128 ≤ (i 1).val ∧ (i 1).val < win5_3.index t (1 : Fin 2) * 128 + 128
    rw [e31]; omega

theorem val5 (c : Dev nD) :
    (dat5 V c).arrAt 3 cfg5.N
      = select (cmpf .ogt (addf (V c (Pipeline.arrRef spec5 0))
              (broadcastInDim Cert.ReferenceIdeal.S50000x128 ![0, 1] Cert.ReferenceIdeal.Facts₀.bcast_S1x128_S50000x128_0_1 (V c (Pipeline.arrRef spec5 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec5 0))
            (broadcastInDim Cert.ReferenceIdeal.S50000x128 ![0, 1] Cert.ReferenceIdeal.Facts₀.bcast_S1x128_S50000x128_0_1 (V c (Pipeline.arrRef spec5 1))))
          (mulf (broadcastInDim Cert.ReferenceIdeal.S50000x128 ![0, 1] Cert.ReferenceIdeal.Facts₀.bcast_S1x128_S50000x128_0_1 (V c (Pipeline.arrRef spec5 2)))
            (addf (V c (Pipeline.arrRef spec5 0))
              (broadcastInDim Cert.ReferenceIdeal.S50000x128 ![0, 1] Cert.ReferenceIdeal.Facts₀.bcast_S1x128_S50000x128_0_1 (V c (Pipeline.arrRef spec5 1))))) :=
  (dat5 V c).arrAt_eq_of_cover 3
    (act (V c (Pipeline.arrRef spec5 0)) (V c (Pipeline.arrRef spec5 1)) (V c (Pipeline.arrRef spec5 2)))
    (fun t _ => flushed5_3_eq V c t) (fun i => covered5_3 i)

end Cert.KernelIdeal.Rg

end
-- ==== Proof.KI.ChainB.lean ====
/- Scale 0, second layer, from its inputs as given at its entry: after each item, each buffer holds the reference's stage. -/
import proofs.«160853_j19842748908317_1_alg».proof.Proof.KI.PData
import proofs.«160853_j19842748908317_1_alg».proof.Proof.KI.Val3
import proofs.«160853_j19842748908317_1_alg».proof.Proof.KI.Val4
import proofs.«160853_j19842748908317_1_alg».proof.Proof.KI.Val5
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k1_v1_V9 (h1 : V8 m outs c main_v1 = val_main_v1 (F := F) (m ((c : Thread nD τ).loc main_arg1))) :
    V9 m outs c main_v1 = val_main_v1 (F := F) (m ((c : Thread nD τ).loc main_arg1)) :=
  (V9_of m outs c main_v1 (by decide)).trans (h1)
theorem k1_v3_V9 (h3 : V8 m outs c main_v3 = val_main_v3 (F := F) (m ((c : Thread nD τ).loc main_arg1))) :
    V9 m outs c main_v3 = val_main_v3 (F := F) (m ((c : Thread nD τ).loc main_arg1)) :=
  (V9_of m outs c main_v3 (by decide)).trans (h3)
theorem k1_v5_V9 (h5 : V8 m outs c main_v5 = val_main_v5 (F := F) (m ((c : Thread nD τ).loc main_arg2))) :
    V9 m outs c main_v5 = val_main_v5 (F := F) (m ((c : Thread nD τ).loc main_arg2)) :=
  (V9_of m outs c main_v5 (by decide)).trans (h5)

theorem k1_arg6_V13 (ha6 : V8 m outs c main_arg6 = (m ((c : Thread nD τ).loc main_arg6))) : V13 m outs c main_arg6 = (m ((c : Thread nD τ).loc main_arg6)) :=
  (V13_of m outs c main_arg6 (by decide)).trans ((V12_of m outs c main_arg6 (by decide)).trans ((V11_of m outs c main_arg6 (by decide)).trans ((V10_of m outs c main_arg6 (by decide)).trans ((V9_of m outs c main_arg6 (by decide)).trans (ha6)))))
theorem k1_arg7_V13 (ha7 : V8 m outs c main_arg7 = (m ((c : Thread nD τ).loc main_arg7))) : V13 m outs c main_arg7 = (m ((c : Thread nD τ).loc main_arg7)) :=
  (V13_of m outs c main_arg7 (by decide)).trans ((V12_of m outs c main_arg7 (by decide)).trans ((V11_of m outs c main_arg7 (by decide)).trans ((V10_of m outs c main_arg7 (by decide)).trans ((V9_of m outs c main_arg7 (by decide)).trans (ha7)))))

theorem k1_v52 (h1 : V8 m outs c main_v1 = val_main_v1 (F := F) (m ((c : Thread nD τ).loc main_arg1))) :
    V10 m outs c main_v52 = val_main_v59 (F := F) (m ((c : Thread nD τ).loc main_arg1)) := by
  have e1 := k1_v1_V9 m outs c h1
  show StableHlo.after hostOps4 (V9 m outs c) main_v52 = _
  generalize V9 m outs c = W at e1 ⊢
  after_results
  rw [e1]
  rfl

theorem k1_v53 (h3 : V8 m outs c main_v3 = val_main_v3 (F := F) (m ((c : Thread nD τ).loc main_arg1))) :
    V10 m outs c main_v53 = val_main_v60 (F := F) (m ((c : Thread nD τ).loc main_arg1)) := by
  have e3 := k1_v3_V9 m outs c h3
  show StableHlo.after hostOps4 (V9 m outs c) main_v53 = _
  generalize V9 m outs c = W at e3 ⊢
  after_results
  rw [e3]
  rfl

theorem k1_v55 (h5 : V8 m outs c main_v5 = val_main_v5 (F := F) (m ((c : Thread nD τ).loc main_arg2))) :
    V10 m outs c main_v55 = val_main_v62 (F := F) (m ((c : Thread nD τ).loc main_arg2)) := by
  have e5 := k1_v5_V9 m outs c h5
  show StableHlo.after hostOps4 (V9 m outs c) main_v55 = _
  generalize V9 m outs c = W at e5 ⊢
  after_results
  rw [e5]
  rfl

theorem k1_v60 (h3 : V8 m outs c main_v3 = val_main_v3 (F := F) (m ((c : Thread nD τ).loc main_arg1))) (h5 : V8 m outs c main_v5 = val_main_v5 (F := F) (m ((c : Thread nD τ).loc main_arg2))) :
    V10 m outs c main_v60 = val_main_v67 (F := F) (m ((c : Thread nD τ).loc main_arg1)) (m ((c : Thread nD τ).loc main_arg2)) := by
  have e3 := k1_v3_V9 m outs c h3
  have e5 := k1_v5_V9 m outs c h5
  show StableHlo.after hostOps4 (V9 m outs c) main_v60 = _
  generalize V9 m outs c = W at e3 e5 ⊢
  after_results
  rw [e3, e5]
  rfl

theorem k1_v61 (h3 : V8 m outs c main_v3 = val_main_v3 (F := F) (m ((c : Thread nD τ).loc main_arg1))) (h5 : V8 m outs c main_v5 = val_main_v5 (F := F) (m ((c : Thread nD τ).loc main_arg2))) :
    V10 m outs c main_v61 = val_main_v68 (F := F) (m ((c : Thread nD τ).loc main_arg1)) (m ((c : Thread nD τ).loc main_arg2)) := by
  have e3 := k1_v3_V9 m outs c h3
  have e5 := k1_v5_V9 m outs c h5
  show StableHlo.after hostOps4 (V9 m outs c) main_v61 = _
  generalize V9 m outs c = W at e3 e5 ⊢
  after_results
  rw [e3, e5]
  rfl

theorem k1_cst_12 : V10 m outs c main_cst_12 = val_main_cst_13 (F := F) := by
  show StableHlo.after hostOps4 (V9 m outs c) main_cst_12 = _
  generalize V9 m outs c = W
  after_results
  rfl

theorem k1_v62 (h3 : V8 m outs c main_v3 = val_main_v3 (F := F) (m ((c : Thread nD τ).loc main_arg1))) (h5 : V8 m outs c main_v5 = val_main_v5 (F := F) (m ((c : Thread nD τ).loc main_arg2))) :
    V11 m outs c main_v62 = val_main_v69 (F := F) (m ((c : Thread nD τ).loc main_arg1)) (m ((c : Thread nD τ).loc main_arg2)) := by
  have h60 := k1_v60 m outs c h3 h5
  have h61 := k1_v61 m outs c h3 h5
  have hc12 := k1_cst_12 m outs c
  show StableHlo.after hostOps4_1 (V10 m outs c) main_v62 = _
  generalize V10 m outs c = W at h60 h61 hc12 ⊢
  after_results
  rw [h60, h61, hc12]
  simp only [TRef.ofBuf, TRef.toBuf, cast_eq]
  rfl

theorem k1_v52_V11 (h1 : V8 m outs c main_v1 = val_main_v1 (F := F) (m ((c : Thread nD τ).loc main_arg1))) :
    V11 m outs c main_v52 = val_main_v59 (F := F) (m ((c : Thread nD τ).loc main_arg1)) := (V11_of m outs c main_v52 (by decide)).trans (k1_v52 m outs c h1)
theorem k1_v53_V11 (h3 : V8 m outs c main_v3 = val_main_v3 (F := F) (m ((c : Thread nD τ).loc main_arg1))) :
    V11 m outs c main_v53 = val_main_v60 (F := F) (m ((c : Thread nD τ).loc main_arg1)) := (V11_of m outs c main_v53 (by decide)).trans (k1_v53 m outs c h3)
theorem k1_v55_V11 (h5 : V8 m outs c main_v5 = val_main_v5 (F := F) (m ((c : Thread nD τ).loc main_arg2))) :
    V11 m outs c main_v55 = val_main_v62 (F := F) (m ((c : Thread nD τ).loc main_arg2)) := (V11_of m outs c main_v55 (by decide)).trans (k1_v55 m outs c h5)

theorem k1_v50_V11 (h50 : V9 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V11 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (V11_of m outs c main_v50 (by decide)).trans ((V10_of m outs c main_v50 (by decide)).trans h50)

theorem k1_v79 (h1 : V8 m outs c main_v1 = val_main_v1 (F := F) (m ((c : Thread nD τ).loc main_arg1))) (h3 : V8 m outs c main_v3 = val_main_v3 (F := F) (m ((c : Thread nD τ).loc main_arg1))) (h5 : V8 m outs c main_v5 = val_main_v5 (F := F) (m ((c : Thread nD τ).loc main_arg2))) :
    V12 m outs c main_v79 = val_main_v93 (F := F) (m ((c : Thread nD τ).loc main_arg1)) (m ((c : Thread nD τ).loc main_arg2)) := by
  have h52 := k1_v52_V11 m outs c h1
  have h53 := k1_v53_V11 m outs c h3
  have h55 := k1_v55_V11 m outs c h5
  have h62 := k1_v62 m outs c h3 h5
  have e : shapeCast S850000x1 (val_main_v85 (F := F) (m ((c : Thread nD τ).loc main_arg1)) (m ((c : Thread nD τ).loc main_arg2))) shapeCasts_S850000_S850000x1 = val_main_v93 (F := F) (m ((c : Thread nD τ).loc main_arg1)) (m ((c : Thread nD τ).loc main_arg2)) :=
    (col_reshape_eq_bcast (F := F) (val_main_v85 (F := F) (m ((c : Thread nD τ).loc main_arg1)) (m ((c : Thread nD τ).loc main_arg2)))).trans rfl
  show StableHlo.after hostOps4_2 (V11 m outs c) main_v79 = _
  generalize V11 m outs c = W at h52 h53 h55 h62 ⊢
  after_results_simp
  rw [h52, h53, h55, h62]
  exact Eq.trans rfl e

theorem k1_v86 (h1 : V8 m outs c main_v1 = val_main_v1 (F := F) (m ((c : Thread nD τ).loc main_arg1))) (h50 : V9 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V12 m outs c main_v86 = val_main_v92 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h52 := k1_v52_V11 m outs c h1
  have h50' := k1_v50_V11 m outs c h50
  show StableHlo.after hostOps4_2 (V11 m outs c) main_v86 = _
  generalize V11 m outs c = W at h52 h50' ⊢
  after_results_simp
  rw [h52, h50']
  rfl

theorem k1_v87 (ho4 : outs 13 main_v87 c = (dat4 (vt (V12 m outs)) c).arrAt 2 cfg4.N) (h1 : V8 m outs c main_v1 = val_main_v1 (F := F) (m ((c : Thread nD τ).loc main_arg1))) (h3 : V8 m outs c main_v3 = val_main_v3 (F := F) (m ((c : Thread nD τ).loc main_arg1))) (h5 : V8 m outs c main_v5 = val_main_v5 (F := F) (m ((c : Thread nD τ).loc main_arg2))) (h50 : V9 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V13 m outs c main_v87 = val_main_v95 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h86 : vt (V12 m outs) c (Pipeline.arrRef spec4 0) = val_main_v92 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k1_v86 m outs c h1 h50
  have h79 : vt (V12 m outs) c (Pipeline.arrRef spec4 1) = val_main_v93 (F := F) (m ((c : Thread nD τ).loc main_arg1)) (m ((c : Thread nD τ).loc main_arg2)) := k1_v79 m outs c h1 h3 h5
  show Function.update (V12 m outs c) main_v87 (outs 13 main_v87 c) main_v87 = _
  rw [Function.update_self, ho4, arr4_2_eq, h86, h79]
  rfl

theorem k1_v53_V13 (h3 : V8 m outs c main_v3 = val_main_v3 (F := F) (m ((c : Thread nD τ).loc main_arg1))) :
    V13 m outs c main_v53 = val_main_v60 (F := F) (m ((c : Thread nD τ).loc main_arg1)) :=
  (V13_of m outs c main_v53 (by decide)).trans ((V12_of m outs c main_v53 (by decide)).trans (k1_v53_V11 m outs c h3))

theorem k1_v91 (ha6 : V8 m outs c main_arg6 = (m ((c : Thread nD τ).loc main_arg6))) : V14 m outs c main_v91 = val_main_v99 (F := F) (m ((c : Thread nD τ).loc main_arg6)) := by
  have h6 := k1_arg6_V13 m outs c ha6
  have e : shapeCast S1x128 (m ((c : Thread nD τ).loc main_arg6)) shapeCasts_S128_S1x128 = val_main_v99 (F := F) (m ((c : Thread nD τ).loc main_arg6)) :=
    (row_reshape_eq_bcast (F := F) (m ((c : Thread nD τ).loc main_arg6))).trans rfl
  show StableHlo.after hostOps5 (V13 m outs c) main_v91 = _
  generalize V13 m outs c = W at h6 ⊢
  after_results
  rw [h6]
  exact Eq.trans rfl e

theorem k1_v92 (ha7 : V8 m outs c main_arg7 = (m ((c : Thread nD τ).loc main_arg7))) : V14 m outs c main_v92 = val_main_v104 (F := F) (m ((c : Thread nD τ).loc main_arg7)) := by
  have h7 := k1_arg7_V13 m outs c ha7
  have e : shapeCast S1x128 (m ((c : Thread nD τ).loc main_arg7)) shapeCasts_S128_S1x128 = val_main_v104 (F := F) (m ((c : Thread nD τ).loc main_arg7)) :=
    (row_reshape_eq_bcast (F := F) (m ((c : Thread nD τ).loc main_arg7))).trans rfl
  show StableHlo.after hostOps5 (V13 m outs c) main_v92 = _
  generalize V13 m outs c = W at h7 ⊢
  after_results
  rw [h7]
  exact Eq.trans rfl e

theorem k1_v90 (ho4 : outs 13 main_v87 c = (dat4 (vt (V12 m outs)) c).arrAt 2 cfg4.N) (h1 : V8 m outs c main_v1 = val_main_v1 (F := F) (m ((c : Thread nD τ).loc main_arg1))) (h3 : V8 m outs c main_v3 = val_main_v3 (F := F) (m ((c : Thread nD τ).loc main_arg1))) (h5 : V8 m outs c main_v5 = val_main_v5 (F := F) (m ((c : Thread nD τ).loc main_arg2))) (h50 : V9 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V14 m outs c main_v90 = val_main_v98 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h53 := k1_v53_V13 m outs c h3
  have h87 := k1_v87 m outs c ho4 h1 h3 h5 h50
  show StableHlo.after hostOps5 (V13 m outs c) main_v90 = _
  generalize V13 m outs c = W at h53 h87 ⊢
  after_results
  rw [h53, h87]
  rfl

theorem k1_v93 (ho4 : outs 13 main_v87 c = (dat4 (vt (V12 m outs)) c).arrAt 2 cfg4.N) (ho5 : outs 15 main_v93 c = (dat5 (vt (V14 m outs)) c).arrAt 3 cfg5.N) (h1 : V8 m outs c main_v1 = val_main_v1 (F := F) (m ((c : Thread nD τ).loc main_arg1))) (h3 : V8 m outs c main_v3 = val_main_v3 (F := F) (m ((c : Thread nD τ).loc main_arg1))) (h5 : V8 m outs c main_v5 = val_main_v5 (F := F) (m ((c : Thread nD τ).loc main_arg2))) (ha6 : V8 m outs c main_arg6 = (m ((c : Thread nD τ).loc main_arg6))) (ha7 : V8 m outs c main_arg7 = (m ((c : Thread nD τ).loc main_arg7))) (h50 : V9 m outs c main_v50 = val_main_v57 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V15 m outs c main_v93 = val_main_v107 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h90 : vt (V14 m outs) c (Pipeline.arrRef spec5 0) = val_main_v98 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k1_v90 m outs c ho4 h1 h3 h5 h50
  have h91 : vt (V14 m outs) c (Pipeline.arrRef spec5 1) = val_main_v99 (F := F) (m ((c : Thread nD τ).loc main_arg6)) := k1_v91 m outs c ha6
  have h92 : vt (V14 m outs) c (Pipeline.arrRef spec5 2) = val_main_v104 (F := F) (m ((c : Thread nD τ).loc main_arg7)) := k1_v92 m outs c ha7
  show Function.update (V14 m outs c) main_v93 (outs 15 main_v93 c) main_v93 = _
  rw [Function.update_self, ho5, val5, h90, h91, h92]
  rfl

end Host

section AtIdeal
variable (m : (ℓ : Loc nD τ sig) → Buf (Elt Ideal) ℓ) (c : Dev nD)

theorem k1_v50
    (ha5 : V8 m (outsX m) c main_arg5 = (m ((c : Thread nD τ).loc main_arg5)))
    (h49 : V8 m (outsX m) c main_v49 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V9 m (outsX m) c main_v50 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have e49 : vt (V8 m (outsX m)) c (Pipeline.arrRef spec3 0) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := h49
  have e5 : vt (V8 m (outsX m)) c (Pipeline.arrRef spec3 1) = (m ((c : Thread nD τ).loc main_arg5)) := ha5
  show Function.update (V8 m (outsX m) c) main_v50 (outsX m 9 main_v50 c) main_v50 = _
  rw [Function.update_self, hout3, val3, e49, e5]
  rfl

theorem layer1_out
    (h1 : V8 m (outsX m) c main_v1 = val_main_v1 (F := Ideal) (m ((c : Thread nD τ).loc main_arg1)))
    (h3 : V8 m (outsX m) c main_v3 = val_main_v3 (F := Ideal) (m ((c : Thread nD τ).loc main_arg1)))
    (h5 : V8 m (outsX m) c main_v5 = val_main_v5 (F := Ideal) (m ((c : Thread nD τ).loc main_arg2)))
    (ha5 : V8 m (outsX m) c main_arg5 = (m ((c : Thread nD τ).loc main_arg5)))
    (ha6 : V8 m (outsX m) c main_arg6 = (m ((c : Thread nD τ).loc main_arg6)))
    (ha7 : V8 m (outsX m) c main_arg7 = (m ((c : Thread nD τ).loc main_arg7)))
    (h49 : V8 m (outsX m) c main_v49 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V15 m (outsX m) c main_v93
      = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  k1_v93 m (outsX m) c (hout4 m c) (hout5 m c) h1 h3 h5 ha6 ha7 (k1_v50 m c ha5 h49)

end AtIdeal

end Cert.KernelIdeal.Ch

end
-- ==== Proof.KI.Val9.lean ====
/- Region 9 leaves the product of its two input arrays in its result array: point t writes rows 5000·t … 5000·t + 4999 of that product, and the ten blocks cover the 50000 rows. -/
import proofs.«160853_j19842748908317_1_alg».proof.Proof.KI.Reg9
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt Ideal) ((c : Thread nD τ).loc b))

theorem iblk9_0_apply (c : Dev nD) (t : Fin cfg9.N) (p : Fin 5000) (k : Fin 128) (hr : 5000 * t.val + p.val < 50000) :
    (iblk9 V c 0 t : Vec Ideal S5000x128 .f32) (ix2 p k)
      = (V c (Pipeline.arrRef spec9 0) : FVec Ideal Cert.ReferenceIdeal.S50000x128 .f32) (ix2 ⟨5000 * t.val + p.val, hr⟩ k) := by
  obtain ⟨hxa, hxb, -, -, -, -⟩ := idx_facts9 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * p.val = 5000 * t.val + p.val; rw [hxa]; omega
  | ⟨1, _⟩ => show win9_0.index t (1 : Fin 2) * 128 + 1 * k.val = k.val; rw [hxb]; omega

theorem iblk9_1_apply (c : Dev nD) (t : Fin cfg9.N) (k q : Fin 128) :
    (iblk9 V c 1 t : Vec Ideal S128x128 .f32) (ix2 k q)
      = (V c (Pipeline.arrRef spec9 1) : FVec Ideal Cert.ReferenceIdeal.S128x128 .f32) (ix2 k q) := by
  obtain ⟨-, -, hwa, hwb, -, -⟩ := idx_facts9 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 128 + 1 * k.val = k.val; rw [hwa]; omega
  | ⟨1, _⟩ => show win9_1.index t (1 : Fin 2) * 128 + 1 * q.val = q.val; rw [hwb]; omega

abbrev prod9 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec9 0)) (V c (Pipeline.arrRef spec9 1))

theorem flushed9_2_eq (c : Dev nD) (t : Fin cfg9.N) :
    (dat9 (F := Ideal) V c).flushed 2 t = ((cfg9.win 2).blk t).view.read (Elt Ideal) (prod9 V c) := by
  show (cfg9.win 2).cut (grid9.coords t) ((dat9 (F := Ideal) V c).after 2 t) = _
  rw [after9_2]
  unfold out9_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid9.N = 10 := N_9
  have ht : t.val < grid9.N := t.isLt
  obtain ⟨-, -, -, -, hya, hyb⟩ := idx_facts9 t
  have hr : 5000 * t.val + (j 0).val < 50000 := by omega
  have ex : (cfg9.win 2).xinj (grid9.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg9.win 2).blk t).view.emb j = ix2 (⟨5000 * t.val + (j 0).val, hr⟩ : Fin 50000) (⟨(j 1).val, hj1⟩ : Fin 128) := by
    funext a
    apply Fin.ext
    match a with
    | ⟨0, _⟩ => show win9_2.index t (0 : Fin 2) * 5000 + 1 * (j 0).val = 5000 * t.val + (j 0).val; rw [hya]; omega
    | ⟨1, _⟩ => show win9_2.index t (1 : Fin 2) * 128 + 1 * (j 1).val = (j 1).val; rw [hyb]; omega
  refine (congrArg (k9_pay1 (F := Ideal) (iblk9 V c 0 t) (iblk9 V c 1 t)) ex).trans ?_
  refine Eq.trans ?_ (congrArg (prod9 V c) ee).symm
  exact block_eq (k9_pay1 (F := Ideal)) payS_apply (V c (Pipeline.arrRef spec9 0)) (V c (Pipeline.arrRef spec9 1)) (iblk9 V c 0 t) (iblk9 V c 1 t) t.val
    ⟨(j 0).val, hj0⟩ ⟨(j 1).val, hj1⟩ hr (fun k => iblk9_0_apply V c t ⟨(j 0).val, hj0⟩ k hr)
    (fun k => iblk9_1_apply V c t k ⟨(j 1).val, hj1⟩)

theorem rows_cover9_2 (i : Cert.ReferenceIdeal.S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  have hN : grid9.N = 10 := N_9
  obtain ⟨t, ht⟩ : ∃ t : Fin cfg9.N, t.val = (i 0).val / 5000 :=
    ⟨⟨(i 0).val / 5000, by show (i 0).val / 5000 < grid9.N; omega⟩, rfl⟩
  obtain ⟨-, -, -, -, hya, hyb⟩ := idx_facts9 t
  refine ⟨t, flush9_2 t, ?_⟩
  show i ∈ ((View.whole (Pipeline.arrRef spec9 2)).slice (win9_2.rect t)).set
  rw [View.set_slice_whole, Rect.mem_set_unit]
  intro a
  match a with
  | ⟨0, _⟩ =>
    show win9_2.index t (0 : Fin 2) * 5000 ≤ (i 0).val ∧ (i 0).val < win9_2.index t (0 : Fin 2) * 5000 + 5000
    rw [hya, ht]; omega
  | ⟨1, _⟩ =>
    show win9_2.index t (1 : Fin 2) * 128 ≤ (i 1).val ∧ (i 1).val < win9_2.index t (1 : Fin 2) * 128 + 128
    rw [hyb]; omega

theorem val9 (V : (c : Dev nD) → (b : Ref sig .tc) → Buf (Elt Ideal) ((c : Thread nD τ).loc b)) (c : Dev nD) :
    (dat9 (F := Ideal) V c).arrAt 2 cfg9.N
      = Host.dotGeneral (F := Ideal) (φ₁ := .f32) (φ₂ := .f32) Cert.ReferenceIdeal.dot_S50000x128_S128x128_S50000x128_1_0_0_1_n_n none
          (V c (Pipeline.arrRef spec9 0)) (V c (Pipeline.arrRef spec9 1)) :=
  (dat9 (F := Ideal) V c).arrAt_eq_of_cover 2 (prod9 V c) (fun t _ => flushed9_2_eq V c t) rows_cover9_2
end Cert.KernelIdeal.Rg

end
-- ==== Proof.KI.Val10.lean ====
/- Region 10 leaves in its result array its first input array scaled, row by row, by its coefficient column: point t writes rows 5000·t … of that product, and the blocks cover every row. -/
import proofs.«160853_j19842748908317_1_alg».proof.Proof.KI.Reg10
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

theorem iblk10_0_at (c : Dev nD) (t : Fin cfg10.N) (p : Fin 5000) (q : Fin 128) (k : S850000x128.Idx)
    (hrow : (k 0).val = 5000 * t.val + p.val) (hlane : (k 1).val = q.val) :
    (iblk10 V c 0 t : Vec F S5000x128 .f32) (ix2 p q) = (V c (Pipeline.arrRef spec10 0) : S850000x128.Idx → Elt F .f32) k := by
  obtain ⟨er, el, -⟩ := idx_facts10 t
  unfold iblk10
  rw [View.read_apply]
  refine congrArg (V c (Pipeline.arrRef spec10 0)) (funext fun a => Fin.ext ?_)
  match a with
  | ⟨0, _⟩ => show win10_0.index t (0 : Fin 2) * 5000 + 1 * p.val = (k 0).val; rw [er, hrow]; omega
  | ⟨1, _⟩ => show win10_0.index t (1 : Fin 2) * 128 + 1 * q.val = (k 1).val; rw [el, hlane]; omega

theorem iblk10_1_at (c : Dev nD) (t : Fin cfg10.N) (p : Fin 5000) (k : S850000x1.Idx)
    (hrow : (k 0).val = 5000 * t.val + p.val) :
    (iblk10 V c 1 t : Vec F S5000x1 .f32) (ix2 p (0 : Fin 1)) = (V c (Pipeline.arrRef spec10 1) : S850000x1.Idx → Elt F .f32) k := by
  obtain ⟨-, -, er, el, -⟩ := idx_facts10 t
  have hcol : (k 1).val < 1 := (k 1).isLt
  unfold iblk10
  rw [View.read_apply]
  refine congrArg (V c (Pipeline.arrRef spec10 1)) (funext fun a => Fin.ext ?_)
  match a with
  | ⟨0, _⟩ => show win10_1.index t (0 : Fin 2) * 5000 + 1 * p.val = (k 0).val; rw [er, hrow]; omega
  | ⟨1, _⟩ => show win10_1.index t (1 : Fin 2) * 1 + 1 * 0 = (k 1).val; rw [el]; omega

theorem flushed10_2_eq [Cert.ReferenceIdeal.Facts₀] (c : Dev nD) (t : Fin cfg10.N) :
    (dat10 V c).flushed 2 t = ((cfg10.win 2).blk t).view.read (Elt F)
      (mulf (φ := .f32) (V c (Pipeline.arrRef spec10 0))
        (broadcastInDim Cert.ReferenceIdeal.S850000x128 ![0, 1] Cert.ReferenceIdeal.Facts₀.bcast_S850000x1_S850000x128_0_1 (V c (Pipeline.arrRef spec10 1)))) := by
  show (cfg10.win 2).cut (grid10.coords t) ((dat10 V c).after 2 t) = _
  rw [after10_2]
  funext j
  obtain ⟨p, q, rfl⟩ : ∃ (p : Fin 5000) (q : Fin 128), j = ix2 p q := ⟨j 0, j 1, eq_ix2 j⟩
  obtain ⟨-, -, -, -, er, el⟩ := idx_facts10 t
  have hp : p.val < 5000 := p.isLt
  have ht : t.val < 170 := by have h := t.isLt; have hN : cfg10.N = 170 := N_10; omega
  have hr : 5000 * t.val + p.val < 850000 := by omega
  have hrow : ((((cfg10.win 2).blk t).view.emb (ix2 p q) : S850000x128.Idx) 0).val = 5000 * t.val + p.val := by
    show win10_2.index t (0 : Fin 2) * 5000 + 1 * p.val = _
    rw [er]; omega
  have hlane : ((((cfg10.win 2).blk t).view.emb (ix2 p q) : S850000x128.Idx) 1).val = q.val := by
    show win10_2.index t (1 : Fin 2) * 128 + 1 * q.val = _
    rw [el]; omega
  rw [View.read_apply]
  refine (outScale_at (iblk10 V c 0 t) (iblk10 V c 1 t) p q _ rfl rfl).trans ?_
  exact (congrArg₂ FloatOps.mulf (iblk10_0_at V c t p q _ hrow hlane)
      (iblk10_1_at V c t p (ix2 (⟨5000 * t.val + p.val, hr⟩ : Fin 850000) (0 : Fin 1)) rfl)).trans
    (scaled_at _ _ ⟨5000 * t.val + p.val, hr⟩ q _ hrow hlane).symm

theorem mem_blk10_2 (t : Fin cfg10.N) (i : S850000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole (Pipeline.arrRef spec10 2)).slice (win10_2.rect t)).set ↔ _
  rw [View.set_slice_whole, Rect.mem_set_unit]
  exact Iff.rfl

theorem rows_cover10_2 (i : S850000x128.Idx) :
    ∃ t : Fin cfg10.N, (cfg10.win 2).flush t = true ∧ i ∈ ((cfg10.win 2).blk t).view.set := by
  have hrow : (i 0).val < 850000 := (i 0).isLt
  have hlane : (i 1).val < 128 := (i 1).isLt
  have hN : cfg10.N = 170 := N_10
  have ht : (i 0).val / 5000 < cfg10.N := by omega
  obtain ⟨-, -, -, -, er, el⟩ := idx_facts10 ⟨(i 0).val / 5000, ht⟩
  refine ⟨⟨(i 0).val / 5000, ht⟩, flush10_2 _, ?_⟩
  rw [mem_blk10_2]
  intro a
  match a with
  | ⟨0, _⟩ =>
    show win10_2.index ⟨(i 0).val / 5000, ht⟩ (0 : Fin 2) * 5000 ≤ (i 0).val ∧ (i 0).val < win10_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win10_2.index ⟨(i 0).val / 5000, ht⟩ (1 : Fin 2) * 128 ≤ (i 1).val ∧ (i 1).val < win10_2.index ⟨(i 0).val / 5000, ht⟩ (1 : Fin 2) * 128 + 128
    rw [el]; omega

theorem arr10_2_eq [Cert.ReferenceIdeal.Facts₀] (c : Dev nD) :
    (dat10 V c).arrAt 2 cfg10.N
      = mulf (φ := .f32) (V c (Pipeline.arrRef spec10 0))
          (broadcastInDim Cert.ReferenceIdeal.S850000x128 ![0, 1] Cert.ReferenceIdeal.Facts₀.bcast_S850000x1_S850000x128_0_1 (V c (Pipeline.arrRef spec10 1))) :=
  (dat10 V c).arrAt_eq_of_cover 2 _ (fun t _ => flushed10_2_eq V c t) rows_cover10_2

end Cert.KernelIdeal.Rg

end
-- ==== Proof.KI.Val11.lean ====
/- Region 11 leaves in its result array the rectifier, with bias and slope rows, of its first input array: point t writes rows 5000·t … of it, and the ten blocks cover the rows. -/
import proofs.«160853_j19842748908317_1_alg».proof.Proof.KI.Reg11
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

set_option maxHeartbeats 2000000 in
theorem flushed11_3_eq (c : Dev nD) (t : Fin cfg11.N) :
    (dat11 V c).flushed 3 t = ((cfg11.win 3).blk t).view.read (Elt F)
      (act (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz]
  simp only [View.ld_unit_zero (S := S5000x128) hz, View.ld_unit_zero (S := S1x128) hz]
  obtain ⟨e00, e01, e10, e11, e20, e21, e30, e31⟩ := idx_facts11 t
  have hN : grid11.N = 10 := N_11
  have htN : t.val < grid11.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k11_pay1 (iblk11 V c 0 t) (iblk11 V c 1 t) (iblk11 V c 2 t) (ix2 p q)
    = act (V c (Pipeline.arrRef spec11 0)) (V c (Pipeline.arrRef spec11 1)) (V c (Pipeline.arrRef spec11 2))
        (((cfg11.win 3).blk t).view.emb (ix2 p q))
  have hemb : ((cfg11.win 3).blk t).view.emb (ix2 p q) = ix2 (⟨t.val * 5000 + p.val, hr⟩ : Fin 50000) q := by
    funext a; apply Fin.ext
    match a with
    | ⟨0, _⟩ => show win11_3.index t (0 : Fin 2) * 5000 + 1 * p.val = t.val * 5000 + p.val; rw [e30]; omega
    | ⟨1, _⟩ => show win11_3.index t (1 : Fin 2) * 128 + 1 * q.val = q.val; rw [e31]; omega
  rw [hemb]
  refine payAct_eq_act_at (iblk11 V c 0 t) (iblk11 V c 1 t) (iblk11 V c 2 t)
    (V c (Pipeline.arrRef spec11 0)) (V c (Pipeline.arrRef spec11 1)) (V c (Pipeline.arrRef spec11 2)) p q ⟨t.val * 5000 + p.val, hr⟩ ?_ ?_ ?_
  · show V c (Pipeline.arrRef spec11 0) (((cfg11.win 0).blk t).view.emb (ix2 p q)) = _
    refine congrArg _ (funext fun a => Fin.ext ?_)
    match a with
    | ⟨0, _⟩ => show win11_0.index t (0 : Fin 2) * 5000 + 1 * p.val = t.val * 5000 + p.val; rw [e00]; omega
    | ⟨1, _⟩ => show win11_0.index t (1 : Fin 2) * 128 + 1 * q.val = q.val; rw [e01]; omega
  · show V c (Pipeline.arrRef spec11 1) (((cfg11.win 1).blk t).view.emb (ix2 (0 : Fin 1) q)) = _
    refine congrArg _ (funext fun a => Fin.ext ?_)
    match a with
    | ⟨0, _⟩ => show win11_1.index t (0 : Fin 2) * 1 + 1 * 0 = 0; rw [e10]
    | ⟨1, _⟩ => show win11_1.index t (1 : Fin 2) * 128 + 1 * q.val = q.val; rw [e11]; omega
  · show V c (Pipeline.arrRef spec11 2) (((cfg11.win 2).blk t).view.emb (ix2 (0 : Fin 1) q)) = _
    refine congrArg _ (funext fun a => Fin.ext ?_)
    match a with
    | ⟨0, _⟩ => show win11_2.index t (0 : Fin 2) * 1 + 1 * 0 = 0; rw [e20]
    | ⟨1, _⟩ => show win11_2.index t (1 : Fin 2) * 128 + 1 * q.val = q.val; rw [e21]; omega

theorem mem_blk11_3 (t : Fin cfg11.N) (i : S50000x128.Idx) :
    i ∈ ((cfg11.win 3).blk t).view.set ↔ ∀ a : Fin 2, win11_3.index t a * S5000x128.size a ≤ (i a).val
      ∧ (i a).val < win11_3.index t a * S5000x128.size a + S5000x128.size a := by
  show i ∈ ((View.whole (Pipeline.arrRef spec11 3)).slice (win11_3.rect t)).set ↔ _
  rw [View.set_slice_whole, Rect.mem_set_unit]
  exact Iff.rfl

theorem covered11_3 (i : S50000x128.Idx) :
    ∃ t : Fin cfg11.N, (cfg11.win 3).flush t = true ∧ i ∈ ((cfg11.win 3).blk t).view.set := by
  have hi0 : (i 0).val < 50000 := idx2_lt0 i
  have hi1 : (i 1).val < 128 := idx2_lt1 i
  have hN : grid11.N = 10 := N_11
  obtain ⟨t, ht⟩ : ∃ t : Fin cfg11.N, t.val = (i 0).val / 5000 :=
    ⟨⟨(i 0).val / 5000, by show (i 0).val / 5000 < grid11.N; omega⟩, rfl⟩
  obtain ⟨-, -, -, -, -, -, e30, e31⟩ := idx_facts11 t
  refine ⟨t, flush11_3 t, ?_⟩
  rw [mem_blk11_3]
  intro a
  match a with
  | ⟨0, _⟩ =>
    show win11_3.index t (0 : Fin 2) * 5000 ≤ (i 0).val ∧ (i 0).val < win11_3.index t (0 : Fin 2) * 5000 + 5000
    rw [e30, ht]; omega
  | ⟨1, _⟩ =>
    show win11_3.index t (1 : Fin 2) * 128 ≤ (i 1).val ∧ (i 1).val < win11_3.index t (1 : Fin 2) * 128 + 128
    rw [e31]; omega

theorem val11 (c : Dev nD) :
    (dat11 V c).arrAt 3 cfg11.N
      = select (cmpf .ogt (addf (V c (Pipeline.arrRef spec11 0))
              (broadcastInDim Cert.ReferenceIdeal.S50000x128 ![0, 1] Cert.ReferenceIdeal.Facts₀.bcast_S1x128_S50000x128_0_1 (V c (Pipeline.arrRef spec11 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec11 0))
            (broadcastInDim Cert.ReferenceIdeal.S50000x128 ![0, 1] Cert.ReferenceIdeal.Facts₀.bcast_S1x128_S50000x128_0_1 (V c (Pipeline.arrRef spec11 1))))
          (mulf (broadcastInDim Cert.ReferenceIdeal.S50000x128 ![0, 1] Cert.ReferenceIdeal.Facts₀.bcast_S1x128_S50000x128_0_1 (V c (Pipeline.arrRef spec11 2)))
            (addf (V c (Pipeline.arrRef spec11 0))
              (broadcastInDim Cert.ReferenceIdeal.S50000x128 ![0, 1] Cert.ReferenceIdeal.Facts₀.bcast_S1x128_S50000x128_0_1 (V c (Pipeline.arrRef spec11 1))))) :=
  (dat11 V c).arrAt_eq_of_cover 3
    (act (V c (Pipeline.arrRef spec11 0)) (V c (Pipeline.arrRef spec11 1)) (V c (Pipeline.arrRef spec11 2)))
    (fun t _ => flushed11_3_eq V c t) (fun i => covered11_3 i)

end Cert.KernelIdeal.Rg

end
-- ==== Proof.KI.ChainB1.lean ====
/- Scale 0, second layer, from its inputs as given at its entry: after each item, each buffer holds the reference's stage. -/
import proofs.«160853_j19842748908317_1_alg».proof.Proof.KI.PData
import proofs.«160853_j19842748908317_1_alg».proof.Proof.KI.Val9
import proofs.«160853_j19842748908317_1_alg».proof.Proof.KI.Val10
import proofs.«160853_j19842748908317_1_alg».proof.Proof.KI.Val11
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k7_v1_V9 (h1 : V23 m outs c main_v95 = val_main_v109 (F := F) (m ((c : Thread nD τ).loc main_arg1))) :
    V24 m outs c main_v95 = val_main_v109 (F := F) (m ((c : Thread nD τ).loc main_arg1)) :=
  (V24_of m outs c main_v95 (by decide)).trans (h1)
theorem k7_v3_V9 (h3 : V23 m outs c main_v97 = val_main_v111 (F := F) (m ((c : Thread nD τ).loc main_arg1))) :
    V24 m outs c main_v97 = val_main_v111 (F := F) (m ((c : Thread nD τ).loc main_arg1)) :=
  (V24_of m outs c main_v97 (by decide)).trans (h3)
theorem k7_v5_V9 (h5 : V23 m outs c main_v99 = val_main_v113 (F := F) (m ((c : Thread nD τ).loc main_arg2))) :
    V24 m outs c main_v99 = val_main_v113 (F := F) (m ((c : Thread nD τ).loc main_arg2)) :=
  (V24_of m outs c main_v99 (by decide)).trans (h5)

theorem k7_arg6_V13 (ha6 : V23 m outs c main_arg6 = (m ((c : Thread nD τ).loc main_arg6))) : V28 m outs c main_arg6 = (m ((c : Thread nD τ).loc main_arg6)) :=
  (V28_of m outs c main_arg6 (by decide)).trans ((V27_of m outs c main_arg6 (by decide)).trans ((V26_of m outs c main_arg6 (by decide)).trans ((V25_of m outs c main_arg6 (by decide)).trans ((V24_of m outs c main_arg6 (by decide)).trans (ha6)))))
theorem k7_arg7_V13 (ha7 : V23 m outs c main_arg7 = (m ((c : Thread nD τ).loc main_arg7))) : V28 m outs c main_arg7 = (m ((c : Thread nD τ).loc main_arg7)) :=
  (V28_of m outs c main_arg7 (by decide)).trans ((V27_of m outs c main_arg7 (by decide)).trans ((V26_of m outs c main_arg7 (by decide)).trans ((V25_of m outs c main_arg7 (by decide)).trans ((V24_of m outs c main_arg7 (by decide)).trans (ha7)))))

theorem k7_v52 (h1 : V23 m outs c main_v95 = val_main_v109 (F := F) (m ((c : Thread nD τ).loc main_arg1))) :
    V25 m outs c main_v146 = val_main_v167 (F := F) (m ((c : Thread nD τ).loc main_arg1)) := by
  have e1 := k7_v1_V9 m outs c h1
  show StableHlo.after hostOps10 (V24 m outs c) main_v146 = _
  generalize V24 m outs c = W at e1 ⊢
  after_results
  rw [e1]
  rfl

theorem k7_v53 (h3 : V23 m outs c main_v97 = val_main_v111 (F := F) (m ((c : Thread nD τ).loc main_arg1))) :
    V25 m outs c main_v147 = val_main_v168 (F := F) (m ((c : Thread nD τ).loc main_arg1)) := by
  have e3 := k7_v3_V9 m outs c h3
  show StableHlo.after hostOps10 (V24 m outs c) main_v147 = _
  generalize V24 m outs c = W at e3 ⊢
  after_results
  rw [e3]
  rfl

theorem k7_v55 (h5 : V23 m outs c main_v99 = val_main_v113 (F := F) (m ((c : Thread nD τ).loc main_arg2))) :
    V25 m outs c main_v149 = val_main_v170 (F := F) (m ((c : Thread nD τ).loc main_arg2)) := by
  have e5 := k7_v5_V9 m outs c h5
  show StableHlo.after hostOps10 (V24 m outs c) main_v149 = _
  generalize V24 m outs c = W at e5 ⊢
  after_results
  rw [e5]
  rfl

theorem k7_v60 (h3 : V23 m outs c main_v97 = val_main_v111 (F := F) (m ((c : Thread nD τ).loc main_arg1))) (h5 : V23 m outs c main_v99 = val_main_v113 (F := F) (m ((c : Thread nD τ).loc main_arg2))) :
    V25 m outs c main_v154 = val_main_v175 (F := F) (m ((c : Thread nD τ).loc main_arg1)) (m ((c : Thread nD τ).loc main_arg2)) := by
  have e3 := k7_v3_V9 m outs c h3
  have e5 := k7_v5_V9 m outs c h5
  show StableHlo.after hostOps10 (V24 m outs c) main_v154 = _
  generalize V24 m outs c = W at e3 e5 ⊢
  after_results
  rw [e3, e5]
  rfl

theorem k7_v61 (h3 : V23 m outs c main_v97 = val_main_v111 (F := F) (m ((c : Thread nD τ).loc main_arg1))) (h5 : V23 m outs c main_v99 = val_main_v113 (F := F) (m ((c : Thread nD τ).loc main_arg2))) :
    V25 m outs c main_v155 = val_main_v176 (F := F) (m ((c : Thread nD τ).loc main_arg1)) (m ((c : Thread nD τ).loc main_arg2)) := by
  have e3 := k7_v3_V9 m outs c h3
  have e5 := k7_v5_V9 m outs c h5
  show StableHlo.after hostOps10 (V24 m outs c) main_v155 = _
  generalize V24 m outs c = W at e3 e5 ⊢
  after_results
  rw [e3, e5]
  rfl

theorem k7_cst_12 : V25 m outs c main_cst_34 = val_main_cst_37 (F := F) := by
  show StableHlo.after hostOps10 (V24 m outs c) main_cst_34 = _
  generalize V24 m outs c = W
  after_results
  rfl

theorem k7_v62 (h3 : V23 m outs c main_v97 = val_main_v111 (F := F) (m ((c : Thread nD τ).loc main_arg1))) (h5 : V23 m outs c main_v99 = val_main_v113 (F := F) (m ((c : Thread nD τ).loc main_arg2))) :
    V26 m outs c main_v156 = val_main_v177 (F := F) (m ((c : Thread nD τ).loc main_arg1)) (m ((c : Thread nD τ).loc main_arg2)) := by
  have h60 := k7_v60 m outs c h3 h5
  have h61 := k7_v61 m outs c h3 h5
  have hc12 := k7_cst_12 m outs c
  show StableHlo.after hostOps10_1 (V25 m outs c) main_v156 = _
  generalize V25 m outs c = W at h60 h61 hc12 ⊢
  after_results
  rw [h60, h61, hc12]
  simp only [TRef.ofBuf, TRef.toBuf, cast_eq]
  rfl

theorem k7_v52_V11 (h1 : V23 m outs c main_v95 = val_main_v109 (F := F) (m ((c : Thread nD τ).loc main_arg1))) :
    V26 m outs c main_v146 = val_main_v167 (F := F) (m ((c : Thread nD τ).loc main_arg1)) := (V26_of m outs c main_v146 (by decide)).trans (k7_v52 m outs c h1)
theorem k7_v53_V11 (h3 : V23 m outs c main_v97 = val_main_v111 (F := F) (m ((c : Thread nD τ).loc main_arg1))) :
    V26 m outs c main_v147 = val_main_v168 (F := F) (m ((c : Thread nD τ).loc main_arg1)) := (V26_of m outs c main_v147 (by decide)).trans (k7_v53 m outs c h3)
theorem k7_v55_V11 (h5 : V23 m outs c main_v99 = val_main_v113 (F := F) (m ((c : Thread nD τ).loc main_arg2))) :
    V26 m outs c main_v149 = val_main_v170 (F := F) (m ((c : Thread nD τ).loc main_arg2)) := (V26_of m outs c main_v149 (by decide)).trans (k7_v55 m outs c h5)

theorem k7_v50_V11 (h50 : V24 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V26 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (V26_of m outs c main_v144 (by decide)).trans ((V25_of m outs c main_v144 (by decide)).trans h50)

theorem k7_v79 (h1 : V23 m outs c main_v95 = val_main_v109 (F := F) (m ((c : Thread nD τ).loc main_arg1))) (h3 : V23 m outs c main_v97 = val_main_v111 (F := F) (m ((c : Thread nD τ).loc main_arg1))) (h5 : V23 m outs c main_v99 = val_main_v113 (F := F) (m ((c : Thread nD τ).loc main_arg2))) :
    V27 m outs c main_v173 = val_main_v201 (F := F) (m ((c : Thread nD τ).loc main_arg1)) (m ((c : Thread nD τ).loc main_arg2)) := by
  have h52 := k7_v52_V11 m outs c h1
  have h53 := k7_v53_V11 m outs c h3
  have h55 := k7_v55_V11 m outs c h5
  have h62 := k7_v62 m outs c h3 h5
  have e : shapeCast S850000x1 (val_main_v193 (F := F) (m ((c : Thread nD τ).loc main_arg1)) (m ((c : Thread nD τ).loc main_arg2))) shapeCasts_S850000_S850000x1 = val_main_v201 (F := F) (m ((c : Thread nD τ).loc main_arg1)) (m ((c : Thread nD τ).loc main_arg2)) :=
    (col_reshape_eq_bcast (F := F) (val_main_v193 (F := F) (m ((c : Thread nD τ).loc main_arg1)) (m ((c : Thread nD τ).loc main_arg2)))).trans rfl
  show StableHlo.after hostOps10_2 (V26 m outs c) main_v173 = _
  generalize V26 m outs c = W at h52 h53 h55 h62 ⊢
  after_results_simp
  rw [h52, h53, h55, h62]
  exact Eq.trans rfl e

theorem k7_v86 (h1 : V23 m outs c main_v95 = val_main_v109 (F := F) (m ((c : Thread nD τ).loc main_arg1))) (h50 : V24 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V27 m outs c main_v180 = val_main_v200 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h52 := k7_v52_V11 m outs c h1
  have h50' := k7_v50_V11 m outs c h50
  show StableHlo.after hostOps10_2 (V26 m outs c) main_v180 = _
  generalize V26 m outs c = W at h52 h50' ⊢
  after_results_simp
  rw [h52, h50']
  rfl

theorem k7_v87 (ho4 : outs 28 main_v181 c = (dat10 (vt (V27 m outs)) c).arrAt 2 cfg10.N) (h1 : V23 m outs c main_v95 = val_main_v109 (F := F) (m ((c : Thread nD τ).loc main_arg1))) (h3 : V23 m outs c main_v97 = val_main_v111 (F := F) (m ((c : Thread nD τ).loc main_arg1))) (h5 : V23 m outs c main_v99 = val_main_v113 (F := F) (m ((c : Thread nD τ).loc main_arg2))) (h50 : V24 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V28 m outs c main_v181 = val_main_v203 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h86 : vt (V27 m outs) c (Pipeline.arrRef spec10 0) = val_main_v200 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k7_v86 m outs c h1 h50
  have h79 : vt (V27 m outs) c (Pipeline.arrRef spec10 1) = val_main_v201 (F := F) (m ((c : Thread nD τ).loc main_arg1)) (m ((c : Thread nD τ).loc main_arg2)) := k7_v79 m outs c h1 h3 h5
  show Function.update (V27 m outs c) main_v181 (outs 28 main_v181 c) main_v181 = _
  rw [Function.update_self, ho4, arr10_2_eq, h86, h79]
  rfl

theorem k7_v53_V13 (h3 : V23 m outs c main_v97 = val_main_v111 (F := F) (m ((c : Thread nD τ).loc main_arg1))) :
    V28 m outs c main_v147 = val_main_v168 (F := F) (m ((c : Thread nD τ).loc main_arg1)) :=
  (V28_of m outs c main_v147 (by decide)).trans ((V27_of m outs c main_v147 (by decide)).trans (k7_v53_V11 m outs c h3))

theorem k7_v91 (ha6 : V23 m outs c main_arg6 = (m ((c : Thread nD τ).loc main_arg6))) : V29 m outs c main_v185 = val_main_v207 (F := F) (m ((c : Thread nD τ).loc main_arg6)) := by
  have h6 := k7_arg6_V13 m outs c ha6
  have e : shapeCast S1x128 (m ((c : Thread nD τ).loc main_arg6)) shapeCasts_S128_S1x128 = val_main_v207 (F := F) (m ((c : Thread nD τ).loc main_arg6)) :=
    (row_reshape_eq_bcast (F := F) (m ((c : Thread nD τ).loc main_arg6))).trans rfl
  show StableHlo.after hostOps11 (V28 m outs c) main_v185 = _
  generalize V28 m outs c = W at h6 ⊢
  after_results
  rw [h6]
  exact Eq.trans rfl e

theorem k7_v92 (ha7 : V23 m outs c main_arg7 = (m ((c : Thread nD τ).loc main_arg7))) : V29 m outs c main_v186 = val_main_v212 (F := F) (m ((c : Thread nD τ).loc main_arg7)) := by
  have h7 := k7_arg7_V13 m outs c ha7
  have e : shapeCast S1x128 (m ((c : Thread nD τ).loc main_arg7)) shapeCasts_S128_S1x128 = val_main_v212 (F := F) (m ((c : Thread nD τ).loc main_arg7)) :=
    (row_reshape_eq_bcast (F := F) (m ((c : Thread nD τ).loc main_arg7))).trans rfl
  show StableHlo.after hostOps11 (V28 m outs c) main_v186 = _
  generalize V28 m outs c = W at h7 ⊢
  after_results
  rw [h7]
  exact Eq.trans rfl e

theorem k7_v90 (ho4 : outs 28 main_v181 c = (dat10 (vt (V27 m outs)) c).arrAt 2 cfg10.N) (h1 : V23 m outs c main_v95 = val_main_v109 (F := F) (m ((c : Thread nD τ).loc main_arg1))) (h3 : V23 m outs c main_v97 = val_main_v111 (F := F) (m ((c : Thread nD τ).loc main_arg1))) (h5 : V23 m outs c main_v99 = val_main_v113 (F := F) (m ((c : Thread nD τ).loc main_arg2))) (h50 : V24 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V29 m outs c main_v184 = val_main_v206 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h53 := k7_v53_V13 m outs c h3
  have h87 := k7_v87 m outs c ho4 h1 h3 h5 h50
  show StableHlo.after hostOps11 (V28 m outs c) main_v184 = _
  generalize V28 m outs c = W at h53 h87 ⊢
  after_results
  rw [h53, h87]
  rfl

theorem k7_v93 (ho4 : outs 28 main_v181 c = (dat10 (vt (V27 m outs)) c).arrAt 2 cfg10.N) (ho5 : outs 30 main_v187 c = (dat11 (vt (V29 m outs)) c).arrAt 3 cfg11.N) (h1 : V23 m outs c main_v95 = val_main_v109 (F := F) (m ((c : Thread nD τ).loc main_arg1))) (h3 : V23 m outs c main_v97 = val_main_v111 (F := F) (m ((c : Thread nD τ).loc main_arg1))) (h5 : V23 m outs c main_v99 = val_main_v113 (F := F) (m ((c : Thread nD τ).loc main_arg2))) (ha6 : V23 m outs c main_arg6 = (m ((c : Thread nD τ).loc main_arg6))) (ha7 : V23 m outs c main_arg7 = (m ((c : Thread nD τ).loc main_arg7))) (h50 : V24 m outs c main_v144 = val_main_v165 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V30 m outs c main_v187 = val_main_v215 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h90 : vt (V29 m outs) c (Pipeline.arrRef spec11 0) = val_main_v206 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k7_v90 m outs c ho4 h1 h3 h5 h50
  have h91 : vt (V29 m outs) c (Pipeline.arrRef spec11 1) = val_main_v207 (F := F) (m ((c : Thread nD τ).loc main_arg6)) := k7_v91 m outs c ha6
  have h92 : vt (V29 m outs) c (Pipeline.arrRef spec11 2) = val_main_v212 (F := F) (m ((c : Thread nD τ).loc main_arg7)) := k7_v92 m outs c ha7
  show Function.update (V29 m outs c) main_v187 (outs 30 main_v187 c) main_v187 = _
  rw [Function.update_self, ho5, val11, h90, h91, h92]
  rfl

end Host

section AtIdeal
variable (m : (ℓ : Loc nD τ sig) → Buf (Elt Ideal) ℓ) (c : Dev nD)

theorem k7_v50
    (ha5 : V23 m (outsX m) c main_arg5 = (m ((c : Thread nD τ).loc main_arg5)))
    (h49 : V23 m (outsX m) c main_v143 = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V24 m (outsX m) c main_v144 = val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have e49 : vt (V23 m (outsX m)) c (Pipeline.arrRef spec9 0) = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := h49
  have e5 : vt (V23 m (outsX m)) c (Pipeline.arrRef spec9 1) = (m ((c : Thread nD τ).loc main_arg5)) := ha5
  show Function.update (V23 m (outsX m) c) main_v144 (outsX m 24 main_v144 c) main_v144 = _
  rw [Function.update_self, hout9, val9, e49, e5]
  rfl

theorem layer1s1_out
    (h1 : V23 m (outsX m) c main_v95 = val_main_v109 (F := Ideal) (m ((c : Thread nD τ).loc main_arg1)))
    (h3 : V23 m (outsX m) c main_v97 = val_main_v111 (F := Ideal) (m ((c : Thread nD τ).loc main_arg1)))
    (h5 : V23 m (outsX m) c main_v99 = val_main_v113 (F := Ideal) (m ((c : Thread nD τ).loc main_arg2)))
    (ha5 : V23 m (outsX m) c main_arg5 = (m ((c : Thread nD τ).loc main_arg5)))
    (ha6 : V23 m (outsX m) c main_arg6 = (m ((c : Thread nD τ).loc main_arg6)))
    (ha7 : V23 m (outsX m) c main_arg7 = (m ((c : Thread nD τ).loc main_arg7)))
    (h49 : V23 m (outsX m) c main_v143 = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V30 m (outsX m) c main_v187
      = val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  k7_v93 m (outsX m) c (hout10 m c) (hout11 m c) h1 h3 h5 ha6 ha7 (k7_v50 m c ha5 h49)

end AtIdeal

end Cert.KernelIdeal.Ch

end
-- ==== Proof.KI.Val15.lean ====
/- Region 15 leaves the product of its two input arrays in its result array: point t writes rows 5000·t … 5000·t + 4999 of that product, and the ten blocks cover the 50000 rows. -/
import proofs.«160853_j19842748908317_1_alg».proof.Proof.KI.Reg15
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

variable (V : (c : Dev nD) → (b : Ref sig .tc) → Buf (Elt Ideal) ((c : Thread nD τ).loc b))

theorem iblk15_0_apply (c : Dev nD) (t : Fin cfg15.N) (p : Fin 5000) (k : Fin 128) (hr : 5000 * t.val + p.val < 50000) :
    (iblk15 V c 0 t : Vec Ideal S5000x128 .f32) (ix2 p k)
      = (V c (Pipeline.arrRef spec15 0) : FVec Ideal Cert.ReferenceIdeal.S50000x128 .f32) (ix2 ⟨5000 * t.val + p.val, hr⟩ k) := by
  obtain ⟨hxa, hxb, -, -, -, -⟩ := idx_facts15 t
  unfold iblk15
  rw [View.read_apply]
  show V c (Pipeline.arrRef spec15 0) _ = V c (Pipeline.arrRef spec15 0) _
  congr 1
  funext a
  apply Fin.ext
  match a with
  | ⟨0, _⟩ => show win15_0.index t (0 : Fin 2) * 5000 + 1 * p.val = 5000 * t.val + p.val; rw [hxa]; omega
  | ⟨1, _⟩ => show win15_0.index t (1 : Fin 2) * 128 + 1 * k.val = k.val; rw [hxb]; omega

theorem iblk15_1_apply (c : Dev nD) (t : Fin cfg15.N) (k q : Fin 128) :
    (iblk15 V c 1 t : Vec Ideal S128x128 .f32) (ix2 k q)
      = (V c (Pipeline.arrRef spec15 1) : FVec Ideal Cert.ReferenceIdeal.S128x128 .f32) (ix2 k q) := by
  obtain ⟨-, -, hwa, hwb, -, -⟩ := idx_facts15 t
  unfold iblk15
  rw [View.read_apply]
  show V c (Pipeline.arrRef spec15 1) _ = V c (Pipeline.arrRef spec15 1) _
  congr 1
  funext a
  apply Fin.ext
  match a with
  | ⟨0, _⟩ => show win15_1.index t (0 : Fin 2) * 128 + 1 * k.val = k.val; rw [hwa]; omega
  | ⟨1, _⟩ => show win15_1.index t (1 : Fin 2) * 128 + 1 * q.val = q.val; rw [hwb]; omega

abbrev prod15 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec15 0)) (V c (Pipeline.arrRef spec15 1))

theorem flushed15_2_eq (c : Dev nD) (t : Fin cfg15.N) :
    (dat15 (F := Ideal) V c).flushed 2 t = ((cfg15.win 2).blk t).view.read (Elt Ideal) (prod15 V c) := by
  show (cfg15.win 2).cut (grid15.coords t) ((dat15 (F := Ideal) V c).after 2 t) = _
  rw [after15_2]
  unfold out15_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid15.N = 10 := N_15
  have ht : t.val < grid15.N := t.isLt
  obtain ⟨-, -, -, -, hya, hyb⟩ := idx_facts15 t
  have hr : 5000 * t.val + (j 0).val < 50000 := by omega
  have ex : (cfg15.win 2).xinj (grid15.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg15.win 2).blk t).view.emb j = ix2 (⟨5000 * t.val + (j 0).val, hr⟩ : Fin 50000) (⟨(j 1).val, hj1⟩ : Fin 128) := by
    funext a
    apply Fin.ext
    match a with
    | ⟨0, _⟩ => show win15_2.index t (0 : Fin 2) * 5000 + 1 * (j 0).val = 5000 * t.val + (j 0).val; rw [hya]; omega
    | ⟨1, _⟩ => show win15_2.index t (1 : Fin 2) * 128 + 1 * (j 1).val = (j 1).val; rw [hyb]; omega
  refine (congrArg (k15_pay1 (F := Ideal) (iblk15 V c 0 t) (iblk15 V c 1 t)) ex).trans ?_
  refine Eq.trans ?_ (congrArg (prod15 V c) ee).symm
  exact block_eq (k15_pay1 (F := Ideal)) payS_apply (V c (Pipeline.arrRef spec15 0)) (V c (Pipeline.arrRef spec15 1)) (iblk15 V c 0 t) (iblk15 V c 1 t) t.val
    ⟨(j 0).val, hj0⟩ ⟨(j 1).val, hj1⟩ hr (fun k => iblk15_0_apply V c t ⟨(j 0).val, hj0⟩ k hr)
    (fun k => iblk15_1_apply V c t k ⟨(j 1).val, hj1⟩)

theorem rows_cover15_2 (i : Cert.ReferenceIdeal.S50000x128.Idx) :
    ∃ t : Fin cfg15.N, (cfg15.win 2).flush t = true ∧ i ∈ ((cfg15.win 2).blk t).view.set := by
  have hi0 : (i 0).val < 50000 := (i 0).isLt
  have hi1 : (i 1).val < 128 := (i 1).isLt
  have hN : grid15.N = 10 := N_15
  obtain ⟨t, ht⟩ : ∃ t : Fin cfg15.N, t.val = (i 0).val / 5000 :=
    ⟨⟨(i 0).val / 5000, by show (i 0).val / 5000 < grid15.N; omega⟩, rfl⟩
  obtain ⟨-, -, -, -, hya, hyb⟩ := idx_facts15 t
  refine ⟨t, flush15_2 t, ?_⟩
  show i ∈ ((View.whole (Pipeline.arrRef spec15 2)).slice (win15_2.rect t)).set
  rw [View.set_slice_whole, Rect.mem_set_unit]
  intro a
  match a with
  | ⟨0, _⟩ =>
    show win15_2.index t (0 : Fin 2) * 5000 ≤ (i 0).val ∧ (i 0).val < win15_2.index t (0 : Fin 2) * 5000 + 5000
    rw [hya, ht]; omega
  | ⟨1, _⟩ =>
    show win15_2.index t (1 : Fin 2) * 128 ≤ (i 1).val ∧ (i 1).val < win15_2.index t (1 : Fin 2) * 128 + 128
    rw [hyb]; omega

theorem val15 (V : (c : Dev nD) → (b : Ref sig .tc) → Buf (Elt Ideal) ((c : Thread nD τ).loc b)) (c : Dev nD) :
    (dat15 (F := Ideal) V c).arrAt 2 cfg15.N
      = Host.dotGeneral (F := Ideal) (φ₁ := .f32) (φ₂ := .f32) Cert.ReferenceIdeal.dot_S50000x128_S128x128_S50000x128_1_0_0_1_n_n none
          (V c (Pipeline.arrRef spec15 0)) (V c (Pipeline.arrRef spec15 1)) :=
  (dat15 (F := Ideal) V c).arrAt_eq_of_cover 2 (prod15 V c) (fun t _ => flushed15_2_eq V c t) rows_cover15_2
end Cert.KernelIdeal.Rg

end
-- ==== Proof.KI.Val16.lean ====
/- Region 16 leaves in its result array its first input array scaled, row by row, by its coefficient column: point t writes rows 5000·t … of that product, and the blocks cover every row. -/
import proofs.«160853_j19842748908317_1_alg».proof.Proof.KI.Reg16
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

theorem iblk16_0_at (c : Dev nD) (t : Fin cfg16.N) (p : Fin 5000) (q : Fin 128) (k : S850000x128.Idx)
    (hrow : (k 0).val = 5000 * t.val + p.val) (hlane : (k 1).val = q.val) :
    (iblk16 V c 0 t : Vec F S5000x128 .f32) (ix2 p q) = (V c (Pipeline.arrRef spec16 0) : S850000x128.Idx → Elt F .f32) k := by
  obtain ⟨er, el, -⟩ := idx_facts16 t
  unfold iblk16
  rw [View.read_apply]
  refine congrArg (V c (Pipeline.arrRef spec16 0)) (funext fun a => Fin.ext ?_)
  match a with
  | ⟨0, _⟩ => show win16_0.index t (0 : Fin 2) * 5000 + 1 * p.val = (k 0).val; rw [er, hrow]; omega
  | ⟨1, _⟩ => show win16_0.index t (1 : Fin 2) * 128 + 1 * q.val = (k 1).val; rw [el, hlane]; omega

theorem iblk16_1_at (c : Dev nD) (t : Fin cfg16.N) (p : Fin 5000) (k : S850000x1.Idx)
    (hrow : (k 0).val = 5000 * t.val + p.val) :
    (iblk16 V c 1 t : Vec F S5000x1 .f32) (ix2 p (0 : Fin 1)) = (V c (Pipeline.arrRef spec16 1) : S850000x1.Idx → Elt F .f32) k := by
  obtain ⟨-, -, er, el, -⟩ := idx_facts16 t
  have hcol : (k 1).val < 1 := (k 1).isLt
  unfold iblk16
  rw [View.read_apply]
  refine congrArg (V c (Pipeline.arrRef spec16 1)) (funext fun a => Fin.ext ?_)
  match a with
  | ⟨0, _⟩ => show win16_1.index t (0 : Fin 2) * 5000 + 1 * p.val = (k 0).val; rw [er, hrow]; omega
  | ⟨1, _⟩ => show win16_1.index t (1 : Fin 2) * 1 + 1 * 0 = (k 1).val; rw [el]; omega

theorem flushed16_2_eq [Cert.ReferenceIdeal.Facts₀] (c : Dev nD) (t : Fin cfg16.N) :
    (dat16 V c).flushed 2 t = ((cfg16.win 2).blk t).view.read (Elt F)
      (mulf (φ := .f32) (V c (Pipeline.arrRef spec16 0))
        (broadcastInDim Cert.ReferenceIdeal.S850000x128 ![0, 1] Cert.ReferenceIdeal.Facts₀.bcast_S850000x1_S850000x128_0_1 (V c (Pipeline.arrRef spec16 1)))) := by
  show (cfg16.win 2).cut (grid16.coords t) ((dat16 V c).after 2 t) = _
  rw [after16_2]
  funext j
  obtain ⟨p, q, rfl⟩ : ∃ (p : Fin 5000) (q : Fin 128), j = ix2 p q := ⟨j 0, j 1, eq_ix2 j⟩
  obtain ⟨-, -, -, -, er, el⟩ := idx_facts16 t
  have hp : p.val < 5000 := p.isLt
  have ht : t.val < 170 := by have h := t.isLt; have hN : cfg16.N = 170 := N_16; omega
  have hr : 5000 * t.val + p.val < 850000 := by omega
  have hrow : ((((cfg16.win 2).blk t).view.emb (ix2 p q) : S850000x128.Idx) 0).val = 5000 * t.val + p.val := by
    show win16_2.index t (0 : Fin 2) * 5000 + 1 * p.val = _
    rw [er]; omega
  have hlane : ((((cfg16.win 2).blk t).view.emb (ix2 p q) : S850000x128.Idx) 1).val = q.val := by
    show win16_2.index t (1 : Fin 2) * 128 + 1 * q.val = _
    rw [el]; omega
  rw [View.read_apply]
  refine (outScale_at (iblk16 V c 0 t) (iblk16 V c 1 t) p q _ rfl rfl).trans ?_
  exact (congrArg₂ FloatOps.mulf (iblk16_0_at V c t p q _ hrow hlane)
      (iblk16_1_at V c t p (ix2 (⟨5000 * t.val + p.val, hr⟩ : Fin 850000) (0 : Fin 1)) rfl)).trans
    (scaled_at _ _ ⟨5000 * t.val + p.val, hr⟩ q _ hrow hlane).symm

theorem mem_blk16_2 (t : Fin cfg16.N) (i : S850000x128.Idx) :
    i ∈ ((cfg16.win 2).blk t).view.set ↔ ∀ a : Fin 2, win16_2.index t a * S5000x128.size a ≤ (i a).val ∧ (i a).val < win16_2.index t a * S5000x128.size a + S5000x128.size a := by
  show i ∈ ((View.whole (Pipeline.arrRef spec16 2)).slice (win16_2.rect t)).set ↔ _
  rw [View.set_slice_whole, Rect.mem_set_unit]
  exact Iff.rfl

theorem rows_cover16_2 (i : S850000x128.Idx) :
    ∃ t : Fin cfg16.N, (cfg16.win 2).flush t = true ∧ i ∈ ((cfg16.win 2).blk t).view.set := by
  have hrow : (i 0).val < 850000 := (i 0).isLt
  have hlane : (i 1).val < 128 := (i 1).isLt
  have hN : cfg16.N = 170 := N_16
  have ht : (i 0).val / 5000 < cfg16.N := by omega
  obtain ⟨-, -, -, -, er, el⟩ := idx_facts16 ⟨(i 0).val / 5000, ht⟩
  refine ⟨⟨(i 0).val / 5000, ht⟩, flush16_2 _, ?_⟩
  rw [mem_blk16_2]
  intro a
  match a with
  | ⟨0, _⟩ =>
    show win16_2.index ⟨(i 0).val / 5000, ht⟩ (0 : Fin 2) * 5000 ≤ (i 0).val ∧ (i 0).val < win16_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win16_2.index ⟨(i 0).val / 5000, ht⟩ (1 : Fin 2) * 128 ≤ (i 1).val ∧ (i 1).val < win16_2.index ⟨(i 0).val / 5000, ht⟩ (1 : Fin 2) * 128 + 128
    rw [el]; omega

theorem arr16_2_eq [Cert.ReferenceIdeal.Facts₀] (c : Dev nD) :
    (dat16 V c).arrAt 2 cfg16.N
      = mulf (φ := .f32) (V c (Pipeline.arrRef spec16 0))
          (broadcastInDim Cert.ReferenceIdeal.S850000x128 ![0, 1] Cert.ReferenceIdeal.Facts₀.bcast_S850000x1_S850000x128_0_1 (V c (Pipeline.arrRef spec16 1))) :=
  (dat16 V c).arrAt_eq_of_cover 2 _ (fun t _ => flushed16_2_eq V c t) rows_cover16_2

end Cert.KernelIdeal.Rg

end
-- ==== Proof.KI.Val17.lean ====
/- Region 17 leaves in its result array the rectifier, with bias and slope rows, of its first input array: point t writes rows 5000·t … of it, and the ten blocks cover the rows. -/
import proofs.«160853_j19842748908317_1_alg».proof.Proof.KI.Reg17
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

set_option maxHeartbeats 2000000 in
theorem flushed17_3_eq (c : Dev nD) (t : Fin cfg17.N) :
    (dat17 V c).flushed 3 t = ((cfg17.win 3).blk t).view.read (Elt F)
      (act (V c (Pipeline.arrRef spec17 0)) (V c (Pipeline.arrRef spec17 1)) (V c (Pipeline.arrRef spec17 2))) := by
  show (cfg17.win 3).cut (grid17.coords t) ((dat17 V c).after 3 t) = _
  rw [after17_3]
  unfold out17_3
  rw [View.canon_unit_zero hz]
  simp only [View.ld_unit_zero (S := S5000x128) hz, View.ld_unit_zero (S := S1x128) hz]
  obtain ⟨e00, e01, e10, e11, e20, e21, e30, e31⟩ := idx_facts17 t
  have hN : grid17.N = 10 := N_17
  have htN : t.val < grid17.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k17_pay1 (iblk17 V c 0 t) (iblk17 V c 1 t) (iblk17 V c 2 t) (ix2 p q)
    = act (V c (Pipeline.arrRef spec17 0)) (V c (Pipeline.arrRef spec17 1)) (V c (Pipeline.arrRef spec17 2))
        (((cfg17.win 3).blk t).view.emb (ix2 p q))
  have hemb : ((cfg17.win 3).blk t).view.emb (ix2 p q) = ix2 (⟨t.val * 5000 + p.val, hr⟩ : Fin 50000) q := by
    funext a; apply Fin.ext
    match a with
    | ⟨0, _⟩ => show win17_3.index t (0 : Fin 2) * 5000 + 1 * p.val = t.val * 5000 + p.val; rw [e30]; omega
    | ⟨1, _⟩ => show win17_3.index t (1 : Fin 2) * 128 + 1 * q.val = q.val; rw [e31]; omega
  rw [hemb]
  refine payAct_eq_act_at (iblk17 V c 0 t) (iblk17 V c 1 t) (iblk17 V c 2 t)
    (V c (Pipeline.arrRef spec17 0)) (V c (Pipeline.arrRef spec17 1)) (V c (Pipeline.arrRef spec17 2)) p q ⟨t.val * 5000 + p.val, hr⟩ ?_ ?_ ?_
  · show V c (Pipeline.arrRef spec17 0) (((cfg17.win 0).blk t).view.emb (ix2 p q)) = _
    refine congrArg _ (funext fun a => Fin.ext ?_)
    match a with
    | ⟨0, _⟩ => show win17_0.index t (0 : Fin 2) * 5000 + 1 * p.val = t.val * 5000 + p.val; rw [e00]; omega
    | ⟨1, _⟩ => show win17_0.index t (1 : Fin 2) * 128 + 1 * q.val = q.val; rw [e01]; omega
  · show V c (Pipeline.arrRef spec17 1) (((cfg17.win 1).blk t).view.emb (ix2 (0 : Fin 1) q)) = _
    refine congrArg _ (funext fun a => Fin.ext ?_)
    match a with
    | ⟨0, _⟩ => show win17_1.index t (0 : Fin 2) * 1 + 1 * 0 = 0; rw [e10]
    | ⟨1, _⟩ => show win17_1.index t (1 : Fin 2) * 128 + 1 * q.val = q.val; rw [e11]; omega
  · show V c (Pipeline.arrRef spec17 2) (((cfg17.win 2).blk t).view.emb (ix2 (0 : Fin 1) q)) = _
    refine congrArg _ (funext fun a => Fin.ext ?_)
    match a with
    | ⟨0, _⟩ => show win17_2.index t (0 : Fin 2) * 1 + 1 * 0 = 0; rw [e20]
    | ⟨1, _⟩ => show win17_2.index t (1 : Fin 2) * 128 + 1 * q.val = q.val; rw [e21]; omega

theorem mem_blk17_3 (t : Fin cfg17.N) (i : S50000x128.Idx) :
    i ∈ ((cfg17.win 3).blk t).view.set ↔ ∀ a : Fin 2, win17_3.index t a * S5000x128.size a ≤ (i a).val
      ∧ (i a).val < win17_3.index t a * S5000x128.size a + S5000x128.size a := by
  show i ∈ ((View.whole (Pipeline.arrRef spec17 3)).slice (win17_3.rect t)).set ↔ _
  rw [View.set_slice_whole, Rect.mem_set_unit]
  exact Iff.rfl

theorem covered17_3 (i : S50000x128.Idx) :
    ∃ t : Fin cfg17.N, (cfg17.win 3).flush t = true ∧ i ∈ ((cfg17.win 3).blk t).view.set := by
  have hi0 : (i 0).val < 50000 := idx2_lt0 i
  have hi1 : (i 1).val < 128 := idx2_lt1 i
  have hN : grid17.N = 10 := N_17
  obtain ⟨t, ht⟩ : ∃ t : Fin cfg17.N, t.val = (i 0).val / 5000 :=
    ⟨⟨(i 0).val / 5000, by show (i 0).val / 5000 < grid17.N; omega⟩, rfl⟩
  obtain ⟨-, -, -, -, -, -, e30, e31⟩ := idx_facts17 t
  refine ⟨t, flush17_3 t, ?_⟩
  rw [mem_blk17_3]
  intro a
  match a with
  | ⟨0, _⟩ =>
    show win17_3.index t (0 : Fin 2) * 5000 ≤ (i 0).val ∧ (i 0).val < win17_3.index t (0 : Fin 2) * 5000 + 5000
    rw [e30, ht]; omega
  | ⟨1, _⟩ =>
    show win17_3.index t (1 : Fin 2) * 128 ≤ (i 1).val ∧ (i 1).val < win17_3.index t (1 : Fin 2) * 128 + 128
    rw [e31]; omega

theorem val17 (c : Dev nD) :
    (dat17 V c).arrAt 3 cfg17.N
      = select (cmpf .ogt (addf (V c (Pipeline.arrRef spec17 0))
              (broadcastInDim Cert.ReferenceIdeal.S50000x128 ![0, 1] Cert.ReferenceIdeal.Facts₀.bcast_S1x128_S50000x128_0_1 (V c (Pipeline.arrRef spec17 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec17 0))
            (broadcastInDim Cert.ReferenceIdeal.S50000x128 ![0, 1] Cert.ReferenceIdeal.Facts₀.bcast_S1x128_S50000x128_0_1 (V c (Pipeline.arrRef spec17 1))))
          (mulf (broadcastInDim Cert.ReferenceIdeal.S50000x128 ![0, 1] Cert.ReferenceIdeal.Facts₀.bcast_S1x128_S50000x128_0_1 (V c (Pipeline.arrRef spec17 2)))
            (addf (V c (Pipeline.arrRef spec17 0))
              (broadcastInDim Cert.ReferenceIdeal.S50000x128 ![0, 1] Cert.ReferenceIdeal.Facts₀.bcast_S1x128_S50000x128_0_1 (V c (Pipeline.arrRef spec17 1))))) :=
  (dat17 V c).arrAt_eq_of_cover 3
    (act (V c (Pipeline.arrRef spec17 0)) (V c (Pipeline.arrRef spec17 1)) (V c (Pipeline.arrRef spec17 2)))
    (fun t _ => flushed17_3_eq V c t) (fun i => covered17_3 i)

end Cert.KernelIdeal.Rg

end
-- ==== Proof.KI.ChainB2.lean ====
/- Scale 0, second layer, from its inputs as given at its entry: after each item, each buffer holds the reference's stage. -/
import proofs.«160853_j19842748908317_1_alg».proof.Proof.KI.PData
import proofs.«160853_j19842748908317_1_alg».proof.Proof.KI.Val15
import proofs.«160853_j19842748908317_1_alg».proof.Proof.KI.Val16
import proofs.«160853_j19842748908317_1_alg».proof.Proof.KI.Val17
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k13_v1_V9 (h1 : V38 m outs c main_v189 = val_main_v217 (F := F) (m ((c : Thread nD τ).loc main_arg1))) :
    V39 m outs c main_v189 = val_main_v217 (F := F) (m ((c : Thread nD τ).loc main_arg1)) :=
  (V39_of m outs c main_v189 (by decide)).trans (h1)
theorem k13_v3_V9 (h3 : V38 m outs c main_v191 = val_main_v219 (F := F) (m ((c : Thread nD τ).loc main_arg1))) :
    V39 m outs c main_v191 = val_main_v219 (F := F) (m ((c : Thread nD τ).loc main_arg1)) :=
  (V39_of m outs c main_v191 (by decide)).trans (h3)
theorem k13_v5_V9 (h5 : V38 m outs c main_v193 = val_main_v221 (F := F) (m ((c : Thread nD τ).loc main_arg2))) :
    V39 m outs c main_v193 = val_main_v221 (F := F) (m ((c : Thread nD τ).loc main_arg2)) :=
  (V39_of m outs c main_v193 (by decide)).trans (h5)

theorem k13_arg6_V13 (ha6 : V38 m outs c main_arg6 = (m ((c : Thread nD τ).loc main_arg6))) : V43 m outs c main_arg6 = (m ((c : Thread nD τ).loc main_arg6)) :=
  (V43_of m outs c main_arg6 (by decide)).trans ((V42_of m outs c main_arg6 (by decide)).trans ((V41_of m outs c main_arg6 (by decide)).trans ((V40_of m outs c main_arg6 (by decide)).trans ((V39_of m outs c main_arg6 (by decide)).trans (ha6)))))
theorem k13_arg7_V13 (ha7 : V38 m outs c main_arg7 = (m ((c : Thread nD τ).loc main_arg7))) : V43 m outs c main_arg7 = (m ((c : Thread nD τ).loc main_arg7)) :=
  (V43_of m outs c main_arg7 (by decide)).trans ((V42_of m outs c main_arg7 (by decide)).trans ((V41_of m outs c main_arg7 (by decide)).trans ((V40_of m outs c main_arg7 (by decide)).trans ((V39_of m outs c main_arg7 (by decide)).trans (ha7)))))

theorem k13_v52 (h1 : V38 m outs c main_v189 = val_main_v217 (F := F) (m ((c : Thread nD τ).loc main_arg1))) :
    V40 m outs c main_v240 = val_main_v275 (F := F) (m ((c : Thread nD τ).loc main_arg1)) := by
  have e1 := k13_v1_V9 m outs c h1
  show StableHlo.after hostOps16 (V39 m outs c) main_v240 = _
  generalize V39 m outs c = W at e1 ⊢
  after_results
  rw [e1]
  rfl

theorem k13_v53 (h3 : V38 m outs c main_v191 = val_main_v219 (F := F) (m ((c : Thread nD τ).loc main_arg1))) :
    V40 m outs c main_v241 = val_main_v276 (F := F) (m ((c : Thread nD τ).loc main_arg1)) := by
  have e3 := k13_v3_V9 m outs c h3
  show StableHlo.after hostOps16 (V39 m outs c) main_v241 = _
  generalize V39 m outs c = W at e3 ⊢
  after_results
  rw [e3]
  rfl

theorem k13_v55 (h5 : V38 m outs c main_v193 = val_main_v221 (F := F) (m ((c : Thread nD τ).loc main_arg2))) :
    V40 m outs c main_v243 = val_main_v278 (F := F) (m ((c : Thread nD τ).loc main_arg2)) := by
  have e5 := k13_v5_V9 m outs c h5
  show StableHlo.after hostOps16 (V39 m outs c) main_v243 = _
  generalize V39 m outs c = W at e5 ⊢
  after_results
  rw [e5]
  rfl

theorem k13_v60 (h3 : V38 m outs c main_v191 = val_main_v219 (F := F) (m ((c : Thread nD τ).loc main_arg1))) (h5 : V38 m outs c main_v193 = val_main_v221 (F := F) (m ((c : Thread nD τ).loc main_arg2))) :
    V40 m outs c main_v248 = val_main_v283 (F := F) (m ((c : Thread nD τ).loc main_arg1)) (m ((c : Thread nD τ).loc main_arg2)) := by
  have e3 := k13_v3_V9 m outs c h3
  have e5 := k13_v5_V9 m outs c h5
  show StableHlo.after hostOps16 (V39 m outs c) main_v248 = _
  generalize V39 m outs c = W at e3 e5 ⊢
  after_results
  rw [e3, e5]
  rfl

theorem k13_v61 (h3 : V38 m outs c main_v191 = val_main_v219 (F := F) (m ((c : Thread nD τ).loc main_arg1))) (h5 : V38 m outs c main_v193 = val_main_v221 (F := F) (m ((c : Thread nD τ).loc main_arg2))) :
    V40 m outs c main_v249 = val_main_v284 (F := F) (m ((c : Thread nD τ).loc main_arg1)) (m ((c : Thread nD τ).loc main_arg2)) := by
  have e3 := k13_v3_V9 m outs c h3
  have e5 := k13_v5_V9 m outs c h5
  show StableHlo.after hostOps16 (V39 m outs c) main_v249 = _
  generalize V39 m outs c = W at e3 e5 ⊢
  after_results
  rw [e3, e5]
  rfl

theorem k13_cst_12 : V40 m outs c main_cst_56 = val_main_cst_61 (F := F) := by
  show StableHlo.after hostOps16 (V39 m outs c) main_cst_56 = _
  generalize V39 m outs c = W
  after_results
  rfl

theorem k13_v62 (h3 : V38 m outs c main_v191 = val_main_v219 (F := F) (m ((c : Thread nD τ).loc main_arg1))) (h5 : V38 m outs c main_v193 = val_main_v221 (F := F) (m ((c : Thread nD τ).loc main_arg2))) :
    V41 m outs c main_v250 = val_main_v285 (F := F) (m ((c : Thread nD τ).loc main_arg1)) (m ((c : Thread nD τ).loc main_arg2)) := by
  have h60 := k13_v60 m outs c h3 h5
  have h61 := k13_v61 m outs c h3 h5
  have hc12 := k13_cst_12 m outs c
  show StableHlo.after hostOps16_1 (V40 m outs c) main_v250 = _
  generalize V40 m outs c = W at h60 h61 hc12 ⊢
  after_results
  rw [h60, h61, hc12]
  simp only [TRef.ofBuf, TRef.toBuf, cast_eq]
  rfl

theorem k13_v52_V11 (h1 : V38 m outs c main_v189 = val_main_v217 (F := F) (m ((c : Thread nD τ).loc main_arg1))) :
    V41 m outs c main_v240 = val_main_v275 (F := F) (m ((c : Thread nD τ).loc main_arg1)) := (V41_of m outs c main_v240 (by decide)).trans (k13_v52 m outs c h1)
theorem k13_v53_V11 (h3 : V38 m outs c main_v191 = val_main_v219 (F := F) (m ((c : Thread nD τ).loc main_arg1))) :
    V41 m outs c main_v241 = val_main_v276 (F := F) (m ((c : Thread nD τ).loc main_arg1)) := (V41_of m outs c main_v241 (by decide)).trans (k13_v53 m outs c h3)
theorem k13_v55_V11 (h5 : V38 m outs c main_v193 = val_main_v221 (F := F) (m ((c : Thread nD τ).loc main_arg2))) :
    V41 m outs c main_v243 = val_main_v278 (F := F) (m ((c : Thread nD τ).loc main_arg2)) := (V41_of m outs c main_v243 (by decide)).trans (k13_v55 m outs c h5)

theorem k13_v50_V11 (h50 : V39 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V41 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (V41_of m outs c main_v238 (by decide)).trans ((V40_of m outs c main_v238 (by decide)).trans h50)

theorem k13_v79 (h1 : V38 m outs c main_v189 = val_main_v217 (F := F) (m ((c : Thread nD τ).loc main_arg1))) (h3 : V38 m outs c main_v191 = val_main_v219 (F := F) (m ((c : Thread nD τ).loc main_arg1))) (h5 : V38 m outs c main_v193 = val_main_v221 (F := F) (m ((c : Thread nD τ).loc main_arg2))) :
    V42 m outs c main_v267 = val_main_v309 (F := F) (m ((c : Thread nD τ).loc main_arg1)) (m ((c : Thread nD τ).loc main_arg2)) := by
  have h52 := k13_v52_V11 m outs c h1
  have h53 := k13_v53_V11 m outs c h3
  have h55 := k13_v55_V11 m outs c h5
  have h62 := k13_v62 m outs c h3 h5
  have e : shapeCast S850000x1 (val_main_v301 (F := F) (m ((c : Thread nD τ).loc main_arg1)) (m ((c : Thread nD τ).loc main_arg2))) shapeCasts_S850000_S850000x1 = val_main_v309 (F := F) (m ((c : Thread nD τ).loc main_arg1)) (m ((c : Thread nD τ).loc main_arg2)) :=
    (col_reshape_eq_bcast (F := F) (val_main_v301 (F := F) (m ((c : Thread nD τ).loc main_arg1)) (m ((c : Thread nD τ).loc main_arg2)))).trans rfl
  show StableHlo.after hostOps16_2 (V41 m outs c) main_v267 = _
  generalize V41 m outs c = W at h52 h53 h55 h62 ⊢
  after_results_simp
  rw [h52, h53, h55, h62]
  exact Eq.trans rfl e

theorem k13_v86 (h1 : V38 m outs c main_v189 = val_main_v217 (F := F) (m ((c : Thread nD τ).loc main_arg1))) (h50 : V39 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V42 m outs c main_v274 = val_main_v308 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h52 := k13_v52_V11 m outs c h1
  have h50' := k13_v50_V11 m outs c h50
  show StableHlo.after hostOps16_2 (V41 m outs c) main_v274 = _
  generalize V41 m outs c = W at h52 h50' ⊢
  after_results_simp
  rw [h52, h50']
  rfl

theorem k13_v87 (ho4 : outs 43 main_v275 c = (dat16 (vt (V42 m outs)) c).arrAt 2 cfg16.N) (h1 : V38 m outs c main_v189 = val_main_v217 (F := F) (m ((c : Thread nD τ).loc main_arg1))) (h3 : V38 m outs c main_v191 = val_main_v219 (F := F) (m ((c : Thread nD τ).loc main_arg1))) (h5 : V38 m outs c main_v193 = val_main_v221 (F := F) (m ((c : Thread nD τ).loc main_arg2))) (h50 : V39 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V43 m outs c main_v275 = val_main_v311 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h86 : vt (V42 m outs) c (Pipeline.arrRef spec16 0) = val_main_v308 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k13_v86 m outs c h1 h50
  have h79 : vt (V42 m outs) c (Pipeline.arrRef spec16 1) = val_main_v309 (F := F) (m ((c : Thread nD τ).loc main_arg1)) (m ((c : Thread nD τ).loc main_arg2)) := k13_v79 m outs c h1 h3 h5
  show Function.update (V42 m outs c) main_v275 (outs 43 main_v275 c) main_v275 = _
  rw [Function.update_self, ho4, arr16_2_eq, h86, h79]
  rfl

theorem k13_v53_V13 (h3 : V38 m outs c main_v191 = val_main_v219 (F := F) (m ((c : Thread nD τ).loc main_arg1))) :
    V43 m outs c main_v241 = val_main_v276 (F := F) (m ((c : Thread nD τ).loc main_arg1)) :=
  (V43_of m outs c main_v241 (by decide)).trans ((V42_of m outs c main_v241 (by decide)).trans (k13_v53_V11 m outs c h3))

theorem k13_v91 (ha6 : V38 m outs c main_arg6 = (m ((c : Thread nD τ).loc main_arg6))) : V44 m outs c main_v279 = val_main_v315 (F := F) (m ((c : Thread nD τ).loc main_arg6)) := by
  have h6 := k13_arg6_V13 m outs c ha6
  have e : shapeCast S1x128 (m ((c : Thread nD τ).loc main_arg6)) shapeCasts_S128_S1x128 = val_main_v315 (F := F) (m ((c : Thread nD τ).loc main_arg6)) :=
    (row_reshape_eq_bcast (F := F) (m ((c : Thread nD τ).loc main_arg6))).trans rfl
  show StableHlo.after hostOps17 (V43 m outs c) main_v279 = _
  generalize V43 m outs c = W at h6 ⊢
  after_results
  rw [h6]
  exact Eq.trans rfl e

theorem k13_v92 (ha7 : V38 m outs c main_arg7 = (m ((c : Thread nD τ).loc main_arg7))) : V44 m outs c main_v280 = val_main_v320 (F := F) (m ((c : Thread nD τ).loc main_arg7)) := by
  have h7 := k13_arg7_V13 m outs c ha7
  have e : shapeCast S1x128 (m ((c : Thread nD τ).loc main_arg7)) shapeCasts_S128_S1x128 = val_main_v320 (F := F) (m ((c : Thread nD τ).loc main_arg7)) :=
    (row_reshape_eq_bcast (F := F) (m ((c : Thread nD τ).loc main_arg7))).trans rfl
  show StableHlo.after hostOps17 (V43 m outs c) main_v280 = _
  generalize V43 m outs c = W at h7 ⊢
  after_results
  rw [h7]
  exact Eq.trans rfl e

theorem k13_v90 (ho4 : outs 43 main_v275 c = (dat16 (vt (V42 m outs)) c).arrAt 2 cfg16.N) (h1 : V38 m outs c main_v189 = val_main_v217 (F := F) (m ((c : Thread nD τ).loc main_arg1))) (h3 : V38 m outs c main_v191 = val_main_v219 (F := F) (m ((c : Thread nD τ).loc main_arg1))) (h5 : V38 m outs c main_v193 = val_main_v221 (F := F) (m ((c : Thread nD τ).loc main_arg2))) (h50 : V39 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V44 m outs c main_v278 = val_main_v314 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h53 := k13_v53_V13 m outs c h3
  have h87 := k13_v87 m outs c ho4 h1 h3 h5 h50
  show StableHlo.after hostOps17 (V43 m outs c) main_v278 = _
  generalize V43 m outs c = W at h53 h87 ⊢
  after_results
  rw [h53, h87]
  rfl

theorem k13_v93 (ho4 : outs 43 main_v275 c = (dat16 (vt (V42 m outs)) c).arrAt 2 cfg16.N) (ho5 : outs 45 main_v281 c = (dat17 (vt (V44 m outs)) c).arrAt 3 cfg17.N) (h1 : V38 m outs c main_v189 = val_main_v217 (F := F) (m ((c : Thread nD τ).loc main_arg1))) (h3 : V38 m outs c main_v191 = val_main_v219 (F := F) (m ((c : Thread nD τ).loc main_arg1))) (h5 : V38 m outs c main_v193 = val_main_v221 (F := F) (m ((c : Thread nD τ).loc main_arg2))) (ha6 : V38 m outs c main_arg6 = (m ((c : Thread nD τ).loc main_arg6))) (ha7 : V38 m outs c main_arg7 = (m ((c : Thread nD τ).loc main_arg7))) (h50 : V39 m outs c main_v238 = val_main_v273 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V45 m outs c main_v281 = val_main_v323 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h90 : vt (V44 m outs) c (Pipeline.arrRef spec17 0) = val_main_v314 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k13_v90 m outs c ho4 h1 h3 h5 h50
  have h91 : vt (V44 m outs) c (Pipeline.arrRef spec17 1) = val_main_v315 (F := F) (m ((c : Thread nD τ).loc main_arg6)) := k13_v91 m outs c ha6
  have h92 : vt (V44 m outs) c (Pipeline.arrRef spec17 2) = val_main_v320 (F := F) (m ((c : Thread nD τ).loc main_arg7)) := k13_v92 m outs c ha7
  show Function.update (V44 m outs c) main_v281 (outs 45 main_v281 c) main_v281 = _
  rw [Function.update_self, ho5, val17, h90, h91, h92]
  rfl

end Host

section AtIdeal
variable (m : (ℓ : Loc nD τ sig) → Buf (Elt Ideal) ℓ) (c : Dev nD)

theorem k13_v50
    (ha5 : V38 m (outsX m) c main_arg5 = (m ((c : Thread nD τ).loc main_arg5)))
    (h49 : V38 m (outsX m) c main_v237 = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V39 m (outsX m) c main_v238 = val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have e49 : vt (V38 m (outsX m)) c (Pipeline.arrRef spec15 0) = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := h49
  have e5 : vt (V38 m (outsX m)) c (Pipeline.arrRef spec15 1) = (m ((c : Thread nD τ).loc main_arg5)) := ha5
  show Function.update (V38 m (outsX m) c) main_v238 (outsX m 39 main_v238 c) main_v238 = _
  rw [Function.update_self, hout15, val15, e49, e5]
  rfl

theorem layer1s2_out
    (h1 : V38 m (outsX m) c main_v189 = val_main_v217 (F := Ideal) (m ((c : Thread nD τ).loc main_arg1)))
    (h3 : V38 m (outsX m) c main_v191 = val_main_v219 (F := Ideal) (m ((c : Thread nD τ).loc main_arg1)))
    (h5 : V38 m (outsX m) c main_v193 = val_main_v221 (F := Ideal) (m ((c : Thread nD τ).loc main_arg2)))
    (ha5 : V38 m (outsX m) c main_arg5 = (m ((c : Thread nD τ).loc main_arg5)))
    (ha6 : V38 m (outsX m) c main_arg6 = (m ((c : Thread nD τ).loc main_arg6)))
    (ha7 : V38 m (outsX m) c main_arg7 = (m ((c : Thread nD τ).loc main_arg7)))
    (h49 : V38 m (outsX m) c main_v237 = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V45 m (outsX m) c main_v281
      = val_main_v323 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  k13_v93 m (outsX m) c (hout16 m c) (hout17 m c) h1 h3 h5 ha6 ha7 (k13_v50 m c ha5 h49)

end AtIdeal

end Cert.KernelIdeal.Ch

end
-- ==== Proof.KI.Val21.lean ====
/- Region 21 leaves the product of its two input arrays in its result array: point t writes rows 5000·t … 5000·t + 4999 of that product, and the ten blocks cover the 50000 rows. -/
import proofs.«160853_j19842748908317_1_alg».proof.Proof.KI.Reg21
import proofs.«160853_j19842748908317_1_alg».proof.Proof.KI.ValDot

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem idx_facts21 : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0 :=
  (by decide +kernel : ∀ t : Fin grid21.N, _)

variable (V : (c : Dev nD) → (b : Ref sig .tc) → Buf (Elt Ideal) ((c : Thread nD τ).loc b))

theorem iblk21_0_apply (c : Dev nD) (t : Fin cfg21.N) (p : Fin 5000) (k : Fin 128) (hr : 5000 * t.val + p.val < 50000) :
    (iblk21 V c 0 t : Vec Ideal S5000x128 .f32) (ix2 p k)
      = (V c (Pipeline.arrRef spec21 0) : FVec Ideal Cert.ReferenceIdeal.S50000x128 .f32) (ix2 ⟨5000 * t.val + p.val, hr⟩ k) := by
  obtain ⟨hxa, hxb, -, -, -, -⟩ := idx_facts21 t
  unfold iblk21
  rw [View.read_apply]
  show V c (Pipeline.arrRef spec21 0) _ = V c (Pipeline.arrRef spec21 0) _
  congr 1
  funext a
  apply Fin.ext
  match a with
  | ⟨0, _⟩ => show win21_0.index t (0 : Fin 2) * 5000 + 1 * p.val = 5000 * t.val + p.val; rw [hxa]; omega
  | ⟨1, _⟩ => show win21_0.index t (1 : Fin 2) * 128 + 1 * k.val = k.val; rw [hxb]; omega

theorem iblk21_1_apply (c : Dev nD) (t : Fin cfg21.N) (k q : Fin 128) :
    (iblk21 V c 1 t : Vec Ideal S128x128 .f32) (ix2 k q)
      = (V c (Pipeline.arrRef spec21 1) : FVec Ideal Cert.ReferenceIdeal.S128x128 .f32) (ix2 k q) := by
  obtain ⟨-, -, hwa, hwb, -, -⟩ := idx_facts21 t
  unfold iblk21
  rw [View.read_apply]
  show V c (Pipeline.arrRef spec21 1) _ = V c (Pipeline.arrRef spec21 1) _
  congr 1
  funext a
  apply Fin.ext
  match a with
  | ⟨0, _⟩ => show win21_1.index t (0 : Fin 2) * 128 + 1 * k.val = k.val; rw [hwa]; omega
  | ⟨1, _⟩ => show win21_1.index t (1 : Fin 2) * 128 + 1 * q.val = q.val; rw [hwb]; omega

abbrev prod21 (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec21 0)) (V c (Pipeline.arrRef spec21 1))

theorem flushed21_2_eq (c : Dev nD) (t : Fin cfg21.N) :
    (dat21 (F := Ideal) V c).flushed 2 t = ((cfg21.win 2).blk t).view.read (Elt Ideal) (prod21 V c) := by
  show (cfg21.win 2).cut (grid21.coords t) ((dat21 (F := Ideal) V c).after 2 t) = _
  rw [after21_2]
  unfold out21_2
  rw [View.canon_unit_zero hz]
  simp only [View.ld_unit_zero (S := S5000x128) hz, View.ld_unit_zero (S := S128x128) hz]
  funext j
  have hj0 : (j 0).val < 5000 := (j 0).isLt
  have hj1 : (j 1).val < 128 := (j 1).isLt
  have hN : grid21.N = 10 := N_21
  have ht : t.val < grid21.N := t.isLt
  obtain ⟨-, -, -, -, hya, hyb⟩ := idx_facts21 t
  have hr : 5000 * t.val + (j 0).val < 50000 := by omega
  have ex : (cfg21.win 2).xinj (grid21.coords t) j = ix2 (⟨(j 0).val, hj0⟩ : Fin 5000) (⟨(j 1).val, hj1⟩ : Fin 128) :=
    funext fun a => Fin.ext (by match a with | ⟨0, _⟩ => rfl | ⟨1, _⟩ => rfl)
  have ee : ((cfg21.win 2).blk t).view.emb j = ix2 (⟨5000 * t.val + (j 0).val, hr⟩ : Fin 50000) (⟨(j 1).val, hj1⟩ : Fin 128) := by
    funext a
    apply Fin.ext
    match a with
    | ⟨0, _⟩ => show win21_2.index t (0 : Fin 2) * 5000 + 1 * (j 0).val = 5000 * t.val + (j 0).val; rw [hya]; omega
    | ⟨1, _⟩ => show win21_2.index t (1 : Fin 2) * 128 + 1 * (j 1).val = (j 1).val; rw [hyb]; omega
  refine (congrArg (k21_pay1 (F := Ideal) (iblk21 V c 0 t) (iblk21 V c 1 t)) ex).trans ?_
  refine Eq.trans ?_ (congrArg (prod21 V c) ee).symm
  exact block_eq (k21_pay1 (F := Ideal)) payS_apply (V c (Pipeline.arrRef spec21 0)) (V c (Pipeline.arrRef spec21 1)) (iblk21 V c 0 t) (iblk21 V c 1 t) t.val
    ⟨(j 0).val, hj0⟩ ⟨(j 1).val, hj1⟩ hr (fun k => iblk21_0_apply V c t ⟨(j 0).val, hj0⟩ k hr)
    (fun k => iblk21_1_apply V c t k ⟨(j 1).val, hj1⟩)

theorem rows_cover21_2 (i : Cert.ReferenceIdeal.S50000x128.Idx) :
    ∃ t : Fin cfg21.N, (cfg21.win 2).flush t = true ∧ i ∈ ((cfg21.win 2).blk t).view.set := by
  have hi0 : (i 0).val < 50000 := (i 0).isLt
  have hi1 : (i 1).val < 128 := (i 1).isLt
  have hN : grid21.N = 10 := N_21
  obtain ⟨t, ht⟩ : ∃ t : Fin cfg21.N, t.val = (i 0).val / 5000 :=
    ⟨⟨(i 0).val / 5000, by show (i 0).val / 5000 < grid21.N; omega⟩, rfl⟩
  obtain ⟨-, -, -, -, hya, hyb⟩ := idx_facts21 t
  refine ⟨t, flush21_2 t, ?_⟩
  show i ∈ ((View.whole (Pipeline.arrRef spec21 2)).slice (win21_2.rect t)).set
  rw [View.set_slice_whole, Rect.mem_set_unit]
  intro a
  match a with
  | ⟨0, _⟩ =>
    show win21_2.index t (0 : Fin 2) * 5000 ≤ (i 0).val ∧ (i 0).val < win21_2.index t (0 : Fin 2) * 5000 + 5000
    rw [hya, ht]; omega
  | ⟨1, _⟩ =>
    show win21_2.index t (1 : Fin 2) * 128 ≤ (i 1).val ∧ (i 1).val < win21_2.index t (1 : Fin 2) * 128 + 128
    rw [hyb]; omega

theorem val21 (V : (c : Dev nD) → (b : Ref sig .tc) → Buf (Elt Ideal) ((c : Thread nD τ).loc b)) (c : Dev nD) :
    (dat21 (F := Ideal) V c).arrAt 2 cfg21.N
      = Host.dotGeneral (F := Ideal) (φ₁ := .f32) (φ₂ := .f32) Cert.ReferenceIdeal.dot_S50000x128_S128x128_S50000x128_1_0_0_1_n_n none
          (V c (Pipeline.arrRef spec21 0)) (V c (Pipeline.arrRef spec21 1)) :=
  (dat21 (F := Ideal) V c).arrAt_eq_of_cover 2 (prod21 V c) (fun t _ => flushed21_2_eq V c t) rows_cover21_2
end Cert.KernelIdeal.Rg

end
-- ==== Proof.KI.Val22.lean ====
/- Region 22 leaves in its result array its first input array scaled, row by row, by its coefficient column: point t writes rows 5000·t … of that product, and the blocks cover every row. -/
import proofs.«160853_j19842748908317_1_alg».proof.Proof.KI.Reg22
import proofs.«160853_j19842748908317_1_alg».proof.Proof.KI.ValScale
import proofs.«160853_j19842748908317_1_alg».proof.ReferenceIdeal
import proofs.«160853_j19842748908317_1_alg».proof.Proof.KI.Lay
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1 eq_ix2)

variable {F : FTy → Type} [FloatOps F]

variable (V : (c : Dev nD) → (b : Ref sig .tc) → Buf (Elt F) ((c : Thread nD τ).loc b))

theorem idx_facts22 : ∀ t : Fin cfg22.N,
    win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0 :=
  (by decide +kernel : ∀ t : Fin grid22.N, _)

theorem iblk22_0_at (c : Dev nD) (t : Fin cfg22.N) (p : Fin 5000) (q : Fin 128) (k : S850000x128.Idx)
    (hrow : (k 0).val = 5000 * t.val + p.val) (hlane : (k 1).val = q.val) :
    (iblk22 V c 0 t : Vec F S5000x128 .f32) (ix2 p q) = (V c (Pipeline.arrRef spec22 0) : S850000x128.Idx → Elt F .f32) k := by
  obtain ⟨er, el, -⟩ := idx_facts22 t
  unfold iblk22
  rw [View.read_apply]
  refine congrArg (V c (Pipeline.arrRef spec22 0)) (funext fun a => Fin.ext ?_)
  match a with
  | ⟨0, _⟩ => show win22_0.index t (0 : Fin 2) * 5000 + 1 * p.val = (k 0).val; rw [er, hrow]; omega
  | ⟨1, _⟩ => show win22_0.index t (1 : Fin 2) * 128 + 1 * q.val = (k 1).val; rw [el, hlane]; omega

theorem iblk22_1_at (c : Dev nD) (t : Fin cfg22.N) (p : Fin 5000) (k : S850000x1.Idx)
    (hrow : (k 0).val = 5000 * t.val + p.val) :
    (iblk22 V c 1 t : Vec F S5000x1 .f32) (ix2 p (0 : Fin 1)) = (V c (Pipeline.arrRef spec22 1) : S850000x1.Idx → Elt F .f32) k := by
  obtain ⟨-, -, er, el, -⟩ := idx_facts22 t
  have hcol : (k 1).val < 1 := (k 1).isLt
  unfold iblk22
  rw [View.read_apply]
  refine congrArg (V c (Pipeline.arrRef spec22 1)) (funext fun a => Fin.ext ?_)
  match a with
  | ⟨0, _⟩ => show win22_1.index t (0 : Fin 2) * 5000 + 1 * p.val = (k 0).val; rw [er, hrow]; omega
  | ⟨1, _⟩ => show win22_1.index t (1 : Fin 2) * 1 + 1 * 0 = (k 1).val; rw [el]; omega

theorem flushed22_2_eq [Cert.ReferenceIdeal.Facts₀] (c : Dev nD) (t : Fin cfg22.N) :
    (dat22 V c).flushed 2 t = ((cfg22.win 2).blk t).view.read (Elt F)
      (mulf (φ := .f32) (V c (Pipeline.arrRef spec22 0))
        (broadcastInDim Cert.ReferenceIdeal.S850000x128 ![0, 1] Cert.ReferenceIdeal.Facts₀.bcast_S850000x1_S850000x128_0_1 (V c (Pipeline.arrRef spec22 1)))) := by
  show (cfg22.win 2).cut (grid22.coords t) ((dat22 V c).after 2 t) = _
  rw [after22_2]
  funext j
  obtain ⟨p, q, rfl⟩ : ∃ (p : Fin 5000) (q : Fin 128), j = ix2 p q := ⟨j 0, j 1, eq_ix2 j⟩
  obtain ⟨-, -, -, -, er, el⟩ := idx_facts22 t
  have hp : p.val < 5000 := p.isLt
  have ht : t.val < 170 := by have h := t.isLt; have hN : cfg22.N = 170 := N_22; omega
  have hr : 5000 * t.val + p.val < 850000 := by omega
  have hrow : ((((cfg22.win 2).blk t).view.emb (ix2 p q) : S850000x128.Idx) 0).val = 5000 * t.val + p.val := by
    show win22_2.index t (0 : Fin 2) * 5000 + 1 * p.val = _
    rw [er]; omega
  have hlane : ((((cfg22.win 2).blk t).view.emb (ix2 p q) : S850000x128.Idx) 1).val = q.val := by
    show win22_2.index t (1 : Fin 2) * 128 + 1 * q.val = _
    rw [el]; omega
  rw [View.read_apply]
  refine (outScale_at (iblk22 V c 0 t) (iblk22 V c 1 t) p q _ rfl rfl).trans ?_
  exact (congrArg₂ FloatOps.mulf (iblk22_0_at V c t p q _ hrow hlane)
      (iblk22_1_at V c t p (ix2 (⟨5000 * t.val + p.val, hr⟩ : Fin 850000) (0 : Fin 1)) rfl)).trans
    (scaled_at _ _ ⟨5000 * t.val + p.val, hr⟩ q _ hrow hlane).symm

theorem mem_blk22_2 (t : Fin cfg22.N) (i : S850000x128.Idx) :
    i ∈ ((cfg22.win 2).blk t).view.set ↔ ∀ a : Fin 2, win22_2.index t a * S5000x128.size a ≤ (i a).val ∧ (i a).val < win22_2.index t a * S5000x128.size a + S5000x128.size a := by
  show i ∈ ((View.whole (Pipeline.arrRef spec22 2)).slice (win22_2.rect t)).set ↔ _
  rw [View.set_slice_whole, Rect.mem_set_unit]
  exact Iff.rfl

theorem rows_cover22_2 (i : S850000x128.Idx) :
    ∃ t : Fin cfg22.N, (cfg22.win 2).flush t = true ∧ i ∈ ((cfg22.win 2).blk t).view.set := by
  have hrow : (i 0).val < 850000 := (i 0).isLt
  have hlane : (i 1).val < 128 := (i 1).isLt
  have hN : cfg22.N = 170 := N_22
  have ht : (i 0).val / 5000 < cfg22.N := by omega
  obtain ⟨-, -, -, -, er, el⟩ := idx_facts22 ⟨(i 0).val / 5000, ht⟩
  refine ⟨⟨(i 0).val / 5000, ht⟩, flush22_2 _, ?_⟩
  rw [mem_blk22_2]
  intro a
  match a with
  | ⟨0, _⟩ =>
    show win22_2.index ⟨(i 0).val / 5000, ht⟩ (0 : Fin 2) * 5000 ≤ (i 0).val ∧ (i 0).val < win22_2.index ⟨(i 0).val / 5000, ht⟩ (0 : Fin 2) * 5000 + 5000
    rw [er]; show (i 0).val / 5000 * 5000 ≤ (i 0).val ∧ (i 0).val < (i 0).val / 5000 * 5000 + 5000; omega
  | ⟨1, _⟩ =>
    show win22_2.index ⟨(i 0).val / 5000, ht⟩ (1 : Fin 2) * 128 ≤ (i 1).val ∧ (i 1).val < win22_2.index ⟨(i 0).val / 5000, ht⟩ (1 : Fin 2) * 128 + 128
    rw [el]; omega

theorem arr22_2_eq [Cert.ReferenceIdeal.Facts₀] (c : Dev nD) :
    (dat22 V c).arrAt 2 cfg22.N
      = mulf (φ := .f32) (V c (Pipeline.arrRef spec22 0))
          (broadcastInDim Cert.ReferenceIdeal.S850000x128 ![0, 1] Cert.ReferenceIdeal.Facts₀.bcast_S850000x1_S850000x128_0_1 (V c (Pipeline.arrRef spec22 1))) :=
  (dat22 V c).arrAt_eq_of_cover 2 _ (fun t _ => flushed22_2_eq V c t) rows_cover22_2

end Cert.KernelIdeal.Rg

end
-- ==== Proof.KI.Val23.lean ====
/- Region 23 leaves in its result array the rectifier, with bias and slope rows, of its first input array: point t writes rows 5000·t … of it, and the ten blocks cover the rows. -/
import proofs.«160853_j19842748908317_1_alg».proof.Proof.KI.Reg23
import proofs.«160853_j19842748908317_1_alg».proof.ReferenceIdeal
import proofs.«160853_j19842748908317_1_alg».proof.Proof.KI.Lay
import Idealize.ShloMosaic.Lib.Pipeline.Value
import Idealize.ShloMosaic.Lib.ValueIdx
import Idealize.ShloMosaic.Lib.ValueLayout
import proofs.«160853_j19842748908317_1_alg».proof.Proof.KI.ValAct

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable [Cert.ReferenceIdeal.Facts₀]

variable (V : (c : Dev nD) → (b : Ref sig .tc) → Buf (Elt F) ((c : Thread nD τ).loc b))

theorem idx_facts23 : ∀ t : Fin cfg23.N,
    win23_0.index t (0 : Fin 2) = t.val ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = t.val ∧ win23_3.index t (1 : Fin 2) = 0 :=
  (by decide +kernel : ∀ t : Fin grid23.N, _)

set_option maxHeartbeats 2000000 in
theorem flushed23_3_eq (c : Dev nD) (t : Fin cfg23.N) :
    (dat23 V c).flushed 3 t = ((cfg23.win 3).blk t).view.read (Elt F)
      (act (V c (Pipeline.arrRef spec23 0)) (V c (Pipeline.arrRef spec23 1)) (V c (Pipeline.arrRef spec23 2))) := by
  show (cfg23.win 3).cut (grid23.coords t) ((dat23 V c).after 3 t) = _
  rw [after23_3]
  unfold out23_3
  rw [View.canon_unit_zero hz]
  simp only [View.ld_unit_zero (S := S5000x128) hz, View.ld_unit_zero (S := S1x128) hz]
  obtain ⟨e00, e01, e10, e11, e20, e21, e30, e31⟩ := idx_facts23 t
  have hN : grid23.N = 10 := N_23
  have htN : t.val < grid23.N := t.isLt
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by omega
  show k23_pay1 (iblk23 V c 0 t) (iblk23 V c 1 t) (iblk23 V c 2 t) (ix2 p q)
    = act (V c (Pipeline.arrRef spec23 0)) (V c (Pipeline.arrRef spec23 1)) (V c (Pipeline.arrRef spec23 2))
        (((cfg23.win 3).blk t).view.emb (ix2 p q))
  have hemb : ((cfg23.win 3).blk t).view.emb (ix2 p q) = ix2 (⟨t.val * 5000 + p.val, hr⟩ : Fin 50000) q := by
    funext a; apply Fin.ext
    match a with
    | ⟨0, _⟩ => show win23_3.index t (0 : Fin 2) * 5000 + 1 * p.val = t.val * 5000 + p.val; rw [e30]; omega
    | ⟨1, _⟩ => show win23_3.index t (1 : Fin 2) * 128 + 1 * q.val = q.val; rw [e31]; omega
  rw [hemb]
  refine payAct_eq_act_at (iblk23 V c 0 t) (iblk23 V c 1 t) (iblk23 V c 2 t)
    (V c (Pipeline.arrRef spec23 0)) (V c (Pipeline.arrRef spec23 1)) (V c (Pipeline.arrRef spec23 2)) p q ⟨t.val * 5000 + p.val, hr⟩ ?_ ?_ ?_
  · show V c (Pipeline.arrRef spec23 0) (((cfg23.win 0).blk t).view.emb (ix2 p q)) = _
    refine congrArg _ (funext fun a => Fin.ext ?_)
    match a with
    | ⟨0, _⟩ => show win23_0.index t (0 : Fin 2) * 5000 + 1 * p.val = t.val * 5000 + p.val; rw [e00]; omega
    | ⟨1, _⟩ => show win23_0.index t (1 : Fin 2) * 128 + 1 * q.val = q.val; rw [e01]; omega
  · show V c (Pipeline.arrRef spec23 1) (((cfg23.win 1).blk t).view.emb (ix2 (0 : Fin 1) q)) = _
    refine congrArg _ (funext fun a => Fin.ext ?_)
    match a with
    | ⟨0, _⟩ => show win23_1.index t (0 : Fin 2) * 1 + 1 * 0 = 0; rw [e10]
    | ⟨1, _⟩ => show win23_1.index t (1 : Fin 2) * 128 + 1 * q.val = q.val; rw [e11]; omega
  · show V c (Pipeline.arrRef spec23 2) (((cfg23.win 2).blk t).view.emb (ix2 (0 : Fin 1) q)) = _
    refine congrArg _ (funext fun a => Fin.ext ?_)
    match a with
    | ⟨0, _⟩ => show win23_2.index t (0 : Fin 2) * 1 + 1 * 0 = 0; rw [e20]
    | ⟨1, _⟩ => show win23_2.index t (1 : Fin 2) * 128 + 1 * q.val = q.val; rw [e21]; omega

theorem mem_blk23_3 (t : Fin cfg23.N) (i : S50000x128.Idx) :
    i ∈ ((cfg23.win 3).blk t).view.set ↔ ∀ a : Fin 2, win23_3.index t a * S5000x128.size a ≤ (i a).val
      ∧ (i a).val < win23_3.index t a * S5000x128.size a + S5000x128.size a := by
  show i ∈ ((View.whole (Pipeline.arrRef spec23 3)).slice (win23_3.rect t)).set ↔ _
  rw [View.set_slice_whole, Rect.mem_set_unit]
  exact Iff.rfl

theorem covered23_3 (i : S50000x128.Idx) :
    ∃ t : Fin cfg23.N, (cfg23.win 3).flush t = true ∧ i ∈ ((cfg23.win 3).blk t).view.set := by
  have hi0 : (i 0).val < 50000 := idx2_lt0 i
  have hi1 : (i 1).val < 128 := idx2_lt1 i
  have hN : grid23.N = 10 := N_23
  obtain ⟨t, ht⟩ : ∃ t : Fin cfg23.N, t.val = (i 0).val / 5000 :=
    ⟨⟨(i 0).val / 5000, by show (i 0).val / 5000 < grid23.N; omega⟩, rfl⟩
  obtain ⟨-, -, -, -, -, -, e30, e31⟩ := idx_facts23 t
  refine ⟨t, flush23_3 t, ?_⟩
  rw [mem_blk23_3]
  intro a
  match a with
  | ⟨0, _⟩ =>
    show win23_3.index t (0 : Fin 2) * 5000 ≤ (i 0).val ∧ (i 0).val < win23_3.index t (0 : Fin 2) * 5000 + 5000
    rw [e30, ht]; omega
  | ⟨1, _⟩ =>
    show win23_3.index t (1 : Fin 2) * 128 ≤ (i 1).val ∧ (i 1).val < win23_3.index t (1 : Fin 2) * 128 + 128
    rw [e31]; omega

theorem val23 (c : Dev nD) :
    (dat23 V c).arrAt 3 cfg23.N
      = select (cmpf .ogt (addf (V c (Pipeline.arrRef spec23 0))
              (broadcastInDim Cert.ReferenceIdeal.S50000x128 ![0, 1] Cert.ReferenceIdeal.Facts₀.bcast_S1x128_S50000x128_0_1 (V c (Pipeline.arrRef spec23 1))))
            (broadcastInDim Cert.ReferenceIdeal.S50000x128 ![] Cert.ReferenceIdeal.Facts₀.bcast_S_S50000x128 (constant (F := F) Cert.ReferenceIdeal.S_ .f32 0x00000000#32)))
          (addf (V c (Pipeline.arrRef spec23 0))
            (broadcastInDim Cert.ReferenceIdeal.S50000x128 ![0, 1] Cert.ReferenceIdeal.Facts₀.bcast_S1x128_S50000x128_0_1 (V c (Pipeline.arrRef spec23 1))))
          (mulf (broadcastInDim Cert.ReferenceIdeal.S50000x128 ![0, 1] Cert.ReferenceIdeal.Facts₀.bcast_S1x128_S50000x128_0_1 (V c (Pipeline.arrRef spec23 2)))
            (addf (V c (Pipeline.arrRef spec23 0))
              (broadcastInDim Cert.ReferenceIdeal.S50000x128 ![0, 1] Cert.ReferenceIdeal.Facts₀.bcast_S1x128_S50000x128_0_1 (V c (Pipeline.arrRef spec23 1))))) :=
  (dat23 V c).arrAt_eq_of_cover 3
    (act (V c (Pipeline.arrRef spec23 0)) (V c (Pipeline.arrRef spec23 1)) (V c (Pipeline.arrRef spec23 2)))
    (fun t _ => flushed23_3_eq V c t) (fun i => covered23_3 i)

end Cert.KernelIdeal.Rg

end
-- ==== Proof.KI.ChainB3.lean ====
/- Scale 0, second layer, from its inputs as given at its entry: after each item, each buffer holds the reference's stage. -/
import proofs.«160853_j19842748908317_1_alg».proof.Proof.KI.PData
import proofs.«160853_j19842748908317_1_alg».proof.Proof.KI.Val21
import proofs.«160853_j19842748908317_1_alg».proof.Proof.KI.Val22
import proofs.«160853_j19842748908317_1_alg».proof.Proof.KI.Val23
import proofs.«160853_j19842748908317_1_alg».proof.Proof.RefReadP
import proofs.«160853_j19842748908317_1_alg».proof.Proof.Gen.ReferenceIdeal
import Idealize.ShloMosaic.Lib.StableHlo.Run

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

section Host
variable {F : FTy → Type} [FloatOps F]
variable (m : (ℓ : Loc nD τ sig) → Buf (Elt F) ℓ) (outs : Outs (F := F)) (c : Dev nD)

theorem k19_v1_V9 (h1 : V53 m outs c main_v283 = val_main_v325 (F := F) (m ((c : Thread nD τ).loc main_arg1))) :
    V54 m outs c main_v283 = val_main_v325 (F := F) (m ((c : Thread nD τ).loc main_arg1)) :=
  (V54_of m outs c main_v283 (by decide)).trans (h1)
theorem k19_v3_V9 (h3 : V53 m outs c main_v285 = val_main_v327 (F := F) (m ((c : Thread nD τ).loc main_arg1))) :
    V54 m outs c main_v285 = val_main_v327 (F := F) (m ((c : Thread nD τ).loc main_arg1)) :=
  (V54_of m outs c main_v285 (by decide)).trans (h3)
theorem k19_v5_V9 (h5 : V53 m outs c main_v287 = val_main_v329 (F := F) (m ((c : Thread nD τ).loc main_arg2))) :
    V54 m outs c main_v287 = val_main_v329 (F := F) (m ((c : Thread nD τ).loc main_arg2)) :=
  (V54_of m outs c main_v287 (by decide)).trans (h5)

theorem k19_arg6_V13 (ha6 : V53 m outs c main_arg6 = (m ((c : Thread nD τ).loc main_arg6))) : V58 m outs c main_arg6 = (m ((c : Thread nD τ).loc main_arg6)) :=
  (V58_of m outs c main_arg6 (by decide)).trans ((V57_of m outs c main_arg6 (by decide)).trans ((V56_of m outs c main_arg6 (by decide)).trans ((V55_of m outs c main_arg6 (by decide)).trans ((V54_of m outs c main_arg6 (by decide)).trans (ha6)))))
theorem k19_arg7_V13 (ha7 : V53 m outs c main_arg7 = (m ((c : Thread nD τ).loc main_arg7))) : V58 m outs c main_arg7 = (m ((c : Thread nD τ).loc main_arg7)) :=
  (V58_of m outs c main_arg7 (by decide)).trans ((V57_of m outs c main_arg7 (by decide)).trans ((V56_of m outs c main_arg7 (by decide)).trans ((V55_of m outs c main_arg7 (by decide)).trans ((V54_of m outs c main_arg7 (by decide)).trans (ha7)))))

theorem k19_v52 (h1 : V53 m outs c main_v283 = val_main_v325 (F := F) (m ((c : Thread nD τ).loc main_arg1))) :
    V55 m outs c main_v334 = val_main_v383 (F := F) (m ((c : Thread nD τ).loc main_arg1)) := by
  have e1 := k19_v1_V9 m outs c h1
  show StableHlo.after hostOps22 (V54 m outs c) main_v334 = _
  generalize V54 m outs c = W at e1 ⊢
  after_results
  rw [e1]
  rfl

theorem k19_v53 (h3 : V53 m outs c main_v285 = val_main_v327 (F := F) (m ((c : Thread nD τ).loc main_arg1))) :
    V55 m outs c main_v335 = val_main_v384 (F := F) (m ((c : Thread nD τ).loc main_arg1)) := by
  have e3 := k19_v3_V9 m outs c h3
  show StableHlo.after hostOps22 (V54 m outs c) main_v335 = _
  generalize V54 m outs c = W at e3 ⊢
  after_results
  rw [e3]
  rfl

theorem k19_v55 (h5 : V53 m outs c main_v287 = val_main_v329 (F := F) (m ((c : Thread nD τ).loc main_arg2))) :
    V55 m outs c main_v337 = val_main_v386 (F := F) (m ((c : Thread nD τ).loc main_arg2)) := by
  have e5 := k19_v5_V9 m outs c h5
  show StableHlo.after hostOps22 (V54 m outs c) main_v337 = _
  generalize V54 m outs c = W at e5 ⊢
  after_results
  rw [e5]
  rfl

theorem k19_v60 (h3 : V53 m outs c main_v285 = val_main_v327 (F := F) (m ((c : Thread nD τ).loc main_arg1))) (h5 : V53 m outs c main_v287 = val_main_v329 (F := F) (m ((c : Thread nD τ).loc main_arg2))) :
    V55 m outs c main_v342 = val_main_v391 (F := F) (m ((c : Thread nD τ).loc main_arg1)) (m ((c : Thread nD τ).loc main_arg2)) := by
  have e3 := k19_v3_V9 m outs c h3
  have e5 := k19_v5_V9 m outs c h5
  show StableHlo.after hostOps22 (V54 m outs c) main_v342 = _
  generalize V54 m outs c = W at e3 e5 ⊢
  after_results
  rw [e3, e5]
  rfl

theorem k19_v61 (h3 : V53 m outs c main_v285 = val_main_v327 (F := F) (m ((c : Thread nD τ).loc main_arg1))) (h5 : V53 m outs c main_v287 = val_main_v329 (F := F) (m ((c : Thread nD τ).loc main_arg2))) :
    V55 m outs c main_v343 = val_main_v392 (F := F) (m ((c : Thread nD τ).loc main_arg1)) (m ((c : Thread nD τ).loc main_arg2)) := by
  have e3 := k19_v3_V9 m outs c h3
  have e5 := k19_v5_V9 m outs c h5
  show StableHlo.after hostOps22 (V54 m outs c) main_v343 = _
  generalize V54 m outs c = W at e3 e5 ⊢
  after_results
  rw [e3, e5]
  rfl

theorem k19_cst_12 : V55 m outs c main_cst_78 = val_main_cst_85 (F := F) := by
  show StableHlo.after hostOps22 (V54 m outs c) main_cst_78 = _
  generalize V54 m outs c = W
  after_results
  rfl

theorem k19_v62 (h3 : V53 m outs c main_v285 = val_main_v327 (F := F) (m ((c : Thread nD τ).loc main_arg1))) (h5 : V53 m outs c main_v287 = val_main_v329 (F := F) (m ((c : Thread nD τ).loc main_arg2))) :
    V56 m outs c main_v344 = val_main_v393 (F := F) (m ((c : Thread nD τ).loc main_arg1)) (m ((c : Thread nD τ).loc main_arg2)) := by
  have h60 := k19_v60 m outs c h3 h5
  have h61 := k19_v61 m outs c h3 h5
  have hc12 := k19_cst_12 m outs c
  show StableHlo.after hostOps22_1 (V55 m outs c) main_v344 = _
  generalize V55 m outs c = W at h60 h61 hc12 ⊢
  after_results
  rw [h60, h61, hc12]
  simp only [TRef.ofBuf, TRef.toBuf, cast_eq]
  rfl

theorem k19_v52_V11 (h1 : V53 m outs c main_v283 = val_main_v325 (F := F) (m ((c : Thread nD τ).loc main_arg1))) :
    V56 m outs c main_v334 = val_main_v383 (F := F) (m ((c : Thread nD τ).loc main_arg1)) := (V56_of m outs c main_v334 (by decide)).trans (k19_v52 m outs c h1)
theorem k19_v53_V11 (h3 : V53 m outs c main_v285 = val_main_v327 (F := F) (m ((c : Thread nD τ).loc main_arg1))) :
    V56 m outs c main_v335 = val_main_v384 (F := F) (m ((c : Thread nD τ).loc main_arg1)) := (V56_of m outs c main_v335 (by decide)).trans (k19_v53 m outs c h3)
theorem k19_v55_V11 (h5 : V53 m outs c main_v287 = val_main_v329 (F := F) (m ((c : Thread nD τ).loc main_arg2))) :
    V56 m outs c main_v337 = val_main_v386 (F := F) (m ((c : Thread nD τ).loc main_arg2)) := (V56_of m outs c main_v337 (by decide)).trans (k19_v55 m outs c h5)

theorem k19_v50_V11 (h50 : V54 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V56 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (V56_of m outs c main_v332 (by decide)).trans ((V55_of m outs c main_v332 (by decide)).trans h50)

theorem k19_v79 (h1 : V53 m outs c main_v283 = val_main_v325 (F := F) (m ((c : Thread nD τ).loc main_arg1))) (h3 : V53 m outs c main_v285 = val_main_v327 (F := F) (m ((c : Thread nD τ).loc main_arg1))) (h5 : V53 m outs c main_v287 = val_main_v329 (F := F) (m ((c : Thread nD τ).loc main_arg2))) :
    V57 m outs c main_v361 = val_main_v417 (F := F) (m ((c : Thread nD τ).loc main_arg1)) (m ((c : Thread nD τ).loc main_arg2)) := by
  have h52 := k19_v52_V11 m outs c h1
  have h53 := k19_v53_V11 m outs c h3
  have h55 := k19_v55_V11 m outs c h5
  have h62 := k19_v62 m outs c h3 h5
  have e : shapeCast S850000x1 (val_main_v409 (F := F) (m ((c : Thread nD τ).loc main_arg1)) (m ((c : Thread nD τ).loc main_arg2))) shapeCasts_S850000_S850000x1 = val_main_v417 (F := F) (m ((c : Thread nD τ).loc main_arg1)) (m ((c : Thread nD τ).loc main_arg2)) :=
    (col_reshape_eq_bcast (F := F) (val_main_v409 (F := F) (m ((c : Thread nD τ).loc main_arg1)) (m ((c : Thread nD τ).loc main_arg2)))).trans rfl
  show StableHlo.after hostOps22_2 (V56 m outs c) main_v361 = _
  generalize V56 m outs c = W at h52 h53 h55 h62 ⊢
  after_results_simp
  rw [h52, h53, h55, h62]
  exact Eq.trans rfl e

theorem k19_v86 (h1 : V53 m outs c main_v283 = val_main_v325 (F := F) (m ((c : Thread nD τ).loc main_arg1))) (h50 : V54 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V57 m outs c main_v368 = val_main_v416 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h52 := k19_v52_V11 m outs c h1
  have h50' := k19_v50_V11 m outs c h50
  show StableHlo.after hostOps22_2 (V56 m outs c) main_v368 = _
  generalize V56 m outs c = W at h52 h50' ⊢
  after_results_simp
  rw [h52, h50']
  rfl

theorem k19_v87 (ho4 : outs 58 main_v369 c = (dat22 (vt (V57 m outs)) c).arrAt 2 cfg22.N) (h1 : V53 m outs c main_v283 = val_main_v325 (F := F) (m ((c : Thread nD τ).loc main_arg1))) (h3 : V53 m outs c main_v285 = val_main_v327 (F := F) (m ((c : Thread nD τ).loc main_arg1))) (h5 : V53 m outs c main_v287 = val_main_v329 (F := F) (m ((c : Thread nD τ).loc main_arg2))) (h50 : V54 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V58 m outs c main_v369 = val_main_v419 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h86 : vt (V57 m outs) c (Pipeline.arrRef spec22 0) = val_main_v416 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k19_v86 m outs c h1 h50
  have h79 : vt (V57 m outs) c (Pipeline.arrRef spec22 1) = val_main_v417 (F := F) (m ((c : Thread nD τ).loc main_arg1)) (m ((c : Thread nD τ).loc main_arg2)) := k19_v79 m outs c h1 h3 h5
  show Function.update (V57 m outs c) main_v369 (outs 58 main_v369 c) main_v369 = _
  rw [Function.update_self, ho4, arr22_2_eq, h86, h79]
  rfl

theorem k19_v53_V13 (h3 : V53 m outs c main_v285 = val_main_v327 (F := F) (m ((c : Thread nD τ).loc main_arg1))) :
    V58 m outs c main_v335 = val_main_v384 (F := F) (m ((c : Thread nD τ).loc main_arg1)) :=
  (V58_of m outs c main_v335 (by decide)).trans ((V57_of m outs c main_v335 (by decide)).trans (k19_v53_V11 m outs c h3))

theorem k19_v91 (ha6 : V53 m outs c main_arg6 = (m ((c : Thread nD τ).loc main_arg6))) : V59 m outs c main_v373 = val_main_v423 (F := F) (m ((c : Thread nD τ).loc main_arg6)) := by
  have h6 := k19_arg6_V13 m outs c ha6
  have e : shapeCast S1x128 (m ((c : Thread nD τ).loc main_arg6)) shapeCasts_S128_S1x128 = val_main_v423 (F := F) (m ((c : Thread nD τ).loc main_arg6)) :=
    (row_reshape_eq_bcast (F := F) (m ((c : Thread nD τ).loc main_arg6))).trans rfl
  show StableHlo.after hostOps23 (V58 m outs c) main_v373 = _
  generalize V58 m outs c = W at h6 ⊢
  after_results
  rw [h6]
  exact Eq.trans rfl e

theorem k19_v92 (ha7 : V53 m outs c main_arg7 = (m ((c : Thread nD τ).loc main_arg7))) : V59 m outs c main_v374 = val_main_v428 (F := F) (m ((c : Thread nD τ).loc main_arg7)) := by
  have h7 := k19_arg7_V13 m outs c ha7
  have e : shapeCast S1x128 (m ((c : Thread nD τ).loc main_arg7)) shapeCasts_S128_S1x128 = val_main_v428 (F := F) (m ((c : Thread nD τ).loc main_arg7)) :=
    (row_reshape_eq_bcast (F := F) (m ((c : Thread nD τ).loc main_arg7))).trans rfl
  show StableHlo.after hostOps23 (V58 m outs c) main_v374 = _
  generalize V58 m outs c = W at h7 ⊢
  after_results
  rw [h7]
  exact Eq.trans rfl e

theorem k19_v90 (ho4 : outs 58 main_v369 c = (dat22 (vt (V57 m outs)) c).arrAt 2 cfg22.N) (h1 : V53 m outs c main_v283 = val_main_v325 (F := F) (m ((c : Thread nD τ).loc main_arg1))) (h3 : V53 m outs c main_v285 = val_main_v327 (F := F) (m ((c : Thread nD τ).loc main_arg1))) (h5 : V53 m outs c main_v287 = val_main_v329 (F := F) (m ((c : Thread nD τ).loc main_arg2))) (h50 : V54 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V59 m outs c main_v372 = val_main_v422 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have h53 := k19_v53_V13 m outs c h3
  have h87 := k19_v87 m outs c ho4 h1 h3 h5 h50
  show StableHlo.after hostOps23 (V58 m outs c) main_v372 = _
  generalize V58 m outs c = W at h53 h87 ⊢
  after_results
  rw [h53, h87]
  rfl

theorem k19_v93 (ho4 : outs 58 main_v369 c = (dat22 (vt (V57 m outs)) c).arrAt 2 cfg22.N) (ho5 : outs 60 main_v375 c = (dat23 (vt (V59 m outs)) c).arrAt 3 cfg23.N) (h1 : V53 m outs c main_v283 = val_main_v325 (F := F) (m ((c : Thread nD τ).loc main_arg1))) (h3 : V53 m outs c main_v285 = val_main_v327 (F := F) (m ((c : Thread nD τ).loc main_arg1))) (h5 : V53 m outs c main_v287 = val_main_v329 (F := F) (m ((c : Thread nD τ).loc main_arg2))) (ha6 : V53 m outs c main_arg6 = (m ((c : Thread nD τ).loc main_arg6))) (ha7 : V53 m outs c main_arg7 = (m ((c : Thread nD τ).loc main_arg7))) (h50 : V54 m outs c main_v332 = val_main_v381 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    V60 m outs c main_v375 = val_main_v431 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h90 : vt (V59 m outs) c (Pipeline.arrRef spec23 0) = val_main_v422 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := k19_v90 m outs c ho4 h1 h3 h5 h50
  have h91 : vt (V59 m outs) c (Pipeline.arrRef spec23 1) = val_main_v423 (F := F) (m ((c : Thread nD τ).loc main_arg6)) := k19_v91 m outs c ha6
  have h92 : vt (V59 m outs) c (Pipeline.arrRef spec23 2) = val_main_v428 (F := F) (m ((c : Thread nD τ).loc main_arg7)) := k19_v92 m outs c ha7
  show Function.update (V59 m outs c) main_v375 (outs 60 main_v375 c) main_v375 = _
  rw [Function.update_self, ho5, val23, h90, h91, h92]
  rfl

end Host

section AtIdeal
variable (m : (ℓ : Loc nD τ sig) → Buf (Elt Ideal) ℓ) (c : Dev nD)

theorem k19_v50
    (ha5 : V53 m (outsX m) c main_arg5 = (m ((c : Thread nD τ).loc main_arg5)))
    (h49 : V53 m (outsX m) c main_v331 = val_main_v380 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V54 m (outsX m) c main_v332 = val_main_v381 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  have e49 : vt (V53 m (outsX m)) c (Pipeline.arrRef spec21 0) = val_main_v380 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := h49
  have e5 : vt (V53 m (outsX m)) c (Pipeline.arrRef spec21 1) = (m ((c : Thread nD τ).loc main_arg5)) := ha5
  show Function.update (V53 m (outsX m) c) main_v332 (outsX m 54 main_v332 c) main_v332 = _
  rw [Function.update_self, hout21, val21, e49, e5]
  rfl

theorem layer1s3_out
    (h1 : V53 m (outsX m) c main_v283 = val_main_v325 (F := Ideal) (m ((c : Thread nD τ).loc main_arg1)))
    (h3 : V53 m (outsX m) c main_v285 = val_main_v327 (F := Ideal) (m ((c : Thread nD τ).loc main_arg1)))
    (h5 : V53 m (outsX m) c main_v287 = val_main_v329 (F := Ideal) (m ((c : Thread nD τ).loc main_arg2)))
    (ha5 : V53 m (outsX m) c main_arg5 = (m ((c : Thread nD τ).loc main_arg5)))
    (ha6 : V53 m (outsX m) c main_arg6 = (m ((c : Thread nD τ).loc main_arg6)))
    (ha7 : V53 m (outsX m) c main_arg7 = (m ((c : Thread nD τ).loc main_arg7)))
    (h49 : V53 m (outsX m) c main_v331 = val_main_v380 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :
    V60 m (outsX m) c main_v375
      = val_main_v431 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  k19_v93 m (outsX m) c (hout22 m c) (hout23 m c) h1 h3 h5 ha6 ha7 (k19_v50 m c ha5 h49)

end AtIdeal

end Cert.KernelIdeal.Ch

end
-- ==== Proof.KI.CarryS.lean ====
/- A buffer that no item between two boundaries writes is the same at both: the hops compose, a later boundary extending an earlier one. -/
import proofs.«160853_j19842748908317_1_alg».proof.Proof.KI.RegionsP

set_option maxRecDepth 16384

noncomputable section

namespace Cert.KernelIdeal.Ch

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

theorem carry_main_v1_1_8 : V8 m outs c main_v1 = V1 m c main_v1 :=
  (V8_of m outs c main_v1 (by decide)).trans ((V7_of m outs c main_v1 (by decide)).trans ((V6_of m outs c main_v1 (by decide)).trans ((V5_of m outs c main_v1 (by decide)).trans ((V4_of m outs c main_v1 (by decide)).trans ((V3_of m outs c main_v1 (by decide)).trans (V2_of m outs c main_v1 (by decide)))))))

theorem carry_main_v3_1_8 : V8 m outs c main_v3 = V1 m c main_v3 :=
  (V8_of m outs c main_v3 (by decide)).trans ((V7_of m outs c main_v3 (by decide)).trans ((V6_of m outs c main_v3 (by decide)).trans ((V5_of m outs c main_v3 (by decide)).trans ((V4_of m outs c main_v3 (by decide)).trans ((V3_of m outs c main_v3 (by decide)).trans (V2_of m outs c main_v3 (by decide)))))))

theorem carry_main_v5_1_8 : V8 m outs c main_v5 = V1 m c main_v5 :=
  (V8_of m outs c main_v5 (by decide)).trans ((V7_of m outs c main_v5 (by decide)).trans ((V6_of m outs c main_v5 (by decide)).trans ((V5_of m outs c main_v5 (by decide)).trans ((V4_of m outs c main_v5 (by decide)).trans ((V3_of m outs c main_v5 (by decide)).trans (V2_of m outs c main_v5 (by decide)))))))

theorem carry_main_arg5_0_8 : V8 m outs c main_arg5 = V0 m c main_arg5 :=
  (V8_of m outs c main_arg5 (by decide)).trans ((V7_of m outs c main_arg5 (by decide)).trans ((V6_of m outs c main_arg5 (by decide)).trans ((V5_of m outs c main_arg5 (by decide)).trans ((V4_of m outs c main_arg5 (by decide)).trans ((V3_of m outs c main_arg5 (by decide)).trans ((V2_of m outs c main_arg5 (by decide)).trans (V1_of m c main_arg5 (by decide))))))))

theorem carry_main_arg6_0_8 : V8 m outs c main_arg6 = V0 m c main_arg6 :=
  (V8_of m outs c main_arg6 (by decide)).trans ((V7_of m outs c main_arg6 (by decide)).trans ((V6_of m outs c main_arg6 (by decide)).trans ((V5_of m outs c main_arg6 (by decide)).trans ((V4_of m outs c main_arg6 (by decide)).trans ((V3_of m outs c main_arg6 (by decide)).trans ((V2_of m outs c main_arg6 (by decide)).trans (V1_of m c main_arg6 (by decide))))))))

theorem carry_main_arg7_0_8 : V8 m outs c main_arg7 = V0 m c main_arg7 :=
  (V8_of m outs c main_arg7 (by decide)).trans ((V7_of m outs c main_arg7 (by decide)).trans ((V6_of m outs c main_arg7 (by decide)).trans ((V5_of m outs c main_arg7 (by decide)).trans ((V4_of m outs c main_arg7 (by decide)).trans ((V3_of m outs c main_arg7 (by decide)).trans ((V2_of m outs c main_arg7 (by decide)).trans (V1_of m c main_arg7 (by decide))))))))

theorem carry_main_v95_16_23 : V23 m outs c main_v95 = V16 m outs c main_v95 :=
  (V23_of m outs c main_v95 (by decide)).trans ((V22_of m outs c main_v95 (by decide)).trans ((V21_of m outs c main_v95 (by decide)).trans ((V20_of m outs c main_v95 (by decide)).trans ((V19_of m outs c main_v95 (by decide)).trans ((V18_of m outs c main_v95 (by decide)).trans (V17_of m outs c main_v95 (by decide)))))))

theorem carry_main_v97_16_23 : V23 m outs c main_v97 = V16 m outs c main_v97 :=
  (V23_of m outs c main_v97 (by decide)).trans ((V22_of m outs c main_v97 (by decide)).trans ((V21_of m outs c main_v97 (by decide)).trans ((V20_of m outs c main_v97 (by decide)).trans ((V19_of m outs c main_v97 (by decide)).trans ((V18_of m outs c main_v97 (by decide)).trans (V17_of m outs c main_v97 (by decide)))))))

theorem carry_main_v99_16_23 : V23 m outs c main_v99 = V16 m outs c main_v99 :=
  (V23_of m outs c main_v99 (by decide)).trans ((V22_of m outs c main_v99 (by decide)).trans ((V21_of m outs c main_v99 (by decide)).trans ((V20_of m outs c main_v99 (by decide)).trans ((V19_of m outs c main_v99 (by decide)).trans ((V18_of m outs c main_v99 (by decide)).trans (V17_of m outs c main_v99 (by decide)))))))

theorem carry_main_arg5_0_23 : V23 m outs c main_arg5 = V0 m c main_arg5 :=
  (V23_of m outs c main_arg5 (by decide)).trans ((V22_of m outs c main_arg5 (by decide)).trans ((V21_of m outs c main_arg5 (by decide)).trans ((V20_of m outs c main_arg5 (by decide)).trans ((V19_of m outs c main_arg5 (by decide)).trans ((V18_of m outs c main_arg5 (by decide)).trans ((V17_of m outs c main_arg5 (by decide)).trans ((V16_of m outs c main_arg5 (by decide)).trans ((V15_of m outs c main_arg5 (by decide)).trans ((V14_of m outs c main_arg5 (by decide)).trans ((V13_of m outs c main_arg5 (by decide)).trans ((V12_of m outs c main_arg5 (by decide)).trans ((V11_of m outs c main_arg5 (by decide)).trans ((V10_of m outs c main_arg5 (by decide)).trans ((V9_of m outs c main_arg5 (by decide)).trans (carry_main_arg5_0_8 m outs c)))))))))))))))

theorem carry_main_arg6_0_23 : V23 m outs c main_arg6 = V0 m c main_arg6 :=
  (V23_of m outs c main_arg6 (by decide)).trans ((V22_of m outs c main_arg6 (by decide)).trans ((V21_of m outs c main_arg6 (by decide)).trans ((V20_of m outs c main_arg6 (by decide)).trans ((V19_of m outs c main_arg6 (by decide)).trans ((V18_of m outs c main_arg6 (by decide)).trans ((V17_of m outs c main_arg6 (by decide)).trans ((V16_of m outs c main_arg6 (by decide)).trans ((V15_of m outs c main_arg6 (by decide)).trans ((V14_of m outs c main_arg6 (by decide)).trans ((V13_of m outs c main_arg6 (by decide)).trans ((V12_of m outs c main_arg6 (by decide)).trans ((V11_of m outs c main_arg6 (by decide)).trans ((V10_of m outs c main_arg6 (by decide)).trans ((V9_of m outs c main_arg6 (by decide)).trans (carry_main_arg6_0_8 m outs c)))))))))))))))

theorem carry_main_arg7_0_23 : V23 m outs c main_arg7 = V0 m c main_arg7 :=
  (V23_of m outs c main_arg7 (by decide)).trans ((V22_of m outs c main_arg7 (by decide)).trans ((V21_of m outs c main_arg7 (by decide)).trans ((V20_of m outs c main_arg7 (by decide)).trans ((V19_of m outs c main_arg7 (by decide)).trans ((V18_of m outs c main_arg7 (by decide)).trans ((V17_of m outs c main_arg7 (by decide)).trans ((V16_of m outs c main_arg7 (by decide)).trans ((V15_of m outs c main_arg7 (by decide)).trans ((V14_of m outs c main_arg7 (by decide)).trans ((V13_of m outs c main_arg7 (by decide)).trans ((V12_of m outs c main_arg7 (by decide)).trans ((V11_of m outs c main_arg7 (by decide)).trans ((V10_of m outs c main_arg7 (by decide)).trans ((V9_of m outs c main_arg7 (by decide)).trans (carry_main_arg7_0_8 m outs c)))))))))))))))

theorem carry_main_v189_31_38 : V38 m outs c main_v189 = V31 m outs c main_v189 :=
  (V38_of m outs c main_v189 (by decide)).trans ((V37_of m outs c main_v189 (by decide)).trans ((V36_of m outs c main_v189 (by decide)).trans ((V35_of m outs c main_v189 (by decide)).trans ((V34_of m outs c main_v189 (by decide)).trans ((V33_of m outs c main_v189 (by decide)).trans (V32_of m outs c main_v189 (by decide)))))))

theorem carry_main_v191_31_38 : V38 m outs c main_v191 = V31 m outs c main_v191 :=
  (V38_of m outs c main_v191 (by decide)).trans ((V37_of m outs c main_v191 (by decide)).trans ((V36_of m outs c main_v191 (by decide)).trans ((V35_of m outs c main_v191 (by decide)).trans ((V34_of m outs c main_v191 (by decide)).trans ((V33_of m outs c main_v191 (by decide)).trans (V32_of m outs c main_v191 (by decide)))))))

theorem carry_main_v193_31_38 : V38 m outs c main_v193 = V31 m outs c main_v193 :=
  (V38_of m outs c main_v193 (by decide)).trans ((V37_of m outs c main_v193 (by decide)).trans ((V36_of m outs c main_v193 (by decide)).trans ((V35_of m outs c main_v193 (by decide)).trans ((V34_of m outs c main_v193 (by decide)).trans ((V33_of m outs c main_v193 (by decide)).trans (V32_of m outs c main_v193 (by decide)))))))

theorem carry_main_arg5_0_38 : V38 m outs c main_arg5 = V0 m c main_arg5 :=
  (V38_of m outs c main_arg5 (by decide)).trans ((V37_of m outs c main_arg5 (by decide)).trans ((V36_of m outs c main_arg5 (by decide)).trans ((V35_of m outs c main_arg5 (by decide)).trans ((V34_of m outs c main_arg5 (by decide)).trans ((V33_of m outs c main_arg5 (by decide)).trans ((V32_of m outs c main_arg5 (by decide)).trans ((V31_of m outs c main_arg5 (by decide)).trans ((V30_of m outs c main_arg5 (by decide)).trans ((V29_of m outs c main_arg5 (by decide)).trans ((V28_of m outs c main_arg5 (by decide)).trans ((V27_of m outs c main_arg5 (by decide)).trans ((V26_of m outs c main_arg5 (by decide)).trans ((V25_of m outs c main_arg5 (by decide)).trans ((V24_of m outs c main_arg5 (by decide)).trans (carry_main_arg5_0_23 m outs c)))))))))))))))

theorem carry_main_arg6_0_38 : V38 m outs c main_arg6 = V0 m c main_arg6 :=
  (V38_of m outs c main_arg6 (by decide)).trans ((V37_of m outs c main_arg6 (by decide)).trans ((V36_of m outs c main_arg6 (by decide)).trans ((V35_of m outs c main_arg6 (by decide)).trans ((V34_of m outs c main_arg6 (by decide)).trans ((V33_of m outs c main_arg6 (by decide)).trans ((V32_of m outs c main_arg6 (by decide)).trans ((V31_of m outs c main_arg6 (by decide)).trans ((V30_of m outs c main_arg6 (by decide)).trans ((V29_of m outs c main_arg6 (by decide)).trans ((V28_of m outs c main_arg6 (by decide)).trans ((V27_of m outs c main_arg6 (by decide)).trans ((V26_of m outs c main_arg6 (by decide)).trans ((V25_of m outs c main_arg6 (by decide)).trans ((V24_of m outs c main_arg6 (by decide)).trans (carry_main_arg6_0_23 m outs c)))))))))))))))

theorem carry_main_arg7_0_38 : V38 m outs c main_arg7 = V0 m c main_arg7 :=
  (V38_of m outs c main_arg7 (by decide)).trans ((V37_of m outs c main_arg7 (by decide)).trans ((V36_of m outs c main_arg7 (by decide)).trans ((V35_of m outs c main_arg7 (by decide)).trans ((V34_of m outs c main_arg7 (by decide)).trans ((V33_of m outs c main_arg7 (by decide)).trans ((V32_of m outs c main_arg7 (by decide)).trans ((V31_of m outs c main_arg7 (by decide)).trans ((V30_of m outs c main_arg7 (by decide)).trans ((V29_of m outs c main_arg7 (by decide)).trans ((V28_of m outs c main_arg7 (by decide)).trans ((V27_of m outs c main_arg7 (by decide)).trans ((V26_of m outs c main_arg7 (by decide)).trans ((V25_of m outs c main_arg7 (by decide)).trans ((V24_of m outs c main_arg7 (by decide)).trans (carry_main_arg7_0_23 m outs c)))))))))))))))

theorem carry_main_v283_46_53 : V53 m outs c main_v283 = V46 m outs c main_v283 :=
  (V53_of m outs c main_v283 (by decide)).trans ((V52_of m outs c main_v283 (by decide)).trans ((V51_of m outs c main_v283 (by decide)).trans ((V50_of m outs c main_v283 (by decide)).trans ((V49_of m outs c main_v283 (by decide)).trans ((V48_of m outs c main_v283 (by decide)).trans (V47_of m outs c main_v283 (by decide)))))))

theorem carry_main_v285_46_53 : V53 m outs c main_v285 = V46 m outs c main_v285 :=
  (V53_of m outs c main_v285 (by decide)).trans ((V52_of m outs c main_v285 (by decide)).trans ((V51_of m outs c main_v285 (by decide)).trans ((V50_of m outs c main_v285 (by decide)).trans ((V49_of m outs c main_v285 (by decide)).trans ((V48_of m outs c main_v285 (by decide)).trans (V47_of m outs c main_v285 (by decide)))))))

theorem carry_main_v287_46_53 : V53 m outs c main_v287 = V46 m outs c main_v287 :=
  (V53_of m outs c main_v287 (by decide)).trans ((V52_of m outs c main_v287 (by decide)).trans ((V51_of m outs c main_v287 (by decide)).trans ((V50_of m outs c main_v287 (by decide)).trans ((V49_of m outs c main_v287 (by decide)).trans ((V48_of m outs c main_v287 (by decide)).trans (V47_of m outs c main_v287 (by decide)))))))

theorem carry_main_arg5_0_53 : V53 m outs c main_arg5 = V0 m c main_arg5 :=
  (V53_of m outs c main_arg5 (by decide)).trans ((V52_of m outs c main_arg5 (by decide)).trans ((V51_of m outs c main_arg5 (by decide)).trans ((V50_of m outs c main_arg5 (by decide)).trans ((V49_of m outs c main_arg5 (by decide)).trans ((V48_of m outs c main_arg5 (by decide)).trans ((V47_of m outs c main_arg5 (by decide)).trans ((V46_of m outs c main_arg5 (by decide)).trans ((V45_of m outs c main_arg5 (by decide)).trans ((V44_of m outs c main_arg5 (by decide)).trans ((V43_of m outs c main_arg5 (by decide)).trans ((V42_of m outs c main_arg5 (by decide)).trans ((V41_of m outs c main_arg5 (by decide)).trans ((V40_of m outs c main_arg5 (by decide)).trans ((V39_of m outs c main_arg5 (by decide)).trans (carry_main_arg5_0_38 m outs c)))))))))))))))

theorem carry_main_arg6_0_53 : V53 m outs c main_arg6 = V0 m c main_arg6 :=
  (V53_of m outs c main_arg6 (by decide)).trans ((V52_of m outs c main_arg6 (by decide)).trans ((V51_of m outs c main_arg6 (by decide)).trans ((V50_of m outs c main_arg6 (by decide)).trans ((V49_of m outs c main_arg6 (by decide)).trans ((V48_of m outs c main_arg6 (by decide)).trans ((V47_of m outs c main_arg6 (by decide)).trans ((V46_of m outs c main_arg6 (by decide)).trans ((V45_of m outs c main_arg6 (by decide)).trans ((V44_of m outs c main_arg6 (by decide)).trans ((V43_of m outs c main_arg6 (by decide)).trans ((V42_of m outs c main_arg6 (by decide)).trans ((V41_of m outs c main_arg6 (by decide)).trans ((V40_of m outs c main_arg6 (by decide)).trans ((V39_of m outs c main_arg6 (by decide)).trans (carry_main_arg6_0_38 m outs c)))))))))))))))

theorem carry_main_arg7_0_53 : V53 m outs c main_arg7 = V0 m c main_arg7 :=
  (V53_of m outs c main_arg7 (by decide)).trans ((V52_of m outs c main_arg7 (by decide)).trans ((V51_of m outs c main_arg7 (by decide)).trans ((V50_of m outs c main_arg7 (by decide)).trans ((V49_of m outs c main_arg7 (by decide)).trans ((V48_of m outs c main_arg7 (by decide)).trans ((V47_of m outs c main_arg7 (by decide)).trans ((V46_of m outs c main_arg7 (by decide)).trans ((V45_of m outs c main_arg7 (by decide)).trans ((V44_of m outs c main_arg7 (by decide)).trans ((V43_of m outs c main_arg7 (by decide)).trans ((V42_of m outs c main_arg7 (by decide)).trans ((V41_of m outs c main_arg7 (by decide)).trans ((V40_of m outs c main_arg7 (by decide)).trans ((V39_of m outs c main_arg7 (by decide)).trans (carry_main_arg7_0_38 m outs c)))))))))))))))
end Cert.KernelIdeal.Ch

end
-- ==== Proof.KI.CarryF.lean ====
/- A buffer that no item between two boundaries writes is the same at both: the hops compose, a later boundary extending an earlier one. -/
import proofs.«160853_j19842748908317_1_alg».proof.Proof.KI.RegionsP

set_option maxRecDepth 16384

noncomputable section

namespace Cert.KernelIdeal.Ch

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

theorem carry_main_v93_15_60 : V60 m outs c main_v93 = V15 m outs c main_v93 :=
  (V60_of m outs c main_v93 (by decide)).trans ((V59_of m outs c main_v93 (by decide)).trans ((V58_of m outs c main_v93 (by decide)).trans ((V57_of m outs c main_v93 (by decide)).trans ((V56_of m outs c main_v93 (by decide)).trans ((V55_of m outs c main_v93 (by decide)).trans ((V54_of m outs c main_v93 (by decide)).trans ((V53_of m outs c main_v93 (by decide)).trans ((V52_of m outs c main_v93 (by decide)).trans ((V51_of m outs c main_v93 (by decide)).trans ((V50_of m outs c main_v93 (by decide)).trans ((V49_of m outs c main_v93 (by decide)).trans ((V48_of m outs c main_v93 (by decide)).trans ((V47_of m outs c main_v93 (by decide)).trans ((V46_of m outs c main_v93 (by decide)).trans ((V45_of m outs c main_v93 (by decide)).trans ((V44_of m outs c main_v93 (by decide)).trans ((V43_of m outs c main_v93 (by decide)).trans ((V42_of m outs c main_v93 (by decide)).trans ((V41_of m outs c main_v93 (by decide)).trans ((V40_of m outs c main_v93 (by decide)).trans ((V39_of m outs c main_v93 (by decide)).trans ((V38_of m outs c main_v93 (by decide)).trans ((V37_of m outs c main_v93 (by decide)).trans ((V36_of m outs c main_v93 (by decide)).trans ((V35_of m outs c main_v93 (by decide)).trans ((V34_of m outs c main_v93 (by decide)).trans ((V33_of m outs c main_v93 (by decide)).trans ((V32_of m outs c main_v93 (by decide)).trans ((V31_of m outs c main_v93 (by decide)).trans ((V30_of m outs c main_v93 (by decide)).trans ((V29_of m outs c main_v93 (by decide)).trans ((V28_of m outs c main_v93 (by decide)).trans ((V27_of m outs c main_v93 (by decide)).trans ((V26_of m outs c main_v93 (by decide)).trans ((V25_of m outs c main_v93 (by decide)).trans ((V24_of m outs c main_v93 (by decide)).trans ((V23_of m outs c main_v93 (by decide)).trans ((V22_of m outs c main_v93 (by decide)).trans ((V21_of m outs c main_v93 (by decide)).trans ((V20_of m outs c main_v93 (by decide)).trans ((V19_of m outs c main_v93 (by decide)).trans ((V18_of m outs c main_v93 (by decide)).trans ((V17_of m outs c main_v93 (by decide)).trans (V16_of m outs c main_v93 (by decide)))))))))))))))))))))))))))))))))))))))))))))

theorem carry_main_v187_30_60 : V60 m outs c main_v187 = V30 m outs c main_v187 :=
  (V60_of m outs c main_v187 (by decide)).trans ((V59_of m outs c main_v187 (by decide)).trans ((V58_of m outs c main_v187 (by decide)).trans ((V57_of m outs c main_v187 (by decide)).trans ((V56_of m outs c main_v187 (by decide)).trans ((V55_of m outs c main_v187 (by decide)).trans ((V54_of m outs c main_v187 (by decide)).trans ((V53_of m outs c main_v187 (by decide)).trans ((V52_of m outs c main_v187 (by decide)).trans ((V51_of m outs c main_v187 (by decide)).trans ((V50_of m outs c main_v187 (by decide)).trans ((V49_of m outs c main_v187 (by decide)).trans ((V48_of m outs c main_v187 (by decide)).trans ((V47_of m outs c main_v187 (by decide)).trans ((V46_of m outs c main_v187 (by decide)).trans ((V45_of m outs c main_v187 (by decide)).trans ((V44_of m outs c main_v187 (by decide)).trans ((V43_of m outs c main_v187 (by decide)).trans ((V42_of m outs c main_v187 (by decide)).trans ((V41_of m outs c main_v187 (by decide)).trans ((V40_of m outs c main_v187 (by decide)).trans ((V39_of m outs c main_v187 (by decide)).trans ((V38_of m outs c main_v187 (by decide)).trans ((V37_of m outs c main_v187 (by decide)).trans ((V36_of m outs c main_v187 (by decide)).trans ((V35_of m outs c main_v187 (by decide)).trans ((V34_of m outs c main_v187 (by decide)).trans ((V33_of m outs c main_v187 (by decide)).trans ((V32_of m outs c main_v187 (by decide)).trans (V31_of m outs c main_v187 (by decide))))))))))))))))))))))))))))))

theorem carry_main_v281_45_60 : V60 m outs c main_v281 = V45 m outs c main_v281 :=
  (V60_of m outs c main_v281 (by decide)).trans ((V59_of m outs c main_v281 (by decide)).trans ((V58_of m outs c main_v281 (by decide)).trans ((V57_of m outs c main_v281 (by decide)).trans ((V56_of m outs c main_v281 (by decide)).trans ((V55_of m outs c main_v281 (by decide)).trans ((V54_of m outs c main_v281 (by decide)).trans ((V53_of m outs c main_v281 (by decide)).trans ((V52_of m outs c main_v281 (by decide)).trans ((V51_of m outs c main_v281 (by decide)).trans ((V50_of m outs c main_v281 (by decide)).trans ((V49_of m outs c main_v281 (by decide)).trans ((V48_of m outs c main_v281 (by decide)).trans ((V47_of m outs c main_v281 (by decide)).trans (V46_of m outs c main_v281 (by decide)))))))))))))))
end Cert.KernelIdeal.Ch

end
-- ==== Proof.KI.Stack.lean ====
/- The last five operations: each scale's output gets a leading unit axis and the four are joined along it. -/
import proofs.«160853_j19842748908317_1_alg».proof.Proof.KI.CarryF
import proofs.«160853_j19842748908317_1_alg».proof.Proof.RefReadP
import Idealize.ShloMosaic.Lib.StableHlo.Run

set_option maxRecDepth 16384

noncomputable section

namespace Cert.KernelIdeal.Ch

open Cert.KernelIdeal Cert.KernelIdeal.Gen Cert.KernelIdeal.GenP
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (outs : Outs (F := F)) (c : Dev nD)
variable (x0 : (⟨Cert.ReferenceIdeal.S50000x128, .f32⟩ : BufTy).Contents (Elt F)) (x1 : (⟨Cert.ReferenceIdeal.S4x2x800000, .i32⟩ : BufTy).Contents (Elt F)) (x2 : (⟨Cert.ReferenceIdeal.S4x800000, .f32⟩ : BufTy).Contents (Elt F))
  (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F))
  (x6 x7 : (⟨Cert.ReferenceIdeal.S128, .f32⟩ : BufTy).Contents (Elt F))

abbrev stackHead : List (HloOp τ sig (Elt F)) :=
  [ StableHlo.unary main_v93 main_v376 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v187 main_v377 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v281 main_v378 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v375 main_v379 (broadcastInDim S1x50000x128 ![1, 2] bcast_S50000x128_S1x50000x128_1_2 : (⟨S50000x128, .f32⟩ : BufTy).Contents (Elt F) → (⟨S1x50000x128, .f32⟩ : BufTy).Contents (Elt F)) ]

abbrev stackOp : HloOp τ sig (Elt F) :=
  StableHlo.nary ![main_v376, main_v377, main_v378, main_v379] main_v380 (fun u => concatenate S4x50000x128 0 [⟨S1x50000x128, u 0⟩, ⟨S1x50000x128, u 1⟩, ⟨S1x50000x128, u 2⟩, ⟨S1x50000x128, u 3⟩] concatenates_S1x50000x128_S1x50000x128_S1x50000x128_S1x50000x128_S4x50000x128_d0)

theorem after_stack (W : Valuation τ sig (Elt F)) :
    StableHlo.after hostOps24 W main_v380
      = concatenate S4x50000x128 0 [⟨S1x50000x128, StableHlo.after stackHead W main_v376⟩, ⟨S1x50000x128, StableHlo.after stackHead W main_v377⟩,
          ⟨S1x50000x128, StableHlo.after stackHead W main_v378⟩, ⟨S1x50000x128, StableHlo.after stackHead W main_v379⟩]
          concatenates_S1x50000x128_S1x50000x128_S1x50000x128_S1x50000x128_S4x50000x128_d0 := by
  have hsplit : StableHlo.after hostOps24 W = (stackOp (F := F)).result (StableHlo.after stackHead W) := rfl
  rw [hsplit]
  unfold stackOp
  rw [StableHlo.nary_result]
  rfl

theorem stack_out
    (s0 : V15 m outs c main_v93 = val_main_v107 (F := F) x0 x1 x2 x3 x4 x5 x6 x7)
    (s1 : V30 m outs c main_v187 = val_main_v215 (F := F) x0 x1 x2 x3 x4 x5 x6 x7)
    (s2 : V45 m outs c main_v281 = val_main_v323 (F := F) x0 x1 x2 x3 x4 x5 x6 x7)
    (s3 : V60 m outs c main_v375 = val_main_v431 (F := F) x0 x1 x2 x3 x4 x5 x6 x7) :
    V61 m outs c main_v380 = val_main_v436 (F := F) x0 x1 x2 x3 x4 x5 x6 x7 := by
  have h0 : V60 m outs c main_v93 = val_main_v107 (F := F) x0 x1 x2 x3 x4 x5 x6 x7 := (carry_main_v93_15_60 m outs c).trans s0
  have h1 : V60 m outs c main_v187 = val_main_v215 (F := F) x0 x1 x2 x3 x4 x5 x6 x7 := (carry_main_v187_30_60 m outs c).trans s1
  have h2 : V60 m outs c main_v281 = val_main_v323 (F := F) x0 x1 x2 x3 x4 x5 x6 x7 := (carry_main_v281_45_60 m outs c).trans s2
  show StableHlo.after hostOps24 (V60 m outs c) main_v380 = _
  generalize V60 m outs c = W at h0 h1 h2 s3 ⊢
  rw [after_stack]
  have e0 : StableHlo.after stackHead W main_v376 = val_main_v432 (F := F) x0 x1 x2 x3 x4 x5 x6 x7 := by
    after_results; rw [h0]; rfl
  have e1 : StableHlo.after stackHead W main_v377 = val_main_v433 (F := F) x0 x1 x2 x3 x4 x5 x6 x7 := by
    after_results; rw [h1]; rfl
  have e2 : StableHlo.after stackHead W main_v378 = val_main_v434 (F := F) x0 x1 x2 x3 x4 x5 x6 x7 := by
    after_results; rw [h2]; rfl
  have e3 : StableHlo.after stackHead W main_v379 = val_main_v435 (F := F) x0 x1 x2 x3 x4 x5 x6 x7 := by
    after_results; rw [s3]; rfl
  rw [e0, e1, e2, e3]
  rfl

end Cert.KernelIdeal.Ch

end
-- ==== Proof.KI.KernelVal.lean ====
/- The result array after the last item is the reference's last stage of the arguments: each scale's two layers in turn, then the stacking. -/
import proofs.«160853_j19842748908317_1_alg».proof.Proof.KI.ChainA
import proofs.«160853_j19842748908317_1_alg».proof.Proof.KI.ChainA1
import proofs.«160853_j19842748908317_1_alg».proof.Proof.KI.ChainA2
import proofs.«160853_j19842748908317_1_alg».proof.Proof.KI.ChainA3
import proofs.«160853_j19842748908317_1_alg».proof.Proof.KI.ChainB
import proofs.«160853_j19842748908317_1_alg».proof.Proof.KI.ChainB1
import proofs.«160853_j19842748908317_1_alg».proof.Proof.KI.ChainB2
import proofs.«160853_j19842748908317_1_alg».proof.Proof.KI.ChainB3
import proofs.«160853_j19842748908317_1_alg».proof.Proof.KI.CarryS
import proofs.«160853_j19842748908317_1_alg».proof.Proof.KI.Stack

set_option maxRecDepth 16384

noncomputable section

namespace Cert.KernelIdeal.Ch

open Cert.KernelIdeal Cert.KernelIdeal.Gen Cert.KernelIdeal.GenP Cert.KernelIdeal.Rg
open Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

theorem scale0_out : V15 m (outsX m) c main_v93 = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer1_out m c
    ((carry_main_v1_1_8 m (outsX m) c).trans (pro0_v1 m c))
    ((carry_main_v3_1_8 m (outsX m) c).trans (pro0_v3 m c))
    ((carry_main_v5_1_8 m (outsX m) c).trans (pro0_v5 m c))
    (carry_main_arg5_0_8 m (outsX m) c) (carry_main_arg6_0_8 m (outsX m) c) (carry_main_arg7_0_8 m (outsX m) c)
    (layer0_out m c)

theorem scale1_out : V30 m (outsX m) c main_v187 = val_main_v215 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer1s1_out m c
    ((carry_main_v95_16_23 m (outsX m) c).trans (pro1_v95 m c))
    ((carry_main_v97_16_23 m (outsX m) c).trans (pro1_v97 m c))
    ((carry_main_v99_16_23 m (outsX m) c).trans (pro1_v99 m c))
    (carry_main_arg5_0_23 m (outsX m) c) (carry_main_arg6_0_23 m (outsX m) c) (carry_main_arg7_0_23 m (outsX m) c)
    (layer0s1_out m c)

theorem scale2_out : V45 m (outsX m) c main_v281 = val_main_v323 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer1s2_out m c
    ((carry_main_v189_31_38 m (outsX m) c).trans (pro2_v189 m c))
    ((carry_main_v191_31_38 m (outsX m) c).trans (pro2_v191 m c))
    ((carry_main_v193_31_38 m (outsX m) c).trans (pro2_v193 m c))
    (carry_main_arg5_0_38 m (outsX m) c) (carry_main_arg6_0_38 m (outsX m) c) (carry_main_arg7_0_38 m (outsX m) c)
    (layer0s2_out m c)

theorem scale3_out : V60 m (outsX m) c main_v375 = val_main_v431 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  layer1s3_out m c
    ((carry_main_v283_46_53 m (outsX m) c).trans (pro3_v283 m c))
    ((carry_main_v285_46_53 m (outsX m) c).trans (pro3_v285 m c))
    ((carry_main_v287_46_53 m (outsX m) c).trans (pro3_v287 m c))
    (carry_main_arg5_0_53 m (outsX m) c) (carry_main_arg6_0_53 m (outsX m) c) (carry_main_arg7_0_53 m (outsX m) c)
    (layer0s3_out m c)

theorem kernel_val : V61 m (outsX m) c main_v380 = val_main_v436 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  stack_out m (outsX m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (scale0_out m c) (scale1_out m c) (scale2_out m c) (scale3_out m c)

end Cert.KernelIdeal.Ch

end
-- ==== Proof.RefRunCT.lean ====
/- The last five operations of the reference (each scale result given a leading unit axis, then the four stacked), with the references they write. -/
import proofs.«160853_j19842748908317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 536 to 540 of the reference's @main, in order. -/
abbrev stack : List (HloOp τ sig (Elt F)) :=
  [ unary main_v107 main_v432 (broadcastInDim S1x50000x128 ![1, 2] bcast_S50000x128_S1x50000x128_1_2 : (⟨S50000x128, .f32⟩ : BufTy).Contents (Elt F) → (⟨S1x50000x128, .f32⟩ : BufTy).Contents (Elt F)),
    unary main_v215 main_v433 (broadcastInDim S1x50000x128 ![1, 2] bcast_S50000x128_S1x50000x128_1_2 : (⟨S50000x128, .f32⟩ : BufTy).Contents (Elt F) → (⟨S1x50000x128, .f32⟩ : BufTy).Contents (Elt F)),
    unary main_v323 main_v434 (broadcastInDim S1x50000x128 ![1, 2] bcast_S50000x128_S1x50000x128_1_2 : (⟨S50000x128, .f32⟩ : BufTy).Contents (Elt F) → (⟨S1x50000x128, .f32⟩ : BufTy).Contents (Elt F)),
    unary main_v431 main_v435 (broadcastInDim S1x50000x128 ![1, 2] bcast_S50000x128_S1x50000x128_1_2 : (⟨S50000x128, .f32⟩ : BufTy).Contents (Elt F) → (⟨S1x50000x128, .f32⟩ : BufTy).Contents (Elt F)),
    nary ![main_v432, main_v433, main_v434, main_v435] main_v436 (fun u => concatenate S4x50000x128 0 [⟨S1x50000x128, u 0⟩, ⟨S1x50000x128, u 1⟩, ⟨S1x50000x128, u 2⟩, ⟨S1x50000x128, u 3⟩] concatenates_S1x50000x128_S1x50000x128_S1x50000x128_S1x50000x128_S4x50000x128_d0) ]

/-- The references operations 536 to 540 write, in order. -/
abbrev stack_W : List (Ref sig .tc) := [main_v432, main_v433, main_v434, main_v435, main_v436]

end Cert.ReferenceIdeal.Hand

end
-- ==== Proof.RefRunC0.lean ====
/- The operations of scale 0 of the reference as five tables (its six slicing operations; each layer as the seven operations up to its concatenates, then the other fifty-seven), each with the references it writes. -/
import proofs.«160853_j19842748908317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 0 to 5 of the reference's @main, in order. -/
abbrev slices0 : List (HloOp τ sig (Elt F)) :=
  [ unary main_arg1 main_v0 ((extractStridedSlice S1x1x800000 ![0, 0, 0] · slices_S4x2x800000_S1x1x800000_0_0_0) : (⟨S4x2x800000, .i32⟩ : BufTy).Contents (Elt F) → (⟨S1x1x800000, .i32⟩ : BufTy).Contents (Elt F)),
    reshape main_v0 main_v1 rfl shapeCasts_S1x1x800000_S800000,
    unary main_arg1 main_v2 ((extractStridedSlice S1x1x800000 ![0, 1, 0] · slices_S4x2x800000_S1x1x800000_0_1_0) : (⟨S4x2x800000, .i32⟩ : BufTy).Contents (Elt F) → (⟨S1x1x800000, .i32⟩ : BufTy).Contents (Elt F)),
    reshape main_v2 main_v3 rfl shapeCasts_S1x1x800000_S800000,
    unary main_arg2 main_v4 ((extractStridedSlice S1x800000 ![0, 0] · slices_S4x800000_S1x800000_0_0) : (⟨S4x800000, .f32⟩ : BufTy).Contents (Elt F) → (⟨S1x800000, .f32⟩ : BufTy).Contents (Elt F)),
    reshape main_v4 main_v5 rfl shapeCasts_S1x800000_S800000 ]

/-- The references operations 0 to 5 write, in order. -/
abbrev slices0_W : List (Ref sig .tc) := [main_v0, main_v1, main_v2, main_v3, main_v4, main_v5]

set_option maxHeartbeats 4000000 in
/-- Operations 6 to 12 of the reference's @main, in order. -/
abbrev headA0 : List (HloOp τ sig (Elt F)) :=
  [ binary main_arg0 main_arg3 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v7 (iotaInDim S50000 32 0),
    binary main_v1 main_v7 main_v8 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v7 main_v9 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v10 (broadcastInDim S50000 ![] bcast_S_S50000 : (⟨S_, .f32⟩ : BufTy).Contents (Elt F) → (⟨S50000, .f32⟩ : BufTy).Contents (Elt F)),
    binary main_v5 main_v10 main_v11 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 6 to 12 write, in order. -/
abbrev headA0_W : List (Ref sig .tc) := [main_v6, main_v7, main_v8, main_v9, main_cst, main_v10, main_v11]

set_option maxHeartbeats 4000000 in
/-- Operations 13 to 69 of the reference's @main, in order. -/
abbrev bodyA0 : List (HloOp τ sig (Elt F)) :=
  [ nullary main_cst_0 (constant S_ .f32 0x00000000#32),
    unary main_cst_0 main_v12 (broadcastInDim S50000 ![] bcast_S_S50000 : (⟨S_, .f32⟩ : BufTy).Contents (Elt F) → (⟨S50000, .f32⟩ : BufTy).Contents (Elt F)),
    unary main_v9 main_v13 (broadcastInDim S850000x1 ![0] bcast_S850000_S850000x1_0 : (⟨S850000, .i32⟩ : BufTy).Contents (Elt F) → (⟨S850000x1, .i32⟩ : BufTy).Contents (Elt F)),
    ternary main_v12 main_v13 main_v11 main_v14 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v15 (broadcastInDim S50000 ![] bcast_S_S50000 : (⟨S_, .f32⟩ : BufTy).Contents (Elt F) → (⟨S50000, .f32⟩ : BufTy).Contents (Elt F)),
    binary main_v14 main_v15 main_v16 (cmpf .ogt : (⟨S50000, .f32⟩ : BufTy).Contents (Elt F) → (⟨S50000, .f32⟩ : BufTy).Contents (Elt F) → (⟨S50000, .i1⟩ : BufTy).Contents (Elt F)),
    unary main_v14 main_v17 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S50000, .f32⟩) main_call0_v0) (broadcastInDim S50000 ![] bcast_S_S50000),
    TRef.ternary (TRef.of (T := ⟨S50000, .i1⟩) main_v16) (TRef.of (T := ⟨S50000, .f32⟩) main_v17) (TRef.of (T := ⟨S50000, .f32⟩) main_call0_v0) (TRef.of (T := ⟨S50000, .f32⟩) main_v18) select,
    nullary main_c (constantI S_ 32 0#32),
    unary main_c main_v19 (broadcastInDim S850000 ![] bcast_S_S850000 : (⟨S_, .i32⟩ : BufTy).Contents (Elt F) → (⟨S850000, .i32⟩ : BufTy).Contents (Elt F)),
    binary main_v8 main_v19 main_v20 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v21 (broadcastInDim S850000 ![] bcast_S_S850000 : (⟨S_, .i32⟩ : BufTy).Contents (Elt F) → (⟨S850000, .i32⟩ : BufTy).Contents (Elt F)),
    binary main_v8 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v8 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v11 main_v26 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v27 (broadcastInDim S850000 ![] bcast_S_S850000 : (⟨S_, .i32⟩ : BufTy).Contents (Elt F) → (⟨S850000, .i32⟩ : BufTy).Contents (Elt F)),
    binary main_v9 main_v27 main_v28 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v29 (broadcastInDim S850000 ![] bcast_S_S850000 : (⟨S_, .i32⟩ : BufTy).Contents (Elt F) → (⟨S850000, .i32⟩ : BufTy).Contents (Elt F)),
    binary main_v9 main_v29 main_v30 (addi : (⟨S850000, .i32⟩ : BufTy).Contents (Elt F) → (⟨S850000, .i32⟩ : BufTy).Contents (Elt F) → (⟨S850000, .i32⟩ : BufTy).Contents (Elt F)),
    ternary main_v28 main_v30 main_v9 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v31 main_v32 (broadcastInDim S850000x1 ![0] bcast_S850000_S850000x1_0 : (⟨S850000, .i32⟩ : BufTy).Contents (Elt F) → (⟨S850000x1, .i32⟩ : BufTy).Contents (Elt F)),
    binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v26 main_v33 main_v34 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v35 (broadcastInDim S850000 ![] bcast_S_S850000 : (⟨S_, .i32⟩ : BufTy).Contents (Elt F) → (⟨S850000, .i32⟩ : BufTy).Contents (Elt F)),
    binary main_v8 main_v35 main_v36 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v37 (broadcastInDim S850000 ![] bcast_S_S850000 : (⟨S_, .i32⟩ : BufTy).Contents (Elt F) → (⟨S850000, .i32⟩ : BufTy).Contents (Elt F)),
    binary main_v8 main_v37 main_v38 (addi : (⟨S850000, .i32⟩ : BufTy).Contents (Elt F) → (⟨S850000, .i32⟩ : BufTy).Contents (Elt F) → (⟨S850000, .i32⟩ : BufTy).Contents (Elt F)),
    ternary main_v36 main_v38 main_v8 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v39 main_v40 (broadcastInDim S850000x1 ![0] bcast_S850000_S850000x1_0 : (⟨S850000, .i32⟩ : BufTy).Contents (Elt F) → (⟨S850000x1, .i32⟩ : BufTy).Contents (Elt F)),
    binary main_v6 main_v40 main_v41 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v34 main_v42 (broadcastInDim S850000x1 ![0] bcast_S850000_S850000x1_0 : (⟨S850000, .f32⟩ : BufTy).Contents (Elt F) → (⟨S850000x1, .f32⟩ : BufTy).Contents (Elt F)),
    unary main_v42 main_v43 (broadcastInDim S850000x128 ![0, 1] bcast_S850000x1_S850000x128_0_1 : (⟨S850000x1, .f32⟩ : BufTy).Contents (Elt F) → (⟨S850000x128, .f32⟩ : BufTy).Contents (Elt F)),
    binary main_v41 main_v43 main_v44 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v45 (broadcastInDim S50000x128 ![] bcast_S_S50000x128 : (⟨S_, .f32⟩ : BufTy).Contents (Elt F) → (⟨S50000x128, .f32⟩ : BufTy).Contents (Elt F)),
    unary main_v9 main_v46 (broadcastInDim S850000x1 ![0] bcast_S850000_S850000x1_0 : (⟨S850000, .i32⟩ : BufTy).Contents (Elt F) → (⟨S850000x1, .i32⟩ : BufTy).Contents (Elt F)),
    ternary main_v45 main_v46 main_v44 main_v47 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    unary main_cst_9 main_v51 (broadcastInDim S50000x128 ![] bcast_S_S50000x128 : (⟨S_, .f32⟩ : BufTy).Contents (Elt F) → (⟨S50000x128, .f32⟩ : BufTy).Contents (Elt F)),
    binary main_v50 main_v51 main_v52 (cmpf .ogt : (⟨S50000x128, .f32⟩ : BufTy).Contents (Elt F) → (⟨S50000x128, .f32⟩ : BufTy).Contents (Elt F) → (⟨S50000x128, .i1⟩ : BufTy).Contents (Elt F)),
    unary main_arg7 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v54 main_v50 main_v55 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v52) (TRef.of (T := ⟨S50000x128, .f32⟩) main_v50) (TRef.of (T := ⟨S50000x128, .f32⟩) main_v55) (TRef.of (T := ⟨S50000x128, .f32⟩) main_v56) select ]

/-- The references operations 13 to 69 write, in order. -/
abbrev bodyA0_W : List (Ref sig .tc) := [main_cst_0, main_v12, main_v13, main_v14, main_cst_1, main_v15, main_v16, main_v17, main_cst_2, main_call0_v0, main_v18, main_c, main_v19, main_v20, main_c_3, main_v21, main_v22, main_v23, main_v24, main_v25, main_v26, main_c_4, main_v27, main_v28, main_c_5, main_v29, main_v30, main_v31, main_v32, main_v33, main_v34, main_c_6, main_v35, main_v36, main_c_7, main_v37, main_v38, main_v39, main_v40, main_v41, main_v42, main_v43, main_v44, main_cst_8, main_v45, main_v46, main_v47, main_v48, main_v49, main_v50, main_cst_9, main_v51, main_v52, main_v53, main_v54, main_v55, main_v56]

set_option maxHeartbeats 4000000 in
/-- Operations 70 to 76 of the reference's @main, in order. -/
abbrev headB0 : List (HloOp τ sig (Elt F)) :=
  [ binary main_v56 main_arg5 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v58 (iotaInDim S50000 32 0),
    binary main_v1 main_v58 main_v59 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v58 main_v60 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_10 (constant S_ .f32 0x3F800000#32),
    unary main_cst_10 main_v61 (broadcastInDim S50000 ![] bcast_S_S50000 : (⟨S_, .f32⟩ : BufTy).Contents (Elt F) → (⟨S50000, .f32⟩ : BufTy).Contents (Elt F)),
    binary main_v5 main_v61 main_v62 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 70 to 76 write, in order. -/
abbrev headB0_W : List (Ref sig .tc) := [main_v57, main_v58, main_v59, main_v60, main_cst_10, main_v61, main_v62]

set_option maxHeartbeats 4000000 in
/-- Operations 77 to 133 of the reference's @main, in order. -/
abbrev bodyB0 : List (HloOp τ sig (Elt F)) :=
  [ nullary main_cst_11 (constant S_ .f32 0x00000000#32),
    unary main_cst_11 main_v63 (broadcastInDim S50000 ![] bcast_S_S50000 : (⟨S_, .f32⟩ : BufTy).Contents (Elt F) → (⟨S50000, .f32⟩ : BufTy).Contents (Elt F)),
    unary main_v60 main_v64 (broadcastInDim S850000x1 ![0] bcast_S850000_S850000x1_0 : (⟨S850000, .i32⟩ : BufTy).Contents (Elt F) → (⟨S850000x1, .i32⟩ : BufTy).Contents (Elt F)),
    ternary main_v63 main_v64 main_v62 main_v65 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v66 (broadcastInDim S50000 ![] bcast_S_S50000 : (⟨S_, .f32⟩ : BufTy).Contents (Elt F) → (⟨S50000, .f32⟩ : BufTy).Contents (Elt F)),
    binary main_v65 main_v66 main_v67 (cmpf .ogt : (⟨S50000, .f32⟩ : BufTy).Contents (Elt F) → (⟨S50000, .f32⟩ : BufTy).Contents (Elt F) → (⟨S50000, .i1⟩ : BufTy).Contents (Elt F)),
    unary main_v65 main_v68 (Host.rsqrt : (⟨S50000, .f32⟩ : BufTy).Contents (Elt F) → (⟨S50000, .f32⟩ : BufTy).Contents (Elt F)),
    nullary main_cst_13 (constant S_ .f32 0x00000000#32),
    TRef.unary (TRef.of (T := ⟨S_, .f32⟩) main_cst_13) (TRef.of (T := ⟨S50000, .f32⟩) main_call2_v0) (broadcastInDim S50000 ![] bcast_S_S50000),
    TRef.ternary (TRef.of (T := ⟨S50000, .i1⟩) main_v67) (TRef.of (T := ⟨S50000, .f32⟩) main_v68) (TRef.of (T := ⟨S50000, .f32⟩) main_call2_v0) (TRef.of (T := ⟨S50000, .f32⟩) main_v69) select,
    nullary main_c_14 (constantI S_ 32 0#32),
    unary main_c_14 main_v70 (broadcastInDim S850000 ![] bcast_S_S850000 : (⟨S_, .i32⟩ : BufTy).Contents (Elt F) → (⟨S850000, .i32⟩ : BufTy).Contents (Elt F)),
    binary main_v59 main_v70 main_v71 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v72 (broadcastInDim S850000 ![] bcast_S_S850000 : (⟨S_, .i32⟩ : BufTy).Contents (Elt F) → (⟨S850000, .i32⟩ : BufTy).Contents (Elt F)),
    binary main_v59 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v59 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v69 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v76 main_v62 main_v77 (mulf : (⟨S850000, .f32⟩ : BufTy).Contents (Elt F) → (⟨S850000, .f32⟩ : BufTy).Contents (Elt F) → (⟨S850000, .f32⟩ : BufTy).Contents (Elt F)),
    nullary main_c_16 (constantI S_ 32 0#32),
    unary main_c_16 main_v78 (broadcastInDim S850000 ![] bcast_S_S850000 : (⟨S_, .i32⟩ : BufTy).Contents (Elt F) → (⟨S850000, .i32⟩ : BufTy).Contents (Elt F)),
    binary main_v60 main_v78 main_v79 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v80 (broadcastInDim S850000 ![] bcast_S_S850000 : (⟨S_, .i32⟩ : BufTy).Contents (Elt F) → (⟨S850000, .i32⟩ : BufTy).Contents (Elt F)),
    binary main_v60 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v60 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)),
    binary main_v69 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v77 main_v84 main_v85 (mulf : (⟨S850000, .f32⟩ : BufTy).Contents (Elt F) → (⟨S850000, .f32⟩ : BufTy).Contents (Elt F) → (⟨S850000, .f32⟩ : BufTy).Contents (Elt F)),
    nullary main_c_18 (constantI S_ 32 0#32),
    unary main_c_18 main_v86 (broadcastInDim S850000 ![] bcast_S_S850000 : (⟨S_, .i32⟩ : BufTy).Contents (Elt F) → (⟨S850000, .i32⟩ : BufTy).Contents (Elt F)),
    binary main_v59 main_v86 main_v87 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v88 (broadcastInDim S850000 ![] bcast_S_S850000 : (⟨S_, .i32⟩ : BufTy).Contents (Elt F) → (⟨S850000, .i32⟩ : BufTy).Contents (Elt F)),
    binary main_v59 main_v88 main_v89 (addi : (⟨S850000, .i32⟩ : BufTy).Contents (Elt F) → (⟨S850000, .i32⟩ : BufTy).Contents (Elt F) → (⟨S850000, .i32⟩ : BufTy).Contents (Elt F)),
    ternary main_v87 main_v89 main_v59 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v90 main_v91 (broadcastInDim S850000x1 ![0] bcast_S850000_S850000x1_0 : (⟨S850000, .i32⟩ : BufTy).Contents (Elt F) → (⟨S850000x1, .i32⟩ : BufTy).Contents (Elt F)),
    binary main_v57 main_v91 main_v92 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v85 main_v93 (broadcastInDim S850000x1 ![0] bcast_S850000_S850000x1_0 : (⟨S850000, .f32⟩ : BufTy).Contents (Elt F) → (⟨S850000x1, .f32⟩ : BufTy).Contents (Elt F)),
    unary main_v93 main_v94 (broadcastInDim S850000x128 ![0, 1] bcast_S850000x1_S850000x128_0_1 : (⟨S850000x1, .f32⟩ : BufTy).Contents (Elt F) → (⟨S850000x128, .f32⟩ : BufTy).Contents (Elt F)),
    binary main_v92 main_v94 main_v95 (mulf : (⟨S850000x128, .f32⟩ : BufTy).Contents (Elt F) → (⟨S850000x128, .f32⟩ : BufTy).Contents (Elt F) → (⟨S850000x128, .f32⟩ : BufTy).Contents (Elt F)),
    nullary main_cst_20 (constant S_ .f32 0x00000000#32),
    unary main_cst_20 main_v96 (broadcastInDim S50000x128 ![] bcast_S_S50000x128 : (⟨S_, .f32⟩ : BufTy).Contents (Elt F) → (⟨S50000x128, .f32⟩ : BufTy).Contents (Elt F)),
    unary main_v60 main_v97 (broadcastInDim S850000x1 ![0] bcast_S850000_S850000x1_0 : (⟨S850000, .i32⟩ : BufTy).Contents (Elt F) → (⟨S850000x1, .i32⟩ : BufTy).Contents (Elt F)),
    ternary main_v96 main_v97 main_v95 main_v98 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v98 main_v100 main_v101 (addf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x00000000#32),
    unary main_cst_21 main_v102 (broadcastInDim S50000x128 ![] bcast_S_S50000x128 : (⟨S_, .f32⟩ : BufTy).Contents (Elt F) → (⟨S50000x128, .f32⟩ : BufTy).Contents (Elt F)),
    binary main_v101 main_v102 main_v103 (cmpf .ogt : (⟨S50000x128, .f32⟩ : BufTy).Contents (Elt F) → (⟨S50000x128, .f32⟩ : BufTy).Contents (Elt F) → (⟨S50000x128, .i1⟩ : BufTy).Contents (Elt F)),
    unary main_arg7 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v105 main_v101 main_v106 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v103) (TRef.of (T := ⟨S50000x128, .f32⟩) main_v101) (TRef.of (T := ⟨S50000x128, .f32⟩) main_v106) (TRef.of (T := ⟨S50000x128, .f32⟩) main_v107) select ]

/-- The references operations 77 to 133 write, in order. -/
abbrev bodyB0_W : List (Ref sig .tc) := [main_cst_11, main_v63, main_v64, main_v65, main_cst_12, main_v66, main_v67, main_v68, main_cst_13, main_call2_v0, main_v69, main_c_14, main_v70, main_v71, main_c_15, main_v72, main_v73, main_v74, main_v75, main_v76, main_v77, main_c_16, main_v78, main_v79, main_c_17, main_v80, main_v81, main_v82, main_v83, main_v84, main_v85, main_c_18, main_v86, main_v87, main_c_19, main_v88, main_v89, main_v90, main_v91, main_v92, main_v93, main_v94, main_v95, main_cst_20, main_v96, main_v97, main_v98, main_v99, main_v100, main_v101, main_cst_21, main_v102, main_v103, main_v104, main_v105, main_v106, main_v107]

end Cert.ReferenceIdeal.Hand

end
-- ==== Proof.RefRunV0.lean ====
/- Scale 0 of the reference in five tables: from contents holding the arguments each table leaves the generated stages and keeps what it does not write. -/
import proofs.«160853_j19842748908317_1_alg».proof.Proof.RefRunC0
import proofs.«160853_j19842748908317_1_alg».proof.Proof.RefReadP
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem slices0_out (V : Valuation τ sig (Elt F)) :
    after slices0 V (Proc.devRef .tc main_v1) = val_main_v1 (F := F) (V (Proc.devRef .tc main_arg1))
    ∧ after slices0 V (Proc.devRef .tc main_v3) = val_main_v3 (F := F) (V (Proc.devRef .tc main_arg1))
    ∧ after slices0 V (Proc.devRef .tc main_v5) = val_main_v5 (F := F) (V (Proc.devRef .tc main_arg2)) := by
  refine ⟨?_, ?_, ?_⟩ <;> (after_results; rfl)

theorem headA0_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h3 : V (Proc.devRef .tc main_arg3) = x3)
    (hs1 : V (Proc.devRef .tc main_v1) = val_main_v1 (F := F) x1) (hs3 : V (Proc.devRef .tc main_v3) = val_main_v3 (F := F) x1)
    (hs5 : V (Proc.devRef .tc main_v5) = val_main_v5 (F := F) x2) :
    after headA0 V (Proc.devRef .tc main_v6) = val_main_v6 (F := F) x0 x3
    ∧ after headA0 V (Proc.devRef .tc main_v8) = val_main_v8 (F := F) x1
    ∧ after headA0 V (Proc.devRef .tc main_v9) = val_main_v9 (F := F) x1
    ∧ after headA0 V (Proc.devRef .tc main_v11) = val_main_v11 (F := F) x2 := by
  refine ⟨?_, ?_, ?_, ?_⟩
  · after_results; rw [h0, h3]; rfl
  · after_results; rw [hs1]; rfl
  · after_results; rw [hs3]; rfl
  · after_results; rw [hs5]; rfl

set_option maxHeartbeats 1600000 in

theorem bodyA0_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h4 : V (Proc.devRef .tc main_arg4) = x4) (h7 : V (Proc.devRef .tc main_arg7) = x7)
    (hd : V (Proc.devRef .tc main_v6) = val_main_v6 (F := F) x0 x3) (hr : V (Proc.devRef .tc main_v8) = val_main_v8 (F := F) x1)
    (hc : V (Proc.devRef .tc main_v9) = val_main_v9 (F := F) x1) (hw : V (Proc.devRef .tc main_v11) = val_main_v11 (F := F) x2) :
    after bodyA0 V (Proc.devRef .tc main_v56) = val_main_v56 (F := F) x0 x1 x2 x3 x4 x7 := by
  after_results_simp
  simp only [TRef.ofBuf, TRef.toBuf, cast_eq]
  rw [h4, h7, hd, hr, hc, hw]
  rfl

theorem slices0_writes : (slices0 : List (HloOp τ sig (Elt F))).Forall fun op => op.writes ⊆ (slices0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem slices0_kept (V : Valuation τ sig (Elt F)) {r : Ref sig .tc} (hr : r ∉ slices0_W) :
    after slices0 V (Proc.devRef .tc r) = V (Proc.devRef .tc r) :=
  after_of_writes_sub slices0 V slices0_writes hr

theorem headA0_writes : (headA0 : List (HloOp τ sig (Elt F))).Forall fun op => op.writes ⊆ (headA0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headA0_kept (V : Valuation τ sig (Elt F)) {r : Ref sig .tc} (hr : r ∉ headA0_W) :
    after headA0 V (Proc.devRef .tc r) = V (Proc.devRef .tc r) :=
  after_of_writes_sub headA0 V headA0_writes hr

theorem bodyA0_writes : (bodyA0 : List (HloOp τ sig (Elt F))).Forall fun op => op.writes ⊆ (bodyA0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyA0_kept (V : Valuation τ sig (Elt F)) {r : Ref sig .tc} (hr : r ∉ bodyA0_W) :
    after bodyA0 V (Proc.devRef .tc r) = V (Proc.devRef .tc r) :=
  after_of_writes_sub bodyA0 V bodyA0_writes hr

theorem headB0_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h5 : V (Proc.devRef .tc main_arg5) = x5) (hl : V (Proc.devRef .tc main_v56) = val_main_v56 (F := F) x0 x1 x2 x3 x4 x7)
    (hs1 : V (Proc.devRef .tc main_v1) = val_main_v1 (F := F) x1) (hs3 : V (Proc.devRef .tc main_v3) = val_main_v3 (F := F) x1)
    (hs5 : V (Proc.devRef .tc main_v5) = val_main_v5 (F := F) x2) :
    after headB0 V (Proc.devRef .tc main_v57) = val_main_v57 (F := F) x0 x1 x2 x3 x4 x5 x7
    ∧ after headB0 V (Proc.devRef .tc main_v59) = val_main_v59 (F := F) x1
    ∧ after headB0 V (Proc.devRef .tc main_v60) = val_main_v60 (F := F) x1
    ∧ after headB0 V (Proc.devRef .tc main_v62) = val_main_v62 (F := F) x2 := by
  refine ⟨?_, ?_, ?_, ?_⟩
  · after_results; rw [h5, hl]; rfl
  · after_results; rw [hs1]; rfl
  · after_results; rw [hs3]; rfl
  · after_results; rw [hs5]; rfl

set_option maxHeartbeats 1600000 in

theorem bodyB0_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h6 : V (Proc.devRef .tc main_arg6) = x6) (h7 : V (Proc.devRef .tc main_arg7) = x7)
    (hd : V (Proc.devRef .tc main_v57) = val_main_v57 (F := F) x0 x1 x2 x3 x4 x5 x7) (hr : V (Proc.devRef .tc main_v59) = val_main_v59 (F := F) x1)
    (hc : V (Proc.devRef .tc main_v60) = val_main_v60 (F := F) x1) (hw : V (Proc.devRef .tc main_v62) = val_main_v62 (F := F) x2) :
    after bodyB0 V (Proc.devRef .tc main_v107) = val_main_v107 (F := F) x0 x1 x2 x3 x4 x5 x6 x7 := by
  after_results_simp
  simp only [TRef.ofBuf, TRef.toBuf, cast_eq]
  rw [h6, h7, hd, hr, hc, hw]
  rfl

theorem headB0_writes : (headB0 : List (HloOp τ sig (Elt F))).Forall fun op => op.writes ⊆ (headB0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headB0_kept (V : Valuation τ sig (Elt F)) {r : Ref sig .tc} (hr : r ∉ headB0_W) :
    after headB0 V (Proc.devRef .tc r) = V (Proc.devRef .tc r) :=
  after_of_writes_sub headB0 V headB0_writes hr

theorem bodyB0_writes : (bodyB0 : List (HloOp τ sig (Elt F))).Forall fun op => op.writes ⊆ (bodyB0_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyB0_kept (V : Valuation τ sig (Elt F)) {r : Ref sig .tc} (hr : r ∉ bodyB0_W) :
    after bodyB0 V (Proc.devRef .tc r) = V (Proc.devRef .tc r) :=
  after_of_writes_sub bodyB0 V bodyB0_writes hr

theorem slices0_fresh : (slices0 : List (HloOp τ sig (Elt F))).Forall fun op => op.fresh = ∅ := by
  simp only [List.Forall]; repeat' constructor
theorem headA0_fresh : (headA0 : List (HloOp τ sig (Elt F))).Forall fun op => op.fresh = ∅ := by
  simp only [List.Forall]; repeat' constructor
theorem bodyA0_fresh : (bodyA0 : List (HloOp τ sig (Elt F))).Forall fun op => op.fresh = ∅ := by
  simp only [List.Forall]; repeat' constructor
theorem headB0_fresh : (headB0 : List (HloOp τ sig (Elt F))).Forall fun op => op.fresh = ∅ := by
  simp only [List.Forall]; repeat' constructor
theorem bodyB0_fresh : (bodyB0 : List (HloOp τ sig (Elt F))).Forall fun op => op.fresh = ∅ := by
  simp only [List.Forall]; repeat' constructor

def scale0 : List (HloOp τ sig (Elt F)) := slices0 ++ (headA0 ++ (bodyA0 ++ (headB0 ++ bodyB0)))

abbrev scale0_W : List (Ref sig .tc) := slices0_W ++ headA0_W ++ bodyA0_W ++ headB0_W ++ bodyB0_W

theorem after_scale0 (V : Valuation τ sig (Elt F)) :
    after scale0 V = after bodyB0 (after headB0 (after bodyA0 (after headA0 (after slices0 V)))) := by
  simp only [scale0, StableHlo.after_append]

theorem scale0_fresh : ∀ op ∈ (scale0 : List (HloOp τ sig (Elt F))), op.fresh = ∅ := by
  intro op hop
  simp only [scale0, List.mem_append] at hop
  rcases hop with h | h | h | h | h
  · exact List.forall_iff_forall_mem.mp slices0_fresh op h
  · exact List.forall_iff_forall_mem.mp headA0_fresh op h
  · exact List.forall_iff_forall_mem.mp bodyA0_fresh op h
  · exact List.forall_iff_forall_mem.mp headB0_fresh op h
  · exact List.forall_iff_forall_mem.mp bodyB0_fresh op h

theorem scale0_kept (V : Valuation τ sig (Elt F)) {r : Ref sig .tc}
    (hr : r ∉ scale0_W) :
    after scale0 V (Proc.devRef .tc r) = V (Proc.devRef .tc r) := by
  rw [after_scale0]
  simp only [scale0_W, List.mem_append, not_or] at hr
  obtain ⟨⟨⟨⟨k1, k2⟩, k3⟩, k4⟩, k5⟩ := hr
  rw [bodyB0_kept _ k5, headB0_kept _ k4, bodyA0_kept _ k3, headA0_kept _ k2, slices0_kept _ k1]

theorem scale0_args (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale0 V (Proc.devRef .tc main_arg0) = x0 ∧ after scale0 V (Proc.devRef .tc main_arg1) = x1
    ∧ after scale0 V (Proc.devRef .tc main_arg2) = x2 ∧ after scale0 V (Proc.devRef .tc main_arg3) = x3
    ∧ after scale0 V (Proc.devRef .tc main_arg4) = x4 ∧ after scale0 V (Proc.devRef .tc main_arg5) = x5
    ∧ after scale0 V (Proc.devRef .tc main_arg6) = x6 ∧ after scale0 V (Proc.devRef .tc main_arg7) = x7 :=
  ⟨(scale0_kept V (by decide)).trans h0, (scale0_kept V (by decide)).trans h1, (scale0_kept V (by decide)).trans h2,
    (scale0_kept V (by decide)).trans h3, (scale0_kept V (by decide)).trans h4, (scale0_kept V (by decide)).trans h5,
    (scale0_kept V (by decide)).trans h6, (scale0_kept V (by decide)).trans h7⟩

theorem scale0_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale0 V (Proc.devRef .tc main_v107) = val_main_v107 (F := F) x0 x1 x2 x3 x4 x5 x6 x7 := by
  rw [after_scale0]
  obtain ⟨s1, s3, s5⟩ := slices0_out V
  rw [h1] at s1 s3
  rw [h2] at s5
  obtain ⟨ad, ar, ac, aw⟩ := headA0_out (after slices0 V) x0 x1 x2 x3 x4 x5 x6 x7
    ((slices0_kept V (by decide)).trans h0) ((slices0_kept V (by decide)).trans h3) s1 s3 s5
  have al := bodyA0_out (after headA0 (after slices0 V)) x0 x1 x2 x3 x4 x5 x6 x7
    ((headA0_kept _ (by decide)).trans ((slices0_kept V (by decide)).trans h4))
    ((headA0_kept _ (by decide)).trans ((slices0_kept V (by decide)).trans h7)) ad ar ac aw
  obtain ⟨bd, br, bc, bw⟩ := headB0_out (after bodyA0 (after headA0 (after slices0 V))) x0 x1 x2 x3 x4 x5 x6 x7
    ((bodyA0_kept _ (by decide)).trans ((headA0_kept _ (by decide)).trans ((slices0_kept V (by decide)).trans h5))) al
    ((bodyA0_kept _ (by decide)).trans ((headA0_kept _ (by decide)).trans s1))
    ((bodyA0_kept _ (by decide)).trans ((headA0_kept _ (by decide)).trans s3))
    ((bodyA0_kept _ (by decide)).trans ((headA0_kept _ (by decide)).trans s5))
  exact bodyB0_out (after headB0 (after bodyA0 (after headA0 (after slices0 V)))) x0 x1 x2 x3 x4 x5 x6 x7
    ((headB0_kept _ (by decide)).trans ((bodyA0_kept _ (by decide)).trans ((headA0_kept _ (by decide)).trans ((slices0_kept V (by decide)).trans h6))))
    ((headB0_kept _ (by decide)).trans ((bodyA0_kept _ (by decide)).trans ((headA0_kept _ (by decide)).trans ((slices0_kept V (by decide)).trans h7))))
    bd br bc bw

end Cert.ReferenceIdeal.Hand

end
-- ==== Proof.RefRunC1.lean ====
/- The operations of scale 1 of the reference as five tables (its six slicing operations; each layer as the seven operations up to its concatenates, then the other fifty-seven), each with the references it writes. -/
import proofs.«160853_j19842748908317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 134 to 139 of the reference's @main, in order. -/
abbrev slices1 : List (HloOp τ sig (Elt F)) :=
  [ unary main_arg1 main_v108 ((extractStridedSlice S1x1x800000 ![1, 0, 0] · slices_S4x2x800000_S1x1x800000_1_0_0) : (⟨S4x2x800000, .i32⟩ : BufTy).Contents (Elt F) → (⟨S1x1x800000, .i32⟩ : BufTy).Contents (Elt F)),
    reshape main_v108 main_v109 rfl shapeCasts_S1x1x800000_S800000,
    unary main_arg1 main_v110 ((extractStridedSlice S1x1x800000 ![1, 1, 0] · slices_S4x2x800000_S1x1x800000_1_1_0) : (⟨S4x2x800000, .i32⟩ : BufTy).Contents (Elt F) → (⟨S1x1x800000, .i32⟩ : BufTy).Contents (Elt F)),
    reshape main_v110 main_v111 rfl shapeCasts_S1x1x800000_S800000,
    unary main_arg2 main_v112 ((extractStridedSlice S1x800000 ![1, 0] · slices_S4x800000_S1x800000_1_0) : (⟨S4x800000, .f32⟩ : BufTy).Contents (Elt F) → (⟨S1x800000, .f32⟩ : BufTy).Contents (Elt F)),
    reshape main_v112 main_v113 rfl shapeCasts_S1x800000_S800000 ]

/-- The references operations 134 to 139 write, in order. -/
abbrev slices1_W : List (Ref sig .tc) := [main_v108, main_v109, main_v110, main_v111, main_v112, main_v113]

set_option maxHeartbeats 4000000 in
/-- Operations 140 to 146 of the reference's @main, in order. -/
abbrev headA1 : List (HloOp τ sig (Elt F)) :=
  [ binary main_arg0 main_arg3 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v115 (iotaInDim S50000 32 0),
    binary main_v109 main_v115 main_v116 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v111 main_v115 main_v117 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_22 (constant S_ .f32 0x3F800000#32),
    unary main_cst_22 main_v118 (broadcastInDim S50000 ![] bcast_S_S50000 : (⟨S_, .f32⟩ : BufTy).Contents (Elt F) → (⟨S50000, .f32⟩ : BufTy).Contents (Elt F)),
    binary main_v113 main_v118 main_v119 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 140 to 146 write, in order. -/
abbrev headA1_W : List (Ref sig .tc) := [main_v114, main_v115, main_v116, main_v117, main_cst_22, main_v118, main_v119]

set_option maxHeartbeats 4000000 in
/-- Operations 147 to 203 of the reference's @main, in order. -/
abbrev bodyA1 : List (HloOp τ sig (Elt F)) :=
  [ nullary main_cst_23 (constant S_ .f32 0x00000000#32),
    unary main_cst_23 main_v120 (broadcastInDim S50000 ![] bcast_S_S50000 : (⟨S_, .f32⟩ : BufTy).Contents (Elt F) → (⟨S50000, .f32⟩ : BufTy).Contents (Elt F)),
    unary main_v117 main_v121 (broadcastInDim S850000x1 ![0] bcast_S850000_S850000x1_0 : (⟨S850000, .i32⟩ : BufTy).Contents (Elt F) → (⟨S850000x1, .i32⟩ : BufTy).Contents (Elt F)),
    ternary main_v120 main_v121 main_v119 main_v122 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_24 (constant S_ .f32 0x00000000#32),
    unary main_cst_24 main_v123 (broadcastInDim S50000 ![] bcast_S_S50000 : (⟨S_, .f32⟩ : BufTy).Contents (Elt F) → (⟨S50000, .f32⟩ : BufTy).Contents (Elt F)),
    binary main_v122 main_v123 main_v124 (cmpf .ogt : (⟨S50000, .f32⟩ : BufTy).Contents (Elt F) → (⟨S50000, .f32⟩ : BufTy).Contents (Elt F) → (⟨S50000, .i1⟩ : BufTy).Contents (Elt F)),
    unary main_v122 main_v125 (Host.rsqrt : (⟨S50000, .f32⟩ : BufTy).Contents (Elt F) → (⟨S50000, .f32⟩ : BufTy).Contents (Elt F)),
    nullary main_cst_25 (constant S_ .f32 0x00000000#32),
    TRef.unary (TRef.of (T := ⟨S_, .f32⟩) main_cst_25) (TRef.of (T := ⟨S50000, .f32⟩) main_call4_v0) (broadcastInDim S50000 ![] bcast_S_S50000),
    TRef.ternary (TRef.of (T := ⟨S50000, .i1⟩) main_v124) (TRef.of (T := ⟨S50000, .f32⟩) main_v125) (TRef.of (T := ⟨S50000, .f32⟩) main_call4_v0) (TRef.of (T := ⟨S50000, .f32⟩) main_v126) select,
    nullary main_c_26 (constantI S_ 32 0#32),
    unary main_c_26 main_v127 (broadcastInDim S850000 ![] bcast_S_S850000 : (⟨S_, .i32⟩ : BufTy).Contents (Elt F) → (⟨S850000, .i32⟩ : BufTy).Contents (Elt F)),
    binary main_v116 main_v127 main_v128 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v129 (broadcastInDim S850000 ![] bcast_S_S850000 : (⟨S_, .i32⟩ : BufTy).Contents (Elt F) → (⟨S850000, .i32⟩ : BufTy).Contents (Elt F)),
    binary main_v116 main_v129 main_v130 (addi : (⟨S850000, .i32⟩ : BufTy).Contents (Elt F) → (⟨S850000, .i32⟩ : BufTy).Contents (Elt F) → (⟨S850000, .i32⟩ : BufTy).Contents (Elt F)),
    ternary main_v128 main_v130 main_v116 main_v131 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v131 main_v132 (broadcastInDim S850000x1 ![0] bcast_S850000_S850000x1_0 : (⟨S850000, .i32⟩ : BufTy).Contents (Elt F) → (⟨S850000x1, .i32⟩ : BufTy).Contents (Elt F)),
    binary main_v126 main_v132 main_v133 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v133 main_v119 main_v134 (mulf : (⟨S850000, .f32⟩ : BufTy).Contents (Elt F) → (⟨S850000, .f32⟩ : BufTy).Contents (Elt F) → (⟨S850000, .f32⟩ : BufTy).Contents (Elt F)),
    nullary main_c_28 (constantI S_ 32 0#32),
    unary main_c_28 main_v135 (broadcastInDim S850000 ![] bcast_S_S850000 : (⟨S_, .i32⟩ : BufTy).Contents (Elt F) → (⟨S850000, .i32⟩ : BufTy).Contents (Elt F)),
    binary main_v117 main_v135 main_v136 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v137 (broadcastInDim S850000 ![] bcast_S_S850000 : (⟨S_, .i32⟩ : BufTy).Contents (Elt F) → (⟨S850000, .i32⟩ : BufTy).Contents (Elt F)),
    binary main_v117 main_v137 main_v138 (addi : (⟨S850000, .i32⟩ : BufTy).Contents (Elt F) → (⟨S850000, .i32⟩ : BufTy).Contents (Elt F) → (⟨S850000, .i32⟩ : BufTy).Contents (Elt F)),
    ternary main_v136 main_v138 main_v117 main_v139 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v139 main_v140 (broadcastInDim S850000x1 ![0] bcast_S850000_S850000x1_0 : (⟨S850000, .i32⟩ : BufTy).Contents (Elt F) → (⟨S850000x1, .i32⟩ : BufTy).Contents (Elt F)),
    binary main_v126 main_v140 main_v141 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v134 main_v141 main_v142 (mulf : (⟨S850000, .f32⟩ : BufTy).Contents (Elt F) → (⟨S850000, .f32⟩ : BufTy).Contents (Elt F) → (⟨S850000, .f32⟩ : BufTy).Contents (Elt F)),
    nullary main_c_30 (constantI S_ 32 0#32),
    unary main_c_30 main_v143 (broadcastInDim S850000 ![] bcast_S_S850000 : (⟨S_, .i32⟩ : BufTy).Contents (Elt F) → (⟨S850000, .i32⟩ : BufTy).Contents (Elt F)),
    binary main_v116 main_v143 main_v144 (cmpi .slt : (⟨S850000, .i32⟩ : BufTy).Contents (Elt F) → (⟨S850000, .i32⟩ : BufTy).Contents (Elt F) → (⟨S850000, .i1⟩ : BufTy).Contents (Elt F)),
    nullary main_c_31 (constantI S_ 32 50000#32),
    unary main_c_31 main_v145 (broadcastInDim S850000 ![] bcast_S_S850000 : (⟨S_, .i32⟩ : BufTy).Contents (Elt F) → (⟨S850000, .i32⟩ : BufTy).Contents (Elt F)),
    binary main_v116 main_v145 main_v146 (addi : (⟨S850000, .i32⟩ : BufTy).Contents (Elt F) → (⟨S850000, .i32⟩ : BufTy).Contents (Elt F) → (⟨S850000, .i32⟩ : BufTy).Contents (Elt F)),
    ternary main_v144 main_v146 main_v116 main_v147 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v147 main_v148 (broadcastInDim S850000x1 ![0] bcast_S850000_S850000x1_0 : (⟨S850000, .i32⟩ : BufTy).Contents (Elt F) → (⟨S850000x1, .i32⟩ : BufTy).Contents (Elt F)),
    binary main_v114 main_v148 main_v149 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v142 main_v150 (broadcastInDim S850000x1 ![0] bcast_S850000_S850000x1_0 : (⟨S850000, .f32⟩ : BufTy).Contents (Elt F) → (⟨S850000x1, .f32⟩ : BufTy).Contents (Elt F)),
    unary main_v150 main_v151 (broadcastInDim S850000x128 ![0, 1] bcast_S850000x1_S850000x128_0_1 : (⟨S850000x1, .f32⟩ : BufTy).Contents (Elt F) → (⟨S850000x128, .f32⟩ : BufTy).Contents (Elt F)),
    binary main_v149 main_v151 main_v152 (mulf : (⟨S850000x128, .f32⟩ : BufTy).Contents (Elt F) → (⟨S850000x128, .f32⟩ : BufTy).Contents (Elt F) → (⟨S850000x128, .f32⟩ : BufTy).Contents (Elt F)),
    nullary main_cst_32 (constant S_ .f32 0x00000000#32),
    unary main_cst_32 main_v153 (broadcastInDim S50000x128 ![] bcast_S_S50000x128 : (⟨S_, .f32⟩ : BufTy).Contents (Elt F) → (⟨S50000x128, .f32⟩ : BufTy).Contents (Elt F)),
    unary main_v117 main_v154 (broadcastInDim S850000x1 ![0] bcast_S850000_S850000x1_0 : (⟨S850000, .i32⟩ : BufTy).Contents (Elt F) → (⟨S850000x1, .i32⟩ : BufTy).Contents (Elt F)),
    ternary main_v153 main_v154 main_v152 main_v155 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (addf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x00000000#32),
    unary main_cst_33 main_v159 (broadcastInDim S50000x128 ![] bcast_S_S50000x128 : (⟨S_, .f32⟩ : BufTy).Contents (Elt F) → (⟨S50000x128, .f32⟩ : BufTy).Contents (Elt F)),
    binary main_v158 main_v159 main_v160 (cmpf .ogt : (⟨S50000x128, .f32⟩ : BufTy).Contents (Elt F) → (⟨S50000x128, .f32⟩ : BufTy).Contents (Elt F) → (⟨S50000x128, .i1⟩ : BufTy).Contents (Elt F)),
    unary main_arg7 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v162 main_v158 main_v163 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v160) (TRef.of (T := ⟨S50000x128, .f32⟩) main_v158) (TRef.of (T := ⟨S50000x128, .f32⟩) main_v163) (TRef.of (T := ⟨S50000x128, .f32⟩) main_v164) select ]

/-- The references operations 147 to 203 write, in order. -/
abbrev bodyA1_W : List (Ref sig .tc) := [main_cst_23, main_v120, main_v121, main_v122, main_cst_24, main_v123, main_v124, main_v125, main_cst_25, main_call4_v0, main_v126, main_c_26, main_v127, main_v128, main_c_27, main_v129, main_v130, main_v131, main_v132, main_v133, main_v134, main_c_28, main_v135, main_v136, main_c_29, main_v137, main_v138, main_v139, main_v140, main_v141, main_v142, main_c_30, main_v143, main_v144, main_c_31, main_v145, main_v146, main_v147, main_v148, main_v149, main_v150, main_v151, main_v152, main_cst_32, main_v153, main_v154, main_v155, main_v156, main_v157, main_v158, main_cst_33, main_v159, main_v160, main_v161, main_v162, main_v163, main_v164]

set_option maxHeartbeats 4000000 in
/-- Operations 204 to 210 of the reference's @main, in order. -/
abbrev headB1 : List (HloOp τ sig (Elt F)) :=
  [ binary main_v164 main_arg5 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v166 (iotaInDim S50000 32 0),
    binary main_v109 main_v166 main_v167 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v111 main_v166 main_v168 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_34 (constant S_ .f32 0x3F800000#32),
    unary main_cst_34 main_v169 (broadcastInDim S50000 ![] bcast_S_S50000 : (⟨S_, .f32⟩ : BufTy).Contents (Elt F) → (⟨S50000, .f32⟩ : BufTy).Contents (Elt F)),
    binary main_v113 main_v169 main_v170 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 204 to 210 write, in order. -/
abbrev headB1_W : List (Ref sig .tc) := [main_v165, main_v166, main_v167, main_v168, main_cst_34, main_v169, main_v170]

set_option maxHeartbeats 4000000 in
/-- Operations 211 to 267 of the reference's @main, in order. -/
abbrev bodyB1 : List (HloOp τ sig (Elt F)) :=
  [ nullary main_cst_35 (constant S_ .f32 0x00000000#32),
    unary main_cst_35 main_v171 (broadcastInDim S50000 ![] bcast_S_S50000 : (⟨S_, .f32⟩ : BufTy).Contents (Elt F) → (⟨S50000, .f32⟩ : BufTy).Contents (Elt F)),
    unary main_v168 main_v172 (broadcastInDim S850000x1 ![0] bcast_S850000_S850000x1_0 : (⟨S850000, .i32⟩ : BufTy).Contents (Elt F) → (⟨S850000x1, .i32⟩ : BufTy).Contents (Elt F)),
    ternary main_v171 main_v172 main_v170 main_v173 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_36 (constant S_ .f32 0x00000000#32),
    unary main_cst_36 main_v174 (broadcastInDim S50000 ![] bcast_S_S50000 : (⟨S_, .f32⟩ : BufTy).Contents (Elt F) → (⟨S50000, .f32⟩ : BufTy).Contents (Elt F)),
    binary main_v173 main_v174 main_v175 (cmpf .ogt : (⟨S50000, .f32⟩ : BufTy).Contents (Elt F) → (⟨S50000, .f32⟩ : BufTy).Contents (Elt F) → (⟨S50000, .i1⟩ : BufTy).Contents (Elt F)),
    unary main_v173 main_v176 (Host.rsqrt : (⟨S50000, .f32⟩ : BufTy).Contents (Elt F) → (⟨S50000, .f32⟩ : BufTy).Contents (Elt F)),
    nullary main_cst_37 (constant S_ .f32 0x00000000#32),
    TRef.unary (TRef.of (T := ⟨S_, .f32⟩) main_cst_37) (TRef.of (T := ⟨S50000, .f32⟩) main_call6_v0) (broadcastInDim S50000 ![] bcast_S_S50000),
    TRef.ternary (TRef.of (T := ⟨S50000, .i1⟩) main_v175) (TRef.of (T := ⟨S50000, .f32⟩) main_v176) (TRef.of (T := ⟨S50000, .f32⟩) main_call6_v0) (TRef.of (T := ⟨S50000, .f32⟩) main_v177) select,
    nullary main_c_38 (constantI S_ 32 0#32),
    unary main_c_38 main_v178 (broadcastInDim S850000 ![] bcast_S_S850000 : (⟨S_, .i32⟩ : BufTy).Contents (Elt F) → (⟨S850000, .i32⟩ : BufTy).Contents (Elt F)),
    binary main_v167 main_v178 main_v179 (cmpi .slt : (⟨S850000, .i32⟩ : BufTy).Contents (Elt F) → (⟨S850000, .i32⟩ : BufTy).Contents (Elt F) → (⟨S850000, .i1⟩ : BufTy).Contents (Elt F)),
    nullary main_c_39 (constantI S_ 32 50000#32),
    unary main_c_39 main_v180 (broadcastInDim S850000 ![] bcast_S_S850000 : (⟨S_, .i32⟩ : BufTy).Contents (Elt F) → (⟨S850000, .i32⟩ : BufTy).Contents (Elt F)),
    binary main_v167 main_v180 main_v181 (addi : (⟨S850000, .i32⟩ : BufTy).Contents (Elt F) → (⟨S850000, .i32⟩ : BufTy).Contents (Elt F) → (⟨S850000, .i32⟩ : BufTy).Contents (Elt F)),
    ternary main_v179 main_v181 main_v167 main_v182 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v182 main_v183 (broadcastInDim S850000x1 ![0] bcast_S850000_S850000x1_0 : (⟨S850000, .i32⟩ : BufTy).Contents (Elt F) → (⟨S850000x1, .i32⟩ : BufTy).Contents (Elt F)),
    binary main_v177 main_v183 main_v184 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v184 main_v170 main_v185 (mulf : (⟨S850000, .f32⟩ : BufTy).Contents (Elt F) → (⟨S850000, .f32⟩ : BufTy).Contents (Elt F) → (⟨S850000, .f32⟩ : BufTy).Contents (Elt F)),
    nullary main_c_40 (constantI S_ 32 0#32),
    unary main_c_40 main_v186 (broadcastInDim S850000 ![] bcast_S_S850000 : (⟨S_, .i32⟩ : BufTy).Contents (Elt F) → (⟨S850000, .i32⟩ : BufTy).Contents (Elt F)),
    binary main_v168 main_v186 main_v187 (cmpi .slt : (⟨S850000, .i32⟩ : BufTy).Contents (Elt F) → (⟨S850000, .i32⟩ : BufTy).Contents (Elt F) → (⟨S850000, .i1⟩ : BufTy).Contents (Elt F)),
    nullary main_c_41 (constantI S_ 32 50000#32),
    unary main_c_41 main_v188 (broadcastInDim S850000 ![] bcast_S_S850000 : (⟨S_, .i32⟩ : BufTy).Contents (Elt F) → (⟨S850000, .i32⟩ : BufTy).Contents (Elt F)),
    binary main_v168 main_v188 main_v189 (addi : (⟨S850000, .i32⟩ : BufTy).Contents (Elt F) → (⟨S850000, .i32⟩ : BufTy).Contents (Elt F) → (⟨S850000, .i32⟩ : BufTy).Contents (Elt F)),
    ternary main_v187 main_v189 main_v168 main_v190 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v190 main_v191 (broadcastInDim S850000x1 ![0] bcast_S850000_S850000x1_0 : (⟨S850000, .i32⟩ : BufTy).Contents (Elt F) → (⟨S850000x1, .i32⟩ : BufTy).Contents (Elt F)),
    binary main_v177 main_v191 main_v192 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v185 main_v192 main_v193 (mulf : (⟨S850000, .f32⟩ : BufTy).Contents (Elt F) → (⟨S850000, .f32⟩ : BufTy).Contents (Elt F) → (⟨S850000, .f32⟩ : BufTy).Contents (Elt F)),
    nullary main_c_42 (constantI S_ 32 0#32),
    unary main_c_42 main_v194 (broadcastInDim S850000 ![] bcast_S_S850000 : (⟨S_, .i32⟩ : BufTy).Contents (Elt F) → (⟨S850000, .i32⟩ : BufTy).Contents (Elt F)),
    binary main_v167 main_v194 main_v195 (cmpi .slt : (⟨S850000, .i32⟩ : BufTy).Contents (Elt F) → (⟨S850000, .i32⟩ : BufTy).Contents (Elt F) → (⟨S850000, .i1⟩ : BufTy).Contents (Elt F)),
    nullary main_c_43 (constantI S_ 32 50000#32),
    unary main_c_43 main_v196 (broadcastInDim S850000 ![] bcast_S_S850000 : (⟨S_, .i32⟩ : BufTy).Contents (Elt F) → (⟨S850000, .i32⟩ : BufTy).Contents (Elt F)),
    binary main_v167 main_v196 main_v197 (addi : (⟨S850000, .i32⟩ : BufTy).Contents (Elt F) → (⟨S850000, .i32⟩ : BufTy).Contents (Elt F) → (⟨S850000, .i32⟩ : BufTy).Contents (Elt F)),
    ternary main_v195 main_v197 main_v167 main_v198 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v198 main_v199 (broadcastInDim S850000x1 ![0] bcast_S850000_S850000x1_0 : (⟨S850000, .i32⟩ : BufTy).Contents (Elt F) → (⟨S850000x1, .i32⟩ : BufTy).Contents (Elt F)),
    binary main_v165 main_v199 main_v200 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v193 main_v201 (broadcastInDim S850000x1 ![0] bcast_S850000_S850000x1_0 : (⟨S850000, .f32⟩ : BufTy).Contents (Elt F) → (⟨S850000x1, .f32⟩ : BufTy).Contents (Elt F)),
    unary main_v201 main_v202 (broadcastInDim S850000x128 ![0, 1] bcast_S850000x1_S850000x128_0_1 : (⟨S850000x1, .f32⟩ : BufTy).Contents (Elt F) → (⟨S850000x128, .f32⟩ : BufTy).Contents (Elt F)),
    binary main_v200 main_v202 main_v203 (mulf : (⟨S850000x128, .f32⟩ : BufTy).Contents (Elt F) → (⟨S850000x128, .f32⟩ : BufTy).Contents (Elt F) → (⟨S850000x128, .f32⟩ : BufTy).Contents (Elt F)),
    nullary main_cst_44 (constant S_ .f32 0x00000000#32),
    unary main_cst_44 main_v204 (broadcastInDim S50000x128 ![] bcast_S_S50000x128 : (⟨S_, .f32⟩ : BufTy).Contents (Elt F) → (⟨S50000x128, .f32⟩ : BufTy).Contents (Elt F)),
    unary main_v168 main_v205 (broadcastInDim S850000x1 ![0] bcast_S850000_S850000x1_0 : (⟨S850000, .i32⟩ : BufTy).Contents (Elt F) → (⟨S850000x1, .i32⟩ : BufTy).Contents (Elt F)),
    ternary main_v204 main_v205 main_v203 main_v206 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v207 (broadcastInDim S1x128 ![1] bcast_S128_S1x128_1 : (⟨S128, .f32⟩ : BufTy).Contents (Elt F) → (⟨S1x128, .f32⟩ : BufTy).Contents (Elt F)),
    unary main_v207 main_v208 (broadcastInDim S50000x128 ![0, 1] bcast_S1x128_S50000x128_0_1 : (⟨S1x128, .f32⟩ : BufTy).Contents (Elt F) → (⟨S50000x128, .f32⟩ : BufTy).Contents (Elt F)),
    binary main_v206 main_v208 main_v209 (addf : (⟨S50000x128, .f32⟩ : BufTy).Contents (Elt F) → (⟨S50000x128, .f32⟩ : BufTy).Contents (Elt F) → (⟨S50000x128, .f32⟩ : BufTy).Contents (Elt F)),
    nullary main_cst_45 (constant S_ .f32 0x00000000#32),
    unary main_cst_45 main_v210 (broadcastInDim S50000x128 ![] bcast_S_S50000x128 : (⟨S_, .f32⟩ : BufTy).Contents (Elt F) → (⟨S50000x128, .f32⟩ : BufTy).Contents (Elt F)),
    binary main_v209 main_v210 main_v211 (cmpf .ogt : (⟨S50000x128, .f32⟩ : BufTy).Contents (Elt F) → (⟨S50000x128, .f32⟩ : BufTy).Contents (Elt F) → (⟨S50000x128, .i1⟩ : BufTy).Contents (Elt F)),
    unary main_arg7 main_v212 (broadcastInDim S1x128 ![1] bcast_S128_S1x128_1 : (⟨S128, .f32⟩ : BufTy).Contents (Elt F) → (⟨S1x128, .f32⟩ : BufTy).Contents (Elt F)),
    unary main_v212 main_v213 (broadcastInDim S50000x128 ![0, 1] bcast_S1x128_S50000x128_0_1 : (⟨S1x128, .f32⟩ : BufTy).Contents (Elt F) → (⟨S50000x128, .f32⟩ : BufTy).Contents (Elt F)),
    binary main_v213 main_v209 main_v214 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v211) (TRef.of (T := ⟨S50000x128, .f32⟩) main_v209) (TRef.of (T := ⟨S50000x128, .f32⟩) main_v214) (TRef.of (T := ⟨S50000x128, .f32⟩) main_v215) select ]

/-- The references operations 211 to 267 write, in order. -/
abbrev bodyB1_W : List (Ref sig .tc) := [main_cst_35, main_v171, main_v172, main_v173, main_cst_36, main_v174, main_v175, main_v176, main_cst_37, main_call6_v0, main_v177, main_c_38, main_v178, main_v179, main_c_39, main_v180, main_v181, main_v182, main_v183, main_v184, main_v185, main_c_40, main_v186, main_v187, main_c_41, main_v188, main_v189, main_v190, main_v191, main_v192, main_v193, main_c_42, main_v194, main_v195, main_c_43, main_v196, main_v197, main_v198, main_v199, main_v200, main_v201, main_v202, main_v203, main_cst_44, main_v204, main_v205, main_v206, main_v207, main_v208, main_v209, main_cst_45, main_v210, main_v211, main_v212, main_v213, main_v214, main_v215]

end Cert.ReferenceIdeal.Hand

end
-- ==== Proof.RefRunV1.lean ====
/- Scale 1 of the reference in five tables: from contents holding the arguments each table leaves the generated stages and keeps what it does not write. -/
import proofs.«160853_j19842748908317_1_alg».proof.Proof.RefRunC1
import proofs.«160853_j19842748908317_1_alg».proof.Proof.RefReadP
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem slices1_out (V : Valuation τ sig (Elt F)) :
    after slices1 V (Proc.devRef .tc main_v109) = val_main_v109 (F := F) (V (Proc.devRef .tc main_arg1))
    ∧ after slices1 V (Proc.devRef .tc main_v111) = val_main_v111 (F := F) (V (Proc.devRef .tc main_arg1))
    ∧ after slices1 V (Proc.devRef .tc main_v113) = val_main_v113 (F := F) (V (Proc.devRef .tc main_arg2)) := by
  refine ⟨?_, ?_, ?_⟩ <;> (after_results; rfl)

theorem headA1_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h3 : V (Proc.devRef .tc main_arg3) = x3)
    (hs1 : V (Proc.devRef .tc main_v109) = val_main_v109 (F := F) x1) (hs3 : V (Proc.devRef .tc main_v111) = val_main_v111 (F := F) x1)
    (hs5 : V (Proc.devRef .tc main_v113) = val_main_v113 (F := F) x2) :
    after headA1 V (Proc.devRef .tc main_v114) = val_main_v114 (F := F) x0 x3
    ∧ after headA1 V (Proc.devRef .tc main_v116) = val_main_v116 (F := F) x1
    ∧ after headA1 V (Proc.devRef .tc main_v117) = val_main_v117 (F := F) x1
    ∧ after headA1 V (Proc.devRef .tc main_v119) = val_main_v119 (F := F) x2 := by
  refine ⟨?_, ?_, ?_, ?_⟩
  · after_results; rw [h0, h3]; rfl
  · after_results; rw [hs1]; rfl
  · after_results; rw [hs3]; rfl
  · after_results; rw [hs5]; rfl

set_option maxHeartbeats 1600000 in

theorem bodyA1_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h4 : V (Proc.devRef .tc main_arg4) = x4) (h7 : V (Proc.devRef .tc main_arg7) = x7)
    (hd : V (Proc.devRef .tc main_v114) = val_main_v114 (F := F) x0 x3) (hr : V (Proc.devRef .tc main_v116) = val_main_v116 (F := F) x1)
    (hc : V (Proc.devRef .tc main_v117) = val_main_v117 (F := F) x1) (hw : V (Proc.devRef .tc main_v119) = val_main_v119 (F := F) x2) :
    after bodyA1 V (Proc.devRef .tc main_v164) = val_main_v164 (F := F) x0 x1 x2 x3 x4 x7 := by
  after_results_simp
  simp only [TRef.ofBuf, TRef.toBuf, cast_eq]
  rw [h4, h7, hd, hr, hc, hw]
  rfl

theorem slices1_writes : (slices1 : List (HloOp τ sig (Elt F))).Forall fun op => op.writes ⊆ (slices1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem slices1_kept (V : Valuation τ sig (Elt F)) {r : Ref sig .tc} (hr : r ∉ slices1_W) :
    after slices1 V (Proc.devRef .tc r) = V (Proc.devRef .tc r) :=
  after_of_writes_sub slices1 V slices1_writes hr

theorem headA1_writes : (headA1 : List (HloOp τ sig (Elt F))).Forall fun op => op.writes ⊆ (headA1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headA1_kept (V : Valuation τ sig (Elt F)) {r : Ref sig .tc} (hr : r ∉ headA1_W) :
    after headA1 V (Proc.devRef .tc r) = V (Proc.devRef .tc r) :=
  after_of_writes_sub headA1 V headA1_writes hr

theorem bodyA1_writes : (bodyA1 : List (HloOp τ sig (Elt F))).Forall fun op => op.writes ⊆ (bodyA1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyA1_kept (V : Valuation τ sig (Elt F)) {r : Ref sig .tc} (hr : r ∉ bodyA1_W) :
    after bodyA1 V (Proc.devRef .tc r) = V (Proc.devRef .tc r) :=
  after_of_writes_sub bodyA1 V bodyA1_writes hr

theorem headB1_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h5 : V (Proc.devRef .tc main_arg5) = x5) (hl : V (Proc.devRef .tc main_v164) = val_main_v164 (F := F) x0 x1 x2 x3 x4 x7)
    (hs1 : V (Proc.devRef .tc main_v109) = val_main_v109 (F := F) x1) (hs3 : V (Proc.devRef .tc main_v111) = val_main_v111 (F := F) x1)
    (hs5 : V (Proc.devRef .tc main_v113) = val_main_v113 (F := F) x2) :
    after headB1 V (Proc.devRef .tc main_v165) = val_main_v165 (F := F) x0 x1 x2 x3 x4 x5 x7
    ∧ after headB1 V (Proc.devRef .tc main_v167) = val_main_v167 (F := F) x1
    ∧ after headB1 V (Proc.devRef .tc main_v168) = val_main_v168 (F := F) x1
    ∧ after headB1 V (Proc.devRef .tc main_v170) = val_main_v170 (F := F) x2 := by
  refine ⟨?_, ?_, ?_, ?_⟩
  · after_results; rw [h5, hl]; rfl
  · after_results; rw [hs1]; rfl
  · after_results; rw [hs3]; rfl
  · after_results; rw [hs5]; rfl

set_option maxHeartbeats 1600000 in

theorem bodyB1_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h6 : V (Proc.devRef .tc main_arg6) = x6) (h7 : V (Proc.devRef .tc main_arg7) = x7)
    (hd : V (Proc.devRef .tc main_v165) = val_main_v165 (F := F) x0 x1 x2 x3 x4 x5 x7) (hr : V (Proc.devRef .tc main_v167) = val_main_v167 (F := F) x1)
    (hc : V (Proc.devRef .tc main_v168) = val_main_v168 (F := F) x1) (hw : V (Proc.devRef .tc main_v170) = val_main_v170 (F := F) x2) :
    after bodyB1 V (Proc.devRef .tc main_v215) = val_main_v215 (F := F) x0 x1 x2 x3 x4 x5 x6 x7 := by
  after_results_simp
  simp only [TRef.ofBuf, TRef.toBuf, cast_eq]
  rw [h6, h7, hd, hr, hc, hw]
  rfl

theorem headB1_writes : (headB1 : List (HloOp τ sig (Elt F))).Forall fun op => op.writes ⊆ (headB1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headB1_kept (V : Valuation τ sig (Elt F)) {r : Ref sig .tc} (hr : r ∉ headB1_W) :
    after headB1 V (Proc.devRef .tc r) = V (Proc.devRef .tc r) :=
  after_of_writes_sub headB1 V headB1_writes hr

theorem bodyB1_writes : (bodyB1 : List (HloOp τ sig (Elt F))).Forall fun op => op.writes ⊆ (bodyB1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyB1_kept (V : Valuation τ sig (Elt F)) {r : Ref sig .tc} (hr : r ∉ bodyB1_W) :
    after bodyB1 V (Proc.devRef .tc r) = V (Proc.devRef .tc r) :=
  after_of_writes_sub bodyB1 V bodyB1_writes hr

theorem slices1_fresh : (slices1 : List (HloOp τ sig (Elt F))).Forall fun op => op.fresh = ∅ := by
  simp only [List.Forall]; repeat' constructor
theorem headA1_fresh : (headA1 : List (HloOp τ sig (Elt F))).Forall fun op => op.fresh = ∅ := by
  simp only [List.Forall]; repeat' constructor
theorem bodyA1_fresh : (bodyA1 : List (HloOp τ sig (Elt F))).Forall fun op => op.fresh = ∅ := by
  simp only [List.Forall]; repeat' constructor
theorem headB1_fresh : (headB1 : List (HloOp τ sig (Elt F))).Forall fun op => op.fresh = ∅ := by
  simp only [List.Forall]; repeat' constructor
theorem bodyB1_fresh : (bodyB1 : List (HloOp τ sig (Elt F))).Forall fun op => op.fresh = ∅ := by
  simp only [List.Forall]; repeat' constructor

def scale1 : List (HloOp τ sig (Elt F)) := slices1 ++ (headA1 ++ (bodyA1 ++ (headB1 ++ bodyB1)))

abbrev scale1_W : List (Ref sig .tc) := slices1_W ++ headA1_W ++ bodyA1_W ++ headB1_W ++ bodyB1_W

theorem after_scale1 (V : Valuation τ sig (Elt F)) :
    after scale1 V = after bodyB1 (after headB1 (after bodyA1 (after headA1 (after slices1 V)))) := by
  simp only [scale1, StableHlo.after_append]

theorem scale1_fresh : ∀ op ∈ (scale1 : List (HloOp τ sig (Elt F))), op.fresh = ∅ := by
  intro op hop
  simp only [scale1, List.mem_append] at hop
  rcases hop with h | h | h | h | h
  · exact List.forall_iff_forall_mem.mp slices1_fresh op h
  · exact List.forall_iff_forall_mem.mp headA1_fresh op h
  · exact List.forall_iff_forall_mem.mp bodyA1_fresh op h
  · exact List.forall_iff_forall_mem.mp headB1_fresh op h
  · exact List.forall_iff_forall_mem.mp bodyB1_fresh op h

theorem scale1_kept (V : Valuation τ sig (Elt F)) {r : Ref sig .tc}
    (hr : r ∉ scale1_W) :
    after scale1 V (Proc.devRef .tc r) = V (Proc.devRef .tc r) := by
  rw [after_scale1]
  simp only [scale1_W, List.mem_append, not_or] at hr
  obtain ⟨⟨⟨⟨k1, k2⟩, k3⟩, k4⟩, k5⟩ := hr
  rw [bodyB1_kept _ k5, headB1_kept _ k4, bodyA1_kept _ k3, headA1_kept _ k2, slices1_kept _ k1]

theorem scale1_args (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale1 V (Proc.devRef .tc main_arg0) = x0 ∧ after scale1 V (Proc.devRef .tc main_arg1) = x1
    ∧ after scale1 V (Proc.devRef .tc main_arg2) = x2 ∧ after scale1 V (Proc.devRef .tc main_arg3) = x3
    ∧ after scale1 V (Proc.devRef .tc main_arg4) = x4 ∧ after scale1 V (Proc.devRef .tc main_arg5) = x5
    ∧ after scale1 V (Proc.devRef .tc main_arg6) = x6 ∧ after scale1 V (Proc.devRef .tc main_arg7) = x7 :=
  ⟨(scale1_kept V (by decide)).trans h0, (scale1_kept V (by decide)).trans h1, (scale1_kept V (by decide)).trans h2,
    (scale1_kept V (by decide)).trans h3, (scale1_kept V (by decide)).trans h4, (scale1_kept V (by decide)).trans h5,
    (scale1_kept V (by decide)).trans h6, (scale1_kept V (by decide)).trans h7⟩

theorem scale1_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale1 V (Proc.devRef .tc main_v215) = val_main_v215 (F := F) x0 x1 x2 x3 x4 x5 x6 x7 := by
  rw [after_scale1]
  obtain ⟨s1, s3, s5⟩ := slices1_out V
  rw [h1] at s1 s3
  rw [h2] at s5
  obtain ⟨ad, ar, ac, aw⟩ := headA1_out (after slices1 V) x0 x1 x2 x3 x4 x5 x6 x7
    ((slices1_kept V (by decide)).trans h0) ((slices1_kept V (by decide)).trans h3) s1 s3 s5
  have al := bodyA1_out (after headA1 (after slices1 V)) x0 x1 x2 x3 x4 x5 x6 x7
    ((headA1_kept _ (by decide)).trans ((slices1_kept V (by decide)).trans h4))
    ((headA1_kept _ (by decide)).trans ((slices1_kept V (by decide)).trans h7)) ad ar ac aw
  obtain ⟨bd, br, bc, bw⟩ := headB1_out (after bodyA1 (after headA1 (after slices1 V))) x0 x1 x2 x3 x4 x5 x6 x7
    ((bodyA1_kept _ (by decide)).trans ((headA1_kept _ (by decide)).trans ((slices1_kept V (by decide)).trans h5))) al
    ((bodyA1_kept _ (by decide)).trans ((headA1_kept _ (by decide)).trans s1))
    ((bodyA1_kept _ (by decide)).trans ((headA1_kept _ (by decide)).trans s3))
    ((bodyA1_kept _ (by decide)).trans ((headA1_kept _ (by decide)).trans s5))
  exact bodyB1_out (after headB1 (after bodyA1 (after headA1 (after slices1 V)))) x0 x1 x2 x3 x4 x5 x6 x7
    ((headB1_kept _ (by decide)).trans ((bodyA1_kept _ (by decide)).trans ((headA1_kept _ (by decide)).trans ((slices1_kept V (by decide)).trans h6))))
    ((headB1_kept _ (by decide)).trans ((bodyA1_kept _ (by decide)).trans ((headA1_kept _ (by decide)).trans ((slices1_kept V (by decide)).trans h7))))
    bd br bc bw

end Cert.ReferenceIdeal.Hand

end
-- ==== Proof.RefRunC2.lean ====
/- The operations of scale 2 of the reference as five tables (its six slicing operations; each layer as the seven operations up to its concatenates, then the other fifty-seven), each with the references it writes. -/
import proofs.«160853_j19842748908317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 268 to 273 of the reference's @main, in order. -/
abbrev slices2 : List (HloOp τ sig (Elt F)) :=
  [ unary main_arg1 main_v216 ((extractStridedSlice S1x1x800000 ![2, 0, 0] · slices_S4x2x800000_S1x1x800000_2_0_0) : (⟨S4x2x800000, .i32⟩ : BufTy).Contents (Elt F) → (⟨S1x1x800000, .i32⟩ : BufTy).Contents (Elt F)),
    reshape main_v216 main_v217 rfl shapeCasts_S1x1x800000_S800000,
    unary main_arg1 main_v218 ((extractStridedSlice S1x1x800000 ![2, 1, 0] · slices_S4x2x800000_S1x1x800000_2_1_0) : (⟨S4x2x800000, .i32⟩ : BufTy).Contents (Elt F) → (⟨S1x1x800000, .i32⟩ : BufTy).Contents (Elt F)),
    reshape main_v218 main_v219 rfl shapeCasts_S1x1x800000_S800000,
    unary main_arg2 main_v220 ((extractStridedSlice S1x800000 ![2, 0] · slices_S4x800000_S1x800000_2_0) : (⟨S4x800000, .f32⟩ : BufTy).Contents (Elt F) → (⟨S1x800000, .f32⟩ : BufTy).Contents (Elt F)),
    reshape main_v220 main_v221 rfl shapeCasts_S1x800000_S800000 ]

/-- The references operations 268 to 273 write, in order. -/
abbrev slices2_W : List (Ref sig .tc) := [main_v216, main_v217, main_v218, main_v219, main_v220, main_v221]

set_option maxHeartbeats 4000000 in
/-- Operations 274 to 280 of the reference's @main, in order. -/
abbrev headA2 : List (HloOp τ sig (Elt F)) :=
  [ binary main_arg0 main_arg3 main_v222 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v223 (iotaInDim S50000 32 0),
    binary main_v217 main_v223 main_v224 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v219 main_v223 main_v225 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_46 (constant S_ .f32 0x3F800000#32),
    unary main_cst_46 main_v226 (broadcastInDim S50000 ![] bcast_S_S50000 : (⟨S_, .f32⟩ : BufTy).Contents (Elt F) → (⟨S50000, .f32⟩ : BufTy).Contents (Elt F)),
    binary main_v221 main_v226 main_v227 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 274 to 280 write, in order. -/
abbrev headA2_W : List (Ref sig .tc) := [main_v222, main_v223, main_v224, main_v225, main_cst_46, main_v226, main_v227]

set_option maxHeartbeats 4000000 in
/-- Operations 281 to 337 of the reference's @main, in order. -/
abbrev bodyA2 : List (HloOp τ sig (Elt F)) :=
  [ nullary main_cst_47 (constant S_ .f32 0x00000000#32),
    unary main_cst_47 main_v228 (broadcastInDim S50000 ![] bcast_S_S50000 : (⟨S_, .f32⟩ : BufTy).Contents (Elt F) → (⟨S50000, .f32⟩ : BufTy).Contents (Elt F)),
    unary main_v225 main_v229 (broadcastInDim S850000x1 ![0] bcast_S850000_S850000x1_0 : (⟨S850000, .i32⟩ : BufTy).Contents (Elt F) → (⟨S850000x1, .i32⟩ : BufTy).Contents (Elt F)),
    ternary main_v228 main_v229 main_v227 main_v230 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_48 (constant S_ .f32 0x00000000#32),
    unary main_cst_48 main_v231 (broadcastInDim S50000 ![] bcast_S_S50000 : (⟨S_, .f32⟩ : BufTy).Contents (Elt F) → (⟨S50000, .f32⟩ : BufTy).Contents (Elt F)),
    binary main_v230 main_v231 main_v232 (cmpf .ogt : (⟨S50000, .f32⟩ : BufTy).Contents (Elt F) → (⟨S50000, .f32⟩ : BufTy).Contents (Elt F) → (⟨S50000, .i1⟩ : BufTy).Contents (Elt F)),
    unary main_v230 main_v233 (Host.rsqrt : (⟨S50000, .f32⟩ : BufTy).Contents (Elt F) → (⟨S50000, .f32⟩ : BufTy).Contents (Elt F)),
    nullary main_cst_49 (constant S_ .f32 0x00000000#32),
    TRef.unary (TRef.of (T := ⟨S_, .f32⟩) main_cst_49) (TRef.of (T := ⟨S50000, .f32⟩) main_call8_v0) (broadcastInDim S50000 ![] bcast_S_S50000),
    TRef.ternary (TRef.of (T := ⟨S50000, .i1⟩) main_v232) (TRef.of (T := ⟨S50000, .f32⟩) main_v233) (TRef.of (T := ⟨S50000, .f32⟩) main_call8_v0) (TRef.of (T := ⟨S50000, .f32⟩) main_v234) select,
    nullary main_c_50 (constantI S_ 32 0#32),
    unary main_c_50 main_v235 (broadcastInDim S850000 ![] bcast_S_S850000 : (⟨S_, .i32⟩ : BufTy).Contents (Elt F) → (⟨S850000, .i32⟩ : BufTy).Contents (Elt F)),
    binary main_v224 main_v235 main_v236 (cmpi .slt : (⟨S850000, .i32⟩ : BufTy).Contents (Elt F) → (⟨S850000, .i32⟩ : BufTy).Contents (Elt F) → (⟨S850000, .i1⟩ : BufTy).Contents (Elt F)),
    nullary main_c_51 (constantI S_ 32 50000#32),
    unary main_c_51 main_v237 (broadcastInDim S850000 ![] bcast_S_S850000 : (⟨S_, .i32⟩ : BufTy).Contents (Elt F) → (⟨S850000, .i32⟩ : BufTy).Contents (Elt F)),
    binary main_v224 main_v237 main_v238 (addi : (⟨S850000, .i32⟩ : BufTy).Contents (Elt F) → (⟨S850000, .i32⟩ : BufTy).Contents (Elt F) → (⟨S850000, .i32⟩ : BufTy).Contents (Elt F)),
    ternary main_v236 main_v238 main_v224 main_v239 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v239 main_v240 (broadcastInDim S850000x1 ![0] bcast_S850000_S850000x1_0 : (⟨S850000, .i32⟩ : BufTy).Contents (Elt F) → (⟨S850000x1, .i32⟩ : BufTy).Contents (Elt F)),
    binary main_v234 main_v240 main_v241 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v241 main_v227 main_v242 (mulf : (⟨S850000, .f32⟩ : BufTy).Contents (Elt F) → (⟨S850000, .f32⟩ : BufTy).Contents (Elt F) → (⟨S850000, .f32⟩ : BufTy).Contents (Elt F)),
    nullary main_c_52 (constantI S_ 32 0#32),
    unary main_c_52 main_v243 (broadcastInDim S850000 ![] bcast_S_S850000 : (⟨S_, .i32⟩ : BufTy).Contents (Elt F) → (⟨S850000, .i32⟩ : BufTy).Contents (Elt F)),
    binary main_v225 main_v243 main_v244 (cmpi .slt : (⟨S850000, .i32⟩ : BufTy).Contents (Elt F) → (⟨S850000, .i32⟩ : BufTy).Contents (Elt F) → (⟨S850000, .i1⟩ : BufTy).Contents (Elt F)),
    nullary main_c_53 (constantI S_ 32 50000#32),
    unary main_c_53 main_v245 (broadcastInDim S850000 ![] bcast_S_S850000 : (⟨S_, .i32⟩ : BufTy).Contents (Elt F) → (⟨S850000, .i32⟩ : BufTy).Contents (Elt F)),
    binary main_v225 main_v245 main_v246 (addi : (⟨S850000, .i32⟩ : BufTy).Contents (Elt F) → (⟨S850000, .i32⟩ : BufTy).Contents (Elt F) → (⟨S850000, .i32⟩ : BufTy).Contents (Elt F)),
    ternary main_v244 main_v246 main_v225 main_v247 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v247 main_v248 (broadcastInDim S850000x1 ![0] bcast_S850000_S850000x1_0 : (⟨S850000, .i32⟩ : BufTy).Contents (Elt F) → (⟨S850000x1, .i32⟩ : BufTy).Contents (Elt F)),
    binary main_v234 main_v248 main_v249 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v242 main_v249 main_v250 (mulf : (⟨S850000, .f32⟩ : BufTy).Contents (Elt F) → (⟨S850000, .f32⟩ : BufTy).Contents (Elt F) → (⟨S850000, .f32⟩ : BufTy).Contents (Elt F)),
    nullary main_c_54 (constantI S_ 32 0#32),
    unary main_c_54 main_v251 (broadcastInDim S850000 ![] bcast_S_S850000 : (⟨S_, .i32⟩ : BufTy).Contents (Elt F) → (⟨S850000, .i32⟩ : BufTy).Contents (Elt F)),
    binary main_v224 main_v251 main_v252 (cmpi .slt : (⟨S850000, .i32⟩ : BufTy).Contents (Elt F) → (⟨S850000, .i32⟩ : BufTy).Contents (Elt F) → (⟨S850000, .i1⟩ : BufTy).Contents (Elt F)),
    nullary main_c_55 (constantI S_ 32 50000#32),
    unary main_c_55 main_v253 (broadcastInDim S850000 ![] bcast_S_S850000 : (⟨S_, .i32⟩ : BufTy).Contents (Elt F) → (⟨S850000, .i32⟩ : BufTy).Contents (Elt F)),
    binary main_v224 main_v253 main_v254 (addi : (⟨S850000, .i32⟩ : BufTy).Contents (Elt F) → (⟨S850000, .i32⟩ : BufTy).Contents (Elt F) → (⟨S850000, .i32⟩ : BufTy).Contents (Elt F)),
    ternary main_v252 main_v254 main_v224 main_v255 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v255 main_v256 (broadcastInDim S850000x1 ![0] bcast_S850000_S850000x1_0 : (⟨S850000, .i32⟩ : BufTy).Contents (Elt F) → (⟨S850000x1, .i32⟩ : BufTy).Contents (Elt F)),
    binary main_v222 main_v256 main_v257 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v250 main_v258 (broadcastInDim S850000x1 ![0] bcast_S850000_S850000x1_0 : (⟨S850000, .f32⟩ : BufTy).Contents (Elt F) → (⟨S850000x1, .f32⟩ : BufTy).Contents (Elt F)),
    unary main_v258 main_v259 (broadcastInDim S850000x128 ![0, 1] bcast_S850000x1_S850000x128_0_1 : (⟨S850000x1, .f32⟩ : BufTy).Contents (Elt F) → (⟨S850000x128, .f32⟩ : BufTy).Contents (Elt F)),
    binary main_v257 main_v259 main_v260 (mulf : (⟨S850000x128, .f32⟩ : BufTy).Contents (Elt F) → (⟨S850000x128, .f32⟩ : BufTy).Contents (Elt F) → (⟨S850000x128, .f32⟩ : BufTy).Contents (Elt F)),
    nullary main_cst_56 (constant S_ .f32 0x00000000#32),
    unary main_cst_56 main_v261 (broadcastInDim S50000x128 ![] bcast_S_S50000x128 : (⟨S_, .f32⟩ : BufTy).Contents (Elt F) → (⟨S50000x128, .f32⟩ : BufTy).Contents (Elt F)),
    unary main_v225 main_v262 (broadcastInDim S850000x1 ![0] bcast_S850000_S850000x1_0 : (⟨S850000, .i32⟩ : BufTy).Contents (Elt F) → (⟨S850000x1, .i32⟩ : BufTy).Contents (Elt F)),
    ternary main_v261 main_v262 main_v260 main_v263 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v263 main_v265 main_v266 (addf : (⟨S50000x128, .f32⟩ : BufTy).Contents (Elt F) → (⟨S50000x128, .f32⟩ : BufTy).Contents (Elt F) → (⟨S50000x128, .f32⟩ : BufTy).Contents (Elt F)),
    nullary main_cst_57 (constant S_ .f32 0x00000000#32),
    unary main_cst_57 main_v267 (broadcastInDim S50000x128 ![] bcast_S_S50000x128 : (⟨S_, .f32⟩ : BufTy).Contents (Elt F) → (⟨S50000x128, .f32⟩ : BufTy).Contents (Elt F)),
    binary main_v266 main_v267 main_v268 (cmpf .ogt : (⟨S50000x128, .f32⟩ : BufTy).Contents (Elt F) → (⟨S50000x128, .f32⟩ : BufTy).Contents (Elt F) → (⟨S50000x128, .i1⟩ : BufTy).Contents (Elt F)),
    unary main_arg7 main_v269 (broadcastInDim S1x128 ![1] bcast_S128_S1x128_1 : (⟨S128, .f32⟩ : BufTy).Contents (Elt F) → (⟨S1x128, .f32⟩ : BufTy).Contents (Elt F)),
    unary main_v269 main_v270 (broadcastInDim S50000x128 ![0, 1] bcast_S1x128_S50000x128_0_1 : (⟨S1x128, .f32⟩ : BufTy).Contents (Elt F) → (⟨S50000x128, .f32⟩ : BufTy).Contents (Elt F)),
    binary main_v270 main_v266 main_v271 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v268) (TRef.of (T := ⟨S50000x128, .f32⟩) main_v266) (TRef.of (T := ⟨S50000x128, .f32⟩) main_v271) (TRef.of (T := ⟨S50000x128, .f32⟩) main_v272) select ]

/-- The references operations 281 to 337 write, in order. -/
abbrev bodyA2_W : List (Ref sig .tc) := [main_cst_47, main_v228, main_v229, main_v230, main_cst_48, main_v231, main_v232, main_v233, main_cst_49, main_call8_v0, main_v234, main_c_50, main_v235, main_v236, main_c_51, main_v237, main_v238, main_v239, main_v240, main_v241, main_v242, main_c_52, main_v243, main_v244, main_c_53, main_v245, main_v246, main_v247, main_v248, main_v249, main_v250, main_c_54, main_v251, main_v252, main_c_55, main_v253, main_v254, main_v255, main_v256, main_v257, main_v258, main_v259, main_v260, main_cst_56, main_v261, main_v262, main_v263, main_v264, main_v265, main_v266, main_cst_57, main_v267, main_v268, main_v269, main_v270, main_v271, main_v272]

set_option maxHeartbeats 4000000 in
/-- Operations 338 to 344 of the reference's @main, in order. -/
abbrev headB2 : List (HloOp τ sig (Elt F)) :=
  [ binary main_v272 main_arg5 main_v273 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v274 (iotaInDim S50000 32 0),
    binary main_v217 main_v274 main_v275 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v219 main_v274 main_v276 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_58 (constant S_ .f32 0x3F800000#32),
    unary main_cst_58 main_v277 (broadcastInDim S50000 ![] bcast_S_S50000 : (⟨S_, .f32⟩ : BufTy).Contents (Elt F) → (⟨S50000, .f32⟩ : BufTy).Contents (Elt F)),
    binary main_v221 main_v277 main_v278 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 338 to 344 write, in order. -/
abbrev headB2_W : List (Ref sig .tc) := [main_v273, main_v274, main_v275, main_v276, main_cst_58, main_v277, main_v278]

set_option maxHeartbeats 4000000 in
/-- Operations 345 to 401 of the reference's @main, in order. -/
abbrev bodyB2 : List (HloOp τ sig (Elt F)) :=
  [ nullary main_cst_59 (constant S_ .f32 0x00000000#32),
    unary main_cst_59 main_v279 (broadcastInDim S50000 ![] bcast_S_S50000 : (⟨S_, .f32⟩ : BufTy).Contents (Elt F) → (⟨S50000, .f32⟩ : BufTy).Contents (Elt F)),
    unary main_v276 main_v280 (broadcastInDim S850000x1 ![0] bcast_S850000_S850000x1_0 : (⟨S850000, .i32⟩ : BufTy).Contents (Elt F) → (⟨S850000x1, .i32⟩ : BufTy).Contents (Elt F)),
    ternary main_v279 main_v280 main_v278 main_v281 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_60 (constant S_ .f32 0x00000000#32),
    unary main_cst_60 main_v282 (broadcastInDim S50000 ![] bcast_S_S50000 : (⟨S_, .f32⟩ : BufTy).Contents (Elt F) → (⟨S50000, .f32⟩ : BufTy).Contents (Elt F)),
    binary main_v281 main_v282 main_v283 (cmpf .ogt : (⟨S50000, .f32⟩ : BufTy).Contents (Elt F) → (⟨S50000, .f32⟩ : BufTy).Contents (Elt F) → (⟨S50000, .i1⟩ : BufTy).Contents (Elt F)),
    unary main_v281 main_v284 (Host.rsqrt : (⟨S50000, .f32⟩ : BufTy).Contents (Elt F) → (⟨S50000, .f32⟩ : BufTy).Contents (Elt F)),
    nullary main_cst_61 (constant S_ .f32 0x00000000#32),
    TRef.unary (TRef.of (T := ⟨S_, .f32⟩) main_cst_61) (TRef.of (T := ⟨S50000, .f32⟩) main_call10_v0) (broadcastInDim S50000 ![] bcast_S_S50000),
    TRef.ternary (TRef.of (T := ⟨S50000, .i1⟩) main_v283) (TRef.of (T := ⟨S50000, .f32⟩) main_v284) (TRef.of (T := ⟨S50000, .f32⟩) main_call10_v0) (TRef.of (T := ⟨S50000, .f32⟩) main_v285) select,
    nullary main_c_62 (constantI S_ 32 0#32),
    unary main_c_62 main_v286 (broadcastInDim S850000 ![] bcast_S_S850000 : (⟨S_, .i32⟩ : BufTy).Contents (Elt F) → (⟨S850000, .i32⟩ : BufTy).Contents (Elt F)),
    binary main_v275 main_v286 main_v287 (cmpi .slt : (⟨S850000, .i32⟩ : BufTy).Contents (Elt F) → (⟨S850000, .i32⟩ : BufTy).Contents (Elt F) → (⟨S850000, .i1⟩ : BufTy).Contents (Elt F)),
    nullary main_c_63 (constantI S_ 32 50000#32),
    unary main_c_63 main_v288 (broadcastInDim S850000 ![] bcast_S_S850000 : (⟨S_, .i32⟩ : BufTy).Contents (Elt F) → (⟨S850000, .i32⟩ : BufTy).Contents (Elt F)),
    binary main_v275 main_v288 main_v289 (addi : (⟨S850000, .i32⟩ : BufTy).Contents (Elt F) → (⟨S850000, .i32⟩ : BufTy).Contents (Elt F) → (⟨S850000, .i32⟩ : BufTy).Contents (Elt F)),
    ternary main_v287 main_v289 main_v275 main_v290 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v290 main_v291 (broadcastInDim S850000x1 ![0] bcast_S850000_S850000x1_0 : (⟨S850000, .i32⟩ : BufTy).Contents (Elt F) → (⟨S850000x1, .i32⟩ : BufTy).Contents (Elt F)),
    binary main_v285 main_v291 main_v292 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v292 main_v278 main_v293 (mulf : (⟨S850000, .f32⟩ : BufTy).Contents (Elt F) → (⟨S850000, .f32⟩ : BufTy).Contents (Elt F) → (⟨S850000, .f32⟩ : BufTy).Contents (Elt F)),
    nullary main_c_64 (constantI S_ 32 0#32),
    unary main_c_64 main_v294 (broadcastInDim S850000 ![] bcast_S_S850000 : (⟨S_, .i32⟩ : BufTy).Contents (Elt F) → (⟨S850000, .i32⟩ : BufTy).Contents (Elt F)),
    binary main_v276 main_v294 main_v295 (cmpi .slt : (⟨S850000, .i32⟩ : BufTy).Contents (Elt F) → (⟨S850000, .i32⟩ : BufTy).Contents (Elt F) → (⟨S850000, .i1⟩ : BufTy).Contents (Elt F)),
    nullary main_c_65 (constantI S_ 32 50000#32),
    unary main_c_65 main_v296 (broadcastInDim S850000 ![] bcast_S_S850000 : (⟨S_, .i32⟩ : BufTy).Contents (Elt F) → (⟨S850000, .i32⟩ : BufTy).Contents (Elt F)),
    binary main_v276 main_v296 main_v297 (addi : (⟨S850000, .i32⟩ : BufTy).Contents (Elt F) → (⟨S850000, .i32⟩ : BufTy).Contents (Elt F) → (⟨S850000, .i32⟩ : BufTy).Contents (Elt F)),
    ternary main_v295 main_v297 main_v276 main_v298 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v298 main_v299 (broadcastInDim S850000x1 ![0] bcast_S850000_S850000x1_0 : (⟨S850000, .i32⟩ : BufTy).Contents (Elt F) → (⟨S850000x1, .i32⟩ : BufTy).Contents (Elt F)),
    binary main_v285 main_v299 main_v300 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v293 main_v300 main_v301 (mulf : (⟨S850000, .f32⟩ : BufTy).Contents (Elt F) → (⟨S850000, .f32⟩ : BufTy).Contents (Elt F) → (⟨S850000, .f32⟩ : BufTy).Contents (Elt F)),
    nullary main_c_66 (constantI S_ 32 0#32),
    unary main_c_66 main_v302 (broadcastInDim S850000 ![] bcast_S_S850000 : (⟨S_, .i32⟩ : BufTy).Contents (Elt F) → (⟨S850000, .i32⟩ : BufTy).Contents (Elt F)),
    binary main_v275 main_v302 main_v303 (cmpi .slt : (⟨S850000, .i32⟩ : BufTy).Contents (Elt F) → (⟨S850000, .i32⟩ : BufTy).Contents (Elt F) → (⟨S850000, .i1⟩ : BufTy).Contents (Elt F)),
    nullary main_c_67 (constantI S_ 32 50000#32),
    unary main_c_67 main_v304 (broadcastInDim S850000 ![] bcast_S_S850000 : (⟨S_, .i32⟩ : BufTy).Contents (Elt F) → (⟨S850000, .i32⟩ : BufTy).Contents (Elt F)),
    binary main_v275 main_v304 main_v305 (addi : (⟨S850000, .i32⟩ : BufTy).Contents (Elt F) → (⟨S850000, .i32⟩ : BufTy).Contents (Elt F) → (⟨S850000, .i32⟩ : BufTy).Contents (Elt F)),
    ternary main_v303 main_v305 main_v275 main_v306 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v306 main_v307 (broadcastInDim S850000x1 ![0] bcast_S850000_S850000x1_0 : (⟨S850000, .i32⟩ : BufTy).Contents (Elt F) → (⟨S850000x1, .i32⟩ : BufTy).Contents (Elt F)),
    binary main_v273 main_v307 main_v308 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v301 main_v309 (broadcastInDim S850000x1 ![0] bcast_S850000_S850000x1_0 : (⟨S850000, .f32⟩ : BufTy).Contents (Elt F) → (⟨S850000x1, .f32⟩ : BufTy).Contents (Elt F)),
    unary main_v309 main_v310 (broadcastInDim S850000x128 ![0, 1] bcast_S850000x1_S850000x128_0_1 : (⟨S850000x1, .f32⟩ : BufTy).Contents (Elt F) → (⟨S850000x128, .f32⟩ : BufTy).Contents (Elt F)),
    binary main_v308 main_v310 main_v311 (mulf : (⟨S850000x128, .f32⟩ : BufTy).Contents (Elt F) → (⟨S850000x128, .f32⟩ : BufTy).Contents (Elt F) → (⟨S850000x128, .f32⟩ : BufTy).Contents (Elt F)),
    nullary main_cst_68 (constant S_ .f32 0x00000000#32),
    unary main_cst_68 main_v312 (broadcastInDim S50000x128 ![] bcast_S_S50000x128 : (⟨S_, .f32⟩ : BufTy).Contents (Elt F) → (⟨S50000x128, .f32⟩ : BufTy).Contents (Elt F)),
    unary main_v276 main_v313 (broadcastInDim S850000x1 ![0] bcast_S850000_S850000x1_0 : (⟨S850000, .i32⟩ : BufTy).Contents (Elt F) → (⟨S850000x1, .i32⟩ : BufTy).Contents (Elt F)),
    ternary main_v312 main_v313 main_v311 main_v314 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v315 (broadcastInDim S1x128 ![1] bcast_S128_S1x128_1 : (⟨S128, .f32⟩ : BufTy).Contents (Elt F) → (⟨S1x128, .f32⟩ : BufTy).Contents (Elt F)),
    unary main_v315 main_v316 (broadcastInDim S50000x128 ![0, 1] bcast_S1x128_S50000x128_0_1 : (⟨S1x128, .f32⟩ : BufTy).Contents (Elt F) → (⟨S50000x128, .f32⟩ : BufTy).Contents (Elt F)),
    binary main_v314 main_v316 main_v317 (addf : (⟨S50000x128, .f32⟩ : BufTy).Contents (Elt F) → (⟨S50000x128, .f32⟩ : BufTy).Contents (Elt F) → (⟨S50000x128, .f32⟩ : BufTy).Contents (Elt F)),
    nullary main_cst_69 (constant S_ .f32 0x00000000#32),
    unary main_cst_69 main_v318 (broadcastInDim S50000x128 ![] bcast_S_S50000x128 : (⟨S_, .f32⟩ : BufTy).Contents (Elt F) → (⟨S50000x128, .f32⟩ : BufTy).Contents (Elt F)),
    binary main_v317 main_v318 main_v319 (cmpf .ogt : (⟨S50000x128, .f32⟩ : BufTy).Contents (Elt F) → (⟨S50000x128, .f32⟩ : BufTy).Contents (Elt F) → (⟨S50000x128, .i1⟩ : BufTy).Contents (Elt F)),
    unary main_arg7 main_v320 (broadcastInDim S1x128 ![1] bcast_S128_S1x128_1 : (⟨S128, .f32⟩ : BufTy).Contents (Elt F) → (⟨S1x128, .f32⟩ : BufTy).Contents (Elt F)),
    unary main_v320 main_v321 (broadcastInDim S50000x128 ![0, 1] bcast_S1x128_S50000x128_0_1 : (⟨S1x128, .f32⟩ : BufTy).Contents (Elt F) → (⟨S50000x128, .f32⟩ : BufTy).Contents (Elt F)),
    binary main_v321 main_v317 main_v322 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v319) (TRef.of (T := ⟨S50000x128, .f32⟩) main_v317) (TRef.of (T := ⟨S50000x128, .f32⟩) main_v322) (TRef.of (T := ⟨S50000x128, .f32⟩) main_v323) select ]

/-- The references operations 345 to 401 write, in order. -/
abbrev bodyB2_W : List (Ref sig .tc) := [main_cst_59, main_v279, main_v280, main_v281, main_cst_60, main_v282, main_v283, main_v284, main_cst_61, main_call10_v0, main_v285, main_c_62, main_v286, main_v287, main_c_63, main_v288, main_v289, main_v290, main_v291, main_v292, main_v293, main_c_64, main_v294, main_v295, main_c_65, main_v296, main_v297, main_v298, main_v299, main_v300, main_v301, main_c_66, main_v302, main_v303, main_c_67, main_v304, main_v305, main_v306, main_v307, main_v308, main_v309, main_v310, main_v311, main_cst_68, main_v312, main_v313, main_v314, main_v315, main_v316, main_v317, main_cst_69, main_v318, main_v319, main_v320, main_v321, main_v322, main_v323]

end Cert.ReferenceIdeal.Hand

end
-- ==== Proof.RefRunV2.lean ====
/- Scale 2 of the reference in five tables: from contents holding the arguments each table leaves the generated stages and keeps what it does not write. -/
import proofs.«160853_j19842748908317_1_alg».proof.Proof.RefRunC2
import proofs.«160853_j19842748908317_1_alg».proof.Proof.RefReadP
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem slices2_out (V : Valuation τ sig (Elt F)) :
    after slices2 V (Proc.devRef .tc main_v217) = val_main_v217 (F := F) (V (Proc.devRef .tc main_arg1))
    ∧ after slices2 V (Proc.devRef .tc main_v219) = val_main_v219 (F := F) (V (Proc.devRef .tc main_arg1))
    ∧ after slices2 V (Proc.devRef .tc main_v221) = val_main_v221 (F := F) (V (Proc.devRef .tc main_arg2)) := by
  refine ⟨?_, ?_, ?_⟩ <;> (after_results; rfl)

theorem headA2_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h3 : V (Proc.devRef .tc main_arg3) = x3)
    (hs1 : V (Proc.devRef .tc main_v217) = val_main_v217 (F := F) x1) (hs3 : V (Proc.devRef .tc main_v219) = val_main_v219 (F := F) x1)
    (hs5 : V (Proc.devRef .tc main_v221) = val_main_v221 (F := F) x2) :
    after headA2 V (Proc.devRef .tc main_v222) = val_main_v222 (F := F) x0 x3
    ∧ after headA2 V (Proc.devRef .tc main_v224) = val_main_v224 (F := F) x1
    ∧ after headA2 V (Proc.devRef .tc main_v225) = val_main_v225 (F := F) x1
    ∧ after headA2 V (Proc.devRef .tc main_v227) = val_main_v227 (F := F) x2 := by
  refine ⟨?_, ?_, ?_, ?_⟩
  · after_results; rw [h0, h3]; rfl
  · after_results; rw [hs1]; rfl
  · after_results; rw [hs3]; rfl
  · after_results; rw [hs5]; rfl

set_option maxHeartbeats 1600000 in

theorem bodyA2_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h4 : V (Proc.devRef .tc main_arg4) = x4) (h7 : V (Proc.devRef .tc main_arg7) = x7)
    (hd : V (Proc.devRef .tc main_v222) = val_main_v222 (F := F) x0 x3) (hr : V (Proc.devRef .tc main_v224) = val_main_v224 (F := F) x1)
    (hc : V (Proc.devRef .tc main_v225) = val_main_v225 (F := F) x1) (hw : V (Proc.devRef .tc main_v227) = val_main_v227 (F := F) x2) :
    after bodyA2 V (Proc.devRef .tc main_v272) = val_main_v272 (F := F) x0 x1 x2 x3 x4 x7 := by
  after_results_simp
  simp only [TRef.ofBuf, TRef.toBuf, cast_eq]
  rw [h4, h7, hd, hr, hc, hw]
  rfl

theorem slices2_writes : (slices2 : List (HloOp τ sig (Elt F))).Forall fun op => op.writes ⊆ (slices2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem slices2_kept (V : Valuation τ sig (Elt F)) {r : Ref sig .tc} (hr : r ∉ slices2_W) :
    after slices2 V (Proc.devRef .tc r) = V (Proc.devRef .tc r) :=
  after_of_writes_sub slices2 V slices2_writes hr

theorem headA2_writes : (headA2 : List (HloOp τ sig (Elt F))).Forall fun op => op.writes ⊆ (headA2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headA2_kept (V : Valuation τ sig (Elt F)) {r : Ref sig .tc} (hr : r ∉ headA2_W) :
    after headA2 V (Proc.devRef .tc r) = V (Proc.devRef .tc r) :=
  after_of_writes_sub headA2 V headA2_writes hr

theorem bodyA2_writes : (bodyA2 : List (HloOp τ sig (Elt F))).Forall fun op => op.writes ⊆ (bodyA2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyA2_kept (V : Valuation τ sig (Elt F)) {r : Ref sig .tc} (hr : r ∉ bodyA2_W) :
    after bodyA2 V (Proc.devRef .tc r) = V (Proc.devRef .tc r) :=
  after_of_writes_sub bodyA2 V bodyA2_writes hr

theorem headB2_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h5 : V (Proc.devRef .tc main_arg5) = x5) (hl : V (Proc.devRef .tc main_v272) = val_main_v272 (F := F) x0 x1 x2 x3 x4 x7)
    (hs1 : V (Proc.devRef .tc main_v217) = val_main_v217 (F := F) x1) (hs3 : V (Proc.devRef .tc main_v219) = val_main_v219 (F := F) x1)
    (hs5 : V (Proc.devRef .tc main_v221) = val_main_v221 (F := F) x2) :
    after headB2 V (Proc.devRef .tc main_v273) = val_main_v273 (F := F) x0 x1 x2 x3 x4 x5 x7
    ∧ after headB2 V (Proc.devRef .tc main_v275) = val_main_v275 (F := F) x1
    ∧ after headB2 V (Proc.devRef .tc main_v276) = val_main_v276 (F := F) x1
    ∧ after headB2 V (Proc.devRef .tc main_v278) = val_main_v278 (F := F) x2 := by
  refine ⟨?_, ?_, ?_, ?_⟩
  · after_results; rw [h5, hl]; rfl
  · after_results; rw [hs1]; rfl
  · after_results; rw [hs3]; rfl
  · after_results; rw [hs5]; rfl

set_option maxHeartbeats 1600000 in

theorem bodyB2_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h6 : V (Proc.devRef .tc main_arg6) = x6) (h7 : V (Proc.devRef .tc main_arg7) = x7)
    (hd : V (Proc.devRef .tc main_v273) = val_main_v273 (F := F) x0 x1 x2 x3 x4 x5 x7) (hr : V (Proc.devRef .tc main_v275) = val_main_v275 (F := F) x1)
    (hc : V (Proc.devRef .tc main_v276) = val_main_v276 (F := F) x1) (hw : V (Proc.devRef .tc main_v278) = val_main_v278 (F := F) x2) :
    after bodyB2 V (Proc.devRef .tc main_v323) = val_main_v323 (F := F) x0 x1 x2 x3 x4 x5 x6 x7 := by
  after_results_simp
  simp only [TRef.ofBuf, TRef.toBuf, cast_eq]
  rw [h6, h7, hd, hr, hc, hw]
  rfl

theorem headB2_writes : (headB2 : List (HloOp τ sig (Elt F))).Forall fun op => op.writes ⊆ (headB2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headB2_kept (V : Valuation τ sig (Elt F)) {r : Ref sig .tc} (hr : r ∉ headB2_W) :
    after headB2 V (Proc.devRef .tc r) = V (Proc.devRef .tc r) :=
  after_of_writes_sub headB2 V headB2_writes hr

theorem bodyB2_writes : (bodyB2 : List (HloOp τ sig (Elt F))).Forall fun op => op.writes ⊆ (bodyB2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyB2_kept (V : Valuation τ sig (Elt F)) {r : Ref sig .tc} (hr : r ∉ bodyB2_W) :
    after bodyB2 V (Proc.devRef .tc r) = V (Proc.devRef .tc r) :=
  after_of_writes_sub bodyB2 V bodyB2_writes hr

theorem slices2_fresh : (slices2 : List (HloOp τ sig (Elt F))).Forall fun op => op.fresh = ∅ := by
  simp only [List.Forall]; repeat' constructor
theorem headA2_fresh : (headA2 : List (HloOp τ sig (Elt F))).Forall fun op => op.fresh = ∅ := by
  simp only [List.Forall]; repeat' constructor
theorem bodyA2_fresh : (bodyA2 : List (HloOp τ sig (Elt F))).Forall fun op => op.fresh = ∅ := by
  simp only [List.Forall]; repeat' constructor
theorem headB2_fresh : (headB2 : List (HloOp τ sig (Elt F))).Forall fun op => op.fresh = ∅ := by
  simp only [List.Forall]; repeat' constructor
theorem bodyB2_fresh : (bodyB2 : List (HloOp τ sig (Elt F))).Forall fun op => op.fresh = ∅ := by
  simp only [List.Forall]; repeat' constructor

def scale2 : List (HloOp τ sig (Elt F)) := slices2 ++ (headA2 ++ (bodyA2 ++ (headB2 ++ bodyB2)))

abbrev scale2_W : List (Ref sig .tc) := slices2_W ++ headA2_W ++ bodyA2_W ++ headB2_W ++ bodyB2_W

theorem after_scale2 (V : Valuation τ sig (Elt F)) :
    after scale2 V = after bodyB2 (after headB2 (after bodyA2 (after headA2 (after slices2 V)))) := by
  simp only [scale2, StableHlo.after_append]

theorem scale2_fresh : ∀ op ∈ (scale2 : List (HloOp τ sig (Elt F))), op.fresh = ∅ := by
  intro op hop
  simp only [scale2, List.mem_append] at hop
  rcases hop with h | h | h | h | h
  · exact List.forall_iff_forall_mem.mp slices2_fresh op h
  · exact List.forall_iff_forall_mem.mp headA2_fresh op h
  · exact List.forall_iff_forall_mem.mp bodyA2_fresh op h
  · exact List.forall_iff_forall_mem.mp headB2_fresh op h
  · exact List.forall_iff_forall_mem.mp bodyB2_fresh op h

theorem scale2_kept (V : Valuation τ sig (Elt F)) {r : Ref sig .tc}
    (hr : r ∉ scale2_W) :
    after scale2 V (Proc.devRef .tc r) = V (Proc.devRef .tc r) := by
  rw [after_scale2]
  simp only [scale2_W, List.mem_append, not_or] at hr
  obtain ⟨⟨⟨⟨k1, k2⟩, k3⟩, k4⟩, k5⟩ := hr
  rw [bodyB2_kept _ k5, headB2_kept _ k4, bodyA2_kept _ k3, headA2_kept _ k2, slices2_kept _ k1]

theorem scale2_args (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale2 V (Proc.devRef .tc main_arg0) = x0 ∧ after scale2 V (Proc.devRef .tc main_arg1) = x1
    ∧ after scale2 V (Proc.devRef .tc main_arg2) = x2 ∧ after scale2 V (Proc.devRef .tc main_arg3) = x3
    ∧ after scale2 V (Proc.devRef .tc main_arg4) = x4 ∧ after scale2 V (Proc.devRef .tc main_arg5) = x5
    ∧ after scale2 V (Proc.devRef .tc main_arg6) = x6 ∧ after scale2 V (Proc.devRef .tc main_arg7) = x7 :=
  ⟨(scale2_kept V (by decide)).trans h0, (scale2_kept V (by decide)).trans h1, (scale2_kept V (by decide)).trans h2,
    (scale2_kept V (by decide)).trans h3, (scale2_kept V (by decide)).trans h4, (scale2_kept V (by decide)).trans h5,
    (scale2_kept V (by decide)).trans h6, (scale2_kept V (by decide)).trans h7⟩

theorem scale2_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale2 V (Proc.devRef .tc main_v323) = val_main_v323 (F := F) x0 x1 x2 x3 x4 x5 x6 x7 := by
  rw [after_scale2]
  obtain ⟨s1, s3, s5⟩ := slices2_out V
  rw [h1] at s1 s3
  rw [h2] at s5
  obtain ⟨ad, ar, ac, aw⟩ := headA2_out (after slices2 V) x0 x1 x2 x3 x4 x5 x6 x7
    ((slices2_kept V (by decide)).trans h0) ((slices2_kept V (by decide)).trans h3) s1 s3 s5
  have al := bodyA2_out (after headA2 (after slices2 V)) x0 x1 x2 x3 x4 x5 x6 x7
    ((headA2_kept _ (by decide)).trans ((slices2_kept V (by decide)).trans h4))
    ((headA2_kept _ (by decide)).trans ((slices2_kept V (by decide)).trans h7)) ad ar ac aw
  obtain ⟨bd, br, bc, bw⟩ := headB2_out (after bodyA2 (after headA2 (after slices2 V))) x0 x1 x2 x3 x4 x5 x6 x7
    ((bodyA2_kept _ (by decide)).trans ((headA2_kept _ (by decide)).trans ((slices2_kept V (by decide)).trans h5))) al
    ((bodyA2_kept _ (by decide)).trans ((headA2_kept _ (by decide)).trans s1))
    ((bodyA2_kept _ (by decide)).trans ((headA2_kept _ (by decide)).trans s3))
    ((bodyA2_kept _ (by decide)).trans ((headA2_kept _ (by decide)).trans s5))
  exact bodyB2_out (after headB2 (after bodyA2 (after headA2 (after slices2 V)))) x0 x1 x2 x3 x4 x5 x6 x7
    ((headB2_kept _ (by decide)).trans ((bodyA2_kept _ (by decide)).trans ((headA2_kept _ (by decide)).trans ((slices2_kept V (by decide)).trans h6))))
    ((headB2_kept _ (by decide)).trans ((bodyA2_kept _ (by decide)).trans ((headA2_kept _ (by decide)).trans ((slices2_kept V (by decide)).trans h7))))
    bd br bc bw

end Cert.ReferenceIdeal.Hand

end
-- ==== Proof.RefRunC3.lean ====
/- The operations of scale 3 of the reference as five tables (its six slicing operations; each layer as the seven operations up to its concatenates, then the other fifty-seven), each with the references it writes. -/
import proofs.«160853_j19842748908317_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 402 to 407 of the reference's @main, in order. -/
abbrev slices3 : List (HloOp τ sig (Elt F)) :=
  [ unary main_arg1 main_v324 ((extractStridedSlice S1x1x800000 ![3, 0, 0] · slices_S4x2x800000_S1x1x800000_3_0_0) : (⟨S4x2x800000, .i32⟩ : BufTy).Contents (Elt F) → (⟨S1x1x800000, .i32⟩ : BufTy).Contents (Elt F)),
    reshape main_v324 main_v325 rfl shapeCasts_S1x1x800000_S800000,
    unary main_arg1 main_v326 ((extractStridedSlice S1x1x800000 ![3, 1, 0] · slices_S4x2x800000_S1x1x800000_3_1_0) : (⟨S4x2x800000, .i32⟩ : BufTy).Contents (Elt F) → (⟨S1x1x800000, .i32⟩ : BufTy).Contents (Elt F)),
    reshape main_v326 main_v327 rfl shapeCasts_S1x1x800000_S800000,
    unary main_arg2 main_v328 ((extractStridedSlice S1x800000 ![3, 0] · slices_S4x800000_S1x800000_3_0) : (⟨S4x800000, .f32⟩ : BufTy).Contents (Elt F) → (⟨S1x800000, .f32⟩ : BufTy).Contents (Elt F)),
    reshape main_v328 main_v329 rfl shapeCasts_S1x800000_S800000 ]

/-- The references operations 402 to 407 write, in order. -/
abbrev slices3_W : List (Ref sig .tc) := [main_v324, main_v325, main_v326, main_v327, main_v328, main_v329]

set_option maxHeartbeats 4000000 in
/-- Operations 408 to 414 of the reference's @main, in order. -/
abbrev headA3 : List (HloOp τ sig (Elt F)) :=
  [ binary main_arg0 main_arg3 main_v330 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v331 (iotaInDim S50000 32 0),
    binary main_v325 main_v331 main_v332 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v327 main_v331 main_v333 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_70 (constant S_ .f32 0x3F800000#32),
    unary main_cst_70 main_v334 (broadcastInDim S50000 ![] bcast_S_S50000 : (⟨S_, .f32⟩ : BufTy).Contents (Elt F) → (⟨S50000, .f32⟩ : BufTy).Contents (Elt F)),
    binary main_v329 main_v334 main_v335 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 408 to 414 write, in order. -/
abbrev headA3_W : List (Ref sig .tc) := [main_v330, main_v331, main_v332, main_v333, main_cst_70, main_v334, main_v335]

set_option maxHeartbeats 4000000 in
/-- Operations 415 to 471 of the reference's @main, in order. -/
abbrev bodyA3 : List (HloOp τ sig (Elt F)) :=
  [ nullary main_cst_71 (constant S_ .f32 0x00000000#32),
    unary main_cst_71 main_v336 (broadcastInDim S50000 ![] bcast_S_S50000 : (⟨S_, .f32⟩ : BufTy).Contents (Elt F) → (⟨S50000, .f32⟩ : BufTy).Contents (Elt F)),
    unary main_v333 main_v337 (broadcastInDim S850000x1 ![0] bcast_S850000_S850000x1_0 : (⟨S850000, .i32⟩ : BufTy).Contents (Elt F) → (⟨S850000x1, .i32⟩ : BufTy).Contents (Elt F)),
    ternary main_v336 main_v337 main_v335 main_v338 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_72 (constant S_ .f32 0x00000000#32),
    unary main_cst_72 main_v339 (broadcastInDim S50000 ![] bcast_S_S50000 : (⟨S_, .f32⟩ : BufTy).Contents (Elt F) → (⟨S50000, .f32⟩ : BufTy).Contents (Elt F)),
    binary main_v338 main_v339 main_v340 (cmpf .ogt : (⟨S50000, .f32⟩ : BufTy).Contents (Elt F) → (⟨S50000, .f32⟩ : BufTy).Contents (Elt F) → (⟨S50000, .i1⟩ : BufTy).Contents (Elt F)),
    unary main_v338 main_v341 (Host.rsqrt : (⟨S50000, .f32⟩ : BufTy).Contents (Elt F) → (⟨S50000, .f32⟩ : BufTy).Contents (Elt F)),
    nullary main_cst_73 (constant S_ .f32 0x00000000#32),
    TRef.unary (TRef.of (T := ⟨S_, .f32⟩) main_cst_73) (TRef.of (T := ⟨S50000, .f32⟩) main_call12_v0) (broadcastInDim S50000 ![] bcast_S_S50000),
    TRef.ternary (TRef.of (T := ⟨S50000, .i1⟩) main_v340) (TRef.of (T := ⟨S50000, .f32⟩) main_v341) (TRef.of (T := ⟨S50000, .f32⟩) main_call12_v0) (TRef.of (T := ⟨S50000, .f32⟩) main_v342) select,
    nullary main_c_74 (constantI S_ 32 0#32),
    unary main_c_74 main_v343 (broadcastInDim S850000 ![] bcast_S_S850000 : (⟨S_, .i32⟩ : BufTy).Contents (Elt F) → (⟨S850000, .i32⟩ : BufTy).Contents (Elt F)),
    binary main_v332 main_v343 main_v344 (cmpi .slt : (⟨S850000, .i32⟩ : BufTy).Contents (Elt F) → (⟨S850000, .i32⟩ : BufTy).Contents (Elt F) → (⟨S850000, .i1⟩ : BufTy).Contents (Elt F)),
    nullary main_c_75 (constantI S_ 32 50000#32),
    unary main_c_75 main_v345 (broadcastInDim S850000 ![] bcast_S_S850000 : (⟨S_, .i32⟩ : BufTy).Contents (Elt F) → (⟨S850000, .i32⟩ : BufTy).Contents (Elt F)),
    binary main_v332 main_v345 main_v346 (addi : (⟨S850000, .i32⟩ : BufTy).Contents (Elt F) → (⟨S850000, .i32⟩ : BufTy).Contents (Elt F) → (⟨S850000, .i32⟩ : BufTy).Contents (Elt F)),
    ternary main_v344 main_v346 main_v332 main_v347 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v347 main_v348 (broadcastInDim S850000x1 ![0] bcast_S850000_S850000x1_0 : (⟨S850000, .i32⟩ : BufTy).Contents (Elt F) → (⟨S850000x1, .i32⟩ : BufTy).Contents (Elt F)),
    binary main_v342 main_v348 main_v349 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v349 main_v335 main_v350 (mulf : (⟨S850000, .f32⟩ : BufTy).Contents (Elt F) → (⟨S850000, .f32⟩ : BufTy).Contents (Elt F) → (⟨S850000, .f32⟩ : BufTy).Contents (Elt F)),
    nullary main_c_76 (constantI S_ 32 0#32),
    unary main_c_76 main_v351 (broadcastInDim S850000 ![] bcast_S_S850000 : (⟨S_, .i32⟩ : BufTy).Contents (Elt F) → (⟨S850000, .i32⟩ : BufTy).Contents (Elt F)),
    binary main_v333 main_v351 main_v352 (cmpi .slt : (⟨S850000, .i32⟩ : BufTy).Contents (Elt F) → (⟨S850000, .i32⟩ : BufTy).Contents (Elt F) → (⟨S850000, .i1⟩ : BufTy).Contents (Elt F)),
    nullary main_c_77 (constantI S_ 32 50000#32),
    unary main_c_77 main_v353 (broadcastInDim S850000 ![] bcast_S_S850000 : (⟨S_, .i32⟩ : BufTy).Contents (Elt F) → (⟨S850000, .i32⟩ : BufTy).Contents (Elt F)),
    binary main_v333 main_v353 main_v354 (addi : (⟨S850000, .i32⟩ : BufTy).Contents (Elt F) → (⟨S850000, .i32⟩ : BufTy).Contents (Elt F) → (⟨S850000, .i32⟩ : BufTy).Contents (Elt F)),
    ternary main_v352 main_v354 main_v333 main_v355 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v355 main_v356 (broadcastInDim S850000x1 ![0] bcast_S850000_S850000x1_0 : (⟨S850000, .i32⟩ : BufTy).Contents (Elt F) → (⟨S850000x1, .i32⟩ : BufTy).Contents (Elt F)),
    binary main_v342 main_v356 main_v357 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v350 main_v357 main_v358 (mulf : (⟨S850000, .f32⟩ : BufTy).Contents (Elt F) → (⟨S850000, .f32⟩ : BufTy).Contents (Elt F) → (⟨S850000, .f32⟩ : BufTy).Contents (Elt F)),
    nullary main_c_78 (constantI S_ 32 0#32),
    unary main_c_78 main_v359 (broadcastInDim S850000 ![] bcast_S_S850000 : (⟨S_, .i32⟩ : BufTy).Contents (Elt F) → (⟨S850000, .i32⟩ : BufTy).Contents (Elt F)),
    binary main_v332 main_v359 main_v360 (cmpi .slt : (⟨S850000, .i32⟩ : BufTy).Contents (Elt F) → (⟨S850000, .i32⟩ : BufTy).Contents (Elt F) → (⟨S850000, .i1⟩ : BufTy).Contents (Elt F)),
    nullary main_c_79 (constantI S_ 32 50000#32),
    unary main_c_79 main_v361 (broadcastInDim S850000 ![] bcast_S_S850000 : (⟨S_, .i32⟩ : BufTy).Contents (Elt F) → (⟨S850000, .i32⟩ : BufTy).Contents (Elt F)),
    binary main_v332 main_v361 main_v362 (addi : (⟨S850000, .i32⟩ : BufTy).Contents (Elt F) → (⟨S850000, .i32⟩ : BufTy).Contents (Elt F) → (⟨S850000, .i32⟩ : BufTy).Contents (Elt F)),
    ternary main_v360 main_v362 main_v332 main_v363 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v363 main_v364 (broadcastInDim S850000x1 ![0] bcast_S850000_S850000x1_0 : (⟨S850000, .i32⟩ : BufTy).Contents (Elt F) → (⟨S850000x1, .i32⟩ : BufTy).Contents (Elt F)),
    binary main_v330 main_v364 main_v365 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v358 main_v366 (broadcastInDim S850000x1 ![0] bcast_S850000_S850000x1_0 : (⟨S850000, .f32⟩ : BufTy).Contents (Elt F) → (⟨S850000x1, .f32⟩ : BufTy).Contents (Elt F)),
    unary main_v366 main_v367 (broadcastInDim S850000x128 ![0, 1] bcast_S850000x1_S850000x128_0_1 : (⟨S850000x1, .f32⟩ : BufTy).Contents (Elt F) → (⟨S850000x128, .f32⟩ : BufTy).Contents (Elt F)),
    binary main_v365 main_v367 main_v368 (mulf : (⟨S850000x128, .f32⟩ : BufTy).Contents (Elt F) → (⟨S850000x128, .f32⟩ : BufTy).Contents (Elt F) → (⟨S850000x128, .f32⟩ : BufTy).Contents (Elt F)),
    nullary main_cst_80 (constant S_ .f32 0x00000000#32),
    unary main_cst_80 main_v369 (broadcastInDim S50000x128 ![] bcast_S_S50000x128 : (⟨S_, .f32⟩ : BufTy).Contents (Elt F) → (⟨S50000x128, .f32⟩ : BufTy).Contents (Elt F)),
    unary main_v333 main_v370 (broadcastInDim S850000x1 ![0] bcast_S850000_S850000x1_0 : (⟨S850000, .i32⟩ : BufTy).Contents (Elt F) → (⟨S850000x1, .i32⟩ : BufTy).Contents (Elt F)),
    ternary main_v369 main_v370 main_v368 main_v371 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v372 (broadcastInDim S1x128 ![1] bcast_S128_S1x128_1 : (⟨S128, .f32⟩ : BufTy).Contents (Elt F) → (⟨S1x128, .f32⟩ : BufTy).Contents (Elt F)),
    unary main_v372 main_v373 (broadcastInDim S50000x128 ![0, 1] bcast_S1x128_S50000x128_0_1 : (⟨S1x128, .f32⟩ : BufTy).Contents (Elt F) → (⟨S50000x128, .f32⟩ : BufTy).Contents (Elt F)),
    binary main_v371 main_v373 main_v374 (addf : (⟨S50000x128, .f32⟩ : BufTy).Contents (Elt F) → (⟨S50000x128, .f32⟩ : BufTy).Contents (Elt F) → (⟨S50000x128, .f32⟩ : BufTy).Contents (Elt F)),
    nullary main_cst_81 (constant S_ .f32 0x00000000#32),
    unary main_cst_81 main_v375 (broadcastInDim S50000x128 ![] bcast_S_S50000x128 : (⟨S_, .f32⟩ : BufTy).Contents (Elt F) → (⟨S50000x128, .f32⟩ : BufTy).Contents (Elt F)),
    binary main_v374 main_v375 main_v376 (cmpf .ogt : (⟨S50000x128, .f32⟩ : BufTy).Contents (Elt F) → (⟨S50000x128, .f32⟩ : BufTy).Contents (Elt F) → (⟨S50000x128, .i1⟩ : BufTy).Contents (Elt F)),
    unary main_arg7 main_v377 (broadcastInDim S1x128 ![1] bcast_S128_S1x128_1 : (⟨S128, .f32⟩ : BufTy).Contents (Elt F) → (⟨S1x128, .f32⟩ : BufTy).Contents (Elt F)),
    unary main_v377 main_v378 (broadcastInDim S50000x128 ![0, 1] bcast_S1x128_S50000x128_0_1 : (⟨S1x128, .f32⟩ : BufTy).Contents (Elt F) → (⟨S50000x128, .f32⟩ : BufTy).Contents (Elt F)),
    binary main_v378 main_v374 main_v379 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v376) (TRef.of (T := ⟨S50000x128, .f32⟩) main_v374) (TRef.of (T := ⟨S50000x128, .f32⟩) main_v379) (TRef.of (T := ⟨S50000x128, .f32⟩) main_v380) select ]

/-- The references operations 415 to 471 write, in order. -/
abbrev bodyA3_W : List (Ref sig .tc) := [main_cst_71, main_v336, main_v337, main_v338, main_cst_72, main_v339, main_v340, main_v341, main_cst_73, main_call12_v0, main_v342, main_c_74, main_v343, main_v344, main_c_75, main_v345, main_v346, main_v347, main_v348, main_v349, main_v350, main_c_76, main_v351, main_v352, main_c_77, main_v353, main_v354, main_v355, main_v356, main_v357, main_v358, main_c_78, main_v359, main_v360, main_c_79, main_v361, main_v362, main_v363, main_v364, main_v365, main_v366, main_v367, main_v368, main_cst_80, main_v369, main_v370, main_v371, main_v372, main_v373, main_v374, main_cst_81, main_v375, main_v376, main_v377, main_v378, main_v379, main_v380]

set_option maxHeartbeats 4000000 in
/-- Operations 472 to 478 of the reference's @main, in order. -/
abbrev headB3 : List (HloOp τ sig (Elt F)) :=
  [ binary main_v380 main_arg5 main_v381 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v382 (iotaInDim S50000 32 0),
    binary main_v325 main_v382 main_v383 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v327 main_v382 main_v384 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_82 (constant S_ .f32 0x3F800000#32),
    unary main_cst_82 main_v385 (broadcastInDim S50000 ![] bcast_S_S50000 : (⟨S_, .f32⟩ : BufTy).Contents (Elt F) → (⟨S50000, .f32⟩ : BufTy).Contents (Elt F)),
    binary main_v329 main_v385 main_v386 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The references operations 472 to 478 write, in order. -/
abbrev headB3_W : List (Ref sig .tc) := [main_v381, main_v382, main_v383, main_v384, main_cst_82, main_v385, main_v386]

set_option maxHeartbeats 4000000 in
/-- Operations 479 to 535 of the reference's @main, in order. -/
abbrev bodyB3 : List (HloOp τ sig (Elt F)) :=
  [ nullary main_cst_83 (constant S_ .f32 0x00000000#32),
    unary main_cst_83 main_v387 (broadcastInDim S50000 ![] bcast_S_S50000 : (⟨S_, .f32⟩ : BufTy).Contents (Elt F) → (⟨S50000, .f32⟩ : BufTy).Contents (Elt F)),
    unary main_v384 main_v388 (broadcastInDim S850000x1 ![0] bcast_S850000_S850000x1_0 : (⟨S850000, .i32⟩ : BufTy).Contents (Elt F) → (⟨S850000x1, .i32⟩ : BufTy).Contents (Elt F)),
    ternary main_v387 main_v388 main_v386 main_v389 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_84 (constant S_ .f32 0x00000000#32),
    unary main_cst_84 main_v390 (broadcastInDim S50000 ![] bcast_S_S50000 : (⟨S_, .f32⟩ : BufTy).Contents (Elt F) → (⟨S50000, .f32⟩ : BufTy).Contents (Elt F)),
    binary main_v389 main_v390 main_v391 (cmpf .ogt : (⟨S50000, .f32⟩ : BufTy).Contents (Elt F) → (⟨S50000, .f32⟩ : BufTy).Contents (Elt F) → (⟨S50000, .i1⟩ : BufTy).Contents (Elt F)),
    unary main_v389 main_v392 (Host.rsqrt : (⟨S50000, .f32⟩ : BufTy).Contents (Elt F) → (⟨S50000, .f32⟩ : BufTy).Contents (Elt F)),
    nullary main_cst_85 (constant S_ .f32 0x00000000#32),
    TRef.unary (TRef.of (T := ⟨S_, .f32⟩) main_cst_85) (TRef.of (T := ⟨S50000, .f32⟩) main_call14_v0) (broadcastInDim S50000 ![] bcast_S_S50000),
    TRef.ternary (TRef.of (T := ⟨S50000, .i1⟩) main_v391) (TRef.of (T := ⟨S50000, .f32⟩) main_v392) (TRef.of (T := ⟨S50000, .f32⟩) main_call14_v0) (TRef.of (T := ⟨S50000, .f32⟩) main_v393) select,
    nullary main_c_86 (constantI S_ 32 0#32),
    unary main_c_86 main_v394 (broadcastInDim S850000 ![] bcast_S_S850000 : (⟨S_, .i32⟩ : BufTy).Contents (Elt F) → (⟨S850000, .i32⟩ : BufTy).Contents (Elt F)),
    binary main_v383 main_v394 main_v395 (cmpi .slt : (⟨S850000, .i32⟩ : BufTy).Contents (Elt F) → (⟨S850000, .i32⟩ : BufTy).Contents (Elt F) → (⟨S850000, .i1⟩ : BufTy).Contents (Elt F)),
    nullary main_c_87 (constantI S_ 32 50000#32),
    unary main_c_87 main_v396 (broadcastInDim S850000 ![] bcast_S_S850000 : (⟨S_, .i32⟩ : BufTy).Contents (Elt F) → (⟨S850000, .i32⟩ : BufTy).Contents (Elt F)),
    binary main_v383 main_v396 main_v397 (addi : (⟨S850000, .i32⟩ : BufTy).Contents (Elt F) → (⟨S850000, .i32⟩ : BufTy).Contents (Elt F) → (⟨S850000, .i32⟩ : BufTy).Contents (Elt F)),
    ternary main_v395 main_v397 main_v383 main_v398 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v398 main_v399 (broadcastInDim S850000x1 ![0] bcast_S850000_S850000x1_0 : (⟨S850000, .i32⟩ : BufTy).Contents (Elt F) → (⟨S850000x1, .i32⟩ : BufTy).Contents (Elt F)),
    binary main_v393 main_v399 main_v400 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v400 main_v386 main_v401 (mulf : (⟨S850000, .f32⟩ : BufTy).Contents (Elt F) → (⟨S850000, .f32⟩ : BufTy).Contents (Elt F) → (⟨S850000, .f32⟩ : BufTy).Contents (Elt F)),
    nullary main_c_88 (constantI S_ 32 0#32),
    unary main_c_88 main_v402 (broadcastInDim S850000 ![] bcast_S_S850000 : (⟨S_, .i32⟩ : BufTy).Contents (Elt F) → (⟨S850000, .i32⟩ : BufTy).Contents (Elt F)),
    binary main_v384 main_v402 main_v403 (cmpi .slt : (⟨S850000, .i32⟩ : BufTy).Contents (Elt F) → (⟨S850000, .i32⟩ : BufTy).Contents (Elt F) → (⟨S850000, .i1⟩ : BufTy).Contents (Elt F)),
    nullary main_c_89 (constantI S_ 32 50000#32),
    unary main_c_89 main_v404 (broadcastInDim S850000 ![] bcast_S_S850000 : (⟨S_, .i32⟩ : BufTy).Contents (Elt F) → (⟨S850000, .i32⟩ : BufTy).Contents (Elt F)),
    binary main_v384 main_v404 main_v405 (addi : (⟨S850000, .i32⟩ : BufTy).Contents (Elt F) → (⟨S850000, .i32⟩ : BufTy).Contents (Elt F) → (⟨S850000, .i32⟩ : BufTy).Contents (Elt F)),
    ternary main_v403 main_v405 main_v384 main_v406 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v406 main_v407 (broadcastInDim S850000x1 ![0] bcast_S850000_S850000x1_0 : (⟨S850000, .i32⟩ : BufTy).Contents (Elt F) → (⟨S850000x1, .i32⟩ : BufTy).Contents (Elt F)),
    binary main_v393 main_v407 main_v408 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v401 main_v408 main_v409 (mulf : (⟨S850000, .f32⟩ : BufTy).Contents (Elt F) → (⟨S850000, .f32⟩ : BufTy).Contents (Elt F) → (⟨S850000, .f32⟩ : BufTy).Contents (Elt F)),
    nullary main_c_90 (constantI S_ 32 0#32),
    unary main_c_90 main_v410 (broadcastInDim S850000 ![] bcast_S_S850000 : (⟨S_, .i32⟩ : BufTy).Contents (Elt F) → (⟨S850000, .i32⟩ : BufTy).Contents (Elt F)),
    binary main_v383 main_v410 main_v411 (cmpi .slt : (⟨S850000, .i32⟩ : BufTy).Contents (Elt F) → (⟨S850000, .i32⟩ : BufTy).Contents (Elt F) → (⟨S850000, .i1⟩ : BufTy).Contents (Elt F)),
    nullary main_c_91 (constantI S_ 32 50000#32),
    unary main_c_91 main_v412 (broadcastInDim S850000 ![] bcast_S_S850000 : (⟨S_, .i32⟩ : BufTy).Contents (Elt F) → (⟨S850000, .i32⟩ : BufTy).Contents (Elt F)),
    binary main_v383 main_v412 main_v413 (addi : (⟨S850000, .i32⟩ : BufTy).Contents (Elt F) → (⟨S850000, .i32⟩ : BufTy).Contents (Elt F) → (⟨S850000, .i32⟩ : BufTy).Contents (Elt F)),
    ternary main_v411 main_v413 main_v383 main_v414 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v414 main_v415 (broadcastInDim S850000x1 ![0] bcast_S850000_S850000x1_0 : (⟨S850000, .i32⟩ : BufTy).Contents (Elt F) → (⟨S850000x1, .i32⟩ : BufTy).Contents (Elt F)),
    binary main_v381 main_v415 main_v416 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v409 main_v417 (broadcastInDim S850000x1 ![0] bcast_S850000_S850000x1_0 : (⟨S850000, .f32⟩ : BufTy).Contents (Elt F) → (⟨S850000x1, .f32⟩ : BufTy).Contents (Elt F)),
    unary main_v417 main_v418 (broadcastInDim S850000x128 ![0, 1] bcast_S850000x1_S850000x128_0_1 : (⟨S850000x1, .f32⟩ : BufTy).Contents (Elt F) → (⟨S850000x128, .f32⟩ : BufTy).Contents (Elt F)),
    binary main_v416 main_v418 main_v419 (mulf : (⟨S850000x128, .f32⟩ : BufTy).Contents (Elt F) → (⟨S850000x128, .f32⟩ : BufTy).Contents (Elt F) → (⟨S850000x128, .f32⟩ : BufTy).Contents (Elt F)),
    nullary main_cst_92 (constant S_ .f32 0x00000000#32),
    unary main_cst_92 main_v420 (broadcastInDim S50000x128 ![] bcast_S_S50000x128 : (⟨S_, .f32⟩ : BufTy).Contents (Elt F) → (⟨S50000x128, .f32⟩ : BufTy).Contents (Elt F)),
    unary main_v384 main_v421 (broadcastInDim S850000x1 ![0] bcast_S850000_S850000x1_0 : (⟨S850000, .i32⟩ : BufTy).Contents (Elt F) → (⟨S850000x1, .i32⟩ : BufTy).Contents (Elt F)),
    ternary main_v420 main_v421 main_v419 main_v422 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v423 (broadcastInDim S1x128 ![1] bcast_S128_S1x128_1 : (⟨S128, .f32⟩ : BufTy).Contents (Elt F) → (⟨S1x128, .f32⟩ : BufTy).Contents (Elt F)),
    unary main_v423 main_v424 (broadcastInDim S50000x128 ![0, 1] bcast_S1x128_S50000x128_0_1 : (⟨S1x128, .f32⟩ : BufTy).Contents (Elt F) → (⟨S50000x128, .f32⟩ : BufTy).Contents (Elt F)),
    binary main_v422 main_v424 main_v425 (addf : (⟨S50000x128, .f32⟩ : BufTy).Contents (Elt F) → (⟨S50000x128, .f32⟩ : BufTy).Contents (Elt F) → (⟨S50000x128, .f32⟩ : BufTy).Contents (Elt F)),
    nullary main_cst_93 (constant S_ .f32 0x00000000#32),
    unary main_cst_93 main_v426 (broadcastInDim S50000x128 ![] bcast_S_S50000x128 : (⟨S_, .f32⟩ : BufTy).Contents (Elt F) → (⟨S50000x128, .f32⟩ : BufTy).Contents (Elt F)),
    binary main_v425 main_v426 main_v427 (cmpf .ogt : (⟨S50000x128, .f32⟩ : BufTy).Contents (Elt F) → (⟨S50000x128, .f32⟩ : BufTy).Contents (Elt F) → (⟨S50000x128, .i1⟩ : BufTy).Contents (Elt F)),
    unary main_arg7 main_v428 (broadcastInDim S1x128 ![1] bcast_S128_S1x128_1 : (⟨S128, .f32⟩ : BufTy).Contents (Elt F) → (⟨S1x128, .f32⟩ : BufTy).Contents (Elt F)),
    unary main_v428 main_v429 (broadcastInDim S50000x128 ![0, 1] bcast_S1x128_S50000x128_0_1 : (⟨S1x128, .f32⟩ : BufTy).Contents (Elt F) → (⟨S50000x128, .f32⟩ : BufTy).Contents (Elt F)),
    binary main_v429 main_v425 main_v430 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v427) (TRef.of (T := ⟨S50000x128, .f32⟩) main_v425) (TRef.of (T := ⟨S50000x128, .f32⟩) main_v430) (TRef.of (T := ⟨S50000x128, .f32⟩) main_v431) select ]

/-- The references operations 479 to 535 write, in order. -/
abbrev bodyB3_W : List (Ref sig .tc) := [main_cst_83, main_v387, main_v388, main_v389, main_cst_84, main_v390, main_v391, main_v392, main_cst_85, main_call14_v0, main_v393, main_c_86, main_v394, main_v395, main_c_87, main_v396, main_v397, main_v398, main_v399, main_v400, main_v401, main_c_88, main_v402, main_v403, main_c_89, main_v404, main_v405, main_v406, main_v407, main_v408, main_v409, main_c_90, main_v410, main_v411, main_c_91, main_v412, main_v413, main_v414, main_v415, main_v416, main_v417, main_v418, main_v419, main_cst_92, main_v420, main_v421, main_v422, main_v423, main_v424, main_v425, main_cst_93, main_v426, main_v427, main_v428, main_v429, main_v430, main_v431]

end Cert.ReferenceIdeal.Hand

end
-- ==== Proof.RefRunV3.lean ====
/- Scale 3 of the reference in five tables: from contents holding the arguments each table leaves the generated stages and keeps what it does not write. -/
import proofs.«160853_j19842748908317_1_alg».proof.Proof.RefRunC3
import proofs.«160853_j19842748908317_1_alg».proof.Proof.RefReadP
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem slices3_out (V : Valuation τ sig (Elt F)) :
    after slices3 V (Proc.devRef .tc main_v325) = val_main_v325 (F := F) (V (Proc.devRef .tc main_arg1))
    ∧ after slices3 V (Proc.devRef .tc main_v327) = val_main_v327 (F := F) (V (Proc.devRef .tc main_arg1))
    ∧ after slices3 V (Proc.devRef .tc main_v329) = val_main_v329 (F := F) (V (Proc.devRef .tc main_arg2)) := by
  refine ⟨?_, ?_, ?_⟩ <;> (after_results; rfl)

theorem headA3_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h3 : V (Proc.devRef .tc main_arg3) = x3)
    (hs1 : V (Proc.devRef .tc main_v325) = val_main_v325 (F := F) x1) (hs3 : V (Proc.devRef .tc main_v327) = val_main_v327 (F := F) x1)
    (hs5 : V (Proc.devRef .tc main_v329) = val_main_v329 (F := F) x2) :
    after headA3 V (Proc.devRef .tc main_v330) = val_main_v330 (F := F) x0 x3
    ∧ after headA3 V (Proc.devRef .tc main_v332) = val_main_v332 (F := F) x1
    ∧ after headA3 V (Proc.devRef .tc main_v333) = val_main_v333 (F := F) x1
    ∧ after headA3 V (Proc.devRef .tc main_v335) = val_main_v335 (F := F) x2 := by
  refine ⟨?_, ?_, ?_, ?_⟩
  · after_results; rw [h0, h3]; rfl
  · after_results; rw [hs1]; rfl
  · after_results; rw [hs3]; rfl
  · after_results; rw [hs5]; rfl

set_option maxHeartbeats 1600000 in

theorem bodyA3_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h4 : V (Proc.devRef .tc main_arg4) = x4) (h7 : V (Proc.devRef .tc main_arg7) = x7)
    (hd : V (Proc.devRef .tc main_v330) = val_main_v330 (F := F) x0 x3) (hr : V (Proc.devRef .tc main_v332) = val_main_v332 (F := F) x1)
    (hc : V (Proc.devRef .tc main_v333) = val_main_v333 (F := F) x1) (hw : V (Proc.devRef .tc main_v335) = val_main_v335 (F := F) x2) :
    after bodyA3 V (Proc.devRef .tc main_v380) = val_main_v380 (F := F) x0 x1 x2 x3 x4 x7 := by
  after_results_simp
  simp only [TRef.ofBuf, TRef.toBuf, cast_eq]
  rw [h4, h7, hd, hr, hc, hw]
  rfl

theorem slices3_writes : (slices3 : List (HloOp τ sig (Elt F))).Forall fun op => op.writes ⊆ (slices3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem slices3_kept (V : Valuation τ sig (Elt F)) {r : Ref sig .tc} (hr : r ∉ slices3_W) :
    after slices3 V (Proc.devRef .tc r) = V (Proc.devRef .tc r) :=
  after_of_writes_sub slices3 V slices3_writes hr

theorem headA3_writes : (headA3 : List (HloOp τ sig (Elt F))).Forall fun op => op.writes ⊆ (headA3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headA3_kept (V : Valuation τ sig (Elt F)) {r : Ref sig .tc} (hr : r ∉ headA3_W) :
    after headA3 V (Proc.devRef .tc r) = V (Proc.devRef .tc r) :=
  after_of_writes_sub headA3 V headA3_writes hr

theorem bodyA3_writes : (bodyA3 : List (HloOp τ sig (Elt F))).Forall fun op => op.writes ⊆ (bodyA3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyA3_kept (V : Valuation τ sig (Elt F)) {r : Ref sig .tc} (hr : r ∉ bodyA3_W) :
    after bodyA3 V (Proc.devRef .tc r) = V (Proc.devRef .tc r) :=
  after_of_writes_sub bodyA3 V bodyA3_writes hr

theorem headB3_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h5 : V (Proc.devRef .tc main_arg5) = x5) (hl : V (Proc.devRef .tc main_v380) = val_main_v380 (F := F) x0 x1 x2 x3 x4 x7)
    (hs1 : V (Proc.devRef .tc main_v325) = val_main_v325 (F := F) x1) (hs3 : V (Proc.devRef .tc main_v327) = val_main_v327 (F := F) x1)
    (hs5 : V (Proc.devRef .tc main_v329) = val_main_v329 (F := F) x2) :
    after headB3 V (Proc.devRef .tc main_v381) = val_main_v381 (F := F) x0 x1 x2 x3 x4 x5 x7
    ∧ after headB3 V (Proc.devRef .tc main_v383) = val_main_v383 (F := F) x1
    ∧ after headB3 V (Proc.devRef .tc main_v384) = val_main_v384 (F := F) x1
    ∧ after headB3 V (Proc.devRef .tc main_v386) = val_main_v386 (F := F) x2 := by
  refine ⟨?_, ?_, ?_, ?_⟩
  · after_results; rw [h5, hl]; rfl
  · after_results; rw [hs1]; rfl
  · after_results; rw [hs3]; rfl
  · after_results; rw [hs5]; rfl

set_option maxHeartbeats 1600000 in

theorem bodyB3_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h6 : V (Proc.devRef .tc main_arg6) = x6) (h7 : V (Proc.devRef .tc main_arg7) = x7)
    (hd : V (Proc.devRef .tc main_v381) = val_main_v381 (F := F) x0 x1 x2 x3 x4 x5 x7) (hr : V (Proc.devRef .tc main_v383) = val_main_v383 (F := F) x1)
    (hc : V (Proc.devRef .tc main_v384) = val_main_v384 (F := F) x1) (hw : V (Proc.devRef .tc main_v386) = val_main_v386 (F := F) x2) :
    after bodyB3 V (Proc.devRef .tc main_v431) = val_main_v431 (F := F) x0 x1 x2 x3 x4 x5 x6 x7 := by
  after_results_simp
  simp only [TRef.ofBuf, TRef.toBuf, cast_eq]
  rw [h6, h7, hd, hr, hc, hw]
  rfl

theorem headB3_writes : (headB3 : List (HloOp τ sig (Elt F))).Forall fun op => op.writes ⊆ (headB3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem headB3_kept (V : Valuation τ sig (Elt F)) {r : Ref sig .tc} (hr : r ∉ headB3_W) :
    after headB3 V (Proc.devRef .tc r) = V (Proc.devRef .tc r) :=
  after_of_writes_sub headB3 V headB3_writes hr

theorem bodyB3_writes : (bodyB3 : List (HloOp τ sig (Elt F))).Forall fun op => op.writes ⊆ (bodyB3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem bodyB3_kept (V : Valuation τ sig (Elt F)) {r : Ref sig .tc} (hr : r ∉ bodyB3_W) :
    after bodyB3 V (Proc.devRef .tc r) = V (Proc.devRef .tc r) :=
  after_of_writes_sub bodyB3 V bodyB3_writes hr

theorem slices3_fresh : (slices3 : List (HloOp τ sig (Elt F))).Forall fun op => op.fresh = ∅ := by
  simp only [List.Forall]; repeat' constructor
theorem headA3_fresh : (headA3 : List (HloOp τ sig (Elt F))).Forall fun op => op.fresh = ∅ := by
  simp only [List.Forall]; repeat' constructor
theorem bodyA3_fresh : (bodyA3 : List (HloOp τ sig (Elt F))).Forall fun op => op.fresh = ∅ := by
  simp only [List.Forall]; repeat' constructor
theorem headB3_fresh : (headB3 : List (HloOp τ sig (Elt F))).Forall fun op => op.fresh = ∅ := by
  simp only [List.Forall]; repeat' constructor
theorem bodyB3_fresh : (bodyB3 : List (HloOp τ sig (Elt F))).Forall fun op => op.fresh = ∅ := by
  simp only [List.Forall]; repeat' constructor

def scale3 : List (HloOp τ sig (Elt F)) := slices3 ++ (headA3 ++ (bodyA3 ++ (headB3 ++ bodyB3)))

abbrev scale3_W : List (Ref sig .tc) := slices3_W ++ headA3_W ++ bodyA3_W ++ headB3_W ++ bodyB3_W

theorem after_scale3 (V : Valuation τ sig (Elt F)) :
    after scale3 V = after bodyB3 (after headB3 (after bodyA3 (after headA3 (after slices3 V)))) := by
  simp only [scale3, StableHlo.after_append]

theorem scale3_fresh : ∀ op ∈ (scale3 : List (HloOp τ sig (Elt F))), op.fresh = ∅ := by
  intro op hop
  simp only [scale3, List.mem_append] at hop
  rcases hop with h | h | h | h | h
  · exact List.forall_iff_forall_mem.mp slices3_fresh op h
  · exact List.forall_iff_forall_mem.mp headA3_fresh op h
  · exact List.forall_iff_forall_mem.mp bodyA3_fresh op h
  · exact List.forall_iff_forall_mem.mp headB3_fresh op h
  · exact List.forall_iff_forall_mem.mp bodyB3_fresh op h

theorem scale3_kept (V : Valuation τ sig (Elt F)) {r : Ref sig .tc}
    (hr : r ∉ scale3_W) :
    after scale3 V (Proc.devRef .tc r) = V (Proc.devRef .tc r) := by
  rw [after_scale3]
  simp only [scale3_W, List.mem_append, not_or] at hr
  obtain ⟨⟨⟨⟨k1, k2⟩, k3⟩, k4⟩, k5⟩ := hr
  rw [bodyB3_kept _ k5, headB3_kept _ k4, bodyA3_kept _ k3, headA3_kept _ k2, slices3_kept _ k1]

theorem scale3_args (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale3 V (Proc.devRef .tc main_arg0) = x0 ∧ after scale3 V (Proc.devRef .tc main_arg1) = x1
    ∧ after scale3 V (Proc.devRef .tc main_arg2) = x2 ∧ after scale3 V (Proc.devRef .tc main_arg3) = x3
    ∧ after scale3 V (Proc.devRef .tc main_arg4) = x4 ∧ after scale3 V (Proc.devRef .tc main_arg5) = x5
    ∧ after scale3 V (Proc.devRef .tc main_arg6) = x6 ∧ after scale3 V (Proc.devRef .tc main_arg7) = x7 :=
  ⟨(scale3_kept V (by decide)).trans h0, (scale3_kept V (by decide)).trans h1, (scale3_kept V (by decide)).trans h2,
    (scale3_kept V (by decide)).trans h3, (scale3_kept V (by decide)).trans h4, (scale3_kept V (by decide)).trans h5,
    (scale3_kept V (by decide)).trans h6, (scale3_kept V (by decide)).trans h7⟩

theorem scale3_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after scale3 V (Proc.devRef .tc main_v431) = val_main_v431 (F := F) x0 x1 x2 x3 x4 x5 x6 x7 := by
  rw [after_scale3]
  obtain ⟨s1, s3, s5⟩ := slices3_out V
  rw [h1] at s1 s3
  rw [h2] at s5
  obtain ⟨ad, ar, ac, aw⟩ := headA3_out (after slices3 V) x0 x1 x2 x3 x4 x5 x6 x7
    ((slices3_kept V (by decide)).trans h0) ((slices3_kept V (by decide)).trans h3) s1 s3 s5
  have al := bodyA3_out (after headA3 (after slices3 V)) x0 x1 x2 x3 x4 x5 x6 x7
    ((headA3_kept _ (by decide)).trans ((slices3_kept V (by decide)).trans h4))
    ((headA3_kept _ (by decide)).trans ((slices3_kept V (by decide)).trans h7)) ad ar ac aw
  obtain ⟨bd, br, bc, bw⟩ := headB3_out (after bodyA3 (after headA3 (after slices3 V))) x0 x1 x2 x3 x4 x5 x6 x7
    ((bodyA3_kept _ (by decide)).trans ((headA3_kept _ (by decide)).trans ((slices3_kept V (by decide)).trans h5))) al
    ((bodyA3_kept _ (by decide)).trans ((headA3_kept _ (by decide)).trans s1))
    ((bodyA3_kept _ (by decide)).trans ((headA3_kept _ (by decide)).trans s3))
    ((bodyA3_kept _ (by decide)).trans ((headA3_kept _ (by decide)).trans s5))
  exact bodyB3_out (after headB3 (after bodyA3 (after headA3 (after slices3 V)))) x0 x1 x2 x3 x4 x5 x6 x7
    ((headB3_kept _ (by decide)).trans ((bodyA3_kept _ (by decide)).trans ((headA3_kept _ (by decide)).trans ((slices3_kept V (by decide)).trans h6))))
    ((headB3_kept _ (by decide)).trans ((bodyA3_kept _ (by decide)).trans ((headA3_kept _ (by decide)).trans ((slices3_kept V (by decide)).trans h7))))
    bd br bc bw

end Cert.ReferenceIdeal.Hand

end
-- ==== Proof.RefRunV.lean ====
/- The reference's run: its operations are four scales' lines and five stacking operations; each scale leaves its result and keeps what it does not write, so the result array ends at the stacked stage of the arguments. -/
import proofs.«160853_j19842748908317_1_alg».proof.Proof.RefReadP
import proofs.«160853_j19842748908317_1_alg».proof.Proof.RefRunCT
import proofs.«160853_j19842748908317_1_alg».proof.Proof.RefRunV0
import proofs.«160853_j19842748908317_1_alg».proof.Proof.RefRunV1
import proofs.«160853_j19842748908317_1_alg».proof.Proof.RefRunV2
import proofs.«160853_j19842748908317_1_alg».proof.Proof.RefRunV3
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

theorem stack_out (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (ha : V (Proc.devRef .tc main_v107) = val_main_v107 (F := F) x0 x1 x2 x3 x4 x5 x6 x7) (hb : V (Proc.devRef .tc main_v215) = val_main_v215 (F := F) x0 x1 x2 x3 x4 x5 x6 x7)
    (hc : V (Proc.devRef .tc main_v323) = val_main_v323 (F := F) x0 x1 x2 x3 x4 x5 x6 x7) (hd : V (Proc.devRef .tc main_v431) = val_main_v431 (F := F) x0 x1 x2 x3 x4 x5 x6 x7) :
    after stack V (Proc.devRef .tc main_v436) = val_main_v436 (F := F) x0 x1 x2 x3 x4 x5 x6 x7 := by
  simp only [after_cons, after_nil]
  rw [nary4_result]
  repeat (first | rw [unary_result] | (rw [unary_result_ne]; rotate_left; decide))
  rw [ha, hb, hc, hd]
  rfl

theorem stack_writes : (stack : List (HloOp τ sig (Elt F))).Forall fun op => op.writes ⊆ (stack_W.map (Proc.devRef (τ := τ) .tc)).toFinset := by
  simp only [List.Forall]
  repeat' constructor
  all_goals (simp only [nullary_writes, unary_writes, binary_writes, ternary_writes, reshape_writes, nary_writes, Finset.singleton_subset_iff, List.mem_toFinset]; exact List.mem_map_of_mem (by decide))

theorem stack_kept (V : Valuation τ sig (Elt F)) {r : Ref sig .tc} (hr : r ∉ stack_W) :
    after stack V (Proc.devRef .tc r) = V (Proc.devRef .tc r) :=
  after_of_writes_sub stack V stack_writes hr

theorem stack_fresh : (stack : List (HloOp τ sig (Elt F))).Forall fun op => op.fresh = ∅ := by
  simp only [List.Forall]; repeat' constructor

/-- The reference's 541 operations: the four scales' lines, then the five that stack the results. -/
abbrev line : List (HloOp τ sig (Elt F)) := scale0 ++ (scale1 ++ (scale2 ++ (scale3 ++ stack)))

set_option maxRecDepth 1000000 in
set_option maxHeartbeats 40000000 in
theorem main_eq (c : Dev nD) : main (F := F) c = seq line := rfl

theorem scopedRefs_eq : (Finset.univ.filter fun b : Ref sig .tc => b.isScoped) = ∅ := by decide
theorem scopedSems_eq : (Finset.univ.filter fun sm : SemLoc sig => sm.isScoped .tc) = ∅ := by decide

/-- Each operation is one of the builders, and a builder's references all lie in `tcRefs`; scale by scale. -/
theorem line_sub : (line : List (HloOp τ sig (Elt F))).Forall fun op => op.bufs ⊆ tcRefs τ sig := by
  have h0 : (scale0 : List (HloOp τ sig (Elt F))).Forall fun op => op.bufs ⊆ tcRefs τ sig := by
    simp only [scale0, List.forall_append, List.Forall, nullary_bufs_sub, unary_bufs_sub, binary_bufs_sub, ternary_bufs_sub, reshape_bufs_sub, nary_bufs_sub, and_self]
  have h1 : (scale1 : List (HloOp τ sig (Elt F))).Forall fun op => op.bufs ⊆ tcRefs τ sig := by
    simp only [scale1, List.forall_append, List.Forall, nullary_bufs_sub, unary_bufs_sub, binary_bufs_sub, ternary_bufs_sub, reshape_bufs_sub, nary_bufs_sub, and_self]
  have h2 : (scale2 : List (HloOp τ sig (Elt F))).Forall fun op => op.bufs ⊆ tcRefs τ sig := by
    simp only [scale2, List.forall_append, List.Forall, nullary_bufs_sub, unary_bufs_sub, binary_bufs_sub, ternary_bufs_sub, reshape_bufs_sub, nary_bufs_sub, and_self]
  have h3 : (scale3 : List (HloOp τ sig (Elt F))).Forall fun op => op.bufs ⊆ tcRefs τ sig := by
    simp only [scale3, List.forall_append, List.Forall, nullary_bufs_sub, unary_bufs_sub, binary_bufs_sub, ternary_bufs_sub, reshape_bufs_sub, nary_bufs_sub, and_self]
  have h4 : (stack : List (HloOp τ sig (Elt F))).Forall fun op => op.bufs ⊆ tcRefs τ sig := by
    simp only [List.Forall, nullary_bufs_sub, unary_bufs_sub, binary_bufs_sub, ternary_bufs_sub, reshape_bufs_sub, nary_bufs_sub, and_self]
  exact List.forall_append.mpr ⟨h0, List.forall_append.mpr ⟨h1, List.forall_append.mpr ⟨h2, List.forall_append.mpr ⟨h3, h4⟩⟩⟩⟩

theorem ops_fresh : ∀ op ∈ (line : List (HloOp τ sig (Elt F))), op.fresh = ∅ := by
  intro op hop
  simp only [List.mem_append] at hop
  rcases hop with h | h | h | h | h
  · exact scale0_fresh op h
  · exact scale1_fresh op h
  · exact scale2_fresh op h
  · exact scale3_fresh op h
  · exact List.forall_iff_forall_mem.mp stack_fresh op h

theorem after_ops (V : Valuation τ sig (Elt F)) :
    after line V = after stack (after scale3 (after scale2 (after scale1 (after scale0 V)))) := by
  simp only [StableHlo.after_append]

theorem ref_value (V : Valuation τ sig (Elt F)) (x0 : (⟨S50000x128, .f32⟩ : BufTy).Contents (Elt F)) (x1 : (⟨S4x2x800000, .i32⟩ : BufTy).Contents (Elt F)) (x2 : (⟨S4x800000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 x7 : (⟨S128, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7) :
    after line V (Proc.devRef .tc main_v436) = val_main_v436 (F := F) x0 x1 x2 x3 x4 x5 x6 x7 := by
  rw [after_ops]
  obtain ⟨p0, p1, p2, p3, p4, p5, p6, p7⟩ := scale0_args V x0 x1 x2 x3 x4 x5 x6 x7 h0 h1 h2 h3 h4 h5 h6 h7
  have a0 := scale0_out V x0 x1 x2 x3 x4 x5 x6 x7 h0 h1 h2 h3 h4 h5 h6 h7
  obtain ⟨q0, q1, q2, q3, q4, q5, q6, q7⟩ := scale1_args (after scale0 V) x0 x1 x2 x3 x4 x5 x6 x7 p0 p1 p2 p3 p4 p5 p6 p7
  have a1 := scale1_out (after scale0 V) x0 x1 x2 x3 x4 x5 x6 x7 p0 p1 p2 p3 p4 p5 p6 p7
  have a0 := (scale1_kept (after scale0 V) (r := main_v107) (by decide)).trans a0
  obtain ⟨r0, r1, r2, r3, r4, r5, r6, r7⟩ := scale2_args (after scale1 (after scale0 V)) x0 x1 x2 x3 x4 x5 x6 x7 q0 q1 q2 q3 q4 q5 q6 q7
  have a2 := scale2_out (after scale1 (after scale0 V)) x0 x1 x2 x3 x4 x5 x6 x7 q0 q1 q2 q3 q4 q5 q6 q7
  have a1 := (scale2_kept (after scale1 (after scale0 V)) (r := main_v215) (by decide)).trans a1
  have a0 := (scale2_kept (after scale1 (after scale0 V)) (r := main_v107) (by decide)).trans a0
  have a3 := scale3_out (after scale2 (after scale1 (after scale0 V))) x0 x1 x2 x3 x4 x5 x6 x7 r0 r1 r2 r3 r4 r5 r6 r7
  have a2 := (scale3_kept (after scale2 (after scale1 (after scale0 V))) (r := main_v323) (by decide)).trans a2
  have a1 := (scale3_kept (after scale2 (after scale1 (after scale0 V))) (r := main_v215) (by decide)).trans a1
  have a0 := (scale3_kept (after scale2 (after scale1 (after scale0 V))) (r := main_v107) (by decide)).trans a0
  exact stack_out (after scale3 (after scale2 (after scale1 (after scale0 V)))) x0 x1 x2 x3 x4 x5 x6 x7 a0 a1 a2 a3

theorem ref_kept (V : Valuation τ sig (Elt F)) {r : Ref sig .tc}
    (k0 : r ∉ scale0_W) (k1 : r ∉ scale1_W) (k2 : r ∉ scale2_W) (k3 : r ∉ scale3_W) (kt : r ∉ stack_W) :
    after line V (Proc.devRef .tc r) = V (Proc.devRef .tc r) := by
  rw [after_ops, stack_kept _ kt, scale3_kept _ k3, scale2_kept _ k2, scale1_kept _ k1, scale0_kept _ k0]

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v436)
        = val_main_v436 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun r h c => ⟨(h c main_v436).trans (ref_value (launchContents m c) _ _ _ _ _ _ _ _ rfl rfl rfl rfl rfl rfl rfl rfl),
      (h c main_arg0).trans (ref_kept (launchContents m c) (by decide) (by decide) (by decide) (by decide) (by decide)),
      (h c main_arg1).trans (ref_kept (launchContents m c) (by decide) (by decide) (by decide) (by decide) (by decide)),
      (h c main_arg2).trans (ref_kept (launchContents m c) (by decide) (by decide) (by decide) (by decide) (by decide)),
      (h c main_arg3).trans (ref_kept (launchContents m c) (by decide) (by decide) (by decide) (by decide) (by decide)),
      (h c main_arg4).trans (ref_kept (launchContents m c) (by decide) (by decide) (by decide) (by decide) (by decide)),
      (h c main_arg5).trans (ref_kept (launchContents m c) (by decide) (by decide) (by decide) (by decide) (by decide)),
      (h c main_arg6).trans (ref_kept (launchContents m c) (by decide) (by decide) (by decide) (by decide) (by decide)),
      (h c main_arg7).trans (ref_kept (launchContents m c) (by decide) (by decide) (by decide) (by decide) (by decide))⟩)
    (run_seq scopedRefs_eq scopedSems_eq defs main (fun _ => line) main_eq (fun _ => line_sub) m ρ
      (fun _ => ops_fresh))

end Cert.ReferenceIdeal.Hand

end
-- ==== Proof.lean ====
/- A two-layer graph convolution at four scales against its jnp reference. Per layer both compute act(scatter(norm · (z W)[src]) + b); the kernel program's regions are the reference's product, row scaling and rectifier as whole-array operations and everything else is the same host operations, so the two results are one term of the arguments. Finiteness is never used; the idealization rewrote nothing. -/
import proofs.«160853_j19842748908317_1_alg».proof.Defs
import proofs.«160853_j19842748908317_1_alg».proof.Proof.Gen.Kernel
import proofs.«160853_j19842748908317_1_alg».proof.Proof.Gen.KernelIdeal
import proofs.«160853_j19842748908317_1_alg».proof.Proof.Gen.ReferenceIdeal
import proofs.«160853_j19842748908317_1_alg».proof.Proof.Gen.Pre_finite_inputs
import proofs.«160853_j19842748908317_1_alg».proof.Proof.K.Frame
import proofs.«160853_j19842748908317_1_alg».proof.Proof.KI.RunV
import proofs.«160853_j19842748908317_1_alg».proof.Proof.KI.KernelVal
import proofs.«160853_j19842748908317_1_alg».proof.Proof.RefRunV
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Rg.frame (F := Bits) m ρ

/-- The idealized program's frame is its run with the result dropped. -/
theorem frame_ki : Cert.frame_KernelIdeal := fun m ρ _ =>
  (θ_run Cert.KernelIdeal.defs _ _).mono (fun _ h c => (h c).2) (Cert.KernelIdeal.Rg.runV (F := Ideal) m ρ)

theorem frame_ri : Cert.frame_ReferenceIdeal := fun m ρ _ =>
  (θ_run Cert.ReferenceIdeal.defs _ _).mono (fun _ h c => (h c).2) (Cert.ReferenceIdeal.Hand.ref_run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.ReadP.val_main_v436 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Ch.kernel_val m c), (h c).2⟩)
      (Cert.KernelIdeal.Rg.runV (F := Ideal) m ρ)
  · refine (θ_run Cert.ReferenceIdeal.defs _ _).mono (fun r h c => ⟨(h c).1.trans ?_, (h c).2⟩)
      (Cert.ReferenceIdeal.Hand.ref_run (F := Ideal) m' ρ')
    obtain ⟨h0, h1, h2, h3, h4, h5, h6, h7⟩ := hagree c
    rw [h0, h1, h2, h3, h4, h5, h6, h7]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
